-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S2000x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x13 : Shape := ⟨2, ![100000, 13]⟩
abbrev S1600000 : Shape := ⟨1, ![1600000]⟩
abbrev S2x1600000 : Shape := ⟨2, ![2, 1600000]⟩
abbrev S100000 : Shape := ⟨1, ![100000]⟩
abbrev S13x128 : Shape := ⟨2, ![13, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S3 : Shape := ⟨1, ![3]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x13 : S_.BroadcastsInDim S100000x13 (![] : Fin 0 → Fin S100000x13.rank)
  reducesTo_S100000x13_S_d0_1 : S100000x13.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S13x128 : S_.BroadcastsInDim S13x128 (![] : Fin 0 → Fin S13x128.rank)
  reducesTo_S13x128_S_d0_1 : S13x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg3 : IVec S100000 32) (main_v63 : IVec S_ 1) (main_v65 : IVec S2x1600000 1) (main_v67 : IVec S2x1600000 1) : IVec S_ 1 :=
  let main_v68 : IVec S2x1600000 1 := andi main_v65 main_v67
  let main_c_26 : IVec S_ 1 := constantI S_ 1 1#1
  let main_v69 : IVec S_ 1 := (fun x v => Host.reduce IntOp.andi x v reducesTo_S2x1600000_S_d0_1 h_S_) main_v68 main_c_26
  let main_v70 : IVec S_ 1 := andi main_v63 main_v69
  let main_c_27 : IVec S_ 32 := constantI S_ 32 0#32
  let main_v71 : IVec S100000 32 := broadcastInDim S100000 ![] bcast_S_S100000 main_c_27
  let main_v72 : IVec S100000 1 := cmpi .sge main_arg3 main_v71
  let main_c_28 : IVec S_ 32 := constantI S_ 32 1024#32
  let main_v73 : IVec S100000 32 := broadcastInDim S100000 ![] bcast_S_S100000 main_c_28
  let main_v74 : IVec S100000 1 := cmpi .slt main_arg3 main_v73
  let main_v75 : IVec S100000 1 := andi main_v72 main_v74
  let main_c_29 : IVec S_ 1 := constantI S_ 1 1#1
  let main_v76 : IVec S_ 1 := (fun x v => Host.reduce IntOp.andi x v reducesTo_S100000_S_d0 h_S_) main_v75 main_c_29
  let main_v77 : IVec S_ 1 := andi main_v70 main_v76
  main_v77

def fn_part3 {F : FTy → Type} [FloatOps F] (main_arg2 : IVec S2x1600000 32) (main_arg3 : IVec S100000 32) (main_arg13 : FVec F S64x1 .f32) (main_arg14 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg13
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 0#32
  let main_v64 : IVec S2x1600000 32 := broadcastInDim S2x1600000 ![] bcast_S_S2x1600000 main_c_24
  let main_v65 : IVec S2x1600000 1 := cmpi .sge main_arg2 main_v64
  let main_c_25 : IVec S_ 32 := constantI S_ 32 100000#32
  let main_v66 : IVec S2x1600000 32 := broadcastInDim S2x1600000 ![] bcast_S_S2x1600000 main_c_25
  let main_v67 : IVec S2x1600000 1 := cmpi .slt main_arg2 main_v66
  fn_part4 (F := F) main_arg3 main_v63 main_v65 main_v67

def fn_part2 {F : FTy → Type} [FloatOps F] (main_arg2 : IVec S2x1600000 32) (main_arg3 : IVec S100000 32) (main_arg9 : FVec F S3x128 .f32) (main_arg10 : FVec F S3 .f32) (main_arg11 : FVec F S128x64 .f32) (main_arg12 : FVec F S64 .f32) (main_arg13 : FVec F S64x1 .f32) (main_arg14 : FVec F S1 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg2 main_arg3 main_arg13 main_arg14 main_v48 main_v49 main_v50

def fn_part1 {F : FTy → Type} [FloatOps F] (main_arg2 : IVec S2x1600000 32) (main_arg3 : IVec S100000 32) (main_arg6 : FVec F S1x128 .f32) (main_arg7 : FVec F S128 .f32) (main_arg8 : FVec F S3x128x128 .f32) (main_arg9 : FVec F S3x128 .f32) (main_arg10 : FVec F S3 .f32) (main_arg11 : FVec F S128x64 .f32) (main_arg12 : FVec F S64 .f32) (main_arg13 : FVec F S64x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg2 main_arg3 main_arg9 main_arg10 main_arg11 main_arg12 main_arg13 main_arg14 main_v33

def fn {F : FTy → Type} [FloatOps F] (main_arg0 : FVec F S100000x13 .f32) (main_arg1 : FVec F S1600000 .f32) (main_arg2 : IVec S2x1600000 32) (main_arg3 : IVec S100000 32) (main_arg4 : FVec F S13x128 .f32) (main_arg5 : FVec F S128 .f32) (main_arg6 : FVec F S1x128 .f32) (main_arg7 : FVec F S128 .f32) (main_arg8 : FVec F S3x128x128 .f32) (main_arg9 : FVec F S3x128 .f32) (main_arg10 : FVec F S3 .f32) (main_arg11 : FVec F S128x64 .f32) (main_arg12 : FVec F S64 .f32) (main_arg13 : FVec F S64x1 .f32) (main_arg14 : FVec F S1 .f32) : IVec S_ 1 :=
  let main_v0 : FVec F S100000x13 .f32 := Host.absf main_arg0
  let main_cst : FVec F S_ .f32 := constant S_ .f32 0x7F800000#32
  let main_v1 : FVec F S100000x13 .f32 := broadcastInDim S100000x13 ![] bcast_S_S100000x13 main_cst
  let main_v2 : IVec S100000x13 1 := cmpf .olt main_v0 main_v1
  let main_c : IVec S_ 1 := constantI S_ 1 1#1
  let main_v3 : IVec S_ 1 := (fun x v => Host.reduce IntOp.andi x v reducesTo_S100000x13_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S13x128 .f32 := Host.absf main_arg4
  let main_cst_2 : FVec F S_ .f32 := constant S_ .f32 0x7F800000#32
  let main_v10 : FVec F S13x128 .f32 := broadcastInDim S13x128 ![] bcast_S_S13x128 main_cst_2
  let main_v11 : IVec S13x128 1 := cmpf .olt main_v9 main_v10
  let main_c_3 : IVec S_ 1 := constantI S_ 1 1#1
  let main_v12 : IVec S_ 1 := (fun x v => Host.reduce IntOp.andi x v reducesTo_S13x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_v13 main_v16
-- ==== Kernel.lean ====
abbrev S100000x13 : Shape := ⟨2, ![100000, 13]⟩
abbrev S1600000 : Shape := ⟨1, ![1600000]⟩
abbrev S2x1600000 : Shape := ⟨2, ![2, 1600000]⟩
abbrev S100000 : Shape := ⟨1, ![100000]⟩
abbrev S13x128 : Shape := ⟨2, ![13, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S3 : Shape := ⟨1, ![3]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S100352x13 : Shape := ⟨2, ![100352, 13]⟩
abbrev S1x1600000 : Shape := ⟨2, ![1, 1600000]⟩
abbrev S1601536 : Shape := ⟨1, ![1601536]⟩
abbrev S1601536x1 : Shape := ⟨2, ![1601536, 1]⟩
abbrev S100000x1 : Shape := ⟨2, ![100000, 1]⟩
abbrev S3x1x1 : Shape := ⟨3, ![3, 1, 1]⟩
abbrev S3x1x128 : Shape := ⟨3, ![3, 1, 128]⟩
abbrev S100352x128 : Shape := ⟨2, ![100352, 128]⟩
abbrev S7168x13 : Shape := ⟨2, ![7168, 13]⟩
abbrev S7168x128 : Shape := ⟨2, ![7168, 128]⟩
abbrev S1601536x128 : Shape := ⟨2, ![1601536, 128]⟩
abbrev S4096x1 : Shape := ⟨2, ![4096, 1]⟩
abbrev S1024x128 : Shape := ⟨2, ![1024, 128]⟩
abbrev S4096x128 : Shape := ⟨2, ![4096, 128]⟩
abbrev S1x1024 : Shape := ⟨2, ![1, 1024]⟩
abbrev S4096x1024 : Shape := ⟨2, ![4096, 1024]⟩
abbrev S1x1x1 : Shape := ⟨3, ![1, 1, 1]⟩
abbrev S1x1 : Shape := ⟨2, ![1, 1]⟩
abbrev S1x128x128 : Shape := ⟨3, ![1, 128, 128]⟩
abbrev S128x128 : Shape := ⟨2, ![128, 128]⟩
abbrev S1x1x128 : Shape := ⟨3, ![1, 1, 128]⟩
abbrev S100000x128 : Shape := ⟨2, ![100000, 128]⟩
abbrev S2000x1 : Shape := ⟨2, ![2000, 1]⟩
abbrev S2000x128 : Shape := ⟨2, ![2000, 128]⟩
abbrev S2000x1024 : Shape := ⟨2, ![2000, 1024]⟩
abbrev S1024 : Shape := ⟨1, ![1024]⟩
abbrev S1024x1 : Shape := ⟨2, ![1024, 1]⟩
abbrev S1024x64 : Shape := ⟨2, ![1024, 64]⟩
abbrev S1x64 : Shape := ⟨2, ![1, 64]⟩

abbrev nBuf : Space → Nat
  | .hbm => 87
  | .vmem => 95
  | .smem => 0
  | _ => 0

abbrev bufTy : (tb : Table) → Fin (tcTables nBuf tb) → BufTy
  | .hbm, ⟨0, _⟩ => ⟨S100000x13, .f32⟩
  | .hbm, ⟨1, _⟩ => ⟨S1600000, .f32⟩
  | .hbm, ⟨2, _⟩ => ⟨S2x1600000, .i32⟩
  | .hbm, ⟨3, _⟩ => ⟨S100000, .i32⟩
  | .hbm, ⟨4, _⟩ => ⟨S13x128, .f32⟩
  | .hbm, ⟨5, _⟩ => ⟨S128, .f32⟩
  | .hbm, ⟨6, _⟩ => ⟨S1x128, .f32⟩
  | .hbm, ⟨7, _⟩ => ⟨S128, .f32⟩
  | .hbm, ⟨8, _⟩ => ⟨S3x128x128, .f32⟩
  | .hbm, ⟨9, _⟩ => ⟨S3x128, .f32⟩
  | .hbm, ⟨10, _⟩ => ⟨S3, .f32⟩
  | .hbm, ⟨11, _⟩ => ⟨S128x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S_, .f32⟩
  | .hbm, ⟨16, _⟩ => ⟨S_, .f32⟩
  | .hbm, ⟨17, _⟩ => ⟨S100352x13, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S_, .i32⟩
  | .hbm, ⟨24, _⟩ => ⟨S1601536, .i32⟩
  | .hbm, ⟨25, _⟩ => ⟨S1601536x1, .i32⟩
  | .hbm, ⟨26, _⟩ => ⟨S_, .i32⟩
  | .hbm, ⟨27, _⟩ => ⟨S_, .i32⟩
  | .hbm, ⟨28, _⟩ => ⟨S1601536, .i32⟩
  | .hbm, ⟨29, _⟩ => ⟨S1601536x1, .i32⟩
  | .hbm, ⟨30, _⟩ => ⟨S_, .f32⟩
  | .hbm, ⟨31, _⟩ => ⟨S_, .f32⟩
  | .hbm, ⟨32, _⟩ => ⟨S1601536, .f32⟩
  | .hbm, ⟨33, _⟩ => ⟨S1601536x1, .f32⟩
  | .hbm, ⟨34, _⟩ => ⟨S100000x1, .i32⟩
  | .hbm, ⟨35, _⟩ => ⟨S1x128, .f32⟩
  | .hbm, ⟨36, _⟩ => ⟨S1x128, .f32⟩
  | .hbm, ⟨37, _⟩ => ⟨S3x1x1, .f32⟩
  | .hbm, ⟨38, _⟩ => ⟨S3x1x128, .f32⟩
  | .hbm, ⟨39, _⟩ => ⟨S100352x128, .bf16⟩
  | .hbm, ⟨40, _⟩ => ⟨S1601536x128, .bf16⟩
  | .hbm, ⟨41, _⟩ => ⟨S100352x128, .bf16⟩
  | .hbm, ⟨42, _⟩ => ⟨S1x1x1, .f32⟩
  | .hbm, ⟨43, _⟩ => ⟨S1x1, .f32⟩
  | .hbm, ⟨44, _⟩ => ⟨S1x128x128, .f32⟩
  | .hbm, ⟨45, _⟩ => ⟨S128x128, .f32⟩
  | .hbm, ⟨46, _⟩ => ⟨S1x1x128, .f32⟩
  | .hbm, ⟨47, _⟩ => ⟨S1x128, .f32⟩
  | .hbm, ⟨48, _⟩ => ⟨S100352x128, .bf16⟩
  | .hbm, ⟨49, _⟩ => ⟨S1601536x128, .bf16⟩
  | .hbm, ⟨50, _⟩ => ⟨S100352x128, .bf16⟩
  | .hbm, ⟨51, _⟩ => ⟨S1x1x1, .f32⟩
  | .hbm, ⟨52, _⟩ => ⟨S1x1, .f32⟩
  | .hbm, ⟨53, _⟩ => ⟨S1x128x128, .f32⟩
  | .hbm, ⟨54, _⟩ => ⟨S128x128, .f32⟩
  | .hbm, ⟨55, _⟩ => ⟨S1x1x128, .f32⟩
  | .hbm, ⟨56, _⟩ => ⟨S1x128, .f32⟩
  | .hbm, ⟨57, _⟩ => ⟨S100352x128, .bf16⟩
  | .hbm, ⟨58, _⟩ => ⟨S1601536x128, .bf16⟩
  | .hbm, ⟨59, _⟩ => ⟨S100352x128, .bf16⟩
  | .hbm, ⟨60, _⟩ => ⟨S1x1x1, .f32⟩
  | .hbm, ⟨61, _⟩ => ⟨S1x1, .f32⟩
  | .hbm, ⟨62, _⟩ => ⟨S1x128x128, .f32⟩
  | .hbm, ⟨63, _⟩ => ⟨S128x128, .f32⟩
  | .hbm, ⟨64, _⟩ => ⟨S1x1x128, .f32⟩
  | .hbm, ⟨65, _⟩ => ⟨S1x128, .f32⟩
  | .hbm, ⟨66, _⟩ => ⟨S100352x128, .bf16⟩
  | .hbm, ⟨67, _⟩ => ⟨S100000x128, .bf16⟩
  | .hbm, ⟨68, _⟩ => ⟨S1024x128, .f32⟩
  | .hbm, ⟨69, _⟩ => ⟨S1x1024, .f32⟩
  | .hbm, ⟨70, _⟩ => ⟨S1024x1, .f32⟩
  | .hbm, ⟨71, _⟩ => ⟨S_, .f32⟩
  | .hbm, ⟨72, _⟩ => ⟨S1024x1, .f32⟩
  | .hbm, ⟨73, _⟩ => ⟨S1024x1, .f32⟩
  | .hbm, ⟨74, _⟩ => ⟨S1024x128, .f32⟩
  | .hbm, ⟨75, _⟩ => ⟨S1024x128, .f32⟩
  | .hbm, ⟨76, _⟩ => ⟨S1024x64, .f32⟩
  | .hbm, ⟨77, _⟩ => ⟨S1x64, .f32⟩
  | .hbm, ⟨78, _⟩ => ⟨S1024x64, .f32⟩
  | .hbm, ⟨79, _⟩ => ⟨S1024x64, .f32⟩
  | .hbm, ⟨80, _⟩ => ⟨S_, .f32⟩
  | .hbm, ⟨81, _⟩ => ⟨S1024x64, .f32⟩
  | .hbm, ⟨82, _⟩ => ⟨S1024x64, .f32⟩
  | .hbm, ⟨83, _⟩ => ⟨S1024x1, .f32⟩
  | .hbm, ⟨84, _⟩ => ⟨S1x1, .f32⟩
  | .hbm, ⟨85, _⟩ => ⟨S1024x1, .f32⟩
  | .hbm, ⟨86, _⟩ => ⟨S1024x1, .f32⟩
  | .local _ .vmem, ⟨0, _⟩ => ⟨S7168x13, .f32⟩
  | .local _ .vmem, ⟨1, _⟩ => ⟨S7168x13, .f32⟩
  | .local _ .vmem, ⟨2, _⟩ => ⟨S13x128, .f32⟩
  | .local _ .vmem, ⟨3, _⟩ => ⟨S1x128, .f32⟩
  | .local _ .vmem, ⟨4, _⟩ => ⟨S7168x128, .bf16⟩
  | .local _ .vmem, ⟨5, _⟩ => ⟨S7168x128, .bf16⟩
  | .local _ .vmem, ⟨6, _⟩ => ⟨S4096x1, .i32⟩
  | .local _ .vmem, ⟨7, _⟩ => ⟨S4096x1, .i32⟩
  | .local _ .vmem, ⟨8, _⟩ => ⟨S4096x1, .f32⟩
  | .local _ .vmem, ⟨9, _⟩ => ⟨S4096x1, .f32⟩
  | .local _ .vmem, ⟨10, _⟩ => ⟨S1024x128, .bf16⟩
  | .local _ .vmem, ⟨11, _⟩ => ⟨S1024x128, .bf16⟩
  | .local _ .vmem, ⟨12, _⟩ => ⟨S1x128, .f32⟩
  | .local _ .vmem, ⟨13, _⟩ => ⟨S1x128, .f32⟩
  | .local _ .vmem, ⟨14, _⟩ => ⟨S4096x128, .bf16⟩
  | .local _ .vmem, ⟨15, _⟩ => ⟨S4096x128, .bf16⟩
  | .local _ .vmem, ⟨16, _⟩ => ⟨S4096x128, .f32⟩
  | .local _ .vmem, ⟨17, _⟩ => ⟨S4096x1, .i32⟩
  | .local _ .vmem, ⟨18, _⟩ => ⟨S4096x1, .i32⟩
  | .local _ .vmem, ⟨19, _⟩ => ⟨S4096x128, .bf16⟩
  | .local _ .vmem, ⟨20, _⟩ => ⟨S4096x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .f32⟩
  | .local _ .vmem, ⟨24, _⟩ => ⟨S7168x128, .bf16⟩
  | .local _ .vmem, ⟨25, _⟩ => ⟨S7168x128, .bf16⟩
  | .local _ .vmem, ⟨26, _⟩ => ⟨S7168x128, .bf16⟩
  | .local _ .vmem, ⟨27, _⟩ => ⟨S7168x128, .bf16⟩
  | .local _ .vmem, ⟨28, _⟩ => ⟨S1x1, .f32⟩
  | .local _ .vmem, ⟨29, _⟩ => ⟨S128x128, .f32⟩
  | .local _ .vmem, ⟨30, _⟩ => ⟨S1x128, .f32⟩
  | .local _ .vmem, ⟨31, _⟩ => ⟨S7168x128, .bf16⟩
  | .local _ .vmem, ⟨32, _⟩ => ⟨S7168x128, .bf16⟩
  | .local _ .vmem, ⟨33, _⟩ => ⟨S4096x1, .i32⟩
  | .local _ .vmem, ⟨34, _⟩ => ⟨S4096x1, .i32⟩
  | .local _ .vmem, ⟨35, _⟩ => ⟨S4096x1, .f32⟩
  | .local _ .vmem, ⟨36, _⟩ => ⟨S4096x1, .f32⟩
  | .local _ .vmem, ⟨37, _⟩ => ⟨S1024x128, .bf16⟩
  | .local _ .vmem, ⟨38, _⟩ => ⟨S1024x128, .bf16⟩
  | .local _ .vmem, ⟨39, _⟩ => ⟨S1x128, .f32⟩
  | .local _ .vmem, ⟨40, _⟩ => ⟨S1x128, .f32⟩
  | .local _ .vmem, ⟨41, _⟩ => ⟨S4096x128, .bf16⟩
  | .local _ .vmem, ⟨42, _⟩ => ⟨S4096x128, .bf16⟩
  | .local _ .vmem, ⟨43, _⟩ => ⟨S4096x128, .f32⟩
  | .local _ .vmem, ⟨44, _⟩ => ⟨S4096x1, .i32⟩
  | .local _ .vmem, ⟨45, _⟩ => ⟨S4096x1, .i32⟩
  | .local _ .vmem, ⟨46, _⟩ => ⟨S4096x128, .bf16⟩
  | .local _ .vmem, ⟨47, _⟩ => ⟨S4096x128, .bf16⟩
  | .local _ .vmem, ⟨48, _⟩ => ⟨S1024x128, .bf16⟩
  | .local _ .vmem, ⟨49, _⟩ => ⟨S1024x128, .bf16⟩
  | .local _ .vmem, ⟨50, _⟩ => ⟨S1024x128, .f32⟩
  | .local _ .vmem, ⟨51, _⟩ => ⟨S7168x128, .bf16⟩
  | .local _ .vmem, ⟨52, _⟩ => ⟨S7168x128, .bf16⟩
  | .local _ .vmem, ⟨53, _⟩ => ⟨S7168x128, .bf16⟩
  | .local _ .vmem, ⟨54, _⟩ => ⟨S7168x128, .bf16⟩
  | .local _ .vmem, ⟨55, _⟩ => ⟨S1x1, .f32⟩
  | .local _ .vmem, ⟨56, _⟩ => ⟨S128x128, .f32⟩
  | .local _ .vmem, ⟨57, _⟩ => ⟨S1x128, .f32⟩
  | .local _ .vmem, ⟨58, _⟩ => ⟨S7168x128, .bf16⟩
  | .local _ .vmem, ⟨59, _⟩ => ⟨S7168x128, .bf16⟩
  | .local _ .vmem, ⟨60, _⟩ => ⟨S4096x1, .i32⟩
  | .local _ .vmem, ⟨61, _⟩ => ⟨S4096x1, .i32⟩
  | .local _ .vmem, ⟨62, _⟩ => ⟨S4096x1, .f32⟩
  | .local _ .vmem, ⟨63, _⟩ => ⟨S4096x1, .f32⟩
  | .local _ .vmem, ⟨64, _⟩ => ⟨S1024x128, .bf16⟩
  | .local _ .vmem, ⟨65, _⟩ => ⟨S1024x128, .bf16⟩
  | .local _ .vmem, ⟨66, _⟩ => ⟨S1x128, .f32⟩
  | .local _ .vmem, ⟨67, _⟩ => ⟨S1x128, .f32⟩
  | .local _ .vmem, ⟨68, _⟩ => ⟨S4096x128, .bf16⟩
  | .local _ .vmem, ⟨69, _⟩ => ⟨S4096x128, .bf16⟩
  | .local _ .vmem, ⟨70, _⟩ => ⟨S4096x128, .f32⟩
  | .local _ .vmem, ⟨71, _⟩ => ⟨S4096x1, .i32⟩
  | .local _ .vmem, ⟨72, _⟩ => ⟨S4096x1, .i32⟩
  | .local _ .vmem, ⟨73, _⟩ => ⟨S4096x128, .bf16⟩
  | .local _ .vmem, ⟨74, _⟩ => ⟨S4096x128, .bf16⟩
  | .local _ .vmem, ⟨75, _⟩ => ⟨S1024x128, .bf16⟩
  | .local _ .vmem, ⟨76, _⟩ => ⟨S1024x128, .bf16⟩
  | .local _ .vmem, ⟨77, _⟩ => ⟨S1024x128, .f32⟩
  | .local _ .vmem, ⟨78, _⟩ => ⟨S7168x128, .bf16⟩
  | .local _ .vmem, ⟨79, _⟩ => ⟨S7168x128, .bf16⟩
  | .local _ .vmem, ⟨80, _⟩ => ⟨S7168x128, .bf16⟩
  | .local _ .vmem, ⟨81, _⟩ => ⟨S7168x128, .bf16⟩
  | .local _ .vmem, ⟨82, _⟩ => ⟨S1x1, .f32⟩
  | .local _ .vmem, ⟨83, _⟩ => ⟨S128x128, .f32⟩
  | .local _ .vmem, ⟨84, _⟩ => ⟨S1x128, .f32⟩
  | .local _ .vmem, ⟨85, _⟩ => ⟨S7168x128, .bf16⟩
  | .local _ .vmem, ⟨86, _⟩ => ⟨S7168x128, .bf16⟩
  | .local _ .vmem, ⟨87, _⟩ => ⟨S2000x1, .i32⟩
  | .local _ .vmem, ⟨88, _⟩ => ⟨S2000x1, .i32⟩
  | .local _ .vmem, ⟨89, _⟩ => ⟨S2000x128, .bf16⟩
  | .local _ .vmem, ⟨90, _⟩ => ⟨S2000x128, .bf16⟩
  | .local _ .vmem, ⟨91, _⟩ => ⟨S1024x128, .f32⟩
  | .local _ .vmem, ⟨92, _⟩ => ⟨S1x1024, .f32⟩
  | .local _ .vmem, ⟨93, _⟩ => ⟨S1024x128, .f32⟩
  | .local _ .vmem, ⟨94, _⟩ => ⟨S1x1024, .f32⟩
  | _, _ => ⟨S100000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_call1_v0 : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_call2_v0 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_call3_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45_0 : Ref sig .tc := ⟨.hbm, 68, rfl⟩
abbrev main_v45_1 : Ref sig .tc := ⟨.hbm, 69, rfl⟩
abbrev main_v46 : Ref sig .tc := ⟨.hbm, 70, rfl⟩
abbrev main_cst_2 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call4_cst : Ref sig .tc := ⟨.hbm, 80, rfl⟩
abbrev main_call4_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc4_scratch0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_scratch0 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg5_0 : Ref sig .tc := ⟨.vmem, 68, rfl⟩
abbrev cc7_stg5_1 : Ref sig .tc := ⟨.vmem, 69, rfl⟩
abbrev cc7_scratch0 : Ref sig .tc := ⟨.vmem, 70, rfl⟩
abbrev cc8_stg0_0 : Ref sig .tc := ⟨.vmem, 71, rfl⟩
abbrev cc8_stg0_1 : Ref sig .tc := ⟨.vmem, 72, rfl⟩
abbrev cc8_stg1_0 : Ref sig .tc := ⟨.vmem, 73, rfl⟩
abbrev cc8_stg1_1 : Ref sig .tc := ⟨.vmem, 74, rfl⟩
abbrev cc8_stg2_0 : Ref sig .tc := ⟨.vmem, 75, rfl⟩
abbrev cc8_stg2_1 : Ref sig .tc := ⟨.vmem, 76, rfl⟩
abbrev cc8_scratch0 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg1_1 : Ref sig .tc := ⟨.vmem, 81, rfl⟩
abbrev cc9_stg2_0 : Ref sig .tc := ⟨.vmem, 82, rfl⟩
abbrev cc9_stg3_0 : Ref sig .tc := ⟨.vmem, 83, rfl⟩
abbrev cc9_stg4_0 : Ref sig .tc := ⟨.vmem, 84, rfl⟩
abbrev cc9_stg5_0 : Ref sig .tc := ⟨.vmem, 85, rfl⟩
abbrev cc9_stg5_1 : Ref sig .tc := ⟨.vmem, 86, rfl⟩
abbrev cc10_stg0_0 : Ref sig .tc := ⟨.vmem, 87, rfl⟩
abbrev cc10_stg0_1 : Ref sig .tc := ⟨.vmem, 88, rfl⟩
abbrev cc10_stg1_0 : Ref sig .tc := ⟨.vmem, 89, rfl⟩
abbrev cc10_stg1_1 : Ref sig .tc := ⟨.vmem, 90, rfl⟩
abbrev cc10_stg2_0 : Ref sig .tc := ⟨.vmem, 91, rfl⟩
abbrev cc10_stg3_0 : Ref sig .tc := ⟨.vmem, 92, rfl⟩
abbrev cc10_scratch0 : Ref sig .tc := ⟨.vmem, 93, rfl⟩
abbrev cc10_scratch1 : Ref sig .tc := ⟨.vmem, 94, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem5_0 : DmaSem sig := 39
abbrev cc4_sem5_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc6_sem0_0 : DmaSem sig := 47
abbrev cc6_sem0_1 : DmaSem sig := 48
abbrev cc6_sem1_0 : DmaSem sig := 49
abbrev cc6_sem1_1 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem4_0 : DmaSem sig := 63
abbrev cc7_sem5_0 : DmaSem sig := 64
abbrev cc7_sem5_1 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem2_1 : DmaSem sig := 71
abbrev cc9_sem0_0 : DmaSem sig := 72
abbrev cc9_sem0_1 : DmaSem sig := 73
abbrev cc9_sem1_0 : DmaSem sig := 74
abbrev cc9_sem1_1 : DmaSem sig := 75
abbrev cc9_sem2_0 : DmaSem sig := 76
abbrev cc9_sem3_0 : DmaSem sig := 77
abbrev cc9_sem4_0 : DmaSem sig := 78
abbrev cc9_sem5_0 : DmaSem sig := 79
abbrev cc9_sem5_1 : DmaSem sig := 80
abbrev cc10_sem0_0 : DmaSem sig := 81
abbrev cc10_sem0_1 : DmaSem sig := 82
abbrev cc10_sem1_0 : DmaSem sig := 83
abbrev cc10_sem1_1 : DmaSem sig := 84
abbrev cc10_sem2_0 : DmaSem sig := 85
abbrev cc10_sem3_0 : DmaSem sig := 86

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7168x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7168x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![391, 98], ![false, false]⟩

def k1_cond2 (i : grid1.Coords) : BitVec 1 :=
  let arg1 : BitVec 32 := BitVec.ofNat 32 (i 1).val
  let c97_i32 : BitVec 32 := 97#32
  let v23 : BitVec 1 := Scalar.cmpi .eq arg1 c97_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S4096x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![98, 391], ![false, false]⟩

def k2_cond2 (i : grid2.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![14], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S7168x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S7168x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S7168x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![391, 98], ![false, false]⟩

def k4_cond2 (i : grid4.Coords) : BitVec 1 :=
  let arg1 : BitVec 32 := BitVec.ofNat 32 (i 1).val
  let c97_i32 : BitVec 32 := 97#32
  let v23 : BitVec 1 := Scalar.cmpi .eq arg1 c97_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S4096x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev grid5 : Pipeline.Grid := ⟨2, ![98, 391], ![false, false]⟩

def k5_cond2 (i : grid5.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4096x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![14], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S7168x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S7168x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S7168x128 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨2, ![391, 98], ![false, false]⟩

def k7_cond2 (i : grid7.Coords) : BitVec 1 :=
  let arg1 : BitVec 32 := BitVec.ofNat 32 (i 1).val
  let c97_i32 : BitVec 32 := 97#32
  let v23 : BitVec 1 := Scalar.cmpi .eq arg1 c97_i32
  let v24 : BitVec 32 := Scalar.extui v23
  let c0_i32_8 : BitVec 32 := 0#32
  let v25 : BitVec 1 := Scalar.cmpi .ne v24 c0_i32_8
  v25

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S4096x1 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S4096x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1024x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 2 → Memref sig .tc .vmem S4096x128 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

abbrev grid8 : Pipeline.Grid := ⟨2, ![98, 391], ![false, false]⟩

def k8_cond2 (i : grid8.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S4096x1 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S4096x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x128 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨1, ![14], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S7168x128 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S7168x128 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S7168x128 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![50], ![false]⟩

def k10_cond2 (i : grid10.Coords) : BitVec 1 :=
  let arg0 : BitVec 32 := BitVec.ofNat 32 (i 0).val
  let c49_i32 : BitVec 32 := 49#32
  let v28 : BitVec 1 := Scalar.cmpi .eq arg0 c49_i32
  let v29 : BitVec 32 := Scalar.extui v28
  let c0_i32_13 : BitVec 32 := 0#32
  let v30 : BitVec 1 := Scalar.cmpi .ne v29 c0_i32_13
  v30

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x1 .i32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1024x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x1024 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

class Facts₀ : Prop where
  pads_S100000x13_S100352x13_03520_000 : S100000x13.Pads (![0, 0] : Fin 2 → Nat) ![352, 0] ![0, 0] S100352x13
  h_S_ : 0 < S_.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S1600000_S1601536_015360 : S1600000.Pads (![0] : Fin 1 → Nat) ![1536] ![0] S1601536
  shapeCasts_S1601536_S1601536x1 : S1601536.ShapeCasts S1601536x1
  shapeCasts_S100000_S100000x1 : S100000.ShapeCasts S100000x1
  shapeCasts_S128_S1x128 : S128.ShapeCasts S1x128
  shapeCasts_S3_S3x1x1 : S3.ShapeCasts S3x1x1
  shapeCasts_S3x128_S3x1x128 : S3x128.ShapeCasts S3x1x128
  inb_S7168x13_S7168x13_0_0 : ∀ a, (![0, 0] : Fin 2 → Nat) a + S7168x13.size a ≤ S7168x13.size a
  h_S7168x13 : 0 < S7168x13.numel
  shapeCasts_S7168x13_S7168x13 : S7168x13.ShapeCasts S7168x13
  bitsLt_bf16_f32 : FTy.bits .bf16 < FTy.bits .f32
  inb_S13x128_S13x128_0_0 : ∀ a, (![0, 0] : Fin 2 → Nat) a + S13x128.size a ≤ S13x128.size a
  h_S13x128 : 0 < S13x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S7168x128 : S1x128.Broadcasts S7168x128
  inb_S7168x128_S7168x128_0_0 : ∀ a, (![0, 0] : Fin 2 → Nat) a + S7168x128.size a ≤ S7168x128.size a
  h_S7168x128 : 0 < S7168x128.numel
  packedbf16_S7168x128_S7168x128_0_0 : (Rect.unit (s := S7168x128) ![0, 0] S7168x128.size inb_S7168x128_S7168x128_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1x1024_d1_w32 : S1x1024.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x1024 : S4096x1.Broadcasts S4096x1024
  broadcasts_S1x1024_S4096x1024 : S1x1024.Broadcasts S4096x1024
  natLt_1_32 : 1 < 32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S4096x1_S4096x128 : S4096x1.Broadcasts S4096x128
  broadcasts_S1x128_S4096x128 : S1x128.Broadcasts S4096x128
  packedbf16_S4096x128_S4096x128_0_0 : (Rect.unit (s := S4096x128) ![0, 0] S4096x128.size inb_S4096x128_S4096x128_0_0).PackedRows (EltTy.packing .bf16)
  packedbf16_S1024x128_S1024x128_0_0 : (Rect.unit (s := S1024x128) ![0, 0] S1024x128.size inb_S1024x128_S1024x128_0_0).PackedRows (EltTy.packing .bf16)
  slices_S3x1x1_S1x1x1_0_0_0 : S3x1x1.Slices ![0, 0, 0] S1x1x1
  shapeCasts_S1x1x1_S1x1 : S1x1x1.ShapeCasts S1x1
  slices_S3x128x128_S1x128x128_0_0_0 : S3x128x128.Slices ![0, 0, 0] S1x128x128
  shapeCasts_S1x128x128_S128x128 : S1x128x128.ShapeCasts S128x128
  slices_S3x1x128_S1x1x128_0_0_0 : S3x1x128.Slices ![0, 0, 0] S1x1x128
  shapeCasts_S1x1x128_S1x128 : S1x1x128.ShapeCasts S1x128
  shapeCasts_S7168x128_S7168x128 : S7168x128.ShapeCasts S7168x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S7168x128 : S1x1.Broadcasts S7168x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x1x1_S1x1x1_1_0_0 : S3x1x1.Slices ![1, 0, 0] S1x1x1
  slices_S3x128x128_S1x128x128_1_0_0 : S3x128x128.Slices ![1, 0, 0] S1x128x128
  slices_S3x1x128_S1x1x128_1_0_0 : S3x1x128.Slices ![1, 0, 0] S1x1x128
  slices_S3x1x1_S1x1x1_2_0_0 : S3x1x1.Slices ![2, 0, 0] S1x1x1
  slices_S3x128x128_S1x128x128_2_0_0 : S3x128x128.Slices ![2, 0, 0] S1x128x128
  slices_S3x1x128_S1x1x128_2_0_0 : S3x1x128.Slices ![2, 0, 0] S1x1x128
  slices_S100352x128_S100000x128_0_0 : S100352x128.Slices ![0, 0] S100000x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1024 : S2000x1.Broadcasts S2000x1024
  broadcasts_S1x1024_S2000x1024 : S1x1024.Broadcasts S2000x1024
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x1024_S1024 : S2000x1024.Reduces [0] S1024
  shapeCasts_S1024_S1x1024 : S1024.ShapeCasts S1x1024
  transposes_S1x1024_S1024x1_1_0 : S1x1024.Transposes [1, 0] S1024x1
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S7168x13_S13x128_S7168x128_1_0_0_1_n_n_wf : DotDims.WF S7168x13 S13x128 S7168x128 [1] [0] [0] [1] [] []
  dot_S4096x1024_S1024x128_S4096x128_1_0_0_1_n_n_wf : DotDims.WF S4096x1024 S1024x128 S4096x128 [1] [0] [0] [1] [] []
  dot_S4096x1024_S4096x128_S1024x128_0_0_1_1_n_n_wf : DotDims.WF S4096x1024 S4096x128 S1024x128 [0] [0] [1] [1] [] []
  dot_S7168x128_S128x128_S7168x128_1_0_0_1_n_n_wf : DotDims.WF S7168x128 S128x128 S7168x128 [1] [0] [0] [1] [] []
  dot_S2000x1024_S2000x128_S1024x128_0_0_1_1_n_n_wf : DotDims.WF S2000x1024 S2000x128 S1024x128 [0] [0] [1] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7168x13.size a ≤ S100352x13.size a
  hwx0_0 : ∀ i : grid0.Coords, EltTy.bits .f32 = 32 ∨ (Rect.block (s := S100352x13) S7168x13.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x128.size a ≤ S13x128.size a
  hwx0_1 : ∀ i : grid0.Coords, EltTy.bits .f32 = 32 ∨ (Rect.block (s := S13x128) S13x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S7168x128.size a ≤ S100352x128.size a
  hwx0_3 : ∀ i : grid0.Coords, EltTy.bits .bf16 = 32 ∨ (Rect.block (s := S100352x128) S7168x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1.size a ≤ S1601536x1.size a
  hwx1_0 : ∀ i : grid1.Coords, EltTy.bits .i32 = 32 ∨ (Rect.block (s := S1601536x1) S4096x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S1601536x1.size a
  hwx1_1 : ∀ i : grid1.Coords, EltTy.bits .f32 = 32 ∨ (Rect.block (s := S1601536x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S100352x128.size a
  hwx1_2 : ∀ i : grid1.Coords, EltTy.bits .bf16 = 32 ∨ (Rect.block (s := S100352x128) S1024x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S1601536x128.size a
  hwx1_5 : ∀ i : grid1.Coords, EltTy.bits .bf16 = 32 ∨ (Rect.block (s := S1601536x128) S4096x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x1.size a ≤ S1601536x1.size a
  hwx2_0 : ∀ i : grid2.Coords, EltTy.bits .i32 = 32 ∨ (Rect.block (s := S1601536x1) S4096x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S1601536x128.size a
  hwx2_1 : ∀ i : grid2.Coords, EltTy.bits .bf16 = 32 ∨ (Rect.block (s := S1601536x128) S4096x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S100352x128.size a
  hwx2_2 : ∀ i : grid2.Coords, EltTy.bits .bf16 = 32 ∨ (Rect.block (s := S100352x128) S1024x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S7168x128.size a ≤ S100352x128.size a
  hwx3_0 : ∀ i : grid3.Coords, EltTy.bits .bf16 = 32 ∨ (Rect.block (s := S100352x128) S7168x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S7168x128.size a ≤ S100352x128.size a
  hwx3_1 : ∀ i : grid3.Coords, EltTy.bits .bf16 = 32 ∨ (Rect.block (s := S100352x128) S7168x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S7168x128.size a ≤ S100352x128.size a
  hwx3_5 : ∀ i : grid3.Coords, EltTy.bits .bf16 = 32 ∨ (Rect.block (s := S100352x128) S7168x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x1.size a ≤ S1601536x1.size a
  hwx4_0 : ∀ i : grid4.Coords, EltTy.bits .i32 = 32 ∨ (Rect.block (s := S1601536x1) S4096x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S1601536x1.size a
  hwx4_1 : ∀ i : grid4.Coords, EltTy.bits .f32 = 32 ∨ (Rect.block (s := S1601536x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S100352x128.size a
  hwx4_2 : ∀ i : grid4.Coords, EltTy.bits .bf16 = 32 ∨ (Rect.block (s := S100352x128) S1024x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4096x128.size a ≤ S1601536x128.size a
  hwx4_5 : ∀ i : grid4.Coords, EltTy.bits .bf16 = 32 ∨ (Rect.block (s := S1601536x128) S4096x128.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x1.size a ≤ S1601536x1.size a
  hwx5_0 : ∀ i : grid5.Coords, EltTy.bits .i32 = 32 ∨ (Rect.block (s := S1601536x1) S4096x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x128.size a ≤ S1601536x128.size a
  hwx5_1 : ∀ i : grid5.Coords, EltTy.bits .bf16 = 32 ∨ (Rect.block (s := S1601536x128) S4096x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x128.size a ≤ S100352x128.size a
  hwx5_2 : ∀ i : grid5.Coords, EltTy.bits .bf16 = 32 ∨ (Rect.block (s := S100352x128) S1024x128.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S7168x128.size a ≤ S100352x128.size a
  hwx6_0 : ∀ i : grid6.Coords, EltTy.bits .bf16 = 32 ∨ (Rect.block (s := S100352x128) S7168x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S7168x128.size a ≤ S100352x128.size a
  hwx6_1 : ∀ i : grid6.Coords, EltTy.bits .bf16 = 32 ∨ (Rect.block (s := S100352x128) S7168x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S7168x128.size a ≤ S100352x128.size a
  hwx6_5 : ∀ i : grid6.Coords, EltTy.bits .bf16 = 32 ∨ (Rect.block (s := S100352x128) S7168x128.size (cc6_transform_5 i) (hinb6_5 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x1.size a ≤ S1601536x1.size a
  hwx7_0 : ∀ i : grid7.Coords, EltTy.bits .i32 = 32 ∨ (Rect.block (s := S1601536x1) S4096x1.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4096x1.size a ≤ S1601536x1.size a
  hwx7_1 : ∀ i : grid7.Coords, EltTy.bits .f32 = 32 ∨ (Rect.block (s := S1601536x1) S4096x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x128.size a ≤ S100352x128.size a
  hwx7_2 : ∀ i : grid7.Coords, EltTy.bits .bf16 = 32 ∨ (Rect.block (s := S100352x128) S1024x128.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4096x128.size a ≤ S1601536x128.size a
  hwx7_5 : ∀ i : grid7.Coords, EltTy.bits .bf16 = 32 ∨ (Rect.block (s := S1601536x128) S4096x128.size (cc7_transform_5 i) (hinb7_5 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x1.size a ≤ S1601536x1.size a
  hwx8_0 : ∀ i : grid8.Coords, EltTy.bits .i32 = 32 ∨ (Rect.block (s := S1601536x1) S4096x1.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x128.size a ≤ S1601536x128.size a
  hwx8_1 : ∀ i : grid8.Coords, EltTy.bits .bf16 = 32 ∨ (Rect.block (s := S1601536x128) S4096x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x128.size a ≤ S100352x128.size a
  hwx8_2 : ∀ i : grid8.Coords, EltTy.bits .bf16 = 32 ∨ (Rect.block (s := S100352x128) S1024x128.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S7168x128.size a ≤ S100352x128.size a
  hwx9_0 : ∀ i : grid9.Coords, EltTy.bits .bf16 = 32 ∨ (Rect.block (s := S100352x128) S7168x128.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S7168x128.size a ≤ S100352x128.size a
  hwx9_1 : ∀ i : grid9.Coords, EltTy.bits .bf16 = 32 ∨ (Rect.block (s := S100352x128) S7168x128.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S7168x128.size a ≤ S100352x128.size a
  hwx9_5 : ∀ i : grid9.Coords, EltTy.bits .bf16 = 32 ∨ (Rect.block (s := S100352x128) S7168x128.size (cc9_transform_5 i) (hinb9_5 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x1.size a ≤ S100000x1.size a
  hwx10_0 : ∀ i : grid10.Coords, EltTy.bits .i32 = 32 ∨ (Rect.block (s := S100000x1) S2000x1.size (cc10_transform_0 i) (hinb10_0 i)).WholeWords (EltTy.packing .i32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S100000x128.size a
  hwx10_1 : ∀ i : grid10.Coords, EltTy.bits .bf16 = 32 ∨ (Rect.block (s := S100000x128) S2000x128.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1024x128.size a ≤ S1024x128.size a
  hwx10_2 : ∀ i : grid10.Coords, EltTy.bits .f32 = 32 ∨ (Rect.block (s := S1024x128) S1024x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x1024.size a ≤ S1x1024.size a
  hwx10_3 : ∀ i : grid10.Coords, EltTy.bits .f32 = 32 ∨ (Rect.block (s := S1x1024) S1x1024.size (cc10_transform_3 i) (hinb10_3 i)).WholeWords (EltTy.packing .f32)

variable [Facts₀]

def dot_S7168x13_S13x128_S7168x128_1_0_0_1_n_n : DotDims S7168x13 S13x128 S7168x128 where
  lhsContracting := [1]
  rhsContracting := [0]
  lhsNonContracting := [0]
  rhsNonContracting := [1]
  lhsBatch := []
  rhsBatch := []
  wf := dot_S7168x13_S13x128_S7168x128_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x1024_S4096x128_S1024x128_0_0_1_1_n_n : DotDims S4096x1024 S4096x128 S1024x128 where
  lhsContracting := [0]
  rhsContracting := [0]
  lhsNonContracting := [1]
  rhsNonContracting := [1]
  lhsBatch := []
  rhsBatch := []
  wf := dot_S4096x1024_S4096x128_S1024x128_0_0_1_1_n_n_wf
def dot_S7168x128_S128x128_S7168x128_1_0_0_1_n_n : DotDims S7168x128 S128x128 S7168x128 where
  lhsContracting := [1]
  rhsContracting := [0]
  lhsNonContracting := [0]
  rhsNonContracting := [1]
  lhsBatch := []
  rhsBatch := []
  wf := dot_S7168x128_S128x128_S7168x128_1_0_0_1_n_n_wf
def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_v0) S7168x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S13x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S7168x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S4096x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v8) S4096x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v16) S7168x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S7168x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v22) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v24) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S7168x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v6) S4096x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg6) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v13) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v26) S4096x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v8) S4096x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S4096x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S1024x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v25) S7168x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v27) S7168x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v29) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v31) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v33) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v34) S7168x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v6) S4096x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v10) S4096x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v34) S1024x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg6) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v13) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v35) S4096x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun _ => false | 5 => fun i => !(k7_cond2 i == 1#1) | ⟨_ + 6, h⟩ => absurd h (Nat.not_lt.2 (Nat.le_add_left _ _))

abbrev win8_0 : Pipeline.Window sig grid8 :=
  Pipeline.Window.ofSpec (Memref.whole main_v8) S4096x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v35) S4096x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v36) S1024x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v34) S7168x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v36) S7168x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v38) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v40) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v42) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v43) S7168x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v11) S2000x1.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v44) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v45_0) S1024x128.size cc10_transform_2 reads10_2 true true 1 stage10_2 sem10_2
    hrank10 hreads10_2 hinb10_2 nbuf10_2 (Memref.isWhole_whole _) hwx10_2 hstage10_2

abbrev win10_3 : Pipeline.Window sig grid10 :=
  Pipeline.Window.ofSpec (Memref.whole main_v45_1) S1x1024.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun i => !(k10_cond2 i == 1#1) | 3 => fun i => !(k10_cond2 i == 1#1) | ⟨_ + 4, h⟩ => absurd h (Nat.not_lt.2 (Nat.le_add_left _ _))

class Facts : Prop extends Facts₀ where

variable [Facts]
-- ==== ReferenceIdeal.lean ====
abbrev S100000x13 : Shape := ⟨2, ![100000, 13]⟩
abbrev S1600000 : Shape := ⟨1, ![1600000]⟩
abbrev S2x1600000 : Shape := ⟨2, ![2, 1600000]⟩
abbrev S100000 : Shape := ⟨1, ![100000]⟩
abbrev S13x128 : Shape := ⟨2, ![13, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S3 : Shape := ⟨1, ![3]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S100000x128 : Shape := ⟨2, ![100000, 128]⟩
abbrev S1600000x1 : Shape := ⟨2, ![1600000, 1]⟩
abbrev S1600000x128 : Shape := ⟨2, ![1600000, 128]⟩
abbrev S_ : Shape := ⟨0, ![]⟩
abbrev S1x128x128 : Shape := ⟨3, ![1, 128, 128]⟩
abbrev S128x128 : Shape := ⟨2, ![128, 128]⟩
abbrev S1024x128 : Shape := ⟨2, ![1024, 128]⟩
abbrev S100000x1 : Shape := ⟨2, ![100000, 1]⟩
abbrev S1024 : Shape := ⟨1, ![1024]⟩
abbrev S1024x1 : Shape := ⟨2, ![1024, 1]⟩
abbrev S1024x64 : Shape := ⟨2, ![1024, 64]⟩
abbrev S1x64 : Shape := ⟨2, ![1, 64]⟩
abbrev S1x1 : Shape := ⟨2, ![1, 1]⟩

abbrev nBuf : Space → Nat
  | .hbm => 163
  | .vmem => 0
  | .smem => 0
  | _ => 0

abbrev hbmTy0_0 (i : Nat) : BufTy := match i % 128 with
  | 0 => ⟨S100000x13, .f32⟩
  | 1 => ⟨S1600000, .f32⟩
  | 2 => ⟨S2x1600000, .i32⟩
  | 3 => ⟨S100000, .i32⟩
  | 4 => ⟨S13x128, .f32⟩
  | 5 => ⟨S128, .f32⟩
  | 6 => ⟨S1x128, .f32⟩
  | 7 => ⟨S128, .f32⟩
  | 8 => ⟨S3x128x128, .f32⟩
  | 9 => ⟨S3x128, .f32⟩
  | 10 => ⟨S3, .f32⟩
  | 11 => ⟨S128x64, .f32⟩
  | 12 => ⟨S64, .f32⟩
  | 13 => ⟨S64x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S100000x128, .f32⟩
  | 20 => ⟨S1x128, .f32⟩
  | 21 => ⟨S100000x128, .f32⟩
  | 22 => ⟨S100000x128, .f32⟩
  | 23 => ⟨S1600000x1, .f32⟩
  | 24 => ⟨S1600000x128, .f32⟩
  | 25 => ⟨S1x128, .f32⟩
  | 26 => ⟨S1600000x128, .f32⟩
  | 27 => ⟨S1600000x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S1600000x128, .f32⟩
  | 38 => ⟨S_, .f32⟩
  | 39 => ⟨S1600000x128, .f32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S1, .f32⟩
  | 46 => ⟨S_, .f32⟩
  | 47 => ⟨S_, .f32⟩
  | 48 => ⟨S_, .f32⟩
  | 49 => ⟨S100000x128, .f32⟩
  | 50 => ⟨S100000x128, .f32⟩
  | 51 => ⟨S100000x128, .f32⟩
  | 52 => ⟨S1x128x128, .f32⟩
  | 53 => ⟨S128x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S1600000x128, .f32⟩
  | 74 => ⟨S_, .f32⟩
  | 75 => ⟨S1600000x128, .f32⟩
  | 76 => ⟨S1600000x128, .f32⟩
  | 77 => ⟨S_, .f32⟩
  | 78 => ⟨S100000x128, .f32⟩
  | 79 => ⟨S1600000x1, .i32⟩
  | 80 => ⟨S100000x128, .f32⟩
  | 81 => ⟨S1, .f32⟩
  | 82 => ⟨S_, .f32⟩
  | 83 => ⟨S_, .f32⟩
  | 84 => ⟨S_, .f32⟩
  | 85 => ⟨S100000x128, .f32⟩
  | 86 => ⟨S100000x128, .f32⟩
  | 87 => ⟨S100000x128, .f32⟩
  | 88 => ⟨S1x128x128, .f32⟩
  | 89 => ⟨S128x128, .f32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x128, .f32⟩
  | 110 => ⟨S_, .f32⟩
  | 111 => ⟨S1600000x128, .f32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S1, .f32⟩
  | 118 => ⟨S_, .f32⟩
  | 119 => ⟨S_, .f32⟩
  | 120 => ⟨S_, .f32⟩
  | 121 => ⟨S100000x128, .f32⟩
  | 122 => ⟨S100000x128, .f32⟩
  | 123 => ⟨S100000x128, .f32⟩
  | 124 => ⟨S1x128x128, .f32⟩
  | 125 => ⟨S128x128, .f32⟩
  | 126 => ⟨S100000x128, .f32⟩
  | 127 => ⟨S1x128, .f32⟩
  | _ => ⟨S100000x13, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S100000x128, .f32⟩
  | 8 => ⟨S_, .f32⟩
  | 9 => ⟨S1024x128, .f32⟩
  | 10 => ⟨S100000x1, .i32⟩
  | 11 => ⟨S1024x128, .f32⟩
  | 12 => ⟨S_, .f32⟩
  | 13 => ⟨S100000, .f32⟩
  | 14 => ⟨S_, .f32⟩
  | 15 => ⟨S1024, .f32⟩
  | 16 => ⟨S100000x1, .i32⟩
  | 17 => ⟨S1024, .f32⟩
  | 18 => ⟨S_, .f32⟩
  | 19 => ⟨S1024, .f32⟩
  | 20 => ⟨S1024, .f32⟩
  | 21 => ⟨S1024x1, .f32⟩
  | 22 => ⟨S1024x128, .f32⟩
  | 23 => ⟨S1024x128, .f32⟩
  | 24 => ⟨S1024x64, .f32⟩
  | 25 => ⟨S1x64, .f32⟩
  | 26 => ⟨S1024x64, .f32⟩
  | 27 => ⟨S1024x64, .f32⟩
  | 28 => ⟨S_, .f32⟩
  | 29 => ⟨S1024x64, .f32⟩
  | 30 => ⟨S1024x64, .f32⟩
  | 31 => ⟨S1024x1, .f32⟩
  | 32 => ⟨S1x1, .f32⟩
  | 33 => ⟨S1024x1, .f32⟩
  | 34 => ⟨S1024x1, .f32⟩
  | _ => ⟨S100000x13, .f32⟩

abbrev hbmTy (i : Nat) : BufTy := match i / 128 with
  | 0 => hbmTy0_0 i
  | 1 => hbmTy0_1 i
  | _ => ⟨S100000x13, .f32⟩

abbrev bufTy : (tb : Table) → Fin (tcTables nBuf tb) → BufTy
  | .hbm, ⟨i, _⟩ => hbmTy i
  | _, _ => ⟨S100000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_cst : Ref sig .tc := ⟨.hbm, 38, rfl⟩
abbrev main_call0_v0 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_1 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_cst : Ref sig .tc := ⟨.hbm, 60, rfl⟩
abbrev main_call1_v0 : Ref sig .tc := ⟨.hbm, 61, rfl⟩
abbrev main_v39 : Ref sig .tc := ⟨.hbm, 62, rfl⟩
abbrev main_v40 : Ref sig .tc := ⟨.hbm, 63, rfl⟩
abbrev main_c_2 : Ref sig .tc := ⟨.hbm, 64, rfl⟩
abbrev main_v41 : Ref sig .tc := ⟨.hbm, 65, rfl⟩
abbrev main_v42 : Ref sig .tc := ⟨.hbm, 66, rfl⟩
abbrev main_c_3 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call2_cst : Ref sig .tc := ⟨.hbm, 74, rfl⟩
abbrev main_call2_v0 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_5 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call3_cst : Ref sig .tc := ⟨.hbm, 96, rfl⟩
abbrev main_call3_v0 : Ref sig .tc := ⟨.hbm, 97, rfl⟩
abbrev main_v67 : Ref sig .tc := ⟨.hbm, 98, rfl⟩
abbrev main_v68 : Ref sig .tc := ⟨.hbm, 99, rfl⟩
abbrev main_c_6 : Ref sig .tc := ⟨.hbm, 100, rfl⟩
abbrev main_v69 : Ref sig .tc := ⟨.hbm, 101, rfl⟩
abbrev main_v70 : Ref sig .tc := ⟨.hbm, 102, rfl⟩
abbrev main_c_7 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call4_cst : Ref sig .tc := ⟨.hbm, 110, rfl⟩
abbrev main_call4_v0 : Ref sig .tc := ⟨.hbm, 111, rfl⟩
abbrev main_v77 : Ref sig .tc := ⟨.hbm, 112, rfl⟩
abbrev main_cst_8 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_9 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call5_cst : Ref sig .tc := ⟨.hbm, 132, rfl⟩
abbrev main_call5_v0 : Ref sig .tc := ⟨.hbm, 133, rfl⟩
abbrev main_v95 : Ref sig .tc := ⟨.hbm, 134, rfl⟩
abbrev main_v96 : Ref sig .tc := ⟨.hbm, 135, rfl⟩
abbrev main_cst_10 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_11 : Ref sig .tc := ⟨.hbm, 140, rfl⟩
abbrev main_v100 : Ref sig .tc := ⟨.hbm, 141, rfl⟩
abbrev main_cst_12 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_13 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call6_cst : Ref sig .tc := ⟨.hbm, 156, rfl⟩
abbrev main_call6_v0 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S_S1600000x128 : S_.BroadcastsInDim S1600000x128 (![] : Fin 0 → Fin S1600000x128.rank)
  bcast_S_S100000x128 : S_.BroadcastsInDim S100000x128 (![] : Fin 0 → Fin S100000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S100000x13_S13x128_S100000x128_1_0_0_1_n_n_wf : DotDims.WF S100000x13 S13x128 S100000x128 [1] [0] [0] [1] [] []
  dot_S1600000x1_S1x128_S1600000x128_1_0_0_1_n_n_wf : DotDims.WF S1600000x1 S1x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []

variable [Facts₀]

def dot_S100000x13_S13x128_S100000x128_1_0_0_1_n_n : DotDims S100000x13 S13x128 S100000x128 where
  lhsContracting := [1]
  rhsContracting := [0]
  lhsNonContracting := [0]
  rhsNonContracting := [1]
  lhsBatch := []
  rhsBatch := []
  wf := dot_S100000x13_S13x128_S100000x128_1_0_0_1_n_n_wf
def dot_S1600000x1_S1x128_S1600000x128_1_0_0_1_n_n : DotDims S1600000x1 S1x128 S1600000x128 where
  lhsContracting := [1]
  rhsContracting := [0]
  lhsNonContracting := [0]
  rhsNonContracting := [1]
  lhsBatch := []
  rhsBatch := []
  wf := dot_S1600000x1_S1x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.KB.FlushBig.lean ====
import proofs.«429186_j15229954031644_1_alg».proof.Proof.Gen.Kernel
import Idealize.ShloMosaic.Lib.Pipeline.Kit

noncomputable section

namespace Cert.Kernel.GenP

open Cert.Kernel Cert.Kernel.Gen

open Idealize.ShloMosaic Idealize.ShloMosaic.TcCoe
open Idealize.SL Idealize.SL.Sem

-- The block index (s / b1 % b0, 0), carried by a 32-bit word, changes exactly after the points s % b1 = r, the grid's last point among them.
theorem flush_rows {G : Pipeline.Grid} (w : Pipeline.Window sig G) (b0 q b1 r : ℕ) (hout : w.isOut = true)
    (e : ∀ s s' : Fin G.N, w.index s = w.index s' ↔
      (![(BitVec.ofNat 32 (s.val / q % b0)).toNat, (0#32).toNat] : Fin 2 → ℕ) = ![(BitVec.ofNat 32 (s'.val / q % b0)).toNat, (0#32).toNat])
    (hq : q = b1) (hb : ∀ a, a % b0 < 2 ^ 32) (hlast : ∀ t : Fin G.N, t.val + 1 = G.N → t.val % b1 = r)
    (hstep : ∀ t : Fin G.N, t.val + 1 < G.N → ((t.val + 1) / b1 % b0 ≠ t.val / b1 % b0 ↔ t.val % b1 = r))
    (t : Fin G.N) : w.flush t = true ↔ t.val % b1 = r := by
  have e' : ∀ s s' : Fin G.N, w.index s ≠ w.index s' ↔ s.val / b1 % b0 ≠ s'.val / b1 % b0 := fun s s' => by
    refine (not_congr (e s s')).trans (not_congr ?_)
    simp only [hq, BitVec.toNat_ofNat, Nat.mod_eq_of_lt (hb _)]
    exact ⟨fun h => congrFun h 0, fun h => by rw [h]⟩
  unfold Pipeline.Window.flush
  simp only [hout, Bool.true_and, Bool.or_eq_true, decide_eq_true_eq]
  constructor
  · rintro (h | ⟨h, hne⟩)
    · exact hlast t h
    · exact (hstep t h).1 ((e' _ _).1 hne)
  · intro hm
    by_cases h : t.val + 1 = G.N
    · exact .inl h
    · have h' : t.val + 1 < G.N := by have := t.isLt; omega
      exact .inr ⟨h', (e' _ _).2 ((hstep t h').2 hm)⟩

theorem flush1_5 : ∀ t : Fin cfg1.N, (cfg1.win 5).flush t = true ↔ t.val % 98 = 97 :=
  have hN : grid1.N = 38318 := by decide
  flush_rows win1_5 391 (grid1.stride 0) 98 97 rfl (fun _ _ => Iff.rfl) (by decide) (fun a => by omega) (fun t h => by omega) (fun t h => by omega)

theorem flush2_2 : ∀ t : Fin cfg2.N, (cfg2.win 2).flush t = true ↔ t.val % 391 = 390 :=
  have hN : grid2.N = 38318 := by decide
  flush_rows win2_2 98 (grid2.stride 0) 391 390 rfl (fun _ _ => Iff.rfl) (by decide) (fun a => by omega) (fun t h => by omega) (fun t h => by omega)

theorem flush4_5 : ∀ t : Fin cfg4.N, (cfg4.win 5).flush t = true ↔ t.val % 98 = 97 :=
  have hN : grid4.N = 38318 := by decide
  flush_rows win4_5 391 (grid4.stride 0) 98 97 rfl (fun _ _ => Iff.rfl) (by decide) (fun a => by omega) (fun t h => by omega) (fun t h => by omega)

theorem flush5_2 : ∀ t : Fin cfg5.N, (cfg5.win 2).flush t = true ↔ t.val % 391 = 390 :=
  have hN : grid5.N = 38318 := by decide
  flush_rows win5_2 98 (grid5.stride 0) 391 390 rfl (fun _ _ => Iff.rfl) (by decide) (fun a => by omega) (fun t h => by omega) (fun t h => by omega)

theorem flush7_5 : ∀ t : Fin cfg7.N, (cfg7.win 5).flush t = true ↔ t.val % 98 = 97 :=
  have hN : grid7.N = 38318 := by decide
  flush_rows win7_5 391 (grid7.stride 0) 98 97 rfl (fun _ _ => Iff.rfl) (by decide) (fun a => by omega) (fun t h => by omega) (fun t h => by omega)

theorem flush8_2 : ∀ t : Fin cfg8.N, (cfg8.win 2).flush t = true ↔ t.val % 391 = 390 :=
  have hN : grid8.N = 38318 := by decide
  flush_rows win8_2 98 (grid8.stride 0) 391 390 rfl (fun _ _ => Iff.rfl) (by decide) (fun a => by omega) (fun t h => by omega) (fun t h => by omega)

end Cert.Kernel.GenP

end
-- ==== Proof.LibWhole.lean ====
import Idealize.ShloMosaic.Lib.Pipeline.FrameBody
import Idealize.ShloMosaic.Lib.Pipeline.Value
import Idealize.ShloMosaic.Lib.ValueIdx

namespace Cert.Whole

open Idealize.ShloMosaic Idealize.SL.Sem

/-- The zero offsets of a rank-2 rectangle, as the printed programs spell them. -/
theorem hz2 : (![0, 0] : Fin 2 → ℕ) = fun _ => 0 := funext fun a => by fin_cases a <;> rfl

variable {sig' : RefSig} {κ : Kind} {sp : Space} {S : Shape} {e : EltTy} {Val : EltTy → Type}

/-- A load through the whole-shape rectangle at zero offsets reads the view's contents. -/
theorem readAt_whole (v : View sig' κ sp S e) {off : Fin S.rank → ℕ} (h : off = fun _ => 0)
    (inb : ∀ a, off a + S.size a ≤ S.size a) (f : v.ty.Contents Val) :
    v.readAt Val (Rect.unit off S.size inb).toLoadRect f = v.read Val f :=
  View.ld_unit_zero h inb (v.read Val f)

/-- A last store through the whole-shape rectangle hides the buffer's contents and every earlier store. -/
theorem read_writes_whole [∀ e, Nonempty (Val e)] (v : View sig' κ sp S e) (f : v.ty.Contents Val)
    {off : Fin S.rank → ℕ} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w :=
  (View.read_writes_eq_canon v f _ fun y => ⟨_, List.mem_cons.mpr (Or.inl rfl), View.mem_set_unit_zero h inb y⟩).trans
    (View.canon_cons_unit_zero h inb w L)

/-- A rank-2 index with coordinate values `a` and `b` is `ix2 a b`. -/
theorem ix_ext_of_val {n0 n1 : ℕ} (x : (⟨2, ![n0, n1]⟩ : Shape).Idx) (a : Fin n0) (b : Fin n1)
    (h0 : (x 0).val = a.val) (h1 : (x 1).val = b.val) : x = ValueIdx.ix2 a b :=
  funext fun d => Fin.ext (match d with | ⟨0, _⟩ => h0 | ⟨1, _⟩ => h1)

end Cert.Whole
-- ==== Proof.KB.R0.lean ====
import proofs.«429186_j15229954031644_1_alg».proof.Proof.Gen.Kernel.Launch
import proofs.«429186_j15229954031644_1_alg».proof.Proof.Gen.Kernel.Skeleton
import proofs.«429186_j15229954031644_1_alg».proof.Proof.KB.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S7168x13 .f32) (x1 : Vec F S13x128 .f32) (x2 : Vec F S1x128 .f32) : Vec F S7168x128 .bf16 :=
  k0_pay1 x0 x1 x2

-- Contents that read `X` through a memref give the memref owned at `X`.
theorem leaf0 (c : Dev nD) {sp : Space} {S : Shape} {e : EltTy} (m : Memref sig .tc sp S e) (g : m.view.ty.Contents (Elt F)) (X : S.Idx → Elt F e)
    (h : m.view.read (Elt F) g = X) : (m.view.loc (c : Thread nD τ) ↦[m.view.set]{fullShare} g : sProp 𝕄)
      ⊢ iprop(∃ f, ⌜m.view.read (Elt F) f = X⌝ ∗ (m.view.loc (c : Thread nD τ) ↦[m.view.set]{fullShare} f)) := by
  iintro H; iexists g; isplitr; · ipureintro; exact h
  iexact H

-- The body reads its three inputs whole and overwrites the whole result buffer with the kernel's value on them.
set_option maxHeartbeats 1000000 in
theorem sound_kernel0 (c : Dev nD) (E : Set ℕ) (i : grid0.Coords)
    (arg1 : Memref sig .tc .vmem S7168x13 .f32) (harg1 : arg1.IsWhole) (arg2 : Memref sig .tc .vmem S13x128 .f32) (harg2 : arg2.IsWhole)
    (arg3 : Memref sig .tc .vmem S1x128 .f32) (harg3 : arg3.IsWhole) (arg4 : Memref sig .tc .vmem S7168x128 .bf16) (harg4 : arg4.IsWhole)
    (x0 : Vec F S7168x13 .f32) (x1 : Vec F S13x128 .f32) (x2 : Vec F S1x128 .f32) (d : Vec F S7168x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare d
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__init_h_kernel i arg1 harg1 arg2 harg2 arg3 harg3 arg4 harg4) K := by
  simp only [cc0__init_h_kernel_eq_skeleton]; unfold cc0__init_h_kernel_skel owns out0_3
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iapply (leaf0 c _ _ _ rfl) $$ H0
  isplitl [H1]; · iapply (leaf0 c _ _ _ rfl) $$ H1
  isplitl [H2]; · iapply (leaf0 c _ _ _ rfl) $$ H2
  iapply (leaf0 c _ _ _ ?_) $$ H3
  sl_unfold_run_names; simp only [read_writes_whole arg4.view _ hz2, readAt_whole arg1.view hz2, readAt_whole arg2.view hz2, readAt_whole arg3.view hz2]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after_out0 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  Dat.before_in_eq_fetched _ 0 rfl (fun _ => rfl) (fun _ _ _ => rfl) (fun _ => rfl) t d
theorem before0_1 (c : Dev nD) (t : Fin cfg0.N) (d) : (dat0 V c).before 1 t d = iblk0 V c 1 t :=
  Dat.before_in_eq_fetched _ 1 rfl (fun _ => rfl) (fun _ _ _ => rfl) (fun _ => rfl) t d
theorem before0_2 (c : Dev nD) (t : Fin cfg0.N) (d) : (dat0 V c).before 2 t d = iblk0 V c 2 t :=
  Dat.before_in_eq_fetched _ 2 rfl (fun _ => rfl) (fun _ _ _ => rfl) (fun _ => rfl) t d

theorem hin0 (c : Dev nD) : Pipeline.ΦA spec0 c ⊢ ((dat0 V c).Φ 0 : sProp 𝕄) := .rfl
theorem hout0 (c : Dev nD) : ((dat0 V c).Φ (Fin.last cfg0.N) : sProp 𝕄) ⊢ Pipeline.ΦA spec0 c := .rfl

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ => iprop((dat0 V c).Φ t.castSucc ∗ (dat0 V c).owesAt () t.castSucc
      ∗ owns (c : Thread nD τ) (st0_0 t) fullShare ((dat0 V c).after 0 t)
      ∗ owns (c : Thread nD τ) (st0_1 t) fullShare ((dat0 V c).after 1 t)
      ∗ owns (c : Thread nD τ) (st0_2 t) fullShare ((dat0 V c).after 2 t)
      ∗ owns (c : Thread nD τ) (st0_3 t) fullShare ((dat0 V c).after 3 t))) := by
  unfold bodyAt0
  simp only [before0_0, before0_1, before0_2, after0_0, after0_1, after0_2, after_out0]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) ((dat0 V c).before 3 t d3) _)
  iframe H0 H1 H2 H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
import proofs.«429186_j15229954031644_1_alg».proof.Proof.Gen.Kernel.Launch
import proofs.«429186_j15229954031644_1_alg».proof.Proof.Gen.Kernel.Skeleton
import proofs.«429186_j15229954031644_1_alg».proof.Proof.KB.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section
namespace Cert.Kernel.Hand

open Cert.Kernel Cert.Kernel.Gen
open Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S4096x128 .f32
  | 0, hn => k1_pay2 (grid1.coords ⟨0, hn⟩) (iblk1 V c 0 ⟨0, hn⟩) (iblk1 V c 2 ⟨0, hn⟩) (k1_pay1 (F := F))
  | n + 1, hn => k1_pay2 (grid1.coords ⟨n + 1, hn⟩) (iblk1 V c 0 ⟨n + 1, hn⟩) (iblk1 V c 2 ⟨n + 1, hn⟩)
      (if (n + 1) % 98 = 0 then (k1_pay1 (F := F)) else acc1 c n (Nat.lt_of_succ_lt hn))

theorem acc1_first (c : Dev nD) (t : Fin cfg1.N) (h : t.val % 98 = 0) :
    acc1 V c t.val t.isLt = k1_pay2 (grid1.coords t) (iblk1 V c 0 t) (iblk1 V c 2 t) (k1_pay1 (F := F)) := by
  obtain ⟨_ | n, hn⟩ := t
  · rfl
  · rw [acc1, if_pos h]

theorem acc1_next (c : Dev nD) (t : Fin cfg1.N) (h : ¬t.val % 98 = 0) :
    acc1 V c t.val t.isLt = k1_pay2 (grid1.coords t) (iblk1 V c 0 t) (iblk1 V c 2 t)
      (acc1 V c (t.val - 1) (Nat.lt_of_le_of_lt (Nat.sub_le _ _) t.isLt)) := by
  obtain ⟨_ | n, hn⟩ := t
  · exact absurd (Nat.zero_mod 98) h
  · rw [acc1, if_neg h]; rfl

abbrev sc1 : Memref sig .tc .vmem S4096x128 .f32 := Memref.whole cc1_scratch0

/-- What the body leaves in each window's buffer: an input's block; the output's block, computed from the accumulator. -/
def aft1 (c : Dev nD) (t : Fin cfg1.N) : (w : Fin cfg1.W) → (cfg1.win w).block.Idx → Elt F (cfg1.win w).elt
  | ⟨0, _⟩ => iblk1 V c 0 t
  | ⟨1, _⟩ => iblk1 V c 1 t
  | ⟨2, _⟩ => iblk1 V c 2 t
  | ⟨3, _⟩ => iblk1 V c 3 t
  | ⟨4, _⟩ => iblk1 V c 4 t
  | ⟨5, _⟩ => k1_pay3 (iblk1 V c 1 t) (iblk1 V c 3 t) (iblk1 V c 4 t) (acc1 V c t.val t.isLt)

/-- Before position `n` the accumulator's buffer holds some `a` from which the body at `n` computes `acc1` there. -/
def Phi1 (c : Dev nD) (n : ℕ) : sProp 𝕄 :=
  iprop(((∃ a, ⌜∀ h : n < cfg1.N, acc1 V c n h = k1_pay2 (grid1.coords ⟨n, h⟩) (aft1 V c ⟨n, h⟩ 0) (aft1 V c ⟨n, h⟩ 2)
        (if n % 98 = 0 then k1_pay1 (F := F) else a)⌝ ∗ owns (c : Thread nD τ) sc1 fullShare a)
      ∗ Pipeline.scopedRestBut (Ix := Unit) (Name := ℕ) (U := UR sig nD τ) (Lvl := ℕ) (Val := Elt F) spec1 c [cc1_scratch0])
    ∗ (∃ r, prngReg c r))

def dat1 (c : Dev nD) : Dat τ (Elt F) Unit ℕ (UR sig nD τ) ℕ cfg1 c where
  A w := V c (Pipeline.arrRef spec1 w)
  after w t := aft1 V c t w
  Φ t := Phi1 V c t.val
  q _ := fullShare
  owed _ := 0

theorem A_eq1 (c : Dev nD) (w : Fin cfg1.W) : (dat1 V c).A w = V c (Pipeline.arrRef spec1 w) := rfl

theorem q_eq1 (c : Dev nD) (w : Fin cfg1.W) : (dat1 V c).q w = fullShare := rfl

theorem owed_eq1 (c : Dev nD) (t : Fin (cfg1.N + 1)) : (dat1 V c).owed t = 0 := rfl

theorem after_out1 (c : Dev nD) (t : Fin cfg1.N) :
    (dat1 V c).after 5 t = k1_pay3 (iblk1 V c 1 t) (iblk1 V c 3 t) (iblk1 V c 4 t) (acc1 V c t.val t.isLt) := rfl

private theorem before1 (c : Dev nD) (w : Fin cfg1.W) (hw : w ≠ 5) (t : Fin cfg1.N) (d) : (dat1 V c).before w t d = aft1 V c t w := by
  match w, hw with
  | ⟨5, _⟩, h => exact absurd rfl h
  | ⟨0, _⟩, _ | ⟨1, _⟩, _ | ⟨2, _⟩, _ | ⟨3, _⟩, _ | ⟨4, _⟩, _ =>
    exact (dat1 V c).before_in_eq_fetched _ rfl (fun _ => rfl) (fun _ _ _ => rfl) (fun _ => rfl) t d

private theorem leaves1 (c : Dev nD) (w : Fin cfg1.W) (hw : w ≠ 5) (t : Fin cfg1.N) :
    (dat1 V c).leavesExact w t = owns (c : Thread nD τ) ((cfg1.win w).stage (cfg1.slots t w)) fullShare (aft1 V c t w) := by
  match w, hw with
  | ⟨5, _⟩, h => exact absurd rfl h
  | ⟨0, _⟩, _ | ⟨1, _⟩, _ | ⟨2, _⟩, _ | ⟨3, _⟩, _ | ⟨4, _⟩, _ => rfl

private abbrev cond1_1 (i : grid1.Coords) : Prop := (Scalar.cmpi .ne (Scalar.extui (Scalar.cmpi .eq (BitVec.ofNat 32 (i 1).val) 0#32)) 0#32) = 1#1
private abbrev cond1_2 (i : grid1.Coords) : Prop := k1_cond2 i = 1#1

private theorem coord1_1 (t : Fin cfg1.N) : (grid1.coords t 1).val = t.val % 98 := by
  show t.val / grid1.stride 1 % grid1.bound 1 = t.val % 98
  rw [show grid1.stride 1 = 1 from by decide, show grid1.bound 1 = 98 from rfl, Nat.div_one]

/-- Both conditions compare the inner coordinate with a constant. -/
private theorem cond1_1_iff (i : grid1.Coords) : cond1_1 i ↔ (i 1).val = 0 :=
  (by decide +kernel : ∀ j : Fin 98, (Scalar.cmpi .ne (Scalar.extui (Scalar.cmpi .eq (BitVec.ofNat 32 j.val) 0#32)) 0#32) = 1#1 ↔ j.val = 0) (i 1)
private theorem cond1_2_iff (i : grid1.Coords) : cond1_2 i ↔ (i 1).val = 97 :=
  (by decide +kernel : ∀ j : Fin 98, (Scalar.cmpi .ne (Scalar.extui (Scalar.cmpi .eq (BitVec.ofNat 32 j.val) 97#32)) 0#32) = 1#1 ↔ j.val = 97) (i 1)

private theorem hcond1_1 (t : Fin cfg1.N) : cond1_1 (grid1.coords t) ↔ t.val % 98 = 0 :=
  (cond1_1_iff (grid1.coords t)).trans (by rw [coord1_1])
private theorem hcond1_2 (t : Fin cfg1.N) : cond1_2 (grid1.coords t) ↔ t.val % 98 = 97 :=
  (cond1_2_iff (grid1.coords t)).trans (by rw [coord1_1])

/-- The body stores the output only where the inner coordinate is 97; elsewhere it leaves that buffer as found. -/
private theorem leaves1_out (c : Dev nD) (t : Fin cfg1.N) (d) :
    owns (c : Thread nD τ) (st1_5 t) fullShare (if t.val % 98 = 97 then aft1 V c t 5 else (dat1 V c).before 5 t d)
      ⊢ (dat1 V c).leavesExact 5 t := by
  by_cases h : t.val % 98 = 97
  · rw [if_pos h]; unfold Dat.leavesExact
    rw [show cfg1.idle 5 (grid1.coords t) = false from by
      show (!(k1_cond2 (grid1.coords t) == 1#1)) = false
      rw [Bool.not_eq_false', beq_iff_eq]; exact (hcond1_2 t).mpr h]
    iintro H; iexact H
  · rw [if_neg h, Dat.leavesExact_idle (dat1 V c) 5 t (by
      show (!(k1_cond2 (grid1.coords t) == 1#1)) = true
      rw [Bool.not_eq_true', beq_eq_false_iff_ne]; exact mt (hcond1_2 t).mp h)
      (Bool.eq_false_iff.mpr fun hf => h ((flush1_5 t).mp hf))]
    iintro H; iexists d; iexact H

private theorem PhiA1_eq (c : Dev nD) :
    (Pipeline.ΦA spec1 c : sProp 𝕄)
      = iprop(iprop((∃ d, owns (c : Thread nD τ) sc1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [sc1, owns_whole]; try rfl

section
variable (c : Dev nD) (E : Set ℕ) (i : grid1.Coords)
  (arg2 : Memref sig .tc .vmem S4096x1 .i32) (harg2 : arg2.IsWhole) (arg3 : Memref sig .tc .vmem S4096x1 .f32) (harg3 : arg3.IsWhole)
  (arg4 : Memref sig .tc .vmem S1024x128 .bf16) (harg4 : arg4.IsWhole) (arg5 : Memref sig .tc .vmem S1x128 .f32) (harg5 : arg5.IsWhole)
  (arg6 : Memref sig .tc .vmem S1x128 .f32) (harg6 : arg6.IsWhole) (arg7 : Memref sig .tc .vmem S4096x128 .bf16) (harg7 : arg7.IsWhole)
  (arg8 : Memref sig .tc .vmem S4096x128 .f32) (harg8 : arg8.IsWhole)
  (x0 : Vec F S4096x1 .i32) (x1 : Vec F S4096x1 .f32) (x2 : Vec F S1024x128 .bf16) (x3 x4 : Vec F S1x128 .f32)

/-- The body's seven buffers: the inputs at `x0 … x4`, the output's at `y`, the accumulator's at `b`. -/
private def own1 (y : Vec F S4096x128 .bf16) (b : Vec F S4096x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare y
    ∗ owns (c : Thread nD τ) arg8 fullShare b)

variable {c E i arg2 harg2 arg3 harg3 arg4 harg4 arg5 harg5 arg6 harg6 arg7 harg7 arg8 harg8 x0 x1 x2 x3 x4}

set_option maxHeartbeats 1000000 in
/-- One run of the body: the accumulator restarts from zero where `pz` (inner coordinate 0), the output is stored where `pl` (inner coordinate 97). -/
theorem sound_kernel1 {pz pl : Prop} [Decidable pz] [Decidable pl] (hz : cond1_1 i ↔ pz) (hl : cond1_2 i ↔ pl)
    {x5 : Vec F S4096x128 .bf16} {a A : Vec F S4096x128 .f32} (hA : A = k1_pay2 i x0 x2 (if pz then k1_pay1 (F := F) else a))
    {K : PUnit → sProp 𝕄} :
    iprop(own1 c arg2 arg3 arg4 arg5 arg6 arg7 arg8 x0 x1 x2 x3 x4 x5 a
        ∗ (own1 c arg2 arg3 arg4 arg5 arg6 arg7 arg8 x0 x1 x2 x3 x4 (if pl then k1_pay3 x1 x3 x4 A else x5) A -∗ K ⟨⟩))
      ⊢ wp frame (wpE (defs₀ (F := F)) Variants.none c none) E (cc1__gather_kernel i arg2 harg2 arg3 harg3 arg4 harg4 arg5 harg5 arg6 harg6 arg7 harg7 arg8 harg8) K := by
  subst hA
  by_cases hpz : pz <;> by_cases hpl : pl <;> simp only [hpz, hpl, ↓reduceIte]
  · have := (cond1_1_iff i).mp (hz.mpr hpz); have := (cond1_2_iff i).mp (hl.mpr hpl); omega
  all_goals
    simp only [cc1__gather_kernel_eq_skeleton]; unfold cc1__gather_kernel_skel own1 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩⟩, Hk⟩
    subst hf0 hf1 hf2 hf3 hf4 hf5 hf8
    have e := congrArg₂ (k1_pay2 i) (readAt_whole arg2.view hz2 inb_S4096x1_S4096x1_0_0 f0) (readAt_whole arg4.view hz2 inb_S1024x128_S1024x128_0_0 f2)
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      first
      | have : pl := hpl
        exact (read_writes_whole arg7.view _ hz2 _ _ _).trans
          (congr (congr (congrArg₂ k1_pay3 (readAt_whole arg3.view hz2 _ f1) (readAt_whole arg5.view hz2 _ f3)) (readAt_whole arg6.view hz2 _ f4))
            ((View.readCov_unit_zero (S := S4096x128) arg8.view hz2 inb_S4096x128_S4096x128_0_0 _).trans (congr e (readAt_whole arg8.view hz2 _ f8))))
      | rfl
    iexists _; isplitr
    swap; · iexact H8
    ipureintro
    refine (read_writes_whole arg8.view _ hz2 _ _ _).trans (congr e ?_)
    first
    | have : pz := hpz
      exact View.readCov_unit_zero (S := S4096x128) (Val := Elt F) arg8.view hz2 inb_S4096x128_S4096x128_0_0 _
    | exact readAt_whole arg8.view hz2 _ f8

end

/-- The body at any point: the invariant hands it the accumulator's buffer and takes it back at the point's contents. -/
private theorem sound_body1 (c : Dev nD) (t : Fin cfg1.N) :
    iprop((dat1 V c).Φ t.castSucc ∗ (dat1 V c).owesAt () t.castSucc
        ∗ bigSep Finset.univ fun w : Fin cfg1.W => iprop(∃ d, owns (c : Thread nD τ) ((cfg1.win w).stage (cfg1.slots t w)) fullShare ((dat1 V c).before w t d)))
      ⊢ wp frame (wpE (defs₀ (F := F)) Variants.none c none) Set.univ (bodyAt1 t) fun _ =>
        iprop((dat1 V c).Φ t.succ ∗ (dat1 V c).owesAt () t.succ ∗ bigSep Finset.univ fun w : Fin cfg1.W => (dat1 V c).leavesExact w t) := by
  rw [bigSep_W1, bigSep_W1]
  simp (disch := decide) only [before1 V c, leaves1 V c]
  rw [show (dat1 V c).Φ t.castSucc = Phi1 V c t.val from rfl, show (dat1 V c).Φ t.succ = Phi1 V c (t.val + 1) from rfl,
    show (dat1 V c).owesAt () t.succ = (dat1 V c).owesAt () t.castSucc from rfl]
  unfold Phi1 bodyAt1
  iintro ⟨⟨⟨⟨%a, %ha, HS⟩, HR⟩, Hg⟩, Ho, ⟨%d0, H0⟩, ⟨%d1, H1⟩, ⟨%d2, H2⟩, ⟨%d3, H3⟩, ⟨%d4, H4⟩, ⟨%d5, H5⟩⟩
  iapply (sound_kernel1 (hcond1_1 t) (hcond1_2 t) (ha t.isLt))
  unfold own1
  iframe H0 H1 H2 H3 H4 H5 HS
  iintro ⟨H0, H1, H2, H3, H4, H5, HS⟩
  iframe HR Hg Ho H0 H1 H2 H3 H4
  isplitl [HS]
  · iexists _; isplitr
    swap; · iexact HS
    ipureintro; exact fun _ => rfl
  iapply (leaves1_out V c t d5); iexact H5

theorem body_obligation1 (c : Dev nD) : BodyObligation (dat1 (F := F) V c) (defs₀ (F := F)) Variants.none () Set.univ :=
  fun t => sound_body1 V c t

theorem hin1 (c : Dev nD) : Pipeline.ΦA spec1 c ⊢ ((dat1 V c).Φ 0 : sProp 𝕄) := by
  rw [PhiA1_eq]; show _ ⊢ Phi1 V c 0; unfold Phi1
  iintro ⟨⟨⟨%a, HS⟩, HR⟩, Hg⟩
  iframe HR Hg
  iexists a; isplitr
  · ipureintro; exact fun _ => rfl
  iexact HS

theorem hout1 (c : Dev nD) : ((dat1 V c).Φ (Fin.last cfg1.N) : sProp 𝕄) ⊢ Pipeline.ΦA spec1 c := by
  rw [PhiA1_eq]; show Phi1 V c _ ⊢ _; unfold Phi1
  iintro ⟨⟨⟨%a, -, HS⟩, HR⟩, Hg⟩
  iframe HR Hg
  iexists a; iexact HS

end Cert.Kernel.Hand

end
-- ==== Proof.KB.R2.lean ====
import proofs.«429186_j15229954031644_1_alg».proof.Proof.Gen.Kernel.Launch
import proofs.«429186_j15229954031644_1_alg».proof.Proof.Gen.Kernel.Skeleton
import proofs.«429186_j15229954031644_1_alg».proof.Proof.KB.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Cert.Kernel.GenP Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S1024x128 .f32 := Memref.whole cc2_scratch0

def acc2 (c : Dev nD) : (n : ℕ) → n < cfg2.N → Vec F S1024x128 .f32
  | 0, hn => k2_pay2 (grid2.coords ⟨0, hn⟩) (iblk2 V c 0 ⟨0, hn⟩) (iblk2 V c 1 ⟨0, hn⟩) (k2_pay1 (F := F))
  | n + 1, hn =>
    if (n + 1) % 391 = 0 then
      k2_pay2 (grid2.coords ⟨n + 1, hn⟩) (iblk2 V c 0 ⟨n + 1, hn⟩) (iblk2 V c 1 ⟨n + 1, hn⟩) (k2_pay1 (F := F))
    else
      k2_pay2 (grid2.coords ⟨n + 1, hn⟩) (iblk2 V c 0 ⟨n + 1, hn⟩) (iblk2 V c 1 ⟨n + 1, hn⟩) (acc2 c n (Nat.lt_of_succ_lt hn))

theorem acc2_first (c : Dev nD) (t : Fin cfg2.N) (h0 : t.val % 391 = 0) :
    acc2 V c t.val t.isLt = k2_pay2 (grid2.coords t) (iblk2 V c 0 t) (iblk2 V c 1 t) (k2_pay1 (F := F)) := by
  obtain ⟨_ | n, hn⟩ := t
  · rfl
  · exact (if_pos h0).trans rfl

theorem acc2_next (c : Dev nD) (t : Fin cfg2.N) (h0 : ¬ t.val % 391 = 0) :
    acc2 V c t.val t.isLt = k2_pay2 (grid2.coords t) (iblk2 V c 0 t) (iblk2 V c 1 t)
      (acc2 V c (t.val - 1) (Nat.lt_of_le_of_lt (Nat.sub_le _ _) t.isLt)) := by
  obtain ⟨_ | n, hn⟩ := t
  · exact absurd (Nat.zero_mod _) h0
  · exact (if_neg h0).trans rfl

/-- What the body leaves in each window's buffer: an input's block; the output's block, computed from the accumulator. -/
def aft2 (c : Dev nD) (t : Fin cfg2.N) : (w : Fin cfg2.W) → (cfg2.win w).block.Idx → Elt F (cfg2.win w).elt
  | ⟨0, _⟩ => iblk2 V c 0 t
  | ⟨1, _⟩ => iblk2 V c 1 t
  | ⟨2, _⟩ => k2_pay3 (acc2 V c t.val t.isLt)

/-- Before position `n` the accumulator's buffer holds some `a` from which the body at `n` computes `acc2` there. -/
def Phi2 (c : Dev nD) (n : ℕ) : sProp 𝕄 :=
  iprop(((∃ a, ⌜∀ h : n < cfg2.N, acc2 V c n h = k2_pay2 (grid2.coords ⟨n, h⟩) (aft2 V c ⟨n, h⟩ 0) (aft2 V c ⟨n, h⟩ 1)
        (if n % 391 = 0 then k2_pay1 (F := F) else a)⌝ ∗ owns (c : Thread nD τ) scM2 fullShare a)
      ∗ Pipeline.scopedRestBut (Ix := Unit) (Name := ℕ) (U := UR sig nD τ) (Lvl := ℕ) (Val := Elt F) spec2 c [cc2_scratch0])
    ∗ (∃ r, prngReg c r))

def dat2 (c : Dev nD) : Dat τ (Elt F) Unit ℕ (UR sig nD τ) ℕ cfg2 c where
  A w := V c (Pipeline.arrRef spec2 w)
  after w t := aft2 V c t w
  Φ t := Phi2 V c t.val
  q _ := fullShare
  owed _ := 0

theorem A_eq2 (c : Dev nD) (w : Fin cfg2.W) : (dat2 V c).A w = V c (Pipeline.arrRef spec2 w) := rfl

theorem q_eq2 (c : Dev nD) (w : Fin cfg2.W) : (dat2 V c).q w = fullShare := rfl

theorem owed_eq2 (c : Dev nD) (t : Fin (cfg2.N + 1)) : (dat2 V c).owed t = 0 := rfl

theorem after_out2 (c : Dev nD) (t : Fin cfg2.N) :
    (dat2 V c).after 2 t = k2_pay3 (acc2 V c t.val t.isLt) := rfl

private theorem before2 (c : Dev nD) (w : Fin cfg2.W) (hw : w ≠ 2) (t : Fin cfg2.N) (d) : (dat2 V c).before w t d = aft2 V c t w := by
  match w, hw with
  | ⟨2, _⟩, h => exact absurd rfl h
  | ⟨0, _⟩, _ | ⟨1, _⟩, _ =>
    exact (dat2 V c).before_in_eq_fetched _ rfl (fun _ => rfl) (fun _ _ _ => rfl) (fun _ => rfl) t d

private theorem leaves2 (c : Dev nD) (w : Fin cfg2.W) (hw : w ≠ 2) (t : Fin cfg2.N) :
    (dat2 V c).leavesExact w t = owns (c : Thread nD τ) ((cfg2.win w).stage (cfg2.slots t w)) fullShare (aft2 V c t w) := by
  match w, hw with
  | ⟨2, _⟩, h => exact absurd rfl h
  | ⟨0, _⟩, _ | ⟨1, _⟩, _ => rfl

theorem coordj2 (t : Fin cfg2.N) : ((grid2.coords t) 1).val = t.val % 391 := by
  have hs : grid2.stride 1 = 1 := by decide
  show t.val / grid2.stride 1 % grid2.bound 1 = t.val % 391
  rw [hs, Nat.div_one]; rfl

abbrev czero2 (i : grid2.Coords) : Prop :=
  (Scalar.cmpi .ne (Scalar.extui (Scalar.cmpi .eq (BitVec.ofNat 32 (i 1).val) 0#32)) 0#32) = 1#1

/-- Both conditions compare the inner coordinate with a constant. -/
theorem czero2_iff : ∀ j : Fin 391,
    ((Scalar.cmpi .ne (Scalar.extui (Scalar.cmpi .eq (BitVec.ofNat 32 j.val) 0#32)) 0#32) = 1#1) ↔ j.val = 0 := by
  decide +kernel

theorem cstore2_iff : ∀ j : Fin 391,
    ((Scalar.cmpi .ne (Scalar.extui (Scalar.cmpi .eq (BitVec.ofNat 32 j.val) 390#32)) 0#32) = 1#1) ↔ j.val = 390 := by
  decide +kernel

theorem hczero2 (t : Fin cfg2.N) : czero2 (grid2.coords t) ↔ t.val % 391 = 0 := by
  rw [← coordj2 t]; exact czero2_iff ((grid2.coords t) 1)

theorem hcstore2 (t : Fin cfg2.N) : k2_cond2 (grid2.coords t) = 1#1 ↔ t.val % 391 = 390 := by
  rw [← coordj2 t]; exact cstore2_iff ((grid2.coords t) 1)

/-- The body stores the output only where the inner coordinate is 390; elsewhere it leaves that buffer as found. -/
private theorem leaves2_out (c : Dev nD) (t : Fin cfg2.N) (d) :
    owns (c : Thread nD τ) (st2_2 t) fullShare (if t.val % 391 = 390 then aft2 V c t 2 else (dat2 V c).before 2 t d)
      ⊢ (dat2 V c).leavesExact 2 t := by
  by_cases h : t.val % 391 = 390
  · rw [if_pos h]; unfold Dat.leavesExact
    rw [show cfg2.idle 2 (grid2.coords t) = false from by
      show (!(k2_cond2 (grid2.coords t) == 1#1)) = false
      rw [(hcstore2 t).mpr h]; rfl]
    iintro H; iexact H
  · rw [if_neg h, Dat.leavesExact_idle (dat2 V c) 2 t (by
      show (!(k2_cond2 (grid2.coords t) == 1#1)) = true
      rw [beq_eq_false_iff_ne.mpr (mt (hcstore2 t).mp h)]; rfl)
      (Bool.eq_false_iff.mpr fun hf => h ((flush2_2 t).mp hf))]
    iintro H; iexists d; iexact H

theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

section
variable (c : Dev nD) (E : Set ℕ) (i : grid2.Coords)
  (arg2 : Memref sig .tc .vmem S4096x1 .i32) (harg2 : arg2.IsWhole) (arg3 : Memref sig .tc .vmem S4096x128 .bf16) (harg3 : arg3.IsWhole)
  (arg4 : Memref sig .tc .vmem S1024x128 .bf16) (harg4 : arg4.IsWhole) (arg5 : Memref sig .tc .vmem S1024x128 .f32) (harg5 : arg5.IsWhole)
  (x0 : Vec F S4096x1 .i32) (x1 : Vec F S4096x128 .bf16)

/-- The body's four buffers: the inputs at `x0`, `x1`, the output's at `y`, the accumulator's at `b`. -/
private def own2 (y : Vec F S1024x128 .bf16) (b : Vec F S1024x128 .f32) : sProp 𝕄 :=
  iprop(owns (c : Thread nD τ) arg2 fullShare x0 ∗ owns (c : Thread nD τ) arg3 fullShare x1 ∗ owns (c : Thread nD τ) arg4 fullShare y
    ∗ owns (c : Thread nD τ) arg5 fullShare b)

variable {c E i arg2 harg2 arg3 harg3 arg4 harg4 arg5 harg5 x0 x1}

set_option maxHeartbeats 1000000 in
/-- One run of the body: the accumulator restarts from zero where `pz` (inner coordinate 0), the output is stored where `pl` (inner coordinate 390). -/
theorem sound_kernel2 {pz pl : Prop} [Decidable pz] [Decidable pl] (hz : czero2 i ↔ pz) (hl : k2_cond2 i = 1#1 ↔ pl)
    {xi : Vec F S1024x128 .bf16} {a A : Vec F S1024x128 .f32} (hA : A = k2_pay2 i x0 x1 (if pz then k2_pay1 (F := F) else a))
    {K : PUnit → sProp 𝕄} :
    iprop(own2 c arg2 arg3 arg4 arg5 x0 x1 xi a ∗ (own2 c arg2 arg3 arg4 arg5 x0 x1 (if pl then k2_pay3 A else xi) A -∗ K ⟨⟩))
      ⊢ wp frame (wpE (defs₀ (F := F)) Variants.none c none) E (cc2__scatter_kernel i arg2 harg2 arg3 harg3 arg4 harg4 arg5 harg5) K := by
  subst hA
  by_cases hpz : pz <;> by_cases hpl : pl <;> simp only [hpz, hpl, ↓reduceIte]
  · have := (czero2_iff (i 1)).mp (hz.mpr hpz); have := (cstore2_iff (i 1)).mp (hl.mpr hpl); omega
  all_goals
    simp only [cc2__scatter_kernel_eq_skeleton]; unfold cc2__scatter_kernel_skel own2 owns
    iintro ⟨⟨⟨%f0, %hf0, H0⟩, ⟨%f1, %hf1, H1⟩, ⟨%f2, %hf2, H2⟩, ⟨%f3, %hf3, H3⟩⟩, Hk⟩
    subst hf0 hf1 hf2 hf3
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
      | have : pl := hpl
        refine (read_writes_whole (S := S1024x128) _ _ hz2 _ _ _).trans ?_
        sl_unfold_run_names
        rw [View.readCov_unit_zero (S := S1024x128) _ hz2, readAt_whole (S := S4096x1) _ hz2, readAt_whole (S := S4096x128) _ hz2,
          readAt_whole (S := S1024x128) _ hz2]
      | rfl
    iexists _; isplitr
    swap; · iexact H3
    ipureintro
    refine (read_writes_whole (S := S1024x128) _ _ hz2 _ _ _).trans ?_
    first
    | have : pz := hpz
      sl_unfold_run_names
      rw [View.readCov_unit_zero (S := S1024x128) _ hz2, readAt_whole (S := S4096x1) _ hz2, readAt_whole (S := S4096x128) _ hz2]
    | rw [readAt_whole (S := S4096x1) _ hz2, readAt_whole (S := S4096x128) _ hz2, readAt_whole (S := S1024x128) _ hz2]

end

/-- The body at any point: the invariant hands it the accumulator's buffer and takes it back at the point's contents. -/
private theorem sound_body2 (c : Dev nD) (t : Fin cfg2.N) :
    iprop((dat2 V c).Φ t.castSucc ∗ (dat2 V c).owesAt () t.castSucc
        ∗ bigSep Finset.univ fun w : Fin cfg2.W => iprop(∃ d, owns (c : Thread nD τ) ((cfg2.win w).stage (cfg2.slots t w)) fullShare ((dat2 V c).before w t d)))
      ⊢ wp frame (wpE (defs₀ (F := F)) Variants.none c none) Set.univ (bodyAt2 t) fun _ =>
        iprop((dat2 V c).Φ t.succ ∗ (dat2 V c).owesAt () t.succ ∗ bigSep Finset.univ fun w : Fin cfg2.W => (dat2 V c).leavesExact w t) := by
  rw [bigSep_W2, bigSep_W2]
  simp (disch := decide) only [before2 V c, leaves2 V c]
  rw [show (dat2 V c).Φ t.castSucc = Phi2 V c t.val from rfl, show (dat2 V c).Φ t.succ = Phi2 V c (t.val + 1) from rfl,
    show (dat2 V c).owesAt () t.succ = (dat2 V c).owesAt () t.castSucc from rfl]
  unfold Phi2 bodyAt2
  iintro ⟨⟨⟨⟨%a, %ha, HS⟩, HR⟩, Hg⟩, Ho, ⟨%d0, H0⟩, ⟨%d1, H1⟩, ⟨%d2, H2⟩⟩
  iapply (sound_kernel2 (hczero2 t) (hcstore2 t) (ha t.isLt))
  unfold own2
  iframe H0 H1 H2 HS
  iintro ⟨H0, H1, H2, HS⟩
  iframe HR Hg Ho H0 H1
  isplitl [HS]
  · iexists _; isplitr
    swap; · iexact HS
    ipureintro; exact fun _ => (apply_ite _ _ _ _).symm
  iapply (leaves2_out V c t d2); iexact H2

theorem body_obligation2 (c : Dev nD) : BodyObligation (dat2 (F := F) V c) (defs₀ (F := F)) Variants.none () Set.univ :=
  fun t => sound_body2 V c t

theorem hin2 (c : Dev nD) : Pipeline.ΦA spec2 c ⊢ ((dat2 V c).Φ 0 : sProp 𝕄) := by
  rw [PhiA2_eq]; show _ ⊢ Phi2 V c 0; unfold Phi2
  iintro ⟨⟨⟨%a, HS⟩, HR⟩, Hg⟩
  iframe HR Hg
  iexists a; isplitr
  · ipureintro; exact fun _ => rfl
  iexact HS

theorem hout2 (c : Dev nD) : ((dat2 V c).Φ (Fin.last cfg2.N) : sProp 𝕄) ⊢ Pipeline.ΦA spec2 c := by
  rw [PhiA2_eq]; show Phi2 V c _ ⊢ _; unfold Phi2
  iintro ⟨⟨⟨%a, -, HS⟩, HR⟩, Hg⟩
  iframe HR Hg
  iexists a; iexact HS

end Cert.Kernel.Hand

end
-- ==== Proof.KB.R3.lean ====
import proofs.«429186_j15229954031644_1_alg».proof.Proof.Gen.Kernel.Launch
import proofs.«429186_j15229954031644_1_alg».proof.Proof.Gen.Kernel.Skeleton
import proofs.«429186_j15229954031644_1_alg».proof.Proof.KB.PointsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S7168x128 := Rect.unit (s := S7168x128) ![0, 0] S7168x128.size inb_S7168x128_S7168x128_0_0
abbrev rE3 : Rect S1x1 := Rect.unit (s := S1x1) ![0, 0] S1x1.size inb_S1x1_S1x1_0_0
abbrev rW3 : Rect S128x128 := Rect.unit (s := S128x128) ![0, 0] S128x128.size inb_S128x128_S128x128_0_0
abbrev rB3 : Rect S1x128 := Rect.unit (s := S1x128) ![0, 0] S1x128.size inb_S1x128_S1x128_0_0

def out3 (xh xa : Vec F S7168x128 .bf16) (xe : Vec F S1x1 .f32) (xw : Vec F S128x128 .f32) (xb : Vec F S1x128 .f32) :
    Vec F S7168x128 .bf16 :=
  View.canon [⟨rA3, k3_pay1 (View.ld xh rA3) (View.ld xa rA3) (View.ld xe rE3) (View.ld xw rW3) (View.ld xb rB3)⟩]

theorem cover3 (p : Vec F S7168x128 .bf16) (y : S7168x128.Idx) :
    ∃ pc ∈ ([⟨rA3, p⟩] : List (View.Piece (Elt F) S7168x128 .bf16)), y ∈ pc.1.set :=
  View.cover_of_tiled [⟨rA3, p⟩] S7168x128.size (by rfl) y

set_option maxHeartbeats 1000000 in
theorem sound_kernel3 {c : Dev nD} {E : Set ℕ} {i : grid3.Coords}
    {argH : Memref sig .tc .vmem S7168x128 .bf16} {hargH : argH.IsWhole} {argA : Memref sig .tc .vmem S7168x128 .bf16} {hargA : argA.IsWhole}
    {argE : Memref sig .tc .vmem S1x1 .f32} {hargE : argE.IsWhole} {argW : Memref sig .tc .vmem S128x128 .f32} {hargW : argW.IsWhole}
    {argB : Memref sig .tc .vmem S1x128 .f32} {hargB : argB.IsWhole} {argO : Memref sig .tc .vmem S7168x128 .bf16} {hargO : argO.IsWhole}
    {xh xa : Vec F S7168x128 .bf16} {xe : Vec F S1x1 .f32} {xw : Vec F S128x128 .f32} {xb : Vec F S1x128 .f32} {K : PUnit → sProp 𝕄} :
    iprop(owns (c : Thread nD τ) argH fullShare xh ∗ owns (c : Thread nD τ) argA fullShare xa ∗ owns (c : Thread nD τ) argE fullShare xe
        ∗ owns (c : Thread nD τ) argW fullShare xw ∗ owns (c : Thread nD τ) argB fullShare xb ∗ (∃ d, owns (c : Thread nD τ) argO fullShare d)
        ∗ (iprop(owns (c : Thread nD τ) argH fullShare xh ∗ owns (c : Thread nD τ) argA fullShare xa ∗ owns (c : Thread nD τ) argE fullShare xe
            ∗ owns (c : Thread nD τ) argW fullShare xw ∗ owns (c : Thread nD τ) argB fullShare xb
            ∗ owns (c : Thread nD τ) argO fullShare (out3 xh xa xe xw xb)) -∗ K ⟨⟩))
      ⊢ wp frame (wpE (defs₀ (F := F)) Variants.none c none) E (cc3__combine_kernel i argH hargH argA hargA argE hargE argW hargW argB hargB argO hargO) K := by
  simp only [cc3__combine_kernel_eq_skeleton]; unfold cc3__combine_kernel_skel
  unfold owns
  iintro ⟨⟨%fh, %eh, Hh⟩, ⟨%fa, %ea, Ha⟩, ⟨%fe, %ee, He⟩, ⟨%fw, %ew, Hw⟩, ⟨%fb, %eb, Hb⟩, ⟨%dO, %fo, -, HO⟩, Hk⟩
  subst eh ea ee ew eb
  sl_exec
  sl_step
  iapply Hk
  isplitl [Hh]
  · iexists fh; isplitr; · ipureintro; rfl
    iexact Hh
  isplitl [Ha]
  · iexists fa; isplitr; · ipureintro; rfl
    iexact Ha
  isplitl [He]
  · iexists fe; isplitr; · ipureintro; rfl
    iexact He
  isplitl [Hw]
  · iexists fw; isplitr; · ipureintro; rfl
    iexact Hw
  isplitl [Hb]
  · iexists fb; isplitr; · ipureintro; rfl
    iexact Hb
  iexists _; isplitr
  swap; · iexact HO
  ipureintro
  exact View.read_writes_eq_canon _ _ _ (cover3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl

theorem after_out3 (c : Dev nD) (t : Fin cfg3.N) : (dat3 V c).after 5 t
    = out3 (iblk3 V c 0 t) (iblk3 V c 1 t) (iblk3 V c 2 t) (iblk3 V c 3 t) (iblk3 V c 4 t) := by dsimp only [dat3]

private theorem before3 (c : Dev nD) (w : Fin cfg3.W) (hw : w ≠ 5) (t : Fin cfg3.N) (d) : (dat3 V c).before w t d = (dat3 V c).after w t := by
  match w, hw with
  | ⟨5, _⟩, h => exact absurd rfl h
  | ⟨0, _⟩, _ | ⟨1, _⟩, _ | ⟨2, _⟩, _ | ⟨3, _⟩, _ | ⟨4, _⟩, _ =>
    exact (dat3 V c).before_in_eq_fetched _ rfl (fun _ => rfl) (fun _ _ _ => rfl) (fun _ => rfl) t d

private theorem leaves3 (c : Dev nD) (w : Fin cfg3.W) (t : Fin cfg3.N) :
    (dat3 V c).leavesExact w t = owns (c : Thread nD τ) ((cfg3.win w).stage (cfg3.slots t w)) fullShare ((dat3 V c).after w t) := by
  match w with
  | ⟨0, _⟩ | ⟨1, _⟩ | ⟨2, _⟩ | ⟨3, _⟩ | ⟨4, _⟩ | ⟨5, _⟩ => rfl

private theorem sound_body3 (c : Dev nD) (t : Fin cfg3.N) :
    iprop((dat3 V c).Φ t.castSucc ∗ (dat3 V c).owesAt () t.castSucc
        ∗ bigSep Finset.univ fun w : Fin cfg3.W => iprop(∃ d, owns (c : Thread nD τ) ((cfg3.win w).stage (cfg3.slots t w)) fullShare ((dat3 V c).before w t d)))
      ⊢ wp frame (wpE (defs₀ (F := F)) Variants.none c none) Set.univ (bodyAt3 t) fun _ =>
        iprop((dat3 V c).Φ t.succ ∗ (dat3 V c).owesAt () t.succ ∗ bigSep Finset.univ fun w : Fin cfg3.W => (dat3 V c).leavesExact w t) := by
  rw [bigSep_W3, bigSep_W3]
  simp (disch := decide) only [before3 V c, leaves3 V c]
  rw [show (dat3 V c).Φ t.succ = (dat3 V c).Φ t.castSucc from rfl,
    show (dat3 V c).owesAt () t.succ = (dat3 V c).owesAt () t.castSucc from rfl,
    show (dat3 V c).after 5 t = out3 ((dat3 V c).after 0 t) ((dat3 V c).after 1 t) ((dat3 V c).after 2 t) ((dat3 V c).after 3 t)
      ((dat3 V c).after 4 t) from by dsimp only [dat3]]
  unfold bodyAt3
  iintro ⟨HΦ, Ho, ⟨%dh, Hh⟩, ⟨%da, Ha⟩, ⟨%de, He⟩, ⟨%dw, Hw⟩, ⟨%db, Hb⟩, ⟨%dO, HO⟩⟩
  iapply sound_kernel3
  iframe Hh Ha He Hw Hb
  isplitl [HO]; · iexists _; iexact HO
  iintro ⟨Hh, Ha, He, Hw, Hb, HO⟩
  iframe HΦ Ho Hh Ha He Hw Hb HO

theorem body_obligation3 (c : Dev nD) : BodyObligation (dat3 (F := F) V c) (defs₀ (F := F)) Variants.none () Set.univ :=
  fun t => sound_body3 V c t

theorem hin3 (c : Dev nD) : Pipeline.ΦA spec3 c ⊢ ((dat3 V c).Φ 0 : sProp 𝕄) := .rfl
theorem hout3 (c : Dev nD) : ((dat3 V c).Φ (Fin.last cfg3.N) : sProp 𝕄) ⊢ Pipeline.ΦA spec3 c := .rfl

end Cert.Kernel.Hand
-- ==== Proof.KB.R4.lean ====
import proofs.«429186_j15229954031644_1_alg».proof.Proof.Gen.Kernel.Launch
import proofs.«429186_j15229954031644_1_alg».proof.Proof.Gen.Kernel.Skeleton
import proofs.«429186_j15229954031644_1_alg».proof.Proof.KB.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section
namespace Cert.Kernel.Hand

open Cert.Kernel Cert.Kernel.Gen
open Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S4096x128 .f32
  | 0, hn => k4_pay2 (grid4.coords ⟨0, hn⟩) (iblk4 V c 0 ⟨0, hn⟩) (iblk4 V c 2 ⟨0, hn⟩) (k4_pay1 (F := F))
  | n + 1, hn => k4_pay2 (grid4.coords ⟨n + 1, hn⟩) (iblk4 V c 0 ⟨n + 1, hn⟩) (iblk4 V c 2 ⟨n + 1, hn⟩)
      (if (n + 1) % 98 = 0 then (k4_pay1 (F := F)) else acc4 c n (Nat.lt_of_succ_lt hn))

theorem acc4_first (c : Dev nD) (t : Fin cfg4.N) (h : t.val % 98 = 0) :
    acc4 V c t.val t.isLt = k4_pay2 (grid4.coords t) (iblk4 V c 0 t) (iblk4 V c 2 t) (k4_pay1 (F := F)) := by
  obtain ⟨_ | n, hn⟩ := t
  · rfl
  · rw [acc4, if_pos h]

theorem acc4_next (c : Dev nD) (t : Fin cfg4.N) (h : ¬t.val % 98 = 0) :
    acc4 V c t.val t.isLt = k4_pay2 (grid4.coords t) (iblk4 V c 0 t) (iblk4 V c 2 t)
      (acc4 V c (t.val - 1) (Nat.lt_of_le_of_lt (Nat.sub_le _ _) t.isLt)) := by
  obtain ⟨_ | n, hn⟩ := t
  · exact absurd (Nat.zero_mod 98) h
  · rw [acc4, if_neg h]; rfl

abbrev sc4 : Memref sig .tc .vmem S4096x128 .f32 := Memref.whole cc4_scratch0

/-- What the body leaves in each window's buffer: an input's block; the output's block, computed from the accumulator. -/
def aft4 (c : Dev nD) (t : Fin cfg4.N) : (w : Fin cfg4.W) → (cfg4.win w).block.Idx → Elt F (cfg4.win w).elt
  | ⟨0, _⟩ => iblk4 V c 0 t
  | ⟨1, _⟩ => iblk4 V c 1 t
  | ⟨2, _⟩ => iblk4 V c 2 t
  | ⟨3, _⟩ => iblk4 V c 3 t
  | ⟨4, _⟩ => iblk4 V c 4 t
  | ⟨5, _⟩ => k4_pay3 (iblk4 V c 1 t) (iblk4 V c 3 t) (iblk4 V c 4 t) (acc4 V c t.val t.isLt)

/-- Before position `n` the accumulator's buffer holds some `a` from which the body at `n` computes `acc4` there. -/
def Phi4 (c : Dev nD) (n : ℕ) : sProp 𝕄 :=
  iprop(((∃ a, ⌜∀ h : n < cfg4.N, acc4 V c n h = k4_pay2 (grid4.coords ⟨n, h⟩) (aft4 V c ⟨n, h⟩ 0) (aft4 V c ⟨n, h⟩ 2)
        (if n % 98 = 0 then k4_pay1 (F := F) else a)⌝ ∗ owns (c : Thread nD τ) sc4 fullShare a)
      ∗ Pipeline.scopedRestBut (Ix := Unit) (Name := ℕ) (U := UR sig nD τ) (Lvl := ℕ) (Val := Elt F) spec4 c [cc4_scratch0])
    ∗ (∃ r, prngReg c r))

def dat4 (c : Dev nD) : Dat τ (Elt F) Unit ℕ (UR sig nD τ) ℕ cfg4 c where
  A w := V c (Pipeline.arrRef spec4 w)
  after w t := aft4 V c t w
  Φ t := Phi4 V c t.val
  q _ := fullShare
  owed _ := 0

theorem A_eq4 (c : Dev nD) (w : Fin cfg4.W) : (dat4 V c).A w = V c (Pipeline.arrRef spec4 w) := rfl

theorem q_eq4 (c : Dev nD) (w : Fin cfg4.W) : (dat4 V c).q w = fullShare := rfl

theorem owed_eq4 (c : Dev nD) (t : Fin (cfg4.N + 1)) : (dat4 V c).owed t = 0 := rfl

theorem after_out4 (c : Dev nD) (t : Fin cfg4.N) :
    (dat4 V c).after 5 t = k4_pay3 (iblk4 V c 1 t) (iblk4 V c 3 t) (iblk4 V c 4 t) (acc4 V c t.val t.isLt) := rfl

private theorem before4 (c : Dev nD) (w : Fin cfg4.W) (hw : w ≠ 5) (t : Fin cfg4.N) (d) : (dat4 V c).before w t d = aft4 V c t w := by
  match w, hw with
  | ⟨5, _⟩, h => exact absurd rfl h
  | ⟨0, _⟩, _ | ⟨1, _⟩, _ | ⟨2, _⟩, _ | ⟨3, _⟩, _ | ⟨4, _⟩, _ =>
    exact (dat4 V c).before_in_eq_fetched _ rfl (fun _ => rfl) (fun _ _ _ => rfl) (fun _ => rfl) t d

private theorem leaves4 (c : Dev nD) (w : Fin cfg4.W) (hw : w ≠ 5) (t : Fin cfg4.N) :
    (dat4 V c).leavesExact w t = owns (c : Thread nD τ) ((cfg4.win w).stage (cfg4.slots t w)) fullShare (aft4 V c t w) := by
  match w, hw with
  | ⟨5, _⟩, h => exact absurd rfl h
  | ⟨0, _⟩, _ | ⟨1, _⟩, _ | ⟨2, _⟩, _ | ⟨3, _⟩, _ | ⟨4, _⟩, _ => rfl

private abbrev cond4_1 (i : grid4.Coords) : Prop := (Scalar.cmpi .ne (Scalar.extui (Scalar.cmpi .eq (BitVec.ofNat 32 (i 1).val) 0#32)) 0#32) = 1#1
private abbrev cond4_2 (i : grid4.Coords) : Prop := k4_cond2 i = 1#1

private theorem coord4_1 (t : Fin cfg4.N) : (grid4.coords t 1).val = t.val % 98 := by
  show t.val / grid4.stride 1 % grid4.bound 1 = t.val % 98
  rw [show grid4.stride 1 = 1 from by decide, show grid4.bound 1 = 98 from rfl, Nat.div_one]

/-- Both conditions compare the inner coordinate with a constant. -/
private theorem cond4_1_iff (i : grid4.Coords) : cond4_1 i ↔ (i 1).val = 0 :=
  (by decide +kernel : ∀ j : Fin 98, (Scalar.cmpi .ne (Scalar.extui (Scalar.cmpi .eq (BitVec.ofNat 32 j.val) 0#32)) 0#32) = 1#1 ↔ j.val = 0) (i 1)
private theorem cond4_2_iff (i : grid4.Coords) : cond4_2 i ↔ (i 1).val = 97 :=
  (by decide +kernel : ∀ j : Fin 98, (Scalar.cmpi .ne (Scalar.extui (Scalar.cmpi .eq (BitVec.ofNat 32 j.val) 97#32)) 0#32) = 1#1 ↔ j.val = 97) (i 1)

private theorem hcond4_1 (t : Fin cfg4.N) : cond4_1 (grid4.coords t) ↔ t.val % 98 = 0 :=
  (cond4_1_iff (grid4.coords t)).trans (by rw [coord4_1])
private theorem hcond4_2 (t : Fin cfg4.N) : cond4_2 (grid4.coords t) ↔ t.val % 98 = 97 :=
  (cond4_2_iff (grid4.coords t)).trans (by rw [coord4_1])

/-- The body stores the output only where the inner coordinate is 97; elsewhere it leaves that buffer as found. -/
private theorem leaves4_out (c : Dev nD) (t : Fin cfg4.N) (d) :
    owns (c : Thread nD τ) (st4_5 t) fullShare (if t.val % 98 = 97 then aft4 V c t 5 else (dat4 V c).before 5 t d)
      ⊢ (dat4 V c).leavesExact 5 t := by
  by_cases h : t.val % 98 = 97
  · rw [if_pos h]; unfold Dat.leavesExact
    rw [show cfg4.idle 5 (grid4.coords t) = false from by
      show (!(k4_cond2 (grid4.coords t) == 1#1)) = false
      rw [Bool.not_eq_false', beq_iff_eq]; exact (hcond4_2 t).mpr h]
    iintro H; iexact H
  · rw [if_neg h, Dat.leavesExact_idle (dat4 V c) 5 t (by
      show (!(k4_cond2 (grid4.coords t) == 1#1)) = true
      rw [Bool.not_eq_true', beq_eq_false_iff_ne]; exact mt (hcond4_2 t).mp h)
      (Bool.eq_false_iff.mpr fun hf => h ((flush4_5 t).mp hf))]
    iintro H; iexists d; iexact H

private theorem PhiA4_eq (c : Dev nD) :
    (Pipeline.ΦA spec4 c : sProp 𝕄)
      = iprop(iprop((∃ d, owns (c : Thread nD τ) sc4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [sc4, owns_whole]; try rfl

section
variable (c : Dev nD) (E : Set ℕ) (i : grid4.Coords)
  (arg2 : Memref sig .tc .vmem S4096x1 .i32) (harg2 : arg2.IsWhole) (arg3 : Memref sig .tc .vmem S4096x1 .f32) (harg3 : arg3.IsWhole)
  (arg4 : Memref sig .tc .vmem S1024x128 .bf16) (harg4 : arg4.IsWhole) (arg5 : Memref sig .tc .vmem S1x128 .f32) (harg5 : arg5.IsWhole)
  (arg6 : Memref sig .tc .vmem S1x128 .f32) (harg6 : arg6.IsWhole) (arg7 : Memref sig .tc .vmem S4096x128 .bf16) (harg7 : arg7.IsWhole)
  (arg8 : Memref sig .tc .vmem S4096x128 .f32) (harg8 : arg8.IsWhole)
  (x0 : Vec F S4096x1 .i32) (x1 : Vec F S4096x1 .f32) (x2 : Vec F S1024x128 .bf16) (x3 x4 : Vec F S1x128 .f32)

/-- The body's seven buffers: the inputs at `x0 … x4`, the output's at `y`, the accumulator's at `b`. -/
private def own4 (y : Vec F S4096x128 .bf16) (b : Vec F S4096x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare y
    ∗ owns (c : Thread nD τ) arg8 fullShare b)

variable {c E i arg2 harg2 arg3 harg3 arg4 harg4 arg5 harg5 arg6 harg6 arg7 harg7 arg8 harg8 x0 x1 x2 x3 x4}

set_option maxHeartbeats 1000000 in
/-- One run of the body: the accumulator restarts from zero where `pz` (inner coordinate 0), the output is stored where `pl` (inner coordinate 97). -/
theorem sound_kernel4 {pz pl : Prop} [Decidable pz] [Decidable pl] (hz : cond4_1 i ↔ pz) (hl : cond4_2 i ↔ pl)
    {x5 : Vec F S4096x128 .bf16} {a A : Vec F S4096x128 .f32} (hA : A = k4_pay2 i x0 x2 (if pz then k4_pay1 (F := F) else a))
    {K : PUnit → sProp 𝕄} :
    iprop(own4 c arg2 arg3 arg4 arg5 arg6 arg7 arg8 x0 x1 x2 x3 x4 x5 a
        ∗ (own4 c arg2 arg3 arg4 arg5 arg6 arg7 arg8 x0 x1 x2 x3 x4 (if pl then k4_pay3 x1 x3 x4 A else x5) A -∗ K ⟨⟩))
      ⊢ wp frame (wpE (defs₀ (F := F)) Variants.none c none) E (cc4__gather_kernel i arg2 harg2 arg3 harg3 arg4 harg4 arg5 harg5 arg6 harg6 arg7 harg7 arg8 harg8) K := by
  subst hA
  by_cases hpz : pz <;> by_cases hpl : pl <;> simp only [hpz, hpl, ↓reduceIte]
  · have := (cond4_1_iff i).mp (hz.mpr hpz); have := (cond4_2_iff i).mp (hl.mpr hpl); omega
  all_goals
    simp only [cc4__gather_kernel_eq_skeleton]; unfold cc4__gather_kernel_skel own4 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩⟩, Hk⟩
    subst hf0 hf1 hf2 hf3 hf4 hf5 hf8
    have e := congrArg₂ (k4_pay2 i) (readAt_whole arg2.view hz2 inb_S4096x1_S4096x1_0_0 f0) (readAt_whole arg4.view hz2 inb_S1024x128_S1024x128_0_0 f2)
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      first
      | have : pl := hpl
        exact (read_writes_whole arg7.view _ hz2 _ _ _).trans
          (congr (congr (congrArg₂ k4_pay3 (readAt_whole arg3.view hz2 _ f1) (readAt_whole arg5.view hz2 _ f3)) (readAt_whole arg6.view hz2 _ f4))
            ((View.readCov_unit_zero (S := S4096x128) arg8.view hz2 inb_S4096x128_S4096x128_0_0 _).trans (congr e (readAt_whole arg8.view hz2 _ f8))))
      | rfl
    iexists _; isplitr
    swap; · iexact H8
    ipureintro
    refine (read_writes_whole arg8.view _ hz2 _ _ _).trans (congr e ?_)
    first
    | have : pz := hpz
      exact View.readCov_unit_zero (S := S4096x128) (Val := Elt F) arg8.view hz2 inb_S4096x128_S4096x128_0_0 _
    | exact readAt_whole arg8.view hz2 _ f8

end

/-- The body at any point: the invariant hands it the accumulator's buffer and takes it back at the point's contents. -/
private theorem sound_body4 (c : Dev nD) (t : Fin cfg4.N) :
    iprop((dat4 V c).Φ t.castSucc ∗ (dat4 V c).owesAt () t.castSucc
        ∗ bigSep Finset.univ fun w : Fin cfg4.W => iprop(∃ d, owns (c : Thread nD τ) ((cfg4.win w).stage (cfg4.slots t w)) fullShare ((dat4 V c).before w t d)))
      ⊢ wp frame (wpE (defs₀ (F := F)) Variants.none c none) Set.univ (bodyAt4 t) fun _ =>
        iprop((dat4 V c).Φ t.succ ∗ (dat4 V c).owesAt () t.succ ∗ bigSep Finset.univ fun w : Fin cfg4.W => (dat4 V c).leavesExact w t) := by
  rw [bigSep_W4, bigSep_W4]
  simp (disch := decide) only [before4 V c, leaves4 V c]
  rw [show (dat4 V c).Φ t.castSucc = Phi4 V c t.val from rfl, show (dat4 V c).Φ t.succ = Phi4 V c (t.val + 1) from rfl,
    show (dat4 V c).owesAt () t.succ = (dat4 V c).owesAt () t.castSucc from rfl]
  unfold Phi4 bodyAt4
  iintro ⟨⟨⟨⟨%a, %ha, HS⟩, HR⟩, Hg⟩, Ho, ⟨%d0, H0⟩, ⟨%d1, H1⟩, ⟨%d2, H2⟩, ⟨%d3, H3⟩, ⟨%d4, H4⟩, ⟨%d5, H5⟩⟩
  iapply (sound_kernel4 (hcond4_1 t) (hcond4_2 t) (ha t.isLt))
  unfold own4
  iframe H0 H1 H2 H3 H4 H5 HS
  iintro ⟨H0, H1, H2, H3, H4, H5, HS⟩
  iframe HR Hg Ho H0 H1 H2 H3 H4
  isplitl [HS]
  · iexists _; isplitr
    swap; · iexact HS
    ipureintro; exact fun _ => rfl
  iapply (leaves4_out V c t d5); iexact H5

theorem body_obligation4 (c : Dev nD) : BodyObligation (dat4 (F := F) V c) (defs₀ (F := F)) Variants.none () Set.univ :=
  fun t => sound_body4 V c t

theorem hin4 (c : Dev nD) : Pipeline.ΦA spec4 c ⊢ ((dat4 V c).Φ 0 : sProp 𝕄) := by
  rw [PhiA4_eq]; show _ ⊢ Phi4 V c 0; unfold Phi4
  iintro ⟨⟨⟨%a, HS⟩, HR⟩, Hg⟩
  iframe HR Hg
  iexists a; isplitr
  · ipureintro; exact fun _ => rfl
  iexact HS

theorem hout4 (c : Dev nD) : ((dat4 V c).Φ (Fin.last cfg4.N) : sProp 𝕄) ⊢ Pipeline.ΦA spec4 c := by
  rw [PhiA4_eq]; show Phi4 V c _ ⊢ _; unfold Phi4
  iintro ⟨⟨⟨%a, -, HS⟩, HR⟩, Hg⟩
  iframe HR Hg
  iexists a; iexact HS

end Cert.Kernel.Hand

end
-- ==== Proof.KB.R5.lean ====
import proofs.«429186_j15229954031644_1_alg».proof.Proof.Gen.Kernel.Launch
import proofs.«429186_j15229954031644_1_alg».proof.Proof.Gen.Kernel.Skeleton
import proofs.«429186_j15229954031644_1_alg».proof.Proof.KB.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Cert.Kernel.GenP Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S1024x128 .f32 := Memref.whole cc5_scratch0

def acc5 (c : Dev nD) : (n : ℕ) → n < cfg5.N → Vec F S1024x128 .f32
  | 0, hn => k5_pay2 (grid5.coords ⟨0, hn⟩) (iblk5 V c 0 ⟨0, hn⟩) (iblk5 V c 1 ⟨0, hn⟩) (k5_pay1 (F := F))
  | n + 1, hn =>
    if (n + 1) % 391 = 0 then
      k5_pay2 (grid5.coords ⟨n + 1, hn⟩) (iblk5 V c 0 ⟨n + 1, hn⟩) (iblk5 V c 1 ⟨n + 1, hn⟩) (k5_pay1 (F := F))
    else
      k5_pay2 (grid5.coords ⟨n + 1, hn⟩) (iblk5 V c 0 ⟨n + 1, hn⟩) (iblk5 V c 1 ⟨n + 1, hn⟩) (acc5 c n (Nat.lt_of_succ_lt hn))

theorem acc5_first (c : Dev nD) (t : Fin cfg5.N) (h0 : t.val % 391 = 0) :
    acc5 V c t.val t.isLt = k5_pay2 (grid5.coords t) (iblk5 V c 0 t) (iblk5 V c 1 t) (k5_pay1 (F := F)) := by
  obtain ⟨_ | n, hn⟩ := t
  · rfl
  · exact (if_pos h0).trans rfl

theorem acc5_next (c : Dev nD) (t : Fin cfg5.N) (h0 : ¬ t.val % 391 = 0) :
    acc5 V c t.val t.isLt = k5_pay2 (grid5.coords t) (iblk5 V c 0 t) (iblk5 V c 1 t)
      (acc5 V c (t.val - 1) (Nat.lt_of_le_of_lt (Nat.sub_le _ _) t.isLt)) := by
  obtain ⟨_ | n, hn⟩ := t
  · exact absurd (Nat.zero_mod _) h0
  · exact (if_neg h0).trans rfl

/-- What the body leaves in each window's buffer: an input's block; the output's block, computed from the accumulator. -/
def aft5 (c : Dev nD) (t : Fin cfg5.N) : (w : Fin cfg5.W) → (cfg5.win w).block.Idx → Elt F (cfg5.win w).elt
  | ⟨0, _⟩ => iblk5 V c 0 t
  | ⟨1, _⟩ => iblk5 V c 1 t
  | ⟨2, _⟩ => k5_pay3 (acc5 V c t.val t.isLt)

/-- Before position `n` the accumulator's buffer holds some `a` from which the body at `n` computes `acc5` there. -/
def Phi5 (c : Dev nD) (n : ℕ) : sProp 𝕄 :=
  iprop(((∃ a, ⌜∀ h : n < cfg5.N, acc5 V c n h = k5_pay2 (grid5.coords ⟨n, h⟩) (aft5 V c ⟨n, h⟩ 0) (aft5 V c ⟨n, h⟩ 1)
        (if n % 391 = 0 then k5_pay1 (F := F) else a)⌝ ∗ owns (c : Thread nD τ) scM5 fullShare a)
      ∗ Pipeline.scopedRestBut (Ix := Unit) (Name := ℕ) (U := UR sig nD τ) (Lvl := ℕ) (Val := Elt F) spec5 c [cc5_scratch0])
    ∗ (∃ r, prngReg c r))

def dat5 (c : Dev nD) : Dat τ (Elt F) Unit ℕ (UR sig nD τ) ℕ cfg5 c where
  A w := V c (Pipeline.arrRef spec5 w)
  after w t := aft5 V c t w
  Φ t := Phi5 V c t.val
  q _ := fullShare
  owed _ := 0

theorem A_eq5 (c : Dev nD) (w : Fin cfg5.W) : (dat5 V c).A w = V c (Pipeline.arrRef spec5 w) := rfl

theorem q_eq5 (c : Dev nD) (w : Fin cfg5.W) : (dat5 V c).q w = fullShare := rfl

theorem owed_eq5 (c : Dev nD) (t : Fin (cfg5.N + 1)) : (dat5 V c).owed t = 0 := rfl

theorem after_out5 (c : Dev nD) (t : Fin cfg5.N) :
    (dat5 V c).after 2 t = k5_pay3 (acc5 V c t.val t.isLt) := rfl

private theorem before5 (c : Dev nD) (w : Fin cfg5.W) (hw : w ≠ 2) (t : Fin cfg5.N) (d) : (dat5 V c).before w t d = aft5 V c t w := by
  match w, hw with
  | ⟨2, _⟩, h => exact absurd rfl h
  | ⟨0, _⟩, _ | ⟨1, _⟩, _ =>
    exact (dat5 V c).before_in_eq_fetched _ rfl (fun _ => rfl) (fun _ _ _ => rfl) (fun _ => rfl) t d

private theorem leaves5 (c : Dev nD) (w : Fin cfg5.W) (hw : w ≠ 2) (t : Fin cfg5.N) :
    (dat5 V c).leavesExact w t = owns (c : Thread nD τ) ((cfg5.win w).stage (cfg5.slots t w)) fullShare (aft5 V c t w) := by
  match w, hw with
  | ⟨2, _⟩, h => exact absurd rfl h
  | ⟨0, _⟩, _ | ⟨1, _⟩, _ => rfl

theorem coordj5 (t : Fin cfg5.N) : ((grid5.coords t) 1).val = t.val % 391 := by
  have hs : grid5.stride 1 = 1 := by decide
  show t.val / grid5.stride 1 % grid5.bound 1 = t.val % 391
  rw [hs, Nat.div_one]; rfl

abbrev czero5 (i : grid5.Coords) : Prop :=
  (Scalar.cmpi .ne (Scalar.extui (Scalar.cmpi .eq (BitVec.ofNat 32 (i 1).val) 0#32)) 0#32) = 1#1

/-- Both conditions compare the inner coordinate with a constant. -/
theorem czero5_iff : ∀ j : Fin 391,
    ((Scalar.cmpi .ne (Scalar.extui (Scalar.cmpi .eq (BitVec.ofNat 32 j.val) 0#32)) 0#32) = 1#1) ↔ j.val = 0 := by
  decide +kernel

theorem cstore5_iff : ∀ j : Fin 391,
    ((Scalar.cmpi .ne (Scalar.extui (Scalar.cmpi .eq (BitVec.ofNat 32 j.val) 390#32)) 0#32) = 1#1) ↔ j.val = 390 := by
  decide +kernel

theorem hczero5 (t : Fin cfg5.N) : czero5 (grid5.coords t) ↔ t.val % 391 = 0 := by
  rw [← coordj5 t]; exact czero5_iff ((grid5.coords t) 1)

theorem hcstore5 (t : Fin cfg5.N) : k5_cond2 (grid5.coords t) = 1#1 ↔ t.val % 391 = 390 := by
  rw [← coordj5 t]; exact cstore5_iff ((grid5.coords t) 1)

/-- The body stores the output only where the inner coordinate is 390; elsewhere it leaves that buffer as found. -/
private theorem leaves5_out (c : Dev nD) (t : Fin cfg5.N) (d) :
    owns (c : Thread nD τ) (st5_2 t) fullShare (if t.val % 391 = 390 then aft5 V c t 2 else (dat5 V c).before 2 t d)
      ⊢ (dat5 V c).leavesExact 2 t := by
  by_cases h : t.val % 391 = 390
  · rw [if_pos h]; unfold Dat.leavesExact
    rw [show cfg5.idle 2 (grid5.coords t) = false from by
      show (!(k5_cond2 (grid5.coords t) == 1#1)) = false
      rw [(hcstore5 t).mpr h]; rfl]
    iintro H; iexact H
  · rw [if_neg h, Dat.leavesExact_idle (dat5 V c) 2 t (by
      show (!(k5_cond2 (grid5.coords t) == 1#1)) = true
      rw [beq_eq_false_iff_ne.mpr (mt (hcstore5 t).mp h)]; rfl)
      (Bool.eq_false_iff.mpr fun hf => h ((flush5_2 t).mp hf))]
    iintro H; iexists d; iexact H

theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

section
variable (c : Dev nD) (E : Set ℕ) (i : grid5.Coords)
  (arg2 : Memref sig .tc .vmem S4096x1 .i32) (harg2 : arg2.IsWhole) (arg3 : Memref sig .tc .vmem S4096x128 .bf16) (harg3 : arg3.IsWhole)
  (arg4 : Memref sig .tc .vmem S1024x128 .bf16) (harg4 : arg4.IsWhole) (arg5 : Memref sig .tc .vmem S1024x128 .f32) (harg5 : arg5.IsWhole)
  (x0 : Vec F S4096x1 .i32) (x1 : Vec F S4096x128 .bf16)

/-- The body's four buffers: the inputs at `x0`, `x1`, the output's at `y`, the accumulator's at `b`. -/
private def own5 (y : Vec F S1024x128 .bf16) (b : Vec F S1024x128 .f32) : sProp 𝕄 :=
  iprop(owns (c : Thread nD τ) arg2 fullShare x0 ∗ owns (c : Thread nD τ) arg3 fullShare x1 ∗ owns (c : Thread nD τ) arg4 fullShare y
    ∗ owns (c : Thread nD τ) arg5 fullShare b)

variable {c E i arg2 harg2 arg3 harg3 arg4 harg4 arg5 harg5 x0 x1}

set_option maxHeartbeats 1000000 in
/-- One run of the body: the accumulator restarts from zero where `pz` (inner coordinate 0), the output is stored where `pl` (inner coordinate 390). -/
theorem sound_kernel5 {pz pl : Prop} [Decidable pz] [Decidable pl] (hz : czero5 i ↔ pz) (hl : k5_cond2 i = 1#1 ↔ pl)
    {xi : Vec F S1024x128 .bf16} {a A : Vec F S1024x128 .f32} (hA : A = k5_pay2 i x0 x1 (if pz then k5_pay1 (F := F) else a))
    {K : PUnit → sProp 𝕄} :
    iprop(own5 c arg2 arg3 arg4 arg5 x0 x1 xi a ∗ (own5 c arg2 arg3 arg4 arg5 x0 x1 (if pl then k5_pay3 A else xi) A -∗ K ⟨⟩))
      ⊢ wp frame (wpE (defs₀ (F := F)) Variants.none c none) E (cc5__scatter_kernel i arg2 harg2 arg3 harg3 arg4 harg4 arg5 harg5) K := by
  subst hA
  by_cases hpz : pz <;> by_cases hpl : pl <;> simp only [hpz, hpl, ↓reduceIte]
  · have := (czero5_iff (i 1)).mp (hz.mpr hpz); have := (cstore5_iff (i 1)).mp (hl.mpr hpl); omega
  all_goals
    simp only [cc5__scatter_kernel_eq_skeleton]; unfold cc5__scatter_kernel_skel own5 owns
    iintro ⟨⟨⟨%f0, %hf0, H0⟩, ⟨%f1, %hf1, H1⟩, ⟨%f2, %hf2, H2⟩, ⟨%f3, %hf3, H3⟩⟩, Hk⟩
    subst hf0 hf1 hf2 hf3
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
      | have : pl := hpl
        refine (read_writes_whole (S := S1024x128) _ _ hz2 _ _ _).trans ?_
        sl_unfold_run_names
        rw [View.readCov_unit_zero (S := S1024x128) _ hz2, readAt_whole (S := S4096x1) _ hz2, readAt_whole (S := S4096x128) _ hz2,
          readAt_whole (S := S1024x128) _ hz2]
      | rfl
    iexists _; isplitr
    swap; · iexact H3
    ipureintro
    refine (read_writes_whole (S := S1024x128) _ _ hz2 _ _ _).trans ?_
    first
    | have : pz := hpz
      sl_unfold_run_names
      rw [View.readCov_unit_zero (S := S1024x128) _ hz2, readAt_whole (S := S4096x1) _ hz2, readAt_whole (S := S4096x128) _ hz2]
    | rw [readAt_whole (S := S4096x1) _ hz2, readAt_whole (S := S4096x128) _ hz2, readAt_whole (S := S1024x128) _ hz2]

end

/-- The body at any point: the invariant hands it the accumulator's buffer and takes it back at the point's contents. -/
private theorem sound_body5 (c : Dev nD) (t : Fin cfg5.N) :
    iprop((dat5 V c).Φ t.castSucc ∗ (dat5 V c).owesAt () t.castSucc
        ∗ bigSep Finset.univ fun w : Fin cfg5.W => iprop(∃ d, owns (c : Thread nD τ) ((cfg5.win w).stage (cfg5.slots t w)) fullShare ((dat5 V c).before w t d)))
      ⊢ wp frame (wpE (defs₀ (F := F)) Variants.none c none) Set.univ (bodyAt5 t) fun _ =>
        iprop((dat5 V c).Φ t.succ ∗ (dat5 V c).owesAt () t.succ ∗ bigSep Finset.univ fun w : Fin cfg5.W => (dat5 V c).leavesExact w t) := by
  rw [bigSep_W5, bigSep_W5]
  simp (disch := decide) only [before5 V c, leaves5 V c]
  rw [show (dat5 V c).Φ t.castSucc = Phi5 V c t.val from rfl, show (dat5 V c).Φ t.succ = Phi5 V c (t.val + 1) from rfl,
    show (dat5 V c).owesAt () t.succ = (dat5 V c).owesAt () t.castSucc from rfl]
  unfold Phi5 bodyAt5
  iintro ⟨⟨⟨⟨%a, %ha, HS⟩, HR⟩, Hg⟩, Ho, ⟨%d0, H0⟩, ⟨%d1, H1⟩, ⟨%d2, H2⟩⟩
  iapply (sound_kernel5 (hczero5 t) (hcstore5 t) (ha t.isLt))
  unfold own5
  iframe H0 H1 H2 HS
  iintro ⟨H0, H1, H2, HS⟩
  iframe HR Hg Ho H0 H1
  isplitl [HS]
  · iexists _; isplitr
    swap; · iexact HS
    ipureintro; exact fun _ => (apply_ite _ _ _ _).symm
  iapply (leaves5_out V c t d2); iexact H2

theorem body_obligation5 (c : Dev nD) : BodyObligation (dat5 (F := F) V c) (defs₀ (F := F)) Variants.none () Set.univ :=
  fun t => sound_body5 V c t

theorem hin5 (c : Dev nD) : Pipeline.ΦA spec5 c ⊢ ((dat5 V c).Φ 0 : sProp 𝕄) := by
  rw [PhiA5_eq]; show _ ⊢ Phi5 V c 0; unfold Phi5
  iintro ⟨⟨⟨%a, HS⟩, HR⟩, Hg⟩
  iframe HR Hg
  iexists a; isplitr
  · ipureintro; exact fun _ => rfl
  iexact HS

theorem hout5 (c : Dev nD) : ((dat5 V c).Φ (Fin.last cfg5.N) : sProp 𝕄) ⊢ Pipeline.ΦA spec5 c := by
  rw [PhiA5_eq]; show Phi5 V c _ ⊢ _; unfold Phi5
  iintro ⟨⟨⟨%a, -, HS⟩, HR⟩, Hg⟩
  iframe HR Hg
  iexists a; iexact HS

end Cert.Kernel.Hand

end
-- ==== Proof.KB.R6.lean ====
import proofs.«429186_j15229954031644_1_alg».proof.Proof.Gen.Kernel.Launch
import proofs.«429186_j15229954031644_1_alg».proof.Proof.Gen.Kernel.Skeleton
import proofs.«429186_j15229954031644_1_alg».proof.Proof.KB.PointsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rA6 : Rect S7168x128 := Rect.unit (s := S7168x128) ![0, 0] S7168x128.size inb_S7168x128_S7168x128_0_0
abbrev rE6 : Rect S1x1 := Rect.unit (s := S1x1) ![0, 0] S1x1.size inb_S1x1_S1x1_0_0
abbrev rW6 : Rect S128x128 := Rect.unit (s := S128x128) ![0, 0] S128x128.size inb_S128x128_S128x128_0_0
abbrev rB6 : Rect S1x128 := Rect.unit (s := S1x128) ![0, 0] S1x128.size inb_S1x128_S1x128_0_0

def out6 (xh xa : Vec F S7168x128 .bf16) (xe : Vec F S1x1 .f32) (xw : Vec F S128x128 .f32) (xb : Vec F S1x128 .f32) :
    Vec F S7168x128 .bf16 :=
  View.canon [⟨rA6, k6_pay1 (View.ld xh rA6) (View.ld xa rA6) (View.ld xe rE6) (View.ld xw rW6) (View.ld xb rB6)⟩]

theorem cover6 (p : Vec F S7168x128 .bf16) (y : S7168x128.Idx) :
    ∃ pc ∈ ([⟨rA6, p⟩] : List (View.Piece (Elt F) S7168x128 .bf16)), y ∈ pc.1.set :=
  View.cover_of_tiled [⟨rA6, p⟩] S7168x128.size (by rfl) y

set_option maxHeartbeats 1000000 in
theorem sound_kernel6 {c : Dev nD} {E : Set ℕ} {i : grid6.Coords}
    {argH : Memref sig .tc .vmem S7168x128 .bf16} {hargH : argH.IsWhole} {argA : Memref sig .tc .vmem S7168x128 .bf16} {hargA : argA.IsWhole}
    {argE : Memref sig .tc .vmem S1x1 .f32} {hargE : argE.IsWhole} {argW : Memref sig .tc .vmem S128x128 .f32} {hargW : argW.IsWhole}
    {argB : Memref sig .tc .vmem S1x128 .f32} {hargB : argB.IsWhole} {argO : Memref sig .tc .vmem S7168x128 .bf16} {hargO : argO.IsWhole}
    {xh xa : Vec F S7168x128 .bf16} {xe : Vec F S1x1 .f32} {xw : Vec F S128x128 .f32} {xb : Vec F S1x128 .f32} {K : PUnit → sProp 𝕄} :
    iprop(owns (c : Thread nD τ) argH fullShare xh ∗ owns (c : Thread nD τ) argA fullShare xa ∗ owns (c : Thread nD τ) argE fullShare xe
        ∗ owns (c : Thread nD τ) argW fullShare xw ∗ owns (c : Thread nD τ) argB fullShare xb ∗ (∃ d, owns (c : Thread nD τ) argO fullShare d)
        ∗ (iprop(owns (c : Thread nD τ) argH fullShare xh ∗ owns (c : Thread nD τ) argA fullShare xa ∗ owns (c : Thread nD τ) argE fullShare xe
            ∗ owns (c : Thread nD τ) argW fullShare xw ∗ owns (c : Thread nD τ) argB fullShare xb
            ∗ owns (c : Thread nD τ) argO fullShare (out6 xh xa xe xw xb)) -∗ K ⟨⟩))
      ⊢ wp frame (wpE (defs₀ (F := F)) Variants.none c none) E (cc6__combine_kernel i argH hargH argA hargA argE hargE argW hargW argB hargB argO hargO) K := by
  simp only [cc6__combine_kernel_eq_skeleton]; unfold cc6__combine_kernel_skel
  unfold owns
  iintro ⟨⟨%fh, %eh, Hh⟩, ⟨%fa, %ea, Ha⟩, ⟨%fe, %ee, He⟩, ⟨%fw, %ew, Hw⟩, ⟨%fb, %eb, Hb⟩, ⟨%dO, %fo, -, HO⟩, Hk⟩
  subst eh ea ee ew eb
  sl_exec
  sl_step
  iapply Hk
  isplitl [Hh]
  · iexists fh; isplitr; · ipureintro; rfl
    iexact Hh
  isplitl [Ha]
  · iexists fa; isplitr; · ipureintro; rfl
    iexact Ha
  isplitl [He]
  · iexists fe; isplitr; · ipureintro; rfl
    iexact He
  isplitl [Hw]
  · iexists fw; isplitr; · ipureintro; rfl
    iexact Hw
  isplitl [Hb]
  · iexists fb; isplitr; · ipureintro; rfl
    iexact Hb
  iexists _; isplitr
  swap; · iexact HO
  ipureintro
  exact View.read_writes_eq_canon _ _ _ (cover6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl
theorem q_eq6 (c : Dev nD) (w : Fin cfg6.W) : (dat6 V c).q w = fullShare := rfl
theorem owed_eq6 (c : Dev nD) (t : Fin (cfg6.N + 1)) : (dat6 V c).owed t = 0 := rfl

theorem after_out6 (c : Dev nD) (t : Fin cfg6.N) : (dat6 V c).after 5 t
    = out6 (iblk6 V c 0 t) (iblk6 V c 1 t) (iblk6 V c 2 t) (iblk6 V c 3 t) (iblk6 V c 4 t) := by dsimp only [dat6]

private theorem before6 (c : Dev nD) (w : Fin cfg6.W) (hw : w ≠ 5) (t : Fin cfg6.N) (d) : (dat6 V c).before w t d = (dat6 V c).after w t := by
  match w, hw with
  | ⟨5, _⟩, h => exact absurd rfl h
  | ⟨0, _⟩, _ | ⟨1, _⟩, _ | ⟨2, _⟩, _ | ⟨3, _⟩, _ | ⟨4, _⟩, _ =>
    exact (dat6 V c).before_in_eq_fetched _ rfl (fun _ => rfl) (fun _ _ _ => rfl) (fun _ => rfl) t d

private theorem leaves6 (c : Dev nD) (w : Fin cfg6.W) (t : Fin cfg6.N) :
    (dat6 V c).leavesExact w t = owns (c : Thread nD τ) ((cfg6.win w).stage (cfg6.slots t w)) fullShare ((dat6 V c).after w t) := by
  match w with
  | ⟨0, _⟩ | ⟨1, _⟩ | ⟨2, _⟩ | ⟨3, _⟩ | ⟨4, _⟩ | ⟨5, _⟩ => rfl

private theorem sound_body6 (c : Dev nD) (t : Fin cfg6.N) :
    iprop((dat6 V c).Φ t.castSucc ∗ (dat6 V c).owesAt () t.castSucc
        ∗ bigSep Finset.univ fun w : Fin cfg6.W => iprop(∃ d, owns (c : Thread nD τ) ((cfg6.win w).stage (cfg6.slots t w)) fullShare ((dat6 V c).before w t d)))
      ⊢ wp frame (wpE (defs₀ (F := F)) Variants.none c none) Set.univ (bodyAt6 t) fun _ =>
        iprop((dat6 V c).Φ t.succ ∗ (dat6 V c).owesAt () t.succ ∗ bigSep Finset.univ fun w : Fin cfg6.W => (dat6 V c).leavesExact w t) := by
  rw [bigSep_W6, bigSep_W6]
  simp (disch := decide) only [before6 V c, leaves6 V c]
  rw [show (dat6 V c).Φ t.succ = (dat6 V c).Φ t.castSucc from rfl,
    show (dat6 V c).owesAt () t.succ = (dat6 V c).owesAt () t.castSucc from rfl,
    show (dat6 V c).after 5 t = out6 ((dat6 V c).after 0 t) ((dat6 V c).after 1 t) ((dat6 V c).after 2 t) ((dat6 V c).after 3 t)
      ((dat6 V c).after 4 t) from by dsimp only [dat6]]
  unfold bodyAt6
  iintro ⟨HΦ, Ho, ⟨%dh, Hh⟩, ⟨%da, Ha⟩, ⟨%de, He⟩, ⟨%dw, Hw⟩, ⟨%db, Hb⟩, ⟨%dO, HO⟩⟩
  iapply sound_kernel6
  iframe Hh Ha He Hw Hb
  isplitl [HO]; · iexists _; iexact HO
  iintro ⟨Hh, Ha, He, Hw, Hb, HO⟩
  iframe HΦ Ho Hh Ha He Hw Hb HO

theorem body_obligation6 (c : Dev nD) : BodyObligation (dat6 (F := F) V c) (defs₀ (F := F)) Variants.none () Set.univ :=
  fun t => sound_body6 V c t

theorem hin6 (c : Dev nD) : Pipeline.ΦA spec6 c ⊢ ((dat6 V c).Φ 0 : sProp 𝕄) := .rfl
theorem hout6 (c : Dev nD) : ((dat6 V c).Φ (Fin.last cfg6.N) : sProp 𝕄) ⊢ Pipeline.ΦA spec6 c := .rfl

end Cert.Kernel.Hand
-- ==== Proof.KB.R7.lean ====
import proofs.«429186_j15229954031644_1_alg».proof.Proof.Gen.Kernel.Launch
import proofs.«429186_j15229954031644_1_alg».proof.Proof.Gen.Kernel.Skeleton
import proofs.«429186_j15229954031644_1_alg».proof.Proof.KB.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section
namespace Cert.Kernel.Hand

open Cert.Kernel Cert.Kernel.Gen
open Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : (n : ℕ) → n < cfg7.N → Vec F S4096x128 .f32
  | 0, hn => k7_pay2 (grid7.coords ⟨0, hn⟩) (iblk7 V c 0 ⟨0, hn⟩) (iblk7 V c 2 ⟨0, hn⟩) (k7_pay1 (F := F))
  | n + 1, hn => k7_pay2 (grid7.coords ⟨n + 1, hn⟩) (iblk7 V c 0 ⟨n + 1, hn⟩) (iblk7 V c 2 ⟨n + 1, hn⟩)
      (if (n + 1) % 98 = 0 then (k7_pay1 (F := F)) else acc7 c n (Nat.lt_of_succ_lt hn))

theorem acc7_first (c : Dev nD) (t : Fin cfg7.N) (h : t.val % 98 = 0) :
    acc7 V c t.val t.isLt = k7_pay2 (grid7.coords t) (iblk7 V c 0 t) (iblk7 V c 2 t) (k7_pay1 (F := F)) := by
  obtain ⟨_ | n, hn⟩ := t
  · rfl
  · rw [acc7, if_pos h]

theorem acc7_next (c : Dev nD) (t : Fin cfg7.N) (h : ¬t.val % 98 = 0) :
    acc7 V c t.val t.isLt = k7_pay2 (grid7.coords t) (iblk7 V c 0 t) (iblk7 V c 2 t)
      (acc7 V c (t.val - 1) (Nat.lt_of_le_of_lt (Nat.sub_le _ _) t.isLt)) := by
  obtain ⟨_ | n, hn⟩ := t
  · exact absurd (Nat.zero_mod 98) h
  · rw [acc7, if_neg h]; rfl

abbrev sc7 : Memref sig .tc .vmem S4096x128 .f32 := Memref.whole cc7_scratch0

/-- What the body leaves in each window's buffer: an input's block; the output's block, computed from the accumulator. -/
def aft7 (c : Dev nD) (t : Fin cfg7.N) : (w : Fin cfg7.W) → (cfg7.win w).block.Idx → Elt F (cfg7.win w).elt
  | ⟨0, _⟩ => iblk7 V c 0 t
  | ⟨1, _⟩ => iblk7 V c 1 t
  | ⟨2, _⟩ => iblk7 V c 2 t
  | ⟨3, _⟩ => iblk7 V c 3 t
  | ⟨4, _⟩ => iblk7 V c 4 t
  | ⟨5, _⟩ => k7_pay3 (iblk7 V c 1 t) (iblk7 V c 3 t) (iblk7 V c 4 t) (acc7 V c t.val t.isLt)

/-- Before position `n` the accumulator's buffer holds some `a` from which the body at `n` computes `acc7` there. -/
def Phi7 (c : Dev nD) (n : ℕ) : sProp 𝕄 :=
  iprop(((∃ a, ⌜∀ h : n < cfg7.N, acc7 V c n h = k7_pay2 (grid7.coords ⟨n, h⟩) (aft7 V c ⟨n, h⟩ 0) (aft7 V c ⟨n, h⟩ 2)
        (if n % 98 = 0 then k7_pay1 (F := F) else a)⌝ ∗ owns (c : Thread nD τ) sc7 fullShare a)
      ∗ Pipeline.scopedRestBut (Ix := Unit) (Name := ℕ) (U := UR sig nD τ) (Lvl := ℕ) (Val := Elt F) spec7 c [cc7_scratch0])
    ∗ (∃ r, prngReg c r))

def dat7 (c : Dev nD) : Dat τ (Elt F) Unit ℕ (UR sig nD τ) ℕ cfg7 c where
  A w := V c (Pipeline.arrRef spec7 w)
  after w t := aft7 V c t w
  Φ t := Phi7 V c t.val
  q _ := fullShare
  owed _ := 0

theorem A_eq7 (c : Dev nD) (w : Fin cfg7.W) : (dat7 V c).A w = V c (Pipeline.arrRef spec7 w) := rfl

theorem q_eq7 (c : Dev nD) (w : Fin cfg7.W) : (dat7 V c).q w = fullShare := rfl

theorem owed_eq7 (c : Dev nD) (t : Fin (cfg7.N + 1)) : (dat7 V c).owed t = 0 := rfl

theorem after_out7 (c : Dev nD) (t : Fin cfg7.N) :
    (dat7 V c).after 5 t = k7_pay3 (iblk7 V c 1 t) (iblk7 V c 3 t) (iblk7 V c 4 t) (acc7 V c t.val t.isLt) := rfl

private theorem before7 (c : Dev nD) (w : Fin cfg7.W) (hw : w ≠ 5) (t : Fin cfg7.N) (d) : (dat7 V c).before w t d = aft7 V c t w := by
  match w, hw with
  | ⟨5, _⟩, h => exact absurd rfl h
  | ⟨0, _⟩, _ | ⟨1, _⟩, _ | ⟨2, _⟩, _ | ⟨3, _⟩, _ | ⟨4, _⟩, _ =>
    exact (dat7 V c).before_in_eq_fetched _ rfl (fun _ => rfl) (fun _ _ _ => rfl) (fun _ => rfl) t d

private theorem leaves7 (c : Dev nD) (w : Fin cfg7.W) (hw : w ≠ 5) (t : Fin cfg7.N) :
    (dat7 V c).leavesExact w t = owns (c : Thread nD τ) ((cfg7.win w).stage (cfg7.slots t w)) fullShare (aft7 V c t w) := by
  match w, hw with
  | ⟨5, _⟩, h => exact absurd rfl h
  | ⟨0, _⟩, _ | ⟨1, _⟩, _ | ⟨2, _⟩, _ | ⟨3, _⟩, _ | ⟨4, _⟩, _ => rfl

private abbrev cond7_1 (i : grid7.Coords) : Prop := (Scalar.cmpi .ne (Scalar.extui (Scalar.cmpi .eq (BitVec.ofNat 32 (i 1).val) 0#32)) 0#32) = 1#1
private abbrev cond7_2 (i : grid7.Coords) : Prop := k7_cond2 i = 1#1

private theorem coord7_1 (t : Fin cfg7.N) : (grid7.coords t 1).val = t.val % 98 := by
  show t.val / grid7.stride 1 % grid7.bound 1 = t.val % 98
  rw [show grid7.stride 1 = 1 from by decide, show grid7.bound 1 = 98 from rfl, Nat.div_one]

/-- Both conditions compare the inner coordinate with a constant. -/
private theorem cond7_1_iff (i : grid7.Coords) : cond7_1 i ↔ (i 1).val = 0 :=
  (by decide +kernel : ∀ j : Fin 98, (Scalar.cmpi .ne (Scalar.extui (Scalar.cmpi .eq (BitVec.ofNat 32 j.val) 0#32)) 0#32) = 1#1 ↔ j.val = 0) (i 1)
private theorem cond7_2_iff (i : grid7.Coords) : cond7_2 i ↔ (i 1).val = 97 :=
  (by decide +kernel : ∀ j : Fin 98, (Scalar.cmpi .ne (Scalar.extui (Scalar.cmpi .eq (BitVec.ofNat 32 j.val) 97#32)) 0#32) = 1#1 ↔ j.val = 97) (i 1)

private theorem hcond7_1 (t : Fin cfg7.N) : cond7_1 (grid7.coords t) ↔ t.val % 98 = 0 :=
  (cond7_1_iff (grid7.coords t)).trans (by rw [coord7_1])
private theorem hcond7_2 (t : Fin cfg7.N) : cond7_2 (grid7.coords t) ↔ t.val % 98 = 97 :=
  (cond7_2_iff (grid7.coords t)).trans (by rw [coord7_1])

/-- The body stores the output only where the inner coordinate is 97; elsewhere it leaves that buffer as found. -/
private theorem leaves7_out (c : Dev nD) (t : Fin cfg7.N) (d) :
    owns (c : Thread nD τ) (st7_5 t) fullShare (if t.val % 98 = 97 then aft7 V c t 5 else (dat7 V c).before 5 t d)
      ⊢ (dat7 V c).leavesExact 5 t := by
  by_cases h : t.val % 98 = 97
  · rw [if_pos h]; unfold Dat.leavesExact
    rw [show cfg7.idle 5 (grid7.coords t) = false from by
      show (!(k7_cond2 (grid7.coords t) == 1#1)) = false
      rw [Bool.not_eq_false', beq_iff_eq]; exact (hcond7_2 t).mpr h]
    iintro H; iexact H
  · rw [if_neg h, Dat.leavesExact_idle (dat7 V c) 5 t (by
      show (!(k7_cond2 (grid7.coords t) == 1#1)) = true
      rw [Bool.not_eq_true', beq_eq_false_iff_ne]; exact mt (hcond7_2 t).mp h)
      (Bool.eq_false_iff.mpr fun hf => h ((flush7_5 t).mp hf))]
    iintro H; iexists d; iexact H

private theorem PhiA7_eq (c : Dev nD) :
    (Pipeline.ΦA spec7 c : sProp 𝕄)
      = iprop(iprop((∃ d, owns (c : Thread nD τ) sc7 fullShare d) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [sc7, owns_whole]; try rfl

section
variable (c : Dev nD) (E : Set ℕ) (i : grid7.Coords)
  (arg2 : Memref sig .tc .vmem S4096x1 .i32) (harg2 : arg2.IsWhole) (arg3 : Memref sig .tc .vmem S4096x1 .f32) (harg3 : arg3.IsWhole)
  (arg4 : Memref sig .tc .vmem S1024x128 .bf16) (harg4 : arg4.IsWhole) (arg5 : Memref sig .tc .vmem S1x128 .f32) (harg5 : arg5.IsWhole)
  (arg6 : Memref sig .tc .vmem S1x128 .f32) (harg6 : arg6.IsWhole) (arg7 : Memref sig .tc .vmem S4096x128 .bf16) (harg7 : arg7.IsWhole)
  (arg8 : Memref sig .tc .vmem S4096x128 .f32) (harg8 : arg8.IsWhole)
  (x0 : Vec F S4096x1 .i32) (x1 : Vec F S4096x1 .f32) (x2 : Vec F S1024x128 .bf16) (x3 x4 : Vec F S1x128 .f32)

/-- The body's seven buffers: the inputs at `x0 … x4`, the output's at `y`, the accumulator's at `b`. -/
private def own7 (y : Vec F S4096x128 .bf16) (b : Vec F S4096x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare y
    ∗ owns (c : Thread nD τ) arg8 fullShare b)

variable {c E i arg2 harg2 arg3 harg3 arg4 harg4 arg5 harg5 arg6 harg6 arg7 harg7 arg8 harg8 x0 x1 x2 x3 x4}

set_option maxHeartbeats 1000000 in
/-- One run of the body: the accumulator restarts from zero where `pz` (inner coordinate 0), the output is stored where `pl` (inner coordinate 97). -/
theorem sound_kernel7 {pz pl : Prop} [Decidable pz] [Decidable pl] (hz : cond7_1 i ↔ pz) (hl : cond7_2 i ↔ pl)
    {x5 : Vec F S4096x128 .bf16} {a A : Vec F S4096x128 .f32} (hA : A = k7_pay2 i x0 x2 (if pz then k7_pay1 (F := F) else a))
    {K : PUnit → sProp 𝕄} :
    iprop(own7 c arg2 arg3 arg4 arg5 arg6 arg7 arg8 x0 x1 x2 x3 x4 x5 a
        ∗ (own7 c arg2 arg3 arg4 arg5 arg6 arg7 arg8 x0 x1 x2 x3 x4 (if pl then k7_pay3 x1 x3 x4 A else x5) A -∗ K ⟨⟩))
      ⊢ wp frame (wpE (defs₀ (F := F)) Variants.none c none) E (cc7__gather_kernel i arg2 harg2 arg3 harg3 arg4 harg4 arg5 harg5 arg6 harg6 arg7 harg7 arg8 harg8) K := by
  subst hA
  by_cases hpz : pz <;> by_cases hpl : pl <;> simp only [hpz, hpl, ↓reduceIte]
  · have := (cond7_1_iff i).mp (hz.mpr hpz); have := (cond7_2_iff i).mp (hl.mpr hpl); omega
  all_goals
    simp only [cc7__gather_kernel_eq_skeleton]; unfold cc7__gather_kernel_skel own7 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩⟩, Hk⟩
    subst hf0 hf1 hf2 hf3 hf4 hf5 hf8
    have e := congrArg₂ (k7_pay2 i) (readAt_whole arg2.view hz2 inb_S4096x1_S4096x1_0_0 f0) (readAt_whole arg4.view hz2 inb_S1024x128_S1024x128_0_0 f2)
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      first
      | have : pl := hpl
        exact (read_writes_whole arg7.view _ hz2 _ _ _).trans
          (congr (congr (congrArg₂ k7_pay3 (readAt_whole arg3.view hz2 _ f1) (readAt_whole arg5.view hz2 _ f3)) (readAt_whole arg6.view hz2 _ f4))
            ((View.readCov_unit_zero (S := S4096x128) arg8.view hz2 inb_S4096x128_S4096x128_0_0 _).trans (congr e (readAt_whole arg8.view hz2 _ f8))))
      | rfl
    iexists _; isplitr
    swap; · iexact H8
    ipureintro
    refine (read_writes_whole arg8.view _ hz2 _ _ _).trans (congr e ?_)
    first
    | have : pz := hpz
      exact View.readCov_unit_zero (S := S4096x128) (Val := Elt F) arg8.view hz2 inb_S4096x128_S4096x128_0_0 _
    | exact readAt_whole arg8.view hz2 _ f8

end

/-- The body at any point: the invariant hands it the accumulator's buffer and takes it back at the point's contents. -/
private theorem sound_body7 (c : Dev nD) (t : Fin cfg7.N) :
    iprop((dat7 V c).Φ t.castSucc ∗ (dat7 V c).owesAt () t.castSucc
        ∗ bigSep Finset.univ fun w : Fin cfg7.W => iprop(∃ d, owns (c : Thread nD τ) ((cfg7.win w).stage (cfg7.slots t w)) fullShare ((dat7 V c).before w t d)))
      ⊢ wp frame (wpE (defs₀ (F := F)) Variants.none c none) Set.univ (bodyAt7 t) fun _ =>
        iprop((dat7 V c).Φ t.succ ∗ (dat7 V c).owesAt () t.succ ∗ bigSep Finset.univ fun w : Fin cfg7.W => (dat7 V c).leavesExact w t) := by
  rw [bigSep_W7, bigSep_W7]
  simp (disch := decide) only [before7 V c, leaves7 V c]
  rw [show (dat7 V c).Φ t.castSucc = Phi7 V c t.val from rfl, show (dat7 V c).Φ t.succ = Phi7 V c (t.val + 1) from rfl,
    show (dat7 V c).owesAt () t.succ = (dat7 V c).owesAt () t.castSucc from rfl]
  unfold Phi7 bodyAt7
  iintro ⟨⟨⟨⟨%a, %ha, HS⟩, HR⟩, Hg⟩, Ho, ⟨%d0, H0⟩, ⟨%d1, H1⟩, ⟨%d2, H2⟩, ⟨%d3, H3⟩, ⟨%d4, H4⟩, ⟨%d5, H5⟩⟩
  iapply (sound_kernel7 (hcond7_1 t) (hcond7_2 t) (ha t.isLt))
  unfold own7
  iframe H0 H1 H2 H3 H4 H5 HS
  iintro ⟨H0, H1, H2, H3, H4, H5, HS⟩
  iframe HR Hg Ho H0 H1 H2 H3 H4
  isplitl [HS]
  · iexists _; isplitr
    swap; · iexact HS
    ipureintro; exact fun _ => rfl
  iapply (leaves7_out V c t d5); iexact H5

theorem body_obligation7 (c : Dev nD) : BodyObligation (dat7 (F := F) V c) (defs₀ (F := F)) Variants.none () Set.univ :=
  fun t => sound_body7 V c t

theorem hin7 (c : Dev nD) : Pipeline.ΦA spec7 c ⊢ ((dat7 V c).Φ 0 : sProp 𝕄) := by
  rw [PhiA7_eq]; show _ ⊢ Phi7 V c 0; unfold Phi7
  iintro ⟨⟨⟨%a, HS⟩, HR⟩, Hg⟩
  iframe HR Hg
  iexists a; isplitr
  · ipureintro; exact fun _ => rfl
  iexact HS

theorem hout7 (c : Dev nD) : ((dat7 V c).Φ (Fin.last cfg7.N) : sProp 𝕄) ⊢ Pipeline.ΦA spec7 c := by
  rw [PhiA7_eq]; show Phi7 V c _ ⊢ _; unfold Phi7
  iintro ⟨⟨⟨%a, -, HS⟩, HR⟩, Hg⟩
  iframe HR Hg
  iexists a; iexact HS

end Cert.Kernel.Hand

end
-- ==== Proof.KB.R8.lean ====
import proofs.«429186_j15229954031644_1_alg».proof.Proof.Gen.Kernel.Launch
import proofs.«429186_j15229954031644_1_alg».proof.Proof.Gen.Kernel.Skeleton
import proofs.«429186_j15229954031644_1_alg».proof.Proof.KB.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Cert.Kernel.GenP Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev scM8 : Memref sig .tc .vmem S1024x128 .f32 := Memref.whole cc8_scratch0

def acc8 (c : Dev nD) : (n : ℕ) → n < cfg8.N → Vec F S1024x128 .f32
  | 0, hn => k8_pay2 (grid8.coords ⟨0, hn⟩) (iblk8 V c 0 ⟨0, hn⟩) (iblk8 V c 1 ⟨0, hn⟩) (k8_pay1 (F := F))
  | n + 1, hn =>
    if (n + 1) % 391 = 0 then
      k8_pay2 (grid8.coords ⟨n + 1, hn⟩) (iblk8 V c 0 ⟨n + 1, hn⟩) (iblk8 V c 1 ⟨n + 1, hn⟩) (k8_pay1 (F := F))
    else
      k8_pay2 (grid8.coords ⟨n + 1, hn⟩) (iblk8 V c 0 ⟨n + 1, hn⟩) (iblk8 V c 1 ⟨n + 1, hn⟩) (acc8 c n (Nat.lt_of_succ_lt hn))

theorem acc8_first (c : Dev nD) (t : Fin cfg8.N) (h0 : t.val % 391 = 0) :
    acc8 V c t.val t.isLt = k8_pay2 (grid8.coords t) (iblk8 V c 0 t) (iblk8 V c 1 t) (k8_pay1 (F := F)) := by
  obtain ⟨_ | n, hn⟩ := t
  · rfl
  · exact (if_pos h0).trans rfl

theorem acc8_next (c : Dev nD) (t : Fin cfg8.N) (h0 : ¬ t.val % 391 = 0) :
    acc8 V c t.val t.isLt = k8_pay2 (grid8.coords t) (iblk8 V c 0 t) (iblk8 V c 1 t)
      (acc8 V c (t.val - 1) (Nat.lt_of_le_of_lt (Nat.sub_le _ _) t.isLt)) := by
  obtain ⟨_ | n, hn⟩ := t
  · exact absurd (Nat.zero_mod _) h0
  · exact (if_neg h0).trans rfl

/-- What the body leaves in each window's buffer: an input's block; the output's block, computed from the accumulator. -/
def aft8 (c : Dev nD) (t : Fin cfg8.N) : (w : Fin cfg8.W) → (cfg8.win w).block.Idx → Elt F (cfg8.win w).elt
  | ⟨0, _⟩ => iblk8 V c 0 t
  | ⟨1, _⟩ => iblk8 V c 1 t
  | ⟨2, _⟩ => k8_pay3 (acc8 V c t.val t.isLt)

/-- Before position `n` the accumulator's buffer holds some `a` from which the body at `n` computes `acc8` there. -/
def Phi8 (c : Dev nD) (n : ℕ) : sProp 𝕄 :=
  iprop(((∃ a, ⌜∀ h : n < cfg8.N, acc8 V c n h = k8_pay2 (grid8.coords ⟨n, h⟩) (aft8 V c ⟨n, h⟩ 0) (aft8 V c ⟨n, h⟩ 1)
        (if n % 391 = 0 then k8_pay1 (F := F) else a)⌝ ∗ owns (c : Thread nD τ) scM8 fullShare a)
      ∗ Pipeline.scopedRestBut (Ix := Unit) (Name := ℕ) (U := UR sig nD τ) (Lvl := ℕ) (Val := Elt F) spec8 c [cc8_scratch0])
    ∗ (∃ r, prngReg c r))

def dat8 (c : Dev nD) : Dat τ (Elt F) Unit ℕ (UR sig nD τ) ℕ cfg8 c where
  A w := V c (Pipeline.arrRef spec8 w)
  after w t := aft8 V c t w
  Φ t := Phi8 V c t.val
  q _ := fullShare
  owed _ := 0

theorem A_eq8 (c : Dev nD) (w : Fin cfg8.W) : (dat8 V c).A w = V c (Pipeline.arrRef spec8 w) := rfl

theorem q_eq8 (c : Dev nD) (w : Fin cfg8.W) : (dat8 V c).q w = fullShare := rfl

theorem owed_eq8 (c : Dev nD) (t : Fin (cfg8.N + 1)) : (dat8 V c).owed t = 0 := rfl

theorem after_out8 (c : Dev nD) (t : Fin cfg8.N) :
    (dat8 V c).after 2 t = k8_pay3 (acc8 V c t.val t.isLt) := rfl

private theorem before8 (c : Dev nD) (w : Fin cfg8.W) (hw : w ≠ 2) (t : Fin cfg8.N) (d) : (dat8 V c).before w t d = aft8 V c t w := by
  match w, hw with
  | ⟨2, _⟩, h => exact absurd rfl h
  | ⟨0, _⟩, _ | ⟨1, _⟩, _ =>
    exact (dat8 V c).before_in_eq_fetched _ rfl (fun _ => rfl) (fun _ _ _ => rfl) (fun _ => rfl) t d

private theorem leaves8 (c : Dev nD) (w : Fin cfg8.W) (hw : w ≠ 2) (t : Fin cfg8.N) :
    (dat8 V c).leavesExact w t = owns (c : Thread nD τ) ((cfg8.win w).stage (cfg8.slots t w)) fullShare (aft8 V c t w) := by
  match w, hw with
  | ⟨2, _⟩, h => exact absurd rfl h
  | ⟨0, _⟩, _ | ⟨1, _⟩, _ => rfl

theorem coordj8 (t : Fin cfg8.N) : ((grid8.coords t) 1).val = t.val % 391 := by
  have hs : grid8.stride 1 = 1 := by decide
  show t.val / grid8.stride 1 % grid8.bound 1 = t.val % 391
  rw [hs, Nat.div_one]; rfl

abbrev czero8 (i : grid8.Coords) : Prop :=
  (Scalar.cmpi .ne (Scalar.extui (Scalar.cmpi .eq (BitVec.ofNat 32 (i 1).val) 0#32)) 0#32) = 1#1

/-- Both conditions compare the inner coordinate with a constant. -/
theorem czero8_iff : ∀ j : Fin 391,
    ((Scalar.cmpi .ne (Scalar.extui (Scalar.cmpi .eq (BitVec.ofNat 32 j.val) 0#32)) 0#32) = 1#1) ↔ j.val = 0 := by
  decide +kernel

theorem cstore8_iff : ∀ j : Fin 391,
    ((Scalar.cmpi .ne (Scalar.extui (Scalar.cmpi .eq (BitVec.ofNat 32 j.val) 390#32)) 0#32) = 1#1) ↔ j.val = 390 := by
  decide +kernel

theorem hczero8 (t : Fin cfg8.N) : czero8 (grid8.coords t) ↔ t.val % 391 = 0 := by
  rw [← coordj8 t]; exact czero8_iff ((grid8.coords t) 1)

theorem hcstore8 (t : Fin cfg8.N) : k8_cond2 (grid8.coords t) = 1#1 ↔ t.val % 391 = 390 := by
  rw [← coordj8 t]; exact cstore8_iff ((grid8.coords t) 1)

/-- The body stores the output only where the inner coordinate is 390; elsewhere it leaves that buffer as found. -/
private theorem leaves8_out (c : Dev nD) (t : Fin cfg8.N) (d) :
    owns (c : Thread nD τ) (st8_2 t) fullShare (if t.val % 391 = 390 then aft8 V c t 2 else (dat8 V c).before 2 t d)
      ⊢ (dat8 V c).leavesExact 2 t := by
  by_cases h : t.val % 391 = 390
  · rw [if_pos h]; unfold Dat.leavesExact
    rw [show cfg8.idle 2 (grid8.coords t) = false from by
      show (!(k8_cond2 (grid8.coords t) == 1#1)) = false
      rw [(hcstore8 t).mpr h]; rfl]
    iintro H; iexact H
  · rw [if_neg h, Dat.leavesExact_idle (dat8 V c) 2 t (by
      show (!(k8_cond2 (grid8.coords t) == 1#1)) = true
      rw [beq_eq_false_iff_ne.mpr (mt (hcstore8 t).mp h)]; rfl)
      (Bool.eq_false_iff.mpr fun hf => h ((flush8_2 t).mp hf))]
    iintro H; iexists d; iexact H

theorem PhiA8_eq (c : Dev nD) :
    (Pipeline.ΦA spec8 c : sProp 𝕄)
      = iprop(iprop((∃ d, owns (c : Thread nD τ) scM8 fullShare d) ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

section
variable (c : Dev nD) (E : Set ℕ) (i : grid8.Coords)
  (arg2 : Memref sig .tc .vmem S4096x1 .i32) (harg2 : arg2.IsWhole) (arg3 : Memref sig .tc .vmem S4096x128 .bf16) (harg3 : arg3.IsWhole)
  (arg4 : Memref sig .tc .vmem S1024x128 .bf16) (harg4 : arg4.IsWhole) (arg5 : Memref sig .tc .vmem S1024x128 .f32) (harg5 : arg5.IsWhole)
  (x0 : Vec F S4096x1 .i32) (x1 : Vec F S4096x128 .bf16)

/-- The body's four buffers: the inputs at `x0`, `x1`, the output's at `y`, the accumulator's at `b`. -/
private def own8 (y : Vec F S1024x128 .bf16) (b : Vec F S1024x128 .f32) : sProp 𝕄 :=
  iprop(owns (c : Thread nD τ) arg2 fullShare x0 ∗ owns (c : Thread nD τ) arg3 fullShare x1 ∗ owns (c : Thread nD τ) arg4 fullShare y
    ∗ owns (c : Thread nD τ) arg5 fullShare b)

variable {c E i arg2 harg2 arg3 harg3 arg4 harg4 arg5 harg5 x0 x1}

set_option maxHeartbeats 1000000 in
/-- One run of the body: the accumulator restarts from zero where `pz` (inner coordinate 0), the output is stored where `pl` (inner coordinate 390). -/
theorem sound_kernel8 {pz pl : Prop} [Decidable pz] [Decidable pl] (hz : czero8 i ↔ pz) (hl : k8_cond2 i = 1#1 ↔ pl)
    {xi : Vec F S1024x128 .bf16} {a A : Vec F S1024x128 .f32} (hA : A = k8_pay2 i x0 x1 (if pz then k8_pay1 (F := F) else a))
    {K : PUnit → sProp 𝕄} :
    iprop(own8 c arg2 arg3 arg4 arg5 x0 x1 xi a ∗ (own8 c arg2 arg3 arg4 arg5 x0 x1 (if pl then k8_pay3 A else xi) A -∗ K ⟨⟩))
      ⊢ wp frame (wpE (defs₀ (F := F)) Variants.none c none) E (cc8__scatter_kernel i arg2 harg2 arg3 harg3 arg4 harg4 arg5 harg5) K := by
  subst hA
  by_cases hpz : pz <;> by_cases hpl : pl <;> simp only [hpz, hpl, ↓reduceIte]
  · have := (czero8_iff (i 1)).mp (hz.mpr hpz); have := (cstore8_iff (i 1)).mp (hl.mpr hpl); omega
  all_goals
    simp only [cc8__scatter_kernel_eq_skeleton]; unfold cc8__scatter_kernel_skel own8 owns
    iintro ⟨⟨⟨%f0, %hf0, H0⟩, ⟨%f1, %hf1, H1⟩, ⟨%f2, %hf2, H2⟩, ⟨%f3, %hf3, H3⟩⟩, Hk⟩
    subst hf0 hf1 hf2 hf3
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
      | have : pl := hpl
        refine (read_writes_whole (S := S1024x128) _ _ hz2 _ _ _).trans ?_
        sl_unfold_run_names
        rw [View.readCov_unit_zero (S := S1024x128) _ hz2, readAt_whole (S := S4096x1) _ hz2, readAt_whole (S := S4096x128) _ hz2,
          readAt_whole (S := S1024x128) _ hz2]
      | rfl
    iexists _; isplitr
    swap; · iexact H3
    ipureintro
    refine (read_writes_whole (S := S1024x128) _ _ hz2 _ _ _).trans ?_
    first
    | have : pz := hpz
      sl_unfold_run_names
      rw [View.readCov_unit_zero (S := S1024x128) _ hz2, readAt_whole (S := S4096x1) _ hz2, readAt_whole (S := S4096x128) _ hz2]
    | rw [readAt_whole (S := S4096x1) _ hz2, readAt_whole (S := S4096x128) _ hz2, readAt_whole (S := S1024x128) _ hz2]

end

/-- The body at any point: the invariant hands it the accumulator's buffer and takes it back at the point's contents. -/
private theorem sound_body8 (c : Dev nD) (t : Fin cfg8.N) :
    iprop((dat8 V c).Φ t.castSucc ∗ (dat8 V c).owesAt () t.castSucc
        ∗ bigSep Finset.univ fun w : Fin cfg8.W => iprop(∃ d, owns (c : Thread nD τ) ((cfg8.win w).stage (cfg8.slots t w)) fullShare ((dat8 V c).before w t d)))
      ⊢ wp frame (wpE (defs₀ (F := F)) Variants.none c none) Set.univ (bodyAt8 t) fun _ =>
        iprop((dat8 V c).Φ t.succ ∗ (dat8 V c).owesAt () t.succ ∗ bigSep Finset.univ fun w : Fin cfg8.W => (dat8 V c).leavesExact w t) := by
  rw [bigSep_W8, bigSep_W8]
  simp (disch := decide) only [before8 V c, leaves8 V c]
  rw [show (dat8 V c).Φ t.castSucc = Phi8 V c t.val from rfl, show (dat8 V c).Φ t.succ = Phi8 V c (t.val + 1) from rfl,
    show (dat8 V c).owesAt () t.succ = (dat8 V c).owesAt () t.castSucc from rfl]
  unfold Phi8 bodyAt8
  iintro ⟨⟨⟨⟨%a, %ha, HS⟩, HR⟩, Hg⟩, Ho, ⟨%d0, H0⟩, ⟨%d1, H1⟩, ⟨%d2, H2⟩⟩
  iapply (sound_kernel8 (hczero8 t) (hcstore8 t) (ha t.isLt))
  unfold own8
  iframe H0 H1 H2 HS
  iintro ⟨H0, H1, H2, HS⟩
  iframe HR Hg Ho H0 H1
  isplitl [HS]
  · iexists _; isplitr
    swap; · iexact HS
    ipureintro; exact fun _ => (apply_ite _ _ _ _).symm
  iapply (leaves8_out V c t d2); iexact H2

theorem body_obligation8 (c : Dev nD) : BodyObligation (dat8 (F := F) V c) (defs₀ (F := F)) Variants.none () Set.univ :=
  fun t => sound_body8 V c t

theorem hin8 (c : Dev nD) : Pipeline.ΦA spec8 c ⊢ ((dat8 V c).Φ 0 : sProp 𝕄) := by
  rw [PhiA8_eq]; show _ ⊢ Phi8 V c 0; unfold Phi8
  iintro ⟨⟨⟨%a, HS⟩, HR⟩, Hg⟩
  iframe HR Hg
  iexists a; isplitr
  · ipureintro; exact fun _ => rfl
  iexact HS

theorem hout8 (c : Dev nD) : ((dat8 V c).Φ (Fin.last cfg8.N) : sProp 𝕄) ⊢ Pipeline.ΦA spec8 c := by
  rw [PhiA8_eq]; show Phi8 V c _ ⊢ _; unfold Phi8
  iintro ⟨⟨⟨%a, -, HS⟩, HR⟩, Hg⟩
  iframe HR Hg
  iexists a; iexact HS

end Cert.Kernel.Hand

end
-- ==== Proof.KB.R9.lean ====
import proofs.«429186_j15229954031644_1_alg».proof.Proof.Gen.Kernel.Launch
import proofs.«429186_j15229954031644_1_alg».proof.Proof.Gen.Kernel.Skeleton
import proofs.«429186_j15229954031644_1_alg».proof.Proof.KB.PointsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev rA9 : Rect S7168x128 := Rect.unit (s := S7168x128) ![0, 0] S7168x128.size inb_S7168x128_S7168x128_0_0
abbrev rE9 : Rect S1x1 := Rect.unit (s := S1x1) ![0, 0] S1x1.size inb_S1x1_S1x1_0_0
abbrev rW9 : Rect S128x128 := Rect.unit (s := S128x128) ![0, 0] S128x128.size inb_S128x128_S128x128_0_0
abbrev rB9 : Rect S1x128 := Rect.unit (s := S1x128) ![0, 0] S1x128.size inb_S1x128_S1x128_0_0

def out9 (xh xa : Vec F S7168x128 .bf16) (xe : Vec F S1x1 .f32) (xw : Vec F S128x128 .f32) (xb : Vec F S1x128 .f32) :
    Vec F S7168x128 .bf16 :=
  View.canon [⟨rA9, k9_pay1 (View.ld xh rA9) (View.ld xa rA9) (View.ld xe rE9) (View.ld xw rW9) (View.ld xb rB9)⟩]

theorem cover9 (p : Vec F S7168x128 .bf16) (y : S7168x128.Idx) :
    ∃ pc ∈ ([⟨rA9, p⟩] : List (View.Piece (Elt F) S7168x128 .bf16)), y ∈ pc.1.set :=
  View.cover_of_tiled [⟨rA9, p⟩] S7168x128.size (by rfl) y

set_option maxHeartbeats 1000000 in
theorem sound_kernel9 {c : Dev nD} {E : Set ℕ} {i : grid9.Coords}
    {argH : Memref sig .tc .vmem S7168x128 .bf16} {hargH : argH.IsWhole} {argA : Memref sig .tc .vmem S7168x128 .bf16} {hargA : argA.IsWhole}
    {argE : Memref sig .tc .vmem S1x1 .f32} {hargE : argE.IsWhole} {argW : Memref sig .tc .vmem S128x128 .f32} {hargW : argW.IsWhole}
    {argB : Memref sig .tc .vmem S1x128 .f32} {hargB : argB.IsWhole} {argO : Memref sig .tc .vmem S7168x128 .bf16} {hargO : argO.IsWhole}
    {xh xa : Vec F S7168x128 .bf16} {xe : Vec F S1x1 .f32} {xw : Vec F S128x128 .f32} {xb : Vec F S1x128 .f32} {K : PUnit → sProp 𝕄} :
    iprop(owns (c : Thread nD τ) argH fullShare xh ∗ owns (c : Thread nD τ) argA fullShare xa ∗ owns (c : Thread nD τ) argE fullShare xe
        ∗ owns (c : Thread nD τ) argW fullShare xw ∗ owns (c : Thread nD τ) argB fullShare xb ∗ (∃ d, owns (c : Thread nD τ) argO fullShare d)
        ∗ (iprop(owns (c : Thread nD τ) argH fullShare xh ∗ owns (c : Thread nD τ) argA fullShare xa ∗ owns (c : Thread nD τ) argE fullShare xe
            ∗ owns (c : Thread nD τ) argW fullShare xw ∗ owns (c : Thread nD τ) argB fullShare xb
            ∗ owns (c : Thread nD τ) argO fullShare (out9 xh xa xe xw xb)) -∗ K ⟨⟩))
      ⊢ wp frame (wpE (defs₀ (F := F)) Variants.none c none) E (cc9__combine_kernel i argH hargH argA hargA argE hargE argW hargW argB hargB argO hargO) K := by
  simp only [cc9__combine_kernel_eq_skeleton]; unfold cc9__combine_kernel_skel
  unfold owns
  iintro ⟨⟨%fh, %eh, Hh⟩, ⟨%fa, %ea, Ha⟩, ⟨%fe, %ee, He⟩, ⟨%fw, %ew, Hw⟩, ⟨%fb, %eb, Hb⟩, ⟨%dO, %fo, -, HO⟩, Hk⟩
  subst eh ea ee ew eb
  sl_exec
  sl_step
  iapply Hk
  isplitl [Hh]
  · iexists fh; isplitr; · ipureintro; rfl
    iexact Hh
  isplitl [Ha]
  · iexists fa; isplitr; · ipureintro; rfl
    iexact Ha
  isplitl [He]
  · iexists fe; isplitr; · ipureintro; rfl
    iexact He
  isplitl [Hw]
  · iexists fw; isplitr; · ipureintro; rfl
    iexact Hw
  isplitl [Hb]
  · iexists fb; isplitr; · ipureintro; rfl
    iexact Hb
  iexists _; isplitr
  swap; · iexact HO
  ipureintro
  exact View.read_writes_eq_canon _ _ _ (cover9 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := rfl
theorem q_eq9 (c : Dev nD) (w : Fin cfg9.W) : (dat9 V c).q w = fullShare := rfl
theorem owed_eq9 (c : Dev nD) (t : Fin (cfg9.N + 1)) : (dat9 V c).owed t = 0 := rfl

theorem after_out9 (c : Dev nD) (t : Fin cfg9.N) : (dat9 V c).after 5 t
    = out9 (iblk9 V c 0 t) (iblk9 V c 1 t) (iblk9 V c 2 t) (iblk9 V c 3 t) (iblk9 V c 4 t) := by dsimp only [dat9]

private theorem before9 (c : Dev nD) (w : Fin cfg9.W) (hw : w ≠ 5) (t : Fin cfg9.N) (d) : (dat9 V c).before w t d = (dat9 V c).after w t := by
  match w, hw with
  | ⟨5, _⟩, h => exact absurd rfl h
  | ⟨0, _⟩, _ | ⟨1, _⟩, _ | ⟨2, _⟩, _ | ⟨3, _⟩, _ | ⟨4, _⟩, _ =>
    exact (dat9 V c).before_in_eq_fetched _ rfl (fun _ => rfl) (fun _ _ _ => rfl) (fun _ => rfl) t d

private theorem leaves9 (c : Dev nD) (w : Fin cfg9.W) (t : Fin cfg9.N) :
    (dat9 V c).leavesExact w t = owns (c : Thread nD τ) ((cfg9.win w).stage (cfg9.slots t w)) fullShare ((dat9 V c).after w t) := by
  match w with
  | ⟨0, _⟩ | ⟨1, _⟩ | ⟨2, _⟩ | ⟨3, _⟩ | ⟨4, _⟩ | ⟨5, _⟩ => rfl

private theorem sound_body9 (c : Dev nD) (t : Fin cfg9.N) :
    iprop((dat9 V c).Φ t.castSucc ∗ (dat9 V c).owesAt () t.castSucc
        ∗ bigSep Finset.univ fun w : Fin cfg9.W => iprop(∃ d, owns (c : Thread nD τ) ((cfg9.win w).stage (cfg9.slots t w)) fullShare ((dat9 V c).before w t d)))
      ⊢ wp frame (wpE (defs₀ (F := F)) Variants.none c none) Set.univ (bodyAt9 t) fun _ =>
        iprop((dat9 V c).Φ t.succ ∗ (dat9 V c).owesAt () t.succ ∗ bigSep Finset.univ fun w : Fin cfg9.W => (dat9 V c).leavesExact w t) := by
  rw [bigSep_W9, bigSep_W9]
  simp (disch := decide) only [before9 V c, leaves9 V c]
  rw [show (dat9 V c).Φ t.succ = (dat9 V c).Φ t.castSucc from rfl,
    show (dat9 V c).owesAt () t.succ = (dat9 V c).owesAt () t.castSucc from rfl,
    show (dat9 V c).after 5 t = out9 ((dat9 V c).after 0 t) ((dat9 V c).after 1 t) ((dat9 V c).after 2 t) ((dat9 V c).after 3 t)
      ((dat9 V c).after 4 t) from by dsimp only [dat9]]
  unfold bodyAt9
  iintro ⟨HΦ, Ho, ⟨%dh, Hh⟩, ⟨%da, Ha⟩, ⟨%de, He⟩, ⟨%dw, Hw⟩, ⟨%db, Hb⟩, ⟨%dO, HO⟩⟩
  iapply sound_kernel9
  iframe Hh Ha He Hw Hb
  isplitl [HO]; · iexists _; iexact HO
  iintro ⟨Hh, Ha, He, Hw, Hb, HO⟩
  iframe HΦ Ho Hh Ha He Hw Hb HO

theorem body_obligation9 (c : Dev nD) : BodyObligation (dat9 (F := F) V c) (defs₀ (F := F)) Variants.none () Set.univ :=
  fun t => sound_body9 V c t

theorem hin9 (c : Dev nD) : Pipeline.ΦA spec9 c ⊢ ((dat9 V c).Φ 0 : sProp 𝕄) := .rfl
theorem hout9 (c : Dev nD) : ((dat9 V c).Φ (Fin.last cfg9.N) : sProp 𝕄) ⊢ Pipeline.ΦA spec9 c := .rfl

end Cert.Kernel.Hand
-- ==== Proof.KB.R10.lean ====
import proofs.«429186_j15229954031644_1_alg».proof.Proof.Gen.Kernel.Launch
import proofs.«429186_j15229954031644_1_alg».proof.Proof.Gen.Kernel.Skeleton
import proofs.«429186_j15229954031644_1_alg».proof.Proof.KB.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Cert.Kernel.GenP Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def accS10 (c : Dev nD) : (n : ℕ) → n < cfg10.N → Vec F S1024x128 .f32
  | 0, hn => k10_pay4 (iblk10 V c 0 ⟨0, hn⟩) (iblk10 V c 1 ⟨0, hn⟩) (k10_pay1 (F := F))
  | n + 1, hn => k10_pay4 (iblk10 V c 0 ⟨n + 1, hn⟩) (iblk10 V c 1 ⟨n + 1, hn⟩) (accS10 c n (Nat.lt_of_succ_lt hn))
def accC10 (c : Dev nD) : (n : ℕ) → n < cfg10.N → Vec F S1x1024 .f32
  | 0, hn => k10_pay5 (iblk10 V c 0 ⟨0, hn⟩) (k10_pay2 (F := F))
  | n + 1, hn => k10_pay5 (iblk10 V c 0 ⟨n + 1, hn⟩) (accC10 c n (Nat.lt_of_succ_lt hn))

abbrev cond10_0 (i : grid10.Coords) : Prop := (Scalar.cmpi .ne (Scalar.extui (Scalar.cmpi .eq (BitVec.ofNat 32 (i 0).val) 0#32)) 0#32) = 1#1

-- Every fact about a point that the body's proof needs, decided over the 50 points.
theorem at10 : ∀ t : Fin cfg10.N, (cond10_0 (grid10.coords t) ↔ t.val = 0) ∧ (k10_cond2 (grid10.coords t) = 1#1 ↔ t.val = 49)
    ∧ cfg10.idle 0 (grid10.coords t) = false ∧ cfg10.idle 1 (grid10.coords t) = false
    ∧ (t.val = 49 → cfg10.idle 2 (grid10.coords t) = false ∧ cfg10.idle 3 (grid10.coords t) = false)
    ∧ (t.val ≠ 49 → cfg10.idle 2 (grid10.coords t) = true ∧ cfg10.idle 3 (grid10.coords t) = true
        ∧ (cfg10.win 2).flush t = false ∧ (cfg10.win 3).flush t = false) := by decide +kernel

abbrev scM10_0 : Memref sig .tc .vmem S1024x128 .f32 := Memref.whole cc10_scratch0
abbrev scM10_1 : Memref sig .tc .vmem S1x1024 .f32 := Memref.whole cc10_scratch1

def Inv10 (c : Dev nD) (P : sProp 𝕄) : sProp 𝕄 :=
  iprop(iprop(P ∗ Pipeline.scopedRestBut (Ix := Unit) (Name := ℕ) (U := UR sig nD τ) (Lvl := ℕ) (Val := Elt F) spec10 c [cc10_scratch0, cc10_scratch1]) ∗ (∃ r, prngReg c r))

theorem PhiA10_eq (c : Dev nD) : (Pipeline.ΦA spec10 c : sProp 𝕄)
    = Inv10 c iprop((∃ d, owns (c : Thread nD τ) scM10_0 fullShare d) ∗ (∃ d, owns (c : Thread nD τ) scM10_1 fullShare d)) := by
  unfold Pipeline.ΦA Inv10; rw [scopedRest10_split]; simp only [scM10_0, scM10_1, owns_whole]; try rfl

def Phi10 (c : Dev nD) : (n : ℕ) → n ≤ cfg10.N → sProp 𝕄
  | 0, _ => Pipeline.ΦA spec10 c
  | n + 1, hn => Inv10 c iprop(owns (c : Thread nD τ) scM10_0 fullShare (accS10 V c n hn) ∗ owns (c : Thread nD τ) scM10_1 fullShare (accC10 V c n hn))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => accS10 V c t.val t.isLt
    | ⟨3, _⟩ => accC10 V c t.val t.isLt
  Φ t := Phi10 V c t.val (Nat.le_of_lt_succ t.isLt)
  q _ := fullShare
  owed _ := 0

theorem A_eq10 (c : Dev nD) (w : Fin cfg10.W) : (dat10 V c).A w = V c (Pipeline.arrRef spec10 w) := rfl
theorem q_eq10 (c : Dev nD) (w : Fin cfg10.W) : (dat10 V c).q w = fullShare := rfl
theorem owed_eq10 (c : Dev nD) (t : Fin (cfg10.N + 1)) : (dat10 V c).owed t = 0 := rfl

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after_out10_2 (c : Dev nD) (t : Fin cfg10.N) : (dat10 V c).after 2 t = accS10 V c t.val t.isLt := by dsimp only [dat10]
theorem after_out10_3 (c : Dev nD) (t : Fin cfg10.N) : (dat10 V c).after 3 t = accC10 V c t.val t.isLt := by dsimp only [dat10]

theorem before10_0 (c : Dev nD) (t : Fin cfg10.N) (d) : (dat10 V c).before 0 t d = iblk10 V c 0 t :=
  Dat.before_in_eq_fetched _ 0 rfl (fun _ => rfl) (fun _ _ _ => rfl) (fun _ => rfl) t d
theorem before10_1 (c : Dev nD) (t : Fin cfg10.N) (d) : (dat10 V c).before 1 t d = iblk10 V c 1 t :=
  Dat.before_in_eq_fetched _ 1 rfl (fun _ => rfl) (fun _ _ _ => rfl) (fun _ => rfl) t d

-- The invariant and the accumulators at a point, from those the point before left (at the first point: from zero).
theorem step10 (c : Dev nD) (t : Fin cfg10.N) :
    (t.val = 0 → (dat10 V c).Φ t.castSucc = Pipeline.ΦA spec10 c
      ∧ accS10 V c t.val t.isLt = k10_pay4 (iblk10 V c 0 t) (iblk10 V c 1 t) (k10_pay1 (F := F))
      ∧ accC10 V c t.val t.isLt = k10_pay5 (iblk10 V c 0 t) (k10_pay2 (F := F)))
    ∧ (t.val ≠ 0 → ∃ h, (dat10 V c).Φ t.castSucc
        = Inv10 c iprop(owns (c : Thread nD τ) scM10_0 fullShare (accS10 V c (t.val - 1) h) ∗ owns (c : Thread nD τ) scM10_1 fullShare (accC10 V c (t.val - 1) h))
      ∧ accS10 V c t.val t.isLt = k10_pay4 (iblk10 V c 0 t) (iblk10 V c 1 t) (accS10 V c (t.val - 1) h)
      ∧ accC10 V c t.val t.isLt = k10_pay5 (iblk10 V c 0 t) (accC10 V c (t.val - 1) h)) := by
  obtain ⟨n, hn⟩ := t; cases n with
  | zero => exact ⟨fun _ => ⟨rfl, rfl, rfl⟩, fun h => absurd rfl h⟩
  | succ n => exact ⟨fun h => absurd h (Nat.succ_ne_zero n), fun _ => ⟨Nat.lt_of_succ_lt hn, rfl, rfl, rfl⟩⟩

-- Contents that read `X` through a memref give the memref owned at `X`.
theorem leaf10 (c : Dev nD) {sp : Space} {S : Shape} {e : EltTy} (m : Memref sig .tc sp S e) (g : m.view.ty.Contents (Elt F)) (X : S.Idx → Elt F e)
    (h : m.view.read (Elt F) g = X) : (m.view.loc (c : Thread nD τ) ↦[m.view.set]{fullShare} g : sProp 𝕄)
      ⊢ iprop(∃ f, ⌜m.view.read (Elt F) f = X⌝ ∗ (m.view.loc (c : Thread nD τ) ↦[m.view.set]{fullShare} f)) := by
  iintro H; iexists g; isplitr; · ipureintro; exact h
  iexact H

section
variable (c : Dev nD) (E : Set ℕ) (i : grid10.Coords) (arg1 : Memref sig .tc .vmem S2000x1 .i32) (harg1 : arg1.IsWhole) (arg2 : Memref sig .tc .vmem S2000x128 .bf16) (harg2 : arg2.IsWhole)
    (arg3 : Memref sig .tc .vmem S1024x128 .f32) (harg3 : arg3.IsWhole) (arg4 : Memref sig .tc .vmem S1x1024 .f32) (harg4 : arg4.IsWhole)
    (arg5 : Memref sig .tc .vmem S1024x128 .f32) (harg5 : arg5.IsWhole) (arg6 : Memref sig .tc .vmem S1x1024 .f32) (harg6 : arg6.IsWhole)
    (x0 : Vec F S2000x1 .i32) (x1 : Vec F S2000x128 .bf16) (s d2 : Vec F S1024x128 .f32) (n d3 : Vec F S1x1024 .f32)

-- A point other than the last: the accumulators, zeroed first when it is the first point, are updated.
set_option maxHeartbeats 4000000 in
theorem sound_kernel10_upd (K : PUnit → sProp 𝕄) (h : cond10_0 i ∧ d2 = k10_pay1 ∧ d3 = k10_pay2 ∨ ¬cond10_0 i ∧ d2 = s ∧ d3 = n) (hc1 : ¬k10_cond2 i = 1#1) :
    iprop(owns (c : Thread nD τ) arg1 fullShare x0 ∗ owns (c : Thread nD τ) arg2 fullShare x1
        ∗ owns (c : Thread nD τ) arg5 fullShare s ∗ owns (c : Thread nD τ) arg6 fullShare n
        ∗ (iprop(owns (c : Thread nD τ) arg1 fullShare x0 ∗ owns (c : Thread nD τ) arg2 fullShare x1
            ∗ owns (c : Thread nD τ) arg5 fullShare (k10_pay4 x0 x1 d2) ∗ owns (c : Thread nD τ) arg6 fullShare (k10_pay5 x0 d3)) -∗ K ⟨⟩))
      ⊢ wp frame (wpE (defs₀ (F := F)) Variants.none c none) E (cc10__pool_kernel i arg1 harg1 arg2 harg2 arg3 harg3 arg4 harg4 arg5 harg5 arg6 harg6) K := by
  rcases h with ⟨hc0, rfl, rfl⟩ | ⟨hc0, rfl, rfl⟩ <;> (
    simp only [cc10__pool_kernel_eq_skeleton]; unfold cc10__pool_kernel_skel owns
    iintro ⟨⟨%f0, %hf0, H0⟩, ⟨%f1, %hf1, H1⟩, ⟨%fs, %hfs, HS⟩, ⟨%fn, %hfn, HN⟩, Hk⟩
    subst hf0 hf1 hfs hfn
    sl_exec (disch := first | exact hc0 | exact hc1)
    sl_step
    iapply Hk
    isplitl [H0]; · iapply (leaf10 c _ _ _ rfl) $$ H0
    isplitl [H1]; · iapply (leaf10 c _ _ _ rfl) $$ H1
    isplitl [HS]
    · iapply (leaf10 c _ _ _ ?_) $$ HS
      sl_unfold_run_names; simp only [read_writes_whole arg5.view _ hz2, readAt_whole arg1.view hz2, readAt_whole arg2.view hz2, readAt_whole arg5.view hz2, View.readCov_unit_zero arg5.view hz2]
    iapply (leaf10 c _ _ _ ?_) $$ HN
    sl_unfold_run_names; simp only [read_writes_whole arg6.view _ hz2, readAt_whole arg1.view hz2, readAt_whole arg6.view hz2, View.readCov_unit_zero arg6.view hz2])

-- The last point: the accumulators are updated and copied to the two outputs, held at anything.
set_option maxHeartbeats 4000000 in
theorem sound_kernel10_last (K : PUnit → sProp 𝕄) (hc0 : ¬cond10_0 i) (hc1 : k10_cond2 i = 1#1) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s ∗ owns (c : Thread nD τ) arg6 fullShare n
        ∗ (iprop(owns (c : Thread nD τ) arg1 fullShare x0 ∗ owns (c : Thread nD τ) arg2 fullShare x1
            ∗ owns (c : Thread nD τ) arg3 fullShare (k10_pay4 x0 x1 s) ∗ owns (c : Thread nD τ) arg4 fullShare (k10_pay5 x0 n)
            ∗ owns (c : Thread nD τ) arg5 fullShare (k10_pay4 x0 x1 s) ∗ owns (c : Thread nD τ) arg6 fullShare (k10_pay5 x0 n)) -∗ K ⟨⟩))
      ⊢ wp frame (wpE (defs₀ (F := F)) Variants.none c none) E (cc10__pool_kernel i arg1 harg1 arg2 harg2 arg3 harg3 arg4 harg4 arg5 harg5 arg6 harg6) K := by
  simp only [cc10__pool_kernel_eq_skeleton]; unfold cc10__pool_kernel_skel owns
  iintro ⟨⟨%f0, %hf0, H0⟩, ⟨%f1, %hf1, H1⟩, ⟨%f2, -, H2⟩, ⟨%f3, -, H3⟩, ⟨%fs, %hfs, HS⟩, ⟨%fn, %hfn, HN⟩, Hk⟩
  subst hf0 hf1 hfs hfn
  sl_exec (disch := first | exact hc0 | exact hc1)
  sl_step
  iapply Hk
  isplitl [H0]; · iapply (leaf10 c _ _ _ rfl) $$ H0
  isplitl [H1]; · iapply (leaf10 c _ _ _ rfl) $$ H1
  isplitl [H2]
  · iapply (leaf10 c _ _ _ ?_) $$ H2
    sl_unfold_run_names; simp only [read_writes_whole arg3.view _ hz2, View.readCov_unit_zero arg5.view hz2, read_writes_whole arg5.view _ hz2, readAt_whole arg1.view hz2, readAt_whole arg2.view hz2, readAt_whole arg5.view hz2]
  isplitl [H3]
  · iapply (leaf10 c _ _ _ ?_) $$ H3
    sl_unfold_run_names; simp only [read_writes_whole arg4.view _ hz2, View.readCov_unit_zero arg6.view hz2, read_writes_whole arg6.view _ hz2, readAt_whole arg1.view hz2, readAt_whole arg6.view hz2]
  isplitl [HS]
  · iapply (leaf10 c _ _ _ ?_) $$ HS
    sl_unfold_run_names; simp only [read_writes_whole arg5.view _ hz2, readAt_whole arg1.view hz2, readAt_whole arg2.view hz2, readAt_whole arg5.view hz2]
  iapply (leaf10 c _ _ _ ?_) $$ HN
  sl_unfold_run_names; simp only [read_writes_whole arg6.view _ hz2, readAt_whole arg1.view hz2, readAt_whole arg6.view hz2]

end

theorem live10 (c : Dev nD) (w : Fin cfg10.W) (t : Fin cfg10.N) (h : cfg10.idle w (grid10.coords t) = false) :
    (dat10 V c).leavesExact w t = owns (c : Thread nD τ) ((cfg10.win w).stage (cfg10.slots t w)) fullShare ((dat10 V c).after w t) := by
  unfold Dat.leavesExact; rw [h]

-- By cases of the point: the last, the first, or one between.
set_option maxHeartbeats 4000000 in
theorem sound_body10 (c : Dev nD) (t : Fin cfg10.N) :
    iprop((dat10 V c).Φ t.castSucc ∗ (dat10 V c).owesAt () t.castSucc
      ∗ (∃ d, owns (c : Thread nD τ) (st10_0 t) fullShare ((dat10 V c).before 0 t d))
      ∗ (∃ d, owns (c : Thread nD τ) (st10_1 t) fullShare ((dat10 V c).before 1 t d))
      ∗ (∃ d, owns (c : Thread nD τ) (st10_2 t) fullShare ((dat10 V c).before 2 t d))
      ∗ (∃ d, owns (c : Thread nD τ) (st10_3 t) fullShare ((dat10 V c).before 3 t d)))
    ⊢ wp frame (wpE (defs₀ (F := F)) Variants.none c none) Set.univ (bodyAt10 t) (fun _ => iprop((dat10 V c).Φ t.succ ∗ (dat10 V c).owesAt () t.succ
      ∗ (dat10 V c).leavesExact 0 t ∗ (dat10 V c).leavesExact 1 t ∗ (dat10 V c).leavesExact 2 t ∗ (dat10 V c).leavesExact 3 t)) := by
  obtain ⟨hc0, hc1, hl0, hl1, hlast, hoff⟩ := at10 t
  obtain ⟨hfirst, hnext⟩ := step10 V c t
  unfold bodyAt10
  simp only [before10_0, before10_1]
  rw [show (dat10 V c).owesAt () t.succ = (dat10 V c).owesAt () t.castSucc from rfl,
    show (dat10 V c).Φ t.succ = Inv10 c iprop(owns (c : Thread nD τ) scM10_0 fullShare (accS10 V c t.val t.isLt) ∗ owns (c : Thread nD τ) scM10_1 fullShare (accC10 V c t.val t.isLt)) from rfl,
    live10 V c 0 t hl0, live10 V c 1 t hl1, after10_0, after10_1]
  by_cases h1 : t.val = 49
  · obtain ⟨h, hΦ, hS, hC⟩ := hnext (by omega)
    rw [live10 V c 2 t (hlast h1).1, live10 V c 3 t (hlast h1).2, after_out10_2, after_out10_3, hΦ, hS, hC]; unfold Inv10
    iintro ⟨⟨⟨⟨HS0, HS1⟩, HR⟩, Hg⟩, Ho, ⟨%d0, H0⟩, ⟨%d1, H1⟩, ⟨%d2, H2⟩, ⟨%d3, H3⟩⟩
    iapply (sound_kernel10_last c Set.univ (grid10.coords t) _ _ _ _ _ _ _ _ _ _ _ _ (iblk10 V c 0 t) (iblk10 V c 1 t) (accS10 V c (t.val - 1) h) ((dat10 V c).before 2 t d2) (accC10 V c (t.val - 1) h) ((dat10 V c).before 3 t d3) _ (mt hc0.mp (by omega)) (hc1.mpr h1))
    iframe H0 H1 H2 H3 HS0 HS1
    iintro ⟨H0, H1, H2, H3, HS0, HS1⟩
    iframe
  · have hn1 := mt hc1.mp h1
    rw [Dat.leavesExact_idle _ 2 t (hoff h1).1 (hoff h1).2.2.1, Dat.leavesExact_idle _ 3 t (hoff h1).2.1 (hoff h1).2.2.2]
    by_cases h0 : t.val = 0
    · obtain ⟨hΦ, hS, hC⟩ := hfirst h0
      rw [hΦ, hS, hC, PhiA10_eq]; unfold Inv10
      iintro ⟨⟨⟨⟨⟨%s, HS0⟩, ⟨%n, HS1⟩⟩, HR⟩, Hg⟩, Ho, ⟨%d0, H0⟩, ⟨%d1, H1⟩, H2, H3⟩
      iapply (sound_kernel10_upd c Set.univ (grid10.coords t) _ _ _ _ _ _ _ _ _ _ _ _ (iblk10 V c 0 t) (iblk10 V c 1 t) s _ n _ _ (.inl ⟨hc0.mpr h0, rfl, rfl⟩) hn1)
      iframe H0 H1 HS0 HS1
      iintro ⟨H0, H1, HS0, HS1⟩
      iframe
    · obtain ⟨h, hΦ, hS, hC⟩ := hnext h0
      rw [hΦ, hS, hC]; unfold Inv10
      iintro ⟨⟨⟨⟨HS0, HS1⟩, HR⟩, Hg⟩, Ho, ⟨%d0, H0⟩, ⟨%d1, H1⟩, H2, H3⟩
      iapply (sound_kernel10_upd c Set.univ (grid10.coords t) _ _ _ _ _ _ _ _ _ _ _ _ (iblk10 V c 0 t) (iblk10 V c 1 t) (accS10 V c (t.val - 1) h) _ (accC10 V c (t.val - 1) h) _ _ (.inr ⟨mt hc0.mp h0, rfl, rfl⟩) hn1)
      iframe H0 H1 HS0 HS1
      iintro ⟨H0, H1, HS0, HS1⟩
      iframe

theorem body_obligation10 (c : Dev nD) : BodyObligation (dat10 (F := F) V c) (defs₀ (F := F)) Variants.none () Set.univ := fun t => by
  rw [bigSep_W10, bigSep_W10]
  exact sound_body10 V c t

theorem hin10 (c : Dev nD) : Pipeline.ΦA spec10 c ⊢ ((dat10 V c).Φ 0 : sProp 𝕄) := .rfl

-- After the last point the accumulators' values are forgotten.
theorem hout10 (c : Dev nD) : ((dat10 V c).Φ (Fin.last cfg10.N) : sProp 𝕄) ⊢ Pipeline.ΦA spec10 c := by
  rw [PhiA10_eq]
  show Phi10 V c (49 + 1) _ ⊢ _
  unfold Phi10 Inv10
  iintro ⟨⟨⟨HS0, HS1⟩, HR⟩, Hg⟩
  iframe HR Hg
  isplitl [HS0] <;> iexists _ <;> iassumption

end Cert.Kernel.Hand

end
-- ==== Proof.KB.Run.lean ====
import proofs.«429186_j15229954031644_1_alg».proof.Proof.Gen.Kernel.Regions
import proofs.«429186_j15229954031644_1_alg».proof.Proof.KB.R0
import proofs.«429186_j15229954031644_1_alg».proof.Proof.KB.R1
import proofs.«429186_j15229954031644_1_alg».proof.Proof.KB.R2
import proofs.«429186_j15229954031644_1_alg».proof.Proof.KB.R3
import proofs.«429186_j15229954031644_1_alg».proof.Proof.KB.R4
import proofs.«429186_j15229954031644_1_alg».proof.Proof.KB.R5
import proofs.«429186_j15229954031644_1_alg».proof.Proof.KB.R6
import proofs.«429186_j15229954031644_1_alg».proof.Proof.KB.R7
import proofs.«429186_j15229954031644_1_alg».proof.Proof.KB.R8
import proofs.«429186_j15229954031644_1_alg».proof.Proof.KB.R9
import proofs.«429186_j15229954031644_1_alg».proof.Proof.KB.R10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (pd : (p : Fin 11) → (c : Dev nD) → Dat τ (Elt F) Unit ℕ (UR sig nD τ) ℕ (Pipeline.pin (pcfgs (F := F)) adm p) c)

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- An input window's array is written back as read, and a buffer no window stages is not touched. -/
theorem keep_of_in {cfg : Pipeline.Cfg sig Λ₀} {c : Dev nD} (d : Dat τ (Elt F) Unit ℕ (UR sig nD τ) ℕ cfg c)
    {Wen Wex : Valuation τ sig (Elt F)} (hA : ∀ w, d.A w = Wen (Proc.devRef .tc (Pipeline.arrRef cfg.spec w)))
    (harr : ∀ w, Wex (Proc.devRef .tc (Pipeline.arrRef cfg.spec w)) = d.arrAt w cfg.N)
    (hne : ∀ b : Ref sig .tc, (∀ w, Pipeline.arrRef cfg.spec w ≠ b) → Wex (Proc.devRef .tc b) = Wen (Proc.devRef .tc b))
    (b : Ref sig .tc) (hb : ∀ w, Pipeline.arrRef cfg.spec w = b → (cfg.win w).isOut = false) :
    Wex (Proc.devRef .tc b) = Wen (Proc.devRef .tc b) := by
  by_cases h : ∃ w, Pipeline.arrRef cfg.spec w = b
  · obtain ⟨w, rfl⟩ := h
    exact (harr w).trans ((d.arrAt_in w (hb w rfl) _).trans (hA w))
  · exact hne b fun w e => h ⟨w, e⟩

set_option backward.isDefEq.respectTransparency.types false in
/-- One construction for all eleven regions: they differ only in the pipeline's index and its proof data. -/
def mkReg (p : Fin 11) (lf : Pipeline.LaunchFacts (nD := nD) (τ := τ) cfgs p) (Wen Wex : Dev nD → Valuation τ sig (Elt F))
    (hbody : ∀ c, BodyObligation (pd p c) (defs₀ (F := F)) Variants.none () Set.univ)
    (howed : ∀ c t, (pd p c).owed t = 0) (hq : ∀ c w, (pd p c).q w = fullShare)
    (hrec : ∀ c, (pd p c).recorded 0 = Set.univ)
    (hA : ∀ c w, (pd p c).A w = Wen c (Pipeline.arrRef (cfgs p).spec w))
    (hin : ∀ c, Pipeline.ΦA (cfgs p).spec c ⊢ ((pd p c).Φ 0 : sProp 𝕄))
    (hout : ∀ c, ((pd p c).Φ (Fin.last _) : sProp 𝕄) ⊢ Pipeline.ΦA (cfgs p).spec c)
    (harr : ∀ c w, Wex c (Proc.devRef .tc (Pipeline.arrRef (cfgs p).spec w)) = (pd p c).arrAt w (cfgs p).N)
    (hne : ∀ c (b : Ref sig .tc), (∀ w, Pipeline.arrRef (cfgs p).spec w ≠ b) → Wex c (Proc.devRef .tc b) = Wen c (Proc.devRef .tc b)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wen c) ∗ R c)
  post c := iprop(StableHlo.held (c : Thread nD τ) (Pipeline.ucRefs τ sig) (Wex c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wen c b
  hentry c := by
    rw [Pipeline.ownSems0_none]
    have hsplit := Pipeline.arrays_of_unscopedBufs (p := p) (pcfgs (F := F)) adm pd lf.win lf.arr_whole c
      ((pd p c).share_full (hq c)) (fun b => Wen c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pd p c).owed 0 = 0 from howed c 0]
      icases HO with ⟨%W, HO⟩; iexists W; isplitr; · ipureintro; exact fun _ _ => Or.inl ((hrec c).symm ▸ Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Wen c b) (fun b => Wex c b) ((pd p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pd p c).owed (Fin.last _) = 0 from howed c _]
    icases HO with ⟨%W, -, HO⟩; iexists W; iexact HO
end

variable (m : (ℓ : Loc nD τ sig) → Buf (Elt F) ℓ) (ρ : Dev nD → PrngReg)

/-- `Wk`: a core's buffers after item `k` of the entry function (`W0`: at launch). -/
abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev W5 : Dev nD → Valuation τ sig (Elt F) := fun c => StableHlo.after hostOps0_4 (W4 m ρ c)

abbrev W6 : Dev nD → Valuation τ sig (Elt F) := fun c => StableHlo.after hostOps0_5 (W5 m ρ c)

abbrev W7 : Dev nD → Valuation τ sig (Elt F) := fun c => StableHlo.after hostOps0_6 (W6 m ρ c)

abbrev W8 : Dev nD → Valuation τ sig (Elt F) := fun c => StableHlo.after hostOps0_7 (W7 m ρ c)

abbrev W9 : Dev nD → Valuation τ sig (Elt F) := fun c => StableHlo.after hostOps0_8 (W8 m ρ c)

abbrev En9 : (c : Dev nD) → (b : Ref sig .tc) → Buf (Elt F) ((c : Thread nD τ).loc b) := fun c b => W9 m ρ c b

def W10 (c : Dev nD) : Valuation τ sig (Elt F) :=
  Pipeline.withArrays spec0 c (W9 m ρ c) fun w => (dat0 (En9 m ρ) c).arrAt w cfg0.N
theorem W10_arr (c : Dev nD) (w : Fin cfg0.W) :
    W10 m ρ c (Proc.devRef .tc (Pipeline.arrRef spec0 w)) = (dat0 (En9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb

abbrev En10 : (c : Dev nD) → (b : Ref sig .tc) → Buf (Elt F) ((c : Thread nD τ).loc b) := fun c b => W10 m ρ c b

def W11 (c : Dev nD) : Valuation τ sig (Elt F) :=
  Pipeline.withArrays spec1 c (W10 m ρ c) fun w => (dat1 (En10 m ρ) c).arrAt w cfg1.N
theorem W11_arr (c : Dev nD) (w : Fin cfg1.W) :
    W11 m ρ c (Proc.devRef .tc (Pipeline.arrRef spec1 w)) = (dat1 (En10 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb

abbrev En11 : (c : Dev nD) → (b : Ref sig .tc) → Buf (Elt F) ((c : Thread nD τ).loc b) := fun c b => W11 m ρ c b

def W12 (c : Dev nD) : Valuation τ sig (Elt F) :=
  Pipeline.withArrays spec2 c (W11 m ρ c) fun w => (dat2 (En11 m ρ) c).arrAt w cfg2.N
theorem W12_arr (c : Dev nD) (w : Fin cfg2.W) :
    W12 m ρ c (Proc.devRef .tc (Pipeline.arrRef spec2 w)) = (dat2 (En11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb

abbrev W13 : Dev nD → Valuation τ sig (Elt F) := fun c => StableHlo.after hostOps3 (W12 m ρ c)

abbrev En13 : (c : Dev nD) → (b : Ref sig .tc) → Buf (Elt F) ((c : Thread nD τ).loc b) := fun c b => W13 m ρ c b

def W14 (c : Dev nD) : Valuation τ sig (Elt F) :=
  Pipeline.withArrays spec3 c (W13 m ρ c) fun w => (dat3 (En13 m ρ) c).arrAt w cfg3.N
theorem W14_arr (c : Dev nD) (w : Fin cfg3.W) :
    W14 m ρ c (Proc.devRef .tc (Pipeline.arrRef spec3 w)) = (dat3 (En13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb

abbrev En14 : (c : Dev nD) → (b : Ref sig .tc) → Buf (Elt F) ((c : Thread nD τ).loc b) := fun c b => W14 m ρ c b

def W15 (c : Dev nD) : Valuation τ sig (Elt F) :=
  Pipeline.withArrays spec4 c (W14 m ρ c) fun w => (dat4 (En14 m ρ) c).arrAt w cfg4.N
theorem W15_arr (c : Dev nD) (w : Fin cfg4.W) :
    W15 m ρ c (Proc.devRef .tc (Pipeline.arrRef spec4 w)) = (dat4 (En14 m ρ) c).arrAt w cfg4.N := by
  unfold W15; exact Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) := by
  unfold W15; exact Pipeline.withArrays_of_ne spec4 c _ _ b hb

abbrev En15 : (c : Dev nD) → (b : Ref sig .tc) → Buf (Elt F) ((c : Thread nD τ).loc b) := fun c b => W15 m ρ c b

def W16 (c : Dev nD) : Valuation τ sig (Elt F) :=
  Pipeline.withArrays spec5 c (W15 m ρ c) fun w => (dat5 (En15 m ρ) c).arrAt w cfg5.N
theorem W16_arr (c : Dev nD) (w : Fin cfg5.W) :
    W16 m ρ c (Proc.devRef .tc (Pipeline.arrRef spec5 w)) = (dat5 (En15 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb

abbrev W17 : Dev nD → Valuation τ sig (Elt F) := fun c => StableHlo.after hostOps6 (W16 m ρ c)

abbrev En17 : (c : Dev nD) → (b : Ref sig .tc) → Buf (Elt F) ((c : Thread nD τ).loc b) := fun c b => W17 m ρ c b

def W18 (c : Dev nD) : Valuation τ sig (Elt F) :=
  Pipeline.withArrays spec6 c (W17 m ρ c) fun w => (dat6 (En17 m ρ) c).arrAt w cfg6.N
theorem W18_arr (c : Dev nD) (w : Fin cfg6.W) :
    W18 m ρ c (Proc.devRef .tc (Pipeline.arrRef spec6 w)) = (dat6 (En17 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb

abbrev En18 : (c : Dev nD) → (b : Ref sig .tc) → Buf (Elt F) ((c : Thread nD τ).loc b) := fun c b => W18 m ρ c b

def W19 (c : Dev nD) : Valuation τ sig (Elt F) :=
  Pipeline.withArrays spec7 c (W18 m ρ c) fun w => (dat7 (En18 m ρ) c).arrAt w cfg7.N
theorem W19_arr (c : Dev nD) (w : Fin cfg7.W) :
    W19 m ρ c (Proc.devRef .tc (Pipeline.arrRef spec7 w)) = (dat7 (En18 m ρ) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m ρ c (Proc.devRef .tc b) = W18 m ρ c (Proc.devRef .tc b) := by
  unfold W19; exact Pipeline.withArrays_of_ne spec7 c _ _ b hb

abbrev En19 : (c : Dev nD) → (b : Ref sig .tc) → Buf (Elt F) ((c : Thread nD τ).loc b) := fun c b => W19 m ρ c b

def W20 (c : Dev nD) : Valuation τ sig (Elt F) :=
  Pipeline.withArrays spec8 c (W19 m ρ c) fun w => (dat8 (En19 m ρ) c).arrAt w cfg8.N
theorem W20_arr (c : Dev nD) (w : Fin cfg8.W) :
    W20 m ρ c (Proc.devRef .tc (Pipeline.arrRef spec8 w)) = (dat8 (En19 m ρ) c).arrAt w cfg8.N := by
  unfold W20; exact Pipeline.withArrays_arr spec8 launch8.win.arr_inj c _ _ w
theorem W20_of_ne (c : Dev nD) (b : Ref sig .tc) (hb : ∀ w, Pipeline.arrRef spec8 w ≠ b) :
    W20 m ρ c (Proc.devRef .tc b) = W19 m ρ c (Proc.devRef .tc b) := by
  unfold W20; exact Pipeline.withArrays_of_ne spec8 c _ _ b hb

abbrev W21 : Dev nD → Valuation τ sig (Elt F) := fun c => StableHlo.after hostOps9 (W20 m ρ c)

abbrev En21 : (c : Dev nD) → (b : Ref sig .tc) → Buf (Elt F) ((c : Thread nD τ).loc b) := fun c b => W21 m ρ c b

def W22 (c : Dev nD) : Valuation τ sig (Elt F) :=
  Pipeline.withArrays spec9 c (W21 m ρ c) fun w => (dat9 (En21 m ρ) c).arrAt w cfg9.N
theorem W22_arr (c : Dev nD) (w : Fin cfg9.W) :
    W22 m ρ c (Proc.devRef .tc (Pipeline.arrRef spec9 w)) = (dat9 (En21 m ρ) c).arrAt w cfg9.N := by
  unfold W22; exact Pipeline.withArrays_arr spec9 launch9.win.arr_inj c _ _ w
theorem W22_of_ne (c : Dev nD) (b : Ref sig .tc) (hb : ∀ w, Pipeline.arrRef spec9 w ≠ b) :
    W22 m ρ c (Proc.devRef .tc b) = W21 m ρ c (Proc.devRef .tc b) := by
  unfold W22; exact Pipeline.withArrays_of_ne spec9 c _ _ b hb

abbrev W23 : Dev nD → Valuation τ sig (Elt F) := fun c => StableHlo.after hostOps10 (W22 m ρ c)

abbrev En23 : (c : Dev nD) → (b : Ref sig .tc) → Buf (Elt F) ((c : Thread nD τ).loc b) := fun c b => W23 m ρ c b

def W24 (c : Dev nD) : Valuation τ sig (Elt F) :=
  Pipeline.withArrays spec10 c (W23 m ρ c) fun w => (dat10 (En23 m ρ) c).arrAt w cfg10.N
theorem W24_arr (c : Dev nD) (w : Fin cfg10.W) :
    W24 m ρ c (Proc.devRef .tc (Pipeline.arrRef spec10 w)) = (dat10 (En23 m ρ) c).arrAt w cfg10.N := by
  unfold W24; exact Pipeline.withArrays_arr spec10 launch10.win.arr_inj c _ _ w
theorem W24_of_ne (c : Dev nD) (b : Ref sig .tc) (hb : ∀ w, Pipeline.arrRef spec10 w ≠ b) :
    W24 m ρ c (Proc.devRef .tc b) = W23 m ρ c (Proc.devRef .tc b) := by
  unfold W24; exact Pipeline.withArrays_of_ne spec10 c _ _ b hb

abbrev W25 : Dev nD → Valuation τ sig (Elt F) := fun c => StableHlo.after hostOps11 (W24 m ρ c)

abbrev W26 : Dev nD → Valuation τ sig (Elt F) := fun c => StableHlo.after hostOps11_1 (W25 m ρ c)

abbrev W27 : Dev nD → Valuation τ sig (Elt F) := fun c => StableHlo.after hostOps11_2 (W26 m ρ c)

theorem W10_keep (c : Dev nD) (b : Ref sig .tc) (hb : ∀ w, Pipeline.arrRef spec0 w = b → (cfg0.win w).isOut = false) :
    W10 m ρ c (Proc.devRef .tc b) = W9 m ρ c (Proc.devRef .tc b) :=
  keep_of_in (dat0 (En9 m ρ) c) (A_eq0 (En9 m ρ) c) (W10_arr m ρ c) (W10_of_ne m ρ c) b hb
theorem W11_keep (c : Dev nD) (b : Ref sig .tc) (hb : ∀ w, Pipeline.arrRef spec1 w = b → (cfg1.win w).isOut = false) :
    W11 m ρ c (Proc.devRef .tc b) = W10 m ρ c (Proc.devRef .tc b) :=
  keep_of_in (dat1 (En10 m ρ) c) (A_eq1 (En10 m ρ) c) (W11_arr m ρ c) (W11_of_ne m ρ c) b hb
theorem W12_keep (c : Dev nD) (b : Ref sig .tc) (hb : ∀ w, Pipeline.arrRef spec2 w = b → (cfg2.win w).isOut = false) :
    W12 m ρ c (Proc.devRef .tc b) = W11 m ρ c (Proc.devRef .tc b) :=
  keep_of_in (dat2 (En11 m ρ) c) (A_eq2 (En11 m ρ) c) (W12_arr m ρ c) (W12_of_ne m ρ c) b hb
theorem W14_keep (c : Dev nD) (b : Ref sig .tc) (hb : ∀ w, Pipeline.arrRef spec3 w = b → (cfg3.win w).isOut = false) :
    W14 m ρ c (Proc.devRef .tc b) = W13 m ρ c (Proc.devRef .tc b) :=
  keep_of_in (dat3 (En13 m ρ) c) (A_eq3 (En13 m ρ) c) (W14_arr m ρ c) (W14_of_ne m ρ c) b hb
theorem W15_keep (c : Dev nD) (b : Ref sig .tc) (hb : ∀ w, Pipeline.arrRef spec4 w = b → (cfg4.win w).isOut = false) :
    W15 m ρ c (Proc.devRef .tc b) = W14 m ρ c (Proc.devRef .tc b) :=
  keep_of_in (dat4 (En14 m ρ) c) (A_eq4 (En14 m ρ) c) (W15_arr m ρ c) (W15_of_ne m ρ c) b hb
theorem W16_keep (c : Dev nD) (b : Ref sig .tc) (hb : ∀ w, Pipeline.arrRef spec5 w = b → (cfg5.win w).isOut = false) :
    W16 m ρ c (Proc.devRef .tc b) = W15 m ρ c (Proc.devRef .tc b) :=
  keep_of_in (dat5 (En15 m ρ) c) (A_eq5 (En15 m ρ) c) (W16_arr m ρ c) (W16_of_ne m ρ c) b hb
theorem W18_keep (c : Dev nD) (b : Ref sig .tc) (hb : ∀ w, Pipeline.arrRef spec6 w = b → (cfg6.win w).isOut = false) :
    W18 m ρ c (Proc.devRef .tc b) = W17 m ρ c (Proc.devRef .tc b) :=
  keep_of_in (dat6 (En17 m ρ) c) (A_eq6 (En17 m ρ) c) (W18_arr m ρ c) (W18_of_ne m ρ c) b hb
theorem W19_keep (c : Dev nD) (b : Ref sig .tc) (hb : ∀ w, Pipeline.arrRef spec7 w = b → (cfg7.win w).isOut = false) :
    W19 m ρ c (Proc.devRef .tc b) = W18 m ρ c (Proc.devRef .tc b) :=
  keep_of_in (dat7 (En18 m ρ) c) (A_eq7 (En18 m ρ) c) (W19_arr m ρ c) (W19_of_ne m ρ c) b hb
theorem W20_keep (c : Dev nD) (b : Ref sig .tc) (hb : ∀ w, Pipeline.arrRef spec8 w = b → (cfg8.win w).isOut = false) :
    W20 m ρ c (Proc.devRef .tc b) = W19 m ρ c (Proc.devRef .tc b) :=
  keep_of_in (dat8 (En19 m ρ) c) (A_eq8 (En19 m ρ) c) (W20_arr m ρ c) (W20_of_ne m ρ c) b hb
theorem W22_keep (c : Dev nD) (b : Ref sig .tc) (hb : ∀ w, Pipeline.arrRef spec9 w = b → (cfg9.win w).isOut = false) :
    W22 m ρ c (Proc.devRef .tc b) = W21 m ρ c (Proc.devRef .tc b) :=
  keep_of_in (dat9 (En21 m ρ) c) (A_eq9 (En21 m ρ) c) (W22_arr m ρ c) (W22_of_ne m ρ c) b hb
theorem W24_keep (c : Dev nD) (b : Ref sig .tc) (hb : ∀ w, Pipeline.arrRef spec10 w = b → (cfg10.win w).isOut = false) :
    W24 m ρ c (Proc.devRef .tc b) = W23 m ρ c (Proc.devRef .tc b) :=
  keep_of_in (dat10 (En23 m ρ) c) (A_eq10 (En23 m ρ) c) (W24_arr m ρ c) (W24_of_ne m ρ c) b hb

abbrev args : List (Ref sig .tc) :=
  [main_arg0, main_arg1, main_arg2, main_arg3, main_arg4, main_arg5, main_arg6, main_arg7, main_arg8, main_arg9, main_arg10, main_arg11, main_arg12, main_arg13, main_arg14]

/-- No item writes an argument array. -/
theorem W1_arg (c : Dev nD) {b : Ref sig .tc} (hb : b ∈ args) : W1 m ρ c (Proc.devRef .tc b) = m ((c : Thread nD τ).loc b) :=
  StableHlo.after_of_writes_sub hostOps0 _ hostOps0_writes ((by decide : ∀ b ∈ args, b ∉ hostOps0_W) b hb)
theorem W2_arg (c : Dev nD) {b : Ref sig .tc} (hb : b ∈ args) : W2 m ρ c (Proc.devRef .tc b) = m ((c : Thread nD τ).loc b) :=
  (StableHlo.after_of_writes_sub hostOps0_1 _ hostOps0_1_writes ((by decide : ∀ b ∈ args, b ∉ hostOps0_1_W) b hb)).trans (W1_arg m ρ c hb)
theorem W3_arg (c : Dev nD) {b : Ref sig .tc} (hb : b ∈ args) : W3 m ρ c (Proc.devRef .tc b) = m ((c : Thread nD τ).loc b) :=
  (StableHlo.after_of_writes_sub hostOps0_2 _ hostOps0_2_writes ((by decide : ∀ b ∈ args, b ∉ hostOps0_2_W) b hb)).trans (W2_arg m ρ c hb)
theorem W4_arg (c : Dev nD) {b : Ref sig .tc} (hb : b ∈ args) : W4 m ρ c (Proc.devRef .tc b) = m ((c : Thread nD τ).loc b) :=
  (StableHlo.after_of_writes_sub hostOps0_3 _ hostOps0_3_writes ((by decide : ∀ b ∈ args, b ∉ hostOps0_3_W) b hb)).trans (W3_arg m ρ c hb)
theorem W5_arg (c : Dev nD) {b : Ref sig .tc} (hb : b ∈ args) : W5 m ρ c (Proc.devRef .tc b) = m ((c : Thread nD τ).loc b) :=
  (StableHlo.after_of_writes_sub hostOps0_4 _ hostOps0_4_writes ((by decide : ∀ b ∈ args, b ∉ hostOps0_4_W) b hb)).trans (W4_arg m ρ c hb)
theorem W6_arg (c : Dev nD) {b : Ref sig .tc} (hb : b ∈ args) : W6 m ρ c (Proc.devRef .tc b) = m ((c : Thread nD τ).loc b) :=
  (StableHlo.after_of_writes_sub hostOps0_5 _ hostOps0_5_writes ((by decide : ∀ b ∈ args, b ∉ hostOps0_5_W) b hb)).trans (W5_arg m ρ c hb)
theorem W7_arg (c : Dev nD) {b : Ref sig .tc} (hb : b ∈ args) : W7 m ρ c (Proc.devRef .tc b) = m ((c : Thread nD τ).loc b) :=
  (StableHlo.after_of_writes_sub hostOps0_6 _ hostOps0_6_writes ((by decide : ∀ b ∈ args, b ∉ hostOps0_6_W) b hb)).trans (W6_arg m ρ c hb)
theorem W8_arg (c : Dev nD) {b : Ref sig .tc} (hb : b ∈ args) : W8 m ρ c (Proc.devRef .tc b) = m ((c : Thread nD τ).loc b) :=
  (StableHlo.after_of_writes_sub hostOps0_7 _ hostOps0_7_writes ((by decide : ∀ b ∈ args, b ∉ hostOps0_7_W) b hb)).trans (W7_arg m ρ c hb)
theorem W9_arg (c : Dev nD) {b : Ref sig .tc} (hb : b ∈ args) : W9 m ρ c (Proc.devRef .tc b) = m ((c : Thread nD τ).loc b) :=
  (StableHlo.after_of_writes_sub hostOps0_8 _ hostOps0_8_writes ((by decide : ∀ b ∈ args, b ∉ hostOps0_8_W) b hb)).trans (W8_arg m ρ c hb)
theorem W10_arg (c : Dev nD) {b : Ref sig .tc} (hb : b ∈ args) : W10 m ρ c (Proc.devRef .tc b) = m ((c : Thread nD τ).loc b) :=
  (W10_keep m ρ c b ((by decide : ∀ b ∈ args, ∀ w, Pipeline.arrRef spec0 w = b → (cfg0.win w).isOut = false) b hb)).trans (W9_arg m ρ c hb)
theorem W11_arg (c : Dev nD) {b : Ref sig .tc} (hb : b ∈ args) : W11 m ρ c (Proc.devRef .tc b) = m ((c : Thread nD τ).loc b) :=
  (W11_keep m ρ c b ((by decide : ∀ b ∈ args, ∀ w, Pipeline.arrRef spec1 w = b → (cfg1.win w).isOut = false) b hb)).trans (W10_arg m ρ c hb)
theorem W12_arg (c : Dev nD) {b : Ref sig .tc} (hb : b ∈ args) : W12 m ρ c (Proc.devRef .tc b) = m ((c : Thread nD τ).loc b) :=
  (W12_keep m ρ c b ((by decide : ∀ b ∈ args, ∀ w, Pipeline.arrRef spec2 w = b → (cfg2.win w).isOut = false) b hb)).trans (W11_arg m ρ c hb)
theorem W13_arg (c : Dev nD) {b : Ref sig .tc} (hb : b ∈ args) : W13 m ρ c (Proc.devRef .tc b) = m ((c : Thread nD τ).loc b) :=
  (StableHlo.after_of_writes_sub hostOps3 _ hostOps3_writes ((by decide : ∀ b ∈ args, b ∉ hostOps3_W) b hb)).trans (W12_arg m ρ c hb)
theorem W14_arg (c : Dev nD) {b : Ref sig .tc} (hb : b ∈ args) : W14 m ρ c (Proc.devRef .tc b) = m ((c : Thread nD τ).loc b) :=
  (W14_keep m ρ c b ((by decide : ∀ b ∈ args, ∀ w, Pipeline.arrRef spec3 w = b → (cfg3.win w).isOut = false) b hb)).trans (W13_arg m ρ c hb)
theorem W15_arg (c : Dev nD) {b : Ref sig .tc} (hb : b ∈ args) : W15 m ρ c (Proc.devRef .tc b) = m ((c : Thread nD τ).loc b) :=
  (W15_keep m ρ c b ((by decide : ∀ b ∈ args, ∀ w, Pipeline.arrRef spec4 w = b → (cfg4.win w).isOut = false) b hb)).trans (W14_arg m ρ c hb)
theorem W16_arg (c : Dev nD) {b : Ref sig .tc} (hb : b ∈ args) : W16 m ρ c (Proc.devRef .tc b) = m ((c : Thread nD τ).loc b) :=
  (W16_keep m ρ c b ((by decide : ∀ b ∈ args, ∀ w, Pipeline.arrRef spec5 w = b → (cfg5.win w).isOut = false) b hb)).trans (W15_arg m ρ c hb)
theorem W17_arg (c : Dev nD) {b : Ref sig .tc} (hb : b ∈ args) : W17 m ρ c (Proc.devRef .tc b) = m ((c : Thread nD τ).loc b) :=
  (StableHlo.after_of_writes_sub hostOps6 _ hostOps6_writes ((by decide : ∀ b ∈ args, b ∉ hostOps6_W) b hb)).trans (W16_arg m ρ c hb)
theorem W18_arg (c : Dev nD) {b : Ref sig .tc} (hb : b ∈ args) : W18 m ρ c (Proc.devRef .tc b) = m ((c : Thread nD τ).loc b) :=
  (W18_keep m ρ c b ((by decide : ∀ b ∈ args, ∀ w, Pipeline.arrRef spec6 w = b → (cfg6.win w).isOut = false) b hb)).trans (W17_arg m ρ c hb)
theorem W19_arg (c : Dev nD) {b : Ref sig .tc} (hb : b ∈ args) : W19 m ρ c (Proc.devRef .tc b) = m ((c : Thread nD τ).loc b) :=
  (W19_keep m ρ c b ((by decide : ∀ b ∈ args, ∀ w, Pipeline.arrRef spec7 w = b → (cfg7.win w).isOut = false) b hb)).trans (W18_arg m ρ c hb)
theorem W20_arg (c : Dev nD) {b : Ref sig .tc} (hb : b ∈ args) : W20 m ρ c (Proc.devRef .tc b) = m ((c : Thread nD τ).loc b) :=
  (W20_keep m ρ c b ((by decide : ∀ b ∈ args, ∀ w, Pipeline.arrRef spec8 w = b → (cfg8.win w).isOut = false) b hb)).trans (W19_arg m ρ c hb)
theorem W21_arg (c : Dev nD) {b : Ref sig .tc} (hb : b ∈ args) : W21 m ρ c (Proc.devRef .tc b) = m ((c : Thread nD τ).loc b) :=
  (StableHlo.after_of_writes_sub hostOps9 _ hostOps9_writes ((by decide : ∀ b ∈ args, b ∉ hostOps9_W) b hb)).trans (W20_arg m ρ c hb)
theorem W22_arg (c : Dev nD) {b : Ref sig .tc} (hb : b ∈ args) : W22 m ρ c (Proc.devRef .tc b) = m ((c : Thread nD τ).loc b) :=
  (W22_keep m ρ c b ((by decide : ∀ b ∈ args, ∀ w, Pipeline.arrRef spec9 w = b → (cfg9.win w).isOut = false) b hb)).trans (W21_arg m ρ c hb)
theorem W23_arg (c : Dev nD) {b : Ref sig .tc} (hb : b ∈ args) : W23 m ρ c (Proc.devRef .tc b) = m ((c : Thread nD τ).loc b) :=
  (StableHlo.after_of_writes_sub hostOps10 _ hostOps10_writes ((by decide : ∀ b ∈ args, b ∉ hostOps10_W) b hb)).trans (W22_arg m ρ c hb)
theorem W24_arg (c : Dev nD) {b : Ref sig .tc} (hb : b ∈ args) : W24 m ρ c (Proc.devRef .tc b) = m ((c : Thread nD τ).loc b) :=
  (W24_keep m ρ c b ((by decide : ∀ b ∈ args, ∀ w, Pipeline.arrRef spec10 w = b → (cfg10.win w).isOut = false) b hb)).trans (W23_arg m ρ c hb)
theorem W25_arg (c : Dev nD) {b : Ref sig .tc} (hb : b ∈ args) : W25 m ρ c (Proc.devRef .tc b) = m ((c : Thread nD τ).loc b) :=
  (StableHlo.after_of_writes_sub hostOps11 _ hostOps11_writes ((by decide : ∀ b ∈ args, b ∉ hostOps11_W) b hb)).trans (W24_arg m ρ c hb)
theorem W26_arg (c : Dev nD) {b : Ref sig .tc} (hb : b ∈ args) : W26 m ρ c (Proc.devRef .tc b) = m ((c : Thread nD τ).loc b) :=
  (StableHlo.after_of_writes_sub hostOps11_1 _ hostOps11_1_writes ((by decide : ∀ b ∈ args, b ∉ hostOps11_1_W) b hb)).trans (W25_arg m ρ c hb)
theorem W27_arg (c : Dev nD) {b : Ref sig .tc} (hb : b ∈ args) : W27 m ρ c (Proc.devRef .tc b) = m ((c : Thread nD τ).loc b) :=
  (StableHlo.after_of_writes_sub hostOps11_2 _ hostOps11_2_writes ((by decide : ∀ b ∈ args, b ∉ hostOps11_2_W) b hb)).trans (W26_arg m ρ c hb)

def pdats : (p : Fin 11) → (c : Dev nD) → Dat τ (Elt F) Unit ℕ (UR sig nD τ) ℕ (Pipeline.pin (pcfgs (F := F)) adm p) c
  | ⟨0, _⟩ => fun c => dat0 (En9 m ρ) c
  | ⟨1, _⟩ => fun c => dat1 (En10 m ρ) c
  | ⟨2, _⟩ => fun c => dat2 (En11 m ρ) c
  | ⟨3, _⟩ => fun c => dat3 (En13 m ρ) c
  | ⟨4, _⟩ => fun c => dat4 (En14 m ρ) c
  | ⟨5, _⟩ => fun c => dat5 (En15 m ρ) c
  | ⟨6, _⟩ => fun c => dat6 (En17 m ρ) c
  | ⟨7, _⟩ => fun c => dat7 (En18 m ρ) c
  | ⟨8, _⟩ => fun c => dat8 (En19 m ρ) c
  | ⟨9, _⟩ => fun c => dat9 (En21 m ρ) c
  | ⟨10, _⟩ => fun c => dat10 (En23 m ρ) c

abbrev Tₙ (c : Dev nD) : sProp 𝕄 := iprop(StableHlo.held (c : Thread nD τ) (Pipeline.ucRefs τ sig) (W27 m ρ c) ∗ ∃ r, prngReg c r)

section
set_option backward.isDefEq.respectTransparency.types false
def reg0 : Pipeline.RegionSeg (pcfgs (F := F)) adm (pdats m ρ) () defs₀ 𝒱₀ L lv 0 :=
  mkReg (pdats m ρ) 0 launch0 (W9 m ρ) (W10 m ρ) (body_obligation0 (En9 m ρ)) (owed_eq0 (En9 m ρ)) (q_eq0 (En9 m ρ)) (fun _ => rfl)
    (A_eq0 (En9 m ρ)) (hin0 (En9 m ρ)) (hout0 (En9 m ρ)) (W10_arr m ρ) (W10_of_ne m ρ)
def reg1 : Pipeline.RegionSeg (pcfgs (F := F)) adm (pdats m ρ) () defs₀ 𝒱₀ L lv 1 :=
  mkReg (pdats m ρ) 1 launch1 (W10 m ρ) (W11 m ρ) (body_obligation1 (En10 m ρ)) (owed_eq1 (En10 m ρ)) (q_eq1 (En10 m ρ)) (fun _ => rfl)
    (A_eq1 (En10 m ρ)) (hin1 (En10 m ρ)) (hout1 (En10 m ρ)) (W11_arr m ρ) (W11_of_ne m ρ)
def reg2 : Pipeline.RegionSeg (pcfgs (F := F)) adm (pdats m ρ) () defs₀ 𝒱₀ L lv 2 :=
  mkReg (pdats m ρ) 2 launch2 (W11 m ρ) (W12 m ρ) (body_obligation2 (En11 m ρ)) (owed_eq2 (En11 m ρ)) (q_eq2 (En11 m ρ)) (fun _ => rfl)
    (A_eq2 (En11 m ρ)) (hin2 (En11 m ρ)) (hout2 (En11 m ρ)) (W12_arr m ρ) (W12_of_ne m ρ)
def reg3 : Pipeline.RegionSeg (pcfgs (F := F)) adm (pdats m ρ) () defs₀ 𝒱₀ L lv 3 :=
  mkReg (pdats m ρ) 3 launch3 (W13 m ρ) (W14 m ρ) (body_obligation3 (En13 m ρ)) (owed_eq3 (En13 m ρ)) (q_eq3 (En13 m ρ)) (fun _ => rfl)
    (A_eq3 (En13 m ρ)) (hin3 (En13 m ρ)) (hout3 (En13 m ρ)) (W14_arr m ρ) (W14_of_ne m ρ)
def reg4 : Pipeline.RegionSeg (pcfgs (F := F)) adm (pdats m ρ) () defs₀ 𝒱₀ L lv 4 :=
  mkReg (pdats m ρ) 4 launch4 (W14 m ρ) (W15 m ρ) (body_obligation4 (En14 m ρ)) (owed_eq4 (En14 m ρ)) (q_eq4 (En14 m ρ)) (fun _ => rfl)
    (A_eq4 (En14 m ρ)) (hin4 (En14 m ρ)) (hout4 (En14 m ρ)) (W15_arr m ρ) (W15_of_ne m ρ)
def reg5 : Pipeline.RegionSeg (pcfgs (F := F)) adm (pdats m ρ) () defs₀ 𝒱₀ L lv 5 :=
  mkReg (pdats m ρ) 5 launch5 (W15 m ρ) (W16 m ρ) (body_obligation5 (En15 m ρ)) (owed_eq5 (En15 m ρ)) (q_eq5 (En15 m ρ)) (fun _ => rfl)
    (A_eq5 (En15 m ρ)) (hin5 (En15 m ρ)) (hout5 (En15 m ρ)) (W16_arr m ρ) (W16_of_ne m ρ)
def reg6 : Pipeline.RegionSeg (pcfgs (F := F)) adm (pdats m ρ) () defs₀ 𝒱₀ L lv 6 :=
  mkReg (pdats m ρ) 6 launch6 (W17 m ρ) (W18 m ρ) (body_obligation6 (En17 m ρ)) (owed_eq6 (En17 m ρ)) (q_eq6 (En17 m ρ)) (fun _ => rfl)
    (A_eq6 (En17 m ρ)) (hin6 (En17 m ρ)) (hout6 (En17 m ρ)) (W18_arr m ρ) (W18_of_ne m ρ)
def reg7 : Pipeline.RegionSeg (pcfgs (F := F)) adm (pdats m ρ) () defs₀ 𝒱₀ L lv 7 :=
  mkReg (pdats m ρ) 7 launch7 (W18 m ρ) (W19 m ρ) (body_obligation7 (En18 m ρ)) (owed_eq7 (En18 m ρ)) (q_eq7 (En18 m ρ)) (fun _ => rfl)
    (A_eq7 (En18 m ρ)) (hin7 (En18 m ρ)) (hout7 (En18 m ρ)) (W19_arr m ρ) (W19_of_ne m ρ)
def reg8 : Pipeline.RegionSeg (pcfgs (F := F)) adm (pdats m ρ) () defs₀ 𝒱₀ L lv 8 :=
  mkReg (pdats m ρ) 8 launch8 (W19 m ρ) (W20 m ρ) (body_obligation8 (En19 m ρ)) (owed_eq8 (En19 m ρ)) (q_eq8 (En19 m ρ)) (fun _ => rfl)
    (A_eq8 (En19 m ρ)) (hin8 (En19 m ρ)) (hout8 (En19 m ρ)) (W20_arr m ρ) (W20_of_ne m ρ)
def reg9 : Pipeline.RegionSeg (pcfgs (F := F)) adm (pdats m ρ) () defs₀ 𝒱₀ L lv 9 :=
  mkReg (pdats m ρ) 9 launch9 (W21 m ρ) (W22 m ρ) (body_obligation9 (En21 m ρ)) (owed_eq9 (En21 m ρ)) (q_eq9 (En21 m ρ)) (fun _ => rfl)
    (A_eq9 (En21 m ρ)) (hin9 (En21 m ρ)) (hout9 (En21 m ρ)) (W22_arr m ρ) (W22_of_ne m ρ)
def reg10 : Pipeline.RegionSeg (pcfgs (F := F)) adm (pdats m ρ) () defs₀ 𝒱₀ L lv 10 :=
  mkReg (pdats m ρ) 10 launch10 (W23 m ρ) (W24 m ρ) (body_obligation10 (En23 m ρ)) (owed_eq10 (En23 m ρ)) (q_eq10 (En23 m ρ)) (fun _ => rfl)
    (A_eq10 (En23 m ρ)) (hin10 (En23 m ρ)) (hout10 (En23 m ρ)) (W24_arr m ρ) (W24_of_ne m ρ)
end

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .region (reg1 m ρ),
    .region (reg2 m ρ),
    .host (hseg hostOps3 hostOps3_sub hostOps3_fresh (W12 m ρ)),
    .region (reg3 m ρ),
    .region (reg4 m ρ),
    .region (reg5 m ρ),
    .host (hseg hostOps6 hostOps6_sub hostOps6_fresh (W16 m ρ)),
    .region (reg6 m ρ),
    .region (reg7 m ρ),
    .region (reg8 m ρ),
    .host (hseg hostOps9 hostOps9_sub hostOps9_fresh (W20 m ρ)),
    .region (reg9 m ρ),
    .host (hseg hostOps10 hostOps10_sub hostOps10_fresh (W22 m ρ)),
    .region (reg10 m ρ),
    .host (hseg hostOps11 hostOps11_sub hostOps11_fresh (W24 m ρ)),
    .host (hseg hostOps11_1 hostOps11_1_sub hostOps11_1_fresh (W25 m ρ)),
    .host (hseg hostOps11_2 hostOps11_2_sub hostOps11_2_fresh (W26 m ρ)) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W27 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        refine (show (iprop(StableHlo.held (c : Thread nD τ) (Pipeline.ucRefs τ sig) (W27 m ρ c) ∗ R c) : sProp 𝕄) ⊢ iprop(Tₙ m ρ c ∗ ∃ W, owes (c : Thread nD τ) (0 : CellTallies nD τ sig Unit) W) from ?_)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c => h c)

theorem end_arg (μ : (ℓ : Loc nD τ sig) → Buf (Elt F) ℓ)
    (h : ∀ c : Dev nD, ∀ b ∈ Pipeline.ucRefs τ sig, μ (((c : Thread nD τ)).1, b) = W27 m ρ c b) (c : Dev nD) {b : Ref sig .tc} (hb : b ∈ args) :
    μ ((c.tc : Thread nD τ).loc b) = m ((c.tc : Thread nD τ).loc b) :=
  (h c _ (mem_uc b ((by decide : ∀ b ∈ args, ¬ (Proc.devRef .tc b : DevRef τ sig).isScoped) b hb))).trans (W27_arg m ρ c hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide)⟩)
    (run_all m ρ)

end Cert.Kernel.Hand

end
-- ==== Proof.KI.FlushBig.lean ====
import proofs.«429186_j15229954031644_1_alg».proof.Proof.Gen.KernelIdeal
import Idealize.ShloMosaic.Lib.Pipeline.Kit

noncomputable section

namespace Cert.KernelIdeal.GenP

open Cert.KernelIdeal Cert.KernelIdeal.Gen

open Idealize.ShloMosaic Idealize.ShloMosaic.TcCoe
open Idealize.SL Idealize.SL.Sem

-- The block index (s / b1 % b0, 0), carried by a 32-bit word, changes exactly after the points s % b1 = r, the grid's last point among them.
theorem flush_rows {G : Pipeline.Grid} (w : Pipeline.Window sig G) (b0 q b1 r : ℕ) (hout : w.isOut = true)
    (e : ∀ s s' : Fin G.N, w.index s = w.index s' ↔
      (![(BitVec.ofNat 32 (s.val / q % b0)).toNat, (0#32).toNat] : Fin 2 → ℕ) = ![(BitVec.ofNat 32 (s'.val / q % b0)).toNat, (0#32).toNat])
    (hq : q = b1) (hb : ∀ a, a % b0 < 2 ^ 32) (hlast : ∀ t : Fin G.N, t.val + 1 = G.N → t.val % b1 = r)
    (hstep : ∀ t : Fin G.N, t.val + 1 < G.N → ((t.val + 1) / b1 % b0 ≠ t.val / b1 % b0 ↔ t.val % b1 = r))
    (t : Fin G.N) : w.flush t = true ↔ t.val % b1 = r := by
  have e' : ∀ s s' : Fin G.N, w.index s ≠ w.index s' ↔ s.val / b1 % b0 ≠ s'.val / b1 % b0 := fun s s' => by
    refine (not_congr (e s s')).trans (not_congr ?_)
    simp only [hq, BitVec.toNat_ofNat, Nat.mod_eq_of_lt (hb _)]
    exact ⟨fun h => congrFun h 0, fun h => by rw [h]⟩
  unfold Pipeline.Window.flush
  simp only [hout, Bool.true_and, Bool.or_eq_true, decide_eq_true_eq]
  constructor
  · rintro (h | ⟨h, hne⟩)
    · exact hlast t h
    · exact (hstep t h).1 ((e' _ _).1 hne)
  · intro hm
    by_cases h : t.val + 1 = G.N
    · exact .inl h
    · have h' : t.val + 1 < G.N := by have := t.isLt; omega
      exact .inr ⟨h', (e' _ _).2 ((hstep t h').2 hm)⟩

theorem flush1_5 : ∀ t : Fin cfg1.N, (cfg1.win 5).flush t = true ↔ t.val % 98 = 97 :=
  have hN : grid1.N = 38318 := by decide
  flush_rows win1_5 391 (grid1.stride 0) 98 97 rfl (fun _ _ => Iff.rfl) (by decide) (fun a => by omega) (fun t h => by omega) (fun t h => by omega)

theorem flush2_2 : ∀ t : Fin cfg2.N, (cfg2.win 2).flush t = true ↔ t.val % 391 = 390 :=
  have hN : grid2.N = 38318 := by decide
  flush_rows win2_2 98 (grid2.stride 0) 391 390 rfl (fun _ _ => Iff.rfl) (by decide) (fun a => by omega) (fun t h => by omega) (fun t h => by omega)

theorem flush4_5 : ∀ t : Fin cfg4.N, (cfg4.win 5).flush t = true ↔ t.val % 98 = 97 :=
  have hN : grid4.N = 38318 := by decide
  flush_rows win4_5 391 (grid4.stride 0) 98 97 rfl (fun _ _ => Iff.rfl) (by decide) (fun a => by omega) (fun t h => by omega) (fun t h => by omega)

theorem flush5_2 : ∀ t : Fin cfg5.N, (cfg5.win 2).flush t = true ↔ t.val % 391 = 390 :=
  have hN : grid5.N = 38318 := by decide
  flush_rows win5_2 98 (grid5.stride 0) 391 390 rfl (fun _ _ => Iff.rfl) (by decide) (fun a => by omega) (fun t h => by omega) (fun t h => by omega)

theorem flush7_5 : ∀ t : Fin cfg7.N, (cfg7.win 5).flush t = true ↔ t.val % 98 = 97 :=
  have hN : grid7.N = 38318 := by decide
  flush_rows win7_5 391 (grid7.stride 0) 98 97 rfl (fun _ _ => Iff.rfl) (by decide) (fun a => by omega) (fun t h => by omega) (fun t h => by omega)

theorem flush8_2 : ∀ t : Fin cfg8.N, (cfg8.win 2).flush t = true ↔ t.val % 391 = 390 :=
  have hN : grid8.N = 38318 := by decide
  flush_rows win8_2 98 (grid8.stride 0) 391 390 rfl (fun _ _ => Iff.rfl) (by decide) (fun a => by omega) (fun t h => by omega) (fun t h => by omega)

end Cert.KernelIdeal.GenP

end
-- ==== Proof.KI.R0.lean ====
import proofs.«429186_j15229954031644_1_alg».proof.Proof.Gen.KernelIdeal.Launch
import proofs.«429186_j15229954031644_1_alg».proof.Proof.Gen.KernelIdeal.Skeleton
import proofs.«429186_j15229954031644_1_alg».proof.Proof.KI.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S7168x13 .f32) (x1 : Vec F S13x128 .f32) (x2 : Vec F S1x128 .f32) : Vec F S7168x128 .bf16 :=
  k0_pay1 x0 x1 x2

-- Contents that read `X` through a memref give the memref owned at `X`.
theorem leaf0 (c : Dev nD) {sp : Space} {S : Shape} {e : EltTy} (m : Memref sig .tc sp S e) (g : m.view.ty.Contents (Elt F)) (X : S.Idx → Elt F e)
    (h : m.view.read (Elt F) g = X) : (m.view.loc (c : Thread nD τ) ↦[m.view.set]{fullShare} g : sProp 𝕄)
      ⊢ iprop(∃ f, ⌜m.view.read (Elt F) f = X⌝ ∗ (m.view.loc (c : Thread nD τ) ↦[m.view.set]{fullShare} f)) := by
  iintro H; iexists g; isplitr; · ipureintro; exact h
  iexact H

-- The body reads its three inputs whole and overwrites the whole result buffer with the kernel's value on them.
set_option maxHeartbeats 1000000 in
theorem sound_kernel0 (c : Dev nD) (E : Set ℕ) (i : grid0.Coords)
    (arg1 : Memref sig .tc .vmem S7168x13 .f32) (harg1 : arg1.IsWhole) (arg2 : Memref sig .tc .vmem S13x128 .f32) (harg2 : arg2.IsWhole)
    (arg3 : Memref sig .tc .vmem S1x128 .f32) (harg3 : arg3.IsWhole) (arg4 : Memref sig .tc .vmem S7168x128 .bf16) (harg4 : arg4.IsWhole)
    (x0 : Vec F S7168x13 .f32) (x1 : Vec F S13x128 .f32) (x2 : Vec F S1x128 .f32) (d : Vec F S7168x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare d
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__init_h_kernel i arg1 harg1 arg2 harg2 arg3 harg3 arg4 harg4) K := by
  simp only [cc0__init_h_kernel_eq_skeleton]; unfold cc0__init_h_kernel_skel owns out0_3
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iapply (leaf0 c _ _ _ rfl) $$ H0
  isplitl [H1]; · iapply (leaf0 c _ _ _ rfl) $$ H1
  isplitl [H2]; · iapply (leaf0 c _ _ _ rfl) $$ H2
  iapply (leaf0 c _ _ _ ?_) $$ H3
  sl_unfold_run_names; simp only [read_writes_whole arg4.view _ hz2, readAt_whole arg1.view hz2, readAt_whole arg2.view hz2, readAt_whole arg3.view hz2]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after_out0 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  Dat.before_in_eq_fetched _ 0 rfl (fun _ => rfl) (fun _ _ _ => rfl) (fun _ => rfl) t d
theorem before0_1 (c : Dev nD) (t : Fin cfg0.N) (d) : (dat0 V c).before 1 t d = iblk0 V c 1 t :=
  Dat.before_in_eq_fetched _ 1 rfl (fun _ => rfl) (fun _ _ _ => rfl) (fun _ => rfl) t d
theorem before0_2 (c : Dev nD) (t : Fin cfg0.N) (d) : (dat0 V c).before 2 t d = iblk0 V c 2 t :=
  Dat.before_in_eq_fetched _ 2 rfl (fun _ => rfl) (fun _ _ _ => rfl) (fun _ => rfl) t d

theorem hin0 (c : Dev nD) : Pipeline.ΦA spec0 c ⊢ ((dat0 V c).Φ 0 : sProp 𝕄) := .rfl
theorem hout0 (c : Dev nD) : ((dat0 V c).Φ (Fin.last cfg0.N) : sProp 𝕄) ⊢ Pipeline.ΦA spec0 c := .rfl

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ => iprop((dat0 V c).Φ t.castSucc ∗ (dat0 V c).owesAt () t.castSucc
      ∗ owns (c : Thread nD τ) (st0_0 t) fullShare ((dat0 V c).after 0 t)
      ∗ owns (c : Thread nD τ) (st0_1 t) fullShare ((dat0 V c).after 1 t)
      ∗ owns (c : Thread nD τ) (st0_2 t) fullShare ((dat0 V c).after 2 t)
      ∗ owns (c : Thread nD τ) (st0_3 t) fullShare ((dat0 V c).after 3 t))) := by
  unfold bodyAt0
  simp only [before0_0, before0_1, before0_2, after0_0, after0_1, after0_2, after_out0]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) ((dat0 V c).before 3 t d3) _)
  iframe H0 H1 H2 H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«429186_j15229954031644_1_alg».proof.Proof.Gen.KernelIdeal.Launch
import proofs.«429186_j15229954031644_1_alg».proof.Proof.Gen.KernelIdeal.Skeleton
import proofs.«429186_j15229954031644_1_alg».proof.Proof.KI.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section
namespace Cert.KernelIdeal.Hand

open Cert.KernelIdeal Cert.KernelIdeal.Gen
open Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S4096x128 .f32
  | 0, hn => k1_pay2 (grid1.coords ⟨0, hn⟩) (iblk1 V c 0 ⟨0, hn⟩) (iblk1 V c 2 ⟨0, hn⟩) (k1_pay1 (F := F))
  | n + 1, hn => k1_pay2 (grid1.coords ⟨n + 1, hn⟩) (iblk1 V c 0 ⟨n + 1, hn⟩) (iblk1 V c 2 ⟨n + 1, hn⟩)
      (if (n + 1) % 98 = 0 then (k1_pay1 (F := F)) else acc1 c n (Nat.lt_of_succ_lt hn))

theorem acc1_first (c : Dev nD) (t : Fin cfg1.N) (h : t.val % 98 = 0) :
    acc1 V c t.val t.isLt = k1_pay2 (grid1.coords t) (iblk1 V c 0 t) (iblk1 V c 2 t) (k1_pay1 (F := F)) := by
  obtain ⟨_ | n, hn⟩ := t
  · rfl
  · rw [acc1, if_pos h]

theorem acc1_next (c : Dev nD) (t : Fin cfg1.N) (h : ¬t.val % 98 = 0) :
    acc1 V c t.val t.isLt = k1_pay2 (grid1.coords t) (iblk1 V c 0 t) (iblk1 V c 2 t)
      (acc1 V c (t.val - 1) (Nat.lt_of_le_of_lt (Nat.sub_le _ _) t.isLt)) := by
  obtain ⟨_ | n, hn⟩ := t
  · exact absurd (Nat.zero_mod 98) h
  · rw [acc1, if_neg h]; rfl

abbrev sc1 : Memref sig .tc .vmem S4096x128 .f32 := Memref.whole cc1_scratch0

/-- What the body leaves in each window's buffer: an input's block; the output's block, computed from the accumulator. -/
def aft1 (c : Dev nD) (t : Fin cfg1.N) : (w : Fin cfg1.W) → (cfg1.win w).block.Idx → Elt F (cfg1.win w).elt
  | ⟨0, _⟩ => iblk1 V c 0 t
  | ⟨1, _⟩ => iblk1 V c 1 t
  | ⟨2, _⟩ => iblk1 V c 2 t
  | ⟨3, _⟩ => iblk1 V c 3 t
  | ⟨4, _⟩ => iblk1 V c 4 t
  | ⟨5, _⟩ => k1_pay3 (iblk1 V c 1 t) (iblk1 V c 3 t) (iblk1 V c 4 t) (acc1 V c t.val t.isLt)

/-- Before position `n` the accumulator's buffer holds some `a` from which the body at `n` computes `acc1` there. -/
def Phi1 (c : Dev nD) (n : ℕ) : sProp 𝕄 :=
  iprop(((∃ a, ⌜∀ h : n < cfg1.N, acc1 V c n h = k1_pay2 (grid1.coords ⟨n, h⟩) (aft1 V c ⟨n, h⟩ 0) (aft1 V c ⟨n, h⟩ 2)
        (if n % 98 = 0 then k1_pay1 (F := F) else a)⌝ ∗ owns (c : Thread nD τ) sc1 fullShare a)
      ∗ Pipeline.scopedRestBut (Ix := Unit) (Name := ℕ) (U := UR sig nD τ) (Lvl := ℕ) (Val := Elt F) spec1 c [cc1_scratch0])
    ∗ (∃ r, prngReg c r))

def dat1 (c : Dev nD) : Dat τ (Elt F) Unit ℕ (UR sig nD τ) ℕ cfg1 c where
  A w := V c (Pipeline.arrRef spec1 w)
  after w t := aft1 V c t w
  Φ t := Phi1 V c t.val
  q _ := fullShare
  owed _ := 0

theorem A_eq1 (c : Dev nD) (w : Fin cfg1.W) : (dat1 V c).A w = V c (Pipeline.arrRef spec1 w) := rfl

theorem q_eq1 (c : Dev nD) (w : Fin cfg1.W) : (dat1 V c).q w = fullShare := rfl

theorem owed_eq1 (c : Dev nD) (t : Fin (cfg1.N + 1)) : (dat1 V c).owed t = 0 := rfl

theorem after_out1 (c : Dev nD) (t : Fin cfg1.N) :
    (dat1 V c).after 5 t = k1_pay3 (iblk1 V c 1 t) (iblk1 V c 3 t) (iblk1 V c 4 t) (acc1 V c t.val t.isLt) := rfl

private theorem before1 (c : Dev nD) (w : Fin cfg1.W) (hw : w ≠ 5) (t : Fin cfg1.N) (d) : (dat1 V c).before w t d = aft1 V c t w := by
  match w, hw with
  | ⟨5, _⟩, h => exact absurd rfl h
  | ⟨0, _⟩, _ | ⟨1, _⟩, _ | ⟨2, _⟩, _ | ⟨3, _⟩, _ | ⟨4, _⟩, _ =>
    exact (dat1 V c).before_in_eq_fetched _ rfl (fun _ => rfl) (fun _ _ _ => rfl) (fun _ => rfl) t d

private theorem leaves1 (c : Dev nD) (w : Fin cfg1.W) (hw : w ≠ 5) (t : Fin cfg1.N) :
    (dat1 V c).leavesExact w t = owns (c : Thread nD τ) ((cfg1.win w).stage (cfg1.slots t w)) fullShare (aft1 V c t w) := by
  match w, hw with
  | ⟨5, _⟩, h => exact absurd rfl h
  | ⟨0, _⟩, _ | ⟨1, _⟩, _ | ⟨2, _⟩, _ | ⟨3, _⟩, _ | ⟨4, _⟩, _ => rfl

private abbrev cond1_1 (i : grid1.Coords) : Prop := (Scalar.cmpi .ne (Scalar.extui (Scalar.cmpi .eq (BitVec.ofNat 32 (i 1).val) 0#32)) 0#32) = 1#1
private abbrev cond1_2 (i : grid1.Coords) : Prop := k1_cond2 i = 1#1

private theorem coord1_1 (t : Fin cfg1.N) : (grid1.coords t 1).val = t.val % 98 := by
  show t.val / grid1.stride 1 % grid1.bound 1 = t.val % 98
  rw [show grid1.stride 1 = 1 from by decide, show grid1.bound 1 = 98 from rfl, Nat.div_one]

/-- Both conditions compare the inner coordinate with a constant. -/
private theorem cond1_1_iff (i : grid1.Coords) : cond1_1 i ↔ (i 1).val = 0 :=
  (by decide +kernel : ∀ j : Fin 98, (Scalar.cmpi .ne (Scalar.extui (Scalar.cmpi .eq (BitVec.ofNat 32 j.val) 0#32)) 0#32) = 1#1 ↔ j.val = 0) (i 1)
private theorem cond1_2_iff (i : grid1.Coords) : cond1_2 i ↔ (i 1).val = 97 :=
  (by decide +kernel : ∀ j : Fin 98, (Scalar.cmpi .ne (Scalar.extui (Scalar.cmpi .eq (BitVec.ofNat 32 j.val) 97#32)) 0#32) = 1#1 ↔ j.val = 97) (i 1)

private theorem hcond1_1 (t : Fin cfg1.N) : cond1_1 (grid1.coords t) ↔ t.val % 98 = 0 :=
  (cond1_1_iff (grid1.coords t)).trans (by rw [coord1_1])
private theorem hcond1_2 (t : Fin cfg1.N) : cond1_2 (grid1.coords t) ↔ t.val % 98 = 97 :=
  (cond1_2_iff (grid1.coords t)).trans (by rw [coord1_1])

/-- The body stores the output only where the inner coordinate is 97; elsewhere it leaves that buffer as found. -/
private theorem leaves1_out (c : Dev nD) (t : Fin cfg1.N) (d) :
    owns (c : Thread nD τ) (st1_5 t) fullShare (if t.val % 98 = 97 then aft1 V c t 5 else (dat1 V c).before 5 t d)
      ⊢ (dat1 V c).leavesExact 5 t := by
  by_cases h : t.val % 98 = 97
  · rw [if_pos h]; unfold Dat.leavesExact
    rw [show cfg1.idle 5 (grid1.coords t) = false from by
      show (!(k1_cond2 (grid1.coords t) == 1#1)) = false
      rw [Bool.not_eq_false', beq_iff_eq]; exact (hcond1_2 t).mpr h]
    iintro H; iexact H
  · rw [if_neg h, Dat.leavesExact_idle (dat1 V c) 5 t (by
      show (!(k1_cond2 (grid1.coords t) == 1#1)) = true
      rw [Bool.not_eq_true', beq_eq_false_iff_ne]; exact mt (hcond1_2 t).mp h)
      (Bool.eq_false_iff.mpr fun hf => h ((flush1_5 t).mp hf))]
    iintro H; iexists d; iexact H

private theorem PhiA1_eq (c : Dev nD) :
    (Pipeline.ΦA spec1 c : sProp 𝕄)
      = iprop(iprop((∃ d, owns (c : Thread nD τ) sc1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [sc1, owns_whole]; try rfl

section
variable (c : Dev nD) (E : Set ℕ) (i : grid1.Coords)
  (arg2 : Memref sig .tc .vmem S4096x1 .i32) (harg2 : arg2.IsWhole) (arg3 : Memref sig .tc .vmem S4096x1 .f32) (harg3 : arg3.IsWhole)
  (arg4 : Memref sig .tc .vmem S1024x128 .bf16) (harg4 : arg4.IsWhole) (arg5 : Memref sig .tc .vmem S1x128 .f32) (harg5 : arg5.IsWhole)
  (arg6 : Memref sig .tc .vmem S1x128 .f32) (harg6 : arg6.IsWhole) (arg7 : Memref sig .tc .vmem S4096x128 .bf16) (harg7 : arg7.IsWhole)
  (arg8 : Memref sig .tc .vmem S4096x128 .f32) (harg8 : arg8.IsWhole)
  (x0 : Vec F S4096x1 .i32) (x1 : Vec F S4096x1 .f32) (x2 : Vec F S1024x128 .bf16) (x3 x4 : Vec F S1x128 .f32)

/-- The body's seven buffers: the inputs at `x0 … x4`, the output's at `y`, the accumulator's at `b`. -/
private def own1 (y : Vec F S4096x128 .bf16) (b : Vec F S4096x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare y
    ∗ owns (c : Thread nD τ) arg8 fullShare b)

variable {c E i arg2 harg2 arg3 harg3 arg4 harg4 arg5 harg5 arg6 harg6 arg7 harg7 arg8 harg8 x0 x1 x2 x3 x4}

set_option maxHeartbeats 1000000 in
/-- One run of the body: the accumulator restarts from zero where `pz` (inner coordinate 0), the output is stored where `pl` (inner coordinate 97). -/
theorem sound_kernel1 {pz pl : Prop} [Decidable pz] [Decidable pl] (hz : cond1_1 i ↔ pz) (hl : cond1_2 i ↔ pl)
    {x5 : Vec F S4096x128 .bf16} {a A : Vec F S4096x128 .f32} (hA : A = k1_pay2 i x0 x2 (if pz then k1_pay1 (F := F) else a))
    {K : PUnit → sProp 𝕄} :
    iprop(own1 c arg2 arg3 arg4 arg5 arg6 arg7 arg8 x0 x1 x2 x3 x4 x5 a
        ∗ (own1 c arg2 arg3 arg4 arg5 arg6 arg7 arg8 x0 x1 x2 x3 x4 (if pl then k1_pay3 x1 x3 x4 A else x5) A -∗ K ⟨⟩))
      ⊢ wp frame (wpE (defs₀ (F := F)) Variants.none c none) E (cc1__gather_kernel i arg2 harg2 arg3 harg3 arg4 harg4 arg5 harg5 arg6 harg6 arg7 harg7 arg8 harg8) K := by
  subst hA
  by_cases hpz : pz <;> by_cases hpl : pl <;> simp only [hpz, hpl, ↓reduceIte]
  · have := (cond1_1_iff i).mp (hz.mpr hpz); have := (cond1_2_iff i).mp (hl.mpr hpl); omega
  all_goals
    simp only [cc1__gather_kernel_eq_skeleton]; unfold cc1__gather_kernel_skel own1 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩⟩, Hk⟩
    subst hf0 hf1 hf2 hf3 hf4 hf5 hf8
    have e := congrArg₂ (k1_pay2 i) (readAt_whole arg2.view hz2 inb_S4096x1_S4096x1_0_0 f0) (readAt_whole arg4.view hz2 inb_S1024x128_S1024x128_0_0 f2)
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      first
      | have : pl := hpl
        exact (read_writes_whole arg7.view _ hz2 _ _ _).trans
          (congr (congr (congrArg₂ k1_pay3 (readAt_whole arg3.view hz2 _ f1) (readAt_whole arg5.view hz2 _ f3)) (readAt_whole arg6.view hz2 _ f4))
            ((View.readCov_unit_zero (S := S4096x128) arg8.view hz2 inb_S4096x128_S4096x128_0_0 _).trans (congr e (readAt_whole arg8.view hz2 _ f8))))
      | rfl
    iexists _; isplitr
    swap; · iexact H8
    ipureintro
    refine (read_writes_whole arg8.view _ hz2 _ _ _).trans (congr e ?_)
    first
    | have : pz := hpz
      exact View.readCov_unit_zero (S := S4096x128) (Val := Elt F) arg8.view hz2 inb_S4096x128_S4096x128_0_0 _
    | exact readAt_whole arg8.view hz2 _ f8

end

/-- The body at any point: the invariant hands it the accumulator's buffer and takes it back at the point's contents. -/
private theorem sound_body1 (c : Dev nD) (t : Fin cfg1.N) :
    iprop((dat1 V c).Φ t.castSucc ∗ (dat1 V c).owesAt () t.castSucc
        ∗ bigSep Finset.univ fun w : Fin cfg1.W => iprop(∃ d, owns (c : Thread nD τ) ((cfg1.win w).stage (cfg1.slots t w)) fullShare ((dat1 V c).before w t d)))
      ⊢ wp frame (wpE (defs₀ (F := F)) Variants.none c none) Set.univ (bodyAt1 t) fun _ =>
        iprop((dat1 V c).Φ t.succ ∗ (dat1 V c).owesAt () t.succ ∗ bigSep Finset.univ fun w : Fin cfg1.W => (dat1 V c).leavesExact w t) := by
  rw [bigSep_W1, bigSep_W1]
  simp (disch := decide) only [before1 V c, leaves1 V c]
  rw [show (dat1 V c).Φ t.castSucc = Phi1 V c t.val from rfl, show (dat1 V c).Φ t.succ = Phi1 V c (t.val + 1) from rfl,
    show (dat1 V c).owesAt () t.succ = (dat1 V c).owesAt () t.castSucc from rfl]
  unfold Phi1 bodyAt1
  iintro ⟨⟨⟨⟨%a, %ha, HS⟩, HR⟩, Hg⟩, Ho, ⟨%d0, H0⟩, ⟨%d1, H1⟩, ⟨%d2, H2⟩, ⟨%d3, H3⟩, ⟨%d4, H4⟩, ⟨%d5, H5⟩⟩
  iapply (sound_kernel1 (hcond1_1 t) (hcond1_2 t) (ha t.isLt))
  unfold own1
  iframe H0 H1 H2 H3 H4 H5 HS
  iintro ⟨H0, H1, H2, H3, H4, H5, HS⟩
  iframe HR Hg Ho H0 H1 H2 H3 H4
  isplitl [HS]
  · iexists _; isplitr
    swap; · iexact HS
    ipureintro; exact fun _ => rfl
  iapply (leaves1_out V c t d5); iexact H5

theorem body_obligation1 (c : Dev nD) : BodyObligation (dat1 (F := F) V c) (defs₀ (F := F)) Variants.none () Set.univ :=
  fun t => sound_body1 V c t

theorem hin1 (c : Dev nD) : Pipeline.ΦA spec1 c ⊢ ((dat1 V c).Φ 0 : sProp 𝕄) := by
  rw [PhiA1_eq]; show _ ⊢ Phi1 V c 0; unfold Phi1
  iintro ⟨⟨⟨%a, HS⟩, HR⟩, Hg⟩
  iframe HR Hg
  iexists a; isplitr
  · ipureintro; exact fun _ => rfl
  iexact HS

theorem hout1 (c : Dev nD) : ((dat1 V c).Φ (Fin.last cfg1.N) : sProp 𝕄) ⊢ Pipeline.ΦA spec1 c := by
  rw [PhiA1_eq]; show Phi1 V c _ ⊢ _; unfold Phi1
  iintro ⟨⟨⟨%a, -, HS⟩, HR⟩, Hg⟩
  iframe HR Hg
  iexists a; iexact HS

end Cert.KernelIdeal.Hand

end
-- ==== Proof.KI.R2.lean ====
import proofs.«429186_j15229954031644_1_alg».proof.Proof.Gen.KernelIdeal.Launch
import proofs.«429186_j15229954031644_1_alg».proof.Proof.Gen.KernelIdeal.Skeleton
import proofs.«429186_j15229954031644_1_alg».proof.Proof.KI.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Cert.KernelIdeal.GenP Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S1024x128 .f32 := Memref.whole cc2_scratch0

def acc2 (c : Dev nD) : (n : ℕ) → n < cfg2.N → Vec F S1024x128 .f32
  | 0, hn => k2_pay2 (grid2.coords ⟨0, hn⟩) (iblk2 V c 0 ⟨0, hn⟩) (iblk2 V c 1 ⟨0, hn⟩) (k2_pay1 (F := F))
  | n + 1, hn =>
    if (n + 1) % 391 = 0 then
      k2_pay2 (grid2.coords ⟨n + 1, hn⟩) (iblk2 V c 0 ⟨n + 1, hn⟩) (iblk2 V c 1 ⟨n + 1, hn⟩) (k2_pay1 (F := F))
    else
      k2_pay2 (grid2.coords ⟨n + 1, hn⟩) (iblk2 V c 0 ⟨n + 1, hn⟩) (iblk2 V c 1 ⟨n + 1, hn⟩) (acc2 c n (Nat.lt_of_succ_lt hn))

theorem acc2_first (c : Dev nD) (t : Fin cfg2.N) (h0 : t.val % 391 = 0) :
    acc2 V c t.val t.isLt = k2_pay2 (grid2.coords t) (iblk2 V c 0 t) (iblk2 V c 1 t) (k2_pay1 (F := F)) := by
  obtain ⟨_ | n, hn⟩ := t
  · rfl
  · exact (if_pos h0).trans rfl

theorem acc2_next (c : Dev nD) (t : Fin cfg2.N) (h0 : ¬ t.val % 391 = 0) :
    acc2 V c t.val t.isLt = k2_pay2 (grid2.coords t) (iblk2 V c 0 t) (iblk2 V c 1 t)
      (acc2 V c (t.val - 1) (Nat.lt_of_le_of_lt (Nat.sub_le _ _) t.isLt)) := by
  obtain ⟨_ | n, hn⟩ := t
  · exact absurd (Nat.zero_mod _) h0
  · exact (if_neg h0).trans rfl

/-- What the body leaves in each window's buffer: an input's block; the output's block, computed from the accumulator. -/
def aft2 (c : Dev nD) (t : Fin cfg2.N) : (w : Fin cfg2.W) → (cfg2.win w).block.Idx → Elt F (cfg2.win w).elt
  | ⟨0, _⟩ => iblk2 V c 0 t
  | ⟨1, _⟩ => iblk2 V c 1 t
  | ⟨2, _⟩ => k2_pay3 (acc2 V c t.val t.isLt)

/-- Before position `n` the accumulator's buffer holds some `a` from which the body at `n` computes `acc2` there. -/
def Phi2 (c : Dev nD) (n : ℕ) : sProp 𝕄 :=
  iprop(((∃ a, ⌜∀ h : n < cfg2.N, acc2 V c n h = k2_pay2 (grid2.coords ⟨n, h⟩) (aft2 V c ⟨n, h⟩ 0) (aft2 V c ⟨n, h⟩ 1)
        (if n % 391 = 0 then k2_pay1 (F := F) else a)⌝ ∗ owns (c : Thread nD τ) scM2 fullShare a)
      ∗ Pipeline.scopedRestBut (Ix := Unit) (Name := ℕ) (U := UR sig nD τ) (Lvl := ℕ) (Val := Elt F) spec2 c [cc2_scratch0])
    ∗ (∃ r, prngReg c r))

def dat2 (c : Dev nD) : Dat τ (Elt F) Unit ℕ (UR sig nD τ) ℕ cfg2 c where
  A w := V c (Pipeline.arrRef spec2 w)
  after w t := aft2 V c t w
  Φ t := Phi2 V c t.val
  q _ := fullShare
  owed _ := 0

theorem A_eq2 (c : Dev nD) (w : Fin cfg2.W) : (dat2 V c).A w = V c (Pipeline.arrRef spec2 w) := rfl

theorem q_eq2 (c : Dev nD) (w : Fin cfg2.W) : (dat2 V c).q w = fullShare := rfl

theorem owed_eq2 (c : Dev nD) (t : Fin (cfg2.N + 1)) : (dat2 V c).owed t = 0 := rfl

theorem after_out2 (c : Dev nD) (t : Fin cfg2.N) :
    (dat2 V c).after 2 t = k2_pay3 (acc2 V c t.val t.isLt) := rfl

private theorem before2 (c : Dev nD) (w : Fin cfg2.W) (hw : w ≠ 2) (t : Fin cfg2.N) (d) : (dat2 V c).before w t d = aft2 V c t w := by
  match w, hw with
  | ⟨2, _⟩, h => exact absurd rfl h
  | ⟨0, _⟩, _ | ⟨1, _⟩, _ =>
    exact (dat2 V c).before_in_eq_fetched _ rfl (fun _ => rfl) (fun _ _ _ => rfl) (fun _ => rfl) t d

private theorem leaves2 (c : Dev nD) (w : Fin cfg2.W) (hw : w ≠ 2) (t : Fin cfg2.N) :
    (dat2 V c).leavesExact w t = owns (c : Thread nD τ) ((cfg2.win w).stage (cfg2.slots t w)) fullShare (aft2 V c t w) := by
  match w, hw with
  | ⟨2, _⟩, h => exact absurd rfl h
  | ⟨0, _⟩, _ | ⟨1, _⟩, _ => rfl

theorem coordj2 (t : Fin cfg2.N) : ((grid2.coords t) 1).val = t.val % 391 := by
  have hs : grid2.stride 1 = 1 := by decide
  show t.val / grid2.stride 1 % grid2.bound 1 = t.val % 391
  rw [hs, Nat.div_one]; rfl

abbrev czero2 (i : grid2.Coords) : Prop :=
  (Scalar.cmpi .ne (Scalar.extui (Scalar.cmpi .eq (BitVec.ofNat 32 (i 1).val) 0#32)) 0#32) = 1#1

/-- Both conditions compare the inner coordinate with a constant. -/
theorem czero2_iff : ∀ j : Fin 391,
    ((Scalar.cmpi .ne (Scalar.extui (Scalar.cmpi .eq (BitVec.ofNat 32 j.val) 0#32)) 0#32) = 1#1) ↔ j.val = 0 := by
  decide +kernel

theorem cstore2_iff : ∀ j : Fin 391,
    ((Scalar.cmpi .ne (Scalar.extui (Scalar.cmpi .eq (BitVec.ofNat 32 j.val) 390#32)) 0#32) = 1#1) ↔ j.val = 390 := by
  decide +kernel

theorem hczero2 (t : Fin cfg2.N) : czero2 (grid2.coords t) ↔ t.val % 391 = 0 := by
  rw [← coordj2 t]; exact czero2_iff ((grid2.coords t) 1)

theorem hcstore2 (t : Fin cfg2.N) : k2_cond2 (grid2.coords t) = 1#1 ↔ t.val % 391 = 390 := by
  rw [← coordj2 t]; exact cstore2_iff ((grid2.coords t) 1)

/-- The body stores the output only where the inner coordinate is 390; elsewhere it leaves that buffer as found. -/
private theorem leaves2_out (c : Dev nD) (t : Fin cfg2.N) (d) :
    owns (c : Thread nD τ) (st2_2 t) fullShare (if t.val % 391 = 390 then aft2 V c t 2 else (dat2 V c).before 2 t d)
      ⊢ (dat2 V c).leavesExact 2 t := by
  by_cases h : t.val % 391 = 390
  · rw [if_pos h]; unfold Dat.leavesExact
    rw [show cfg2.idle 2 (grid2.coords t) = false from by
      show (!(k2_cond2 (grid2.coords t) == 1#1)) = false
      rw [(hcstore2 t).mpr h]; rfl]
    iintro H; iexact H
  · rw [if_neg h, Dat.leavesExact_idle (dat2 V c) 2 t (by
      show (!(k2_cond2 (grid2.coords t) == 1#1)) = true
      rw [beq_eq_false_iff_ne.mpr (mt (hcstore2 t).mp h)]; rfl)
      (Bool.eq_false_iff.mpr fun hf => h ((flush2_2 t).mp hf))]
    iintro H; iexists d; iexact H

theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

section
variable (c : Dev nD) (E : Set ℕ) (i : grid2.Coords)
  (arg2 : Memref sig .tc .vmem S4096x1 .i32) (harg2 : arg2.IsWhole) (arg3 : Memref sig .tc .vmem S4096x128 .bf16) (harg3 : arg3.IsWhole)
  (arg4 : Memref sig .tc .vmem S1024x128 .bf16) (harg4 : arg4.IsWhole) (arg5 : Memref sig .tc .vmem S1024x128 .f32) (harg5 : arg5.IsWhole)
  (x0 : Vec F S4096x1 .i32) (x1 : Vec F S4096x128 .bf16)

/-- The body's four buffers: the inputs at `x0`, `x1`, the output's at `y`, the accumulator's at `b`. -/
private def own2 (y : Vec F S1024x128 .bf16) (b : Vec F S1024x128 .f32) : sProp 𝕄 :=
  iprop(owns (c : Thread nD τ) arg2 fullShare x0 ∗ owns (c : Thread nD τ) arg3 fullShare x1 ∗ owns (c : Thread nD τ) arg4 fullShare y
    ∗ owns (c : Thread nD τ) arg5 fullShare b)

variable {c E i arg2 harg2 arg3 harg3 arg4 harg4 arg5 harg5 x0 x1}

set_option maxHeartbeats 1000000 in
/-- One run of the body: the accumulator restarts from zero where `pz` (inner coordinate 0), the output is stored where `pl` (inner coordinate 390). -/
theorem sound_kernel2 {pz pl : Prop} [Decidable pz] [Decidable pl] (hz : czero2 i ↔ pz) (hl : k2_cond2 i = 1#1 ↔ pl)
    {xi : Vec F S1024x128 .bf16} {a A : Vec F S1024x128 .f32} (hA : A = k2_pay2 i x0 x1 (if pz then k2_pay1 (F := F) else a))
    {K : PUnit → sProp 𝕄} :
    iprop(own2 c arg2 arg3 arg4 arg5 x0 x1 xi a ∗ (own2 c arg2 arg3 arg4 arg5 x0 x1 (if pl then k2_pay3 A else xi) A -∗ K ⟨⟩))
      ⊢ wp frame (wpE (defs₀ (F := F)) Variants.none c none) E (cc2__scatter_kernel i arg2 harg2 arg3 harg3 arg4 harg4 arg5 harg5) K := by
  subst hA
  by_cases hpz : pz <;> by_cases hpl : pl <;> simp only [hpz, hpl, ↓reduceIte]
  · have := (czero2_iff (i 1)).mp (hz.mpr hpz); have := (cstore2_iff (i 1)).mp (hl.mpr hpl); omega
  all_goals
    simp only [cc2__scatter_kernel_eq_skeleton]; unfold cc2__scatter_kernel_skel own2 owns
    iintro ⟨⟨⟨%f0, %hf0, H0⟩, ⟨%f1, %hf1, H1⟩, ⟨%f2, %hf2, H2⟩, ⟨%f3, %hf3, H3⟩⟩, Hk⟩
    subst hf0 hf1 hf2 hf3
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
      | have : pl := hpl
        refine (read_writes_whole (S := S1024x128) _ _ hz2 _ _ _).trans ?_
        sl_unfold_run_names
        rw [View.readCov_unit_zero (S := S1024x128) _ hz2, readAt_whole (S := S4096x1) _ hz2, readAt_whole (S := S4096x128) _ hz2,
          readAt_whole (S := S1024x128) _ hz2]
      | rfl
    iexists _; isplitr
    swap; · iexact H3
    ipureintro
    refine (read_writes_whole (S := S1024x128) _ _ hz2 _ _ _).trans ?_
    first
    | have : pz := hpz
      sl_unfold_run_names
      rw [View.readCov_unit_zero (S := S1024x128) _ hz2, readAt_whole (S := S4096x1) _ hz2, readAt_whole (S := S4096x128) _ hz2]
    | rw [readAt_whole (S := S4096x1) _ hz2, readAt_whole (S := S4096x128) _ hz2, readAt_whole (S := S1024x128) _ hz2]

end

/-- The body at any point: the invariant hands it the accumulator's buffer and takes it back at the point's contents. -/
private theorem sound_body2 (c : Dev nD) (t : Fin cfg2.N) :
    iprop((dat2 V c).Φ t.castSucc ∗ (dat2 V c).owesAt () t.castSucc
        ∗ bigSep Finset.univ fun w : Fin cfg2.W => iprop(∃ d, owns (c : Thread nD τ) ((cfg2.win w).stage (cfg2.slots t w)) fullShare ((dat2 V c).before w t d)))
      ⊢ wp frame (wpE (defs₀ (F := F)) Variants.none c none) Set.univ (bodyAt2 t) fun _ =>
        iprop((dat2 V c).Φ t.succ ∗ (dat2 V c).owesAt () t.succ ∗ bigSep Finset.univ fun w : Fin cfg2.W => (dat2 V c).leavesExact w t) := by
  rw [bigSep_W2, bigSep_W2]
  simp (disch := decide) only [before2 V c, leaves2 V c]
  rw [show (dat2 V c).Φ t.castSucc = Phi2 V c t.val from rfl, show (dat2 V c).Φ t.succ = Phi2 V c (t.val + 1) from rfl,
    show (dat2 V c).owesAt () t.succ = (dat2 V c).owesAt () t.castSucc from rfl]
  unfold Phi2 bodyAt2
  iintro ⟨⟨⟨⟨%a, %ha, HS⟩, HR⟩, Hg⟩, Ho, ⟨%d0, H0⟩, ⟨%d1, H1⟩, ⟨%d2, H2⟩⟩
  iapply (sound_kernel2 (hczero2 t) (hcstore2 t) (ha t.isLt))
  unfold own2
  iframe H0 H1 H2 HS
  iintro ⟨H0, H1, H2, HS⟩
  iframe HR Hg Ho H0 H1
  isplitl [HS]
  · iexists _; isplitr
    swap; · iexact HS
    ipureintro; exact fun _ => (apply_ite _ _ _ _).symm
  iapply (leaves2_out V c t d2); iexact H2

theorem body_obligation2 (c : Dev nD) : BodyObligation (dat2 (F := F) V c) (defs₀ (F := F)) Variants.none () Set.univ :=
  fun t => sound_body2 V c t

theorem hin2 (c : Dev nD) : Pipeline.ΦA spec2 c ⊢ ((dat2 V c).Φ 0 : sProp 𝕄) := by
  rw [PhiA2_eq]; show _ ⊢ Phi2 V c 0; unfold Phi2
  iintro ⟨⟨⟨%a, HS⟩, HR⟩, Hg⟩
  iframe HR Hg
  iexists a; isplitr
  · ipureintro; exact fun _ => rfl
  iexact HS

theorem hout2 (c : Dev nD) : ((dat2 V c).Φ (Fin.last cfg2.N) : sProp 𝕄) ⊢ Pipeline.ΦA spec2 c := by
  rw [PhiA2_eq]; show Phi2 V c _ ⊢ _; unfold Phi2
  iintro ⟨⟨⟨%a, -, HS⟩, HR⟩, Hg⟩
  iframe HR Hg
  iexists a; iexact HS

end Cert.KernelIdeal.Hand

end
-- ==== Proof.KI.R3.lean ====
import proofs.«429186_j15229954031644_1_alg».proof.Proof.Gen.KernelIdeal.Launch
import proofs.«429186_j15229954031644_1_alg».proof.Proof.Gen.KernelIdeal.Skeleton
import proofs.«429186_j15229954031644_1_alg».proof.Proof.KI.PointsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S7168x128 := Rect.unit (s := S7168x128) ![0, 0] S7168x128.size inb_S7168x128_S7168x128_0_0
abbrev rE3 : Rect S1x1 := Rect.unit (s := S1x1) ![0, 0] S1x1.size inb_S1x1_S1x1_0_0
abbrev rW3 : Rect S128x128 := Rect.unit (s := S128x128) ![0, 0] S128x128.size inb_S128x128_S128x128_0_0
abbrev rB3 : Rect S1x128 := Rect.unit (s := S1x128) ![0, 0] S1x128.size inb_S1x128_S1x128_0_0

def out3 (xh xa : Vec F S7168x128 .bf16) (xe : Vec F S1x1 .f32) (xw : Vec F S128x128 .f32) (xb : Vec F S1x128 .f32) :
    Vec F S7168x128 .bf16 :=
  View.canon [⟨rA3, k3_pay1 (View.ld xh rA3) (View.ld xa rA3) (View.ld xe rE3) (View.ld xw rW3) (View.ld xb rB3)⟩]

theorem cover3 (p : Vec F S7168x128 .bf16) (y : S7168x128.Idx) :
    ∃ pc ∈ ([⟨rA3, p⟩] : List (View.Piece (Elt F) S7168x128 .bf16)), y ∈ pc.1.set :=
  View.cover_of_tiled [⟨rA3, p⟩] S7168x128.size (by rfl) y

set_option maxHeartbeats 1000000 in
theorem sound_kernel3 {c : Dev nD} {E : Set ℕ} {i : grid3.Coords}
    {argH : Memref sig .tc .vmem S7168x128 .bf16} {hargH : argH.IsWhole} {argA : Memref sig .tc .vmem S7168x128 .bf16} {hargA : argA.IsWhole}
    {argE : Memref sig .tc .vmem S1x1 .f32} {hargE : argE.IsWhole} {argW : Memref sig .tc .vmem S128x128 .f32} {hargW : argW.IsWhole}
    {argB : Memref sig .tc .vmem S1x128 .f32} {hargB : argB.IsWhole} {argO : Memref sig .tc .vmem S7168x128 .bf16} {hargO : argO.IsWhole}
    {xh xa : Vec F S7168x128 .bf16} {xe : Vec F S1x1 .f32} {xw : Vec F S128x128 .f32} {xb : Vec F S1x128 .f32} {K : PUnit → sProp 𝕄} :
    iprop(owns (c : Thread nD τ) argH fullShare xh ∗ owns (c : Thread nD τ) argA fullShare xa ∗ owns (c : Thread nD τ) argE fullShare xe
        ∗ owns (c : Thread nD τ) argW fullShare xw ∗ owns (c : Thread nD τ) argB fullShare xb ∗ (∃ d, owns (c : Thread nD τ) argO fullShare d)
        ∗ (iprop(owns (c : Thread nD τ) argH fullShare xh ∗ owns (c : Thread nD τ) argA fullShare xa ∗ owns (c : Thread nD τ) argE fullShare xe
            ∗ owns (c : Thread nD τ) argW fullShare xw ∗ owns (c : Thread nD τ) argB fullShare xb
            ∗ owns (c : Thread nD τ) argO fullShare (out3 xh xa xe xw xb)) -∗ K ⟨⟩))
      ⊢ wp frame (wpE (defs₀ (F := F)) Variants.none c none) E (cc3__combine_kernel i argH hargH argA hargA argE hargE argW hargW argB hargB argO hargO) K := by
  simp only [cc3__combine_kernel_eq_skeleton]; unfold cc3__combine_kernel_skel
  unfold owns
  iintro ⟨⟨%fh, %eh, Hh⟩, ⟨%fa, %ea, Ha⟩, ⟨%fe, %ee, He⟩, ⟨%fw, %ew, Hw⟩, ⟨%fb, %eb, Hb⟩, ⟨%dO, %fo, -, HO⟩, Hk⟩
  subst eh ea ee ew eb
  sl_exec
  sl_step
  iapply Hk
  isplitl [Hh]
  · iexists fh; isplitr; · ipureintro; rfl
    iexact Hh
  isplitl [Ha]
  · iexists fa; isplitr; · ipureintro; rfl
    iexact Ha
  isplitl [He]
  · iexists fe; isplitr; · ipureintro; rfl
    iexact He
  isplitl [Hw]
  · iexists fw; isplitr; · ipureintro; rfl
    iexact Hw
  isplitl [Hb]
  · iexists fb; isplitr; · ipureintro; rfl
    iexact Hb
  iexists _; isplitr
  swap; · iexact HO
  ipureintro
  exact View.read_writes_eq_canon _ _ _ (cover3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl

theorem after_out3 (c : Dev nD) (t : Fin cfg3.N) : (dat3 V c).after 5 t
    = out3 (iblk3 V c 0 t) (iblk3 V c 1 t) (iblk3 V c 2 t) (iblk3 V c 3 t) (iblk3 V c 4 t) := by dsimp only [dat3]

private theorem before3 (c : Dev nD) (w : Fin cfg3.W) (hw : w ≠ 5) (t : Fin cfg3.N) (d) : (dat3 V c).before w t d = (dat3 V c).after w t := by
  match w, hw with
  | ⟨5, _⟩, h => exact absurd rfl h
  | ⟨0, _⟩, _ | ⟨1, _⟩, _ | ⟨2, _⟩, _ | ⟨3, _⟩, _ | ⟨4, _⟩, _ =>
    exact (dat3 V c).before_in_eq_fetched _ rfl (fun _ => rfl) (fun _ _ _ => rfl) (fun _ => rfl) t d

private theorem leaves3 (c : Dev nD) (w : Fin cfg3.W) (t : Fin cfg3.N) :
    (dat3 V c).leavesExact w t = owns (c : Thread nD τ) ((cfg3.win w).stage (cfg3.slots t w)) fullShare ((dat3 V c).after w t) := by
  match w with
  | ⟨0, _⟩ | ⟨1, _⟩ | ⟨2, _⟩ | ⟨3, _⟩ | ⟨4, _⟩ | ⟨5, _⟩ => rfl

private theorem sound_body3 (c : Dev nD) (t : Fin cfg3.N) :
    iprop((dat3 V c).Φ t.castSucc ∗ (dat3 V c).owesAt () t.castSucc
        ∗ bigSep Finset.univ fun w : Fin cfg3.W => iprop(∃ d, owns (c : Thread nD τ) ((cfg3.win w).stage (cfg3.slots t w)) fullShare ((dat3 V c).before w t d)))
      ⊢ wp frame (wpE (defs₀ (F := F)) Variants.none c none) Set.univ (bodyAt3 t) fun _ =>
        iprop((dat3 V c).Φ t.succ ∗ (dat3 V c).owesAt () t.succ ∗ bigSep Finset.univ fun w : Fin cfg3.W => (dat3 V c).leavesExact w t) := by
  rw [bigSep_W3, bigSep_W3]
  simp (disch := decide) only [before3 V c, leaves3 V c]
  rw [show (dat3 V c).Φ t.succ = (dat3 V c).Φ t.castSucc from rfl,
    show (dat3 V c).owesAt () t.succ = (dat3 V c).owesAt () t.castSucc from rfl,
    show (dat3 V c).after 5 t = out3 ((dat3 V c).after 0 t) ((dat3 V c).after 1 t) ((dat3 V c).after 2 t) ((dat3 V c).after 3 t)
      ((dat3 V c).after 4 t) from by dsimp only [dat3]]
  unfold bodyAt3
  iintro ⟨HΦ, Ho, ⟨%dh, Hh⟩, ⟨%da, Ha⟩, ⟨%de, He⟩, ⟨%dw, Hw⟩, ⟨%db, Hb⟩, ⟨%dO, HO⟩⟩
  iapply sound_kernel3
  iframe Hh Ha He Hw Hb
  isplitl [HO]; · iexists _; iexact HO
  iintro ⟨Hh, Ha, He, Hw, Hb, HO⟩
  iframe HΦ Ho Hh Ha He Hw Hb HO

theorem body_obligation3 (c : Dev nD) : BodyObligation (dat3 (F := F) V c) (defs₀ (F := F)) Variants.none () Set.univ :=
  fun t => sound_body3 V c t

theorem hin3 (c : Dev nD) : Pipeline.ΦA spec3 c ⊢ ((dat3 V c).Φ 0 : sProp 𝕄) := .rfl
theorem hout3 (c : Dev nD) : ((dat3 V c).Φ (Fin.last cfg3.N) : sProp 𝕄) ⊢ Pipeline.ΦA spec3 c := .rfl

end Cert.KernelIdeal.Hand
-- ==== Proof.KI.R4.lean ====
import proofs.«429186_j15229954031644_1_alg».proof.Proof.Gen.KernelIdeal.Launch
import proofs.«429186_j15229954031644_1_alg».proof.Proof.Gen.KernelIdeal.Skeleton
import proofs.«429186_j15229954031644_1_alg».proof.Proof.KI.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section
namespace Cert.KernelIdeal.Hand

open Cert.KernelIdeal Cert.KernelIdeal.Gen
open Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S4096x128 .f32
  | 0, hn => k4_pay2 (grid4.coords ⟨0, hn⟩) (iblk4 V c 0 ⟨0, hn⟩) (iblk4 V c 2 ⟨0, hn⟩) (k4_pay1 (F := F))
  | n + 1, hn => k4_pay2 (grid4.coords ⟨n + 1, hn⟩) (iblk4 V c 0 ⟨n + 1, hn⟩) (iblk4 V c 2 ⟨n + 1, hn⟩)
      (if (n + 1) % 98 = 0 then (k4_pay1 (F := F)) else acc4 c n (Nat.lt_of_succ_lt hn))

theorem acc4_first (c : Dev nD) (t : Fin cfg4.N) (h : t.val % 98 = 0) :
    acc4 V c t.val t.isLt = k4_pay2 (grid4.coords t) (iblk4 V c 0 t) (iblk4 V c 2 t) (k4_pay1 (F := F)) := by
  obtain ⟨_ | n, hn⟩ := t
  · rfl
  · rw [acc4, if_pos h]

theorem acc4_next (c : Dev nD) (t : Fin cfg4.N) (h : ¬t.val % 98 = 0) :
    acc4 V c t.val t.isLt = k4_pay2 (grid4.coords t) (iblk4 V c 0 t) (iblk4 V c 2 t)
      (acc4 V c (t.val - 1) (Nat.lt_of_le_of_lt (Nat.sub_le _ _) t.isLt)) := by
  obtain ⟨_ | n, hn⟩ := t
  · exact absurd (Nat.zero_mod 98) h
  · rw [acc4, if_neg h]; rfl

abbrev sc4 : Memref sig .tc .vmem S4096x128 .f32 := Memref.whole cc4_scratch0

/-- What the body leaves in each window's buffer: an input's block; the output's block, computed from the accumulator. -/
def aft4 (c : Dev nD) (t : Fin cfg4.N) : (w : Fin cfg4.W) → (cfg4.win w).block.Idx → Elt F (cfg4.win w).elt
  | ⟨0, _⟩ => iblk4 V c 0 t
  | ⟨1, _⟩ => iblk4 V c 1 t
  | ⟨2, _⟩ => iblk4 V c 2 t
  | ⟨3, _⟩ => iblk4 V c 3 t
  | ⟨4, _⟩ => iblk4 V c 4 t
  | ⟨5, _⟩ => k4_pay3 (iblk4 V c 1 t) (iblk4 V c 3 t) (iblk4 V c 4 t) (acc4 V c t.val t.isLt)

/-- Before position `n` the accumulator's buffer holds some `a` from which the body at `n` computes `acc4` there. -/
def Phi4 (c : Dev nD) (n : ℕ) : sProp 𝕄 :=
  iprop(((∃ a, ⌜∀ h : n < cfg4.N, acc4 V c n h = k4_pay2 (grid4.coords ⟨n, h⟩) (aft4 V c ⟨n, h⟩ 0) (aft4 V c ⟨n, h⟩ 2)
        (if n % 98 = 0 then k4_pay1 (F := F) else a)⌝ ∗ owns (c : Thread nD τ) sc4 fullShare a)
      ∗ Pipeline.scopedRestBut (Ix := Unit) (Name := ℕ) (U := UR sig nD τ) (Lvl := ℕ) (Val := Elt F) spec4 c [cc4_scratch0])
    ∗ (∃ r, prngReg c r))

def dat4 (c : Dev nD) : Dat τ (Elt F) Unit ℕ (UR sig nD τ) ℕ cfg4 c where
  A w := V c (Pipeline.arrRef spec4 w)
  after w t := aft4 V c t w
  Φ t := Phi4 V c t.val
  q _ := fullShare
  owed _ := 0

theorem A_eq4 (c : Dev nD) (w : Fin cfg4.W) : (dat4 V c).A w = V c (Pipeline.arrRef spec4 w) := rfl

theorem q_eq4 (c : Dev nD) (w : Fin cfg4.W) : (dat4 V c).q w = fullShare := rfl

theorem owed_eq4 (c : Dev nD) (t : Fin (cfg4.N + 1)) : (dat4 V c).owed t = 0 := rfl

theorem after_out4 (c : Dev nD) (t : Fin cfg4.N) :
    (dat4 V c).after 5 t = k4_pay3 (iblk4 V c 1 t) (iblk4 V c 3 t) (iblk4 V c 4 t) (acc4 V c t.val t.isLt) := rfl

private theorem before4 (c : Dev nD) (w : Fin cfg4.W) (hw : w ≠ 5) (t : Fin cfg4.N) (d) : (dat4 V c).before w t d = aft4 V c t w := by
  match w, hw with
  | ⟨5, _⟩, h => exact absurd rfl h
  | ⟨0, _⟩, _ | ⟨1, _⟩, _ | ⟨2, _⟩, _ | ⟨3, _⟩, _ | ⟨4, _⟩, _ =>
    exact (dat4 V c).before_in_eq_fetched _ rfl (fun _ => rfl) (fun _ _ _ => rfl) (fun _ => rfl) t d

private theorem leaves4 (c : Dev nD) (w : Fin cfg4.W) (hw : w ≠ 5) (t : Fin cfg4.N) :
    (dat4 V c).leavesExact w t = owns (c : Thread nD τ) ((cfg4.win w).stage (cfg4.slots t w)) fullShare (aft4 V c t w) := by
  match w, hw with
  | ⟨5, _⟩, h => exact absurd rfl h
  | ⟨0, _⟩, _ | ⟨1, _⟩, _ | ⟨2, _⟩, _ | ⟨3, _⟩, _ | ⟨4, _⟩, _ => rfl

private abbrev cond4_1 (i : grid4.Coords) : Prop := (Scalar.cmpi .ne (Scalar.extui (Scalar.cmpi .eq (BitVec.ofNat 32 (i 1).val) 0#32)) 0#32) = 1#1
private abbrev cond4_2 (i : grid4.Coords) : Prop := k4_cond2 i = 1#1

private theorem coord4_1 (t : Fin cfg4.N) : (grid4.coords t 1).val = t.val % 98 := by
  show t.val / grid4.stride 1 % grid4.bound 1 = t.val % 98
  rw [show grid4.stride 1 = 1 from by decide, show grid4.bound 1 = 98 from rfl, Nat.div_one]

/-- Both conditions compare the inner coordinate with a constant. -/
private theorem cond4_1_iff (i : grid4.Coords) : cond4_1 i ↔ (i 1).val = 0 :=
  (by decide +kernel : ∀ j : Fin 98, (Scalar.cmpi .ne (Scalar.extui (Scalar.cmpi .eq (BitVec.ofNat 32 j.val) 0#32)) 0#32) = 1#1 ↔ j.val = 0) (i 1)
private theorem cond4_2_iff (i : grid4.Coords) : cond4_2 i ↔ (i 1).val = 97 :=
  (by decide +kernel : ∀ j : Fin 98, (Scalar.cmpi .ne (Scalar.extui (Scalar.cmpi .eq (BitVec.ofNat 32 j.val) 97#32)) 0#32) = 1#1 ↔ j.val = 97) (i 1)

private theorem hcond4_1 (t : Fin cfg4.N) : cond4_1 (grid4.coords t) ↔ t.val % 98 = 0 :=
  (cond4_1_iff (grid4.coords t)).trans (by rw [coord4_1])
private theorem hcond4_2 (t : Fin cfg4.N) : cond4_2 (grid4.coords t) ↔ t.val % 98 = 97 :=
  (cond4_2_iff (grid4.coords t)).trans (by rw [coord4_1])

/-- The body stores the output only where the inner coordinate is 97; elsewhere it leaves that buffer as found. -/
private theorem leaves4_out (c : Dev nD) (t : Fin cfg4.N) (d) :
    owns (c : Thread nD τ) (st4_5 t) fullShare (if t.val % 98 = 97 then aft4 V c t 5 else (dat4 V c).before 5 t d)
      ⊢ (dat4 V c).leavesExact 5 t := by
  by_cases h : t.val % 98 = 97
  · rw [if_pos h]; unfold Dat.leavesExact
    rw [show cfg4.idle 5 (grid4.coords t) = false from by
      show (!(k4_cond2 (grid4.coords t) == 1#1)) = false
      rw [Bool.not_eq_false', beq_iff_eq]; exact (hcond4_2 t).mpr h]
    iintro H; iexact H
  · rw [if_neg h, Dat.leavesExact_idle (dat4 V c) 5 t (by
      show (!(k4_cond2 (grid4.coords t) == 1#1)) = true
      rw [Bool.not_eq_true', beq_eq_false_iff_ne]; exact mt (hcond4_2 t).mp h)
      (Bool.eq_false_iff.mpr fun hf => h ((flush4_5 t).mp hf))]
    iintro H; iexists d; iexact H

private theorem PhiA4_eq (c : Dev nD) :
    (Pipeline.ΦA spec4 c : sProp 𝕄)
      = iprop(iprop((∃ d, owns (c : Thread nD τ) sc4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [sc4, owns_whole]; try rfl

section
variable (c : Dev nD) (E : Set ℕ) (i : grid4.Coords)
  (arg2 : Memref sig .tc .vmem S4096x1 .i32) (harg2 : arg2.IsWhole) (arg3 : Memref sig .tc .vmem S4096x1 .f32) (harg3 : arg3.IsWhole)
  (arg4 : Memref sig .tc .vmem S1024x128 .bf16) (harg4 : arg4.IsWhole) (arg5 : Memref sig .tc .vmem S1x128 .f32) (harg5 : arg5.IsWhole)
  (arg6 : Memref sig .tc .vmem S1x128 .f32) (harg6 : arg6.IsWhole) (arg7 : Memref sig .tc .vmem S4096x128 .bf16) (harg7 : arg7.IsWhole)
  (arg8 : Memref sig .tc .vmem S4096x128 .f32) (harg8 : arg8.IsWhole)
  (x0 : Vec F S4096x1 .i32) (x1 : Vec F S4096x1 .f32) (x2 : Vec F S1024x128 .bf16) (x3 x4 : Vec F S1x128 .f32)

/-- The body's seven buffers: the inputs at `x0 … x4`, the output's at `y`, the accumulator's at `b`. -/
private def own4 (y : Vec F S4096x128 .bf16) (b : Vec F S4096x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare y
    ∗ owns (c : Thread nD τ) arg8 fullShare b)

variable {c E i arg2 harg2 arg3 harg3 arg4 harg4 arg5 harg5 arg6 harg6 arg7 harg7 arg8 harg8 x0 x1 x2 x3 x4}

set_option maxHeartbeats 1000000 in
/-- One run of the body: the accumulator restarts from zero where `pz` (inner coordinate 0), the output is stored where `pl` (inner coordinate 97). -/
theorem sound_kernel4 {pz pl : Prop} [Decidable pz] [Decidable pl] (hz : cond4_1 i ↔ pz) (hl : cond4_2 i ↔ pl)
    {x5 : Vec F S4096x128 .bf16} {a A : Vec F S4096x128 .f32} (hA : A = k4_pay2 i x0 x2 (if pz then k4_pay1 (F := F) else a))
    {K : PUnit → sProp 𝕄} :
    iprop(own4 c arg2 arg3 arg4 arg5 arg6 arg7 arg8 x0 x1 x2 x3 x4 x5 a
        ∗ (own4 c arg2 arg3 arg4 arg5 arg6 arg7 arg8 x0 x1 x2 x3 x4 (if pl then k4_pay3 x1 x3 x4 A else x5) A -∗ K ⟨⟩))
      ⊢ wp frame (wpE (defs₀ (F := F)) Variants.none c none) E (cc4__gather_kernel i arg2 harg2 arg3 harg3 arg4 harg4 arg5 harg5 arg6 harg6 arg7 harg7 arg8 harg8) K := by
  subst hA
  by_cases hpz : pz <;> by_cases hpl : pl <;> simp only [hpz, hpl, ↓reduceIte]
  · have := (cond4_1_iff i).mp (hz.mpr hpz); have := (cond4_2_iff i).mp (hl.mpr hpl); omega
  all_goals
    simp only [cc4__gather_kernel_eq_skeleton]; unfold cc4__gather_kernel_skel own4 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩⟩, Hk⟩
    subst hf0 hf1 hf2 hf3 hf4 hf5 hf8
    have e := congrArg₂ (k4_pay2 i) (readAt_whole arg2.view hz2 inb_S4096x1_S4096x1_0_0 f0) (readAt_whole arg4.view hz2 inb_S1024x128_S1024x128_0_0 f2)
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      first
      | have : pl := hpl
        exact (read_writes_whole arg7.view _ hz2 _ _ _).trans
          (congr (congr (congrArg₂ k4_pay3 (readAt_whole arg3.view hz2 _ f1) (readAt_whole arg5.view hz2 _ f3)) (readAt_whole arg6.view hz2 _ f4))
            ((View.readCov_unit_zero (S := S4096x128) arg8.view hz2 inb_S4096x128_S4096x128_0_0 _).trans (congr e (readAt_whole arg8.view hz2 _ f8))))
      | rfl
    iexists _; isplitr
    swap; · iexact H8
    ipureintro
    refine (read_writes_whole arg8.view _ hz2 _ _ _).trans (congr e ?_)
    first
    | have : pz := hpz
      exact View.readCov_unit_zero (S := S4096x128) (Val := Elt F) arg8.view hz2 inb_S4096x128_S4096x128_0_0 _
    | exact readAt_whole arg8.view hz2 _ f8

end

/-- The body at any point: the invariant hands it the accumulator's buffer and takes it back at the point's contents. -/
private theorem sound_body4 (c : Dev nD) (t : Fin cfg4.N) :
    iprop((dat4 V c).Φ t.castSucc ∗ (dat4 V c).owesAt () t.castSucc
        ∗ bigSep Finset.univ fun w : Fin cfg4.W => iprop(∃ d, owns (c : Thread nD τ) ((cfg4.win w).stage (cfg4.slots t w)) fullShare ((dat4 V c).before w t d)))
      ⊢ wp frame (wpE (defs₀ (F := F)) Variants.none c none) Set.univ (bodyAt4 t) fun _ =>
        iprop((dat4 V c).Φ t.succ ∗ (dat4 V c).owesAt () t.succ ∗ bigSep Finset.univ fun w : Fin cfg4.W => (dat4 V c).leavesExact w t) := by
  rw [bigSep_W4, bigSep_W4]
  simp (disch := decide) only [before4 V c, leaves4 V c]
  rw [show (dat4 V c).Φ t.castSucc = Phi4 V c t.val from rfl, show (dat4 V c).Φ t.succ = Phi4 V c (t.val + 1) from rfl,
    show (dat4 V c).owesAt () t.succ = (dat4 V c).owesAt () t.castSucc from rfl]
  unfold Phi4 bodyAt4
  iintro ⟨⟨⟨⟨%a, %ha, HS⟩, HR⟩, Hg⟩, Ho, ⟨%d0, H0⟩, ⟨%d1, H1⟩, ⟨%d2, H2⟩, ⟨%d3, H3⟩, ⟨%d4, H4⟩, ⟨%d5, H5⟩⟩
  iapply (sound_kernel4 (hcond4_1 t) (hcond4_2 t) (ha t.isLt))
  unfold own4
  iframe H0 H1 H2 H3 H4 H5 HS
  iintro ⟨H0, H1, H2, H3, H4, H5, HS⟩
  iframe HR Hg Ho H0 H1 H2 H3 H4
  isplitl [HS]
  · iexists _; isplitr
    swap; · iexact HS
    ipureintro; exact fun _ => rfl
  iapply (leaves4_out V c t d5); iexact H5

theorem body_obligation4 (c : Dev nD) : BodyObligation (dat4 (F := F) V c) (defs₀ (F := F)) Variants.none () Set.univ :=
  fun t => sound_body4 V c t

theorem hin4 (c : Dev nD) : Pipeline.ΦA spec4 c ⊢ ((dat4 V c).Φ 0 : sProp 𝕄) := by
  rw [PhiA4_eq]; show _ ⊢ Phi4 V c 0; unfold Phi4
  iintro ⟨⟨⟨%a, HS⟩, HR⟩, Hg⟩
  iframe HR Hg
  iexists a; isplitr
  · ipureintro; exact fun _ => rfl
  iexact HS

theorem hout4 (c : Dev nD) : ((dat4 V c).Φ (Fin.last cfg4.N) : sProp 𝕄) ⊢ Pipeline.ΦA spec4 c := by
  rw [PhiA4_eq]; show Phi4 V c _ ⊢ _; unfold Phi4
  iintro ⟨⟨⟨%a, -, HS⟩, HR⟩, Hg⟩
  iframe HR Hg
  iexists a; iexact HS

end Cert.KernelIdeal.Hand

end
-- ==== Proof.KI.R5.lean ====
import proofs.«429186_j15229954031644_1_alg».proof.Proof.Gen.KernelIdeal.Launch
import proofs.«429186_j15229954031644_1_alg».proof.Proof.Gen.KernelIdeal.Skeleton
import proofs.«429186_j15229954031644_1_alg».proof.Proof.KI.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Cert.KernelIdeal.GenP Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S1024x128 .f32 := Memref.whole cc5_scratch0

def acc5 (c : Dev nD) : (n : ℕ) → n < cfg5.N → Vec F S1024x128 .f32
  | 0, hn => k5_pay2 (grid5.coords ⟨0, hn⟩) (iblk5 V c 0 ⟨0, hn⟩) (iblk5 V c 1 ⟨0, hn⟩) (k5_pay1 (F := F))
  | n + 1, hn =>
    if (n + 1) % 391 = 0 then
      k5_pay2 (grid5.coords ⟨n + 1, hn⟩) (iblk5 V c 0 ⟨n + 1, hn⟩) (iblk5 V c 1 ⟨n + 1, hn⟩) (k5_pay1 (F := F))
    else
      k5_pay2 (grid5.coords ⟨n + 1, hn⟩) (iblk5 V c 0 ⟨n + 1, hn⟩) (iblk5 V c 1 ⟨n + 1, hn⟩) (acc5 c n (Nat.lt_of_succ_lt hn))

theorem acc5_first (c : Dev nD) (t : Fin cfg5.N) (h0 : t.val % 391 = 0) :
    acc5 V c t.val t.isLt = k5_pay2 (grid5.coords t) (iblk5 V c 0 t) (iblk5 V c 1 t) (k5_pay1 (F := F)) := by
  obtain ⟨_ | n, hn⟩ := t
  · rfl
  · exact (if_pos h0).trans rfl

theorem acc5_next (c : Dev nD) (t : Fin cfg5.N) (h0 : ¬ t.val % 391 = 0) :
    acc5 V c t.val t.isLt = k5_pay2 (grid5.coords t) (iblk5 V c 0 t) (iblk5 V c 1 t)
      (acc5 V c (t.val - 1) (Nat.lt_of_le_of_lt (Nat.sub_le _ _) t.isLt)) := by
  obtain ⟨_ | n, hn⟩ := t
  · exact absurd (Nat.zero_mod _) h0
  · exact (if_neg h0).trans rfl

/-- What the body leaves in each window's buffer: an input's block; the output's block, computed from the accumulator. -/
def aft5 (c : Dev nD) (t : Fin cfg5.N) : (w : Fin cfg5.W) → (cfg5.win w).block.Idx → Elt F (cfg5.win w).elt
  | ⟨0, _⟩ => iblk5 V c 0 t
  | ⟨1, _⟩ => iblk5 V c 1 t
  | ⟨2, _⟩ => k5_pay3 (acc5 V c t.val t.isLt)

/-- Before position `n` the accumulator's buffer holds some `a` from which the body at `n` computes `acc5` there. -/
def Phi5 (c : Dev nD) (n : ℕ) : sProp 𝕄 :=
  iprop(((∃ a, ⌜∀ h : n < cfg5.N, acc5 V c n h = k5_pay2 (grid5.coords ⟨n, h⟩) (aft5 V c ⟨n, h⟩ 0) (aft5 V c ⟨n, h⟩ 1)
        (if n % 391 = 0 then k5_pay1 (F := F) else a)⌝ ∗ owns (c : Thread nD τ) scM5 fullShare a)
      ∗ Pipeline.scopedRestBut (Ix := Unit) (Name := ℕ) (U := UR sig nD τ) (Lvl := ℕ) (Val := Elt F) spec5 c [cc5_scratch0])
    ∗ (∃ r, prngReg c r))

def dat5 (c : Dev nD) : Dat τ (Elt F) Unit ℕ (UR sig nD τ) ℕ cfg5 c where
  A w := V c (Pipeline.arrRef spec5 w)
  after w t := aft5 V c t w
  Φ t := Phi5 V c t.val
  q _ := fullShare
  owed _ := 0

theorem A_eq5 (c : Dev nD) (w : Fin cfg5.W) : (dat5 V c).A w = V c (Pipeline.arrRef spec5 w) := rfl

theorem q_eq5 (c : Dev nD) (w : Fin cfg5.W) : (dat5 V c).q w = fullShare := rfl

theorem owed_eq5 (c : Dev nD) (t : Fin (cfg5.N + 1)) : (dat5 V c).owed t = 0 := rfl

theorem after_out5 (c : Dev nD) (t : Fin cfg5.N) :
    (dat5 V c).after 2 t = k5_pay3 (acc5 V c t.val t.isLt) := rfl

private theorem before5 (c : Dev nD) (w : Fin cfg5.W) (hw : w ≠ 2) (t : Fin cfg5.N) (d) : (dat5 V c).before w t d = aft5 V c t w := by
  match w, hw with
  | ⟨2, _⟩, h => exact absurd rfl h
  | ⟨0, _⟩, _ | ⟨1, _⟩, _ =>
    exact (dat5 V c).before_in_eq_fetched _ rfl (fun _ => rfl) (fun _ _ _ => rfl) (fun _ => rfl) t d

private theorem leaves5 (c : Dev nD) (w : Fin cfg5.W) (hw : w ≠ 2) (t : Fin cfg5.N) :
    (dat5 V c).leavesExact w t = owns (c : Thread nD τ) ((cfg5.win w).stage (cfg5.slots t w)) fullShare (aft5 V c t w) := by
  match w, hw with
  | ⟨2, _⟩, h => exact absurd rfl h
  | ⟨0, _⟩, _ | ⟨1, _⟩, _ => rfl

theorem coordj5 (t : Fin cfg5.N) : ((grid5.coords t) 1).val = t.val % 391 := by
  have hs : grid5.stride 1 = 1 := by decide
  show t.val / grid5.stride 1 % grid5.bound 1 = t.val % 391
  rw [hs, Nat.div_one]; rfl

abbrev czero5 (i : grid5.Coords) : Prop :=
  (Scalar.cmpi .ne (Scalar.extui (Scalar.cmpi .eq (BitVec.ofNat 32 (i 1).val) 0#32)) 0#32) = 1#1

/-- Both conditions compare the inner coordinate with a constant. -/
theorem czero5_iff : ∀ j : Fin 391,
    ((Scalar.cmpi .ne (Scalar.extui (Scalar.cmpi .eq (BitVec.ofNat 32 j.val) 0#32)) 0#32) = 1#1) ↔ j.val = 0 := by
  decide +kernel

theorem cstore5_iff : ∀ j : Fin 391,
    ((Scalar.cmpi .ne (Scalar.extui (Scalar.cmpi .eq (BitVec.ofNat 32 j.val) 390#32)) 0#32) = 1#1) ↔ j.val = 390 := by
  decide +kernel

theorem hczero5 (t : Fin cfg5.N) : czero5 (grid5.coords t) ↔ t.val % 391 = 0 := by
  rw [← coordj5 t]; exact czero5_iff ((grid5.coords t) 1)

theorem hcstore5 (t : Fin cfg5.N) : k5_cond2 (grid5.coords t) = 1#1 ↔ t.val % 391 = 390 := by
  rw [← coordj5 t]; exact cstore5_iff ((grid5.coords t) 1)

/-- The body stores the output only where the inner coordinate is 390; elsewhere it leaves that buffer as found. -/
private theorem leaves5_out (c : Dev nD) (t : Fin cfg5.N) (d) :
    owns (c : Thread nD τ) (st5_2 t) fullShare (if t.val % 391 = 390 then aft5 V c t 2 else (dat5 V c).before 2 t d)
      ⊢ (dat5 V c).leavesExact 2 t := by
  by_cases h : t.val % 391 = 390
  · rw [if_pos h]; unfold Dat.leavesExact
    rw [show cfg5.idle 2 (grid5.coords t) = false from by
      show (!(k5_cond2 (grid5.coords t) == 1#1)) = false
      rw [(hcstore5 t).mpr h]; rfl]
    iintro H; iexact H
  · rw [if_neg h, Dat.leavesExact_idle (dat5 V c) 2 t (by
      show (!(k5_cond2 (grid5.coords t) == 1#1)) = true
      rw [beq_eq_false_iff_ne.mpr (mt (hcstore5 t).mp h)]; rfl)
      (Bool.eq_false_iff.mpr fun hf => h ((flush5_2 t).mp hf))]
    iintro H; iexists d; iexact H

theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

section
variable (c : Dev nD) (E : Set ℕ) (i : grid5.Coords)
  (arg2 : Memref sig .tc .vmem S4096x1 .i32) (harg2 : arg2.IsWhole) (arg3 : Memref sig .tc .vmem S4096x128 .bf16) (harg3 : arg3.IsWhole)
  (arg4 : Memref sig .tc .vmem S1024x128 .bf16) (harg4 : arg4.IsWhole) (arg5 : Memref sig .tc .vmem S1024x128 .f32) (harg5 : arg5.IsWhole)
  (x0 : Vec F S4096x1 .i32) (x1 : Vec F S4096x128 .bf16)

/-- The body's four buffers: the inputs at `x0`, `x1`, the output's at `y`, the accumulator's at `b`. -/
private def own5 (y : Vec F S1024x128 .bf16) (b : Vec F S1024x128 .f32) : sProp 𝕄 :=
  iprop(owns (c : Thread nD τ) arg2 fullShare x0 ∗ owns (c : Thread nD τ) arg3 fullShare x1 ∗ owns (c : Thread nD τ) arg4 fullShare y
    ∗ owns (c : Thread nD τ) arg5 fullShare b)

variable {c E i arg2 harg2 arg3 harg3 arg4 harg4 arg5 harg5 x0 x1}

set_option maxHeartbeats 1000000 in
/-- One run of the body: the accumulator restarts from zero where `pz` (inner coordinate 0), the output is stored where `pl` (inner coordinate 390). -/
theorem sound_kernel5 {pz pl : Prop} [Decidable pz] [Decidable pl] (hz : czero5 i ↔ pz) (hl : k5_cond2 i = 1#1 ↔ pl)
    {xi : Vec F S1024x128 .bf16} {a A : Vec F S1024x128 .f32} (hA : A = k5_pay2 i x0 x1 (if pz then k5_pay1 (F := F) else a))
    {K : PUnit → sProp 𝕄} :
    iprop(own5 c arg2 arg3 arg4 arg5 x0 x1 xi a ∗ (own5 c arg2 arg3 arg4 arg5 x0 x1 (if pl then k5_pay3 A else xi) A -∗ K ⟨⟩))
      ⊢ wp frame (wpE (defs₀ (F := F)) Variants.none c none) E (cc5__scatter_kernel i arg2 harg2 arg3 harg3 arg4 harg4 arg5 harg5) K := by
  subst hA
  by_cases hpz : pz <;> by_cases hpl : pl <;> simp only [hpz, hpl, ↓reduceIte]
  · have := (czero5_iff (i 1)).mp (hz.mpr hpz); have := (cstore5_iff (i 1)).mp (hl.mpr hpl); omega
  all_goals
    simp only [cc5__scatter_kernel_eq_skeleton]; unfold cc5__scatter_kernel_skel own5 owns
    iintro ⟨⟨⟨%f0, %hf0, H0⟩, ⟨%f1, %hf1, H1⟩, ⟨%f2, %hf2, H2⟩, ⟨%f3, %hf3, H3⟩⟩, Hk⟩
    subst hf0 hf1 hf2 hf3
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
      | have : pl := hpl
        refine (read_writes_whole (S := S1024x128) _ _ hz2 _ _ _).trans ?_
        sl_unfold_run_names
        rw [View.readCov_unit_zero (S := S1024x128) _ hz2, readAt_whole (S := S4096x1) _ hz2, readAt_whole (S := S4096x128) _ hz2,
          readAt_whole (S := S1024x128) _ hz2]
      | rfl
    iexists _; isplitr
    swap; · iexact H3
    ipureintro
    refine (read_writes_whole (S := S1024x128) _ _ hz2 _ _ _).trans ?_
    first
    | have : pz := hpz
      sl_unfold_run_names
      rw [View.readCov_unit_zero (S := S1024x128) _ hz2, readAt_whole (S := S4096x1) _ hz2, readAt_whole (S := S4096x128) _ hz2]
    | rw [readAt_whole (S := S4096x1) _ hz2, readAt_whole (S := S4096x128) _ hz2, readAt_whole (S := S1024x128) _ hz2]

end

/-- The body at any point: the invariant hands it the accumulator's buffer and takes it back at the point's contents. -/
private theorem sound_body5 (c : Dev nD) (t : Fin cfg5.N) :
    iprop((dat5 V c).Φ t.castSucc ∗ (dat5 V c).owesAt () t.castSucc
        ∗ bigSep Finset.univ fun w : Fin cfg5.W => iprop(∃ d, owns (c : Thread nD τ) ((cfg5.win w).stage (cfg5.slots t w)) fullShare ((dat5 V c).before w t d)))
      ⊢ wp frame (wpE (defs₀ (F := F)) Variants.none c none) Set.univ (bodyAt5 t) fun _ =>
        iprop((dat5 V c).Φ t.succ ∗ (dat5 V c).owesAt () t.succ ∗ bigSep Finset.univ fun w : Fin cfg5.W => (dat5 V c).leavesExact w t) := by
  rw [bigSep_W5, bigSep_W5]
  simp (disch := decide) only [before5 V c, leaves5 V c]
  rw [show (dat5 V c).Φ t.castSucc = Phi5 V c t.val from rfl, show (dat5 V c).Φ t.succ = Phi5 V c (t.val + 1) from rfl,
    show (dat5 V c).owesAt () t.succ = (dat5 V c).owesAt () t.castSucc from rfl]
  unfold Phi5 bodyAt5
  iintro ⟨⟨⟨⟨%a, %ha, HS⟩, HR⟩, Hg⟩, Ho, ⟨%d0, H0⟩, ⟨%d1, H1⟩, ⟨%d2, H2⟩⟩
  iapply (sound_kernel5 (hczero5 t) (hcstore5 t) (ha t.isLt))
  unfold own5
  iframe H0 H1 H2 HS
  iintro ⟨H0, H1, H2, HS⟩
  iframe HR Hg Ho H0 H1
  isplitl [HS]
  · iexists _; isplitr
    swap; · iexact HS
    ipureintro; exact fun _ => (apply_ite _ _ _ _).symm
  iapply (leaves5_out V c t d2); iexact H2

theorem body_obligation5 (c : Dev nD) : BodyObligation (dat5 (F := F) V c) (defs₀ (F := F)) Variants.none () Set.univ :=
  fun t => sound_body5 V c t

theorem hin5 (c : Dev nD) : Pipeline.ΦA spec5 c ⊢ ((dat5 V c).Φ 0 : sProp 𝕄) := by
  rw [PhiA5_eq]; show _ ⊢ Phi5 V c 0; unfold Phi5
  iintro ⟨⟨⟨%a, HS⟩, HR⟩, Hg⟩
  iframe HR Hg
  iexists a; isplitr
  · ipureintro; exact fun _ => rfl
  iexact HS

theorem hout5 (c : Dev nD) : ((dat5 V c).Φ (Fin.last cfg5.N) : sProp 𝕄) ⊢ Pipeline.ΦA spec5 c := by
  rw [PhiA5_eq]; show Phi5 V c _ ⊢ _; unfold Phi5
  iintro ⟨⟨⟨%a, -, HS⟩, HR⟩, Hg⟩
  iframe HR Hg
  iexists a; iexact HS

end Cert.KernelIdeal.Hand

end
-- ==== Proof.KI.R6.lean ====
import proofs.«429186_j15229954031644_1_alg».proof.Proof.Gen.KernelIdeal.Launch
import proofs.«429186_j15229954031644_1_alg».proof.Proof.Gen.KernelIdeal.Skeleton
import proofs.«429186_j15229954031644_1_alg».proof.Proof.KI.PointsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rA6 : Rect S7168x128 := Rect.unit (s := S7168x128) ![0, 0] S7168x128.size inb_S7168x128_S7168x128_0_0
abbrev rE6 : Rect S1x1 := Rect.unit (s := S1x1) ![0, 0] S1x1.size inb_S1x1_S1x1_0_0
abbrev rW6 : Rect S128x128 := Rect.unit (s := S128x128) ![0, 0] S128x128.size inb_S128x128_S128x128_0_0
abbrev rB6 : Rect S1x128 := Rect.unit (s := S1x128) ![0, 0] S1x128.size inb_S1x128_S1x128_0_0

def out6 (xh xa : Vec F S7168x128 .bf16) (xe : Vec F S1x1 .f32) (xw : Vec F S128x128 .f32) (xb : Vec F S1x128 .f32) :
    Vec F S7168x128 .bf16 :=
  View.canon [⟨rA6, k6_pay1 (View.ld xh rA6) (View.ld xa rA6) (View.ld xe rE6) (View.ld xw rW6) (View.ld xb rB6)⟩]

theorem cover6 (p : Vec F S7168x128 .bf16) (y : S7168x128.Idx) :
    ∃ pc ∈ ([⟨rA6, p⟩] : List (View.Piece (Elt F) S7168x128 .bf16)), y ∈ pc.1.set :=
  View.cover_of_tiled [⟨rA6, p⟩] S7168x128.size (by rfl) y

set_option maxHeartbeats 1000000 in
theorem sound_kernel6 {c : Dev nD} {E : Set ℕ} {i : grid6.Coords}
    {argH : Memref sig .tc .vmem S7168x128 .bf16} {hargH : argH.IsWhole} {argA : Memref sig .tc .vmem S7168x128 .bf16} {hargA : argA.IsWhole}
    {argE : Memref sig .tc .vmem S1x1 .f32} {hargE : argE.IsWhole} {argW : Memref sig .tc .vmem S128x128 .f32} {hargW : argW.IsWhole}
    {argB : Memref sig .tc .vmem S1x128 .f32} {hargB : argB.IsWhole} {argO : Memref sig .tc .vmem S7168x128 .bf16} {hargO : argO.IsWhole}
    {xh xa : Vec F S7168x128 .bf16} {xe : Vec F S1x1 .f32} {xw : Vec F S128x128 .f32} {xb : Vec F S1x128 .f32} {K : PUnit → sProp 𝕄} :
    iprop(owns (c : Thread nD τ) argH fullShare xh ∗ owns (c : Thread nD τ) argA fullShare xa ∗ owns (c : Thread nD τ) argE fullShare xe
        ∗ owns (c : Thread nD τ) argW fullShare xw ∗ owns (c : Thread nD τ) argB fullShare xb ∗ (∃ d, owns (c : Thread nD τ) argO fullShare d)
        ∗ (iprop(owns (c : Thread nD τ) argH fullShare xh ∗ owns (c : Thread nD τ) argA fullShare xa ∗ owns (c : Thread nD τ) argE fullShare xe
            ∗ owns (c : Thread nD τ) argW fullShare xw ∗ owns (c : Thread nD τ) argB fullShare xb
            ∗ owns (c : Thread nD τ) argO fullShare (out6 xh xa xe xw xb)) -∗ K ⟨⟩))
      ⊢ wp frame (wpE (defs₀ (F := F)) Variants.none c none) E (cc6__combine_kernel i argH hargH argA hargA argE hargE argW hargW argB hargB argO hargO) K := by
  simp only [cc6__combine_kernel_eq_skeleton]; unfold cc6__combine_kernel_skel
  unfold owns
  iintro ⟨⟨%fh, %eh, Hh⟩, ⟨%fa, %ea, Ha⟩, ⟨%fe, %ee, He⟩, ⟨%fw, %ew, Hw⟩, ⟨%fb, %eb, Hb⟩, ⟨%dO, %fo, -, HO⟩, Hk⟩
  subst eh ea ee ew eb
  sl_exec
  sl_step
  iapply Hk
  isplitl [Hh]
  · iexists fh; isplitr; · ipureintro; rfl
    iexact Hh
  isplitl [Ha]
  · iexists fa; isplitr; · ipureintro; rfl
    iexact Ha
  isplitl [He]
  · iexists fe; isplitr; · ipureintro; rfl
    iexact He
  isplitl [Hw]
  · iexists fw; isplitr; · ipureintro; rfl
    iexact Hw
  isplitl [Hb]
  · iexists fb; isplitr; · ipureintro; rfl
    iexact Hb
  iexists _; isplitr
  swap; · iexact HO
  ipureintro
  exact View.read_writes_eq_canon _ _ _ (cover6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := rfl
theorem q_eq6 (c : Dev nD) (w : Fin cfg6.W) : (dat6 V c).q w = fullShare := rfl
theorem owed_eq6 (c : Dev nD) (t : Fin (cfg6.N + 1)) : (dat6 V c).owed t = 0 := rfl

theorem after_out6 (c : Dev nD) (t : Fin cfg6.N) : (dat6 V c).after 5 t
    = out6 (iblk6 V c 0 t) (iblk6 V c 1 t) (iblk6 V c 2 t) (iblk6 V c 3 t) (iblk6 V c 4 t) := by dsimp only [dat6]

private theorem before6 (c : Dev nD) (w : Fin cfg6.W) (hw : w ≠ 5) (t : Fin cfg6.N) (d) : (dat6 V c).before w t d = (dat6 V c).after w t := by
  match w, hw with
  | ⟨5, _⟩, h => exact absurd rfl h
  | ⟨0, _⟩, _ | ⟨1, _⟩, _ | ⟨2, _⟩, _ | ⟨3, _⟩, _ | ⟨4, _⟩, _ =>
    exact (dat6 V c).before_in_eq_fetched _ rfl (fun _ => rfl) (fun _ _ _ => rfl) (fun _ => rfl) t d

private theorem leaves6 (c : Dev nD) (w : Fin cfg6.W) (t : Fin cfg6.N) :
    (dat6 V c).leavesExact w t = owns (c : Thread nD τ) ((cfg6.win w).stage (cfg6.slots t w)) fullShare ((dat6 V c).after w t) := by
  match w with
  | ⟨0, _⟩ | ⟨1, _⟩ | ⟨2, _⟩ | ⟨3, _⟩ | ⟨4, _⟩ | ⟨5, _⟩ => rfl

private theorem sound_body6 (c : Dev nD) (t : Fin cfg6.N) :
    iprop((dat6 V c).Φ t.castSucc ∗ (dat6 V c).owesAt () t.castSucc
        ∗ bigSep Finset.univ fun w : Fin cfg6.W => iprop(∃ d, owns (c : Thread nD τ) ((cfg6.win w).stage (cfg6.slots t w)) fullShare ((dat6 V c).before w t d)))
      ⊢ wp frame (wpE (defs₀ (F := F)) Variants.none c none) Set.univ (bodyAt6 t) fun _ =>
        iprop((dat6 V c).Φ t.succ ∗ (dat6 V c).owesAt () t.succ ∗ bigSep Finset.univ fun w : Fin cfg6.W => (dat6 V c).leavesExact w t) := by
  rw [bigSep_W6, bigSep_W6]
  simp (disch := decide) only [before6 V c, leaves6 V c]
  rw [show (dat6 V c).Φ t.succ = (dat6 V c).Φ t.castSucc from rfl,
    show (dat6 V c).owesAt () t.succ = (dat6 V c).owesAt () t.castSucc from rfl,
    show (dat6 V c).after 5 t = out6 ((dat6 V c).after 0 t) ((dat6 V c).after 1 t) ((dat6 V c).after 2 t) ((dat6 V c).after 3 t)
      ((dat6 V c).after 4 t) from by dsimp only [dat6]]
  unfold bodyAt6
  iintro ⟨HΦ, Ho, ⟨%dh, Hh⟩, ⟨%da, Ha⟩, ⟨%de, He⟩, ⟨%dw, Hw⟩, ⟨%db, Hb⟩, ⟨%dO, HO⟩⟩
  iapply sound_kernel6
  iframe Hh Ha He Hw Hb
  isplitl [HO]; · iexists _; iexact HO
  iintro ⟨Hh, Ha, He, Hw, Hb, HO⟩
  iframe HΦ Ho Hh Ha He Hw Hb HO

theorem body_obligation6 (c : Dev nD) : BodyObligation (dat6 (F := F) V c) (defs₀ (F := F)) Variants.none () Set.univ :=
  fun t => sound_body6 V c t

theorem hin6 (c : Dev nD) : Pipeline.ΦA spec6 c ⊢ ((dat6 V c).Φ 0 : sProp 𝕄) := .rfl
theorem hout6 (c : Dev nD) : ((dat6 V c).Φ (Fin.last cfg6.N) : sProp 𝕄) ⊢ Pipeline.ΦA spec6 c := .rfl

end Cert.KernelIdeal.Hand
-- ==== Proof.KI.R7.lean ====
import proofs.«429186_j15229954031644_1_alg».proof.Proof.Gen.KernelIdeal.Launch
import proofs.«429186_j15229954031644_1_alg».proof.Proof.Gen.KernelIdeal.Skeleton
import proofs.«429186_j15229954031644_1_alg».proof.Proof.KI.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section
namespace Cert.KernelIdeal.Hand

open Cert.KernelIdeal Cert.KernelIdeal.Gen
open Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : (n : ℕ) → n < cfg7.N → Vec F S4096x128 .f32
  | 0, hn => k7_pay2 (grid7.coords ⟨0, hn⟩) (iblk7 V c 0 ⟨0, hn⟩) (iblk7 V c 2 ⟨0, hn⟩) (k7_pay1 (F := F))
  | n + 1, hn => k7_pay2 (grid7.coords ⟨n + 1, hn⟩) (iblk7 V c 0 ⟨n + 1, hn⟩) (iblk7 V c 2 ⟨n + 1, hn⟩)
      (if (n + 1) % 98 = 0 then (k7_pay1 (F := F)) else acc7 c n (Nat.lt_of_succ_lt hn))

theorem acc7_first (c : Dev nD) (t : Fin cfg7.N) (h : t.val % 98 = 0) :
    acc7 V c t.val t.isLt = k7_pay2 (grid7.coords t) (iblk7 V c 0 t) (iblk7 V c 2 t) (k7_pay1 (F := F)) := by
  obtain ⟨_ | n, hn⟩ := t
  · rfl
  · rw [acc7, if_pos h]

theorem acc7_next (c : Dev nD) (t : Fin cfg7.N) (h : ¬t.val % 98 = 0) :
    acc7 V c t.val t.isLt = k7_pay2 (grid7.coords t) (iblk7 V c 0 t) (iblk7 V c 2 t)
      (acc7 V c (t.val - 1) (Nat.lt_of_le_of_lt (Nat.sub_le _ _) t.isLt)) := by
  obtain ⟨_ | n, hn⟩ := t
  · exact absurd (Nat.zero_mod 98) h
  · rw [acc7, if_neg h]; rfl

abbrev sc7 : Memref sig .tc .vmem S4096x128 .f32 := Memref.whole cc7_scratch0

/-- What the body leaves in each window's buffer: an input's block; the output's block, computed from the accumulator. -/
def aft7 (c : Dev nD) (t : Fin cfg7.N) : (w : Fin cfg7.W) → (cfg7.win w).block.Idx → Elt F (cfg7.win w).elt
  | ⟨0, _⟩ => iblk7 V c 0 t
  | ⟨1, _⟩ => iblk7 V c 1 t
  | ⟨2, _⟩ => iblk7 V c 2 t
  | ⟨3, _⟩ => iblk7 V c 3 t
  | ⟨4, _⟩ => iblk7 V c 4 t
  | ⟨5, _⟩ => k7_pay3 (iblk7 V c 1 t) (iblk7 V c 3 t) (iblk7 V c 4 t) (acc7 V c t.val t.isLt)

/-- Before position `n` the accumulator's buffer holds some `a` from which the body at `n` computes `acc7` there. -/
def Phi7 (c : Dev nD) (n : ℕ) : sProp 𝕄 :=
  iprop(((∃ a, ⌜∀ h : n < cfg7.N, acc7 V c n h = k7_pay2 (grid7.coords ⟨n, h⟩) (aft7 V c ⟨n, h⟩ 0) (aft7 V c ⟨n, h⟩ 2)
        (if n % 98 = 0 then k7_pay1 (F := F) else a)⌝ ∗ owns (c : Thread nD τ) sc7 fullShare a)
      ∗ Pipeline.scopedRestBut (Ix := Unit) (Name := ℕ) (U := UR sig nD τ) (Lvl := ℕ) (Val := Elt F) spec7 c [cc7_scratch0])
    ∗ (∃ r, prngReg c r))

def dat7 (c : Dev nD) : Dat τ (Elt F) Unit ℕ (UR sig nD τ) ℕ cfg7 c where
  A w := V c (Pipeline.arrRef spec7 w)
  after w t := aft7 V c t w
  Φ t := Phi7 V c t.val
  q _ := fullShare
  owed _ := 0

theorem A_eq7 (c : Dev nD) (w : Fin cfg7.W) : (dat7 V c).A w = V c (Pipeline.arrRef spec7 w) := rfl

theorem q_eq7 (c : Dev nD) (w : Fin cfg7.W) : (dat7 V c).q w = fullShare := rfl

theorem owed_eq7 (c : Dev nD) (t : Fin (cfg7.N + 1)) : (dat7 V c).owed t = 0 := rfl

theorem after_out7 (c : Dev nD) (t : Fin cfg7.N) :
    (dat7 V c).after 5 t = k7_pay3 (iblk7 V c 1 t) (iblk7 V c 3 t) (iblk7 V c 4 t) (acc7 V c t.val t.isLt) := rfl

private theorem before7 (c : Dev nD) (w : Fin cfg7.W) (hw : w ≠ 5) (t : Fin cfg7.N) (d) : (dat7 V c).before w t d = aft7 V c t w := by
  match w, hw with
  | ⟨5, _⟩, h => exact absurd rfl h
  | ⟨0, _⟩, _ | ⟨1, _⟩, _ | ⟨2, _⟩, _ | ⟨3, _⟩, _ | ⟨4, _⟩, _ =>
    exact (dat7 V c).before_in_eq_fetched _ rfl (fun _ => rfl) (fun _ _ _ => rfl) (fun _ => rfl) t d

private theorem leaves7 (c : Dev nD) (w : Fin cfg7.W) (hw : w ≠ 5) (t : Fin cfg7.N) :
    (dat7 V c).leavesExact w t = owns (c : Thread nD τ) ((cfg7.win w).stage (cfg7.slots t w)) fullShare (aft7 V c t w) := by
  match w, hw with
  | ⟨5, _⟩, h => exact absurd rfl h
  | ⟨0, _⟩, _ | ⟨1, _⟩, _ | ⟨2, _⟩, _ | ⟨3, _⟩, _ | ⟨4, _⟩, _ => rfl

private abbrev cond7_1 (i : grid7.Coords) : Prop := (Scalar.cmpi .ne (Scalar.extui (Scalar.cmpi .eq (BitVec.ofNat 32 (i 1).val) 0#32)) 0#32) = 1#1
private abbrev cond7_2 (i : grid7.Coords) : Prop := k7_cond2 i = 1#1

private theorem coord7_1 (t : Fin cfg7.N) : (grid7.coords t 1).val = t.val % 98 := by
  show t.val / grid7.stride 1 % grid7.bound 1 = t.val % 98
  rw [show grid7.stride 1 = 1 from by decide, show grid7.bound 1 = 98 from rfl, Nat.div_one]

/-- Both conditions compare the inner coordinate with a constant. -/
private theorem cond7_1_iff (i : grid7.Coords) : cond7_1 i ↔ (i 1).val = 0 :=
  (by decide +kernel : ∀ j : Fin 98, (Scalar.cmpi .ne (Scalar.extui (Scalar.cmpi .eq (BitVec.ofNat 32 j.val) 0#32)) 0#32) = 1#1 ↔ j.val = 0) (i 1)
private theorem cond7_2_iff (i : grid7.Coords) : cond7_2 i ↔ (i 1).val = 97 :=
  (by decide +kernel : ∀ j : Fin 98, (Scalar.cmpi .ne (Scalar.extui (Scalar.cmpi .eq (BitVec.ofNat 32 j.val) 97#32)) 0#32) = 1#1 ↔ j.val = 97) (i 1)

private theorem hcond7_1 (t : Fin cfg7.N) : cond7_1 (grid7.coords t) ↔ t.val % 98 = 0 :=
  (cond7_1_iff (grid7.coords t)).trans (by rw [coord7_1])
private theorem hcond7_2 (t : Fin cfg7.N) : cond7_2 (grid7.coords t) ↔ t.val % 98 = 97 :=
  (cond7_2_iff (grid7.coords t)).trans (by rw [coord7_1])

/-- The body stores the output only where the inner coordinate is 97; elsewhere it leaves that buffer as found. -/
private theorem leaves7_out (c : Dev nD) (t : Fin cfg7.N) (d) :
    owns (c : Thread nD τ) (st7_5 t) fullShare (if t.val % 98 = 97 then aft7 V c t 5 else (dat7 V c).before 5 t d)
      ⊢ (dat7 V c).leavesExact 5 t := by
  by_cases h : t.val % 98 = 97
  · rw [if_pos h]; unfold Dat.leavesExact
    rw [show cfg7.idle 5 (grid7.coords t) = false from by
      show (!(k7_cond2 (grid7.coords t) == 1#1)) = false
      rw [Bool.not_eq_false', beq_iff_eq]; exact (hcond7_2 t).mpr h]
    iintro H; iexact H
  · rw [if_neg h, Dat.leavesExact_idle (dat7 V c) 5 t (by
      show (!(k7_cond2 (grid7.coords t) == 1#1)) = true
      rw [Bool.not_eq_true', beq_eq_false_iff_ne]; exact mt (hcond7_2 t).mp h)
      (Bool.eq_false_iff.mpr fun hf => h ((flush7_5 t).mp hf))]
    iintro H; iexists d; iexact H

private theorem PhiA7_eq (c : Dev nD) :
    (Pipeline.ΦA spec7 c : sProp 𝕄)
      = iprop(iprop((∃ d, owns (c : Thread nD τ) sc7 fullShare d) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [sc7, owns_whole]; try rfl

section
variable (c : Dev nD) (E : Set ℕ) (i : grid7.Coords)
  (arg2 : Memref sig .tc .vmem S4096x1 .i32) (harg2 : arg2.IsWhole) (arg3 : Memref sig .tc .vmem S4096x1 .f32) (harg3 : arg3.IsWhole)
  (arg4 : Memref sig .tc .vmem S1024x128 .bf16) (harg4 : arg4.IsWhole) (arg5 : Memref sig .tc .vmem S1x128 .f32) (harg5 : arg5.IsWhole)
  (arg6 : Memref sig .tc .vmem S1x128 .f32) (harg6 : arg6.IsWhole) (arg7 : Memref sig .tc .vmem S4096x128 .bf16) (harg7 : arg7.IsWhole)
  (arg8 : Memref sig .tc .vmem S4096x128 .f32) (harg8 : arg8.IsWhole)
  (x0 : Vec F S4096x1 .i32) (x1 : Vec F S4096x1 .f32) (x2 : Vec F S1024x128 .bf16) (x3 x4 : Vec F S1x128 .f32)

/-- The body's seven buffers: the inputs at `x0 … x4`, the output's at `y`, the accumulator's at `b`. -/
private def own7 (y : Vec F S4096x128 .bf16) (b : Vec F S4096x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare y
    ∗ owns (c : Thread nD τ) arg8 fullShare b)

variable {c E i arg2 harg2 arg3 harg3 arg4 harg4 arg5 harg5 arg6 harg6 arg7 harg7 arg8 harg8 x0 x1 x2 x3 x4}

set_option maxHeartbeats 1000000 in
/-- One run of the body: the accumulator restarts from zero where `pz` (inner coordinate 0), the output is stored where `pl` (inner coordinate 97). -/
theorem sound_kernel7 {pz pl : Prop} [Decidable pz] [Decidable pl] (hz : cond7_1 i ↔ pz) (hl : cond7_2 i ↔ pl)
    {x5 : Vec F S4096x128 .bf16} {a A : Vec F S4096x128 .f32} (hA : A = k7_pay2 i x0 x2 (if pz then k7_pay1 (F := F) else a))
    {K : PUnit → sProp 𝕄} :
    iprop(own7 c arg2 arg3 arg4 arg5 arg6 arg7 arg8 x0 x1 x2 x3 x4 x5 a
        ∗ (own7 c arg2 arg3 arg4 arg5 arg6 arg7 arg8 x0 x1 x2 x3 x4 (if pl then k7_pay3 x1 x3 x4 A else x5) A -∗ K ⟨⟩))
      ⊢ wp frame (wpE (defs₀ (F := F)) Variants.none c none) E (cc7__gather_kernel i arg2 harg2 arg3 harg3 arg4 harg4 arg5 harg5 arg6 harg6 arg7 harg7 arg8 harg8) K := by
  subst hA
  by_cases hpz : pz <;> by_cases hpl : pl <;> simp only [hpz, hpl, ↓reduceIte]
  · have := (cond7_1_iff i).mp (hz.mpr hpz); have := (cond7_2_iff i).mp (hl.mpr hpl); omega
  all_goals
    simp only [cc7__gather_kernel_eq_skeleton]; unfold cc7__gather_kernel_skel own7 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩⟩, Hk⟩
    subst hf0 hf1 hf2 hf3 hf4 hf5 hf8
    have e := congrArg₂ (k7_pay2 i) (readAt_whole arg2.view hz2 inb_S4096x1_S4096x1_0_0 f0) (readAt_whole arg4.view hz2 inb_S1024x128_S1024x128_0_0 f2)
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      first
      | have : pl := hpl
        exact (read_writes_whole arg7.view _ hz2 _ _ _).trans
          (congr (congr (congrArg₂ k7_pay3 (readAt_whole arg3.view hz2 _ f1) (readAt_whole arg5.view hz2 _ f3)) (readAt_whole arg6.view hz2 _ f4))
            ((View.readCov_unit_zero (S := S4096x128) arg8.view hz2 inb_S4096x128_S4096x128_0_0 _).trans (congr e (readAt_whole arg8.view hz2 _ f8))))
      | rfl
    iexists _; isplitr
    swap; · iexact H8
    ipureintro
    refine (read_writes_whole arg8.view _ hz2 _ _ _).trans (congr e ?_)
    first
    | have : pz := hpz
      exact View.readCov_unit_zero (S := S4096x128) (Val := Elt F) arg8.view hz2 inb_S4096x128_S4096x128_0_0 _
    | exact readAt_whole arg8.view hz2 _ f8

end

/-- The body at any point: the invariant hands it the accumulator's buffer and takes it back at the point's contents. -/
private theorem sound_body7 (c : Dev nD) (t : Fin cfg7.N) :
    iprop((dat7 V c).Φ t.castSucc ∗ (dat7 V c).owesAt () t.castSucc
        ∗ bigSep Finset.univ fun w : Fin cfg7.W => iprop(∃ d, owns (c : Thread nD τ) ((cfg7.win w).stage (cfg7.slots t w)) fullShare ((dat7 V c).before w t d)))
      ⊢ wp frame (wpE (defs₀ (F := F)) Variants.none c none) Set.univ (bodyAt7 t) fun _ =>
        iprop((dat7 V c).Φ t.succ ∗ (dat7 V c).owesAt () t.succ ∗ bigSep Finset.univ fun w : Fin cfg7.W => (dat7 V c).leavesExact w t) := by
  rw [bigSep_W7, bigSep_W7]
  simp (disch := decide) only [before7 V c, leaves7 V c]
  rw [show (dat7 V c).Φ t.castSucc = Phi7 V c t.val from rfl, show (dat7 V c).Φ t.succ = Phi7 V c (t.val + 1) from rfl,
    show (dat7 V c).owesAt () t.succ = (dat7 V c).owesAt () t.castSucc from rfl]
  unfold Phi7 bodyAt7
  iintro ⟨⟨⟨⟨%a, %ha, HS⟩, HR⟩, Hg⟩, Ho, ⟨%d0, H0⟩, ⟨%d1, H1⟩, ⟨%d2, H2⟩, ⟨%d3, H3⟩, ⟨%d4, H4⟩, ⟨%d5, H5⟩⟩
  iapply (sound_kernel7 (hcond7_1 t) (hcond7_2 t) (ha t.isLt))
  unfold own7
  iframe H0 H1 H2 H3 H4 H5 HS
  iintro ⟨H0, H1, H2, H3, H4, H5, HS⟩
  iframe HR Hg Ho H0 H1 H2 H3 H4
  isplitl [HS]
  · iexists _; isplitr
    swap; · iexact HS
    ipureintro; exact fun _ => rfl
  iapply (leaves7_out V c t d5); iexact H5

theorem body_obligation7 (c : Dev nD) : BodyObligation (dat7 (F := F) V c) (defs₀ (F := F)) Variants.none () Set.univ :=
  fun t => sound_body7 V c t

theorem hin7 (c : Dev nD) : Pipeline.ΦA spec7 c ⊢ ((dat7 V c).Φ 0 : sProp 𝕄) := by
  rw [PhiA7_eq]; show _ ⊢ Phi7 V c 0; unfold Phi7
  iintro ⟨⟨⟨%a, HS⟩, HR⟩, Hg⟩
  iframe HR Hg
  iexists a; isplitr
  · ipureintro; exact fun _ => rfl
  iexact HS

theorem hout7 (c : Dev nD) : ((dat7 V c).Φ (Fin.last cfg7.N) : sProp 𝕄) ⊢ Pipeline.ΦA spec7 c := by
  rw [PhiA7_eq]; show Phi7 V c _ ⊢ _; unfold Phi7
  iintro ⟨⟨⟨%a, -, HS⟩, HR⟩, Hg⟩
  iframe HR Hg
  iexists a; iexact HS

end Cert.KernelIdeal.Hand

end
-- ==== Proof.KI.R8.lean ====
import proofs.«429186_j15229954031644_1_alg».proof.Proof.Gen.KernelIdeal.Launch
import proofs.«429186_j15229954031644_1_alg».proof.Proof.Gen.KernelIdeal.Skeleton
import proofs.«429186_j15229954031644_1_alg».proof.Proof.KI.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Cert.KernelIdeal.GenP Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev scM8 : Memref sig .tc .vmem S1024x128 .f32 := Memref.whole cc8_scratch0

def acc8 (c : Dev nD) : (n : ℕ) → n < cfg8.N → Vec F S1024x128 .f32
  | 0, hn => k8_pay2 (grid8.coords ⟨0, hn⟩) (iblk8 V c 0 ⟨0, hn⟩) (iblk8 V c 1 ⟨0, hn⟩) (k8_pay1 (F := F))
  | n + 1, hn =>
    if (n + 1) % 391 = 0 then
      k8_pay2 (grid8.coords ⟨n + 1, hn⟩) (iblk8 V c 0 ⟨n + 1, hn⟩) (iblk8 V c 1 ⟨n + 1, hn⟩) (k8_pay1 (F := F))
    else
      k8_pay2 (grid8.coords ⟨n + 1, hn⟩) (iblk8 V c 0 ⟨n + 1, hn⟩) (iblk8 V c 1 ⟨n + 1, hn⟩) (acc8 c n (Nat.lt_of_succ_lt hn))

theorem acc8_first (c : Dev nD) (t : Fin cfg8.N) (h0 : t.val % 391 = 0) :
    acc8 V c t.val t.isLt = k8_pay2 (grid8.coords t) (iblk8 V c 0 t) (iblk8 V c 1 t) (k8_pay1 (F := F)) := by
  obtain ⟨_ | n, hn⟩ := t
  · rfl
  · exact (if_pos h0).trans rfl

theorem acc8_next (c : Dev nD) (t : Fin cfg8.N) (h0 : ¬ t.val % 391 = 0) :
    acc8 V c t.val t.isLt = k8_pay2 (grid8.coords t) (iblk8 V c 0 t) (iblk8 V c 1 t)
      (acc8 V c (t.val - 1) (Nat.lt_of_le_of_lt (Nat.sub_le _ _) t.isLt)) := by
  obtain ⟨_ | n, hn⟩ := t
  · exact absurd (Nat.zero_mod _) h0
  · exact (if_neg h0).trans rfl

/-- What the body leaves in each window's buffer: an input's block; the output's block, computed from the accumulator. -/
def aft8 (c : Dev nD) (t : Fin cfg8.N) : (w : Fin cfg8.W) → (cfg8.win w).block.Idx → Elt F (cfg8.win w).elt
  | ⟨0, _⟩ => iblk8 V c 0 t
  | ⟨1, _⟩ => iblk8 V c 1 t
  | ⟨2, _⟩ => k8_pay3 (acc8 V c t.val t.isLt)

/-- Before position `n` the accumulator's buffer holds some `a` from which the body at `n` computes `acc8` there. -/
def Phi8 (c : Dev nD) (n : ℕ) : sProp 𝕄 :=
  iprop(((∃ a, ⌜∀ h : n < cfg8.N, acc8 V c n h = k8_pay2 (grid8.coords ⟨n, h⟩) (aft8 V c ⟨n, h⟩ 0) (aft8 V c ⟨n, h⟩ 1)
        (if n % 391 = 0 then k8_pay1 (F := F) else a)⌝ ∗ owns (c : Thread nD τ) scM8 fullShare a)
      ∗ Pipeline.scopedRestBut (Ix := Unit) (Name := ℕ) (U := UR sig nD τ) (Lvl := ℕ) (Val := Elt F) spec8 c [cc8_scratch0])
    ∗ (∃ r, prngReg c r))

def dat8 (c : Dev nD) : Dat τ (Elt F) Unit ℕ (UR sig nD τ) ℕ cfg8 c where
  A w := V c (Pipeline.arrRef spec8 w)
  after w t := aft8 V c t w
  Φ t := Phi8 V c t.val
  q _ := fullShare
  owed _ := 0

theorem A_eq8 (c : Dev nD) (w : Fin cfg8.W) : (dat8 V c).A w = V c (Pipeline.arrRef spec8 w) := rfl

theorem q_eq8 (c : Dev nD) (w : Fin cfg8.W) : (dat8 V c).q w = fullShare := rfl

theorem owed_eq8 (c : Dev nD) (t : Fin (cfg8.N + 1)) : (dat8 V c).owed t = 0 := rfl

theorem after_out8 (c : Dev nD) (t : Fin cfg8.N) :
    (dat8 V c).after 2 t = k8_pay3 (acc8 V c t.val t.isLt) := rfl

private theorem before8 (c : Dev nD) (w : Fin cfg8.W) (hw : w ≠ 2) (t : Fin cfg8.N) (d) : (dat8 V c).before w t d = aft8 V c t w := by
  match w, hw with
  | ⟨2, _⟩, h => exact absurd rfl h
  | ⟨0, _⟩, _ | ⟨1, _⟩, _ =>
    exact (dat8 V c).before_in_eq_fetched _ rfl (fun _ => rfl) (fun _ _ _ => rfl) (fun _ => rfl) t d

private theorem leaves8 (c : Dev nD) (w : Fin cfg8.W) (hw : w ≠ 2) (t : Fin cfg8.N) :
    (dat8 V c).leavesExact w t = owns (c : Thread nD τ) ((cfg8.win w).stage (cfg8.slots t w)) fullShare (aft8 V c t w) := by
  match w, hw with
  | ⟨2, _⟩, h => exact absurd rfl h
  | ⟨0, _⟩, _ | ⟨1, _⟩, _ => rfl

theorem coordj8 (t : Fin cfg8.N) : ((grid8.coords t) 1).val = t.val % 391 := by
  have hs : grid8.stride 1 = 1 := by decide
  show t.val / grid8.stride 1 % grid8.bound 1 = t.val % 391
  rw [hs, Nat.div_one]; rfl

abbrev czero8 (i : grid8.Coords) : Prop :=
  (Scalar.cmpi .ne (Scalar.extui (Scalar.cmpi .eq (BitVec.ofNat 32 (i 1).val) 0#32)) 0#32) = 1#1

/-- Both conditions compare the inner coordinate with a constant. -/
theorem czero8_iff : ∀ j : Fin 391,
    ((Scalar.cmpi .ne (Scalar.extui (Scalar.cmpi .eq (BitVec.ofNat 32 j.val) 0#32)) 0#32) = 1#1) ↔ j.val = 0 := by
  decide +kernel

theorem cstore8_iff : ∀ j : Fin 391,
    ((Scalar.cmpi .ne (Scalar.extui (Scalar.cmpi .eq (BitVec.ofNat 32 j.val) 390#32)) 0#32) = 1#1) ↔ j.val = 390 := by
  decide +kernel

theorem hczero8 (t : Fin cfg8.N) : czero8 (grid8.coords t) ↔ t.val % 391 = 0 := by
  rw [← coordj8 t]; exact czero8_iff ((grid8.coords t) 1)

theorem hcstore8 (t : Fin cfg8.N) : k8_cond2 (grid8.coords t) = 1#1 ↔ t.val % 391 = 390 := by
  rw [← coordj8 t]; exact cstore8_iff ((grid8.coords t) 1)

/-- The body stores the output only where the inner coordinate is 390; elsewhere it leaves that buffer as found. -/
private theorem leaves8_out (c : Dev nD) (t : Fin cfg8.N) (d) :
    owns (c : Thread nD τ) (st8_2 t) fullShare (if t.val % 391 = 390 then aft8 V c t 2 else (dat8 V c).before 2 t d)
      ⊢ (dat8 V c).leavesExact 2 t := by
  by_cases h : t.val % 391 = 390
  · rw [if_pos h]; unfold Dat.leavesExact
    rw [show cfg8.idle 2 (grid8.coords t) = false from by
      show (!(k8_cond2 (grid8.coords t) == 1#1)) = false
      rw [(hcstore8 t).mpr h]; rfl]
    iintro H; iexact H
  · rw [if_neg h, Dat.leavesExact_idle (dat8 V c) 2 t (by
      show (!(k8_cond2 (grid8.coords t) == 1#1)) = true
      rw [beq_eq_false_iff_ne.mpr (mt (hcstore8 t).mp h)]; rfl)
      (Bool.eq_false_iff.mpr fun hf => h ((flush8_2 t).mp hf))]
    iintro H; iexists d; iexact H

theorem PhiA8_eq (c : Dev nD) :
    (Pipeline.ΦA spec8 c : sProp 𝕄)
      = iprop(iprop((∃ d, owns (c : Thread nD τ) scM8 fullShare d) ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

section
variable (c : Dev nD) (E : Set ℕ) (i : grid8.Coords)
  (arg2 : Memref sig .tc .vmem S4096x1 .i32) (harg2 : arg2.IsWhole) (arg3 : Memref sig .tc .vmem S4096x128 .bf16) (harg3 : arg3.IsWhole)
  (arg4 : Memref sig .tc .vmem S1024x128 .bf16) (harg4 : arg4.IsWhole) (arg5 : Memref sig .tc .vmem S1024x128 .f32) (harg5 : arg5.IsWhole)
  (x0 : Vec F S4096x1 .i32) (x1 : Vec F S4096x128 .bf16)

/-- The body's four buffers: the inputs at `x0`, `x1`, the output's at `y`, the accumulator's at `b`. -/
private def own8 (y : Vec F S1024x128 .bf16) (b : Vec F S1024x128 .f32) : sProp 𝕄 :=
  iprop(owns (c : Thread nD τ) arg2 fullShare x0 ∗ owns (c : Thread nD τ) arg3 fullShare x1 ∗ owns (c : Thread nD τ) arg4 fullShare y
    ∗ owns (c : Thread nD τ) arg5 fullShare b)

variable {c E i arg2 harg2 arg3 harg3 arg4 harg4 arg5 harg5 x0 x1}

set_option maxHeartbeats 1000000 in
/-- One run of the body: the accumulator restarts from zero where `pz` (inner coordinate 0), the output is stored where `pl` (inner coordinate 390). -/
theorem sound_kernel8 {pz pl : Prop} [Decidable pz] [Decidable pl] (hz : czero8 i ↔ pz) (hl : k8_cond2 i = 1#1 ↔ pl)
    {xi : Vec F S1024x128 .bf16} {a A : Vec F S1024x128 .f32} (hA : A = k8_pay2 i x0 x1 (if pz then k8_pay1 (F := F) else a))
    {K : PUnit → sProp 𝕄} :
    iprop(own8 c arg2 arg3 arg4 arg5 x0 x1 xi a ∗ (own8 c arg2 arg3 arg4 arg5 x0 x1 (if pl then k8_pay3 A else xi) A -∗ K ⟨⟩))
      ⊢ wp frame (wpE (defs₀ (F := F)) Variants.none c none) E (cc8__scatter_kernel i arg2 harg2 arg3 harg3 arg4 harg4 arg5 harg5) K := by
  subst hA
  by_cases hpz : pz <;> by_cases hpl : pl <;> simp only [hpz, hpl, ↓reduceIte]
  · have := (czero8_iff (i 1)).mp (hz.mpr hpz); have := (cstore8_iff (i 1)).mp (hl.mpr hpl); omega
  all_goals
    simp only [cc8__scatter_kernel_eq_skeleton]; unfold cc8__scatter_kernel_skel own8 owns
    iintro ⟨⟨⟨%f0, %hf0, H0⟩, ⟨%f1, %hf1, H1⟩, ⟨%f2, %hf2, H2⟩, ⟨%f3, %hf3, H3⟩⟩, Hk⟩
    subst hf0 hf1 hf2 hf3
    sl_exec (disch := first | exact hz.mpr hpz | exact mt hz.mp hpz | exact hl.mpr hpl | exact mt hl.mp hpl)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
      | have : pl := hpl
        refine (read_writes_whole (S := S1024x128) _ _ hz2 _ _ _).trans ?_
        sl_unfold_run_names
        rw [View.readCov_unit_zero (S := S1024x128) _ hz2, readAt_whole (S := S4096x1) _ hz2, readAt_whole (S := S4096x128) _ hz2,
          readAt_whole (S := S1024x128) _ hz2]
      | rfl
    iexists _; isplitr
    swap; · iexact H3
    ipureintro
    refine (read_writes_whole (S := S1024x128) _ _ hz2 _ _ _).trans ?_
    first
    | have : pz := hpz
      sl_unfold_run_names
      rw [View.readCov_unit_zero (S := S1024x128) _ hz2, readAt_whole (S := S4096x1) _ hz2, readAt_whole (S := S4096x128) _ hz2]
    | rw [readAt_whole (S := S4096x1) _ hz2, readAt_whole (S := S4096x128) _ hz2, readAt_whole (S := S1024x128) _ hz2]

end

/-- The body at any point: the invariant hands it the accumulator's buffer and takes it back at the point's contents. -/
private theorem sound_body8 (c : Dev nD) (t : Fin cfg8.N) :
    iprop((dat8 V c).Φ t.castSucc ∗ (dat8 V c).owesAt () t.castSucc
        ∗ bigSep Finset.univ fun w : Fin cfg8.W => iprop(∃ d, owns (c : Thread nD τ) ((cfg8.win w).stage (cfg8.slots t w)) fullShare ((dat8 V c).before w t d)))
      ⊢ wp frame (wpE (defs₀ (F := F)) Variants.none c none) Set.univ (bodyAt8 t) fun _ =>
        iprop((dat8 V c).Φ t.succ ∗ (dat8 V c).owesAt () t.succ ∗ bigSep Finset.univ fun w : Fin cfg8.W => (dat8 V c).leavesExact w t) := by
  rw [bigSep_W8, bigSep_W8]
  simp (disch := decide) only [before8 V c, leaves8 V c]
  rw [show (dat8 V c).Φ t.castSucc = Phi8 V c t.val from rfl, show (dat8 V c).Φ t.succ = Phi8 V c (t.val + 1) from rfl,
    show (dat8 V c).owesAt () t.succ = (dat8 V c).owesAt () t.castSucc from rfl]
  unfold Phi8 bodyAt8
  iintro ⟨⟨⟨⟨%a, %ha, HS⟩, HR⟩, Hg⟩, Ho, ⟨%d0, H0⟩, ⟨%d1, H1⟩, ⟨%d2, H2⟩⟩
  iapply (sound_kernel8 (hczero8 t) (hcstore8 t) (ha t.isLt))
  unfold own8
  iframe H0 H1 H2 HS
  iintro ⟨H0, H1, H2, HS⟩
  iframe HR Hg Ho H0 H1
  isplitl [HS]
  · iexists _; isplitr
    swap; · iexact HS
    ipureintro; exact fun _ => (apply_ite _ _ _ _).symm
  iapply (leaves8_out V c t d2); iexact H2

theorem body_obligation8 (c : Dev nD) : BodyObligation (dat8 (F := F) V c) (defs₀ (F := F)) Variants.none () Set.univ :=
  fun t => sound_body8 V c t

theorem hin8 (c : Dev nD) : Pipeline.ΦA spec8 c ⊢ ((dat8 V c).Φ 0 : sProp 𝕄) := by
  rw [PhiA8_eq]; show _ ⊢ Phi8 V c 0; unfold Phi8
  iintro ⟨⟨⟨%a, HS⟩, HR⟩, Hg⟩
  iframe HR Hg
  iexists a; isplitr
  · ipureintro; exact fun _ => rfl
  iexact HS

theorem hout8 (c : Dev nD) : ((dat8 V c).Φ (Fin.last cfg8.N) : sProp 𝕄) ⊢ Pipeline.ΦA spec8 c := by
  rw [PhiA8_eq]; show Phi8 V c _ ⊢ _; unfold Phi8
  iintro ⟨⟨⟨%a, -, HS⟩, HR⟩, Hg⟩
  iframe HR Hg
  iexists a; iexact HS

end Cert.KernelIdeal.Hand

end
-- ==== Proof.KI.R9.lean ====
import proofs.«429186_j15229954031644_1_alg».proof.Proof.Gen.KernelIdeal.Launch
import proofs.«429186_j15229954031644_1_alg».proof.Proof.Gen.KernelIdeal.Skeleton
import proofs.«429186_j15229954031644_1_alg».proof.Proof.KI.PointsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev rA9 : Rect S7168x128 := Rect.unit (s := S7168x128) ![0, 0] S7168x128.size inb_S7168x128_S7168x128_0_0
abbrev rE9 : Rect S1x1 := Rect.unit (s := S1x1) ![0, 0] S1x1.size inb_S1x1_S1x1_0_0
abbrev rW9 : Rect S128x128 := Rect.unit (s := S128x128) ![0, 0] S128x128.size inb_S128x128_S128x128_0_0
abbrev rB9 : Rect S1x128 := Rect.unit (s := S1x128) ![0, 0] S1x128.size inb_S1x128_S1x128_0_0

def out9 (xh xa : Vec F S7168x128 .bf16) (xe : Vec F S1x1 .f32) (xw : Vec F S128x128 .f32) (xb : Vec F S1x128 .f32) :
    Vec F S7168x128 .bf16 :=
  View.canon [⟨rA9, k9_pay1 (View.ld xh rA9) (View.ld xa rA9) (View.ld xe rE9) (View.ld xw rW9) (View.ld xb rB9)⟩]

theorem cover9 (p : Vec F S7168x128 .bf16) (y : S7168x128.Idx) :
    ∃ pc ∈ ([⟨rA9, p⟩] : List (View.Piece (Elt F) S7168x128 .bf16)), y ∈ pc.1.set :=
  View.cover_of_tiled [⟨rA9, p⟩] S7168x128.size (by rfl) y

set_option maxHeartbeats 1000000 in
theorem sound_kernel9 {c : Dev nD} {E : Set ℕ} {i : grid9.Coords}
    {argH : Memref sig .tc .vmem S7168x128 .bf16} {hargH : argH.IsWhole} {argA : Memref sig .tc .vmem S7168x128 .bf16} {hargA : argA.IsWhole}
    {argE : Memref sig .tc .vmem S1x1 .f32} {hargE : argE.IsWhole} {argW : Memref sig .tc .vmem S128x128 .f32} {hargW : argW.IsWhole}
    {argB : Memref sig .tc .vmem S1x128 .f32} {hargB : argB.IsWhole} {argO : Memref sig .tc .vmem S7168x128 .bf16} {hargO : argO.IsWhole}
    {xh xa : Vec F S7168x128 .bf16} {xe : Vec F S1x1 .f32} {xw : Vec F S128x128 .f32} {xb : Vec F S1x128 .f32} {K : PUnit → sProp 𝕄} :
    iprop(owns (c : Thread nD τ) argH fullShare xh ∗ owns (c : Thread nD τ) argA fullShare xa ∗ owns (c : Thread nD τ) argE fullShare xe
        ∗ owns (c : Thread nD τ) argW fullShare xw ∗ owns (c : Thread nD τ) argB fullShare xb ∗ (∃ d, owns (c : Thread nD τ) argO fullShare d)
        ∗ (iprop(owns (c : Thread nD τ) argH fullShare xh ∗ owns (c : Thread nD τ) argA fullShare xa ∗ owns (c : Thread nD τ) argE fullShare xe
            ∗ owns (c : Thread nD τ) argW fullShare xw ∗ owns (c : Thread nD τ) argB fullShare xb
            ∗ owns (c : Thread nD τ) argO fullShare (out9 xh xa xe xw xb)) -∗ K ⟨⟩))
      ⊢ wp frame (wpE (defs₀ (F := F)) Variants.none c none) E (cc9__combine_kernel i argH hargH argA hargA argE hargE argW hargW argB hargB argO hargO) K := by
  simp only [cc9__combine_kernel_eq_skeleton]; unfold cc9__combine_kernel_skel
  unfold owns
  iintro ⟨⟨%fh, %eh, Hh⟩, ⟨%fa, %ea, Ha⟩, ⟨%fe, %ee, He⟩, ⟨%fw, %ew, Hw⟩, ⟨%fb, %eb, Hb⟩, ⟨%dO, %fo, -, HO⟩, Hk⟩
  subst eh ea ee ew eb
  sl_exec
  sl_step
  iapply Hk
  isplitl [Hh]
  · iexists fh; isplitr; · ipureintro; rfl
    iexact Hh
  isplitl [Ha]
  · iexists fa; isplitr; · ipureintro; rfl
    iexact Ha
  isplitl [He]
  · iexists fe; isplitr; · ipureintro; rfl
    iexact He
  isplitl [Hw]
  · iexists fw; isplitr; · ipureintro; rfl
    iexact Hw
  isplitl [Hb]
  · iexists fb; isplitr; · ipureintro; rfl
    iexact Hb
  iexists _; isplitr
  swap; · iexact HO
  ipureintro
  exact View.read_writes_eq_canon _ _ _ (cover9 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := rfl
theorem q_eq9 (c : Dev nD) (w : Fin cfg9.W) : (dat9 V c).q w = fullShare := rfl
theorem owed_eq9 (c : Dev nD) (t : Fin (cfg9.N + 1)) : (dat9 V c).owed t = 0 := rfl

theorem after_out9 (c : Dev nD) (t : Fin cfg9.N) : (dat9 V c).after 5 t
    = out9 (iblk9 V c 0 t) (iblk9 V c 1 t) (iblk9 V c 2 t) (iblk9 V c 3 t) (iblk9 V c 4 t) := by dsimp only [dat9]

private theorem before9 (c : Dev nD) (w : Fin cfg9.W) (hw : w ≠ 5) (t : Fin cfg9.N) (d) : (dat9 V c).before w t d = (dat9 V c).after w t := by
  match w, hw with
  | ⟨5, _⟩, h => exact absurd rfl h
  | ⟨0, _⟩, _ | ⟨1, _⟩, _ | ⟨2, _⟩, _ | ⟨3, _⟩, _ | ⟨4, _⟩, _ =>
    exact (dat9 V c).before_in_eq_fetched _ rfl (fun _ => rfl) (fun _ _ _ => rfl) (fun _ => rfl) t d

private theorem leaves9 (c : Dev nD) (w : Fin cfg9.W) (t : Fin cfg9.N) :
    (dat9 V c).leavesExact w t = owns (c : Thread nD τ) ((cfg9.win w).stage (cfg9.slots t w)) fullShare ((dat9 V c).after w t) := by
  match w with
  | ⟨0, _⟩ | ⟨1, _⟩ | ⟨2, _⟩ | ⟨3, _⟩ | ⟨4, _⟩ | ⟨5, _⟩ => rfl

private theorem sound_body9 (c : Dev nD) (t : Fin cfg9.N) :
    iprop((dat9 V c).Φ t.castSucc ∗ (dat9 V c).owesAt () t.castSucc
        ∗ bigSep Finset.univ fun w : Fin cfg9.W => iprop(∃ d, owns (c : Thread nD τ) ((cfg9.win w).stage (cfg9.slots t w)) fullShare ((dat9 V c).before w t d)))
      ⊢ wp frame (wpE (defs₀ (F := F)) Variants.none c none) Set.univ (bodyAt9 t) fun _ =>
        iprop((dat9 V c).Φ t.succ ∗ (dat9 V c).owesAt () t.succ ∗ bigSep Finset.univ fun w : Fin cfg9.W => (dat9 V c).leavesExact w t) := by
  rw [bigSep_W9, bigSep_W9]
  simp (disch := decide) only [before9 V c, leaves9 V c]
  rw [show (dat9 V c).Φ t.succ = (dat9 V c).Φ t.castSucc from rfl,
    show (dat9 V c).owesAt () t.succ = (dat9 V c).owesAt () t.castSucc from rfl,
    show (dat9 V c).after 5 t = out9 ((dat9 V c).after 0 t) ((dat9 V c).after 1 t) ((dat9 V c).after 2 t) ((dat9 V c).after 3 t)
      ((dat9 V c).after 4 t) from by dsimp only [dat9]]
  unfold bodyAt9
  iintro ⟨HΦ, Ho, ⟨%dh, Hh⟩, ⟨%da, Ha⟩, ⟨%de, He⟩, ⟨%dw, Hw⟩, ⟨%db, Hb⟩, ⟨%dO, HO⟩⟩
  iapply sound_kernel9
  iframe Hh Ha He Hw Hb
  isplitl [HO]; · iexists _; iexact HO
  iintro ⟨Hh, Ha, He, Hw, Hb, HO⟩
  iframe HΦ Ho Hh Ha He Hw Hb HO

theorem body_obligation9 (c : Dev nD) : BodyObligation (dat9 (F := F) V c) (defs₀ (F := F)) Variants.none () Set.univ :=
  fun t => sound_body9 V c t

theorem hin9 (c : Dev nD) : Pipeline.ΦA spec9 c ⊢ ((dat9 V c).Φ 0 : sProp 𝕄) := .rfl
theorem hout9 (c : Dev nD) : ((dat9 V c).Φ (Fin.last cfg9.N) : sProp 𝕄) ⊢ Pipeline.ΦA spec9 c := .rfl

end Cert.KernelIdeal.Hand
-- ==== Proof.KI.R10.lean ====
import proofs.«429186_j15229954031644_1_alg».proof.Proof.Gen.KernelIdeal.Launch
import proofs.«429186_j15229954031644_1_alg».proof.Proof.Gen.KernelIdeal.Skeleton
import proofs.«429186_j15229954031644_1_alg».proof.Proof.KI.PointsP
import proofs.«429186_j15229954031644_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Cert.KernelIdeal.GenP Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def accS10 (c : Dev nD) : (n : ℕ) → n < cfg10.N → Vec F S1024x128 .f32
  | 0, hn => k10_pay4 (iblk10 V c 0 ⟨0, hn⟩) (iblk10 V c 1 ⟨0, hn⟩) (k10_pay1 (F := F))
  | n + 1, hn => k10_pay4 (iblk10 V c 0 ⟨n + 1, hn⟩) (iblk10 V c 1 ⟨n + 1, hn⟩) (accS10 c n (Nat.lt_of_succ_lt hn))
def accC10 (c : Dev nD) : (n : ℕ) → n < cfg10.N → Vec F S1x1024 .f32
  | 0, hn => k10_pay5 (iblk10 V c 0 ⟨0, hn⟩) (k10_pay2 (F := F))
  | n + 1, hn => k10_pay5 (iblk10 V c 0 ⟨n + 1, hn⟩) (accC10 c n (Nat.lt_of_succ_lt hn))

abbrev cond10_0 (i : grid10.Coords) : Prop := (Scalar.cmpi .ne (Scalar.extui (Scalar.cmpi .eq (BitVec.ofNat 32 (i 0).val) 0#32)) 0#32) = 1#1

-- Every fact about a point that the body's proof needs, decided over the 50 points.
theorem at10 : ∀ t : Fin cfg10.N, (cond10_0 (grid10.coords t) ↔ t.val = 0) ∧ (k10_cond2 (grid10.coords t) = 1#1 ↔ t.val = 49)
    ∧ cfg10.idle 0 (grid10.coords t) = false ∧ cfg10.idle 1 (grid10.coords t) = false
    ∧ (t.val = 49 → cfg10.idle 2 (grid10.coords t) = false ∧ cfg10.idle 3 (grid10.coords t) = false)
    ∧ (t.val ≠ 49 → cfg10.idle 2 (grid10.coords t) = true ∧ cfg10.idle 3 (grid10.coords t) = true
        ∧ (cfg10.win 2).flush t = false ∧ (cfg10.win 3).flush t = false) := by decide +kernel

abbrev scM10_0 : Memref sig .tc .vmem S1024x128 .f32 := Memref.whole cc10_scratch0
abbrev scM10_1 : Memref sig .tc .vmem S1x1024 .f32 := Memref.whole cc10_scratch1

def Inv10 (c : Dev nD) (P : sProp 𝕄) : sProp 𝕄 :=
  iprop(iprop(P ∗ Pipeline.scopedRestBut (Ix := Unit) (Name := ℕ) (U := UR sig nD τ) (Lvl := ℕ) (Val := Elt F) spec10 c [cc10_scratch0, cc10_scratch1]) ∗ (∃ r, prngReg c r))

theorem PhiA10_eq (c : Dev nD) : (Pipeline.ΦA spec10 c : sProp 𝕄)
    = Inv10 c iprop((∃ d, owns (c : Thread nD τ) scM10_0 fullShare d) ∗ (∃ d, owns (c : Thread nD τ) scM10_1 fullShare d)) := by
  unfold Pipeline.ΦA Inv10; rw [scopedRest10_split]; simp only [scM10_0, scM10_1, owns_whole]; try rfl

def Phi10 (c : Dev nD) : (n : ℕ) → n ≤ cfg10.N → sProp 𝕄
  | 0, _ => Pipeline.ΦA spec10 c
  | n + 1, hn => Inv10 c iprop(owns (c : Thread nD τ) scM10_0 fullShare (accS10 V c n hn) ∗ owns (c : Thread nD τ) scM10_1 fullShare (accC10 V c n hn))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => accS10 V c t.val t.isLt
    | ⟨3, _⟩ => accC10 V c t.val t.isLt
  Φ t := Phi10 V c t.val (Nat.le_of_lt_succ t.isLt)
  q _ := fullShare
  owed _ := 0

theorem A_eq10 (c : Dev nD) (w : Fin cfg10.W) : (dat10 V c).A w = V c (Pipeline.arrRef spec10 w) := rfl
theorem q_eq10 (c : Dev nD) (w : Fin cfg10.W) : (dat10 V c).q w = fullShare := rfl
theorem owed_eq10 (c : Dev nD) (t : Fin (cfg10.N + 1)) : (dat10 V c).owed t = 0 := rfl

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after_out10_2 (c : Dev nD) (t : Fin cfg10.N) : (dat10 V c).after 2 t = accS10 V c t.val t.isLt := by dsimp only [dat10]
theorem after_out10_3 (c : Dev nD) (t : Fin cfg10.N) : (dat10 V c).after 3 t = accC10 V c t.val t.isLt := by dsimp only [dat10]

theorem before10_0 (c : Dev nD) (t : Fin cfg10.N) (d) : (dat10 V c).before 0 t d = iblk10 V c 0 t :=
  Dat.before_in_eq_fetched _ 0 rfl (fun _ => rfl) (fun _ _ _ => rfl) (fun _ => rfl) t d
theorem before10_1 (c : Dev nD) (t : Fin cfg10.N) (d) : (dat10 V c).before 1 t d = iblk10 V c 1 t :=
  Dat.before_in_eq_fetched _ 1 rfl (fun _ => rfl) (fun _ _ _ => rfl) (fun _ => rfl) t d

-- The invariant and the accumulators at a point, from those the point before left (at the first point: from zero).
theorem step10 (c : Dev nD) (t : Fin cfg10.N) :
    (t.val = 0 → (dat10 V c).Φ t.castSucc = Pipeline.ΦA spec10 c
      ∧ accS10 V c t.val t.isLt = k10_pay4 (iblk10 V c 0 t) (iblk10 V c 1 t) (k10_pay1 (F := F))
      ∧ accC10 V c t.val t.isLt = k10_pay5 (iblk10 V c 0 t) (k10_pay2 (F := F)))
    ∧ (t.val ≠ 0 → ∃ h, (dat10 V c).Φ t.castSucc
        = Inv10 c iprop(owns (c : Thread nD τ) scM10_0 fullShare (accS10 V c (t.val - 1) h) ∗ owns (c : Thread nD τ) scM10_1 fullShare (accC10 V c (t.val - 1) h))
      ∧ accS10 V c t.val t.isLt = k10_pay4 (iblk10 V c 0 t) (iblk10 V c 1 t) (accS10 V c (t.val - 1) h)
      ∧ accC10 V c t.val t.isLt = k10_pay5 (iblk10 V c 0 t) (accC10 V c (t.val - 1) h)) := by
  obtain ⟨n, hn⟩ := t; cases n with
  | zero => exact ⟨fun _ => ⟨rfl, rfl, rfl⟩, fun h => absurd rfl h⟩
  | succ n => exact ⟨fun h => absurd h (Nat.succ_ne_zero n), fun _ => ⟨Nat.lt_of_succ_lt hn, rfl, rfl, rfl⟩⟩

-- Contents that read `X` through a memref give the memref owned at `X`.
theorem leaf10 (c : Dev nD) {sp : Space} {S : Shape} {e : EltTy} (m : Memref sig .tc sp S e) (g : m.view.ty.Contents (Elt F)) (X : S.Idx → Elt F e)
    (h : m.view.read (Elt F) g = X) : (m.view.loc (c : Thread nD τ) ↦[m.view.set]{fullShare} g : sProp 𝕄)
      ⊢ iprop(∃ f, ⌜m.view.read (Elt F) f = X⌝ ∗ (m.view.loc (c : Thread nD τ) ↦[m.view.set]{fullShare} f)) := by
  iintro H; iexists g; isplitr; · ipureintro; exact h
  iexact H

section
variable (c : Dev nD) (E : Set ℕ) (i : grid10.Coords) (arg1 : Memref sig .tc .vmem S2000x1 .i32) (harg1 : arg1.IsWhole) (arg2 : Memref sig .tc .vmem S2000x128 .bf16) (harg2 : arg2.IsWhole)
    (arg3 : Memref sig .tc .vmem S1024x128 .f32) (harg3 : arg3.IsWhole) (arg4 : Memref sig .tc .vmem S1x1024 .f32) (harg4 : arg4.IsWhole)
    (arg5 : Memref sig .tc .vmem S1024x128 .f32) (harg5 : arg5.IsWhole) (arg6 : Memref sig .tc .vmem S1x1024 .f32) (harg6 : arg6.IsWhole)
    (x0 : Vec F S2000x1 .i32) (x1 : Vec F S2000x128 .bf16) (s d2 : Vec F S1024x128 .f32) (n d3 : Vec F S1x1024 .f32)

-- A point other than the last: the accumulators, zeroed first when it is the first point, are updated.
set_option maxHeartbeats 4000000 in
theorem sound_kernel10_upd (K : PUnit → sProp 𝕄) (h : cond10_0 i ∧ d2 = k10_pay1 ∧ d3 = k10_pay2 ∨ ¬cond10_0 i ∧ d2 = s ∧ d3 = n) (hc1 : ¬k10_cond2 i = 1#1) :
    iprop(owns (c : Thread nD τ) arg1 fullShare x0 ∗ owns (c : Thread nD τ) arg2 fullShare x1
        ∗ owns (c : Thread nD τ) arg5 fullShare s ∗ owns (c : Thread nD τ) arg6 fullShare n
        ∗ (iprop(owns (c : Thread nD τ) arg1 fullShare x0 ∗ owns (c : Thread nD τ) arg2 fullShare x1
            ∗ owns (c : Thread nD τ) arg5 fullShare (k10_pay4 x0 x1 d2) ∗ owns (c : Thread nD τ) arg6 fullShare (k10_pay5 x0 d3)) -∗ K ⟨⟩))
      ⊢ wp frame (wpE (defs₀ (F := F)) Variants.none c none) E (cc10__pool_kernel i arg1 harg1 arg2 harg2 arg3 harg3 arg4 harg4 arg5 harg5 arg6 harg6) K := by
  rcases h with ⟨hc0, rfl, rfl⟩ | ⟨hc0, rfl, rfl⟩ <;> (
    simp only [cc10__pool_kernel_eq_skeleton]; unfold cc10__pool_kernel_skel owns
    iintro ⟨⟨%f0, %hf0, H0⟩, ⟨%f1, %hf1, H1⟩, ⟨%fs, %hfs, HS⟩, ⟨%fn, %hfn, HN⟩, Hk⟩
    subst hf0 hf1 hfs hfn
    sl_exec (disch := first | exact hc0 | exact hc1)
    sl_step
    iapply Hk
    isplitl [H0]; · iapply (leaf10 c _ _ _ rfl) $$ H0
    isplitl [H1]; · iapply (leaf10 c _ _ _ rfl) $$ H1
    isplitl [HS]
    · iapply (leaf10 c _ _ _ ?_) $$ HS
      sl_unfold_run_names; simp only [read_writes_whole arg5.view _ hz2, readAt_whole arg1.view hz2, readAt_whole arg2.view hz2, readAt_whole arg5.view hz2, View.readCov_unit_zero arg5.view hz2]
    iapply (leaf10 c _ _ _ ?_) $$ HN
    sl_unfold_run_names; simp only [read_writes_whole arg6.view _ hz2, readAt_whole arg1.view hz2, readAt_whole arg6.view hz2, View.readCov_unit_zero arg6.view hz2])

-- The last point: the accumulators are updated and copied to the two outputs, held at anything.
set_option maxHeartbeats 4000000 in
theorem sound_kernel10_last (K : PUnit → sProp 𝕄) (hc0 : ¬cond10_0 i) (hc1 : k10_cond2 i = 1#1) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare s ∗ owns (c : Thread nD τ) arg6 fullShare n
        ∗ (iprop(owns (c : Thread nD τ) arg1 fullShare x0 ∗ owns (c : Thread nD τ) arg2 fullShare x1
            ∗ owns (c : Thread nD τ) arg3 fullShare (k10_pay4 x0 x1 s) ∗ owns (c : Thread nD τ) arg4 fullShare (k10_pay5 x0 n)
            ∗ owns (c : Thread nD τ) arg5 fullShare (k10_pay4 x0 x1 s) ∗ owns (c : Thread nD τ) arg6 fullShare (k10_pay5 x0 n)) -∗ K ⟨⟩))
      ⊢ wp frame (wpE (defs₀ (F := F)) Variants.none c none) E (cc10__pool_kernel i arg1 harg1 arg2 harg2 arg3 harg3 arg4 harg4 arg5 harg5 arg6 harg6) K := by
  simp only [cc10__pool_kernel_eq_skeleton]; unfold cc10__pool_kernel_skel owns
  iintro ⟨⟨%f0, %hf0, H0⟩, ⟨%f1, %hf1, H1⟩, ⟨%f2, -, H2⟩, ⟨%f3, -, H3⟩, ⟨%fs, %hfs, HS⟩, ⟨%fn, %hfn, HN⟩, Hk⟩
  subst hf0 hf1 hfs hfn
  sl_exec (disch := first | exact hc0 | exact hc1)
  sl_step
  iapply Hk
  isplitl [H0]; · iapply (leaf10 c _ _ _ rfl) $$ H0
  isplitl [H1]; · iapply (leaf10 c _ _ _ rfl) $$ H1
  isplitl [H2]
  · iapply (leaf10 c _ _ _ ?_) $$ H2
    sl_unfold_run_names; simp only [read_writes_whole arg3.view _ hz2, View.readCov_unit_zero arg5.view hz2, read_writes_whole arg5.view _ hz2, readAt_whole arg1.view hz2, readAt_whole arg2.view hz2, readAt_whole arg5.view hz2]
  isplitl [H3]
  · iapply (leaf10 c _ _ _ ?_) $$ H3
    sl_unfold_run_names; simp only [read_writes_whole arg4.view _ hz2, View.readCov_unit_zero arg6.view hz2, read_writes_whole arg6.view _ hz2, readAt_whole arg1.view hz2, readAt_whole arg6.view hz2]
  isplitl [HS]
  · iapply (leaf10 c _ _ _ ?_) $$ HS
    sl_unfold_run_names; simp only [read_writes_whole arg5.view _ hz2, readAt_whole arg1.view hz2, readAt_whole arg2.view hz2, readAt_whole arg5.view hz2]
  iapply (leaf10 c _ _ _ ?_) $$ HN
  sl_unfold_run_names; simp only [read_writes_whole arg6.view _ hz2, readAt_whole arg1.view hz2, readAt_whole arg6.view hz2]

end

theorem live10 (c : Dev nD) (w : Fin cfg10.W) (t : Fin cfg10.N) (h : cfg10.idle w (grid10.coords t) = false) :
    (dat10 V c).leavesExact w t = owns (c : Thread nD τ) ((cfg10.win w).stage (cfg10.slots t w)) fullShare ((dat10 V c).after w t) := by
  unfold Dat.leavesExact; rw [h]

-- By cases of the point: the last, the first, or one between.
set_option maxHeartbeats 4000000 in
theorem sound_body10 (c : Dev nD) (t : Fin cfg10.N) :
    iprop((dat10 V c).Φ t.castSucc ∗ (dat10 V c).owesAt () t.castSucc
      ∗ (∃ d, owns (c : Thread nD τ) (st10_0 t) fullShare ((dat10 V c).before 0 t d))
      ∗ (∃ d, owns (c : Thread nD τ) (st10_1 t) fullShare ((dat10 V c).before 1 t d))
      ∗ (∃ d, owns (c : Thread nD τ) (st10_2 t) fullShare ((dat10 V c).before 2 t d))
      ∗ (∃ d, owns (c : Thread nD τ) (st10_3 t) fullShare ((dat10 V c).before 3 t d)))
    ⊢ wp frame (wpE (defs₀ (F := F)) Variants.none c none) Set.univ (bodyAt10 t) (fun _ => iprop((dat10 V c).Φ t.succ ∗ (dat10 V c).owesAt () t.succ
      ∗ (dat10 V c).leavesExact 0 t ∗ (dat10 V c).leavesExact 1 t ∗ (dat10 V c).leavesExact 2 t ∗ (dat10 V c).leavesExact 3 t)) := by
  obtain ⟨hc0, hc1, hl0, hl1, hlast, hoff⟩ := at10 t
  obtain ⟨hfirst, hnext⟩ := step10 V c t
  unfold bodyAt10
  simp only [before10_0, before10_1]
  rw [show (dat10 V c).owesAt () t.succ = (dat10 V c).owesAt () t.castSucc from rfl,
    show (dat10 V c).Φ t.succ = Inv10 c iprop(owns (c : Thread nD τ) scM10_0 fullShare (accS10 V c t.val t.isLt) ∗ owns (c : Thread nD τ) scM10_1 fullShare (accC10 V c t.val t.isLt)) from rfl,
    live10 V c 0 t hl0, live10 V c 1 t hl1, after10_0, after10_1]
  by_cases h1 : t.val = 49
  · obtain ⟨h, hΦ, hS, hC⟩ := hnext (by omega)
    rw [live10 V c 2 t (hlast h1).1, live10 V c 3 t (hlast h1).2, after_out10_2, after_out10_3, hΦ, hS, hC]; unfold Inv10
    iintro ⟨⟨⟨⟨HS0, HS1⟩, HR⟩, Hg⟩, Ho, ⟨%d0, H0⟩, ⟨%d1, H1⟩, ⟨%d2, H2⟩, ⟨%d3, H3⟩⟩
    iapply (sound_kernel10_last c Set.univ (grid10.coords t) _ _ _ _ _ _ _ _ _ _ _ _ (iblk10 V c 0 t) (iblk10 V c 1 t) (accS10 V c (t.val - 1) h) ((dat10 V c).before 2 t d2) (accC10 V c (t.val - 1) h) ((dat10 V c).before 3 t d3) _ (mt hc0.mp (by omega)) (hc1.mpr h1))
    iframe H0 H1 H2 H3 HS0 HS1
    iintro ⟨H0, H1, H2, H3, HS0, HS1⟩
    iframe
  · have hn1 := mt hc1.mp h1
    rw [Dat.leavesExact_idle _ 2 t (hoff h1).1 (hoff h1).2.2.1, Dat.leavesExact_idle _ 3 t (hoff h1).2.1 (hoff h1).2.2.2]
    by_cases h0 : t.val = 0
    · obtain ⟨hΦ, hS, hC⟩ := hfirst h0
      rw [hΦ, hS, hC, PhiA10_eq]; unfold Inv10
      iintro ⟨⟨⟨⟨⟨%s, HS0⟩, ⟨%n, HS1⟩⟩, HR⟩, Hg⟩, Ho, ⟨%d0, H0⟩, ⟨%d1, H1⟩, H2, H3⟩
      iapply (sound_kernel10_upd c Set.univ (grid10.coords t) _ _ _ _ _ _ _ _ _ _ _ _ (iblk10 V c 0 t) (iblk10 V c 1 t) s _ n _ _ (.inl ⟨hc0.mpr h0, rfl, rfl⟩) hn1)
      iframe H0 H1 HS0 HS1
      iintro ⟨H0, H1, HS0, HS1⟩
      iframe
    · obtain ⟨h, hΦ, hS, hC⟩ := hnext h0
      rw [hΦ, hS, hC]; unfold Inv10
      iintro ⟨⟨⟨⟨HS0, HS1⟩, HR⟩, Hg⟩, Ho, ⟨%d0, H0⟩, ⟨%d1, H1⟩, H2, H3⟩
      iapply (sound_kernel10_upd c Set.univ (grid10.coords t) _ _ _ _ _ _ _ _ _ _ _ _ (iblk10 V c 0 t) (iblk10 V c 1 t) (accS10 V c (t.val - 1) h) _ (accC10 V c (t.val - 1) h) _ _ (.inr ⟨mt hc0.mp h0, rfl, rfl⟩) hn1)
      iframe H0 H1 HS0 HS1
      iintro ⟨H0, H1, HS0, HS1⟩
      iframe

theorem body_obligation10 (c : Dev nD) : BodyObligation (dat10 (F := F) V c) (defs₀ (F := F)) Variants.none () Set.univ := fun t => by
  rw [bigSep_W10, bigSep_W10]
  exact sound_body10 V c t

theorem hin10 (c : Dev nD) : Pipeline.ΦA spec10 c ⊢ ((dat10 V c).Φ 0 : sProp 𝕄) := .rfl

-- After the last point the accumulators' values are forgotten.
theorem hout10 (c : Dev nD) : ((dat10 V c).Φ (Fin.last cfg10.N) : sProp 𝕄) ⊢ Pipeline.ΦA spec10 c := by
  rw [PhiA10_eq]
  show Phi10 V c (49 + 1) _ ⊢ _
  unfold Phi10 Inv10
  iintro ⟨⟨⟨HS0, HS1⟩, HR⟩, Hg⟩
  iframe HR Hg
  isplitl [HS0] <;> iexists _ <;> iassumption

end Cert.KernelIdeal.Hand

end
-- ==== Proof.KI.Run.lean ====
import proofs.«429186_j15229954031644_1_alg».proof.Proof.Gen.KernelIdeal.Regions
import proofs.«429186_j15229954031644_1_alg».proof.Proof.KI.R0
import proofs.«429186_j15229954031644_1_alg».proof.Proof.KI.R1
import proofs.«429186_j15229954031644_1_alg».proof.Proof.KI.R2
import proofs.«429186_j15229954031644_1_alg».proof.Proof.KI.R3
import proofs.«429186_j15229954031644_1_alg».proof.Proof.KI.R4
import proofs.«429186_j15229954031644_1_alg».proof.Proof.KI.R5
import proofs.«429186_j15229954031644_1_alg».proof.Proof.KI.R6
import proofs.«429186_j15229954031644_1_alg».proof.Proof.KI.R7
import proofs.«429186_j15229954031644_1_alg».proof.Proof.KI.R8
import proofs.«429186_j15229954031644_1_alg».proof.Proof.KI.R9
import proofs.«429186_j15229954031644_1_alg».proof.Proof.KI.R10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (pd : (p : Fin 11) → (c : Dev nD) → Dat τ (Elt F) Unit ℕ (UR sig nD τ) ℕ (Pipeline.pin (pcfgs (F := F)) adm p) c)

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- An input window's array is written back as read, and a buffer no window stages is not touched. -/
theorem keep_of_in {cfg : Pipeline.Cfg sig Λ₀} {c : Dev nD} (d : Dat τ (Elt F) Unit ℕ (UR sig nD τ) ℕ cfg c)
    {Wen Wex : Valuation τ sig (Elt F)} (hA : ∀ w, d.A w = Wen (Proc.devRef .tc (Pipeline.arrRef cfg.spec w)))
    (harr : ∀ w, Wex (Proc.devRef .tc (Pipeline.arrRef cfg.spec w)) = d.arrAt w cfg.N)
    (hne : ∀ b : Ref sig .tc, (∀ w, Pipeline.arrRef cfg.spec w ≠ b) → Wex (Proc.devRef .tc b) = Wen (Proc.devRef .tc b))
    (b : Ref sig .tc) (hb : ∀ w, Pipeline.arrRef cfg.spec w = b → (cfg.win w).isOut = false) :
    Wex (Proc.devRef .tc b) = Wen (Proc.devRef .tc b) := by
  by_cases h : ∃ w, Pipeline.arrRef cfg.spec w = b
  · obtain ⟨w, rfl⟩ := h
    exact (harr w).trans ((d.arrAt_in w (hb w rfl) _).trans (hA w))
  · exact hne b fun w e => h ⟨w, e⟩

set_option backward.isDefEq.respectTransparency.types false in
/-- One construction for all eleven regions: they differ only in the pipeline's index and its proof data. -/
def mkReg (p : Fin 11) (lf : Pipeline.LaunchFacts (nD := nD) (τ := τ) cfgs p) (Wen Wex : Dev nD → Valuation τ sig (Elt F))
    (hbody : ∀ c, BodyObligation (pd p c) (defs₀ (F := F)) Variants.none () Set.univ)
    (howed : ∀ c t, (pd p c).owed t = 0) (hq : ∀ c w, (pd p c).q w = fullShare)
    (hrec : ∀ c, (pd p c).recorded 0 = Set.univ)
    (hA : ∀ c w, (pd p c).A w = Wen c (Pipeline.arrRef (cfgs p).spec w))
    (hin : ∀ c, Pipeline.ΦA (cfgs p).spec c ⊢ ((pd p c).Φ 0 : sProp 𝕄))
    (hout : ∀ c, ((pd p c).Φ (Fin.last _) : sProp 𝕄) ⊢ Pipeline.ΦA (cfgs p).spec c)
    (harr : ∀ c w, Wex c (Proc.devRef .tc (Pipeline.arrRef (cfgs p).spec w)) = (pd p c).arrAt w (cfgs p).N)
    (hne : ∀ c (b : Ref sig .tc), (∀ w, Pipeline.arrRef (cfgs p).spec w ≠ b) → Wex c (Proc.devRef .tc b) = Wen c (Proc.devRef .tc b)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wen c) ∗ R c)
  post c := iprop(StableHlo.held (c : Thread nD τ) (Pipeline.ucRefs τ sig) (Wex c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wen c b
  hentry c := by
    rw [Pipeline.ownSems0_none]
    have hsplit := Pipeline.arrays_of_unscopedBufs (p := p) (pcfgs (F := F)) adm pd lf.win lf.arr_whole c
      ((pd p c).share_full (hq c)) (fun b => Wen c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pd p c).owed 0 = 0 from howed c 0]
      icases HO with ⟨%W, HO⟩; iexists W; isplitr; · ipureintro; exact fun _ _ => Or.inl ((hrec c).symm ▸ Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Wen c b) (fun b => Wex c b) ((pd p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pd p c).owed (Fin.last _) = 0 from howed c _]
    icases HO with ⟨%W, -, HO⟩; iexists W; iexact HO
end

variable (m : (ℓ : Loc nD τ sig) → Buf (Elt F) ℓ) (ρ : Dev nD → PrngReg)

/-- `Wk`: a core's buffers after item `k` of the entry function (`W0`: at launch). -/
abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev W5 : Dev nD → Valuation τ sig (Elt F) := fun c => StableHlo.after hostOps0_4 (W4 m ρ c)

abbrev W6 : Dev nD → Valuation τ sig (Elt F) := fun c => StableHlo.after hostOps0_5 (W5 m ρ c)

abbrev W7 : Dev nD → Valuation τ sig (Elt F) := fun c => StableHlo.after hostOps0_6 (W6 m ρ c)

abbrev W8 : Dev nD → Valuation τ sig (Elt F) := fun c => StableHlo.after hostOps0_7 (W7 m ρ c)

abbrev W9 : Dev nD → Valuation τ sig (Elt F) := fun c => StableHlo.after hostOps0_8 (W8 m ρ c)

abbrev En9 : (c : Dev nD) → (b : Ref sig .tc) → Buf (Elt F) ((c : Thread nD τ).loc b) := fun c b => W9 m ρ c b

def W10 (c : Dev nD) : Valuation τ sig (Elt F) :=
  Pipeline.withArrays spec0 c (W9 m ρ c) fun w => (dat0 (En9 m ρ) c).arrAt w cfg0.N
theorem W10_arr (c : Dev nD) (w : Fin cfg0.W) :
    W10 m ρ c (Proc.devRef .tc (Pipeline.arrRef spec0 w)) = (dat0 (En9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb

abbrev En10 : (c : Dev nD) → (b : Ref sig .tc) → Buf (Elt F) ((c : Thread nD τ).loc b) := fun c b => W10 m ρ c b

def W11 (c : Dev nD) : Valuation τ sig (Elt F) :=
  Pipeline.withArrays spec1 c (W10 m ρ c) fun w => (dat1 (En10 m ρ) c).arrAt w cfg1.N
theorem W11_arr (c : Dev nD) (w : Fin cfg1.W) :
    W11 m ρ c (Proc.devRef .tc (Pipeline.arrRef spec1 w)) = (dat1 (En10 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb

abbrev En11 : (c : Dev nD) → (b : Ref sig .tc) → Buf (Elt F) ((c : Thread nD τ).loc b) := fun c b => W11 m ρ c b

def W12 (c : Dev nD) : Valuation τ sig (Elt F) :=
  Pipeline.withArrays spec2 c (W11 m ρ c) fun w => (dat2 (En11 m ρ) c).arrAt w cfg2.N
theorem W12_arr (c : Dev nD) (w : Fin cfg2.W) :
    W12 m ρ c (Proc.devRef .tc (Pipeline.arrRef spec2 w)) = (dat2 (En11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb

abbrev W13 : Dev nD → Valuation τ sig (Elt F) := fun c => StableHlo.after hostOps3 (W12 m ρ c)

abbrev En13 : (c : Dev nD) → (b : Ref sig .tc) → Buf (Elt F) ((c : Thread nD τ).loc b) := fun c b => W13 m ρ c b

def W14 (c : Dev nD) : Valuation τ sig (Elt F) :=
  Pipeline.withArrays spec3 c (W13 m ρ c) fun w => (dat3 (En13 m ρ) c).arrAt w cfg3.N
theorem W14_arr (c : Dev nD) (w : Fin cfg3.W) :
    W14 m ρ c (Proc.devRef .tc (Pipeline.arrRef spec3 w)) = (dat3 (En13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb

abbrev En14 : (c : Dev nD) → (b : Ref sig .tc) → Buf (Elt F) ((c : Thread nD τ).loc b) := fun c b => W14 m ρ c b

def W15 (c : Dev nD) : Valuation τ sig (Elt F) :=
  Pipeline.withArrays spec4 c (W14 m ρ c) fun w => (dat4 (En14 m ρ) c).arrAt w cfg4.N
theorem W15_arr (c : Dev nD) (w : Fin cfg4.W) :
    W15 m ρ c (Proc.devRef .tc (Pipeline.arrRef spec4 w)) = (dat4 (En14 m ρ) c).arrAt w cfg4.N := by
  unfold W15; exact Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) := by
  unfold W15; exact Pipeline.withArrays_of_ne spec4 c _ _ b hb

abbrev En15 : (c : Dev nD) → (b : Ref sig .tc) → Buf (Elt F) ((c : Thread nD τ).loc b) := fun c b => W15 m ρ c b

def W16 (c : Dev nD) : Valuation τ sig (Elt F) :=
  Pipeline.withArrays spec5 c (W15 m ρ c) fun w => (dat5 (En15 m ρ) c).arrAt w cfg5.N
theorem W16_arr (c : Dev nD) (w : Fin cfg5.W) :
    W16 m ρ c (Proc.devRef .tc (Pipeline.arrRef spec5 w)) = (dat5 (En15 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb

abbrev W17 : Dev nD → Valuation τ sig (Elt F) := fun c => StableHlo.after hostOps6 (W16 m ρ c)

abbrev En17 : (c : Dev nD) → (b : Ref sig .tc) → Buf (Elt F) ((c : Thread nD τ).loc b) := fun c b => W17 m ρ c b

def W18 (c : Dev nD) : Valuation τ sig (Elt F) :=
  Pipeline.withArrays spec6 c (W17 m ρ c) fun w => (dat6 (En17 m ρ) c).arrAt w cfg6.N
theorem W18_arr (c : Dev nD) (w : Fin cfg6.W) :
    W18 m ρ c (Proc.devRef .tc (Pipeline.arrRef spec6 w)) = (dat6 (En17 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb

abbrev En18 : (c : Dev nD) → (b : Ref sig .tc) → Buf (Elt F) ((c : Thread nD τ).loc b) := fun c b => W18 m ρ c b

def W19 (c : Dev nD) : Valuation τ sig (Elt F) :=
  Pipeline.withArrays spec7 c (W18 m ρ c) fun w => (dat7 (En18 m ρ) c).arrAt w cfg7.N
theorem W19_arr (c : Dev nD) (w : Fin cfg7.W) :
    W19 m ρ c (Proc.devRef .tc (Pipeline.arrRef spec7 w)) = (dat7 (En18 m ρ) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m ρ c (Proc.devRef .tc b) = W18 m ρ c (Proc.devRef .tc b) := by
  unfold W19; exact Pipeline.withArrays_of_ne spec7 c _ _ b hb

abbrev En19 : (c : Dev nD) → (b : Ref sig .tc) → Buf (Elt F) ((c : Thread nD τ).loc b) := fun c b => W19 m ρ c b

def W20 (c : Dev nD) : Valuation τ sig (Elt F) :=
  Pipeline.withArrays spec8 c (W19 m ρ c) fun w => (dat8 (En19 m ρ) c).arrAt w cfg8.N
theorem W20_arr (c : Dev nD) (w : Fin cfg8.W) :
    W20 m ρ c (Proc.devRef .tc (Pipeline.arrRef spec8 w)) = (dat8 (En19 m ρ) c).arrAt w cfg8.N := by
  unfold W20; exact Pipeline.withArrays_arr spec8 launch8.win.arr_inj c _ _ w
theorem W20_of_ne (c : Dev nD) (b : Ref sig .tc) (hb : ∀ w, Pipeline.arrRef spec8 w ≠ b) :
    W20 m ρ c (Proc.devRef .tc b) = W19 m ρ c (Proc.devRef .tc b) := by
  unfold W20; exact Pipeline.withArrays_of_ne spec8 c _ _ b hb

abbrev W21 : Dev nD → Valuation τ sig (Elt F) := fun c => StableHlo.after hostOps9 (W20 m ρ c)

abbrev En21 : (c : Dev nD) → (b : Ref sig .tc) → Buf (Elt F) ((c : Thread nD τ).loc b) := fun c b => W21 m ρ c b

def W22 (c : Dev nD) : Valuation τ sig (Elt F) :=
  Pipeline.withArrays spec9 c (W21 m ρ c) fun w => (dat9 (En21 m ρ) c).arrAt w cfg9.N
theorem W22_arr (c : Dev nD) (w : Fin cfg9.W) :
    W22 m ρ c (Proc.devRef .tc (Pipeline.arrRef spec9 w)) = (dat9 (En21 m ρ) c).arrAt w cfg9.N := by
  unfold W22; exact Pipeline.withArrays_arr spec9 launch9.win.arr_inj c _ _ w
theorem W22_of_ne (c : Dev nD) (b : Ref sig .tc) (hb : ∀ w, Pipeline.arrRef spec9 w ≠ b) :
    W22 m ρ c (Proc.devRef .tc b) = W21 m ρ c (Proc.devRef .tc b) := by
  unfold W22; exact Pipeline.withArrays_of_ne spec9 c _ _ b hb

abbrev W23 : Dev nD → Valuation τ sig (Elt F) := fun c => StableHlo.after hostOps10 (W22 m ρ c)

abbrev En23 : (c : Dev nD) → (b : Ref sig .tc) → Buf (Elt F) ((c : Thread nD τ).loc b) := fun c b => W23 m ρ c b

def W24 (c : Dev nD) : Valuation τ sig (Elt F) :=
  Pipeline.withArrays spec10 c (W23 m ρ c) fun w => (dat10 (En23 m ρ) c).arrAt w cfg10.N
theorem W24_arr (c : Dev nD) (w : Fin cfg10.W) :
    W24 m ρ c (Proc.devRef .tc (Pipeline.arrRef spec10 w)) = (dat10 (En23 m ρ) c).arrAt w cfg10.N := by
  unfold W24; exact Pipeline.withArrays_arr spec10 launch10.win.arr_inj c _ _ w
theorem W24_of_ne (c : Dev nD) (b : Ref sig .tc) (hb : ∀ w, Pipeline.arrRef spec10 w ≠ b) :
    W24 m ρ c (Proc.devRef .tc b) = W23 m ρ c (Proc.devRef .tc b) := by
  unfold W24; exact Pipeline.withArrays_of_ne spec10 c _ _ b hb

abbrev W25 : Dev nD → Valuation τ sig (Elt F) := fun c => StableHlo.after hostOps11 (W24 m ρ c)

abbrev W26 : Dev nD → Valuation τ sig (Elt F) := fun c => StableHlo.after hostOps11_1 (W25 m ρ c)

abbrev W27 : Dev nD → Valuation τ sig (Elt F) := fun c => StableHlo.after hostOps11_2 (W26 m ρ c)

theorem W10_keep (c : Dev nD) (b : Ref sig .tc) (hb : ∀ w, Pipeline.arrRef spec0 w = b → (cfg0.win w).isOut = false) :
    W10 m ρ c (Proc.devRef .tc b) = W9 m ρ c (Proc.devRef .tc b) :=
  keep_of_in (dat0 (En9 m ρ) c) (A_eq0 (En9 m ρ) c) (W10_arr m ρ c) (W10_of_ne m ρ c) b hb
theorem W11_keep (c : Dev nD) (b : Ref sig .tc) (hb : ∀ w, Pipeline.arrRef spec1 w = b → (cfg1.win w).isOut = false) :
    W11 m ρ c (Proc.devRef .tc b) = W10 m ρ c (Proc.devRef .tc b) :=
  keep_of_in (dat1 (En10 m ρ) c) (A_eq1 (En10 m ρ) c) (W11_arr m ρ c) (W11_of_ne m ρ c) b hb
theorem W12_keep (c : Dev nD) (b : Ref sig .tc) (hb : ∀ w, Pipeline.arrRef spec2 w = b → (cfg2.win w).isOut = false) :
    W12 m ρ c (Proc.devRef .tc b) = W11 m ρ c (Proc.devRef .tc b) :=
  keep_of_in (dat2 (En11 m ρ) c) (A_eq2 (En11 m ρ) c) (W12_arr m ρ c) (W12_of_ne m ρ c) b hb
theorem W14_keep (c : Dev nD) (b : Ref sig .tc) (hb : ∀ w, Pipeline.arrRef spec3 w = b → (cfg3.win w).isOut = false) :
    W14 m ρ c (Proc.devRef .tc b) = W13 m ρ c (Proc.devRef .tc b) :=
  keep_of_in (dat3 (En13 m ρ) c) (A_eq3 (En13 m ρ) c) (W14_arr m ρ c) (W14_of_ne m ρ c) b hb
theorem W15_keep (c : Dev nD) (b : Ref sig .tc) (hb : ∀ w, Pipeline.arrRef spec4 w = b → (cfg4.win w).isOut = false) :
    W15 m ρ c (Proc.devRef .tc b) = W14 m ρ c (Proc.devRef .tc b) :=
  keep_of_in (dat4 (En14 m ρ) c) (A_eq4 (En14 m ρ) c) (W15_arr m ρ c) (W15_of_ne m ρ c) b hb
theorem W16_keep (c : Dev nD) (b : Ref sig .tc) (hb : ∀ w, Pipeline.arrRef spec5 w = b → (cfg5.win w).isOut = false) :
    W16 m ρ c (Proc.devRef .tc b) = W15 m ρ c (Proc.devRef .tc b) :=
  keep_of_in (dat5 (En15 m ρ) c) (A_eq5 (En15 m ρ) c) (W16_arr m ρ c) (W16_of_ne m ρ c) b hb
theorem W18_keep (c : Dev nD) (b : Ref sig .tc) (hb : ∀ w, Pipeline.arrRef spec6 w = b → (cfg6.win w).isOut = false) :
    W18 m ρ c (Proc.devRef .tc b) = W17 m ρ c (Proc.devRef .tc b) :=
  keep_of_in (dat6 (En17 m ρ) c) (A_eq6 (En17 m ρ) c) (W18_arr m ρ c) (W18_of_ne m ρ c) b hb
theorem W19_keep (c : Dev nD) (b : Ref sig .tc) (hb : ∀ w, Pipeline.arrRef spec7 w = b → (cfg7.win w).isOut = false) :
    W19 m ρ c (Proc.devRef .tc b) = W18 m ρ c (Proc.devRef .tc b) :=
  keep_of_in (dat7 (En18 m ρ) c) (A_eq7 (En18 m ρ) c) (W19_arr m ρ c) (W19_of_ne m ρ c) b hb
theorem W20_keep (c : Dev nD) (b : Ref sig .tc) (hb : ∀ w, Pipeline.arrRef spec8 w = b → (cfg8.win w).isOut = false) :
    W20 m ρ c (Proc.devRef .tc b) = W19 m ρ c (Proc.devRef .tc b) :=
  keep_of_in (dat8 (En19 m ρ) c) (A_eq8 (En19 m ρ) c) (W20_arr m ρ c) (W20_of_ne m ρ c) b hb
theorem W22_keep (c : Dev nD) (b : Ref sig .tc) (hb : ∀ w, Pipeline.arrRef spec9 w = b → (cfg9.win w).isOut = false) :
    W22 m ρ c (Proc.devRef .tc b) = W21 m ρ c (Proc.devRef .tc b) :=
  keep_of_in (dat9 (En21 m ρ) c) (A_eq9 (En21 m ρ) c) (W22_arr m ρ c) (W22_of_ne m ρ c) b hb
theorem W24_keep (c : Dev nD) (b : Ref sig .tc) (hb : ∀ w, Pipeline.arrRef spec10 w = b → (cfg10.win w).isOut = false) :
    W24 m ρ c (Proc.devRef .tc b) = W23 m ρ c (Proc.devRef .tc b) :=
  keep_of_in (dat10 (En23 m ρ) c) (A_eq10 (En23 m ρ) c) (W24_arr m ρ c) (W24_of_ne m ρ c) b hb

abbrev args : List (Ref sig .tc) :=
  [main_arg0, main_arg1, main_arg2, main_arg3, main_arg4, main_arg5, main_arg6, main_arg7, main_arg8, main_arg9, main_arg10, main_arg11, main_arg12, main_arg13, main_arg14]

/-- No item writes an argument array. -/
theorem W1_arg (c : Dev nD) {b : Ref sig .tc} (hb : b ∈ args) : W1 m ρ c (Proc.devRef .tc b) = m ((c : Thread nD τ).loc b) :=
  StableHlo.after_of_writes_sub hostOps0 _ hostOps0_writes ((by decide : ∀ b ∈ args, b ∉ hostOps0_W) b hb)
theorem W2_arg (c : Dev nD) {b : Ref sig .tc} (hb : b ∈ args) : W2 m ρ c (Proc.devRef .tc b) = m ((c : Thread nD τ).loc b) :=
  (StableHlo.after_of_writes_sub hostOps0_1 _ hostOps0_1_writes ((by decide : ∀ b ∈ args, b ∉ hostOps0_1_W) b hb)).trans (W1_arg m ρ c hb)
theorem W3_arg (c : Dev nD) {b : Ref sig .tc} (hb : b ∈ args) : W3 m ρ c (Proc.devRef .tc b) = m ((c : Thread nD τ).loc b) :=
  (StableHlo.after_of_writes_sub hostOps0_2 _ hostOps0_2_writes ((by decide : ∀ b ∈ args, b ∉ hostOps0_2_W) b hb)).trans (W2_arg m ρ c hb)
theorem W4_arg (c : Dev nD) {b : Ref sig .tc} (hb : b ∈ args) : W4 m ρ c (Proc.devRef .tc b) = m ((c : Thread nD τ).loc b) :=
  (StableHlo.after_of_writes_sub hostOps0_3 _ hostOps0_3_writes ((by decide : ∀ b ∈ args, b ∉ hostOps0_3_W) b hb)).trans (W3_arg m ρ c hb)
theorem W5_arg (c : Dev nD) {b : Ref sig .tc} (hb : b ∈ args) : W5 m ρ c (Proc.devRef .tc b) = m ((c : Thread nD τ).loc b) :=
  (StableHlo.after_of_writes_sub hostOps0_4 _ hostOps0_4_writes ((by decide : ∀ b ∈ args, b ∉ hostOps0_4_W) b hb)).trans (W4_arg m ρ c hb)
theorem W6_arg (c : Dev nD) {b : Ref sig .tc} (hb : b ∈ args) : W6 m ρ c (Proc.devRef .tc b) = m ((c : Thread nD τ).loc b) :=
  (StableHlo.after_of_writes_sub hostOps0_5 _ hostOps0_5_writes ((by decide : ∀ b ∈ args, b ∉ hostOps0_5_W) b hb)).trans (W5_arg m ρ c hb)
theorem W7_arg (c : Dev nD) {b : Ref sig .tc} (hb : b ∈ args) : W7 m ρ c (Proc.devRef .tc b) = m ((c : Thread nD τ).loc b) :=
  (StableHlo.after_of_writes_sub hostOps0_6 _ hostOps0_6_writes ((by decide : ∀ b ∈ args, b ∉ hostOps0_6_W) b hb)).trans (W6_arg m ρ c hb)
theorem W8_arg (c : Dev nD) {b : Ref sig .tc} (hb : b ∈ args) : W8 m ρ c (Proc.devRef .tc b) = m ((c : Thread nD τ).loc b) :=
  (StableHlo.after_of_writes_sub hostOps0_7 _ hostOps0_7_writes ((by decide : ∀ b ∈ args, b ∉ hostOps0_7_W) b hb)).trans (W7_arg m ρ c hb)
theorem W9_arg (c : Dev nD) {b : Ref sig .tc} (hb : b ∈ args) : W9 m ρ c (Proc.devRef .tc b) = m ((c : Thread nD τ).loc b) :=
  (StableHlo.after_of_writes_sub hostOps0_8 _ hostOps0_8_writes ((by decide : ∀ b ∈ args, b ∉ hostOps0_8_W) b hb)).trans (W8_arg m ρ c hb)
theorem W10_arg (c : Dev nD) {b : Ref sig .tc} (hb : b ∈ args) : W10 m ρ c (Proc.devRef .tc b) = m ((c : Thread nD τ).loc b) :=
  (W10_keep m ρ c b ((by decide : ∀ b ∈ args, ∀ w, Pipeline.arrRef spec0 w = b → (cfg0.win w).isOut = false) b hb)).trans (W9_arg m ρ c hb)
theorem W11_arg (c : Dev nD) {b : Ref sig .tc} (hb : b ∈ args) : W11 m ρ c (Proc.devRef .tc b) = m ((c : Thread nD τ).loc b) :=
  (W11_keep m ρ c b ((by decide : ∀ b ∈ args, ∀ w, Pipeline.arrRef spec1 w = b → (cfg1.win w).isOut = false) b hb)).trans (W10_arg m ρ c hb)
theorem W12_arg (c : Dev nD) {b : Ref sig .tc} (hb : b ∈ args) : W12 m ρ c (Proc.devRef .tc b) = m ((c : Thread nD τ).loc b) :=
  (W12_keep m ρ c b ((by decide : ∀ b ∈ args, ∀ w, Pipeline.arrRef spec2 w = b → (cfg2.win w).isOut = false) b hb)).trans (W11_arg m ρ c hb)
theorem W13_arg (c : Dev nD) {b : Ref sig .tc} (hb : b ∈ args) : W13 m ρ c (Proc.devRef .tc b) = m ((c : Thread nD τ).loc b) :=
  (StableHlo.after_of_writes_sub hostOps3 _ hostOps3_writes ((by decide : ∀ b ∈ args, b ∉ hostOps3_W) b hb)).trans (W12_arg m ρ c hb)
theorem W14_arg (c : Dev nD) {b : Ref sig .tc} (hb : b ∈ args) : W14 m ρ c (Proc.devRef .tc b) = m ((c : Thread nD τ).loc b) :=
  (W14_keep m ρ c b ((by decide : ∀ b ∈ args, ∀ w, Pipeline.arrRef spec3 w = b → (cfg3.win w).isOut = false) b hb)).trans (W13_arg m ρ c hb)
theorem W15_arg (c : Dev nD) {b : Ref sig .tc} (hb : b ∈ args) : W15 m ρ c (Proc.devRef .tc b) = m ((c : Thread nD τ).loc b) :=
  (W15_keep m ρ c b ((by decide : ∀ b ∈ args, ∀ w, Pipeline.arrRef spec4 w = b → (cfg4.win w).isOut = false) b hb)).trans (W14_arg m ρ c hb)
theorem W16_arg (c : Dev nD) {b : Ref sig .tc} (hb : b ∈ args) : W16 m ρ c (Proc.devRef .tc b) = m ((c : Thread nD τ).loc b) :=
  (W16_keep m ρ c b ((by decide : ∀ b ∈ args, ∀ w, Pipeline.arrRef spec5 w = b → (cfg5.win w).isOut = false) b hb)).trans (W15_arg m ρ c hb)
theorem W17_arg (c : Dev nD) {b : Ref sig .tc} (hb : b ∈ args) : W17 m ρ c (Proc.devRef .tc b) = m ((c : Thread nD τ).loc b) :=
  (StableHlo.after_of_writes_sub hostOps6 _ hostOps6_writes ((by decide : ∀ b ∈ args, b ∉ hostOps6_W) b hb)).trans (W16_arg m ρ c hb)
theorem W18_arg (c : Dev nD) {b : Ref sig .tc} (hb : b ∈ args) : W18 m ρ c (Proc.devRef .tc b) = m ((c : Thread nD τ).loc b) :=
  (W18_keep m ρ c b ((by decide : ∀ b ∈ args, ∀ w, Pipeline.arrRef spec6 w = b → (cfg6.win w).isOut = false) b hb)).trans (W17_arg m ρ c hb)
theorem W19_arg (c : Dev nD) {b : Ref sig .tc} (hb : b ∈ args) : W19 m ρ c (Proc.devRef .tc b) = m ((c : Thread nD τ).loc b) :=
  (W19_keep m ρ c b ((by decide : ∀ b ∈ args, ∀ w, Pipeline.arrRef spec7 w = b → (cfg7.win w).isOut = false) b hb)).trans (W18_arg m ρ c hb)
theorem W20_arg (c : Dev nD) {b : Ref sig .tc} (hb : b ∈ args) : W20 m ρ c (Proc.devRef .tc b) = m ((c : Thread nD τ).loc b) :=
  (W20_keep m ρ c b ((by decide : ∀ b ∈ args, ∀ w, Pipeline.arrRef spec8 w = b → (cfg8.win w).isOut = false) b hb)).trans (W19_arg m ρ c hb)
theorem W21_arg (c : Dev nD) {b : Ref sig .tc} (hb : b ∈ args) : W21 m ρ c (Proc.devRef .tc b) = m ((c : Thread nD τ).loc b) :=
  (StableHlo.after_of_writes_sub hostOps9 _ hostOps9_writes ((by decide : ∀ b ∈ args, b ∉ hostOps9_W) b hb)).trans (W20_arg m ρ c hb)
theorem W22_arg (c : Dev nD) {b : Ref sig .tc} (hb : b ∈ args) : W22 m ρ c (Proc.devRef .tc b) = m ((c : Thread nD τ).loc b) :=
  (W22_keep m ρ c b ((by decide : ∀ b ∈ args, ∀ w, Pipeline.arrRef spec9 w = b → (cfg9.win w).isOut = false) b hb)).trans (W21_arg m ρ c hb)
theorem W23_arg (c : Dev nD) {b : Ref sig .tc} (hb : b ∈ args) : W23 m ρ c (Proc.devRef .tc b) = m ((c : Thread nD τ).loc b) :=
  (StableHlo.after_of_writes_sub hostOps10 _ hostOps10_writes ((by decide : ∀ b ∈ args, b ∉ hostOps10_W) b hb)).trans (W22_arg m ρ c hb)
theorem W24_arg (c : Dev nD) {b : Ref sig .tc} (hb : b ∈ args) : W24 m ρ c (Proc.devRef .tc b) = m ((c : Thread nD τ).loc b) :=
  (W24_keep m ρ c b ((by decide : ∀ b ∈ args, ∀ w, Pipeline.arrRef spec10 w = b → (cfg10.win w).isOut = false) b hb)).trans (W23_arg m ρ c hb)
theorem W25_arg (c : Dev nD) {b : Ref sig .tc} (hb : b ∈ args) : W25 m ρ c (Proc.devRef .tc b) = m ((c : Thread nD τ).loc b) :=
  (StableHlo.after_of_writes_sub hostOps11 _ hostOps11_writes ((by decide : ∀ b ∈ args, b ∉ hostOps11_W) b hb)).trans (W24_arg m ρ c hb)
theorem W26_arg (c : Dev nD) {b : Ref sig .tc} (hb : b ∈ args) : W26 m ρ c (Proc.devRef .tc b) = m ((c : Thread nD τ).loc b) :=
  (StableHlo.after_of_writes_sub hostOps11_1 _ hostOps11_1_writes ((by decide : ∀ b ∈ args, b ∉ hostOps11_1_W) b hb)).trans (W25_arg m ρ c hb)
theorem W27_arg (c : Dev nD) {b : Ref sig .tc} (hb : b ∈ args) : W27 m ρ c (Proc.devRef .tc b) = m ((c : Thread nD τ).loc b) :=
  (StableHlo.after_of_writes_sub hostOps11_2 _ hostOps11_2_writes ((by decide : ∀ b ∈ args, b ∉ hostOps11_2_W) b hb)).trans (W26_arg m ρ c hb)

def pdats : (p : Fin 11) → (c : Dev nD) → Dat τ (Elt F) Unit ℕ (UR sig nD τ) ℕ (Pipeline.pin (pcfgs (F := F)) adm p) c
  | ⟨0, _⟩ => fun c => dat0 (En9 m ρ) c
  | ⟨1, _⟩ => fun c => dat1 (En10 m ρ) c
  | ⟨2, _⟩ => fun c => dat2 (En11 m ρ) c
  | ⟨3, _⟩ => fun c => dat3 (En13 m ρ) c
  | ⟨4, _⟩ => fun c => dat4 (En14 m ρ) c
  | ⟨5, _⟩ => fun c => dat5 (En15 m ρ) c
  | ⟨6, _⟩ => fun c => dat6 (En17 m ρ) c
  | ⟨7, _⟩ => fun c => dat7 (En18 m ρ) c
  | ⟨8, _⟩ => fun c => dat8 (En19 m ρ) c
  | ⟨9, _⟩ => fun c => dat9 (En21 m ρ) c
  | ⟨10, _⟩ => fun c => dat10 (En23 m ρ) c

abbrev Tₙ (c : Dev nD) : sProp 𝕄 := iprop(StableHlo.held (c : Thread nD τ) (Pipeline.ucRefs τ sig) (W27 m ρ c) ∗ ∃ r, prngReg c r)

section
set_option backward.isDefEq.respectTransparency.types false
def reg0 : Pipeline.RegionSeg (pcfgs (F := F)) adm (pdats m ρ) () defs₀ 𝒱₀ L lv 0 :=
  mkReg (pdats m ρ) 0 launch0 (W9 m ρ) (W10 m ρ) (body_obligation0 (En9 m ρ)) (owed_eq0 (En9 m ρ)) (q_eq0 (En9 m ρ)) (fun _ => rfl)
    (A_eq0 (En9 m ρ)) (hin0 (En9 m ρ)) (hout0 (En9 m ρ)) (W10_arr m ρ) (W10_of_ne m ρ)
def reg1 : Pipeline.RegionSeg (pcfgs (F := F)) adm (pdats m ρ) () defs₀ 𝒱₀ L lv 1 :=
  mkReg (pdats m ρ) 1 launch1 (W10 m ρ) (W11 m ρ) (body_obligation1 (En10 m ρ)) (owed_eq1 (En10 m ρ)) (q_eq1 (En10 m ρ)) (fun _ => rfl)
    (A_eq1 (En10 m ρ)) (hin1 (En10 m ρ)) (hout1 (En10 m ρ)) (W11_arr m ρ) (W11_of_ne m ρ)
def reg2 : Pipeline.RegionSeg (pcfgs (F := F)) adm (pdats m ρ) () defs₀ 𝒱₀ L lv 2 :=
  mkReg (pdats m ρ) 2 launch2 (W11 m ρ) (W12 m ρ) (body_obligation2 (En11 m ρ)) (owed_eq2 (En11 m ρ)) (q_eq2 (En11 m ρ)) (fun _ => rfl)
    (A_eq2 (En11 m ρ)) (hin2 (En11 m ρ)) (hout2 (En11 m ρ)) (W12_arr m ρ) (W12_of_ne m ρ)
def reg3 : Pipeline.RegionSeg (pcfgs (F := F)) adm (pdats m ρ) () defs₀ 𝒱₀ L lv 3 :=
  mkReg (pdats m ρ) 3 launch3 (W13 m ρ) (W14 m ρ) (body_obligation3 (En13 m ρ)) (owed_eq3 (En13 m ρ)) (q_eq3 (En13 m ρ)) (fun _ => rfl)
    (A_eq3 (En13 m ρ)) (hin3 (En13 m ρ)) (hout3 (En13 m ρ)) (W14_arr m ρ) (W14_of_ne m ρ)
def reg4 : Pipeline.RegionSeg (pcfgs (F := F)) adm (pdats m ρ) () defs₀ 𝒱₀ L lv 4 :=
  mkReg (pdats m ρ) 4 launch4 (W14 m ρ) (W15 m ρ) (body_obligation4 (En14 m ρ)) (owed_eq4 (En14 m ρ)) (q_eq4 (En14 m ρ)) (fun _ => rfl)
    (A_eq4 (En14 m ρ)) (hin4 (En14 m ρ)) (hout4 (En14 m ρ)) (W15_arr m ρ) (W15_of_ne m ρ)
def reg5 : Pipeline.RegionSeg (pcfgs (F := F)) adm (pdats m ρ) () defs₀ 𝒱₀ L lv 5 :=
  mkReg (pdats m ρ) 5 launch5 (W15 m ρ) (W16 m ρ) (body_obligation5 (En15 m ρ)) (owed_eq5 (En15 m ρ)) (q_eq5 (En15 m ρ)) (fun _ => rfl)
    (A_eq5 (En15 m ρ)) (hin5 (En15 m ρ)) (hout5 (En15 m ρ)) (W16_arr m ρ) (W16_of_ne m ρ)
def reg6 : Pipeline.RegionSeg (pcfgs (F := F)) adm (pdats m ρ) () defs₀ 𝒱₀ L lv 6 :=
  mkReg (pdats m ρ) 6 launch6 (W17 m ρ) (W18 m ρ) (body_obligation6 (En17 m ρ)) (owed_eq6 (En17 m ρ)) (q_eq6 (En17 m ρ)) (fun _ => rfl)
    (A_eq6 (En17 m ρ)) (hin6 (En17 m ρ)) (hout6 (En17 m ρ)) (W18_arr m ρ) (W18_of_ne m ρ)
def reg7 : Pipeline.RegionSeg (pcfgs (F := F)) adm (pdats m ρ) () defs₀ 𝒱₀ L lv 7 :=
  mkReg (pdats m ρ) 7 launch7 (W18 m ρ) (W19 m ρ) (body_obligation7 (En18 m ρ)) (owed_eq7 (En18 m ρ)) (q_eq7 (En18 m ρ)) (fun _ => rfl)
    (A_eq7 (En18 m ρ)) (hin7 (En18 m ρ)) (hout7 (En18 m ρ)) (W19_arr m ρ) (W19_of_ne m ρ)
def reg8 : Pipeline.RegionSeg (pcfgs (F := F)) adm (pdats m ρ) () defs₀ 𝒱₀ L lv 8 :=
  mkReg (pdats m ρ) 8 launch8 (W19 m ρ) (W20 m ρ) (body_obligation8 (En19 m ρ)) (owed_eq8 (En19 m ρ)) (q_eq8 (En19 m ρ)) (fun _ => rfl)
    (A_eq8 (En19 m ρ)) (hin8 (En19 m ρ)) (hout8 (En19 m ρ)) (W20_arr m ρ) (W20_of_ne m ρ)
def reg9 : Pipeline.RegionSeg (pcfgs (F := F)) adm (pdats m ρ) () defs₀ 𝒱₀ L lv 9 :=
  mkReg (pdats m ρ) 9 launch9 (W21 m ρ) (W22 m ρ) (body_obligation9 (En21 m ρ)) (owed_eq9 (En21 m ρ)) (q_eq9 (En21 m ρ)) (fun _ => rfl)
    (A_eq9 (En21 m ρ)) (hin9 (En21 m ρ)) (hout9 (En21 m ρ)) (W22_arr m ρ) (W22_of_ne m ρ)
def reg10 : Pipeline.RegionSeg (pcfgs (F := F)) adm (pdats m ρ) () defs₀ 𝒱₀ L lv 10 :=
  mkReg (pdats m ρ) 10 launch10 (W23 m ρ) (W24 m ρ) (body_obligation10 (En23 m ρ)) (owed_eq10 (En23 m ρ)) (q_eq10 (En23 m ρ)) (fun _ => rfl)
    (A_eq10 (En23 m ρ)) (hin10 (En23 m ρ)) (hout10 (En23 m ρ)) (W24_arr m ρ) (W24_of_ne m ρ)
end

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .region (reg1 m ρ),
    .region (reg2 m ρ),
    .host (hseg hostOps3 hostOps3_sub hostOps3_fresh (W12 m ρ)),
    .region (reg3 m ρ),
    .region (reg4 m ρ),
    .region (reg5 m ρ),
    .host (hseg hostOps6 hostOps6_sub hostOps6_fresh (W16 m ρ)),
    .region (reg6 m ρ),
    .region (reg7 m ρ),
    .region (reg8 m ρ),
    .host (hseg hostOps9 hostOps9_sub hostOps9_fresh (W20 m ρ)),
    .region (reg9 m ρ),
    .host (hseg hostOps10 hostOps10_sub hostOps10_fresh (W22 m ρ)),
    .region (reg10 m ρ),
    .host (hseg hostOps11 hostOps11_sub hostOps11_fresh (W24 m ρ)),
    .host (hseg hostOps11_1 hostOps11_1_sub hostOps11_1_fresh (W25 m ρ)),
    .host (hseg hostOps11_2 hostOps11_2_sub hostOps11_2_fresh (W26 m ρ)) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W27 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        refine (show (iprop(StableHlo.held (c : Thread nD τ) (Pipeline.ucRefs τ sig) (W27 m ρ c) ∗ R c) : sProp 𝕄) ⊢ iprop(Tₙ m ρ c ∗ ∃ W, owes (c : Thread nD τ) (0 : CellTallies nD τ sig Unit) W) from ?_)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c => h c)

theorem end_arg (μ : (ℓ : Loc nD τ sig) → Buf (Elt F) ℓ)
    (h : ∀ c : Dev nD, ∀ b ∈ Pipeline.ucRefs τ sig, μ (((c : Thread nD τ)).1, b) = W27 m ρ c b) (c : Dev nD) {b : Ref sig .tc} (hb : b ∈ args) :
    μ ((c.tc : Thread nD τ).loc b) = m ((c.tc : Thread nD τ).loc b) :=
  (h c _ (mem_uc b ((by decide : ∀ b ∈ args, ¬ (Proc.devRef .tc b : DevRef τ sig).isScoped) b hb))).trans (W27_arg m ρ c hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide),
    end_arg m ρ _ h c (by decide)⟩)
    (run_all m ρ)

end Cert.KernelIdeal.Hand

end
-- ==== Proof.Spec.lean ====
import Idealize.ShloMosaic.PureOps.Ideal

open scoped BigOperators

namespace Cert.Spec

open Idealize.ShloMosaic

abbrev NP : Nat := 100352
abbrev EP : Nat := 1601536
abbrev NN : Nat := 100000
abbrev EE : Nat := 1600000
abbrev NG : Nat := 1024
abbrev NH : Nat := 128

/-- Entry `n` of the 0/1 row a word selects: 1 where the word is the number `n`. -/
noncomputable def oh (s : BitVec 32) (n : Nat) : EReal := if s = BitVec.ofNat 32 n then 1 else 0

noncomputable def kInit {R : Nat} (x : Fin R → Fin 13 → EReal) (W : Fin 13 → Fin NH → EReal) (b : Fin NH → EReal) :
    Fin R → Fin NH → EReal :=
  fun n j => (∑ k, x n k * W k j) + b j

noncomputable def kGather (src : Fin EP → BitVec 32) (h : Fin NP → Fin NH → EReal) (ed : Fin EP → EReal)
    (We be : Fin NH → EReal) : Fin EP → Fin NH → EReal :=
  fun e j => max ((∑ n : Fin NP, oh (src e) n.val * h n j) + (ed e * We j + be j)) 0

noncomputable def kScatter (dst : Fin EP → BitVec 32) (msg : Fin EP → Fin NH → EReal) : Fin NP → Fin NH → EReal :=
  fun n j => ∑ e : Fin EP, oh (dst e) n.val * msg e j

noncomputable def combine {R : Nat} (h aggr : Fin R → Fin NH → EReal) (eps : EReal) (W : Fin NH → Fin NH → EReal)
    (b : Fin NH → EReal) : Fin R → Fin NH → EReal :=
  fun n j => max ((∑ k, ((1 + eps) * h n k + aggr n k) * W k j) + b j) 0 + h n j

noncomputable def kPoolS (batch : Fin NN → BitVec 32) (h : Fin NN → Fin NH → EReal) : Fin NG → Fin NH → EReal :=
  fun g j => ∑ n : Fin NN, oh (batch n) g.val * h n j
noncomputable def kPoolC (batch : Fin NN → BitVec 32) : Fin NG → EReal :=
  fun g => ∑ n : Fin NN, oh (batch n) g.val

noncomputable def tail (sums : Fin NG → Fin NH → EReal) (cnts : Fin NG → EReal) (Wd1 : Fin NH → Fin 64 → EReal)
    (bd1 : Fin 64 → EReal) (Wd2 : Fin 64 → EReal) (bd2 : EReal) : Fin NG → EReal :=
  fun g => (∑ k : Fin 64, max ((∑ j : Fin NH, Ideal.div (sums g j) (max (cnts g) 1) * Wd1 j k) + bd1 k) 0 * Wd2 k) + bd2

structure Args where
  x : Fin NN → Fin 13 → EReal
  ed : Fin EE → EReal
  srcW : Fin EE → BitVec 32
  dstW : Fin EE → BitVec 32
  batchW : Fin NN → BitVec 32
  Wn : Fin 13 → Fin NH → EReal
  bn : Fin NH → EReal
  We : Fin NH → EReal
  be : Fin NH → EReal
  convW : Fin 3 → Fin NH → Fin NH → EReal
  convb : Fin 3 → Fin NH → EReal
  eps : Fin 3 → EReal
  Wd1 : Fin NH → Fin 64 → EReal
  bd1 : Fin 64 → EReal
  Wd2 : Fin 64 → EReal
  bd2 : EReal

noncomputable def padX (x : Fin NN → Fin 13 → EReal) : Fin NP → Fin 13 → EReal :=
  fun n k => if h : n.val < NN then x ⟨n.val, h⟩ k else 0
/-- Padding words are the number 100000, which no node row below 100000 equals: a padded edge selects nothing real. -/
def padW (s : Fin EE → BitVec 32) : Fin EP → BitVec 32 :=
  fun e => if h : e.val < EE then s ⟨e.val, h⟩ else 100000#32
noncomputable def padD (d : Fin EE → EReal) : Fin EP → EReal :=
  fun e => if h : e.val < EE then d ⟨e.val, h⟩ else 0

noncomputable def kLayer (a : Args) (l : Fin 3) (h : Fin NP → Fin NH → EReal) : Fin NP → Fin NH → EReal :=
  combine h (kScatter (padW a.dstW) (kGather (padW a.srcW) h (padD a.ed) a.We a.be)) (a.eps l) (a.convW l) (a.convb l)

noncomputable def kH0 (a : Args) : Fin NP → Fin NH → EReal := kInit (padX a.x) a.Wn a.bn
noncomputable def kH1 (a : Args) : Fin NP → Fin NH → EReal := kLayer a 0 (kH0 a)
noncomputable def kH2 (a : Args) : Fin NP → Fin NH → EReal := kLayer a 1 (kH1 a)
noncomputable def kH3 (a : Args) : Fin NP → Fin NH → EReal := kLayer a 2 (kH2 a)

def topRows {α : Type} (h : Fin NP → Fin NH → α) : Fin NN → Fin NH → α :=
  fun n j => h ⟨n.val, Nat.lt_of_lt_of_le n.isLt (by decide)⟩ j

/-- The network in selection form over the padded arrays: rows are picked by sums against 0/1 selectors. -/
noncomputable def kNet (a : Args) : Fin NG → EReal :=
  tail (kPoolS a.batchW (topRows (kH3 a))) (kPoolC a.batchW) a.Wd1 a.bd1 a.Wd2 a.bd2

noncomputable def rMsg (src : Fin EE → Fin NN) (h : Fin NN → Fin NH → EReal) (a : Args) : Fin EE → Fin NH → EReal :=
  fun e j => max (h (src e) j + ((∑ _k : Fin 1, a.ed e * a.We j) + a.be j)) 0

noncomputable def rAggr (dst : Fin EE → Fin NN) (msg : Fin EE → Fin NH → EReal) : Fin NN → Fin NH → EReal :=
  fun n j => 0 + ∑ e : Fin EE, if dst e = n then msg e j else 0

noncomputable def rLayer (a : Args) (src dst : Fin EE → Fin NN) (l : Fin 3) (h : Fin NN → Fin NH → EReal) :
    Fin NN → Fin NH → EReal :=
  combine h (rAggr dst (rMsg src h a)) (a.eps l) (a.convW l) (a.convb l)

noncomputable def rH0 (a : Args) : Fin NN → Fin NH → EReal := kInit a.x a.Wn a.bn
noncomputable def rH1 (a : Args) (src dst : Fin EE → Fin NN) : Fin NN → Fin NH → EReal := rLayer a src dst 0 (rH0 a)
noncomputable def rH2 (a : Args) (src dst : Fin EE → Fin NN) : Fin NN → Fin NH → EReal := rLayer a src dst 1 (rH1 a src dst)
noncomputable def rH3 (a : Args) (src dst : Fin EE → Fin NN) : Fin NN → Fin NH → EReal := rLayer a src dst 2 (rH2 a src dst)

noncomputable def rPoolS (batch : Fin NN → Fin NG) (h : Fin NN → Fin NH → EReal) : Fin NG → Fin NH → EReal :=
  fun g j => 0 + ∑ n : Fin NN, if batch n = g then h n j else 0
noncomputable def rPoolC (batch : Fin NN → Fin NG) : Fin NG → EReal :=
  fun g => 0 + ∑ n : Fin NN, if batch n = g then (1 : EReal) else 0

/-- The network in direct form: rows are picked by index, sums run over the edges or nodes whose index matches. -/
noncomputable def rNet (a : Args) (src dst : Fin EE → Fin NN) (batch : Fin NN → Fin NG) : Fin NG → EReal :=
  tail (rPoolS batch (rH3 a src dst)) (rPoolC batch) a.Wd1 a.bd1 a.Wd2 a.bd2

end Cert.Spec
-- ==== Proof.KI.ChainArgs.lean ====
import proofs.«429186_j15229954031644_1_alg».proof.KernelIdeal
import proofs.«429186_j15229954031644_1_alg».proof.Proof.Spec
import Idealize.ShloMosaic.Lib.ValueIdx

noncomputable section

namespace Cert.KernelIdeal.Hand

open Idealize.ShloMosaic Idealize.ShloMosaic.TcCoe Idealize.ShloMosaic.ValueIdx
open Cert.KernelIdeal

def kArgs (m : (ℓ : Loc nD τ sig) → Buf (Elt Ideal) ℓ) (c : Dev nD) : Spec.Args where
  x n k := m ((c.tc : Thread nD τ).loc main_arg0) (ix2 n k)
  ed e := m ((c.tc : Thread nD τ).loc main_arg1) (ix1 e)
  srcW e := m ((c.tc : Thread nD τ).loc main_arg2) (ix2 (0 : Fin 2) e)
  dstW e := m ((c.tc : Thread nD τ).loc main_arg2) (ix2 (1 : Fin 2) e)
  batchW n := m ((c.tc : Thread nD τ).loc main_arg3) (ix1 n)
  Wn k j := m ((c.tc : Thread nD τ).loc main_arg4) (ix2 k j)
  bn j := m ((c.tc : Thread nD τ).loc main_arg5) (ix1 j)
  We j := m ((c.tc : Thread nD τ).loc main_arg6) (ix2 (0 : Fin 1) j)
  be j := m ((c.tc : Thread nD τ).loc main_arg7) (ix1 j)
  convW l k j := m ((c.tc : Thread nD τ).loc main_arg8) (ix3 l k j)
  convb l j := m ((c.tc : Thread nD τ).loc main_arg9) (ix2 l j)
  eps l := m ((c.tc : Thread nD τ).loc main_arg10) (ix1 l)
  Wd1 j k := m ((c.tc : Thread nD τ).loc main_arg11) (ix2 j k)
  bd1 k := m ((c.tc : Thread nD τ).loc main_arg12) (ix1 k)
  Wd2 k := m ((c.tc : Thread nD τ).loc main_arg13) (ix2 k (0 : Fin 1))
  bd2 := m ((c.tc : Thread nD τ).loc main_arg14) (ix1 (0 : Fin 1))

end Cert.KernelIdeal.Hand

end
-- ==== Proof.KI.TailRead.lean ====
import proofs.«429186_j15229954031644_1_alg».proof.Proof.Gen.KernelIdeal.Launch
import proofs.«429186_j15229954031644_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo

section DotA

theorem dotA_l0 (i : S1024x64.Idx) (q : dot_S1024x128_S128x64_S1024x64_1_0_0_1_n_n.contr.Idx) : (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide),
    dif_pos (show (0 : Fin S1024x128.rank) ∈ dot_S1024x128_S128x64_S1024x64_1_0_0_1_n_n.lhsNonContracting by decide)]
  rfl

theorem dotA_l1 (i : S1024x64.Idx) (q : dot_S1024x128_S128x64_S1024x64_1_0_0_1_n_n.contr.Idx) : (dot_S1024x128_S128x64_S1024x64_1_0_0_1_n_n.lhsIdx i q 1).val = (q ⟨0, by decide⟩).val :=
  dot_S1024x128_S128x64_S1024x64_1_0_0_1_n_n.lhsIdx_val_of_single rfl i q

theorem dotA_r0 (i : S1024x64.Idx) (q : dot_S1024x128_S128x64_S1024x64_1_0_0_1_n_n.contr.Idx) : (dot_S1024x128_S128x64_S1024x64_1_0_0_1_n_n.rhsIdx i q 0).val = (q ⟨0, by decide⟩).val :=
  dot_S1024x128_S128x64_S1024x64_1_0_0_1_n_n.rhsIdx_val_of_single rfl i q

theorem dotA_r1 (i : S1024x64.Idx) (q : dot_S1024x128_S128x64_S1024x64_1_0_0_1_n_n.contr.Idx) : (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide),
    dif_pos (show (1 : Fin S128x64.rank) ∈ dot_S1024x128_S128x64_S1024x64_1_0_0_1_n_n.rhsNonContracting by decide)]
  rfl

theorem dotA_apply (l : FVec Ideal S1024x128 .f32) (r : FVec Ideal S128x64 .f32)
    (g : Fin 1024) (k : Fin 64) :
    Host.dotGeneral (F := Ideal) (φ₁ := .f32) (φ₂ := .f32) dot_S1024x128_S128x64_S1024x64_1_0_0_1_n_n none l r (ix2 g k) = ∑ j : Fin 128, l (ix2 g j) * r (ix2 j k) := by
  simp only [Host.dotGeneral]
  rw [Ideal.dotGeneral_apply, ← Equiv.sum_comp (contrEquiv1 dot_S1024x128_S128x64_S1024x64_1_0_0_1_n_n 128 rfl rfl).symm]
  refine Finset.sum_congr rfl fun j _ => ?_
  have hj := contrEquiv1_symm_val dot_S1024x128_S128x64_S1024x64_1_0_0_1_n_n 128 rfl rfl j
  have el : dot_S1024x128_S128x64_S1024x64_1_0_0_1_n_n.lhsIdx (ix2 g k) ((contrEquiv1 dot_S1024x128_S128x64_S1024x64_1_0_0_1_n_n 128 rfl rfl).symm j) = ix2 g j := funext fun a => Fin.ext (by
    match a with
    | ⟨0, _⟩ => exact dotA_l0 _ _
    | ⟨1, _⟩ => exact (dotA_l1 _ _).trans hj)
  have er : dot_S1024x128_S128x64_S1024x64_1_0_0_1_n_n.rhsIdx (ix2 g k) ((contrEquiv1 dot_S1024x128_S128x64_S1024x64_1_0_0_1_n_n 128 rfl rfl).symm j) = ix2 j k := funext fun a => Fin.ext (by
    match a with
    | ⟨0, _⟩ => exact (dotA_r0 _ _).trans hj
    | ⟨1, _⟩ => exact dotA_r1 _ _)
  rw [el, er]

end DotA

section DotB

theorem dotB_l0 (i : S1024x1.Idx) (q : dot_S1024x64_S64x1_S1024x1_1_0_0_1_n_n.contr.Idx) : (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide),
    dif_pos (show (0 : Fin S1024x64.rank) ∈ dot_S1024x64_S64x1_S1024x1_1_0_0_1_n_n.lhsNonContracting by decide)]
  rfl
theorem dotB_l1 (i : S1024x1.Idx) (q : dot_S1024x64_S64x1_S1024x1_1_0_0_1_n_n.contr.Idx) : (dot_S1024x64_S64x1_S1024x1_1_0_0_1_n_n.lhsIdx i q 1).val = (q ⟨0, by decide⟩).val :=
  dot_S1024x64_S64x1_S1024x1_1_0_0_1_n_n.lhsIdx_val_of_single rfl i q
theorem dotB_r0 (i : S1024x1.Idx) (q : dot_S1024x64_S64x1_S1024x1_1_0_0_1_n_n.contr.Idx) : (dot_S1024x64_S64x1_S1024x1_1_0_0_1_n_n.rhsIdx i q 0).val = (q ⟨0, by decide⟩).val :=
  dot_S1024x64_S64x1_S1024x1_1_0_0_1_n_n.rhsIdx_val_of_single rfl i q
theorem dotB_r1 (i : S1024x1.Idx) (q : dot_S1024x64_S64x1_S1024x1_1_0_0_1_n_n.contr.Idx) : (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide),
    dif_pos (show (1 : Fin S64x1.rank) ∈ dot_S1024x64_S64x1_S1024x1_1_0_0_1_n_n.rhsNonContracting by decide)]
  rfl

theorem dotB_apply (l : FVec Ideal S1024x64 .f32) (r : FVec Ideal S64x1 .f32)
    (g : Fin 1024) (z : Fin 1) :
    Host.dotGeneral (F := Ideal) (φ₁ := .f32) (φ₂ := .f32) dot_S1024x64_S64x1_S1024x1_1_0_0_1_n_n none l r (ix2 g z) = ∑ k : Fin 64, l (ix2 g k) * r (ix2 k z) := by
  simp only [Host.dotGeneral]
  rw [Ideal.dotGeneral_apply, ← Equiv.sum_comp (contrEquiv1 dot_S1024x64_S64x1_S1024x1_1_0_0_1_n_n 64 rfl rfl).symm]
  refine Finset.sum_congr rfl fun k _ => ?_
  have hk := contrEquiv1_symm_val dot_S1024x64_S64x1_S1024x1_1_0_0_1_n_n 64 rfl rfl k
  have el : dot_S1024x64_S64x1_S1024x1_1_0_0_1_n_n.lhsIdx (ix2 g z) ((contrEquiv1 dot_S1024x64_S64x1_S1024x1_1_0_0_1_n_n 64 rfl rfl).symm k) = ix2 g k := funext fun a => Fin.ext (by
    match a with
    | ⟨0, _⟩ => exact dotB_l0 _ _
    | ⟨1, _⟩ => exact (dotB_l1 _ _).trans hk)
  have er : dot_S1024x64_S64x1_S1024x1_1_0_0_1_n_n.rhsIdx (ix2 g z) ((contrEquiv1 dot_S1024x64_S64x1_S1024x1_1_0_0_1_n_n 64 rfl rfl).symm k) = ix2 k z := funext fun a => Fin.ext (by
    match a with
    | ⟨0, _⟩ => exact (dotB_r0 _ _).trans hk
    | ⟨1, _⟩ => exact dotB_r1 _ _)
  rw [el, er]

end DotB

section Bcast
variable {α : Type}

theorem bc_col_apply (x : S1024x1.Idx → α) (g : Fin 1024) (j : Fin 128) :
    broadcastInDim S1024x128 ![0, 1] bcast_S1024x1_S1024x128_0_1 x (ix2 g j) = x (ix2 g (0 : Fin 1)) :=
  broadcastInDim_apply _ _ x _ _ fun a => match a with
    | ⟨0, _⟩ => rfl
    | ⟨1, _⟩ => rfl

theorem bc_row64_apply (x : S1x64.Idx → α) (g : Fin 1024) (k : Fin 64) :
    broadcastInDim S1024x64 ![0, 1] bcast_S1x64_S1024x64_0_1 x (ix2 g k) = x (ix2 (0 : Fin 1) k) :=
  broadcastInDim_apply _ _ x _ _ fun a => match a with
    | ⟨0, _⟩ => rfl
    | ⟨1, _⟩ => rfl

theorem bc_vec64_apply (x : S64.Idx → α) (k : Fin 64) :
    broadcastInDim S1x64 ![1] bcast_S64_S1x64_1 x (ix2 (0 : Fin 1) k) = x (ix1 k) :=
  broadcastInDim_apply _ _ x _ _ fun a => match a with
    | ⟨0, _⟩ => rfl

theorem bc_row1_apply (x : S1x1.Idx → α) (g : Fin 1024) (z : Fin 1) :
    broadcastInDim S1024x1 ![0, 1] bcast_S1x1_S1024x1_0_1 x (ix2 g z) = x (ix2 (0 : Fin 1) (0 : Fin 1)) :=
  broadcastInDim_apply _ _ x _ _ fun a => match a with
    | ⟨0, _⟩ => rfl
    | ⟨1, _⟩ => rfl

theorem bc_vec1_apply (x : S1.Idx → α) :
    broadcastInDim S1x1 ![1] bcast_S1_S1x1_1 x (ix2 (0 : Fin 1) (0 : Fin 1)) = x (ix1 (0 : Fin 1)) :=
  broadcastInDim_apply _ _ x _ _ fun a => match a with
    | ⟨0, _⟩ => rfl

theorem slice_top_apply (x : S100352x128.Idx → α) (n : Fin 100000) (j : Fin 128) :
    extractStridedSlice S100000x128 ![0, 0] x slices_S100352x128_S100000x128_0_0 (ix2 n j)
      = x (ix2 (⟨n.val, Nat.lt_of_lt_of_le n.isLt (by decide)⟩ : Fin 100352) j) :=
  extractStridedSlice_apply _ x _ _ _ fun a => match a with
    | ⟨0, _⟩ => by show n.val = 0 + n.val; omega
    | ⟨1, _⟩ => by show j.val = 0 + j.val; omega

theorem reshape_col_apply (x : S100000.Idx → α) (n : Fin 100000) :
    shapeCast S100000x1 x shapeCasts_S100000_S100000x1 (ix2 n (0 : Fin 1)) = x (ix1 n) :=
  shapeCast_apply x _ _ _ (by
    rw [Shape.rowMajor_val_one, Shape.rowMajor_val_two]
    show n.val = n.val * 1 + 0
    omega)

end Bcast

section Head
variable (sums : FVec Ideal S1024x128 .f32) (cnts : FVec Ideal S1x1024 .f32)
  (Wd1 : FVec Ideal S128x64 .f32) (bd1 : FVec Ideal S64 .f32)
  (Wd2 : FVec Ideal S64x1 .f32) (bd2 : FVec Ideal S1 .f32)

def headMean : FVec Ideal S1024x128 .f32 :=
  Host.divf sums (broadcastInDim S1024x128 ![0, 1] bcast_S1024x1_S1024x128_0_1
    (maximumf (transpose S1024x1 [1, 0] cnts transposes_S1x1024_S1024x1_1_0)
      (broadcastInDim S1024x1 ![] bcast_S_S1024x1 (constant (F := Ideal) S_ .f32 0x3F800000#32))))

def headHid : FVec Ideal S1024x64 .f32 :=
  maximumf
    (addf (Host.dotGeneral (F := Ideal) (φ₁ := .f32) (φ₂ := .f32) dot_S1024x128_S128x64_S1024x64_1_0_0_1_n_n none (headMean sums cnts) Wd1)
      (broadcastInDim S1024x64 ![0, 1] bcast_S1x64_S1024x64_0_1 (broadcastInDim S1x64 ![1] bcast_S64_S1x64_1 bd1)))
    (broadcastInDim S1024x64 ![] bcast_S_S1024x64 (constant (F := Ideal) S_ .f32 0x00000000#32))

def headOut : FVec Ideal S1024x1 .f32 :=
  addf (Host.dotGeneral (F := Ideal) (φ₁ := .f32) (φ₂ := .f32) dot_S1024x64_S64x1_S1024x1_1_0_0_1_n_n none (headHid sums cnts Wd1 bd1) Wd2)
    (broadcastInDim S1024x1 ![0, 1] bcast_S1x1_S1024x1_0_1 (broadcastInDim S1x1 ![1] bcast_S1_S1x1_1 bd2))

theorem headMean_apply (g : Fin 1024) (j : Fin 128) :
    headMean sums cnts (ix2 g j) = Ideal.div (sums (ix2 g j)) (max (cnts (ix2 (0 : Fin 1) g)) 1) := by
  unfold headMean
  rw [hostDivf_apply, bc_col_apply, maximumf_apply, transpose_ix2_apply, broadcastInDim_scalar_apply, constant_apply,
    Ideal.ofBits_one_f32]

theorem headHid_apply (g : Fin 1024) (k : Fin 64) :
    headHid sums cnts Wd1 bd1 (ix2 g k)
      = max ((∑ j : Fin 128, headMean sums cnts (ix2 g j) * Wd1 (ix2 j k)) + bd1 (ix1 k)) 0 := by
  unfold headHid
  rw [maximumf_apply, addf_apply, dotA_apply, bc_row64_apply, bc_vec64_apply, broadcastInDim_scalar_apply, constant_apply,
    Ideal.ofBits_zero_f32]

theorem headOut_apply (g : Fin 1024) :
    headOut sums cnts Wd1 bd1 Wd2 bd2 (ix2 g (0 : Fin 1))
      = (∑ k : Fin 64, headHid sums cnts Wd1 bd1 (ix2 g k) * Wd2 (ix2 k (0 : Fin 1))) + bd2 (ix1 (0 : Fin 1)) := by
  unfold headOut
  rw [addf_apply, dotB_apply, bc_row1_apply, bc_vec1_apply]

theorem headOut_read (g : Fin 1024) :
    headOut sums cnts Wd1 bd1 Wd2 bd2 (ix2 g (0 : Fin 1))
      = Spec.tail (fun g j => sums (ix2 g j)) (fun g => cnts (ix2 (0 : Fin 1) g)) (fun j k => Wd1 (ix2 j k))
          (fun k => bd1 (ix1 k)) (fun k => Wd2 (ix2 k (0 : Fin 1))) (bd2 (ix1 (0 : Fin 1))) g := by
  rw [headOut_apply]
  unfold Spec.tail
  refine congrArg (· + bd2 (ix1 (0 : Fin 1))) (Finset.sum_congr rfl fun k _ => ?_)
  rw [headHid_apply]
  refine congrArg (fun t => max (t + bd1 (ix1 k)) 0 * Wd2 (ix2 k (0 : Fin 1))) (Finset.sum_congr rfl fun j _ => ?_)
  rw [headMean_apply]

end Head

theorem v54_term (V : Valuation τ sig (Elt Ideal)) :
    StableHlo.after hostOps11 V (Proc.devRef .tc main_v54)
      = addf (Host.dotGeneral (F := Ideal) (φ₁ := .f32) (φ₂ := .f32) dot_S1024x128_S128x64_S1024x64_1_0_0_1_n_n none
            (headMean (V (Proc.devRef .tc main_v45_0)) (V (Proc.devRef .tc main_v45_1))) (V (Proc.devRef .tc main_arg11)))
          (broadcastInDim S1024x64 ![0, 1] bcast_S1x64_S1024x64_0_1
            (broadcastInDim S1x64 ![1] bcast_S64_S1x64_1 (V (Proc.devRef .tc main_arg12)))) := by
  dsimp only [hostOps11]
  after_results
  rfl

theorem v54_keep13 (V : Valuation τ sig (Elt Ideal)) :
    StableHlo.after hostOps11 V (Proc.devRef .tc main_arg13) = V (Proc.devRef .tc main_arg13) := by
  dsimp only [hostOps11]
  after_results
theorem v54_keep14 (V : Valuation τ sig (Elt Ideal)) :
    StableHlo.after hostOps11 V (Proc.devRef .tc main_arg14) = V (Proc.devRef .tc main_arg14) := by
  dsimp only [hostOps11]
  after_results

theorem v55_term (V : Valuation τ sig (Elt Ideal)) :
    StableHlo.after hostOps11_1 V (Proc.devRef .tc main_v55)
      = maximumf (V (Proc.devRef .tc main_v54))
          (broadcastInDim S1024x64 ![] bcast_S_S1024x64 (constant (F := Ideal) S_ .f32 0x00000000#32)) := by
  dsimp only [hostOps11_1]
  after_results
  rfl
theorem v55_keep13 (V : Valuation τ sig (Elt Ideal)) :
    StableHlo.after hostOps11_1 V (Proc.devRef .tc main_arg13) = V (Proc.devRef .tc main_arg13) := by
  dsimp only [hostOps11_1]
  after_results
theorem v55_keep14 (V : Valuation τ sig (Elt Ideal)) :
    StableHlo.after hostOps11_1 V (Proc.devRef .tc main_arg14) = V (Proc.devRef .tc main_arg14) := by
  dsimp only [hostOps11_1]
  after_results

theorem v59_term (V : Valuation τ sig (Elt Ideal)) :
    StableHlo.after hostOps11_2 V (Proc.devRef .tc main_v59)
      = addf (Host.dotGeneral (F := Ideal) (φ₁ := .f32) (φ₂ := .f32) dot_S1024x64_S64x1_S1024x1_1_0_0_1_n_n none
            (V (Proc.devRef .tc main_v55)) (V (Proc.devRef .tc main_arg13)))
          (broadcastInDim S1024x1 ![0, 1] bcast_S1x1_S1024x1_0_1
            (broadcastInDim S1x1 ![1] bcast_S1_S1x1_1 (V (Proc.devRef .tc main_arg14)))) := by
  dsimp only [hostOps11_2]
  after_results

theorem tail_term (V : Valuation τ sig (Elt Ideal)) :
    StableHlo.after hostOps11_2 (StableHlo.after hostOps11_1 (StableHlo.after hostOps11 V)) (Proc.devRef .tc main_v59)
      = headOut (V (Proc.devRef .tc main_v45_0)) (V (Proc.devRef .tc main_v45_1)) (V (Proc.devRef .tc main_arg11))
          (V (Proc.devRef .tc main_arg12)) (V (Proc.devRef .tc main_arg13)) (V (Proc.devRef .tc main_arg14)) := by
  rw [v59_term, v55_term, v55_keep13, v55_keep14, v54_term, v54_keep13, v54_keep14]
  rfl

theorem slice_term (V : Valuation τ sig (Elt Ideal)) :
    StableHlo.after hostOps10 V (Proc.devRef .tc main_v44)
      = extractStridedSlice S100000x128 ![0, 0] (V (Proc.devRef .tc main_v43)) slices_S100352x128_S100000x128_0_0 := by
  dsimp only [hostOps10]
  after_results

theorem batch_term (V : Valuation τ sig (Elt Ideal)) :
    StableHlo.after hostOps0_8 V (Proc.devRef .tc main_v11)
      = shapeCast S100000x1 (V (Proc.devRef .tc main_arg3)) shapeCasts_S100000_S100000x1 := by
  dsimp only [hostOps0_8]
  after_results
  rfl

end Cert.KernelIdeal.Hand

end
-- ==== Proof.KI.ChainHost.lean ====
import proofs.«429186_j15229954031644_1_alg».proof.Proof.Gen.KernelIdeal.Launch
import proofs.«429186_j15229954031644_1_alg».proof.Proof.Gen.KernelIdeal.Regions
import proofs.«429186_j15229954031644_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.Hand

open Idealize.ShloMosaic Idealize.ShloMosaic.TcCoe Idealize.ShloMosaic.ValueIdx
open Cert.KernelIdeal Cert.KernelIdeal.Gen

variable (V : Valuation τ sig (Elt Ideal))

theorem keep0 (r : Ref sig .tc) (h : r ∉ hostOps0_W) :
    StableHlo.after hostOps0 V (Proc.devRef .tc r) = V (Proc.devRef .tc r) :=
  StableHlo.after_of_writes_sub hostOps0 _ hostOps0_writes h
theorem keep0_1 (r : Ref sig .tc) (h : r ∉ hostOps0_1_W) :
    StableHlo.after hostOps0_1 V (Proc.devRef .tc r) = V (Proc.devRef .tc r) :=
  StableHlo.after_of_writes_sub hostOps0_1 _ hostOps0_1_writes h
theorem keep0_2 (r : Ref sig .tc) (h : r ∉ hostOps0_2_W) :
    StableHlo.after hostOps0_2 V (Proc.devRef .tc r) = V (Proc.devRef .tc r) :=
  StableHlo.after_of_writes_sub hostOps0_2 _ hostOps0_2_writes h
theorem keep0_3 (r : Ref sig .tc) (h : r ∉ hostOps0_3_W) :
    StableHlo.after hostOps0_3 V (Proc.devRef .tc r) = V (Proc.devRef .tc r) :=
  StableHlo.after_of_writes_sub hostOps0_3 _ hostOps0_3_writes h
theorem keep0_4 (r : Ref sig .tc) (h : r ∉ hostOps0_4_W) :
    StableHlo.after hostOps0_4 V (Proc.devRef .tc r) = V (Proc.devRef .tc r) :=
  StableHlo.after_of_writes_sub hostOps0_4 _ hostOps0_4_writes h
theorem keep0_5 (r : Ref sig .tc) (h : r ∉ hostOps0_5_W) :
    StableHlo.after hostOps0_5 V (Proc.devRef .tc r) = V (Proc.devRef .tc r) :=
  StableHlo.after_of_writes_sub hostOps0_5 _ hostOps0_5_writes h
theorem keep0_6 (r : Ref sig .tc) (h : r ∉ hostOps0_6_W) :
    StableHlo.after hostOps0_6 V (Proc.devRef .tc r) = V (Proc.devRef .tc r) :=
  StableHlo.after_of_writes_sub hostOps0_6 _ hostOps0_6_writes h
theorem keep0_7 (r : Ref sig .tc) (h : r ∉ hostOps0_7_W) :
    StableHlo.after hostOps0_7 V (Proc.devRef .tc r) = V (Proc.devRef .tc r) :=
  StableHlo.after_of_writes_sub hostOps0_7 _ hostOps0_7_writes h
theorem keep0_8 (r : Ref sig .tc) (h : r ∉ hostOps0_8_W) :
    StableHlo.after hostOps0_8 V (Proc.devRef .tc r) = V (Proc.devRef .tc r) :=
  StableHlo.after_of_writes_sub hostOps0_8 _ hostOps0_8_writes h
theorem keep3 (r : Ref sig .tc) (h : r ∉ hostOps3_W) :
    StableHlo.after hostOps3 V (Proc.devRef .tc r) = V (Proc.devRef .tc r) :=
  StableHlo.after_of_writes_sub hostOps3 _ hostOps3_writes h
theorem keep6 (r : Ref sig .tc) (h : r ∉ hostOps6_W) :
    StableHlo.after hostOps6 V (Proc.devRef .tc r) = V (Proc.devRef .tc r) :=
  StableHlo.after_of_writes_sub hostOps6 _ hostOps6_writes h
theorem keep9 (r : Ref sig .tc) (h : r ∉ hostOps9_W) :
    StableHlo.after hostOps9 V (Proc.devRef .tc r) = V (Proc.devRef .tc r) :=
  StableHlo.after_of_writes_sub hostOps9 _ hostOps9_writes h

abbrev Hs1 : Valuation τ sig (Elt Ideal) := StableHlo.after hostOps0 V
abbrev Hs2 : Valuation τ sig (Elt Ideal) := StableHlo.after hostOps0_1 (Hs1 V)
abbrev Hs3 : Valuation τ sig (Elt Ideal) := StableHlo.after hostOps0_2 (Hs2 V)
abbrev Hs4 : Valuation τ sig (Elt Ideal) := StableHlo.after hostOps0_3 (Hs3 V)
abbrev Hs5 : Valuation τ sig (Elt Ideal) := StableHlo.after hostOps0_4 (Hs4 V)
abbrev Hs6 : Valuation τ sig (Elt Ideal) := StableHlo.after hostOps0_5 (Hs5 V)
abbrev Hs7 : Valuation τ sig (Elt Ideal) := StableHlo.after hostOps0_6 (Hs6 V)
abbrev Hs8 : Valuation τ sig (Elt Ideal) := StableHlo.after hostOps0_7 (Hs7 V)
abbrev Hs9 : Valuation τ sig (Elt Ideal) := StableHlo.after hostOps0_8 (Hs8 V)

theorem ofBits_f32_zero : Ideal.ofBits .f32 0x00000000#32 = 0 := by simp [Ideal.ofBits, Ideal.ieee]

theorem pad_rows_apply (x : S100000x13.Idx → EReal) (v : S_.Idx → EReal) (n : Fin 100352) (k : Fin 13) :
    pad S100352x13 ![0, 0] ![352, 0] ![0, 0] x v pads_S100000x13_S100352x13_03520_000 h_S_ (ix2 n k)
      = if h : n.val < 100000 then x (ix2 ⟨n.val, h⟩ k) else v ix0 := by
  by_cases h : n.val < 100000
  · rw [dif_pos h]
    exact pad_apply_of_inside _ _ _ x v _ _ (ix2 n k) (ix2 ⟨n.val, h⟩ k) fun a => match a with
      | ⟨0, _⟩ => by show n.val = 0 + n.val * 1; omega
      | ⟨1, _⟩ => by show k.val = 0 + k.val * 1; omega
  · rw [dif_neg h]
    refine (pad_apply_of_not_inside _ _ _ x v _ _ (ix2 n k) (0 : Fin 2) ?_).trans (congrArg v (eq_ix0 _))
    show ¬(0 ≤ n.val ∧ (n.val - 0) % 1 = 0 ∧ (n.val - 0) / 1 < 100000)
    omega

theorem pad_tail_apply {α : Type} (x : S1600000.Idx → α) (v : S_.Idx → α) (e : Fin 1601536) :
    pad S1601536 ![0] ![1536] ![0] x v pads_S1600000_S1601536_015360 h_S_ (ix1 e)
      = if h : e.val < 1600000 then x (ix1 ⟨e.val, h⟩) else v ix0 := by
  by_cases h : e.val < 1600000
  · rw [dif_pos h]
    exact pad_apply_of_inside _ _ _ x v _ _ (ix1 e) (ix1 ⟨e.val, h⟩) fun a => match a with
      | ⟨0, _⟩ => by show e.val = 0 + e.val * 1; omega
  · rw [dif_neg h]
    refine (pad_apply_of_not_inside _ _ _ x v _ _ (ix1 e) (0 : Fin 1) ?_).trans (congrArg v (eq_ix0 _))
    show ¬(0 ≤ e.val ∧ (e.val - 0) % 1 = 0 ∧ (e.val - 0) / 1 < 1600000)
    omega

theorem Hs9_v0 (n : Fin 100352) (k : Fin 13) :
    (Hs9 V (Proc.devRef .tc main_v0) : S100352x13.Idx → EReal) (ix2 n k)
      = Spec.padX (fun n k => (V (Proc.devRef .tc main_arg0) : S100000x13.Idx → EReal) (ix2 n k)) n k := by
  have e9 : Hs9 V (Proc.devRef .tc main_v0) = Hs2 V (Proc.devRef .tc main_v0) :=
    (keep0_8 _ _ (by decide)).trans <| (keep0_7 _ _ (by decide)).trans <| (keep0_6 _ _ (by decide)).trans <|
      (keep0_5 _ _ (by decide)).trans <| (keep0_4 _ _ (by decide)).trans <| (keep0_3 _ _ (by decide)).trans <|
      keep0_2 _ _ (by decide)
  have e2 : (Hs2 V (Proc.devRef .tc main_v0) : S100352x13.Idx → EReal)
      = pad S100352x13 ![0, 0] ![352, 0] ![0, 0] (V (Proc.devRef .tc main_arg0) : S100000x13.Idx → EReal)
          (constant (F := Ideal) S_ .f32 0x00000000#32) pads_S100000x13_S100352x13_03520_000 h_S_ := by
    dsimp only [Hs2, Hs1, hostOps0_1, hostOps0]; after_results; rfl
  rw [e9, e2, pad_rows_apply]
  unfold Spec.padX
  by_cases h : n.val < 100000
  · rw [dif_pos h, dif_pos h]
  · rw [dif_neg h, dif_neg h, constant_apply, ofBits_f32_zero]

theorem Hs3_v2 (e : Fin 1600000) :
    (Hs3 V (Proc.devRef .tc main_v2) : S1600000.Idx → BitVec 32) (ix1 e)
      = (V (Proc.devRef .tc main_arg2) : S2x1600000.Idx → BitVec 32) (ix2 (0 : Fin 2) e) := by
  have e3 : (Hs3 V (Proc.devRef .tc main_v2) : S1600000.Idx → BitVec 32)
      = shapeCast S1600000 (extractStridedSlice S1x1600000 ![0, 0]
          (V (Proc.devRef .tc main_arg2) : S2x1600000.Idx → BitVec 32) slices_S2x1600000_S1x1600000_0_0)
          shapeCasts_S1x1600000_S1600000 := by
    dsimp only [Hs3, Hs2, Hs1, hostOps0_2, hostOps0_1, hostOps0]; after_results; rfl
  rw [e3, shapeCast_1a_a_apply]
  exact extractStridedSlice_apply _ _ _ _ (ix2 (0 : Fin 2) e) fun a => match a with
    | ⟨0, _⟩ => by show 0 = 0 + 0; rfl
    | ⟨1, _⟩ => by show e.val = 0 + e.val; omega

theorem Hs3_v4 (e : Fin 1600000) :
    (Hs3 V (Proc.devRef .tc main_v4) : S1600000.Idx → BitVec 32) (ix1 e)
      = (V (Proc.devRef .tc main_arg2) : S2x1600000.Idx → BitVec 32) (ix2 (1 : Fin 2) e) := by
  have e3 : (Hs3 V (Proc.devRef .tc main_v4) : S1600000.Idx → BitVec 32)
      = shapeCast S1600000 (extractStridedSlice S1x1600000 ![1, 0]
          (V (Proc.devRef .tc main_arg2) : S2x1600000.Idx → BitVec 32) slices_S2x1600000_S1x1600000_1_0)
          shapeCasts_S1x1600000_S1600000 := by
    dsimp only [Hs3, Hs2, Hs1, hostOps0_2, hostOps0_1, hostOps0]; after_results; rfl
  rw [e3, shapeCast_1a_a_apply]
  exact extractStridedSlice_apply _ _ _ _ (ix2 (1 : Fin 2) e) fun a => match a with
    | ⟨0, _⟩ => by show 1 = 1 + 0; rfl
    | ⟨1, _⟩ => by show e.val = 0 + e.val; omega

theorem column_apply {α : Type} (x : S1601536.Idx → α) (e : Fin 1601536) (u : Fin 1) :
    shapeCast S1601536x1 x shapeCasts_S1601536_S1601536x1 (ix2 e u) = x (ix1 e) :=
  shapeCast_apply x _ _ _ (by
    have hu : u.val = 0 := by omega
    rw [Shape.rowMajor_val_one, Shape.rowMajor_val_two]
    show e.val = e.val * 1 + u.val
    omega)

theorem Hs9_v6 (e : Fin 1601536) (u : Fin 1) :
    (Hs9 V (Proc.devRef .tc main_v6) : S1601536x1.Idx → BitVec 32) (ix2 e u)
      = Spec.padW (fun e => (V (Proc.devRef .tc main_arg2) : S2x1600000.Idx → BitVec 32) (ix2 (0 : Fin 2) e)) e := by
  have e9 : Hs9 V (Proc.devRef .tc main_v6) = Hs5 V (Proc.devRef .tc main_v6) :=
    (keep0_8 _ _ (by decide)).trans <| (keep0_7 _ _ (by decide)).trans <| (keep0_6 _ _ (by decide)).trans <|
      keep0_5 _ _ (by decide)
  have e5 : (Hs5 V (Proc.devRef .tc main_v6) : S1601536x1.Idx → BitVec 32)
      = shapeCast S1601536x1 (pad S1601536 ![0] ![1536] ![0] (Hs3 V (Proc.devRef .tc main_v2) : S1600000.Idx → BitVec 32)
          (constantI S_ 32 100000#32) pads_S1600000_S1601536_015360 h_S_) shapeCasts_S1601536_S1601536x1 := by
    dsimp only [Hs5, Hs4, hostOps0_4, hostOps0_3]; after_results; rfl
  rw [e9, e5, column_apply, pad_tail_apply]
  unfold Spec.padW
  by_cases h : e.val < 1600000
  · rw [dif_pos h, dif_pos h, Hs3_v2]
  · rw [dif_neg h, dif_neg h]; rfl

theorem Hs9_v8 (e : Fin 1601536) (u : Fin 1) :
    (Hs9 V (Proc.devRef .tc main_v8) : S1601536x1.Idx → BitVec 32) (ix2 e u)
      = Spec.padW (fun e => (V (Proc.devRef .tc main_arg2) : S2x1600000.Idx → BitVec 32) (ix2 (1 : Fin 2) e)) e := by
  have e9 : Hs9 V (Proc.devRef .tc main_v8) = Hs7 V (Proc.devRef .tc main_v8) :=
    (keep0_8 _ _ (by decide)).trans <| keep0_7 _ _ (by decide)
  have e7 : (Hs7 V (Proc.devRef .tc main_v8) : S1601536x1.Idx → BitVec 32)
      = shapeCast S1601536x1 (pad S1601536 ![0] ![1536] ![0] (Hs3 V (Proc.devRef .tc main_v4) : S1600000.Idx → BitVec 32)
          (constantI S_ 32 100000#32) pads_S1600000_S1601536_015360 h_S_) shapeCasts_S1601536_S1601536x1 := by
    dsimp only [Hs7, Hs6, Hs5, Hs4, hostOps0_6, hostOps0_5, hostOps0_4, hostOps0_3]; after_results; rfl
  rw [e9, e7, column_apply, pad_tail_apply]
  unfold Spec.padW
  by_cases h : e.val < 1600000
  · rw [dif_pos h, dif_pos h, Hs3_v4]
  · rw [dif_neg h, dif_neg h]; rfl

theorem Hs9_v10 (e : Fin 1601536) (u : Fin 1) :
    (Hs9 V (Proc.devRef .tc main_v10) : S1601536x1.Idx → EReal) (ix2 e u)
      = Spec.padD (fun e => (V (Proc.devRef .tc main_arg1) : S1600000.Idx → EReal) (ix1 e)) e := by
  have e9 : (Hs9 V (Proc.devRef .tc main_v10) : S1601536x1.Idx → EReal)
      = shapeCast S1601536x1 (pad S1601536 ![0] ![1536] ![0] (Hs6 V (Proc.devRef .tc main_arg1) : S1600000.Idx → EReal)
          (constant (F := Ideal) S_ .f32 0x00000000#32) pads_S1600000_S1601536_015360 h_S_) shapeCasts_S1601536_S1601536x1 := by
    dsimp only [Hs9, Hs8, Hs7, hostOps0_8, hostOps0_7, hostOps0_6]; after_results; rfl
  have hk : Hs6 V (Proc.devRef .tc main_arg1) = V (Proc.devRef .tc main_arg1) :=
    (keep0_5 _ _ (by decide)).trans <| (keep0_4 _ _ (by decide)).trans <| (keep0_3 _ _ (by decide)).trans <|
      (keep0_2 _ _ (by decide)).trans <| (keep0_1 _ _ (by decide)).trans <| keep0 _ _ (by decide)
  rw [e9, hk, column_apply, pad_tail_apply]
  unfold Spec.padD
  by_cases h : e.val < 1600000
  · rw [dif_pos h, dif_pos h]
  · rw [dif_neg h, dif_neg h, constant_apply, ofBits_f32_zero]

theorem Hs8_keep (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W)
    (h7 : r ∉ hostOps0_7_W) : Hs8 V (Proc.devRef .tc r) = V (Proc.devRef .tc r) :=
  (keep0_7 _ _ h7).trans <| (keep0_6 _ _ h6).trans <| (keep0_5 _ _ h5).trans <| (keep0_4 _ _ h4).trans <|
    (keep0_3 _ _ h3).trans <| (keep0_2 _ _ h2).trans <| (keep0_1 _ _ h1).trans <| keep0 _ _ h0

theorem Hs9_v12 (u : Fin 1) (j : Fin 128) :
    (Hs9 V (Proc.devRef .tc main_v12) : S1x128.Idx → EReal) (ix2 u j)
      = (V (Proc.devRef .tc main_arg5) : S128.Idx → EReal) (ix1 j) := by
  have e9 : (Hs9 V (Proc.devRef .tc main_v12) : S1x128.Idx → EReal)
      = shapeCast S1x128 (Hs8 V (Proc.devRef .tc main_arg5) : S128.Idx → EReal) shapeCasts_S128_S1x128 := by
    dsimp only [Hs9, hostOps0_8]; after_results; rfl
  rw [e9, shapeCast_a_1a_apply, Hs8_keep V main_arg5 (by decide) (by decide) (by decide) (by decide) (by decide)
    (by decide) (by decide) (by decide)]

theorem Hs9_v13 (u : Fin 1) (j : Fin 128) :
    (Hs9 V (Proc.devRef .tc main_v13) : S1x128.Idx → EReal) (ix2 u j)
      = (V (Proc.devRef .tc main_arg7) : S128.Idx → EReal) (ix1 j) := by
  have e9 : (Hs9 V (Proc.devRef .tc main_v13) : S1x128.Idx → EReal)
      = shapeCast S1x128 (Hs8 V (Proc.devRef .tc main_arg7) : S128.Idx → EReal) shapeCasts_S128_S1x128 := by
    dsimp only [Hs9, hostOps0_8]; after_results; rfl
  rw [e9, shapeCast_a_1a_apply, Hs8_keep V main_arg7 (by decide) (by decide) (by decide) (by decide) (by decide)
    (by decide) (by decide) (by decide)]

theorem Hs9_v14 (l : Fin 3) (u u' : Fin 1) :
    (Hs9 V (Proc.devRef .tc main_v14) : S3x1x1.Idx → EReal) (ix3 l u u')
      = (V (Proc.devRef .tc main_arg10) : S3.Idx → EReal) (ix1 l) := by
  have e9 : (Hs9 V (Proc.devRef .tc main_v14) : S3x1x1.Idx → EReal)
      = shapeCast S3x1x1 (Hs8 V (Proc.devRef .tc main_arg10) : S3.Idx → EReal) shapeCasts_S3_S3x1x1 := by
    dsimp only [Hs9, hostOps0_8]; after_results; rfl
  rw [e9, Hs8_keep V main_arg10 (by decide) (by decide) (by decide) (by decide) (by decide)
    (by decide) (by decide) (by decide)]
  exact shapeCast_apply _ _ _ (ix1 l) (by
    have hu : u.val = 0 := by omega
    have hu' : u'.val = 0 := by omega
    rw [Shape.rowMajor_val_one, Shape.rowMajor_val_three]
    show l.val = (l.val * 1 + u.val) * 1 + u'.val
    omega)

theorem Hs9_v15 (l : Fin 3) (u : Fin 1) (j : Fin 128) :
    (Hs9 V (Proc.devRef .tc main_v15) : S3x1x128.Idx → EReal) (ix3 l u j)
      = (V (Proc.devRef .tc main_arg9) : S3x128.Idx → EReal) (ix2 l j) := by
  have e9 : (Hs9 V (Proc.devRef .tc main_v15) : S3x1x128.Idx → EReal)
      = shapeCast S3x1x128 (Hs8 V (Proc.devRef .tc main_arg9) : S3x128.Idx → EReal) shapeCasts_S3x128_S3x1x128 := by
    dsimp only [Hs9, hostOps0_8]; after_results; rfl
  rw [e9, Hs8_keep V main_arg9 (by decide) (by decide) (by decide) (by decide) (by decide)
    (by decide) (by decide) (by decide)]
  exact shapeCast_apply _ _ _ (ix2 l j) (by
    have hu : u.val = 0 := by omega
    rw [Shape.rowMajor_val_two, Shape.rowMajor_val_three]
    show l.val * 128 + j.val = (l.val * 1 + u.val) * 128 + j.val
    omega)

theorem after3_v20 (u u' : Fin 1) :
    (StableHlo.after hostOps3 V (Proc.devRef .tc main_v20) : S1x1.Idx → EReal) (ix2 u u')
      = (V (Proc.devRef .tc main_v14) : S3x1x1.Idx → EReal) (ix3 (0 : Fin 3) (0 : Fin 1) (0 : Fin 1)) := by
  have e : (StableHlo.after hostOps3 V (Proc.devRef .tc main_v20) : S1x1.Idx → EReal)
      = shapeCast S1x1 (extractStridedSlice S1x1x1 ![0, 0, 0] (V (Proc.devRef .tc main_v14) : S3x1x1.Idx → EReal)
          slices_S3x1x1_S1x1x1_0_0_0) shapeCasts_S1x1x1_S1x1 := by
    dsimp only [hostOps3]; after_results; rfl
  rw [e, shapeCast_1ab_ab_apply]
  exact extractStridedSlice_apply _ _ _ _ (ix3 (0 : Fin 3) (0 : Fin 1) (0 : Fin 1)) fun a => match a with
    | ⟨0, _⟩ => by show 0 = 0 + 0; rfl
    | ⟨1, _⟩ => by show 0 = 0 + u.val; omega
    | ⟨2, _⟩ => by show 0 = 0 + u'.val; omega

theorem after3_v22 (k j : Fin 128) :
    (StableHlo.after hostOps3 V (Proc.devRef .tc main_v22) : S128x128.Idx → EReal) (ix2 k j)
      = (V (Proc.devRef .tc main_arg8) : S3x128x128.Idx → EReal) (ix3 (0 : Fin 3) k j) := by
  have e : (StableHlo.after hostOps3 V (Proc.devRef .tc main_v22) : S128x128.Idx → EReal)
      = shapeCast S128x128 (extractStridedSlice S1x128x128 ![0, 0, 0] (V (Proc.devRef .tc main_arg8) : S3x128x128.Idx → EReal)
          slices_S3x128x128_S1x128x128_0_0_0) shapeCasts_S1x128x128_S128x128 := by
    dsimp only [hostOps3]; after_results; rfl
  rw [e, shapeCast_1ab_ab_apply]
  exact extractStridedSlice_apply _ _ _ _ (ix3 (0 : Fin 3) k j) fun a => match a with
    | ⟨0, _⟩ => by show 0 = 0 + 0; rfl
    | ⟨1, _⟩ => by show k.val = 0 + k.val; omega
    | ⟨2, _⟩ => by show j.val = 0 + j.val; omega

theorem after3_v24 (u : Fin 1) (j : Fin 128) :
    (StableHlo.after hostOps3 V (Proc.devRef .tc main_v24) : S1x128.Idx → EReal) (ix2 u j)
      = (V (Proc.devRef .tc main_v15) : S3x1x128.Idx → EReal) (ix3 (0 : Fin 3) (0 : Fin 1) j) := by
  have e : (StableHlo.after hostOps3 V (Proc.devRef .tc main_v24) : S1x128.Idx → EReal)
      = shapeCast S1x128 (extractStridedSlice S1x1x128 ![0, 0, 0] (V (Proc.devRef .tc main_v15) : S3x1x128.Idx → EReal)
          slices_S3x1x128_S1x1x128_0_0_0) shapeCasts_S1x1x128_S1x128 := by
    dsimp only [hostOps3]; after_results; rfl
  rw [e, shapeCast_1ab_ab_apply]
  exact extractStridedSlice_apply _ _ _ _ (ix3 (0 : Fin 3) (0 : Fin 1) j) fun a => match a with
    | ⟨0, _⟩ => by show 0 = 0 + 0; rfl
    | ⟨1, _⟩ => by show 0 = 0 + u.val; omega
    | ⟨2, _⟩ => by show j.val = 0 + j.val; omega

theorem after6_v29 (u u' : Fin 1) :
    (StableHlo.after hostOps6 V (Proc.devRef .tc main_v29) : S1x1.Idx → EReal) (ix2 u u')
      = (V (Proc.devRef .tc main_v14) : S3x1x1.Idx → EReal) (ix3 (1 : Fin 3) (0 : Fin 1) (0 : Fin 1)) := by
  have e : (StableHlo.after hostOps6 V (Proc.devRef .tc main_v29) : S1x1.Idx → EReal)
      = shapeCast S1x1 (extractStridedSlice S1x1x1 ![1, 0, 0] (V (Proc.devRef .tc main_v14) : S3x1x1.Idx → EReal)
          slices_S3x1x1_S1x1x1_1_0_0) shapeCasts_S1x1x1_S1x1 := by
    dsimp only [hostOps6]; after_results; rfl
  rw [e, shapeCast_1ab_ab_apply]
  exact extractStridedSlice_apply _ _ _ _ (ix3 (1 : Fin 3) (0 : Fin 1) (0 : Fin 1)) fun a => match a with
    | ⟨0, _⟩ => by show 1 = 1 + 0; rfl
    | ⟨1, _⟩ => by show 0 = 0 + u.val; omega
    | ⟨2, _⟩ => by show 0 = 0 + u'.val; omega

theorem after6_v31 (k j : Fin 128) :
    (StableHlo.after hostOps6 V (Proc.devRef .tc main_v31) : S128x128.Idx → EReal) (ix2 k j)
      = (V (Proc.devRef .tc main_arg8) : S3x128x128.Idx → EReal) (ix3 (1 : Fin 3) k j) := by
  have e : (StableHlo.after hostOps6 V (Proc.devRef .tc main_v31) : S128x128.Idx → EReal)
      = shapeCast S128x128 (extractStridedSlice S1x128x128 ![1, 0, 0] (V (Proc.devRef .tc main_arg8) : S3x128x128.Idx → EReal)
          slices_S3x128x128_S1x128x128_1_0_0) shapeCasts_S1x128x128_S128x128 := by
    dsimp only [hostOps6]; after_results; rfl
  rw [e, shapeCast_1ab_ab_apply]
  exact extractStridedSlice_apply _ _ _ _ (ix3 (1 : Fin 3) k j) fun a => match a with
    | ⟨0, _⟩ => by show 1 = 1 + 0; rfl
    | ⟨1, _⟩ => by show k.val = 0 + k.val; omega
    | ⟨2, _⟩ => by show j.val = 0 + j.val; omega

theorem after6_v33 (u : Fin 1) (j : Fin 128) :
    (StableHlo.after hostOps6 V (Proc.devRef .tc main_v33) : S1x128.Idx → EReal) (ix2 u j)
      = (V (Proc.devRef .tc main_v15) : S3x1x128.Idx → EReal) (ix3 (1 : Fin 3) (0 : Fin 1) j) := by
  have e : (StableHlo.after hostOps6 V (Proc.devRef .tc main_v33) : S1x128.Idx → EReal)
      = shapeCast S1x128 (extractStridedSlice S1x1x128 ![1, 0, 0] (V (Proc.devRef .tc main_v15) : S3x1x128.Idx → EReal)
          slices_S3x1x128_S1x1x128_1_0_0) shapeCasts_S1x1x128_S1x128 := by
    dsimp only [hostOps6]; after_results; rfl
  rw [e, shapeCast_1ab_ab_apply]
  exact extractStridedSlice_apply _ _ _ _ (ix3 (1 : Fin 3) (0 : Fin 1) j) fun a => match a with
    | ⟨0, _⟩ => by show 1 = 1 + 0; rfl
    | ⟨1, _⟩ => by show 0 = 0 + u.val; omega
    | ⟨2, _⟩ => by show j.val = 0 + j.val; omega

theorem after9_v38 (u u' : Fin 1) :
    (StableHlo.after hostOps9 V (Proc.devRef .tc main_v38) : S1x1.Idx → EReal) (ix2 u u')
      = (V (Proc.devRef .tc main_v14) : S3x1x1.Idx → EReal) (ix3 (2 : Fin 3) (0 : Fin 1) (0 : Fin 1)) := by
  have e : (StableHlo.after hostOps9 V (Proc.devRef .tc main_v38) : S1x1.Idx → EReal)
      = shapeCast S1x1 (extractStridedSlice S1x1x1 ![2, 0, 0] (V (Proc.devRef .tc main_v14) : S3x1x1.Idx → EReal)
          slices_S3x1x1_S1x1x1_2_0_0) shapeCasts_S1x1x1_S1x1 := by
    dsimp only [hostOps9]; after_results; rfl
  rw [e, shapeCast_1ab_ab_apply]
  exact extractStridedSlice_apply _ _ _ _ (ix3 (2 : Fin 3) (0 : Fin 1) (0 : Fin 1)) fun a => match a with
    | ⟨0, _⟩ => by show 2 = 2 + 0; rfl
    | ⟨1, _⟩ => by show 0 = 0 + u.val; omega
    | ⟨2, _⟩ => by show 0 = 0 + u'.val; omega

theorem after9_v40 (k j : Fin 128) :
    (StableHlo.after hostOps9 V (Proc.devRef .tc main_v40) : S128x128.Idx → EReal) (ix2 k j)
      = (V (Proc.devRef .tc main_arg8) : S3x128x128.Idx → EReal) (ix3 (2 : Fin 3) k j) := by
  have e : (StableHlo.after hostOps9 V (Proc.devRef .tc main_v40) : S128x128.Idx → EReal)
      = shapeCast S128x128 (extractStridedSlice S1x128x128 ![2, 0, 0] (V (Proc.devRef .tc main_arg8) : S3x128x128.Idx → EReal)
          slices_S3x128x128_S1x128x128_2_0_0) shapeCasts_S1x128x128_S128x128 := by
    dsimp only [hostOps9]; after_results; rfl
  rw [e, shapeCast_1ab_ab_apply]
  exact extractStridedSlice_apply _ _ _ _ (ix3 (2 : Fin 3) k j) fun a => match a with
    | ⟨0, _⟩ => by show 2 = 2 + 0; rfl
    | ⟨1, _⟩ => by show k.val = 0 + k.val; omega
    | ⟨2, _⟩ => by show j.val = 0 + j.val; omega

theorem after9_v42 (u : Fin 1) (j : Fin 128) :
    (StableHlo.after hostOps9 V (Proc.devRef .tc main_v42) : S1x128.Idx → EReal) (ix2 u j)
      = (V (Proc.devRef .tc main_v15) : S3x1x128.Idx → EReal) (ix3 (2 : Fin 3) (0 : Fin 1) j) := by
  have e : (StableHlo.after hostOps9 V (Proc.devRef .tc main_v42) : S1x128.Idx → EReal)
      = shapeCast S1x128 (extractStridedSlice S1x1x128 ![2, 0, 0] (V (Proc.devRef .tc main_v15) : S3x1x128.Idx → EReal)
          slices_S3x1x128_S1x1x128_2_0_0) shapeCasts_S1x1x128_S1x128 := by
    dsimp only [hostOps9]; after_results; rfl
  rw [e, shapeCast_1ab_ab_apply]
  exact extractStridedSlice_apply _ _ _ _ (ix3 (2 : Fin 3) (0 : Fin 1) j) fun a => match a with
    | ⟨0, _⟩ => by show 2 = 2 + 0; rfl
    | ⟨1, _⟩ => by show 0 = 0 + u.val; omega
    | ⟨2, _⟩ => by show j.val = 0 + j.val; omega

end Cert.KernelIdeal.Hand

end
-- ==== Proof.KI.V0.lean ====
import proofs.«429186_j15229954031644_1_alg».proof.Proof.KI.R0
import proofs.«429186_j15229954031644_1_alg».proof.Proof.Spec
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem lhs_init_0 (i : S7168x128.Idx) (q : dot_S7168x13_S13x128_S7168x128_1_0_0_1_n_n.contr.Idx) :
    (dot_S7168x13_S13x128_S7168x128_1_0_0_1_n_n.lhsIdx i q 0).val = (i 0).val := by
  unfold DotDims.lhsIdx
  rw [dif_neg (show ¬(0 : Fin S7168x13.rank) ∈ dot_S7168x13_S13x128_S7168x128_1_0_0_1_n_n.lhsBatch by decide), dif_pos (show (0 : Fin S7168x13.rank) ∈ dot_S7168x13_S13x128_S7168x128_1_0_0_1_n_n.lhsNonContracting by decide)]
  rfl
theorem lhs_init_1 (i : S7168x128.Idx) (q : dot_S7168x13_S13x128_S7168x128_1_0_0_1_n_n.contr.Idx) :
    (dot_S7168x13_S13x128_S7168x128_1_0_0_1_n_n.lhsIdx i q 1).val = (q ⟨0, by decide⟩).val :=
  dot_S7168x13_S13x128_S7168x128_1_0_0_1_n_n.lhsIdx_val_of_single rfl i q
theorem rhs_init_0 (i : S7168x128.Idx) (q : dot_S7168x13_S13x128_S7168x128_1_0_0_1_n_n.contr.Idx) :
    (dot_S7168x13_S13x128_S7168x128_1_0_0_1_n_n.rhsIdx i q 0).val = (q ⟨0, by decide⟩).val :=
  dot_S7168x13_S13x128_S7168x128_1_0_0_1_n_n.rhsIdx_val_of_single rfl i q
theorem rhs_init_1 (i : S7168x128.Idx) (q : dot_S7168x13_S13x128_S7168x128_1_0_0_1_n_n.contr.Idx) :
    (dot_S7168x13_S13x128_S7168x128_1_0_0_1_n_n.rhsIdx i q 1).val = (i 1).val := by
  unfold DotDims.rhsIdx
  rw [dif_neg (show ¬(1 : Fin S13x128.rank) ∈ dot_S7168x13_S13x128_S7168x128_1_0_0_1_n_n.rhsBatch by decide), dif_pos (show (1 : Fin S13x128.rank) ∈ dot_S7168x13_S13x128_S7168x128_1_0_0_1_n_n.rhsNonContracting by decide)]
  rfl

theorem matmul_init_apply (a : FVec Ideal S7168x13 .bf16) (b : FVec Ideal S13x128 .bf16) (p : Fin 7168) (q : Fin 128) :
    matmul dot_S7168x13_S13x128_S7168x128_1_0_0_1_n_n none a b (constant (F := Ideal) S7168x128 .f32 0x00000000#32) (ix2 p q)
      = ∑ k : Fin 13, a (ix2 p k) * b (ix2 k q) := by
  show FloatOps.matmul dot_S7168x13_S13x128_S7168x128_1_0_0_1_n_n none a b (constant (F := Ideal) S7168x128 .f32 0x00000000#32) (ix2 p q) = _
  rw [Ideal.matmul_constant_zero_apply, ← Equiv.sum_comp (contrEquiv1 dot_S7168x13_S13x128_S7168x128_1_0_0_1_n_n 13 rfl rfl).symm]
  refine Finset.sum_congr rfl fun k _ => ?_
  have hk := contrEquiv1_symm_val dot_S7168x13_S13x128_S7168x128_1_0_0_1_n_n 13 rfl rfl k
  have el : dot_S7168x13_S13x128_S7168x128_1_0_0_1_n_n.lhsIdx (ix2 p q) ((contrEquiv1 dot_S7168x13_S13x128_S7168x128_1_0_0_1_n_n 13 rfl rfl).symm k) = ix2 p k := funext fun a => Fin.ext (by
    match a with
    | ⟨0, _⟩ => exact lhs_init_0 _ _
    | ⟨1, _⟩ => exact (lhs_init_1 _ _).trans hk)
  have er : dot_S7168x13_S13x128_S7168x128_1_0_0_1_n_n.rhsIdx (ix2 p q) ((contrEquiv1 dot_S7168x13_S13x128_S7168x128_1_0_0_1_n_n 13 rfl rfl).symm k) = ix2 k q := funext fun a => Fin.ext (by
    match a with
    | ⟨0, _⟩ => exact (rhs_init_0 _ _).trans hk
    | ⟨1, _⟩ => exact rhs_init_1 _ _)
  rw [el, er]

theorem pay0_apply (x0 : Vec Ideal S7168x13 .f32) (x1 : Vec Ideal S13x128 .f32) (x2 : Vec Ideal S1x128 .f32) (p : Fin 7168) (q : Fin 128) :
    k0_pay1 x0 x1 x2 (ix2 p q) = (∑ k : Fin 13, x0 (ix2 p k) * x1 (ix2 k q)) + x2 (ix2 0 q) := by
  unfold k0_pay1
  rw [truncf_apply, addf_apply, matmul_init_apply]
  rw [broadcastTo_apply (s := S1x128) (t := S7168x128) _ _ (ix2 p q) (ix2 0 q) (fun a => by
    match a with
    | ⟨0, _⟩ => rfl
    | ⟨1, _⟩ => rfl)]
  simp only [shapeCast_self, truncf_apply]

abbrev G0 (X : S100352x13.Idx → EReal) (W : S13x128.Idx → EReal) (B : S1x128.Idx → EReal) : S100352x128.Idx → EReal :=
  fun i => Spec.kInit (R := 100352) (fun n k => X (ix2 n k)) (fun k j => W (ix2 k j)) (fun j => B (ix2 0 j)) (i 0) (i 1)

theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

abbrev xArr0 (c : Dev nD) : S100352x13.Idx → EReal := V c (Pipeline.arrRef spec0 0)
abbrev wArr0 (c : Dev nD) : S13x128.Idx → EReal := V c (Pipeline.arrRef spec0 1)
abbrev bArr0 (c : Dev nD) : S1x128.Idx → EReal := V c (Pipeline.arrRef spec0 2)

set_option maxHeartbeats 1000000 in
theorem flushed0_eq (c : Dev nD) (t : Fin cfg0.N) :
    (dat0 V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 V c).after 3 t) = _
  rw [after_out0]
  unfold out0_3
  obtain ⟨e0, e1, e2, e3, e4, e5, e6, e7⟩ := block_index0 t
  funext y
  obtain ⟨p, q, rfl⟩ : ∃ (p : Fin 7168) (q : Fin 128), y = ix2 p q := ⟨y 0, y 1, eq_ix2 y⟩
  show k0_pay1 (iblk0 V c 0 t) (iblk0 V c 1 t) (iblk0 V c 2 t) (ix2 p q)
    = G0 (V c (Pipeline.arrRef spec0 0)) (V c (Pipeline.arrRef spec0 1)) (V c (Pipeline.arrRef spec0 2)) (((cfg0.win 3).blk t).view.emb (ix2 p q))
  rw [pay0_apply]
  have hx : ∀ k : Fin 13, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 7168 + 1 * p.val = win0_3.index t (0 : Fin 2) * 7168 + 1 * p.val; omega
    | ⟨1, _⟩ => show win0_0.index t (1 : Fin 2) * 13 + 1 * k.val = k.val; omega
  have hw : ∀ k : Fin 13, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 13 + 1 * k.val = k.val; omega
    | ⟨1, _⟩ => show win0_1.index t (1 : Fin 2) * 128 + 1 * q.val = win0_3.index t (1 : Fin 2) * 128 + 1 * q.val; omega
  have hb : ((cfg0.win 2).blk t).view.emb (ix2 0 q) = ix2 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  show (∑ k : Fin 13, xArr0 V c (((cfg0.win 0).blk t).view.emb (ix2 p k)) * wArr0 V c (((cfg0.win 1).blk t).view.emb (ix2 k q)))
      + bArr0 V c (((cfg0.win 2).blk t).view.emb (ix2 0 q)) = _
  rw [hb]
  simp only [hx, hw]
  rfl

theorem mem_blk0 (t : Fin cfg0.N) (i : S100352x128.Idx) :
    i ∈ ((cfg0.win 3).blk t).view.set ↔ ∀ a : Fin 2, win0_3.index t a * S7168x128.size a ≤ (i a).val ∧ (i a).val < win0_3.index t a * S7168x128.size a + S7168x128.size a := by
  show i ∈ ((View.whole main_v16).slice (win0_3.rect t)).set ↔ _
  rw [View.set_slice_whole, Rect.mem_set_unit]
  exact Iff.rfl

theorem cover0 (i : S100352x128.Idx) : ∃ t : Fin cfg0.N, (cfg0.win 3).flush t = true ∧ i ∈ ((cfg0.win 3).blk t).view.set := by
  have hi0 : (i 0).val < 100352 := idx2_lt0 i
  have hi1 : (i 1).val < 128 := idx2_lt1 i
  have hN : (i 0).val / 7168 < cfg0.N := by show _ < grid0.N; rw [N_0]; omega
  refine ⟨⟨(i 0).val / 7168, hN⟩, flush0_3 _, ?_⟩
  obtain ⟨-, -, -, -, -, -, e6, e7⟩ := block_index0 ⟨(i 0).val / 7168, hN⟩
  rw [mem_blk0]
  intro a
  match a with
  | ⟨0, _⟩ =>
    show win0_3.index ⟨(i 0).val / 7168, hN⟩ (0 : Fin 2) * 7168 ≤ (i 0).val ∧ (i 0).val < win0_3.index ⟨(i 0).val / 7168, hN⟩ (0 : Fin 2) * 7168 + 7168
    rw [e6]; show (i 0).val / 7168 * 7168 ≤ (i 0).val ∧ (i 0).val < (i 0).val / 7168 * 7168 + 7168; omega
  | ⟨1, _⟩ =>
    show win0_3.index ⟨(i 0).val / 7168, hN⟩ (1 : Fin 2) * 128 ≤ (i 1).val ∧ (i 1).val < win0_3.index ⟨(i 0).val / 7168, hN⟩ (1 : Fin 2) * 128 + 128
    rw [e7]; omega

theorem final0 (c : Dev nD) (n : Fin 100352) (j : Fin 128) :
    ((dat0 V c).arrAt 3 cfg0.N) (ix2 n j)
      = Spec.kInit (R := 100352) (fun n k => V c (Pipeline.arrRef spec0 0) (ix2 n k)) (fun k j => V c (Pipeline.arrRef spec0 1) (ix2 k j))
          (fun j => V c (Pipeline.arrRef spec0 2) (ix2 0 j)) n j := by
  rw [(dat0 V c).arrAt_eq_of_cover 3
    (G0 (V c (Pipeline.arrRef spec0 0)) (V c (Pipeline.arrRef spec0 1)) (V c (Pipeline.arrRef spec0 2)))
    (fun t _ => flushed0_eq V c t) cover0]

end Cert.KernelIdeal.Hand

end
-- ==== Proof.KI.V1.lean ====
import proofs.«429186_j15229954031644_1_alg».proof.Proof.KI.R1
import proofs.«429186_j15229954031644_1_alg».proof.Proof.KI.PointsP
import proofs.«429186_j15229954031644_1_alg».proof.Proof.Spec
import proofs.«429186_j15229954031644_1_alg».proof.Proof.LibWhole
import Idealize.ShloMosaic.Lib.Pipeline.Value
import Idealize.ShloMosaic.Lib.ValueIdx
import Idealize.ShloMosaic.Lib.KernelVsHost

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open Cert.Whole

theorem rowWord1 (b k : Nat) : BitVec.ofNat 32 b * 1024#32 + BitVec.ofNat 32 k = BitVec.ofNat 32 (1024 * b + k) := by
  apply BitVec.eq_of_toNat_eq
  simp [BitVec.toNat_add, BitVec.toNat_mul, BitVec.toNat_ofNat, Nat.add_mod, Nat.mul_mod, Nat.mul_comm]

theorem onehotEntry1 (x y : BitVec 32) :
    (FloatOps.sitofp .f32 ((IntOp.cmpi .eq x y).setWidth 32) : Ideal .f32) = if x = y then (1 : EReal) else 0 := by
  show (((((IntOp.cmpi .eq x y).setWidth 32).toInt : ℤ) : ℝ) : EReal) = _
  rw [toInt_setWidth_bit]
  unfold IntOp.cmpi
  by_cases h : x = y <;> simp [h]

theorem cmpi_at1 {s : Shape} {w : Nat} (pr : CmpIPredicate) (x y : IVec s w) (i : s.Idx) :
    cmpi pr x y i = IntOp.cmpi pr (x i) (y i) := rfl
theorem addi_at1 {s : Shape} {w : Nat} (x y : IVec s w) (i : s.Idx) : addi x y i = IntOp.addi (x i) (y i) := rfl

abbrev ce1 := contrEquiv1 dot_S4096x1024_S1024x128_S4096x128_1_0_0_1_n_n 1024 rfl rfl

theorem zero_apply1 (p : Fin 4096) (q : Fin 128) : (k1_pay1 (F := Ideal)) (ix2 p q) = 0 := by
  unfold k1_pay1
  simp only [shapeCast_self]
  rw [broadcast_apply]
  exact Ideal.ofBits_zero_f32

theorem pay2_apply1 (i : grid1.Coords) (v7 : Vec Ideal S4096x1 .i32) (v15 : Vec Ideal S1024x128 .bf16)
    (v17 : Vec Ideal S4096x128 .f32) (p : Fin 4096) (q : Fin 128) :
    k1_pay2 i v7 v15 v17 (ix2 p q) = v17 (ix2 p q)
      + ∑ k : Fin 1024, (if v7 (ix2 p 0) = BitVec.ofNat 32 (1024 * (i 1).val + k.val) then (1 : EReal) else 0) * v15 (ix2 k q) := by
  unfold k1_pay2
  simp only [shapeCast_self, matmul]
  rw [addf_apply, Ideal.matmul_constant_zero_apply, ← Equiv.sum_comp ce1.symm]
  refine congrArg (v17 (ix2 p q) + ·) (Finset.sum_congr rfl fun k _ => ?_)
  have hk := contrEquiv1_symm_val dot_S4096x1024_S1024x128_S4096x128_1_0_0_1_n_n 1024 rfl rfl k
  have el : dot_S4096x1024_S1024x128_S4096x128_1_0_0_1_n_n.lhsIdx (ix2 p q) (ce1.symm k) = ix2 p k :=
    ix_ext_of_val _ p k (by
      unfold DotDims.lhsIdx
      rw [dif_neg (show ¬(0 : Fin S4096x1024.rank) ∈ dot_S4096x1024_S1024x128_S4096x128_1_0_0_1_n_n.lhsBatch by decide),
        dif_pos (show (0 : Fin S4096x1024.rank) ∈ dot_S4096x1024_S1024x128_S4096x128_1_0_0_1_n_n.lhsNonContracting by decide)]
      rfl) ((dot_S4096x1024_S1024x128_S4096x128_1_0_0_1_n_n.lhsIdx_val_of_single rfl _ _).trans hk)
  have er : dot_S4096x1024_S1024x128_S4096x128_1_0_0_1_n_n.rhsIdx (ix2 p q) (ce1.symm k) = ix2 k q :=
    ix_ext_of_val _ k q ((dot_S4096x1024_S1024x128_S4096x128_1_0_0_1_n_n.rhsIdx_val_of_single rfl _ _).trans hk) (by
      unfold DotDims.rhsIdx
      rw [dif_neg (show ¬(1 : Fin S1024x128.rank) ∈ dot_S4096x1024_S1024x128_S4096x128_1_0_0_1_n_n.rhsBatch by decide),
        dif_pos (show (1 : Fin S1024x128.rank) ∈ dot_S4096x1024_S1024x128_S4096x128_1_0_0_1_n_n.rhsNonContracting by decide)]
      rfl)
  rw [el, er, truncf_apply, sitofp_apply, extui_apply]
  have h9 : broadcastTo S4096x1024 v7 broadcasts_S4096x1_S4096x1024 (ix2 p k) = v7 (ix2 p 0) :=
    broadcastTo_apply _ _ (ix2 p k) (ix2 p 0) (fun a => by match a with | ⟨0, _⟩ => rfl | ⟨1, _⟩ => rfl)
  have h10 : broadcastTo S4096x1024
      (addi (broadcast S1x1024 (Scalar.muli (BitVec.ofNat 32 (i 1).val) 1024#32)) (iota Kind.tc S1x1024 32 [1] iota_S1x1024_d1_w32))
      broadcasts_S1x1024_S4096x1024 (ix2 p k) = BitVec.ofNat 32 (1024 * (i 1).val + k.val) := by
    rw [broadcastTo_apply _ _ (ix2 p k) (ix2 (0 : Fin 1) k) (fun a => by match a with | ⟨0, _⟩ => rfl | ⟨1, _⟩ => rfl),
      addi_at1, broadcast_apply, iota_single_apply]
    exact rowWord1 _ _
  rw [cmpi_at1, h9, h10, onehotEntry1]

theorem pay3_apply1 (v26 : Vec Ideal S4096x1 .f32) (v28 : Vec Ideal S1x128 .f32) (v32 : Vec Ideal S1x128 .f32)
    (v36 : Vec Ideal S4096x128 .f32) (p : Fin 4096) (q : Fin 128) :
    k1_pay3 v26 v28 v32 v36 (ix2 p q) = max (v36 (ix2 p q) + (v26 (ix2 p 0) * v28 (ix2 0 q) + v32 (ix2 0 q))) 0 := by
  unfold k1_pay3
  simp only [shapeCast_self]
  rw [truncf_apply, maximumf_apply, addf_apply, addf_apply, mulf_apply, broadcast_apply,
    broadcastTo_apply v26 _ (ix2 p q) (ix2 p (0 : Fin 1)) (fun a => by match a with | ⟨0, _⟩ => rfl | ⟨1, _⟩ => rfl),
    broadcastTo_apply v28 _ (ix2 p q) (ix2 (0 : Fin 1) q) (fun a => by match a with | ⟨0, _⟩ => rfl | ⟨1, _⟩ => rfl),
    broadcastTo_apply v32 _ (ix2 p q) (ix2 (0 : Fin 1) q) (fun a => by match a with | ⟨0, _⟩ => rfl | ⟨1, _⟩ => rfl)]
  show max _ (Ideal.ofBits .f32 0x00000000#32) = _
  rw [Ideal.ofBits_zero_f32]

theorem sum_blocks1 (m n : ℕ) (f : ℕ → EReal) :
    ∑ b ∈ Finset.range m, ∑ k : Fin n, f (n * b + k.val) = ∑ x : Fin (m * n), f x.val := by
  rw [Finset.sum_range (fun b => ∑ k : Fin n, f (n * b + k.val)),
    ← Fintype.sum_prod_type' (f := fun (b : Fin m) (k : Fin n) => f (n * b.val + k.val)),
    ← Equiv.sum_comp finProdFinEquiv (fun x : Fin (m * n) => f x.val)]
  refine Finset.sum_congr rfl fun x _ => ?_
  rcases x with ⟨b, k⟩
  show f (n * b.val + k.val) = f (k.val + n * b.val)
  rw [Nat.add_comm]

variable (V : (c : Dev nD) → (b : Ref sig .tc) → Buf (Elt Ideal) ((c : Thread nD τ).loc b))

abbrev gSrc1 (c : Dev nD) : Fin 1601536 → BitVec 32 :=
  fun e => (V c (Pipeline.arrRef spec1 0) : S1601536x1.Idx → BitVec 32) (ix2 e 0)
abbrev gH1 (c : Dev nD) : Fin 100352 → Fin 128 → EReal :=
  fun n j => (V c (Pipeline.arrRef spec1 2) : S100352x128.Idx → EReal) (ix2 n j)
abbrev gEd1 (c : Dev nD) : Fin 1601536 → EReal :=
  fun e => (V c (Pipeline.arrRef spec1 1) : S1601536x1.Idx → EReal) (ix2 e 0)
abbrev gWe1 (c : Dev nD) : Fin 128 → EReal :=
  fun j => (V c (Pipeline.arrRef spec1 3) : S1x128.Idx → EReal) (ix2 0 j)
abbrev gBe1 (c : Dev nD) : Fin 128 → EReal :=
  fun j => (V c (Pipeline.arrRef spec1 4) : S1x128.Idx → EReal) (ix2 0 j)

def sN1 (c : Dev nD) (n : ℕ) : BitVec 32 := if h : n < 1601536 then gSrc1 V c ⟨n, h⟩ else 0
def hN1 (c : Dev nD) (q : Fin 128) (n : ℕ) : EReal := if h : n < 100352 then gH1 V c ⟨n, h⟩ q else 0

theorem sN1_of_lt (c : Dev nD) (n : ℕ) (h : n < 1601536) : sN1 V c n = gSrc1 V c ⟨n, h⟩ := dif_pos h
theorem hN1_of_lt (c : Dev nD) (q : Fin 128) (n : ℕ) (h : n < 100352) : hN1 V c q n = gH1 V c ⟨n, h⟩ q := dif_pos h

theorem coords1_0 (t : Fin cfg1.N) : ((grid1.coords t) 0).val = t.val / 98 := by
  have hN : cfg1.N = 38318 := N_1
  have ht : t.val < cfg1.N := t.isLt
  show t.val / grid1.stride 0 % 391 = t.val / 98
  rw [show grid1.stride 0 = 98 from by decide]
  omega
theorem coords1_1 (t : Fin cfg1.N) : ((grid1.coords t) 1).val = t.val % 98 := by
  show t.val / grid1.stride 1 % 98 = t.val % 98
  rw [show grid1.stride 1 = 1 from by decide, Nat.div_one]
theorem erow_lt1 (t : Fin cfg1.N) (p : Fin 4096) : 4096 * (t.val / 98) + p.val < 1601536 := by
  have hN : cfg1.N = 38318 := N_1
  have ht : t.val < cfg1.N := t.isLt
  have hp : p.val < 4096 := p.isLt
  omega
theorem nrow_lt1 (t : Fin cfg1.N) (k : Fin 1024) : 1024 * (t.val % 98) + k.val < 100352 := by
  have hk : k.val < 1024 := k.isLt
  omega

theorem word_toNat1 (x : ℕ) (h : x < 38318) : (BitVec.ofNat 32 x).toNat = x := by
  rw [BitVec.toNat_ofNat]
  omega
/-- The grid's coordinates are small enough to pass through 32-bit words unchanged. -/
theorem idx1_0 (t : Fin cfg1.N) : (BitVec.ofNat 32 ((grid1.coords t) 0).val).toNat = t.val / 98 := by
  have hN : cfg1.N = 38318 := N_1
  have ht : t.val < cfg1.N := t.isLt
  rw [coords1_0, word_toNat1 _ (by omega)]
theorem idx1_1 (t : Fin cfg1.N) : (BitVec.ofNat 32 ((grid1.coords t) 1).val).toNat = t.val % 98 := by
  rw [coords1_1, word_toNat1 _ (by omega)]

theorem iblk1_0_apply (c : Dev nD) (t : Fin cfg1.N) (p : Fin 4096) :
    (iblk1 V c 0 t : Vec Ideal S4096x1 .i32) (ix2 p 0) = sN1 V c (4096 * (t.val / 98) + p.val) := by
  rw [sN1_of_lt V c _ (erow_lt1 t p)]
  unfold iblk1
  rw [View.read_apply]
  refine congrArg (V c (Pipeline.arrRef spec1 0)) (ix_ext_of_val _ ⟨_, erow_lt1 t p⟩ 0 ?_ rfl)
  show (BitVec.ofNat 32 ((grid1.coords t) 0).val).toNat * 4096 + 1 * p.val = 4096 * (t.val / 98) + p.val
  rw [idx1_0]; omega

theorem iblk1_1_apply (c : Dev nD) (t : Fin cfg1.N) (p : Fin 4096) :
    (iblk1 V c 1 t : Vec Ideal S4096x1 .f32) (ix2 p 0) = gEd1 V c ⟨4096 * (t.val / 98) + p.val, erow_lt1 t p⟩ := by
  unfold iblk1
  rw [View.read_apply]
  refine congrArg (V c (Pipeline.arrRef spec1 1)) (ix_ext_of_val _ ⟨_, erow_lt1 t p⟩ 0 ?_ rfl)
  show (BitVec.ofNat 32 ((grid1.coords t) 0).val).toNat * 4096 + 1 * p.val = 4096 * (t.val / 98) + p.val
  rw [idx1_0]; omega

theorem iblk1_2_apply (c : Dev nD) (t : Fin cfg1.N) (k : Fin 1024) (q : Fin 128) :
    (iblk1 V c 2 t : Vec Ideal S1024x128 .bf16) (ix2 k q) = hN1 V c q (1024 * (t.val % 98) + k.val) := by
  rw [hN1_of_lt V c q _ (nrow_lt1 t k)]
  unfold iblk1
  rw [View.read_apply]
  refine congrArg (V c (Pipeline.arrRef spec1 2)) (ix_ext_of_val _ ⟨_, nrow_lt1 t k⟩ q ?_ (by show 0 * 128 + 1 * q.val = q.val; omega))
  show (BitVec.ofNat 32 ((grid1.coords t) 1).val).toNat * 1024 + 1 * k.val = 1024 * (t.val % 98) + k.val
  rw [idx1_1]; omega

theorem iblk1_3_apply (c : Dev nD) (t : Fin cfg1.N) (q : Fin 128) :
    (iblk1 V c 3 t : Vec Ideal S1x128 .f32) (ix2 0 q) = gWe1 V c q := by
  unfold iblk1
  rw [View.read_apply]
  exact congrArg (V c (Pipeline.arrRef spec1 3)) (ix_ext_of_val _ 0 q rfl (by show 0 * 128 + 1 * q.val = q.val; omega))

theorem iblk1_4_apply (c : Dev nD) (t : Fin cfg1.N) (q : Fin 128) :
    (iblk1 V c 4 t : Vec Ideal S1x128 .f32) (ix2 0 q) = gBe1 V c q := by
  unfold iblk1
  rw [View.read_apply]
  exact congrArg (V c (Pipeline.arrRef spec1 4)) (ix_ext_of_val _ 0 q rfl (by show 0 * 128 + 1 * q.val = q.val; omega))

def accSum1 (c : Dev nD) (q : Fin 128) (eb : ℕ) (p : Fin 4096) (m : ℕ) : EReal :=
  ∑ b ∈ Finset.range m, ∑ k : Fin 1024,
    Spec.oh (sN1 V c (4096 * eb + p.val)) (1024 * b + k.val) * hN1 V c q (1024 * b + k.val)

theorem acc1_point (c : Dev nD) (n : ℕ) (hn : n < cfg1.N) (v17 : Vec Ideal S4096x128 .f32) (p : Fin 4096) (q : Fin 128) :
    k1_pay2 (grid1.coords ⟨n, hn⟩) (iblk1 V c 0 ⟨n, hn⟩) (iblk1 V c 2 ⟨n, hn⟩) v17 (ix2 p q)
      = v17 (ix2 p q) + ∑ k : Fin 1024,
          Spec.oh (sN1 V c (4096 * (n / 98) + p.val)) (1024 * (n % 98) + k.val) * hN1 V c q (1024 * (n % 98) + k.val) := by
  rw [pay2_apply1, iblk1_0_apply V c ⟨n, hn⟩ p, coords1_1 ⟨n, hn⟩]
  refine congrArg (v17 (ix2 p q) + ·) (Finset.sum_congr rfl fun k _ => ?_)
  rw [iblk1_2_apply V c ⟨n, hn⟩ k q]
  rfl

theorem acc1_apply_first (c : Dev nD) (q : Fin 128) (n : ℕ) (hn : n < cfg1.N) (h0 : n % 98 = 0) (p : Fin 4096) :
    acc1 V c n hn (ix2 p q) = accSum1 V c q (n / 98) p (n % 98 + 1) := by
  have hfirst : acc1 V c n hn
      = k1_pay2 (grid1.coords ⟨n, hn⟩) (iblk1 V c 0 ⟨n, hn⟩) (iblk1 V c 2 ⟨n, hn⟩) (k1_pay1 (F := Ideal)) :=
    acc1_first V c ⟨n, hn⟩ h0
  rw [hfirst, acc1_point V c n hn _ p q, zero_apply1, zero_add, h0]
  unfold accSum1
  rw [Nat.zero_add, Finset.sum_range_one]

theorem acc1_apply (c : Dev nD) (q : Fin 128) : ∀ (n : ℕ) (hn : n < cfg1.N) (p : Fin 4096),
    acc1 V c n hn (ix2 p q) = accSum1 V c q (n / 98) p (n % 98 + 1)
  | 0, hn, p => acc1_apply_first V c q 0 hn rfl p
  | n + 1, hn, p => by
    by_cases h0 : (n + 1) % 98 = 0
    · exact acc1_apply_first V c q (n + 1) hn h0 p
    · have e1 : (n + 1) / 98 = n / 98 := by omega
      have e2 : (n + 1) % 98 = n % 98 + 1 := by omega
      have hnext : acc1 V c (n + 1) hn
          = k1_pay2 (grid1.coords ⟨n + 1, hn⟩) (iblk1 V c 0 ⟨n + 1, hn⟩) (iblk1 V c 2 ⟨n + 1, hn⟩)
              (acc1 V c n (Nat.lt_of_succ_lt hn)) :=
        acc1_next V c ⟨n + 1, hn⟩ h0
      rw [hnext, acc1_point V c (n + 1) hn _ p q, acc1_apply c q n (Nat.lt_of_succ_lt hn) p, e1, e2]
      unfold accSum1
      exact (Finset.sum_range_succ (fun b => ∑ k : Fin 1024,
        Spec.oh (sN1 V c (4096 * (n / 98) + p.val)) (1024 * b + k.val) * hN1 V c q (1024 * b + k.val)) (n % 98 + 1)).symm

theorem accSum1_full (c : Dev nD) (q : Fin 128) (eb : ℕ) (p : Fin 4096) (s : BitVec 32)
    (hs : sN1 V c (4096 * eb + p.val) = s) :
    accSum1 V c q eb p 98 = ∑ n : Fin 100352, Spec.oh s n.val * gH1 V c n q := by
  unfold accSum1
  rw [hs]
  refine (sum_blocks1 98 1024 (fun n => Spec.oh s n * hN1 V c q n)).trans ?_
  refine Finset.sum_congr rfl fun n _ => ?_
  show Spec.oh s n.val * hN1 V c q n.val = Spec.oh s n.val * gH1 V c n q
  rw [hN1_of_lt V c q n.val n.isLt]

theorem kGather_apply1 (src : Fin 1601536 → BitVec 32) (h : Fin 100352 → Fin 128 → EReal) (ed : Fin 1601536 → EReal)
    (We be : Fin 128 → EReal) (e : Fin 1601536) (j : Fin 128) :
    Spec.kGather src h ed We be e j = max ((∑ n : Fin 100352, Spec.oh (src e) n.val * h n j) + (ed e * We j + be j)) 0 := rfl

theorem relu_congr1 (a a' b b' : EReal) (ha : a = a') (hb : b = b') : max (a + b) 0 = max (a' + b') 0 := by
  rw [ha, hb]

abbrev G1 (c : Dev nD) : S1601536x128.Idx → EReal :=
  fun i => Spec.kGather (gSrc1 V c) (gH1 V c) (gEd1 V c) (gWe1 V c) (gBe1 V c) (i 0) (i 1)

theorem emb1_5 (t : Fin cfg1.N) (p : Fin 4096) (q : Fin 128) :
    ((cfg1.win 5).blk t).view.emb (ix2 p q) = ix2 ⟨4096 * (t.val / 98) + p.val, erow_lt1 t p⟩ q := by
  refine ix_ext_of_val _ _ q ?_ (by show 0 * 128 + 1 * q.val = q.val; omega)
  show (BitVec.ofNat 32 ((grid1.coords t) 0).val).toNat * 4096 + 1 * p.val = 4096 * (t.val / 98) + p.val
  rw [idx1_0]; omega

theorem flushed1_eq (c : Dev nD) (t : Fin cfg1.N) (hf : (cfg1.win 5).flush t = true) :
    (dat1 V c).flushed 5 t = ((cfg1.win 5).blk t).view.read (Elt Ideal) (G1 V c) := by
  have h97 : t.val % 98 = 97 := (flush1_5 t).mp hf
  show (cfg1.win 5).cut (grid1.coords t) ((dat1 V c).after 5 t) = _
  rw [after_out1]
  funext j
  obtain ⟨p, q, rfl⟩ : ∃ (p : Fin 4096) (q : Fin 128), j = ix2 p q := ⟨j 0, j 1, eq_ix2 j⟩
  show k1_pay3 (iblk1 V c 1 t) (iblk1 V c 3 t) (iblk1 V c 4 t) (acc1 V c t.val t.isLt) (ix2 p q)
    = G1 V c (((cfg1.win 5).blk t).view.emb (ix2 p q))
  have h98 : t.val % 98 + 1 = 98 := by omega
  rw [emb1_5 t p q]
  show _ = Spec.kGather (gSrc1 V c) (gH1 V c) (gEd1 V c) (gWe1 V c) (gBe1 V c) ⟨4096 * (t.val / 98) + p.val, erow_lt1 t p⟩ q
  rw [kGather_apply1, pay3_apply1, acc1_apply V c q t.val t.isLt p, iblk1_1_apply V c t p, iblk1_3_apply V c t q,
    iblk1_4_apply V c t q, h98]
  exact relu_congr1 _ _ _ _
    (accSum1_full V c q (t.val / 98) p _ (sN1_of_lt V c _ (erow_lt1 t p))) rfl

theorem mem_blk1_5 (t : Fin cfg1.N) (i : S1601536x128.Idx) :
    i ∈ ((cfg1.win 5).blk t).view.set ↔ ∀ a : Fin 2, win1_5.index t a * S4096x128.size a ≤ (i a).val
      ∧ (i a).val < win1_5.index t a * S4096x128.size a + S4096x128.size a := by
  show i ∈ ((View.whole (Pipeline.arrRef spec1 5)).slice (win1_5.rect t)).set ↔ _
  rw [View.set_slice_whole, Rect.mem_set_unit]
  exact Iff.rfl

theorem cover1 (c : Dev nD) (i : S1601536x128.Idx) :
    ∃ t : Fin cfg1.N, (cfg1.win 5).flush t = true ∧ i ∈ ((cfg1.win 5).blk t).view.set := by
  have hN : cfg1.N = 38318 := N_1
  have hi0 : (i 0).val < 1601536 := idx2_lt0 i
  have hi1 : (i 1).val < 128 := idx2_lt1 i
  have htv : 98 * ((i 0).val / 4096) + 97 < cfg1.N := by omega
  refine ⟨⟨_, htv⟩, (flush1_5 _).mpr (by show (98 * ((i 0).val / 4096) + 97) % 98 = 97; omega), (mem_blk1_5 _ i).mpr fun a => ?_⟩
  match a with
  | ⟨0, _⟩ =>
    show (BitVec.ofNat 32 ((grid1.coords ⟨_, htv⟩) 0).val).toNat * 4096 ≤ (i 0).val
      ∧ (i 0).val < (BitVec.ofNat 32 ((grid1.coords ⟨_, htv⟩) 0).val).toNat * 4096 + 4096
    rw [idx1_0]
    show (98 * ((i 0).val / 4096) + 97) / 98 * 4096 ≤ (i 0).val ∧ (i 0).val < (98 * ((i 0).val / 4096) + 97) / 98 * 4096 + 4096
    omega
  | ⟨1, _⟩ =>
    show 0 * 128 ≤ (i 1).val ∧ (i 1).val < 0 * 128 + 128
    omega

theorem final1 (c : Dev nD) (e : Fin 1601536) (j : Fin 128) :
    ((dat1 V c).arrAt 5 cfg1.N : S1601536x128.Idx → EReal) (ix2 e j)
      = Spec.kGather (gSrc1 V c) (gH1 V c) (gEd1 V c) (gWe1 V c) (gBe1 V c) e j :=
  congrFun ((dat1 V c).arrAt_eq_of_cover 5 (G1 V c) (flushed1_eq V c) (cover1 c)) (ix2 e j)

end Cert.KernelIdeal.Hand

end
-- ==== Proof.KI.V2.lean ====
import proofs.«429186_j15229954031644_1_alg».proof.Proof.KI.R2
import proofs.«429186_j15229954031644_1_alg».proof.Proof.KI.PointsP
import proofs.«429186_j15229954031644_1_alg».proof.Proof.Spec
import proofs.«429186_j15229954031644_1_alg».proof.Proof.LibWhole
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.Pipeline (Dat)
open Cert.Whole

theorem dotT2_apply {φ₁ φ₂ : FTy} (A : FVec Ideal S4096x1024 φ₁) (B : FVec Ideal S4096x128 φ₂)
    (acc : FVec Ideal S1024x128 .f32) (r : Fin 1024) (j : Fin 128) :
    matmul dot_S4096x1024_S4096x128_S1024x128_0_0_1_1_n_n none A B acc (ix2 r j)
      = acc (ix2 r j) + ∑ e : Fin 4096, A (ix2 e r) * B (ix2 e j) := by
  show Ideal.matmul _ A B acc (ix2 r j) = _
  unfold Ideal.matmul
  rw [← Equiv.sum_comp (contrEquiv1 dot_S4096x1024_S4096x128_S1024x128_0_0_1_1_n_n 4096 rfl rfl).symm]
  congr 1
  refine Finset.sum_congr rfl fun e _ => ?_
  have c2 := contrEquiv1_symm_val dot_S4096x1024_S4096x128_S1024x128_0_0_1_1_n_n 4096 rfl rfl e
  have l2 : dot_S4096x1024_S4096x128_S1024x128_0_0_1_1_n_n.lhsIdx (ix2 r j) ((contrEquiv1 _ 4096 rfl rfl).symm e) = ix2 e r := by
    funext ax; apply Fin.ext
    match ax with
    | ⟨0, _⟩ => simp [DotDims.lhsIdx, dot_S4096x1024_S4096x128_S1024x128_0_0_1_1_n_n]; exact c2
    | ⟨1, _⟩ => simp [DotDims.lhsIdx, dot_S4096x1024_S4096x128_S1024x128_0_0_1_1_n_n]; rfl
  have r2 : dot_S4096x1024_S4096x128_S1024x128_0_0_1_1_n_n.rhsIdx (ix2 r j) ((contrEquiv1 _ 4096 rfl rfl).symm e) = ix2 e j := by
    funext ax; apply Fin.ext
    match ax with
    | ⟨0, _⟩ => simp [DotDims.rhsIdx, dot_S4096x1024_S4096x128_S1024x128_0_0_1_1_n_n]; exact c2
    | ⟨1, _⟩ => simp [DotDims.rhsIdx, dot_S4096x1024_S4096x128_S1024x128_0_0_1_1_n_n]; rfl
  rw [l2, r2]

theorem zero2_f32 : Ideal.ofBits .f32 0x00000000#32 = 0 := by simp [Ideal.ofBits, Ideal.ieee]

theorem bit2_sitofp (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  unfold IntOp.cmpi
  by_cases h : a = b
  · subst h; simp
  · have : (a == b) = false := by simpa using h
    simp [this, h]

theorem k2_pay1_apply (x : S1024x128.Idx) : k2_pay1 (F := Ideal) x = 0 := by
  unfold k2_pay1
  simp only [shapeCast_self]
  show Scalar.ofBits (F := Ideal) .f32 0x00000000#32 = 0
  exact zero2_f32

theorem k2_pay2_apply (i : grid2.Coords) (v7 : Vec Ideal S4096x1 .i32) (v15 : Vec Ideal S4096x128 .bf16)
    (v17 : Vec Ideal S1024x128 .f32) (r : Fin 1024) (j : Fin 128) :
    k2_pay2 (F := Ideal) i v7 v15 v17 (ix2 r j)
      = v17 (ix2 r j) + ∑ e : Fin 4096, Spec.oh (v7 (ix2 e 0)) (1024 * (i 0).val + r.val) * v15 (ix2 e j) := by
  unfold k2_pay2
  simp only [shapeCast_self]
  rw [addf_apply, dotT2_apply, constant_apply, zero2_f32, zero_add]
  congr 1
  refine Finset.sum_congr rfl fun e _ => ?_
  congr 1
  rw [truncf_apply, sitofp_apply, extui_apply]
  show FloatOps.sitofp (F := Ideal) .f32 ((IntOp.cmpi .eq _ _).setWidth 32) = _
  rw [bit2_sitofp]
  unfold Spec.oh
  rw [broadcastTo_apply _ _ (ix2 e r) (ix2 e 0) (fun a => by match a with | ⟨0, _⟩ => rfl | ⟨1, _⟩ => rfl),
    broadcastTo_apply _ _ (ix2 e r) (ix2 0 r) (fun a => by match a with | ⟨0, _⟩ => rfl | ⟨1, _⟩ => rfl)]
  show (if v7 (ix2 e 0) = IntOp.addi (Scalar.muli (BitVec.ofNat 32 (i 0).val) 1024#32) (iota .tc S1x1024 32 [1] iota_S1x1024_d1_w32 (ix2 0 r)) then (1 : EReal) else 0) = _
  rw [iota_single_apply]
  have hw : IntOp.addi (Scalar.muli (BitVec.ofNat 32 (i 0).val) 1024#32) (BitVec.ofNat 32 r.val) = BitVec.ofNat 32 (1024 * (i 0).val + r.val) := by
    show BitVec.ofNat 32 (i 0).val * 1024#32 + BitVec.ofNat 32 r.val = _
    rw [show (1024#32 : BitVec 32) = BitVec.ofNat 32 1024 from rfl, ← BitVec.ofNat_mul, ← BitVec.ofNat_add, Nat.mul_comm]
  show (if v7 (ix2 e 0) = IntOp.addi (Scalar.muli (BitVec.ofNat 32 (i 0).val) 1024#32) (BitVec.ofNat 32 r.val) then (1 : EReal) else 0) = _
  rw [hw]

-- 391 blocks of 4096 consecutive numbers are exactly the numbers below 1601536.
theorem sum2_blocks {M : Type*} [AddCommMonoid M] (g : ℕ → M) :
    ∑ s ∈ Finset.range 391, ∑ e : Fin 4096, g (4096 * s + e.val) = ∑ E : Fin 1601536, g E.val := by
  rw [Finset.sum_range (fun s => ∑ e : Fin 4096, g (4096 * s + e.val))]
  rw [← Fintype.sum_prod_type' (fun (s : Fin 391) (e : Fin 4096) => g (4096 * s.val + e.val))]
  rw [← Equiv.sum_comp (finProdFinEquiv (m := 391) (n := 4096)) (fun E : Fin (391 * 4096) => g E.val)]
  refine Finset.sum_congr rfl fun p _ => ?_
  show g (4096 * p.1.val + p.2.val) = g (p.2.val + 4096 * p.1.val)
  rw [Nat.add_comm]

theorem coords2_0 (t : Fin cfg2.N) : (grid2.coords t 0).val = t.val / 391 := by
  have hN : grid2.N = 38318 := N_2
  have ht : t.val < 38318 := hN ▸ t.isLt
  show t.val / grid2.stride 0 % 98 = _
  rw [show grid2.stride 0 = 391 from by decide]
  omega

section Fold
variable (dst : ℕ → BitVec 32) (msg : ℕ → Fin 128 → EReal)

def addend2 (q : ℕ) (n : ℕ) (x : S1024x128.Idx) : EReal :=
  ∑ e : Fin 4096, Spec.oh (dst (4096 * (n % 391) + e.val)) (1024 * q + (x 0).val) * msg (4096 * (n % 391) + e.val) (x 1)

-- By induction along the 391 points of a node block: after edge block b the accumulated value is the sum over edge blocks 0 … b.
theorem fold2_apply (f : (n : ℕ) → n < cfg2.N → Vec Ideal S1024x128 .f32)
    (D : (n : ℕ) → n < cfg2.N → Vec Ideal S4096x1 .i32) (Mg : (n : ℕ) → n < cfg2.N → Vec Ideal S4096x128 .bf16)
    (hD : ∀ (n : ℕ) (h : n < cfg2.N) (e : Fin 4096), D n h (ix2 e 0) = dst (4096 * (n % 391) + e.val))
    (hM : ∀ (n : ℕ) (h : n < cfg2.N) (e : Fin 4096) (j : Fin 128), Mg n h (ix2 e j) = msg (4096 * (n % 391) + e.val) j)
    (h0 : ∀ (n : ℕ) (h : n < cfg2.N), n % 391 = 0 →
      f n h = k2_pay2 (grid2.coords ⟨n, h⟩) (D n h) (Mg n h) (k2_pay1 (F := Ideal)))
    (hs : ∀ (n : ℕ) (h : n + 1 < cfg2.N), ¬(n + 1) % 391 = 0 →
      f (n + 1) h = k2_pay2 (grid2.coords ⟨n + 1, h⟩) (D (n + 1) h) (Mg (n + 1) h) (f n (Nat.lt_of_succ_lt h)))
    (q b : ℕ) (hb : b < 391) (h : 391 * q + b < cfg2.N) (r : Fin 1024) (j : Fin 128) :
    f (391 * q + b) h (ix2 r j)
      = ∑ s ∈ Finset.range (b + 1), ∑ e : Fin 4096,
          Spec.oh (dst (4096 * s + e.val)) (1024 * q + r.val) * msg (4096 * s + e.val) j := by
  have hN : cfg2.N = 38318 := N_2
  have key : ∀ (n : ℕ) (hn : n < cfg2.N) (acc : Vec Ideal S1024x128 .f32) (x : S1024x128.Idx), n / 391 = q →
      k2_pay2 (grid2.coords ⟨n, hn⟩) (D n hn) (Mg n hn) acc x = acc x + addend2 dst msg q n x := by
    intro n hn acc x hq
    obtain ⟨r', j', rfl⟩ : ∃ r' j', x = ix2 r' j' := ⟨x 0, x 1, eq_ix2 x⟩
    rw [k2_pay2_apply, coords2_0 ⟨n, hn⟩]
    show _ + _ = _ + ∑ e : Fin 4096, Spec.oh (dst (4096 * (n % 391) + e.val)) (1024 * q + r'.val) * msg (4096 * (n % 391) + e.val) j'
    congr 1
    refine Finset.sum_congr rfl fun e _ => ?_
    rw [hD, hM, hq]
  have e1 := Pipeline.eq_accAt f 391
      (fun n hn => k2_pay2 (grid2.coords ⟨n, hn⟩) (D n hn) (Mg n hn) (k2_pay1 (F := Ideal)))
      (fun n hn acc => k2_pay2 (grid2.coords ⟨n, hn⟩) (D n hn) (Mg n hn) acc) h0 hs q b hb h
  have e2 := Pipeline.accAt_add_apply
      (fun n hn => k2_pay2 (grid2.coords ⟨n, hn⟩) (D n hn) (Mg n hn) (k2_pay1 (F := Ideal)))
      (fun n hn acc => k2_pay2 (grid2.coords ⟨n, hn⟩) (D n hn) (Mg n hn) acc)
      (fun _ => 0) (addend2 dst msg q) (391 * q) 390
      (fun hn x => by
        show k2_pay2 (grid2.coords ⟨391 * q, hn⟩) (D _ hn) (Mg _ hn) (k2_pay1 (F := Ideal)) x = 0 + addend2 dst msg q (391 * q) x
        rw [key _ hn _ x (by omega), k2_pay1_apply])
      (fun n hn acc x h1 h2 => key n hn acc x (by omega)) b (by omega) h (ix2 r j)
  refine ((congrFun e1 (ix2 r j)).trans e2).trans ?_
  show (0 : EReal) + ∑ s ∈ Finset.range (b + 1), addend2 dst msg q (391 * q + s) (ix2 r j) = _
  rw [zero_add]
  refine Finset.sum_congr rfl fun s hs' => ?_
  have hs391 : s < 391 := by have := Finset.mem_range.mp hs'; omega
  show ∑ e : Fin 4096, Spec.oh (dst (4096 * ((391 * q + s) % 391) + e.val)) (1024 * q + r.val)
      * msg (4096 * ((391 * q + s) % 391) + e.val) j = _
  rw [Nat.mul_add_mod, Nat.mod_eq_of_lt hs391]

end Fold

section Region
variable (V : (c : Dev nD) → (b : Ref sig .tc) → Buf (Elt Ideal) ((c : Thread nD τ).loc b))

theorem widx2_0 (t : Fin cfg2.N) : win2_0.index t 0 = t.val % 391 := by
  show (BitVec.ofNat 32 (grid2.coords t 1).val).toNat = _
  rw [BitVec.toNat_ofNat, coordj2, Nat.mod_eq_of_lt (by have := Nat.mod_lt t.val (show 0 < 391 by decide); omega)]

theorem widx2_1 (t : Fin cfg2.N) : win2_1.index t 0 = t.val % 391 := widx2_0 t

theorem widx2_2 (t : Fin cfg2.N) : win2_2.index t 0 = t.val / 391 := by
  have hN : grid2.N = 38318 := N_2
  have ht : t.val < 38318 := hN ▸ t.isLt
  show (BitVec.ofNat 32 (grid2.coords t 0).val).toNat = _
  rw [BitVec.toNat_ofNat, coords2_0, Nat.mod_eq_of_lt (by omega)]

def dstN2 (c : Dev nD) (k : ℕ) : BitVec 32 :=
  if h : k < 1601536 then V c (Pipeline.arrRef spec2 0) (ix2 (⟨k, h⟩ : Fin 1601536) (0 : Fin 1)) else 0

def msgN2 (c : Dev nD) (k : ℕ) (j : Fin 128) : EReal :=
  if h : k < 1601536 then V c (Pipeline.arrRef spec2 1) (ix2 (⟨k, h⟩ : Fin 1601536) j) else 0

theorem iblk2_dst (c : Dev nD) (t : Fin cfg2.N) (e : Fin 4096) :
    (iblk2 V c 0 t : Vec Ideal S4096x1 .i32) (ix2 e 0) = dstN2 V c (4096 * (t.val % 391) + e.val) := by
  have he : 4096 * (t.val % 391) + e.val < 1601536 := by
    have := e.isLt; have := Nat.mod_lt t.val (show 0 < 391 by decide); omega
  unfold dstN2
  rw [dif_pos he]
  unfold iblk2
  rw [View.read_apply]
  exact congrArg (V c (Pipeline.arrRef spec2 0)) (ix_ext_of_val _ _ _
    (by show win2_0.index t 0 * 4096 + 1 * e.val = 4096 * (t.val % 391) + e.val; rw [widx2_0]; omega) rfl)

theorem iblk2_msg (c : Dev nD) (t : Fin cfg2.N) (e : Fin 4096) (j : Fin 128) :
    (iblk2 V c 1 t : Vec Ideal S4096x128 .bf16) (ix2 e j) = msgN2 V c (4096 * (t.val % 391) + e.val) j := by
  have he : 4096 * (t.val % 391) + e.val < 1601536 := by
    have := e.isLt; have := Nat.mod_lt t.val (show 0 < 391 by decide); omega
  unfold msgN2
  rw [dif_pos he]
  unfold iblk2
  rw [View.read_apply]
  exact congrArg (V c (Pipeline.arrRef spec2 1)) (ix_ext_of_val _ _ _
    (by show win2_1.index t 0 * 4096 + 1 * e.val = 4096 * (t.val % 391) + e.val; rw [widx2_1]; omega)
    (by show win2_1.index t 1 * 128 + 1 * j.val = j.val; rw [show win2_1.index t 1 = 0 from rfl]; omega))

theorem acc2_apply (c : Dev nD) (q b : ℕ) (hb : b < 391) (h : 391 * q + b < cfg2.N) (r : Fin 1024) (j : Fin 128) :
    acc2 V c (391 * q + b) h (ix2 r j)
      = ∑ s ∈ Finset.range (b + 1), ∑ e : Fin 4096,
          Spec.oh (dstN2 V c (4096 * s + e.val)) (1024 * q + r.val) * msgN2 V c (4096 * s + e.val) j :=
  fold2_apply (dstN2 V c) (msgN2 V c) (acc2 V c) (fun n hn => iblk2 V c 0 ⟨n, hn⟩) (fun n hn => iblk2 V c 1 ⟨n, hn⟩)
    (fun n hn e => iblk2_dst V c ⟨n, hn⟩ e) (fun n hn e j => iblk2_msg V c ⟨n, hn⟩ e j)
    (fun n hn hz => acc2_first V c ⟨n, hn⟩ hz) (fun n hn hz => acc2_next V c ⟨n + 1, hn⟩ hz) q b hb h r j

def G2 (c : Dev nD) : Buf (Elt Ideal) ((cfg2.win 2).arr.view.loc (c.tc : Thread nD τ)) :=
  (fun i : S100352x128.Idx =>
    Spec.kScatter (fun e => V c (Pipeline.arrRef spec2 0) (ix2 e 0)) (fun e j => V c (Pipeline.arrRef spec2 1) (ix2 e j))
      (i 0) (i 1) : S100352x128.Idx → EReal)

theorem G2_apply (c : Dev nD) (i : S100352x128.Idx) (n : Fin 100352) (j : Fin 128) (h0 : (i 0).val = n.val)
    (h1 : (i 1).val = j.val) :
    G2 V c i = Spec.kScatter (fun e => V c (Pipeline.arrRef spec2 0) (ix2 e 0))
      (fun e j => V c (Pipeline.arrRef spec2 1) (ix2 e j)) n j := by
  have hi : i = ix2 n j := ix_ext_of_val i n j h0 h1
  subst hi
  rfl

theorem read2_blk (c : Dev nD) (t : Fin cfg2.N) (f : Buf (Elt Ideal) ((cfg2.win 2).arr.view.loc (c.tc : Thread nD τ)))
    (y : ((cfg2.win 2).xblock (cfg2.grid.coords t)).Idx) :
    ((cfg2.win 2).blk t).view.read (Elt Ideal) f y = f (((cfg2.win 2).blk t).view.emb y) := by
  rw [View.read_apply]
  rfl

theorem flushed2_eq (c : Dev nD) (t : Fin cfg2.N) (hf : (cfg2.win 2).flush t = true) :
    (dat2 V c).flushed 2 t = ((cfg2.win 2).blk t).view.read (Elt Ideal) (G2 V c) := by
  have hN : cfg2.N = 38318 := N_2
  have ht : t.val < 38318 := hN ▸ t.isLt
  have h390 : t.val % 391 = 390 := (flush2_2 t).mp hf
  have hq : 391 * (t.val / 391) + 390 < cfg2.N := by omega
  have same : ∀ (u : ℕ) (hu : u < cfg2.N), u = t.val → acc2 V c u hu = acc2 V c t.val t.isLt :=
    fun u hu e => by subst e; rfl
  refine funext fun (y : S1024x128.Idx) => ?_
  obtain ⟨r, j, rfl⟩ : ∃ (r : Fin 1024) (j : Fin 128), y = ix2 r j := ⟨y 0, y 1, eq_ix2 y⟩
  rw [read2_blk]
  show acc2 V c t.val t.isLt (ix2 r j) = _
  rw [← same _ hq (by omega)]
  refine (acc2_apply V c (t.val / 391) 390 (by decide) hq r j).trans ?_
  show ∑ s ∈ Finset.range 391, ∑ e : Fin 4096,
      (fun k => Spec.oh (dstN2 V c k) (1024 * (t.val / 391) + r.val) * msgN2 V c k j) (4096 * s + e.val) = _
  rw [sum2_blocks (fun k => Spec.oh (dstN2 V c k) (1024 * (t.val / 391) + r.val) * msgN2 V c k j)]
  have hn : 1024 * (t.val / 391) + r.val < 100352 := by have := r.isLt; omega
  have hG := G2_apply V c (((cfg2.win 2).blk t).view.emb (ix2 r j)) ⟨1024 * (t.val / 391) + r.val, hn⟩ j
    (by show win2_2.index t 0 * 1024 + 1 * r.val = 1024 * (t.val / 391) + r.val
        rw [widx2_2]; omega)
    (by show win2_2.index t 1 * 128 + 1 * j.val = j.val
        rw [show win2_2.index t 1 = 0 from rfl]; omega)
  rw [hG]
  unfold Spec.kScatter
  refine Finset.sum_congr rfl fun E _ => ?_
  show Spec.oh (dstN2 V c E.val) _ * msgN2 V c E.val j = _
  unfold dstN2 msgN2
  rw [dif_pos E.isLt, dif_pos E.isLt]

theorem cover2 (c : Dev nD) (i : ((cfg2.win 2).arr.view.loc (c.tc : Thread nD τ)).2.ty.Idx) :
    ∃ t : Fin cfg2.N, (cfg2.win 2).flush t = true ∧ i ∈ ((cfg2.win 2).blk t).view.set := by
  have hN : cfg2.N = 38318 := N_2
  have h0 : (i 0 : ℕ) < 100352 := (i 0).isLt
  have h1 : (i 1 : ℕ) < 128 := (i 1).isLt
  obtain ⟨T, hT⟩ : ∃ T : Fin cfg2.N, T.val = 391 * ((i 0 : ℕ) / 1024) + 390 := ⟨⟨_, by omega⟩, rfl⟩
  refine ⟨T, (flush2_2 T).mpr (by omega), ?_⟩
  rw [show ((cfg2.win 2).blk T).view.set = (win2_2.rect T).set from View.set_slice_whole _ _, Rect.mem_set_unit]
  intro a
  match a with
  | ⟨0, _⟩ =>
    show win2_2.index T 0 * 1024 ≤ (i 0 : ℕ) ∧ (i 0 : ℕ) < win2_2.index T 0 * 1024 + 1024
    rw [widx2_2]; omega
  | ⟨1, _⟩ =>
    show win2_2.index T 1 * 128 ≤ (i 1 : ℕ) ∧ (i 1 : ℕ) < win2_2.index T 1 * 128 + 128
    rw [show win2_2.index T 1 = 0 from rfl]; omega

theorem arr2_eq (c : Dev nD) : (dat2 V c).arrAt 2 cfg2.N = G2 V c :=
  (dat2 V c).arrAt_eq_of_cover 2 (G2 V c) (flushed2_eq V c) (cover2 c)

theorem final2 (c : Dev nD) (n : Fin 100352) (j : Fin 128) :
    ((dat2 V c).arrAt 2 cfg2.N) (ix2 n j)
      = Spec.kScatter (fun e => V c (Pipeline.arrRef spec2 0) (ix2 e 0))
          (fun e j => V c (Pipeline.arrRef spec2 1) (ix2 e j)) n j := by
  rw [arr2_eq]
  exact G2_apply V c (ix2 n j) n j rfl rfl

end Region

end Cert.KernelIdeal.Hand

end
-- ==== Proof.KI.V3.lean ====
import proofs.«429186_j15229954031644_1_alg».proof.Proof.KI.R3
import proofs.«429186_j15229954031644_1_alg».proof.Proof.Spec
import proofs.«429186_j15229954031644_1_alg».proof.Proof.LibWhole
import Idealize.ShloMosaic.Lib.Pipeline.Value
import Idealize.ShloMosaic.Lib.ValueIdx
import Idealize.ShloMosaic.Lib.ValueLayout
import Idealize.ShloMosaic.Lib.IdealHost

set_option maxRecDepth 16384

open scoped BigOperators

noncomputable section

namespace Cert.KernelIdeal.Hand

open Cert.KernelIdeal Cert.KernelIdeal.Gen Cert.KernelIdeal.GenP
open Idealize.ShloMosaic Idealize.ShloMosaic.TcCoe Idealize.SL.Sem
open Idealize.ShloMosaic.ValueIdx
open Idealize.ShloMosaic.Pipeline (Dat)
open Cert.Whole

theorem lhs3_0 (i : S7168x128.Idx) (q : dot_S7168x128_S128x128_S7168x128_1_0_0_1_n_n.contr.Idx) :
    (dot_S7168x128_S128x128_S7168x128_1_0_0_1_n_n.lhsIdx i q 0).val = (i 0).val := by
  unfold DotDims.lhsIdx
  rw [dif_neg (show ¬(0 : Fin S7168x128.rank) ∈ dot_S7168x128_S128x128_S7168x128_1_0_0_1_n_n.lhsBatch by decide),
    dif_pos (show (0 : Fin S7168x128.rank) ∈ dot_S7168x128_S128x128_S7168x128_1_0_0_1_n_n.lhsNonContracting by decide)]
  rfl
theorem rhs3_1 (i : S7168x128.Idx) (q : dot_S7168x128_S128x128_S7168x128_1_0_0_1_n_n.contr.Idx) :
    (dot_S7168x128_S128x128_S7168x128_1_0_0_1_n_n.rhsIdx i q 1).val = (i 1).val := by
  unfold DotDims.rhsIdx
  rw [dif_neg (show ¬(1 : Fin S128x128.rank) ∈ dot_S7168x128_S128x128_S7168x128_1_0_0_1_n_n.rhsBatch by decide),
    dif_pos (show (1 : Fin S128x128.rank) ∈ dot_S7168x128_S128x128_S7168x128_1_0_0_1_n_n.rhsNonContracting by decide)]
  rfl

theorem dot3_apply (A : FVec Ideal S7168x128 .bf16) (B : FVec Ideal S128x128 .bf16) (p : Fin 7168) (q : Fin 128) :
    matmul dot_S7168x128_S128x128_S7168x128_1_0_0_1_n_n none A B (constant (F := Ideal) S7168x128 .f32 0x00000000#32) (ix2 p q)
      = ∑ k : Fin 128, A (ix2 p k) * B (ix2 k q) := by
  refine (Ideal.matmul_constant_zero_apply dot_S7168x128_S128x128_S7168x128_1_0_0_1_n_n none A B (ix2 p q)).trans ?_
  rw [← Equiv.sum_comp (contrEquiv1 dot_S7168x128_S128x128_S7168x128_1_0_0_1_n_n 128 rfl rfl).symm]
  refine Finset.sum_congr rfl fun k _ => ?_
  have hk := contrEquiv1_symm_val dot_S7168x128_S128x128_S7168x128_1_0_0_1_n_n 128 rfl rfl k
  have el : dot_S7168x128_S128x128_S7168x128_1_0_0_1_n_n.lhsIdx (ix2 p q)
      ((contrEquiv1 dot_S7168x128_S128x128_S7168x128_1_0_0_1_n_n 128 rfl rfl).symm k) = ix2 p k := funext fun a => Fin.ext (by
    match a with
    | ⟨0, _⟩ => exact lhs3_0 _ _
    | ⟨1, _⟩ => exact (dot_S7168x128_S128x128_S7168x128_1_0_0_1_n_n.lhsIdx_val_of_single rfl _ _).trans hk)
  have er : dot_S7168x128_S128x128_S7168x128_1_0_0_1_n_n.rhsIdx (ix2 p q)
      ((contrEquiv1 dot_S7168x128_S128x128_S7168x128_1_0_0_1_n_n 128 rfl rfl).symm k) = ix2 k q := funext fun a => Fin.ext (by
    match a with
    | ⟨0, _⟩ => exact (dot_S7168x128_S128x128_S7168x128_1_0_0_1_n_n.rhsIdx_val_of_single rfl _ _).trans hk
    | ⟨1, _⟩ => exact rhs3_1 _ _)
  rw [el, er]

theorem bcast3_e (v : FVec Ideal S1x1 .f32) (p : Fin 7168) (q : Fin 128) :
    broadcastTo S7168x128 v broadcasts_S1x1_S7168x128 (ix2 p q) = v (ix2 0 0) :=
  broadcastTo_apply v broadcasts_S1x1_S7168x128 (ix2 p q) (ix2 0 0) (fun a => by match a with | ⟨0, _⟩ => rfl | ⟨1, _⟩ => rfl)

theorem bcast3_b (v : FVec Ideal S1x128 .f32) (p : Fin 7168) (q : Fin 128) :
    broadcastTo S7168x128 v broadcasts_S1x128_S7168x128 (ix2 p q) = v (ix2 0 q) :=
  broadcastTo_1b_ab_apply v broadcasts_S1x128_S7168x128 p q

theorem pay3_apply (xh xa : FVec Ideal S7168x128 .bf16) (xe : FVec Ideal S1x1 .f32) (xw : FVec Ideal S128x128 .f32)
    (xb : FVec Ideal S1x128 .f32) (p : Fin 7168) (q : Fin 128) :
    k3_pay1 (F := Ideal) xh xa xe xw xb (ix2 p q)
      = max ((∑ k : Fin 128, ((1 + xe (ix2 0 0)) * xh (ix2 p k) + xa (ix2 p k)) * xw (ix2 k q)) + xb (ix2 0 q)) 0 + xh (ix2 p q) := by
  unfold k3_pay1
  simp only [shapeCast_self, truncf_apply, extf_apply, addf_apply, mulf_apply, maximumf_apply, broadcast_apply,
    dot3_apply, bcast3_b, bcast3_e]
  show max ((∑ k : Fin 128, ((Ideal.ofBits .f32 0x3F800000#32 + xe (ix2 0 0)) * xh (ix2 p k) + xa (ix2 p k)) * xw (ix2 k q))
      + xb (ix2 0 q)) (Ideal.ofBits .f32 0x00000000#32) + xh (ix2 p q) = _
  rw [Ideal.ofBits_zero_f32, Ideal.ofBits_one_f32]

variable (V : (c : Dev nD) → (b : Ref sig .tc) → Buf (Elt Ideal) ((c : Thread nD τ).loc b))

abbrev harr3 (c : Dev nD) : FVec Ideal S100352x128 .bf16 := V c (Pipeline.arrRef spec3 0)
abbrev aarr3 (c : Dev nD) : FVec Ideal S100352x128 .bf16 := V c (Pipeline.arrRef spec3 1)
abbrev earr3 (c : Dev nD) : FVec Ideal S1x1 .f32 := V c (Pipeline.arrRef spec3 2)
abbrev warr3 (c : Dev nD) : FVec Ideal S128x128 .f32 := V c (Pipeline.arrRef spec3 3)
abbrev barr3 (c : Dev nD) : FVec Ideal S1x128 .f32 := V c (Pipeline.arrRef spec3 4)
abbrev hblk3 (c : Dev nD) (t : Fin cfg3.N) : FVec Ideal S7168x128 .bf16 := iblk3 V c 0 t
abbrev ablk3 (c : Dev nD) (t : Fin cfg3.N) : FVec Ideal S7168x128 .bf16 := iblk3 V c 1 t
abbrev eblk3 (c : Dev nD) (t : Fin cfg3.N) : FVec Ideal S1x1 .f32 := iblk3 V c 2 t
abbrev wblk3 (c : Dev nD) (t : Fin cfg3.N) : FVec Ideal S128x128 .f32 := iblk3 V c 3 t
abbrev bblk3 (c : Dev nD) (t : Fin cfg3.N) : FVec Ideal S1x128 .f32 := iblk3 V c 4 t

def G3 (c : Dev nD) : FVec Ideal S100352x128 .bf16 := fun i =>
  Spec.combine (R := 100352) (fun n k => harr3 V c (ix2 n k)) (fun n k => aarr3 V c (ix2 n k)) (earr3 V c (ix2 0 0))
    (fun k j => warr3 V c (ix2 k j)) (fun j => barr3 V c (ix2 0 j)) (i 0) (i 1)

theorem G3_apply (c : Dev nD) (r : Fin 100352) (q : Fin 128) :
    G3 V c (ix2 r q) = max ((∑ k : Fin 128, ((1 + earr3 V c (ix2 0 0)) * harr3 V c (ix2 r k) + aarr3 V c (ix2 r k)) * warr3 V c (ix2 k q))
      + barr3 V c (ix2 0 q)) 0 + harr3 V c (ix2 r q) := rfl

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem hblk3_apply (c : Dev nD) (t : Fin cfg3.N) (p : Fin 7168) (k : Fin 128) (r : Fin 100352) (hr : r.val = t.val * 7168 + p.val) :
    hblk3 V c t (ix2 p k) = harr3 V c (ix2 r k) := by
  obtain ⟨e0, e1, -⟩ := idx3 t
  exact congrArg (harr3 V c) (ix_ext_of_val _ r k
    (by show win3_0.index t (0 : Fin 2) * 7168 + 1 * p.val = r.val; omega)
    (by show win3_0.index t (1 : Fin 2) * 128 + 1 * k.val = k.val; omega))

theorem ablk3_apply (c : Dev nD) (t : Fin cfg3.N) (p : Fin 7168) (k : Fin 128) (r : Fin 100352) (hr : r.val = t.val * 7168 + p.val) :
    ablk3 V c t (ix2 p k) = aarr3 V c (ix2 r k) := by
  obtain ⟨-, -, e0, e1, -⟩ := idx3 t
  exact congrArg (aarr3 V c) (ix_ext_of_val _ r k
    (by show win3_1.index t (0 : Fin 2) * 7168 + 1 * p.val = r.val; omega)
    (by show win3_1.index t (1 : Fin 2) * 128 + 1 * k.val = k.val; omega))

theorem eblk3_apply (c : Dev nD) (t : Fin cfg3.N) : eblk3 V c t (ix2 0 0) = earr3 V c (ix2 0 0) := by
  obtain ⟨-, -, -, -, e0, e1, -⟩ := idx3 t
  exact congrArg (earr3 V c) (ix_ext_of_val _ 0 0
    (by show win3_2.index t (0 : Fin 2) * 1 + 1 * 0 = 0; omega)
    (by show win3_2.index t (1 : Fin 2) * 1 + 1 * 0 = 0; omega))

theorem wblk3_apply (c : Dev nD) (t : Fin cfg3.N) (k q : Fin 128) : wblk3 V c t (ix2 k q) = warr3 V c (ix2 k q) := by
  obtain ⟨-, -, -, -, -, -, e0, e1, -⟩ := idx3 t
  exact congrArg (warr3 V c) (ix_ext_of_val _ k q
    (by show win3_3.index t (0 : Fin 2) * 128 + 1 * k.val = k.val; omega)
    (by show win3_3.index t (1 : Fin 2) * 128 + 1 * q.val = q.val; omega))

theorem bblk3_apply (c : Dev nD) (t : Fin cfg3.N) (q : Fin 128) : bblk3 V c t (ix2 0 q) = barr3 V c (ix2 0 q) := by
  obtain ⟨-, -, -, -, -, -, -, -, e0, e1, -⟩ := idx3 t
  exact congrArg (barr3 V c) (ix_ext_of_val _ 0 q
    (by show win3_4.index t (0 : Fin 2) * 1 + 1 * 0 = 0; omega)
    (by show win3_4.index t (1 : Fin 2) * 128 + 1 * q.val = q.val; omega))

theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after_out3]
  unfold out3
  rw [View.canon_unit_zero hz2]
  simp only [View.ld_unit_zero (S := S7168x128) hz2, View.ld_unit_zero (S := S1x1) hz2,
    View.ld_unit_zero (S := S128x128) hz2, View.ld_unit_zero (S := S1x128) hz2]
  obtain ⟨-, -, -, -, -, -, -, -, -, -, e0, e1⟩ := idx3 t
  funext y
  obtain ⟨p, q, rfl⟩ : ∃ (p : Fin 7168) (q : Fin 128), y = ix2 p q := ⟨y 0, y 1, eq_ix2 y⟩
  have ht : t.val < 14 := Nat.lt_of_lt_of_eq t.isLt N_3
  have hrow : ∃ r : Fin 100352, r.val = t.val * 7168 + p.val := ⟨⟨t.val * 7168 + p.val, by have := p.isLt; omega⟩, rfl⟩
  obtain ⟨r, hr⟩ := hrow
  have hemb : ((cfg3.win 5).blk t).view.emb (ix2 p q) = ix2 r q := ix_ext_of_val _ r q
    (by show win3_5.index t (0 : Fin 2) * 7168 + 1 * p.val = r.val; omega)
    (by show win3_5.index t (1 : Fin 2) * 128 + 1 * q.val = q.val; omega)
  show k3_pay1 (F := Ideal) (hblk3 V c t) (ablk3 V c t) (eblk3 V c t) (wblk3 V c t) (bblk3 V c t) (ix2 p q)
    = G3 V c (((cfg3.win 5).blk t).view.emb (ix2 p q))
  rw [hemb]
  refine (pay3_apply (hblk3 V c t) (ablk3 V c t) (eblk3 V c t) (wblk3 V c t) (bblk3 V c t) p q).trans ?_
  have hS : (∑ k : Fin 128, ((1 + eblk3 V c t (ix2 0 0)) * hblk3 V c t (ix2 p k) + ablk3 V c t (ix2 p k)) * wblk3 V c t (ix2 k q))
      = ∑ k : Fin 128, ((1 + earr3 V c (ix2 0 0)) * harr3 V c (ix2 r k) + aarr3 V c (ix2 r k)) * warr3 V c (ix2 k q) :=
    Finset.sum_congr rfl fun k _ => by
      rw [eblk3_apply V c t, hblk3_apply V c t p k r hr, ablk3_apply V c t p k r hr, wblk3_apply V c t k q]
  rw [hS, bblk3_apply V c t q, hblk3_apply V c t p q r hr]
  exact (G3_apply V c r q).symm

theorem cover3_arr (i : S100352x128.Idx) :
    ∃ t : Fin cfg3.N, (cfg3.win 5).flush t = true ∧ i ∈ ((cfg3.win 5).blk t).view.set := by
  have hi0 : (i 0).val < 100352 := (i 0).isLt
  have hi1 : (i 1).val < 128 := (i 1).isLt
  have hlt : (i 0).val / 7168 < cfg3.N := Nat.lt_of_lt_of_eq (show (i 0).val / 7168 < 14 by omega) N_3.symm
  obtain ⟨t, ht⟩ : ∃ t : Fin cfg3.N, t.val = (i 0).val / 7168 := ⟨⟨_, hlt⟩, rfl⟩
  refine ⟨t, flush3_5 t, ?_⟩
  obtain ⟨-, -, -, -, -, -, -, -, -, -, e0, e1⟩ := idx3 t
  have hemb : ((cfg3.win 5).blk t).view.emb (ix2 (⟨(i 0).val % 7168, Nat.mod_lt _ (by decide)⟩ : Fin 7168) (⟨(i 1).val, hi1⟩ : Fin 128)) = i :=
    funext fun a => Fin.ext (by
      match a with
      | ⟨0, _⟩ => show win3_5.index t (0 : Fin 2) * 7168 + 1 * ((i 0).val % 7168) = (i 0).val; omega
      | ⟨1, _⟩ => show win3_5.index t (1 : Fin 2) * 128 + 1 * (i 1).val = (i 1).val; omega)
  rw [← hemb]
  exact View.emb_mem_set _ _

theorem final3 (c : Dev nD) (n : Fin 100352) (j : Fin 128) :
    ((dat3 V c).arrAt 5 cfg3.N) (ix2 n j)
      = Spec.combine (R := 100352) (fun n k => harr3 V c (ix2 n k)) (fun n k => aarr3 V c (ix2 n k)) (earr3 V c (ix2 0 0))
          (fun k j => warr3 V c (ix2 k j)) (fun j => barr3 V c (ix2 0 j)) n j :=
  congrFun ((dat3 V c).arrAt_eq_of_cover 5 (G3 V c) (fun t _ => flushed3_eq V c t) (cover3_arr)) (ix2 n j)

end Cert.KernelIdeal.Hand
-- ==== Proof.KI.V4.lean ====
import proofs.«429186_j15229954031644_1_alg».proof.Proof.KI.R4
import proofs.«429186_j15229954031644_1_alg».proof.Proof.KI.PointsP
import proofs.«429186_j15229954031644_1_alg».proof.Proof.Spec
import proofs.«429186_j15229954031644_1_alg».proof.Proof.LibWhole
import Idealize.ShloMosaic.Lib.Pipeline.Value
import Idealize.ShloMosaic.Lib.ValueIdx
import Idealize.ShloMosaic.Lib.KernelVsHost

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open Cert.Whole

theorem rowWord4 (b k : Nat) : BitVec.ofNat 32 b * 1024#32 + BitVec.ofNat 32 k = BitVec.ofNat 32 (1024 * b + k) := by
  apply BitVec.eq_of_toNat_eq
  simp [BitVec.toNat_add, BitVec.toNat_mul, BitVec.toNat_ofNat, Nat.add_mod, Nat.mul_mod, Nat.mul_comm]

theorem onehotEntry4 (x y : BitVec 32) :
    (FloatOps.sitofp .f32 ((IntOp.cmpi .eq x y).setWidth 32) : Ideal .f32) = if x = y then (1 : EReal) else 0 := by
  show (((((IntOp.cmpi .eq x y).setWidth 32).toInt : ℤ) : ℝ) : EReal) = _
  rw [toInt_setWidth_bit]
  unfold IntOp.cmpi
  by_cases h : x = y <;> simp [h]

theorem cmpi_at4 {s : Shape} {w : Nat} (pr : CmpIPredicate) (x y : IVec s w) (i : s.Idx) :
    cmpi pr x y i = IntOp.cmpi pr (x i) (y i) := rfl
theorem addi_at4 {s : Shape} {w : Nat} (x y : IVec s w) (i : s.Idx) : addi x y i = IntOp.addi (x i) (y i) := rfl

abbrev ce4 := contrEquiv1 dot_S4096x1024_S1024x128_S4096x128_1_0_0_1_n_n 1024 rfl rfl

theorem zero_apply4 (p : Fin 4096) (q : Fin 128) : (k4_pay1 (F := Ideal)) (ix2 p q) = 0 := by
  unfold k4_pay1
  simp only [shapeCast_self]
  rw [broadcast_apply]
  exact Ideal.ofBits_zero_f32

theorem pay2_apply4 (i : grid4.Coords) (v7 : Vec Ideal S4096x1 .i32) (v15 : Vec Ideal S1024x128 .bf16)
    (v17 : Vec Ideal S4096x128 .f32) (p : Fin 4096) (q : Fin 128) :
    k4_pay2 i v7 v15 v17 (ix2 p q) = v17 (ix2 p q)
      + ∑ k : Fin 1024, (if v7 (ix2 p 0) = BitVec.ofNat 32 (1024 * (i 1).val + k.val) then (1 : EReal) else 0) * v15 (ix2 k q) := by
  unfold k4_pay2
  simp only [shapeCast_self, matmul]
  rw [addf_apply, Ideal.matmul_constant_zero_apply, ← Equiv.sum_comp ce4.symm]
  refine congrArg (v17 (ix2 p q) + ·) (Finset.sum_congr rfl fun k _ => ?_)
  have hk := contrEquiv1_symm_val dot_S4096x1024_S1024x128_S4096x128_1_0_0_1_n_n 1024 rfl rfl k
  have el : dot_S4096x1024_S1024x128_S4096x128_1_0_0_1_n_n.lhsIdx (ix2 p q) (ce4.symm k) = ix2 p k :=
    ix_ext_of_val _ p k (by
      unfold DotDims.lhsIdx
      rw [dif_neg (show ¬(0 : Fin S4096x1024.rank) ∈ dot_S4096x1024_S1024x128_S4096x128_1_0_0_1_n_n.lhsBatch by decide),
        dif_pos (show (0 : Fin S4096x1024.rank) ∈ dot_S4096x1024_S1024x128_S4096x128_1_0_0_1_n_n.lhsNonContracting by decide)]
      rfl) ((dot_S4096x1024_S1024x128_S4096x128_1_0_0_1_n_n.lhsIdx_val_of_single rfl _ _).trans hk)
  have er : dot_S4096x1024_S1024x128_S4096x128_1_0_0_1_n_n.rhsIdx (ix2 p q) (ce4.symm k) = ix2 k q :=
    ix_ext_of_val _ k q ((dot_S4096x1024_S1024x128_S4096x128_1_0_0_1_n_n.rhsIdx_val_of_single rfl _ _).trans hk) (by
      unfold DotDims.rhsIdx
      rw [dif_neg (show ¬(1 : Fin S1024x128.rank) ∈ dot_S4096x1024_S1024x128_S4096x128_1_0_0_1_n_n.rhsBatch by decide),
        dif_pos (show (1 : Fin S1024x128.rank) ∈ dot_S4096x1024_S1024x128_S4096x128_1_0_0_1_n_n.rhsNonContracting by decide)]
      rfl)
  rw [el, er, truncf_apply, sitofp_apply, extui_apply]
  have h9 : broadcastTo S4096x1024 v7 broadcasts_S4096x1_S4096x1024 (ix2 p k) = v7 (ix2 p 0) :=
    broadcastTo_apply _ _ (ix2 p k) (ix2 p 0) (fun a => by match a with | ⟨0, _⟩ => rfl | ⟨1, _⟩ => rfl)
  have h10 : broadcastTo S4096x1024
      (addi (broadcast S1x1024 (Scalar.muli (BitVec.ofNat 32 (i 1).val) 1024#32)) (iota Kind.tc S1x1024 32 [1] iota_S1x1024_d1_w32))
      broadcasts_S1x1024_S4096x1024 (ix2 p k) = BitVec.ofNat 32 (1024 * (i 1).val + k.val) := by
    rw [broadcastTo_apply _ _ (ix2 p k) (ix2 (0 : Fin 1) k) (fun a => by match a with | ⟨0, _⟩ => rfl | ⟨1, _⟩ => rfl),
      addi_at4, broadcast_apply, iota_single_apply]
    exact rowWord4 _ _
  rw [cmpi_at4, h9, h10, onehotEntry4]

theorem pay3_apply4 (v26 : Vec Ideal S4096x1 .f32) (v28 : Vec Ideal S1x128 .f32) (v32 : Vec Ideal S1x128 .f32)
    (v36 : Vec Ideal S4096x128 .f32) (p : Fin 4096) (q : Fin 128) :
    k4_pay3 v26 v28 v32 v36 (ix2 p q) = max (v36 (ix2 p q) + (v26 (ix2 p 0) * v28 (ix2 0 q) + v32 (ix2 0 q))) 0 := by
  unfold k4_pay3
  simp only [shapeCast_self]
  rw [truncf_apply, maximumf_apply, addf_apply, addf_apply, mulf_apply, broadcast_apply,
    broadcastTo_apply v26 _ (ix2 p q) (ix2 p (0 : Fin 1)) (fun a => by match a with | ⟨0, _⟩ => rfl | ⟨1, _⟩ => rfl),
    broadcastTo_apply v28 _ (ix2 p q) (ix2 (0 : Fin 1) q) (fun a => by match a with | ⟨0, _⟩ => rfl | ⟨1, _⟩ => rfl),
    broadcastTo_apply v32 _ (ix2 p q) (ix2 (0 : Fin 1) q) (fun a => by match a with | ⟨0, _⟩ => rfl | ⟨1, _⟩ => rfl)]
  show max _ (Ideal.ofBits .f32 0x00000000#32) = _
  rw [Ideal.ofBits_zero_f32]

theorem sum_blocks4 (m n : ℕ) (f : ℕ → EReal) :
    ∑ b ∈ Finset.range m, ∑ k : Fin n, f (n * b + k.val) = ∑ x : Fin (m * n), f x.val := by
  rw [Finset.sum_range (fun b => ∑ k : Fin n, f (n * b + k.val)),
    ← Fintype.sum_prod_type' (f := fun (b : Fin m) (k : Fin n) => f (n * b.val + k.val)),
    ← Equiv.sum_comp finProdFinEquiv (fun x : Fin (m * n) => f x.val)]
  refine Finset.sum_congr rfl fun x _ => ?_
  rcases x with ⟨b, k⟩
  show f (n * b.val + k.val) = f (k.val + n * b.val)
  rw [Nat.add_comm]

variable (V : (c : Dev nD) → (b : Ref sig .tc) → Buf (Elt Ideal) ((c : Thread nD τ).loc b))

abbrev gSrc4 (c : Dev nD) : Fin 1601536 → BitVec 32 :=
  fun e => (V c (Pipeline.arrRef spec4 0) : S1601536x1.Idx → BitVec 32) (ix2 e 0)
abbrev gH4 (c : Dev nD) : Fin 100352 → Fin 128 → EReal :=
  fun n j => (V c (Pipeline.arrRef spec4 2) : S100352x128.Idx → EReal) (ix2 n j)
abbrev gEd4 (c : Dev nD) : Fin 1601536 → EReal :=
  fun e => (V c (Pipeline.arrRef spec4 1) : S1601536x1.Idx → EReal) (ix2 e 0)
abbrev gWe4 (c : Dev nD) : Fin 128 → EReal :=
  fun j => (V c (Pipeline.arrRef spec4 3) : S1x128.Idx → EReal) (ix2 0 j)
abbrev gBe4 (c : Dev nD) : Fin 128 → EReal :=
  fun j => (V c (Pipeline.arrRef spec4 4) : S1x128.Idx → EReal) (ix2 0 j)

def sN4 (c : Dev nD) (n : ℕ) : BitVec 32 := if h : n < 1601536 then gSrc4 V c ⟨n, h⟩ else 0
def hN4 (c : Dev nD) (q : Fin 128) (n : ℕ) : EReal := if h : n < 100352 then gH4 V c ⟨n, h⟩ q else 0

theorem sN4_of_lt (c : Dev nD) (n : ℕ) (h : n < 1601536) : sN4 V c n = gSrc4 V c ⟨n, h⟩ := dif_pos h
theorem hN4_of_lt (c : Dev nD) (q : Fin 128) (n : ℕ) (h : n < 100352) : hN4 V c q n = gH4 V c ⟨n, h⟩ q := dif_pos h

theorem coords4_0 (t : Fin cfg4.N) : ((grid4.coords t) 0).val = t.val / 98 := by
  have hN : cfg4.N = 38318 := N_4
  have ht : t.val < cfg4.N := t.isLt
  show t.val / grid4.stride 0 % 391 = t.val / 98
  rw [show grid4.stride 0 = 98 from by decide]
  omega
theorem coords4_1 (t : Fin cfg4.N) : ((grid4.coords t) 1).val = t.val % 98 := by
  show t.val / grid4.stride 1 % 98 = t.val % 98
  rw [show grid4.stride 1 = 1 from by decide, Nat.div_one]
theorem erow_lt4 (t : Fin cfg4.N) (p : Fin 4096) : 4096 * (t.val / 98) + p.val < 1601536 := by
  have hN : cfg4.N = 38318 := N_4
  have ht : t.val < cfg4.N := t.isLt
  have hp : p.val < 4096 := p.isLt
  omega
theorem nrow_lt4 (t : Fin cfg4.N) (k : Fin 1024) : 1024 * (t.val % 98) + k.val < 100352 := by
  have hk : k.val < 1024 := k.isLt
  omega

theorem word_toNat4 (x : ℕ) (h : x < 38318) : (BitVec.ofNat 32 x).toNat = x := by
  rw [BitVec.toNat_ofNat]
  omega
/-- The grid's coordinates are small enough to pass through 32-bit words unchanged. -/
theorem idx4_0 (t : Fin cfg4.N) : (BitVec.ofNat 32 ((grid4.coords t) 0).val).toNat = t.val / 98 := by
  have hN : cfg4.N = 38318 := N_4
  have ht : t.val < cfg4.N := t.isLt
  rw [coords4_0, word_toNat4 _ (by omega)]
theorem idx4_1 (t : Fin cfg4.N) : (BitVec.ofNat 32 ((grid4.coords t) 1).val).toNat = t.val % 98 := by
  rw [coords4_1, word_toNat4 _ (by omega)]

theorem iblk4_0_apply (c : Dev nD) (t : Fin cfg4.N) (p : Fin 4096) :
    (iblk4 V c 0 t : Vec Ideal S4096x1 .i32) (ix2 p 0) = sN4 V c (4096 * (t.val / 98) + p.val) := by
  rw [sN4_of_lt V c _ (erow_lt4 t p)]
  unfold iblk4
  rw [View.read_apply]
  refine congrArg (V c (Pipeline.arrRef spec4 0)) (ix_ext_of_val _ ⟨_, erow_lt4 t p⟩ 0 ?_ rfl)
  show (BitVec.ofNat 32 ((grid4.coords t) 0).val).toNat * 4096 + 1 * p.val = 4096 * (t.val / 98) + p.val
  rw [idx4_0]; omega

theorem iblk4_1_apply (c : Dev nD) (t : Fin cfg4.N) (p : Fin 4096) :
    (iblk4 V c 1 t : Vec Ideal S4096x1 .f32) (ix2 p 0) = gEd4 V c ⟨4096 * (t.val / 98) + p.val, erow_lt4 t p⟩ := by
  unfold iblk4
  rw [View.read_apply]
  refine congrArg (V c (Pipeline.arrRef spec4 1)) (ix_ext_of_val _ ⟨_, erow_lt4 t p⟩ 0 ?_ rfl)
  show (BitVec.ofNat 32 ((grid4.coords t) 0).val).toNat * 4096 + 1 * p.val = 4096 * (t.val / 98) + p.val
  rw [idx4_0]; omega

theorem iblk4_2_apply (c : Dev nD) (t : Fin cfg4.N) (k : Fin 1024) (q : Fin 128) :
    (iblk4 V c 2 t : Vec Ideal S1024x128 .bf16) (ix2 k q) = hN4 V c q (1024 * (t.val % 98) + k.val) := by
  rw [hN4_of_lt V c q _ (nrow_lt4 t k)]
  unfold iblk4
  rw [View.read_apply]
  refine congrArg (V c (Pipeline.arrRef spec4 2)) (ix_ext_of_val _ ⟨_, nrow_lt4 t k⟩ q ?_ (by show 0 * 128 + 1 * q.val = q.val; omega))
  show (BitVec.ofNat 32 ((grid4.coords t) 1).val).toNat * 1024 + 1 * k.val = 1024 * (t.val % 98) + k.val
  rw [idx4_1]; omega

theorem iblk4_3_apply (c : Dev nD) (t : Fin cfg4.N) (q : Fin 128) :
    (iblk4 V c 3 t : Vec Ideal S1x128 .f32) (ix2 0 q) = gWe4 V c q := by
  unfold iblk4
  rw [View.read_apply]
  exact congrArg (V c (Pipeline.arrRef spec4 3)) (ix_ext_of_val _ 0 q rfl (by show 0 * 128 + 1 * q.val = q.val; omega))

theorem iblk4_4_apply (c : Dev nD) (t : Fin cfg4.N) (q : Fin 128) :
    (iblk4 V c 4 t : Vec Ideal S1x128 .f32) (ix2 0 q) = gBe4 V c q := by
  unfold iblk4
  rw [View.read_apply]
  exact congrArg (V c (Pipeline.arrRef spec4 4)) (ix_ext_of_val _ 0 q rfl (by show 0 * 128 + 1 * q.val = q.val; omega))

def accSum4 (c : Dev nD) (q : Fin 128) (eb : ℕ) (p : Fin 4096) (m : ℕ) : EReal :=
  ∑ b ∈ Finset.range m, ∑ k : Fin 1024,
    Spec.oh (sN4 V c (4096 * eb + p.val)) (1024 * b + k.val) * hN4 V c q (1024 * b + k.val)

theorem acc4_point (c : Dev nD) (n : ℕ) (hn : n < cfg4.N) (v17 : Vec Ideal S4096x128 .f32) (p : Fin 4096) (q : Fin 128) :
    k4_pay2 (grid4.coords ⟨n, hn⟩) (iblk4 V c 0 ⟨n, hn⟩) (iblk4 V c 2 ⟨n, hn⟩) v17 (ix2 p q)
      = v17 (ix2 p q) + ∑ k : Fin 1024,
          Spec.oh (sN4 V c (4096 * (n / 98) + p.val)) (1024 * (n % 98) + k.val) * hN4 V c q (1024 * (n % 98) + k.val) := by
  rw [pay2_apply4, iblk4_0_apply V c ⟨n, hn⟩ p, coords4_1 ⟨n, hn⟩]
  refine congrArg (v17 (ix2 p q) + ·) (Finset.sum_congr rfl fun k _ => ?_)
  rw [iblk4_2_apply V c ⟨n, hn⟩ k q]
  rfl

theorem acc4_apply_first (c : Dev nD) (q : Fin 128) (n : ℕ) (hn : n < cfg4.N) (h0 : n % 98 = 0) (p : Fin 4096) :
    acc4 V c n hn (ix2 p q) = accSum4 V c q (n / 98) p (n % 98 + 1) := by
  have hfirst : acc4 V c n hn
      = k4_pay2 (grid4.coords ⟨n, hn⟩) (iblk4 V c 0 ⟨n, hn⟩) (iblk4 V c 2 ⟨n, hn⟩) (k4_pay1 (F := Ideal)) :=
    acc4_first V c ⟨n, hn⟩ h0
  rw [hfirst, acc4_point V c n hn _ p q, zero_apply4, zero_add, h0]
  unfold accSum4
  rw [Nat.zero_add, Finset.sum_range_one]

theorem acc4_apply (c : Dev nD) (q : Fin 128) : ∀ (n : ℕ) (hn : n < cfg4.N) (p : Fin 4096),
    acc4 V c n hn (ix2 p q) = accSum4 V c q (n / 98) p (n % 98 + 1)
  | 0, hn, p => acc4_apply_first V c q 0 hn rfl p
  | n + 1, hn, p => by
    by_cases h0 : (n + 1) % 98 = 0
    · exact acc4_apply_first V c q (n + 1) hn h0 p
    · have e1 : (n + 1) / 98 = n / 98 := by omega
      have e2 : (n + 1) % 98 = n % 98 + 1 := by omega
      have hnext : acc4 V c (n + 1) hn
          = k4_pay2 (grid4.coords ⟨n + 1, hn⟩) (iblk4 V c 0 ⟨n + 1, hn⟩) (iblk4 V c 2 ⟨n + 1, hn⟩)
              (acc4 V c n (Nat.lt_of_succ_lt hn)) :=
        acc4_next V c ⟨n + 1, hn⟩ h0
      rw [hnext, acc4_point V c (n + 1) hn _ p q, acc4_apply c q n (Nat.lt_of_succ_lt hn) p, e1, e2]
      unfold accSum4
      exact (Finset.sum_range_succ (fun b => ∑ k : Fin 1024,
        Spec.oh (sN4 V c (4096 * (n / 98) + p.val)) (1024 * b + k.val) * hN4 V c q (1024 * b + k.val)) (n % 98 + 1)).symm

theorem accSum4_full (c : Dev nD) (q : Fin 128) (eb : ℕ) (p : Fin 4096) (s : BitVec 32)
    (hs : sN4 V c (4096 * eb + p.val) = s) :
    accSum4 V c q eb p 98 = ∑ n : Fin 100352, Spec.oh s n.val * gH4 V c n q := by
  unfold accSum4
  rw [hs]
  refine (sum_blocks4 98 1024 (fun n => Spec.oh s n * hN4 V c q n)).trans ?_
  refine Finset.sum_congr rfl fun n _ => ?_
  show Spec.oh s n.val * hN4 V c q n.val = Spec.oh s n.val * gH4 V c n q
  rw [hN4_of_lt V c q n.val n.isLt]

theorem kGather_apply4 (src : Fin 1601536 → BitVec 32) (h : Fin 100352 → Fin 128 → EReal) (ed : Fin 1601536 → EReal)
    (We be : Fin 128 → EReal) (e : Fin 1601536) (j : Fin 128) :
    Spec.kGather src h ed We be e j = max ((∑ n : Fin 100352, Spec.oh (src e) n.val * h n j) + (ed e * We j + be j)) 0 := rfl

theorem relu_congr4 (a a' b b' : EReal) (ha : a = a') (hb : b = b') : max (a + b) 0 = max (a' + b') 0 := by
  rw [ha, hb]

abbrev G4 (c : Dev nD) : S1601536x128.Idx → EReal :=
  fun i => Spec.kGather (gSrc4 V c) (gH4 V c) (gEd4 V c) (gWe4 V c) (gBe4 V c) (i 0) (i 1)

theorem emb4_5 (t : Fin cfg4.N) (p : Fin 4096) (q : Fin 128) :
    ((cfg4.win 5).blk t).view.emb (ix2 p q) = ix2 ⟨4096 * (t.val / 98) + p.val, erow_lt4 t p⟩ q := by
  refine ix_ext_of_val _ _ q ?_ (by show 0 * 128 + 1 * q.val = q.val; omega)
  show (BitVec.ofNat 32 ((grid4.coords t) 0).val).toNat * 4096 + 1 * p.val = 4096 * (t.val / 98) + p.val
  rw [idx4_0]; omega

theorem flushed4_eq (c : Dev nD) (t : Fin cfg4.N) (hf : (cfg4.win 5).flush t = true) :
    (dat4 V c).flushed 5 t = ((cfg4.win 5).blk t).view.read (Elt Ideal) (G4 V c) := by
  have h97 : t.val % 98 = 97 := (flush4_5 t).mp hf
  show (cfg4.win 5).cut (grid4.coords t) ((dat4 V c).after 5 t) = _
  rw [after_out4]
  funext j
  obtain ⟨p, q, rfl⟩ : ∃ (p : Fin 4096) (q : Fin 128), j = ix2 p q := ⟨j 0, j 1, eq_ix2 j⟩
  show k4_pay3 (iblk4 V c 1 t) (iblk4 V c 3 t) (iblk4 V c 4 t) (acc4 V c t.val t.isLt) (ix2 p q)
    = G4 V c (((cfg4.win 5).blk t).view.emb (ix2 p q))
  have h98 : t.val % 98 + 1 = 98 := by omega
  rw [emb4_5 t p q]
  show _ = Spec.kGather (gSrc4 V c) (gH4 V c) (gEd4 V c) (gWe4 V c) (gBe4 V c) ⟨4096 * (t.val / 98) + p.val, erow_lt4 t p⟩ q
  rw [kGather_apply4, pay3_apply4, acc4_apply V c q t.val t.isLt p, iblk4_1_apply V c t p, iblk4_3_apply V c t q,
    iblk4_4_apply V c t q, h98]
  exact relu_congr4 _ _ _ _
    (accSum4_full V c q (t.val / 98) p _ (sN4_of_lt V c _ (erow_lt4 t p))) rfl

theorem mem_blk4_5 (t : Fin cfg4.N) (i : S1601536x128.Idx) :
    i ∈ ((cfg4.win 5).blk t).view.set ↔ ∀ a : Fin 2, win4_5.index t a * S4096x128.size a ≤ (i a).val
      ∧ (i a).val < win4_5.index t a * S4096x128.size a + S4096x128.size a := by
  show i ∈ ((View.whole (Pipeline.arrRef spec4 5)).slice (win4_5.rect t)).set ↔ _
  rw [View.set_slice_whole, Rect.mem_set_unit]
  exact Iff.rfl

theorem cover4 (c : Dev nD) (i : S1601536x128.Idx) :
    ∃ t : Fin cfg4.N, (cfg4.win 5).flush t = true ∧ i ∈ ((cfg4.win 5).blk t).view.set := by
  have hN : cfg4.N = 38318 := N_4
  have hi0 : (i 0).val < 1601536 := idx2_lt0 i
  have hi1 : (i 1).val < 128 := idx2_lt1 i
  have htv : 98 * ((i 0).val / 4096) + 97 < cfg4.N := by omega
  refine ⟨⟨_, htv⟩, (flush4_5 _).mpr (by show (98 * ((i 0).val / 4096) + 97) % 98 = 97; omega), (mem_blk4_5 _ i).mpr fun a => ?_⟩
  match a with
  | ⟨0, _⟩ =>
    show (BitVec.ofNat 32 ((grid4.coords ⟨_, htv⟩) 0).val).toNat * 4096 ≤ (i 0).val
      ∧ (i 0).val < (BitVec.ofNat 32 ((grid4.coords ⟨_, htv⟩) 0).val).toNat * 4096 + 4096
    rw [idx4_0]
    show (98 * ((i 0).val / 4096) + 97) / 98 * 4096 ≤ (i 0).val ∧ (i 0).val < (98 * ((i 0).val / 4096) + 97) / 98 * 4096 + 4096
    omega
  | ⟨1, _⟩ =>
    show 0 * 128 ≤ (i 1).val ∧ (i 1).val < 0 * 128 + 128
    omega

theorem final4 (c : Dev nD) (e : Fin 1601536) (j : Fin 128) :
    ((dat4 V c).arrAt 5 cfg4.N : S1601536x128.Idx → EReal) (ix2 e j)
      = Spec.kGather (gSrc4 V c) (gH4 V c) (gEd4 V c) (gWe4 V c) (gBe4 V c) e j :=
  congrFun ((dat4 V c).arrAt_eq_of_cover 5 (G4 V c) (flushed4_eq V c) (cover4 c)) (ix2 e j)

end Cert.KernelIdeal.Hand

end
-- ==== Proof.KI.V5.lean ====
import proofs.«429186_j15229954031644_1_alg».proof.Proof.KI.R5
import proofs.«429186_j15229954031644_1_alg».proof.Proof.KI.PointsP
import proofs.«429186_j15229954031644_1_alg».proof.Proof.Spec
import proofs.«429186_j15229954031644_1_alg».proof.Proof.LibWhole
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.Pipeline (Dat)
open Cert.Whole

theorem dotT5_apply {φ₁ φ₂ : FTy} (A : FVec Ideal S4096x1024 φ₁) (B : FVec Ideal S4096x128 φ₂)
    (acc : FVec Ideal S1024x128 .f32) (r : Fin 1024) (j : Fin 128) :
    matmul dot_S4096x1024_S4096x128_S1024x128_0_0_1_1_n_n none A B acc (ix2 r j)
      = acc (ix2 r j) + ∑ e : Fin 4096, A (ix2 e r) * B (ix2 e j) := by
  show Ideal.matmul _ A B acc (ix2 r j) = _
  unfold Ideal.matmul
  rw [← Equiv.sum_comp (contrEquiv1 dot_S4096x1024_S4096x128_S1024x128_0_0_1_1_n_n 4096 rfl rfl).symm]
  congr 1
  refine Finset.sum_congr rfl fun e _ => ?_
  have c2 := contrEquiv1_symm_val dot_S4096x1024_S4096x128_S1024x128_0_0_1_1_n_n 4096 rfl rfl e
  have l2 : dot_S4096x1024_S4096x128_S1024x128_0_0_1_1_n_n.lhsIdx (ix2 r j) ((contrEquiv1 _ 4096 rfl rfl).symm e) = ix2 e r := by
    funext ax; apply Fin.ext
    match ax with
    | ⟨0, _⟩ => simp [DotDims.lhsIdx, dot_S4096x1024_S4096x128_S1024x128_0_0_1_1_n_n]; exact c2
    | ⟨1, _⟩ => simp [DotDims.lhsIdx, dot_S4096x1024_S4096x128_S1024x128_0_0_1_1_n_n]; rfl
  have r2 : dot_S4096x1024_S4096x128_S1024x128_0_0_1_1_n_n.rhsIdx (ix2 r j) ((contrEquiv1 _ 4096 rfl rfl).symm e) = ix2 e j := by
    funext ax; apply Fin.ext
    match ax with
    | ⟨0, _⟩ => simp [DotDims.rhsIdx, dot_S4096x1024_S4096x128_S1024x128_0_0_1_1_n_n]; exact c2
    | ⟨1, _⟩ => simp [DotDims.rhsIdx, dot_S4096x1024_S4096x128_S1024x128_0_0_1_1_n_n]; rfl
  rw [l2, r2]

theorem zero5_f32 : Ideal.ofBits .f32 0x00000000#32 = 0 := by simp [Ideal.ofBits, Ideal.ieee]

theorem bit5_sitofp (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  unfold IntOp.cmpi
  by_cases h : a = b
  · subst h; simp
  · have : (a == b) = false := by simpa using h
    simp [this, h]

theorem k5_pay1_apply (x : S1024x128.Idx) : k5_pay1 (F := Ideal) x = 0 := by
  unfold k5_pay1
  simp only [shapeCast_self]
  show Scalar.ofBits (F := Ideal) .f32 0x00000000#32 = 0
  exact zero5_f32

theorem k5_pay2_apply (i : grid5.Coords) (v7 : Vec Ideal S4096x1 .i32) (v15 : Vec Ideal S4096x128 .bf16)
    (v17 : Vec Ideal S1024x128 .f32) (r : Fin 1024) (j : Fin 128) :
    k5_pay2 (F := Ideal) i v7 v15 v17 (ix2 r j)
      = v17 (ix2 r j) + ∑ e : Fin 4096, Spec.oh (v7 (ix2 e 0)) (1024 * (i 0).val + r.val) * v15 (ix2 e j) := by
  unfold k5_pay2
  simp only [shapeCast_self]
  rw [addf_apply, dotT5_apply, constant_apply, zero5_f32, zero_add]
  congr 1
  refine Finset.sum_congr rfl fun e _ => ?_
  congr 1
  rw [truncf_apply, sitofp_apply, extui_apply]
  show FloatOps.sitofp (F := Ideal) .f32 ((IntOp.cmpi .eq _ _).setWidth 32) = _
  rw [bit5_sitofp]
  unfold Spec.oh
  rw [broadcastTo_apply _ _ (ix2 e r) (ix2 e 0) (fun a => by match a with | ⟨0, _⟩ => rfl | ⟨1, _⟩ => rfl),
    broadcastTo_apply _ _ (ix2 e r) (ix2 0 r) (fun a => by match a with | ⟨0, _⟩ => rfl | ⟨1, _⟩ => rfl)]
  show (if v7 (ix2 e 0) = IntOp.addi (Scalar.muli (BitVec.ofNat 32 (i 0).val) 1024#32) (iota .tc S1x1024 32 [1] iota_S1x1024_d1_w32 (ix2 0 r)) then (1 : EReal) else 0) = _
  rw [iota_single_apply]
  have hw : IntOp.addi (Scalar.muli (BitVec.ofNat 32 (i 0).val) 1024#32) (BitVec.ofNat 32 r.val) = BitVec.ofNat 32 (1024 * (i 0).val + r.val) := by
    show BitVec.ofNat 32 (i 0).val * 1024#32 + BitVec.ofNat 32 r.val = _
    rw [show (1024#32 : BitVec 32) = BitVec.ofNat 32 1024 from rfl, ← BitVec.ofNat_mul, ← BitVec.ofNat_add, Nat.mul_comm]
  show (if v7 (ix2 e 0) = IntOp.addi (Scalar.muli (BitVec.ofNat 32 (i 0).val) 1024#32) (BitVec.ofNat 32 r.val) then (1 : EReal) else 0) = _
  rw [hw]

-- 391 blocks of 4096 consecutive numbers are exactly the numbers below 1601536.
theorem sum5_blocks {M : Type*} [AddCommMonoid M] (g : ℕ → M) :
    ∑ s ∈ Finset.range 391, ∑ e : Fin 4096, g (4096 * s + e.val) = ∑ E : Fin 1601536, g E.val := by
  rw [Finset.sum_range (fun s => ∑ e : Fin 4096, g (4096 * s + e.val))]
  rw [← Fintype.sum_prod_type' (fun (s : Fin 391) (e : Fin 4096) => g (4096 * s.val + e.val))]
  rw [← Equiv.sum_comp (finProdFinEquiv (m := 391) (n := 4096)) (fun E : Fin (391 * 4096) => g E.val)]
  refine Finset.sum_congr rfl fun p _ => ?_
  show g (4096 * p.1.val + p.2.val) = g (p.2.val + 4096 * p.1.val)
  rw [Nat.add_comm]

theorem coords5_0 (t : Fin cfg5.N) : (grid5.coords t 0).val = t.val / 391 := by
  have hN : grid5.N = 38318 := N_5
  have ht : t.val < 38318 := hN ▸ t.isLt
  show t.val / grid5.stride 0 % 98 = _
  rw [show grid5.stride 0 = 391 from by decide]
  omega

section Fold
variable (dst : ℕ → BitVec 32) (msg : ℕ → Fin 128 → EReal)

def addend5 (q : ℕ) (n : ℕ) (x : S1024x128.Idx) : EReal :=
  ∑ e : Fin 4096, Spec.oh (dst (4096 * (n % 391) + e.val)) (1024 * q + (x 0).val) * msg (4096 * (n % 391) + e.val) (x 1)

-- By induction along the 391 points of a node block: after edge block b the accumulated value is the sum over edge blocks 0 … b.
theorem fold5_apply (f : (n : ℕ) → n < cfg5.N → Vec Ideal S1024x128 .f32)
    (D : (n : ℕ) → n < cfg5.N → Vec Ideal S4096x1 .i32) (Mg : (n : ℕ) → n < cfg5.N → Vec Ideal S4096x128 .bf16)
    (hD : ∀ (n : ℕ) (h : n < cfg5.N) (e : Fin 4096), D n h (ix2 e 0) = dst (4096 * (n % 391) + e.val))
    (hM : ∀ (n : ℕ) (h : n < cfg5.N) (e : Fin 4096) (j : Fin 128), Mg n h (ix2 e j) = msg (4096 * (n % 391) + e.val) j)
    (h0 : ∀ (n : ℕ) (h : n < cfg5.N), n % 391 = 0 →
      f n h = k5_pay2 (grid5.coords ⟨n, h⟩) (D n h) (Mg n h) (k5_pay1 (F := Ideal)))
    (hs : ∀ (n : ℕ) (h : n + 1 < cfg5.N), ¬(n + 1) % 391 = 0 →
      f (n + 1) h = k5_pay2 (grid5.coords ⟨n + 1, h⟩) (D (n + 1) h) (Mg (n + 1) h) (f n (Nat.lt_of_succ_lt h)))
    (q b : ℕ) (hb : b < 391) (h : 391 * q + b < cfg5.N) (r : Fin 1024) (j : Fin 128) :
    f (391 * q + b) h (ix2 r j)
      = ∑ s ∈ Finset.range (b + 1), ∑ e : Fin 4096,
          Spec.oh (dst (4096 * s + e.val)) (1024 * q + r.val) * msg (4096 * s + e.val) j := by
  have hN : cfg5.N = 38318 := N_5
  have key : ∀ (n : ℕ) (hn : n < cfg5.N) (acc : Vec Ideal S1024x128 .f32) (x : S1024x128.Idx), n / 391 = q →
      k5_pay2 (grid5.coords ⟨n, hn⟩) (D n hn) (Mg n hn) acc x = acc x + addend5 dst msg q n x := by
    intro n hn acc x hq
    obtain ⟨r', j', rfl⟩ : ∃ r' j', x = ix2 r' j' := ⟨x 0, x 1, eq_ix2 x⟩
    rw [k5_pay2_apply, coords5_0 ⟨n, hn⟩]
    show _ + _ = _ + ∑ e : Fin 4096, Spec.oh (dst (4096 * (n % 391) + e.val)) (1024 * q + r'.val) * msg (4096 * (n % 391) + e.val) j'
    congr 1
    refine Finset.sum_congr rfl fun e _ => ?_
    rw [hD, hM, hq]
  have e1 := Pipeline.eq_accAt f 391
      (fun n hn => k5_pay2 (grid5.coords ⟨n, hn⟩) (D n hn) (Mg n hn) (k5_pay1 (F := Ideal)))
      (fun n hn acc => k5_pay2 (grid5.coords ⟨n, hn⟩) (D n hn) (Mg n hn) acc) h0 hs q b hb h
  have e2 := Pipeline.accAt_add_apply
      (fun n hn => k5_pay2 (grid5.coords ⟨n, hn⟩) (D n hn) (Mg n hn) (k5_pay1 (F := Ideal)))
      (fun n hn acc => k5_pay2 (grid5.coords ⟨n, hn⟩) (D n hn) (Mg n hn) acc)
      (fun _ => 0) (addend5 dst msg q) (391 * q) 390
      (fun hn x => by
        show k5_pay2 (grid5.coords ⟨391 * q, hn⟩) (D _ hn) (Mg _ hn) (k5_pay1 (F := Ideal)) x = 0 + addend5 dst msg q (391 * q) x
        rw [key _ hn _ x (by omega), k5_pay1_apply])
      (fun n hn acc x h1 h2 => key n hn acc x (by omega)) b (by omega) h (ix2 r j)
  refine ((congrFun e1 (ix2 r j)).trans e2).trans ?_
  show (0 : EReal) + ∑ s ∈ Finset.range (b + 1), addend5 dst msg q (391 * q + s) (ix2 r j) = _
  rw [zero_add]
  refine Finset.sum_congr rfl fun s hs' => ?_
  have hs391 : s < 391 := by have := Finset.mem_range.mp hs'; omega
  show ∑ e : Fin 4096, Spec.oh (dst (4096 * ((391 * q + s) % 391) + e.val)) (1024 * q + r.val)
      * msg (4096 * ((391 * q + s) % 391) + e.val) j = _
  rw [Nat.mul_add_mod, Nat.mod_eq_of_lt hs391]

end Fold

section Region
variable (V : (c : Dev nD) → (b : Ref sig .tc) → Buf (Elt Ideal) ((c : Thread nD τ).loc b))

theorem widx5_0 (t : Fin cfg5.N) : win5_0.index t 0 = t.val % 391 := by
  show (BitVec.ofNat 32 (grid5.coords t 1).val).toNat = _
  rw [BitVec.toNat_ofNat, coordj5, Nat.mod_eq_of_lt (by have := Nat.mod_lt t.val (show 0 < 391 by decide); omega)]

theorem widx5_1 (t : Fin cfg5.N) : win5_1.index t 0 = t.val % 391 := widx5_0 t

theorem widx5_2 (t : Fin cfg5.N) : win5_2.index t 0 = t.val / 391 := by
  have hN : grid5.N = 38318 := N_5
  have ht : t.val < 38318 := hN ▸ t.isLt
  show (BitVec.ofNat 32 (grid5.coords t 0).val).toNat = _
  rw [BitVec.toNat_ofNat, coords5_0, Nat.mod_eq_of_lt (by omega)]

def dstN5 (c : Dev nD) (k : ℕ) : BitVec 32 :=
  if h : k < 1601536 then V c (Pipeline.arrRef spec5 0) (ix2 (⟨k, h⟩ : Fin 1601536) (0 : Fin 1)) else 0

def msgN5 (c : Dev nD) (k : ℕ) (j : Fin 128) : EReal :=
  if h : k < 1601536 then V c (Pipeline.arrRef spec5 1) (ix2 (⟨k, h⟩ : Fin 1601536) j) else 0

theorem iblk5_dst (c : Dev nD) (t : Fin cfg5.N) (e : Fin 4096) :
    (iblk5 V c 0 t : Vec Ideal S4096x1 .i32) (ix2 e 0) = dstN5 V c (4096 * (t.val % 391) + e.val) := by
  have he : 4096 * (t.val % 391) + e.val < 1601536 := by
    have := e.isLt; have := Nat.mod_lt t.val (show 0 < 391 by decide); omega
  unfold dstN5
  rw [dif_pos he]
  unfold iblk5
  rw [View.read_apply]
  exact congrArg (V c (Pipeline.arrRef spec5 0)) (ix_ext_of_val _ _ _
    (by show win5_0.index t 0 * 4096 + 1 * e.val = 4096 * (t.val % 391) + e.val; rw [widx5_0]; omega) rfl)

theorem iblk5_msg (c : Dev nD) (t : Fin cfg5.N) (e : Fin 4096) (j : Fin 128) :
    (iblk5 V c 1 t : Vec Ideal S4096x128 .bf16) (ix2 e j) = msgN5 V c (4096 * (t.val % 391) + e.val) j := by
  have he : 4096 * (t.val % 391) + e.val < 1601536 := by
    have := e.isLt; have := Nat.mod_lt t.val (show 0 < 391 by decide); omega
  unfold msgN5
  rw [dif_pos he]
  unfold iblk5
  rw [View.read_apply]
  exact congrArg (V c (Pipeline.arrRef spec5 1)) (ix_ext_of_val _ _ _
    (by show win5_1.index t 0 * 4096 + 1 * e.val = 4096 * (t.val % 391) + e.val; rw [widx5_1]; omega)
    (by show win5_1.index t 1 * 128 + 1 * j.val = j.val; rw [show win5_1.index t 1 = 0 from rfl]; omega))

theorem acc5_apply (c : Dev nD) (q b : ℕ) (hb : b < 391) (h : 391 * q + b < cfg5.N) (r : Fin 1024) (j : Fin 128) :
    acc5 V c (391 * q + b) h (ix2 r j)
      = ∑ s ∈ Finset.range (b + 1), ∑ e : Fin 4096,
          Spec.oh (dstN5 V c (4096 * s + e.val)) (1024 * q + r.val) * msgN5 V c (4096 * s + e.val) j :=
  fold5_apply (dstN5 V c) (msgN5 V c) (acc5 V c) (fun n hn => iblk5 V c 0 ⟨n, hn⟩) (fun n hn => iblk5 V c 1 ⟨n, hn⟩)
    (fun n hn e => iblk5_dst V c ⟨n, hn⟩ e) (fun n hn e j => iblk5_msg V c ⟨n, hn⟩ e j)
    (fun n hn hz => acc5_first V c ⟨n, hn⟩ hz) (fun n hn hz => acc5_next V c ⟨n + 1, hn⟩ hz) q b hb h r j

def G5 (c : Dev nD) : Buf (Elt Ideal) ((cfg5.win 2).arr.view.loc (c.tc : Thread nD τ)) :=
  (fun i : S100352x128.Idx =>
    Spec.kScatter (fun e => V c (Pipeline.arrRef spec5 0) (ix2 e 0)) (fun e j => V c (Pipeline.arrRef spec5 1) (ix2 e j))
      (i 0) (i 1) : S100352x128.Idx → EReal)

theorem G5_apply (c : Dev nD) (i : S100352x128.Idx) (n : Fin 100352) (j : Fin 128) (h0 : (i 0).val = n.val)
    (h1 : (i 1).val = j.val) :
    G5 V c i = Spec.kScatter (fun e => V c (Pipeline.arrRef spec5 0) (ix2 e 0))
      (fun e j => V c (Pipeline.arrRef spec5 1) (ix2 e j)) n j := by
  have hi : i = ix2 n j := ix_ext_of_val i n j h0 h1
  subst hi
  rfl

theorem read5_blk (c : Dev nD) (t : Fin cfg5.N) (f : Buf (Elt Ideal) ((cfg5.win 2).arr.view.loc (c.tc : Thread nD τ)))
    (y : ((cfg5.win 2).xblock (cfg5.grid.coords t)).Idx) :
    ((cfg5.win 2).blk t).view.read (Elt Ideal) f y = f (((cfg5.win 2).blk t).view.emb y) := by
  rw [View.read_apply]
  rfl

theorem flushed5_eq (c : Dev nD) (t : Fin cfg5.N) (hf : (cfg5.win 2).flush t = true) :
    (dat5 V c).flushed 2 t = ((cfg5.win 2).blk t).view.read (Elt Ideal) (G5 V c) := by
  have hN : cfg5.N = 38318 := N_5
  have ht : t.val < 38318 := hN ▸ t.isLt
  have h390 : t.val % 391 = 390 := (flush5_2 t).mp hf
  have hq : 391 * (t.val / 391) + 390 < cfg5.N := by omega
  have same : ∀ (u : ℕ) (hu : u < cfg5.N), u = t.val → acc5 V c u hu = acc5 V c t.val t.isLt :=
    fun u hu e => by subst e; rfl
  refine funext fun (y : S1024x128.Idx) => ?_
  obtain ⟨r, j, rfl⟩ : ∃ (r : Fin 1024) (j : Fin 128), y = ix2 r j := ⟨y 0, y 1, eq_ix2 y⟩
  rw [read5_blk]
  show acc5 V c t.val t.isLt (ix2 r j) = _
  rw [← same _ hq (by omega)]
  refine (acc5_apply V c (t.val / 391) 390 (by decide) hq r j).trans ?_
  show ∑ s ∈ Finset.range 391, ∑ e : Fin 4096,
      (fun k => Spec.oh (dstN5 V c k) (1024 * (t.val / 391) + r.val) * msgN5 V c k j) (4096 * s + e.val) = _
  rw [sum5_blocks (fun k => Spec.oh (dstN5 V c k) (1024 * (t.val / 391) + r.val) * msgN5 V c k j)]
  have hn : 1024 * (t.val / 391) + r.val < 100352 := by have := r.isLt; omega
  have hG := G5_apply V c (((cfg5.win 2).blk t).view.emb (ix2 r j)) ⟨1024 * (t.val / 391) + r.val, hn⟩ j
    (by show win5_2.index t 0 * 1024 + 1 * r.val = 1024 * (t.val / 391) + r.val
        rw [widx5_2]; omega)
    (by show win5_2.index t 1 * 128 + 1 * j.val = j.val
        rw [show win5_2.index t 1 = 0 from rfl]; omega)
  rw [hG]
  unfold Spec.kScatter
  refine Finset.sum_congr rfl fun E _ => ?_
  show Spec.oh (dstN5 V c E.val) _ * msgN5 V c E.val j = _
  unfold dstN5 msgN5
  rw [dif_pos E.isLt, dif_pos E.isLt]

theorem cover5 (c : Dev nD) (i : ((cfg5.win 2).arr.view.loc (c.tc : Thread nD τ)).2.ty.Idx) :
    ∃ t : Fin cfg5.N, (cfg5.win 2).flush t = true ∧ i ∈ ((cfg5.win 2).blk t).view.set := by
  have hN : cfg5.N = 38318 := N_5
  have h0 : (i 0 : ℕ) < 100352 := (i 0).isLt
  have h1 : (i 1 : ℕ) < 128 := (i 1).isLt
  obtain ⟨T, hT⟩ : ∃ T : Fin cfg5.N, T.val = 391 * ((i 0 : ℕ) / 1024) + 390 := ⟨⟨_, by omega⟩, rfl⟩
  refine ⟨T, (flush5_2 T).mpr (by omega), ?_⟩
  rw [show ((cfg5.win 2).blk T).view.set = (win5_2.rect T).set from View.set_slice_whole _ _, Rect.mem_set_unit]
  intro a
  match a with
  | ⟨0, _⟩ =>
    show win5_2.index T 0 * 1024 ≤ (i 0 : ℕ) ∧ (i 0 : ℕ) < win5_2.index T 0 * 1024 + 1024
    rw [widx5_2]; omega
  | ⟨1, _⟩ =>
    show win5_2.index T 1 * 128 ≤ (i 1 : ℕ) ∧ (i 1 : ℕ) < win5_2.index T 1 * 128 + 128
    rw [show win5_2.index T 1 = 0 from rfl]; omega

theorem arr5_eq (c : Dev nD) : (dat5 V c).arrAt 2 cfg5.N = G5 V c :=
  (dat5 V c).arrAt_eq_of_cover 2 (G5 V c) (flushed5_eq V c) (cover5 c)

theorem final5 (c : Dev nD) (n : Fin 100352) (j : Fin 128) :
    ((dat5 V c).arrAt 2 cfg5.N) (ix2 n j)
      = Spec.kScatter (fun e => V c (Pipeline.arrRef spec5 0) (ix2 e 0))
          (fun e j => V c (Pipeline.arrRef spec5 1) (ix2 e j)) n j := by
  rw [arr5_eq]
  exact G5_apply V c (ix2 n j) n j rfl rfl

end Region

end Cert.KernelIdeal.Hand

end
-- ==== Proof.KI.V6.lean ====
import proofs.«429186_j15229954031644_1_alg».proof.Proof.KI.R6
import proofs.«429186_j15229954031644_1_alg».proof.Proof.Spec
import proofs.«429186_j15229954031644_1_alg».proof.Proof.LibWhole
import Idealize.ShloMosaic.Lib.Pipeline.Value
import Idealize.ShloMosaic.Lib.ValueIdx
import Idealize.ShloMosaic.Lib.ValueLayout
import Idealize.ShloMosaic.Lib.IdealHost

set_option maxRecDepth 16384

open scoped BigOperators

noncomputable section

namespace Cert.KernelIdeal.Hand

open Cert.KernelIdeal Cert.KernelIdeal.Gen Cert.KernelIdeal.GenP
open Idealize.ShloMosaic Idealize.ShloMosaic.TcCoe Idealize.SL.Sem
open Idealize.ShloMosaic.ValueIdx
open Idealize.ShloMosaic.Pipeline (Dat)
open Cert.Whole

theorem lhs6_0 (i : S7168x128.Idx) (q : dot_S7168x128_S128x128_S7168x128_1_0_0_1_n_n.contr.Idx) :
    (dot_S7168x128_S128x128_S7168x128_1_0_0_1_n_n.lhsIdx i q 0).val = (i 0).val := by
  unfold DotDims.lhsIdx
  rw [dif_neg (show ¬(0 : Fin S7168x128.rank) ∈ dot_S7168x128_S128x128_S7168x128_1_0_0_1_n_n.lhsBatch by decide),
    dif_pos (show (0 : Fin S7168x128.rank) ∈ dot_S7168x128_S128x128_S7168x128_1_0_0_1_n_n.lhsNonContracting by decide)]
  rfl
theorem rhs6_1 (i : S7168x128.Idx) (q : dot_S7168x128_S128x128_S7168x128_1_0_0_1_n_n.contr.Idx) :
    (dot_S7168x128_S128x128_S7168x128_1_0_0_1_n_n.rhsIdx i q 1).val = (i 1).val := by
  unfold DotDims.rhsIdx
  rw [dif_neg (show ¬(1 : Fin S128x128.rank) ∈ dot_S7168x128_S128x128_S7168x128_1_0_0_1_n_n.rhsBatch by decide),
    dif_pos (show (1 : Fin S128x128.rank) ∈ dot_S7168x128_S128x128_S7168x128_1_0_0_1_n_n.rhsNonContracting by decide)]
  rfl

theorem dot6_apply (A : FVec Ideal S7168x128 .bf16) (B : FVec Ideal S128x128 .bf16) (p : Fin 7168) (q : Fin 128) :
    matmul dot_S7168x128_S128x128_S7168x128_1_0_0_1_n_n none A B (constant (F := Ideal) S7168x128 .f32 0x00000000#32) (ix2 p q)
      = ∑ k : Fin 128, A (ix2 p k) * B (ix2 k q) := by
  refine (Ideal.matmul_constant_zero_apply dot_S7168x128_S128x128_S7168x128_1_0_0_1_n_n none A B (ix2 p q)).trans ?_
  rw [← Equiv.sum_comp (contrEquiv1 dot_S7168x128_S128x128_S7168x128_1_0_0_1_n_n 128 rfl rfl).symm]
  refine Finset.sum_congr rfl fun k _ => ?_
  have hk := contrEquiv1_symm_val dot_S7168x128_S128x128_S7168x128_1_0_0_1_n_n 128 rfl rfl k
  have el : dot_S7168x128_S128x128_S7168x128_1_0_0_1_n_n.lhsIdx (ix2 p q)
      ((contrEquiv1 dot_S7168x128_S128x128_S7168x128_1_0_0_1_n_n 128 rfl rfl).symm k) = ix2 p k := funext fun a => Fin.ext (by
    match a with
    | ⟨0, _⟩ => exact lhs6_0 _ _
    | ⟨1, _⟩ => exact (dot_S7168x128_S128x128_S7168x128_1_0_0_1_n_n.lhsIdx_val_of_single rfl _ _).trans hk)
  have er : dot_S7168x128_S128x128_S7168x128_1_0_0_1_n_n.rhsIdx (ix2 p q)
      ((contrEquiv1 dot_S7168x128_S128x128_S7168x128_1_0_0_1_n_n 128 rfl rfl).symm k) = ix2 k q := funext fun a => Fin.ext (by
    match a with
    | ⟨0, _⟩ => exact (dot_S7168x128_S128x128_S7168x128_1_0_0_1_n_n.rhsIdx_val_of_single rfl _ _).trans hk
    | ⟨1, _⟩ => exact rhs6_1 _ _)
  rw [el, er]

theorem bcast6_e (v : FVec Ideal S1x1 .f32) (p : Fin 7168) (q : Fin 128) :
    broadcastTo S7168x128 v broadcasts_S1x1_S7168x128 (ix2 p q) = v (ix2 0 0) :=
  broadcastTo_apply v broadcasts_S1x1_S7168x128 (ix2 p q) (ix2 0 0) (fun a => by match a with | ⟨0, _⟩ => rfl | ⟨1, _⟩ => rfl)

theorem bcast6_b (v : FVec Ideal S1x128 .f32) (p : Fin 7168) (q : Fin 128) :
    broadcastTo S7168x128 v broadcasts_S1x128_S7168x128 (ix2 p q) = v (ix2 0 q) :=
  broadcastTo_1b_ab_apply v broadcasts_S1x128_S7168x128 p q

theorem pay6_apply (xh xa : FVec Ideal S7168x128 .bf16) (xe : FVec Ideal S1x1 .f32) (xw : FVec Ideal S128x128 .f32)
    (xb : FVec Ideal S1x128 .f32) (p : Fin 7168) (q : Fin 128) :
    k6_pay1 (F := Ideal) xh xa xe xw xb (ix2 p q)
      = max ((∑ k : Fin 128, ((1 + xe (ix2 0 0)) * xh (ix2 p k) + xa (ix2 p k)) * xw (ix2 k q)) + xb (ix2 0 q)) 0 + xh (ix2 p q) := by
  unfold k6_pay1
  simp only [shapeCast_self, truncf_apply, extf_apply, addf_apply, mulf_apply, maximumf_apply, broadcast_apply,
    dot6_apply, bcast6_b, bcast6_e]
  show max ((∑ k : Fin 128, ((Ideal.ofBits .f32 0x3F800000#32 + xe (ix2 0 0)) * xh (ix2 p k) + xa (ix2 p k)) * xw (ix2 k q))
      + xb (ix2 0 q)) (Ideal.ofBits .f32 0x00000000#32) + xh (ix2 p q) = _
  rw [Ideal.ofBits_zero_f32, Ideal.ofBits_one_f32]

variable (V : (c : Dev nD) → (b : Ref sig .tc) → Buf (Elt Ideal) ((c : Thread nD τ).loc b))

abbrev harr6 (c : Dev nD) : FVec Ideal S100352x128 .bf16 := V c (Pipeline.arrRef spec6 0)
abbrev aarr6 (c : Dev nD) : FVec Ideal S100352x128 .bf16 := V c (Pipeline.arrRef spec6 1)
abbrev earr6 (c : Dev nD) : FVec Ideal S1x1 .f32 := V c (Pipeline.arrRef spec6 2)
abbrev warr6 (c : Dev nD) : FVec Ideal S128x128 .f32 := V c (Pipeline.arrRef spec6 3)
abbrev barr6 (c : Dev nD) : FVec Ideal S1x128 .f32 := V c (Pipeline.arrRef spec6 4)
abbrev hblk6 (c : Dev nD) (t : Fin cfg6.N) : FVec Ideal S7168x128 .bf16 := iblk6 V c 0 t
abbrev ablk6 (c : Dev nD) (t : Fin cfg6.N) : FVec Ideal S7168x128 .bf16 := iblk6 V c 1 t
abbrev eblk6 (c : Dev nD) (t : Fin cfg6.N) : FVec Ideal S1x1 .f32 := iblk6 V c 2 t
abbrev wblk6 (c : Dev nD) (t : Fin cfg6.N) : FVec Ideal S128x128 .f32 := iblk6 V c 3 t
abbrev bblk6 (c : Dev nD) (t : Fin cfg6.N) : FVec Ideal S1x128 .f32 := iblk6 V c 4 t

def G6 (c : Dev nD) : FVec Ideal S100352x128 .bf16 := fun i =>
  Spec.combine (R := 100352) (fun n k => harr6 V c (ix2 n k)) (fun n k => aarr6 V c (ix2 n k)) (earr6 V c (ix2 0 0))
    (fun k j => warr6 V c (ix2 k j)) (fun j => barr6 V c (ix2 0 j)) (i 0) (i 1)

theorem G6_apply (c : Dev nD) (r : Fin 100352) (q : Fin 128) :
    G6 V c (ix2 r q) = max ((∑ k : Fin 128, ((1 + earr6 V c (ix2 0 0)) * harr6 V c (ix2 r k) + aarr6 V c (ix2 r k)) * warr6 V c (ix2 k q))
      + barr6 V c (ix2 0 q)) 0 + harr6 V c (ix2 r q) := rfl

theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

theorem hblk6_apply (c : Dev nD) (t : Fin cfg6.N) (p : Fin 7168) (k : Fin 128) (r : Fin 100352) (hr : r.val = t.val * 7168 + p.val) :
    hblk6 V c t (ix2 p k) = harr6 V c (ix2 r k) := by
  obtain ⟨e0, e1, -⟩ := idx6 t
  exact congrArg (harr6 V c) (ix_ext_of_val _ r k
    (by show win6_0.index t (0 : Fin 2) * 7168 + 1 * p.val = r.val; omega)
    (by show win6_0.index t (1 : Fin 2) * 128 + 1 * k.val = k.val; omega))

theorem ablk6_apply (c : Dev nD) (t : Fin cfg6.N) (p : Fin 7168) (k : Fin 128) (r : Fin 100352) (hr : r.val = t.val * 7168 + p.val) :
    ablk6 V c t (ix2 p k) = aarr6 V c (ix2 r k) := by
  obtain ⟨-, -, e0, e1, -⟩ := idx6 t
  exact congrArg (aarr6 V c) (ix_ext_of_val _ r k
    (by show win6_1.index t (0 : Fin 2) * 7168 + 1 * p.val = r.val; omega)
    (by show win6_1.index t (1 : Fin 2) * 128 + 1 * k.val = k.val; omega))

theorem eblk6_apply (c : Dev nD) (t : Fin cfg6.N) : eblk6 V c t (ix2 0 0) = earr6 V c (ix2 0 0) := by
  obtain ⟨-, -, -, -, e0, e1, -⟩ := idx6 t
  exact congrArg (earr6 V c) (ix_ext_of_val _ 0 0
    (by show win6_2.index t (0 : Fin 2) * 1 + 1 * 0 = 0; omega)
    (by show win6_2.index t (1 : Fin 2) * 1 + 1 * 0 = 0; omega))

theorem wblk6_apply (c : Dev nD) (t : Fin cfg6.N) (k q : Fin 128) : wblk6 V c t (ix2 k q) = warr6 V c (ix2 k q) := by
  obtain ⟨-, -, -, -, -, -, e0, e1, -⟩ := idx6 t
  exact congrArg (warr6 V c) (ix_ext_of_val _ k q
    (by show win6_3.index t (0 : Fin 2) * 128 + 1 * k.val = k.val; omega)
    (by show win6_3.index t (1 : Fin 2) * 128 + 1 * q.val = q.val; omega))

theorem bblk6_apply (c : Dev nD) (t : Fin cfg6.N) (q : Fin 128) : bblk6 V c t (ix2 0 q) = barr6 V c (ix2 0 q) := by
  obtain ⟨-, -, -, -, -, -, -, -, e0, e1, -⟩ := idx6 t
  exact congrArg (barr6 V c) (ix_ext_of_val _ 0 q
    (by show win6_4.index t (0 : Fin 2) * 1 + 1 * 0 = 0; omega)
    (by show win6_4.index t (1 : Fin 2) * 128 + 1 * q.val = q.val; omega))

theorem flushed6_eq (c : Dev nD) (t : Fin cfg6.N) :
    (dat6 V c).flushed 5 t = ((cfg6.win 5).blk t).view.read (Elt Ideal) (G6 V c) := by
  show (cfg6.win 5).cut (grid6.coords t) ((dat6 V c).after 5 t) = _
  rw [after_out6]
  unfold out6
  rw [View.canon_unit_zero hz2]
  simp only [View.ld_unit_zero (S := S7168x128) hz2, View.ld_unit_zero (S := S1x1) hz2,
    View.ld_unit_zero (S := S128x128) hz2, View.ld_unit_zero (S := S1x128) hz2]
  obtain ⟨-, -, -, -, -, -, -, -, -, -, e0, e1⟩ := idx6 t
  funext y
  obtain ⟨p, q, rfl⟩ : ∃ (p : Fin 7168) (q : Fin 128), y = ix2 p q := ⟨y 0, y 1, eq_ix2 y⟩
  have ht : t.val < 14 := Nat.lt_of_lt_of_eq t.isLt N_6
  have hrow : ∃ r : Fin 100352, r.val = t.val * 7168 + p.val := ⟨⟨t.val * 7168 + p.val, by have := p.isLt; omega⟩, rfl⟩
  obtain ⟨r, hr⟩ := hrow
  have hemb : ((cfg6.win 5).blk t).view.emb (ix2 p q) = ix2 r q := ix_ext_of_val _ r q
    (by show win6_5.index t (0 : Fin 2) * 7168 + 1 * p.val = r.val; omega)
    (by show win6_5.index t (1 : Fin 2) * 128 + 1 * q.val = q.val; omega)
  show k6_pay1 (F := Ideal) (hblk6 V c t) (ablk6 V c t) (eblk6 V c t) (wblk6 V c t) (bblk6 V c t) (ix2 p q)
    = G6 V c (((cfg6.win 5).blk t).view.emb (ix2 p q))
  rw [hemb]
  refine (pay6_apply (hblk6 V c t) (ablk6 V c t) (eblk6 V c t) (wblk6 V c t) (bblk6 V c t) p q).trans ?_
  have hS : (∑ k : Fin 128, ((1 + eblk6 V c t (ix2 0 0)) * hblk6 V c t (ix2 p k) + ablk6 V c t (ix2 p k)) * wblk6 V c t (ix2 k q))
      = ∑ k : Fin 128, ((1 + earr6 V c (ix2 0 0)) * harr6 V c (ix2 r k) + aarr6 V c (ix2 r k)) * warr6 V c (ix2 k q) :=
    Finset.sum_congr rfl fun k _ => by
      rw [eblk6_apply V c t, hblk6_apply V c t p k r hr, ablk6_apply V c t p k r hr, wblk6_apply V c t k q]
  rw [hS, bblk6_apply V c t q, hblk6_apply V c t p q r hr]
  exact (G6_apply V c r q).symm

theorem cover6_arr (i : S100352x128.Idx) :
    ∃ t : Fin cfg6.N, (cfg6.win 5).flush t = true ∧ i ∈ ((cfg6.win 5).blk t).view.set := by
  have hi0 : (i 0).val < 100352 := (i 0).isLt
  have hi1 : (i 1).val < 128 := (i 1).isLt
  have hlt : (i 0).val / 7168 < cfg6.N := Nat.lt_of_lt_of_eq (show (i 0).val / 7168 < 14 by omega) N_6.symm
  obtain ⟨t, ht⟩ : ∃ t : Fin cfg6.N, t.val = (i 0).val / 7168 := ⟨⟨_, hlt⟩, rfl⟩
  refine ⟨t, flush6_5 t, ?_⟩
  obtain ⟨-, -, -, -, -, -, -, -, -, -, e0, e1⟩ := idx6 t
  have hemb : ((cfg6.win 5).blk t).view.emb (ix2 (⟨(i 0).val % 7168, Nat.mod_lt _ (by decide)⟩ : Fin 7168) (⟨(i 1).val, hi1⟩ : Fin 128)) = i :=
    funext fun a => Fin.ext (by
      match a with
      | ⟨0, _⟩ => show win6_5.index t (0 : Fin 2) * 7168 + 1 * ((i 0).val % 7168) = (i 0).val; omega
      | ⟨1, _⟩ => show win6_5.index t (1 : Fin 2) * 128 + 1 * (i 1).val = (i 1).val; omega)
  rw [← hemb]
  exact View.emb_mem_set _ _

theorem final6 (c : Dev nD) (n : Fin 100352) (j : Fin 128) :
    ((dat6 V c).arrAt 5 cfg6.N) (ix2 n j)
      = Spec.combine (R := 100352) (fun n k => harr6 V c (ix2 n k)) (fun n k => aarr6 V c (ix2 n k)) (earr6 V c (ix2 0 0))
          (fun k j => warr6 V c (ix2 k j)) (fun j => barr6 V c (ix2 0 j)) n j :=
  congrFun ((dat6 V c).arrAt_eq_of_cover 5 (G6 V c) (fun t _ => flushed6_eq V c t) (cover6_arr)) (ix2 n j)

end Cert.KernelIdeal.Hand
-- ==== Proof.KI.V7.lean ====
import proofs.«429186_j15229954031644_1_alg».proof.Proof.KI.R7
import proofs.«429186_j15229954031644_1_alg».proof.Proof.KI.PointsP
import proofs.«429186_j15229954031644_1_alg».proof.Proof.Spec
import proofs.«429186_j15229954031644_1_alg».proof.Proof.LibWhole
import Idealize.ShloMosaic.Lib.Pipeline.Value
import Idealize.ShloMosaic.Lib.ValueIdx
import Idealize.ShloMosaic.Lib.KernelVsHost

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open Cert.Whole

theorem rowWord7 (b k : Nat) : BitVec.ofNat 32 b * 1024#32 + BitVec.ofNat 32 k = BitVec.ofNat 32 (1024 * b + k) := by
  apply BitVec.eq_of_toNat_eq
  simp [BitVec.toNat_add, BitVec.toNat_mul, BitVec.toNat_ofNat, Nat.add_mod, Nat.mul_mod, Nat.mul_comm]

theorem onehotEntry7 (x y : BitVec 32) :
    (FloatOps.sitofp .f32 ((IntOp.cmpi .eq x y).setWidth 32) : Ideal .f32) = if x = y then (1 : EReal) else 0 := by
  show (((((IntOp.cmpi .eq x y).setWidth 32).toInt : ℤ) : ℝ) : EReal) = _
  rw [toInt_setWidth_bit]
  unfold IntOp.cmpi
  by_cases h : x = y <;> simp [h]

theorem cmpi_at7 {s : Shape} {w : Nat} (pr : CmpIPredicate) (x y : IVec s w) (i : s.Idx) :
    cmpi pr x y i = IntOp.cmpi pr (x i) (y i) := rfl
theorem addi_at7 {s : Shape} {w : Nat} (x y : IVec s w) (i : s.Idx) : addi x y i = IntOp.addi (x i) (y i) := rfl

abbrev ce7 := contrEquiv1 dot_S4096x1024_S1024x128_S4096x128_1_0_0_1_n_n 1024 rfl rfl

theorem zero_apply7 (p : Fin 4096) (q : Fin 128) : (k7_pay1 (F := Ideal)) (ix2 p q) = 0 := by
  unfold k7_pay1
  simp only [shapeCast_self]
  rw [broadcast_apply]
  exact Ideal.ofBits_zero_f32

theorem pay2_apply7 (i : grid7.Coords) (v7 : Vec Ideal S4096x1 .i32) (v15 : Vec Ideal S1024x128 .bf16)
    (v17 : Vec Ideal S4096x128 .f32) (p : Fin 4096) (q : Fin 128) :
    k7_pay2 i v7 v15 v17 (ix2 p q) = v17 (ix2 p q)
      + ∑ k : Fin 1024, (if v7 (ix2 p 0) = BitVec.ofNat 32 (1024 * (i 1).val + k.val) then (1 : EReal) else 0) * v15 (ix2 k q) := by
  unfold k7_pay2
  simp only [shapeCast_self, matmul]
  rw [addf_apply, Ideal.matmul_constant_zero_apply, ← Equiv.sum_comp ce7.symm]
  refine congrArg (v17 (ix2 p q) + ·) (Finset.sum_congr rfl fun k _ => ?_)
  have hk := contrEquiv1_symm_val dot_S4096x1024_S1024x128_S4096x128_1_0_0_1_n_n 1024 rfl rfl k
  have el : dot_S4096x1024_S1024x128_S4096x128_1_0_0_1_n_n.lhsIdx (ix2 p q) (ce7.symm k) = ix2 p k :=
    ix_ext_of_val _ p k (by
      unfold DotDims.lhsIdx
      rw [dif_neg (show ¬(0 : Fin S4096x1024.rank) ∈ dot_S4096x1024_S1024x128_S4096x128_1_0_0_1_n_n.lhsBatch by decide),
        dif_pos (show (0 : Fin S4096x1024.rank) ∈ dot_S4096x1024_S1024x128_S4096x128_1_0_0_1_n_n.lhsNonContracting by decide)]
      rfl) ((dot_S4096x1024_S1024x128_S4096x128_1_0_0_1_n_n.lhsIdx_val_of_single rfl _ _).trans hk)
  have er : dot_S4096x1024_S1024x128_S4096x128_1_0_0_1_n_n.rhsIdx (ix2 p q) (ce7.symm k) = ix2 k q :=
    ix_ext_of_val _ k q ((dot_S4096x1024_S1024x128_S4096x128_1_0_0_1_n_n.rhsIdx_val_of_single rfl _ _).trans hk) (by
      unfold DotDims.rhsIdx
      rw [dif_neg (show ¬(1 : Fin S1024x128.rank) ∈ dot_S4096x1024_S1024x128_S4096x128_1_0_0_1_n_n.rhsBatch by decide),
        dif_pos (show (1 : Fin S1024x128.rank) ∈ dot_S4096x1024_S1024x128_S4096x128_1_0_0_1_n_n.rhsNonContracting by decide)]
      rfl)
  rw [el, er, truncf_apply, sitofp_apply, extui_apply]
  have h9 : broadcastTo S4096x1024 v7 broadcasts_S4096x1_S4096x1024 (ix2 p k) = v7 (ix2 p 0) :=
    broadcastTo_apply _ _ (ix2 p k) (ix2 p 0) (fun a => by match a with | ⟨0, _⟩ => rfl | ⟨1, _⟩ => rfl)
  have h10 : broadcastTo S4096x1024
      (addi (broadcast S1x1024 (Scalar.muli (BitVec.ofNat 32 (i 1).val) 1024#32)) (iota Kind.tc S1x1024 32 [1] iota_S1x1024_d1_w32))
      broadcasts_S1x1024_S4096x1024 (ix2 p k) = BitVec.ofNat 32 (1024 * (i 1).val + k.val) := by
    rw [broadcastTo_apply _ _ (ix2 p k) (ix2 (0 : Fin 1) k) (fun a => by match a with | ⟨0, _⟩ => rfl | ⟨1, _⟩ => rfl),
      addi_at7, broadcast_apply, iota_single_apply]
    exact rowWord7 _ _
  rw [cmpi_at7, h9, h10, onehotEntry7]

theorem pay3_apply7 (v26 : Vec Ideal S4096x1 .f32) (v28 : Vec Ideal S1x128 .f32) (v32 : Vec Ideal S1x128 .f32)
    (v36 : Vec Ideal S4096x128 .f32) (p : Fin 4096) (q : Fin 128) :
    k7_pay3 v26 v28 v32 v36 (ix2 p q) = max (v36 (ix2 p q) + (v26 (ix2 p 0) * v28 (ix2 0 q) + v32 (ix2 0 q))) 0 := by
  unfold k7_pay3
  simp only [shapeCast_self]
  rw [truncf_apply, maximumf_apply, addf_apply, addf_apply, mulf_apply, broadcast_apply,
    broadcastTo_apply v26 _ (ix2 p q) (ix2 p (0 : Fin 1)) (fun a => by match a with | ⟨0, _⟩ => rfl | ⟨1, _⟩ => rfl),
    broadcastTo_apply v28 _ (ix2 p q) (ix2 (0 : Fin 1) q) (fun a => by match a with | ⟨0, _⟩ => rfl | ⟨1, _⟩ => rfl),
    broadcastTo_apply v32 _ (ix2 p q) (ix2 (0 : Fin 1) q) (fun a => by match a with | ⟨0, _⟩ => rfl | ⟨1, _⟩ => rfl)]
  show max _ (Ideal.ofBits .f32 0x00000000#32) = _
  rw [Ideal.ofBits_zero_f32]

theorem sum_blocks7 (m n : ℕ) (f : ℕ → EReal) :
    ∑ b ∈ Finset.range m, ∑ k : Fin n, f (n * b + k.val) = ∑ x : Fin (m * n), f x.val := by
  rw [Finset.sum_range (fun b => ∑ k : Fin n, f (n * b + k.val)),
    ← Fintype.sum_prod_type' (f := fun (b : Fin m) (k : Fin n) => f (n * b.val + k.val)),
    ← Equiv.sum_comp finProdFinEquiv (fun x : Fin (m * n) => f x.val)]
  refine Finset.sum_congr rfl fun x _ => ?_
  rcases x with ⟨b, k⟩
  show f (n * b.val + k.val) = f (k.val + n * b.val)
  rw [Nat.add_comm]

variable (V : (c : Dev nD) → (b : Ref sig .tc) → Buf (Elt Ideal) ((c : Thread nD τ).loc b))

abbrev gSrc7 (c : Dev nD) : Fin 1601536 → BitVec 32 :=
  fun e => (V c (Pipeline.arrRef spec7 0) : S1601536x1.Idx → BitVec 32) (ix2 e 0)
abbrev gH7 (c : Dev nD) : Fin 100352 → Fin 128 → EReal :=
  fun n j => (V c (Pipeline.arrRef spec7 2) : S100352x128.Idx → EReal) (ix2 n j)
abbrev gEd7 (c : Dev nD) : Fin 1601536 → EReal :=
  fun e => (V c (Pipeline.arrRef spec7 1) : S1601536x1.Idx → EReal) (ix2 e 0)
abbrev gWe7 (c : Dev nD) : Fin 128 → EReal :=
  fun j => (V c (Pipeline.arrRef spec7 3) : S1x128.Idx → EReal) (ix2 0 j)
abbrev gBe7 (c : Dev nD) : Fin 128 → EReal :=
  fun j => (V c (Pipeline.arrRef spec7 4) : S1x128.Idx → EReal) (ix2 0 j)

def sN7 (c : Dev nD) (n : ℕ) : BitVec 32 := if h : n < 1601536 then gSrc7 V c ⟨n, h⟩ else 0
def hN7 (c : Dev nD) (q : Fin 128) (n : ℕ) : EReal := if h : n < 100352 then gH7 V c ⟨n, h⟩ q else 0

theorem sN7_of_lt (c : Dev nD) (n : ℕ) (h : n < 1601536) : sN7 V c n = gSrc7 V c ⟨n, h⟩ := dif_pos h
theorem hN7_of_lt (c : Dev nD) (q : Fin 128) (n : ℕ) (h : n < 100352) : hN7 V c q n = gH7 V c ⟨n, h⟩ q := dif_pos h

theorem coords7_0 (t : Fin cfg7.N) : ((grid7.coords t) 0).val = t.val / 98 := by
  have hN : cfg7.N = 38318 := N_7
  have ht : t.val < cfg7.N := t.isLt
  show t.val / grid7.stride 0 % 391 = t.val / 98
  rw [show grid7.stride 0 = 98 from by decide]
  omega
theorem coords7_1 (t : Fin cfg7.N) : ((grid7.coords t) 1).val = t.val % 98 := by
  show t.val / grid7.stride 1 % 98 = t.val % 98
  rw [show grid7.stride 1 = 1 from by decide, Nat.div_one]
theorem erow_lt7 (t : Fin cfg7.N) (p : Fin 4096) : 4096 * (t.val / 98) + p.val < 1601536 := by
  have hN : cfg7.N = 38318 := N_7
  have ht : t.val < cfg7.N := t.isLt
  have hp : p.val < 4096 := p.isLt
  omega
theorem nrow_lt7 (t : Fin cfg7.N) (k : Fin 1024) : 1024 * (t.val % 98) + k.val < 100352 := by
  have hk : k.val < 1024 := k.isLt
  omega

theorem word_toNat7 (x : ℕ) (h : x < 38318) : (BitVec.ofNat 32 x).toNat = x := by
  rw [BitVec.toNat_ofNat]
  omega
/-- The grid's coordinates are small enough to pass through 32-bit words unchanged. -/
theorem idx7_0 (t : Fin cfg7.N) : (BitVec.ofNat 32 ((grid7.coords t) 0).val).toNat = t.val / 98 := by
  have hN : cfg7.N = 38318 := N_7
  have ht : t.val < cfg7.N := t.isLt
  rw [coords7_0, word_toNat7 _ (by omega)]
theorem idx7_1 (t : Fin cfg7.N) : (BitVec.ofNat 32 ((grid7.coords t) 1).val).toNat = t.val % 98 := by
  rw [coords7_1, word_toNat7 _ (by omega)]

theorem iblk7_0_apply (c : Dev nD) (t : Fin cfg7.N) (p : Fin 4096) :
    (iblk7 V c 0 t : Vec Ideal S4096x1 .i32) (ix2 p 0) = sN7 V c (4096 * (t.val / 98) + p.val) := by
  rw [sN7_of_lt V c _ (erow_lt7 t p)]
  unfold iblk7
  rw [View.read_apply]
  refine congrArg (V c (Pipeline.arrRef spec7 0)) (ix_ext_of_val _ ⟨_, erow_lt7 t p⟩ 0 ?_ rfl)
  show (BitVec.ofNat 32 ((grid7.coords t) 0).val).toNat * 4096 + 1 * p.val = 4096 * (t.val / 98) + p.val
  rw [idx7_0]; omega

theorem iblk7_1_apply (c : Dev nD) (t : Fin cfg7.N) (p : Fin 4096) :
    (iblk7 V c 1 t : Vec Ideal S4096x1 .f32) (ix2 p 0) = gEd7 V c ⟨4096 * (t.val / 98) + p.val, erow_lt7 t p⟩ := by
  unfold iblk7
  rw [View.read_apply]
  refine congrArg (V c (Pipeline.arrRef spec7 1)) (ix_ext_of_val _ ⟨_, erow_lt7 t p⟩ 0 ?_ rfl)
  show (BitVec.ofNat 32 ((grid7.coords t) 0).val).toNat * 4096 + 1 * p.val = 4096 * (t.val / 98) + p.val
  rw [idx7_0]; omega

theorem iblk7_2_apply (c : Dev nD) (t : Fin cfg7.N) (k : Fin 1024) (q : Fin 128) :
    (iblk7 V c 2 t : Vec Ideal S1024x128 .bf16) (ix2 k q) = hN7 V c q (1024 * (t.val % 98) + k.val) := by
  rw [hN7_of_lt V c q _ (nrow_lt7 t k)]
  unfold iblk7
  rw [View.read_apply]
  refine congrArg (V c (Pipeline.arrRef spec7 2)) (ix_ext_of_val _ ⟨_, nrow_lt7 t k⟩ q ?_ (by show 0 * 128 + 1 * q.val = q.val; omega))
  show (BitVec.ofNat 32 ((grid7.coords t) 1).val).toNat * 1024 + 1 * k.val = 1024 * (t.val % 98) + k.val
  rw [idx7_1]; omega

theorem iblk7_3_apply (c : Dev nD) (t : Fin cfg7.N) (q : Fin 128) :
    (iblk7 V c 3 t : Vec Ideal S1x128 .f32) (ix2 0 q) = gWe7 V c q := by
  unfold iblk7
  rw [View.read_apply]
  exact congrArg (V c (Pipeline.arrRef spec7 3)) (ix_ext_of_val _ 0 q rfl (by show 0 * 128 + 1 * q.val = q.val; omega))

theorem iblk7_4_apply (c : Dev nD) (t : Fin cfg7.N) (q : Fin 128) :
    (iblk7 V c 4 t : Vec Ideal S1x128 .f32) (ix2 0 q) = gBe7 V c q := by
  unfold iblk7
  rw [View.read_apply]
  exact congrArg (V c (Pipeline.arrRef spec7 4)) (ix_ext_of_val _ 0 q rfl (by show 0 * 128 + 1 * q.val = q.val; omega))

def accSum7 (c : Dev nD) (q : Fin 128) (eb : ℕ) (p : Fin 4096) (m : ℕ) : EReal :=
  ∑ b ∈ Finset.range m, ∑ k : Fin 1024,
    Spec.oh (sN7 V c (4096 * eb + p.val)) (1024 * b + k.val) * hN7 V c q (1024 * b + k.val)

theorem acc7_point (c : Dev nD) (n : ℕ) (hn : n < cfg7.N) (v17 : Vec Ideal S4096x128 .f32) (p : Fin 4096) (q : Fin 128) :
    k7_pay2 (grid7.coords ⟨n, hn⟩) (iblk7 V c 0 ⟨n, hn⟩) (iblk7 V c 2 ⟨n, hn⟩) v17 (ix2 p q)
      = v17 (ix2 p q) + ∑ k : Fin 1024,
          Spec.oh (sN7 V c (4096 * (n / 98) + p.val)) (1024 * (n % 98) + k.val) * hN7 V c q (1024 * (n % 98) + k.val) := by
  rw [pay2_apply7, iblk7_0_apply V c ⟨n, hn⟩ p, coords7_1 ⟨n, hn⟩]
  refine congrArg (v17 (ix2 p q) + ·) (Finset.sum_congr rfl fun k _ => ?_)
  rw [iblk7_2_apply V c ⟨n, hn⟩ k q]
  rfl

theorem acc7_apply_first (c : Dev nD) (q : Fin 128) (n : ℕ) (hn : n < cfg7.N) (h0 : n % 98 = 0) (p : Fin 4096) :
    acc7 V c n hn (ix2 p q) = accSum7 V c q (n / 98) p (n % 98 + 1) := by
  have hfirst : acc7 V c n hn
      = k7_pay2 (grid7.coords ⟨n, hn⟩) (iblk7 V c 0 ⟨n, hn⟩) (iblk7 V c 2 ⟨n, hn⟩) (k7_pay1 (F := Ideal)) :=
    acc7_first V c ⟨n, hn⟩ h0
  rw [hfirst, acc7_point V c n hn _ p q, zero_apply7, zero_add, h0]
  unfold accSum7
  rw [Nat.zero_add, Finset.sum_range_one]

theorem acc7_apply (c : Dev nD) (q : Fin 128) : ∀ (n : ℕ) (hn : n < cfg7.N) (p : Fin 4096),
    acc7 V c n hn (ix2 p q) = accSum7 V c q (n / 98) p (n % 98 + 1)
  | 0, hn, p => acc7_apply_first V c q 0 hn rfl p
  | n + 1, hn, p => by
    by_cases h0 : (n + 1) % 98 = 0
    · exact acc7_apply_first V c q (n + 1) hn h0 p
    · have e1 : (n + 1) / 98 = n / 98 := by omega
      have e2 : (n + 1) % 98 = n % 98 + 1 := by omega
      have hnext : acc7 V c (n + 1) hn
          = k7_pay2 (grid7.coords ⟨n + 1, hn⟩) (iblk7 V c 0 ⟨n + 1, hn⟩) (iblk7 V c 2 ⟨n + 1, hn⟩)
              (acc7 V c n (Nat.lt_of_succ_lt hn)) :=
        acc7_next V c ⟨n + 1, hn⟩ h0
      rw [hnext, acc7_point V c (n + 1) hn _ p q, acc7_apply c q n (Nat.lt_of_succ_lt hn) p, e1, e2]
      unfold accSum7
      exact (Finset.sum_range_succ (fun b => ∑ k : Fin 1024,
        Spec.oh (sN7 V c (4096 * (n / 98) + p.val)) (1024 * b + k.val) * hN7 V c q (1024 * b + k.val)) (n % 98 + 1)).symm

theorem accSum7_full (c : Dev nD) (q : Fin 128) (eb : ℕ) (p : Fin 4096) (s : BitVec 32)
    (hs : sN7 V c (4096 * eb + p.val) = s) :
    accSum7 V c q eb p 98 = ∑ n : Fin 100352, Spec.oh s n.val * gH7 V c n q := by
  unfold accSum7
  rw [hs]
  refine (sum_blocks7 98 1024 (fun n => Spec.oh s n * hN7 V c q n)).trans ?_
  refine Finset.sum_congr rfl fun n _ => ?_
  show Spec.oh s n.val * hN7 V c q n.val = Spec.oh s n.val * gH7 V c n q
  rw [hN7_of_lt V c q n.val n.isLt]

theorem kGather_apply7 (src : Fin 1601536 → BitVec 32) (h : Fin 100352 → Fin 128 → EReal) (ed : Fin 1601536 → EReal)
    (We be : Fin 128 → EReal) (e : Fin 1601536) (j : Fin 128) :
    Spec.kGather src h ed We be e j = max ((∑ n : Fin 100352, Spec.oh (src e) n.val * h n j) + (ed e * We j + be j)) 0 := rfl

theorem relu_congr7 (a a' b b' : EReal) (ha : a = a') (hb : b = b') : max (a + b) 0 = max (a' + b') 0 := by
  rw [ha, hb]

abbrev G7 (c : Dev nD) : S1601536x128.Idx → EReal :=
  fun i => Spec.kGather (gSrc7 V c) (gH7 V c) (gEd7 V c) (gWe7 V c) (gBe7 V c) (i 0) (i 1)

theorem emb7_5 (t : Fin cfg7.N) (p : Fin 4096) (q : Fin 128) :
    ((cfg7.win 5).blk t).view.emb (ix2 p q) = ix2 ⟨4096 * (t.val / 98) + p.val, erow_lt7 t p⟩ q := by
  refine ix_ext_of_val _ _ q ?_ (by show 0 * 128 + 1 * q.val = q.val; omega)
  show (BitVec.ofNat 32 ((grid7.coords t) 0).val).toNat * 4096 + 1 * p.val = 4096 * (t.val / 98) + p.val
  rw [idx7_0]; omega

theorem flushed7_eq (c : Dev nD) (t : Fin cfg7.N) (hf : (cfg7.win 5).flush t = true) :
    (dat7 V c).flushed 5 t = ((cfg7.win 5).blk t).view.read (Elt Ideal) (G7 V c) := by
  have h97 : t.val % 98 = 97 := (flush7_5 t).mp hf
  show (cfg7.win 5).cut (grid7.coords t) ((dat7 V c).after 5 t) = _
  rw [after_out7]
  funext j
  obtain ⟨p, q, rfl⟩ : ∃ (p : Fin 4096) (q : Fin 128), j = ix2 p q := ⟨j 0, j 1, eq_ix2 j⟩
  show k7_pay3 (iblk7 V c 1 t) (iblk7 V c 3 t) (iblk7 V c 4 t) (acc7 V c t.val t.isLt) (ix2 p q)
    = G7 V c (((cfg7.win 5).blk t).view.emb (ix2 p q))
  have h98 : t.val % 98 + 1 = 98 := by omega
  rw [emb7_5 t p q]
  show _ = Spec.kGather (gSrc7 V c) (gH7 V c) (gEd7 V c) (gWe7 V c) (gBe7 V c) ⟨4096 * (t.val / 98) + p.val, erow_lt7 t p⟩ q
  rw [kGather_apply7, pay3_apply7, acc7_apply V c q t.val t.isLt p, iblk7_1_apply V c t p, iblk7_3_apply V c t q,
    iblk7_4_apply V c t q, h98]
  exact relu_congr7 _ _ _ _
    (accSum7_full V c q (t.val / 98) p _ (sN7_of_lt V c _ (erow_lt7 t p))) rfl

theorem mem_blk7_5 (t : Fin cfg7.N) (i : S1601536x128.Idx) :
    i ∈ ((cfg7.win 5).blk t).view.set ↔ ∀ a : Fin 2, win7_5.index t a * S4096x128.size a ≤ (i a).val
      ∧ (i a).val < win7_5.index t a * S4096x128.size a + S4096x128.size a := by
  show i ∈ ((View.whole (Pipeline.arrRef spec7 5)).slice (win7_5.rect t)).set ↔ _
  rw [View.set_slice_whole, Rect.mem_set_unit]
  exact Iff.rfl

theorem cover7 (c : Dev nD) (i : S1601536x128.Idx) :
    ∃ t : Fin cfg7.N, (cfg7.win 5).flush t = true ∧ i ∈ ((cfg7.win 5).blk t).view.set := by
  have hN : cfg7.N = 38318 := N_7
  have hi0 : (i 0).val < 1601536 := idx2_lt0 i
  have hi1 : (i 1).val < 128 := idx2_lt1 i
  have htv : 98 * ((i 0).val / 4096) + 97 < cfg7.N := by omega
  refine ⟨⟨_, htv⟩, (flush7_5 _).mpr (by show (98 * ((i 0).val / 4096) + 97) % 98 = 97; omega), (mem_blk7_5 _ i).mpr fun a => ?_⟩
  match a with
  | ⟨0, _⟩ =>
    show (BitVec.ofNat 32 ((grid7.coords ⟨_, htv⟩) 0).val).toNat * 4096 ≤ (i 0).val
      ∧ (i 0).val < (BitVec.ofNat 32 ((grid7.coords ⟨_, htv⟩) 0).val).toNat * 4096 + 4096
    rw [idx7_0]
    show (98 * ((i 0).val / 4096) + 97) / 98 * 4096 ≤ (i 0).val ∧ (i 0).val < (98 * ((i 0).val / 4096) + 97) / 98 * 4096 + 4096
    omega
  | ⟨1, _⟩ =>
    show 0 * 128 ≤ (i 1).val ∧ (i 1).val < 0 * 128 + 128
    omega

theorem final7 (c : Dev nD) (e : Fin 1601536) (j : Fin 128) :
    ((dat7 V c).arrAt 5 cfg7.N : S1601536x128.Idx → EReal) (ix2 e j)
      = Spec.kGather (gSrc7 V c) (gH7 V c) (gEd7 V c) (gWe7 V c) (gBe7 V c) e j :=
  congrFun ((dat7 V c).arrAt_eq_of_cover 5 (G7 V c) (flushed7_eq V c) (cover7 c)) (ix2 e j)

end Cert.KernelIdeal.Hand

end
-- ==== Proof.KI.V8.lean ====
import proofs.«429186_j15229954031644_1_alg».proof.Proof.KI.R8
import proofs.«429186_j15229954031644_1_alg».proof.Proof.KI.PointsP
import proofs.«429186_j15229954031644_1_alg».proof.Proof.Spec
import proofs.«429186_j15229954031644_1_alg».proof.Proof.LibWhole
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.Pipeline (Dat)
open Cert.Whole

theorem dotT8_apply {φ₁ φ₂ : FTy} (A : FVec Ideal S4096x1024 φ₁) (B : FVec Ideal S4096x128 φ₂)
    (acc : FVec Ideal S1024x128 .f32) (r : Fin 1024) (j : Fin 128) :
    matmul dot_S4096x1024_S4096x128_S1024x128_0_0_1_1_n_n none A B acc (ix2 r j)
      = acc (ix2 r j) + ∑ e : Fin 4096, A (ix2 e r) * B (ix2 e j) := by
  show Ideal.matmul _ A B acc (ix2 r j) = _
  unfold Ideal.matmul
  rw [← Equiv.sum_comp (contrEquiv1 dot_S4096x1024_S4096x128_S1024x128_0_0_1_1_n_n 4096 rfl rfl).symm]
  congr 1
  refine Finset.sum_congr rfl fun e _ => ?_
  have c2 := contrEquiv1_symm_val dot_S4096x1024_S4096x128_S1024x128_0_0_1_1_n_n 4096 rfl rfl e
  have l2 : dot_S4096x1024_S4096x128_S1024x128_0_0_1_1_n_n.lhsIdx (ix2 r j) ((contrEquiv1 _ 4096 rfl rfl).symm e) = ix2 e r := by
    funext ax; apply Fin.ext
    match ax with
    | ⟨0, _⟩ => simp [DotDims.lhsIdx, dot_S4096x1024_S4096x128_S1024x128_0_0_1_1_n_n]; exact c2
    | ⟨1, _⟩ => simp [DotDims.lhsIdx, dot_S4096x1024_S4096x128_S1024x128_0_0_1_1_n_n]; rfl
  have r2 : dot_S4096x1024_S4096x128_S1024x128_0_0_1_1_n_n.rhsIdx (ix2 r j) ((contrEquiv1 _ 4096 rfl rfl).symm e) = ix2 e j := by
    funext ax; apply Fin.ext
    match ax with
    | ⟨0, _⟩ => simp [DotDims.rhsIdx, dot_S4096x1024_S4096x128_S1024x128_0_0_1_1_n_n]; exact c2
    | ⟨1, _⟩ => simp [DotDims.rhsIdx, dot_S4096x1024_S4096x128_S1024x128_0_0_1_1_n_n]; rfl
  rw [l2, r2]

theorem zero8_f32 : Ideal.ofBits .f32 0x00000000#32 = 0 := by simp [Ideal.ofBits, Ideal.ieee]

theorem bit8_sitofp (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  unfold IntOp.cmpi
  by_cases h : a = b
  · subst h; simp
  · have : (a == b) = false := by simpa using h
    simp [this, h]

theorem k8_pay1_apply (x : S1024x128.Idx) : k8_pay1 (F := Ideal) x = 0 := by
  unfold k8_pay1
  simp only [shapeCast_self]
  show Scalar.ofBits (F := Ideal) .f32 0x00000000#32 = 0
  exact zero8_f32

theorem k8_pay2_apply (i : grid8.Coords) (v7 : Vec Ideal S4096x1 .i32) (v15 : Vec Ideal S4096x128 .bf16)
    (v17 : Vec Ideal S1024x128 .f32) (r : Fin 1024) (j : Fin 128) :
    k8_pay2 (F := Ideal) i v7 v15 v17 (ix2 r j)
      = v17 (ix2 r j) + ∑ e : Fin 4096, Spec.oh (v7 (ix2 e 0)) (1024 * (i 0).val + r.val) * v15 (ix2 e j) := by
  unfold k8_pay2
  simp only [shapeCast_self]
  rw [addf_apply, dotT8_apply, constant_apply, zero8_f32, zero_add]
  congr 1
  refine Finset.sum_congr rfl fun e _ => ?_
  congr 1
  rw [truncf_apply, sitofp_apply, extui_apply]
  show FloatOps.sitofp (F := Ideal) .f32 ((IntOp.cmpi .eq _ _).setWidth 32) = _
  rw [bit8_sitofp]
  unfold Spec.oh
  rw [broadcastTo_apply _ _ (ix2 e r) (ix2 e 0) (fun a => by match a with | ⟨0, _⟩ => rfl | ⟨1, _⟩ => rfl),
    broadcastTo_apply _ _ (ix2 e r) (ix2 0 r) (fun a => by match a with | ⟨0, _⟩ => rfl | ⟨1, _⟩ => rfl)]
  show (if v7 (ix2 e 0) = IntOp.addi (Scalar.muli (BitVec.ofNat 32 (i 0).val) 1024#32) (iota .tc S1x1024 32 [1] iota_S1x1024_d1_w32 (ix2 0 r)) then (1 : EReal) else 0) = _
  rw [iota_single_apply]
  have hw : IntOp.addi (Scalar.muli (BitVec.ofNat 32 (i 0).val) 1024#32) (BitVec.ofNat 32 r.val) = BitVec.ofNat 32 (1024 * (i 0).val + r.val) := by
    show BitVec.ofNat 32 (i 0).val * 1024#32 + BitVec.ofNat 32 r.val = _
    rw [show (1024#32 : BitVec 32) = BitVec.ofNat 32 1024 from rfl, ← BitVec.ofNat_mul, ← BitVec.ofNat_add, Nat.mul_comm]
  show (if v7 (ix2 e 0) = IntOp.addi (Scalar.muli (BitVec.ofNat 32 (i 0).val) 1024#32) (BitVec.ofNat 32 r.val) then (1 : EReal) else 0) = _
  rw [hw]

-- 391 blocks of 4096 consecutive numbers are exactly the numbers below 1601536.
theorem sum8_blocks {M : Type*} [AddCommMonoid M] (g : ℕ → M) :
    ∑ s ∈ Finset.range 391, ∑ e : Fin 4096, g (4096 * s + e.val) = ∑ E : Fin 1601536, g E.val := by
  rw [Finset.sum_range (fun s => ∑ e : Fin 4096, g (4096 * s + e.val))]
  rw [← Fintype.sum_prod_type' (fun (s : Fin 391) (e : Fin 4096) => g (4096 * s.val + e.val))]
  rw [← Equiv.sum_comp (finProdFinEquiv (m := 391) (n := 4096)) (fun E : Fin (391 * 4096) => g E.val)]
  refine Finset.sum_congr rfl fun p _ => ?_
  show g (4096 * p.1.val + p.2.val) = g (p.2.val + 4096 * p.1.val)
  rw [Nat.add_comm]

theorem coords8_0 (t : Fin cfg8.N) : (grid8.coords t 0).val = t.val / 391 := by
  have hN : grid8.N = 38318 := N_8
  have ht : t.val < 38318 := hN ▸ t.isLt
  show t.val / grid8.stride 0 % 98 = _
  rw [show grid8.stride 0 = 391 from by decide]
  omega

section Fold
variable (dst : ℕ → BitVec 32) (msg : ℕ → Fin 128 → EReal)

def addend8 (q : ℕ) (n : ℕ) (x : S1024x128.Idx) : EReal :=
  ∑ e : Fin 4096, Spec.oh (dst (4096 * (n % 391) + e.val)) (1024 * q + (x 0).val) * msg (4096 * (n % 391) + e.val) (x 1)

-- By induction along the 391 points of a node block: after edge block b the accumulated value is the sum over edge blocks 0 … b.
theorem fold8_apply (f : (n : ℕ) → n < cfg8.N → Vec Ideal S1024x128 .f32)
    (D : (n : ℕ) → n < cfg8.N → Vec Ideal S4096x1 .i32) (Mg : (n : ℕ) → n < cfg8.N → Vec Ideal S4096x128 .bf16)
    (hD : ∀ (n : ℕ) (h : n < cfg8.N) (e : Fin 4096), D n h (ix2 e 0) = dst (4096 * (n % 391) + e.val))
    (hM : ∀ (n : ℕ) (h : n < cfg8.N) (e : Fin 4096) (j : Fin 128), Mg n h (ix2 e j) = msg (4096 * (n % 391) + e.val) j)
    (h0 : ∀ (n : ℕ) (h : n < cfg8.N), n % 391 = 0 →
      f n h = k8_pay2 (grid8.coords ⟨n, h⟩) (D n h) (Mg n h) (k8_pay1 (F := Ideal)))
    (hs : ∀ (n : ℕ) (h : n + 1 < cfg8.N), ¬(n + 1) % 391 = 0 →
      f (n + 1) h = k8_pay2 (grid8.coords ⟨n + 1, h⟩) (D (n + 1) h) (Mg (n + 1) h) (f n (Nat.lt_of_succ_lt h)))
    (q b : ℕ) (hb : b < 391) (h : 391 * q + b < cfg8.N) (r : Fin 1024) (j : Fin 128) :
    f (391 * q + b) h (ix2 r j)
      = ∑ s ∈ Finset.range (b + 1), ∑ e : Fin 4096,
          Spec.oh (dst (4096 * s + e.val)) (1024 * q + r.val) * msg (4096 * s + e.val) j := by
  have hN : cfg8.N = 38318 := N_8
  have key : ∀ (n : ℕ) (hn : n < cfg8.N) (acc : Vec Ideal S1024x128 .f32) (x : S1024x128.Idx), n / 391 = q →
      k8_pay2 (grid8.coords ⟨n, hn⟩) (D n hn) (Mg n hn) acc x = acc x + addend8 dst msg q n x := by
    intro n hn acc x hq
    obtain ⟨r', j', rfl⟩ : ∃ r' j', x = ix2 r' j' := ⟨x 0, x 1, eq_ix2 x⟩
    rw [k8_pay2_apply, coords8_0 ⟨n, hn⟩]
    show _ + _ = _ + ∑ e : Fin 4096, Spec.oh (dst (4096 * (n % 391) + e.val)) (1024 * q + r'.val) * msg (4096 * (n % 391) + e.val) j'
    congr 1
    refine Finset.sum_congr rfl fun e _ => ?_
    rw [hD, hM, hq]
  have e1 := Pipeline.eq_accAt f 391
      (fun n hn => k8_pay2 (grid8.coords ⟨n, hn⟩) (D n hn) (Mg n hn) (k8_pay1 (F := Ideal)))
      (fun n hn acc => k8_pay2 (grid8.coords ⟨n, hn⟩) (D n hn) (Mg n hn) acc) h0 hs q b hb h
  have e2 := Pipeline.accAt_add_apply
      (fun n hn => k8_pay2 (grid8.coords ⟨n, hn⟩) (D n hn) (Mg n hn) (k8_pay1 (F := Ideal)))
      (fun n hn acc => k8_pay2 (grid8.coords ⟨n, hn⟩) (D n hn) (Mg n hn) acc)
      (fun _ => 0) (addend8 dst msg q) (391 * q) 390
      (fun hn x => by
        show k8_pay2 (grid8.coords ⟨391 * q, hn⟩) (D _ hn) (Mg _ hn) (k8_pay1 (F := Ideal)) x = 0 + addend8 dst msg q (391 * q) x
        rw [key _ hn _ x (by omega), k8_pay1_apply])
      (fun n hn acc x h1 h2 => key n hn acc x (by omega)) b (by omega) h (ix2 r j)
  refine ((congrFun e1 (ix2 r j)).trans e2).trans ?_
  show (0 : EReal) + ∑ s ∈ Finset.range (b + 1), addend8 dst msg q (391 * q + s) (ix2 r j) = _
  rw [zero_add]
  refine Finset.sum_congr rfl fun s hs' => ?_
  have hs391 : s < 391 := by have := Finset.mem_range.mp hs'; omega
  show ∑ e : Fin 4096, Spec.oh (dst (4096 * ((391 * q + s) % 391) + e.val)) (1024 * q + r.val)
      * msg (4096 * ((391 * q + s) % 391) + e.val) j = _
  rw [Nat.mul_add_mod, Nat.mod_eq_of_lt hs391]

end Fold

section Region
variable (V : (c : Dev nD) → (b : Ref sig .tc) → Buf (Elt Ideal) ((c : Thread nD τ).loc b))

theorem widx8_0 (t : Fin cfg8.N) : win8_0.index t 0 = t.val % 391 := by
  show (BitVec.ofNat 32 (grid8.coords t 1).val).toNat = _
  rw [BitVec.toNat_ofNat, coordj8, Nat.mod_eq_of_lt (by have := Nat.mod_lt t.val (show 0 < 391 by decide); omega)]

theorem widx8_1 (t : Fin cfg8.N) : win8_1.index t 0 = t.val % 391 := widx8_0 t

theorem widx8_2 (t : Fin cfg8.N) : win8_2.index t 0 = t.val / 391 := by
  have hN : grid8.N = 38318 := N_8
  have ht : t.val < 38318 := hN ▸ t.isLt
  show (BitVec.ofNat 32 (grid8.coords t 0).val).toNat = _
  rw [BitVec.toNat_ofNat, coords8_0, Nat.mod_eq_of_lt (by omega)]

def dstN8 (c : Dev nD) (k : ℕ) : BitVec 32 :=
  if h : k < 1601536 then V c (Pipeline.arrRef spec8 0) (ix2 (⟨k, h⟩ : Fin 1601536) (0 : Fin 1)) else 0

def msgN8 (c : Dev nD) (k : ℕ) (j : Fin 128) : EReal :=
  if h : k < 1601536 then V c (Pipeline.arrRef spec8 1) (ix2 (⟨k, h⟩ : Fin 1601536) j) else 0

theorem iblk8_dst (c : Dev nD) (t : Fin cfg8.N) (e : Fin 4096) :
    (iblk8 V c 0 t : Vec Ideal S4096x1 .i32) (ix2 e 0) = dstN8 V c (4096 * (t.val % 391) + e.val) := by
  have he : 4096 * (t.val % 391) + e.val < 1601536 := by
    have := e.isLt; have := Nat.mod_lt t.val (show 0 < 391 by decide); omega
  unfold dstN8
  rw [dif_pos he]
  unfold iblk8
  rw [View.read_apply]
  exact congrArg (V c (Pipeline.arrRef spec8 0)) (ix_ext_of_val _ _ _
    (by show win8_0.index t 0 * 4096 + 1 * e.val = 4096 * (t.val % 391) + e.val; rw [widx8_0]; omega) rfl)

theorem iblk8_msg (c : Dev nD) (t : Fin cfg8.N) (e : Fin 4096) (j : Fin 128) :
    (iblk8 V c 1 t : Vec Ideal S4096x128 .bf16) (ix2 e j) = msgN8 V c (4096 * (t.val % 391) + e.val) j := by
  have he : 4096 * (t.val % 391) + e.val < 1601536 := by
    have := e.isLt; have := Nat.mod_lt t.val (show 0 < 391 by decide); omega
  unfold msgN8
  rw [dif_pos he]
  unfold iblk8
  rw [View.read_apply]
  exact congrArg (V c (Pipeline.arrRef spec8 1)) (ix_ext_of_val _ _ _
    (by show win8_1.index t 0 * 4096 + 1 * e.val = 4096 * (t.val % 391) + e.val; rw [widx8_1]; omega)
    (by show win8_1.index t 1 * 128 + 1 * j.val = j.val; rw [show win8_1.index t 1 = 0 from rfl]; omega))

theorem acc8_apply (c : Dev nD) (q b : ℕ) (hb : b < 391) (h : 391 * q + b < cfg8.N) (r : Fin 1024) (j : Fin 128) :
    acc8 V c (391 * q + b) h (ix2 r j)
      = ∑ s ∈ Finset.range (b + 1), ∑ e : Fin 4096,
          Spec.oh (dstN8 V c (4096 * s + e.val)) (1024 * q + r.val) * msgN8 V c (4096 * s + e.val) j :=
  fold8_apply (dstN8 V c) (msgN8 V c) (acc8 V c) (fun n hn => iblk8 V c 0 ⟨n, hn⟩) (fun n hn => iblk8 V c 1 ⟨n, hn⟩)
    (fun n hn e => iblk8_dst V c ⟨n, hn⟩ e) (fun n hn e j => iblk8_msg V c ⟨n, hn⟩ e j)
    (fun n hn hz => acc8_first V c ⟨n, hn⟩ hz) (fun n hn hz => acc8_next V c ⟨n + 1, hn⟩ hz) q b hb h r j

def G8 (c : Dev nD) : Buf (Elt Ideal) ((cfg8.win 2).arr.view.loc (c.tc : Thread nD τ)) :=
  (fun i : S100352x128.Idx =>
    Spec.kScatter (fun e => V c (Pipeline.arrRef spec8 0) (ix2 e 0)) (fun e j => V c (Pipeline.arrRef spec8 1) (ix2 e j))
      (i 0) (i 1) : S100352x128.Idx → EReal)

theorem G8_apply (c : Dev nD) (i : S100352x128.Idx) (n : Fin 100352) (j : Fin 128) (h0 : (i 0).val = n.val)
    (h1 : (i 1).val = j.val) :
    G8 V c i = Spec.kScatter (fun e => V c (Pipeline.arrRef spec8 0) (ix2 e 0))
      (fun e j => V c (Pipeline.arrRef spec8 1) (ix2 e j)) n j := by
  have hi : i = ix2 n j := ix_ext_of_val i n j h0 h1
  subst hi
  rfl

theorem read8_blk (c : Dev nD) (t : Fin cfg8.N) (f : Buf (Elt Ideal) ((cfg8.win 2).arr.view.loc (c.tc : Thread nD τ)))
    (y : ((cfg8.win 2).xblock (cfg8.grid.coords t)).Idx) :
    ((cfg8.win 2).blk t).view.read (Elt Ideal) f y = f (((cfg8.win 2).blk t).view.emb y) := by
  rw [View.read_apply]
  rfl

theorem flushed8_eq (c : Dev nD) (t : Fin cfg8.N) (hf : (cfg8.win 2).flush t = true) :
    (dat8 V c).flushed 2 t = ((cfg8.win 2).blk t).view.read (Elt Ideal) (G8 V c) := by
  have hN : cfg8.N = 38318 := N_8
  have ht : t.val < 38318 := hN ▸ t.isLt
  have h390 : t.val % 391 = 390 := (flush8_2 t).mp hf
  have hq : 391 * (t.val / 391) + 390 < cfg8.N := by omega
  have same : ∀ (u : ℕ) (hu : u < cfg8.N), u = t.val → acc8 V c u hu = acc8 V c t.val t.isLt :=
    fun u hu e => by subst e; rfl
  refine funext fun (y : S1024x128.Idx) => ?_
  obtain ⟨r, j, rfl⟩ : ∃ (r : Fin 1024) (j : Fin 128), y = ix2 r j := ⟨y 0, y 1, eq_ix2 y⟩
  rw [read8_blk]
  show acc8 V c t.val t.isLt (ix2 r j) = _
  rw [← same _ hq (by omega)]
  refine (acc8_apply V c (t.val / 391) 390 (by decide) hq r j).trans ?_
  show ∑ s ∈ Finset.range 391, ∑ e : Fin 4096,
      (fun k => Spec.oh (dstN8 V c k) (1024 * (t.val / 391) + r.val) * msgN8 V c k j) (4096 * s + e.val) = _
  rw [sum8_blocks (fun k => Spec.oh (dstN8 V c k) (1024 * (t.val / 391) + r.val) * msgN8 V c k j)]
  have hn : 1024 * (t.val / 391) + r.val < 100352 := by have := r.isLt; omega
  have hG := G8_apply V c (((cfg8.win 2).blk t).view.emb (ix2 r j)) ⟨1024 * (t.val / 391) + r.val, hn⟩ j
    (by show win8_2.index t 0 * 1024 + 1 * r.val = 1024 * (t.val / 391) + r.val
        rw [widx8_2]; omega)
    (by show win8_2.index t 1 * 128 + 1 * j.val = j.val
        rw [show win8_2.index t 1 = 0 from rfl]; omega)
  rw [hG]
  unfold Spec.kScatter
  refine Finset.sum_congr rfl fun E _ => ?_
  show Spec.oh (dstN8 V c E.val) _ * msgN8 V c E.val j = _
  unfold dstN8 msgN8
  rw [dif_pos E.isLt, dif_pos E.isLt]

theorem cover8 (c : Dev nD) (i : ((cfg8.win 2).arr.view.loc (c.tc : Thread nD τ)).2.ty.Idx) :
    ∃ t : Fin cfg8.N, (cfg8.win 2).flush t = true ∧ i ∈ ((cfg8.win 2).blk t).view.set := by
  have hN : cfg8.N = 38318 := N_8
  have h0 : (i 0 : ℕ) < 100352 := (i 0).isLt
  have h1 : (i 1 : ℕ) < 128 := (i 1).isLt
  obtain ⟨T, hT⟩ : ∃ T : Fin cfg8.N, T.val = 391 * ((i 0 : ℕ) / 1024) + 390 := ⟨⟨_, by omega⟩, rfl⟩
  refine ⟨T, (flush8_2 T).mpr (by omega), ?_⟩
  rw [show ((cfg8.win 2).blk T).view.set = (win8_2.rect T).set from View.set_slice_whole _ _, Rect.mem_set_unit]
  intro a
  match a with
  | ⟨0, _⟩ =>
    show win8_2.index T 0 * 1024 ≤ (i 0 : ℕ) ∧ (i 0 : ℕ) < win8_2.index T 0 * 1024 + 1024
    rw [widx8_2]; omega
  | ⟨1, _⟩ =>
    show win8_2.index T 1 * 128 ≤ (i 1 : ℕ) ∧ (i 1 : ℕ) < win8_2.index T 1 * 128 + 128
    rw [show win8_2.index T 1 = 0 from rfl]; omega

theorem arr8_eq (c : Dev nD) : (dat8 V c).arrAt 2 cfg8.N = G8 V c :=
  (dat8 V c).arrAt_eq_of_cover 2 (G8 V c) (flushed8_eq V c) (cover8 c)

theorem final8 (c : Dev nD) (n : Fin 100352) (j : Fin 128) :
    ((dat8 V c).arrAt 2 cfg8.N) (ix2 n j)
      = Spec.kScatter (fun e => V c (Pipeline.arrRef spec8 0) (ix2 e 0))
          (fun e j => V c (Pipeline.arrRef spec8 1) (ix2 e j)) n j := by
  rw [arr8_eq]
  exact G8_apply V c (ix2 n j) n j rfl rfl

end Region

end Cert.KernelIdeal.Hand

end
-- ==== Proof.KI.V9.lean ====
import proofs.«429186_j15229954031644_1_alg».proof.Proof.KI.R9
import proofs.«429186_j15229954031644_1_alg».proof.Proof.Spec
import proofs.«429186_j15229954031644_1_alg».proof.Proof.LibWhole
import Idealize.ShloMosaic.Lib.Pipeline.Value
import Idealize.ShloMosaic.Lib.ValueIdx
import Idealize.ShloMosaic.Lib.ValueLayout
import Idealize.ShloMosaic.Lib.IdealHost

set_option maxRecDepth 16384

open scoped BigOperators

noncomputable section

namespace Cert.KernelIdeal.Hand

open Cert.KernelIdeal Cert.KernelIdeal.Gen Cert.KernelIdeal.GenP
open Idealize.ShloMosaic Idealize.ShloMosaic.TcCoe Idealize.SL.Sem
open Idealize.ShloMosaic.ValueIdx
open Idealize.ShloMosaic.Pipeline (Dat)
open Cert.Whole

theorem lhs9_0 (i : S7168x128.Idx) (q : dot_S7168x128_S128x128_S7168x128_1_0_0_1_n_n.contr.Idx) :
    (dot_S7168x128_S128x128_S7168x128_1_0_0_1_n_n.lhsIdx i q 0).val = (i 0).val := by
  unfold DotDims.lhsIdx
  rw [dif_neg (show ¬(0 : Fin S7168x128.rank) ∈ dot_S7168x128_S128x128_S7168x128_1_0_0_1_n_n.lhsBatch by decide),
    dif_pos (show (0 : Fin S7168x128.rank) ∈ dot_S7168x128_S128x128_S7168x128_1_0_0_1_n_n.lhsNonContracting by decide)]
  rfl
theorem rhs9_1 (i : S7168x128.Idx) (q : dot_S7168x128_S128x128_S7168x128_1_0_0_1_n_n.contr.Idx) :
    (dot_S7168x128_S128x128_S7168x128_1_0_0_1_n_n.rhsIdx i q 1).val = (i 1).val := by
  unfold DotDims.rhsIdx
  rw [dif_neg (show ¬(1 : Fin S128x128.rank) ∈ dot_S7168x128_S128x128_S7168x128_1_0_0_1_n_n.rhsBatch by decide),
    dif_pos (show (1 : Fin S128x128.rank) ∈ dot_S7168x128_S128x128_S7168x128_1_0_0_1_n_n.rhsNonContracting by decide)]
  rfl

theorem dot9_apply (A : FVec Ideal S7168x128 .bf16) (B : FVec Ideal S128x128 .bf16) (p : Fin 7168) (q : Fin 128) :
    matmul dot_S7168x128_S128x128_S7168x128_1_0_0_1_n_n none A B (constant (F := Ideal) S7168x128 .f32 0x00000000#32) (ix2 p q)
      = ∑ k : Fin 128, A (ix2 p k) * B (ix2 k q) := by
  refine (Ideal.matmul_constant_zero_apply dot_S7168x128_S128x128_S7168x128_1_0_0_1_n_n none A B (ix2 p q)).trans ?_
  rw [← Equiv.sum_comp (contrEquiv1 dot_S7168x128_S128x128_S7168x128_1_0_0_1_n_n 128 rfl rfl).symm]
  refine Finset.sum_congr rfl fun k _ => ?_
  have hk := contrEquiv1_symm_val dot_S7168x128_S128x128_S7168x128_1_0_0_1_n_n 128 rfl rfl k
  have el : dot_S7168x128_S128x128_S7168x128_1_0_0_1_n_n.lhsIdx (ix2 p q)
      ((contrEquiv1 dot_S7168x128_S128x128_S7168x128_1_0_0_1_n_n 128 rfl rfl).symm k) = ix2 p k := funext fun a => Fin.ext (by
    match a with
    | ⟨0, _⟩ => exact lhs9_0 _ _
    | ⟨1, _⟩ => exact (dot_S7168x128_S128x128_S7168x128_1_0_0_1_n_n.lhsIdx_val_of_single rfl _ _).trans hk)
  have er : dot_S7168x128_S128x128_S7168x128_1_0_0_1_n_n.rhsIdx (ix2 p q)
      ((contrEquiv1 dot_S7168x128_S128x128_S7168x128_1_0_0_1_n_n 128 rfl rfl).symm k) = ix2 k q := funext fun a => Fin.ext (by
    match a with
    | ⟨0, _⟩ => exact (dot_S7168x128_S128x128_S7168x128_1_0_0_1_n_n.rhsIdx_val_of_single rfl _ _).trans hk
    | ⟨1, _⟩ => exact rhs9_1 _ _)
  rw [el, er]

theorem bcast9_e (v : FVec Ideal S1x1 .f32) (p : Fin 7168) (q : Fin 128) :
    broadcastTo S7168x128 v broadcasts_S1x1_S7168x128 (ix2 p q) = v (ix2 0 0) :=
  broadcastTo_apply v broadcasts_S1x1_S7168x128 (ix2 p q) (ix2 0 0) (fun a => by match a with | ⟨0, _⟩ => rfl | ⟨1, _⟩ => rfl)

theorem bcast9_b (v : FVec Ideal S1x128 .f32) (p : Fin 7168) (q : Fin 128) :
    broadcastTo S7168x128 v broadcasts_S1x128_S7168x128 (ix2 p q) = v (ix2 0 q) :=
  broadcastTo_1b_ab_apply v broadcasts_S1x128_S7168x128 p q

theorem pay9_apply (xh xa : FVec Ideal S7168x128 .bf16) (xe : FVec Ideal S1x1 .f32) (xw : FVec Ideal S128x128 .f32)
    (xb : FVec Ideal S1x128 .f32) (p : Fin 7168) (q : Fin 128) :
    k9_pay1 (F := Ideal) xh xa xe xw xb (ix2 p q)
      = max ((∑ k : Fin 128, ((1 + xe (ix2 0 0)) * xh (ix2 p k) + xa (ix2 p k)) * xw (ix2 k q)) + xb (ix2 0 q)) 0 + xh (ix2 p q) := by
  unfold k9_pay1
  simp only [shapeCast_self, truncf_apply, extf_apply, addf_apply, mulf_apply, maximumf_apply, broadcast_apply,
    dot9_apply, bcast9_b, bcast9_e]
  show max ((∑ k : Fin 128, ((Ideal.ofBits .f32 0x3F800000#32 + xe (ix2 0 0)) * xh (ix2 p k) + xa (ix2 p k)) * xw (ix2 k q))
      + xb (ix2 0 q)) (Ideal.ofBits .f32 0x00000000#32) + xh (ix2 p q) = _
  rw [Ideal.ofBits_zero_f32, Ideal.ofBits_one_f32]

variable (V : (c : Dev nD) → (b : Ref sig .tc) → Buf (Elt Ideal) ((c : Thread nD τ).loc b))

abbrev harr9 (c : Dev nD) : FVec Ideal S100352x128 .bf16 := V c (Pipeline.arrRef spec9 0)
abbrev aarr9 (c : Dev nD) : FVec Ideal S100352x128 .bf16 := V c (Pipeline.arrRef spec9 1)
abbrev earr9 (c : Dev nD) : FVec Ideal S1x1 .f32 := V c (Pipeline.arrRef spec9 2)
abbrev warr9 (c : Dev nD) : FVec Ideal S128x128 .f32 := V c (Pipeline.arrRef spec9 3)
abbrev barr9 (c : Dev nD) : FVec Ideal S1x128 .f32 := V c (Pipeline.arrRef spec9 4)
abbrev hblk9 (c : Dev nD) (t : Fin cfg9.N) : FVec Ideal S7168x128 .bf16 := iblk9 V c 0 t
abbrev ablk9 (c : Dev nD) (t : Fin cfg9.N) : FVec Ideal S7168x128 .bf16 := iblk9 V c 1 t
abbrev eblk9 (c : Dev nD) (t : Fin cfg9.N) : FVec Ideal S1x1 .f32 := iblk9 V c 2 t
abbrev wblk9 (c : Dev nD) (t : Fin cfg9.N) : FVec Ideal S128x128 .f32 := iblk9 V c 3 t
abbrev bblk9 (c : Dev nD) (t : Fin cfg9.N) : FVec Ideal S1x128 .f32 := iblk9 V c 4 t

def G9 (c : Dev nD) : FVec Ideal S100352x128 .bf16 := fun i =>
  Spec.combine (R := 100352) (fun n k => harr9 V c (ix2 n k)) (fun n k => aarr9 V c (ix2 n k)) (earr9 V c (ix2 0 0))
    (fun k j => warr9 V c (ix2 k j)) (fun j => barr9 V c (ix2 0 j)) (i 0) (i 1)

theorem G9_apply (c : Dev nD) (r : Fin 100352) (q : Fin 128) :
    G9 V c (ix2 r q) = max ((∑ k : Fin 128, ((1 + earr9 V c (ix2 0 0)) * harr9 V c (ix2 r k) + aarr9 V c (ix2 r k)) * warr9 V c (ix2 k q))
      + barr9 V c (ix2 0 q)) 0 + harr9 V c (ix2 r q) := rfl

theorem idx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

theorem hblk9_apply (c : Dev nD) (t : Fin cfg9.N) (p : Fin 7168) (k : Fin 128) (r : Fin 100352) (hr : r.val = t.val * 7168 + p.val) :
    hblk9 V c t (ix2 p k) = harr9 V c (ix2 r k) := by
  obtain ⟨e0, e1, -⟩ := idx9 t
  exact congrArg (harr9 V c) (ix_ext_of_val _ r k
    (by show win9_0.index t (0 : Fin 2) * 7168 + 1 * p.val = r.val; omega)
    (by show win9_0.index t (1 : Fin 2) * 128 + 1 * k.val = k.val; omega))

theorem ablk9_apply (c : Dev nD) (t : Fin cfg9.N) (p : Fin 7168) (k : Fin 128) (r : Fin 100352) (hr : r.val = t.val * 7168 + p.val) :
    ablk9 V c t (ix2 p k) = aarr9 V c (ix2 r k) := by
  obtain ⟨-, -, e0, e1, -⟩ := idx9 t
  exact congrArg (aarr9 V c) (ix_ext_of_val _ r k
    (by show win9_1.index t (0 : Fin 2) * 7168 + 1 * p.val = r.val; omega)
    (by show win9_1.index t (1 : Fin 2) * 128 + 1 * k.val = k.val; omega))

theorem eblk9_apply (c : Dev nD) (t : Fin cfg9.N) : eblk9 V c t (ix2 0 0) = earr9 V c (ix2 0 0) := by
  obtain ⟨-, -, -, -, e0, e1, -⟩ := idx9 t
  exact congrArg (earr9 V c) (ix_ext_of_val _ 0 0
    (by show win9_2.index t (0 : Fin 2) * 1 + 1 * 0 = 0; omega)
    (by show win9_2.index t (1 : Fin 2) * 1 + 1 * 0 = 0; omega))

theorem wblk9_apply (c : Dev nD) (t : Fin cfg9.N) (k q : Fin 128) : wblk9 V c t (ix2 k q) = warr9 V c (ix2 k q) := by
  obtain ⟨-, -, -, -, -, -, e0, e1, -⟩ := idx9 t
  exact congrArg (warr9 V c) (ix_ext_of_val _ k q
    (by show win9_3.index t (0 : Fin 2) * 128 + 1 * k.val = k.val; omega)
    (by show win9_3.index t (1 : Fin 2) * 128 + 1 * q.val = q.val; omega))

theorem bblk9_apply (c : Dev nD) (t : Fin cfg9.N) (q : Fin 128) : bblk9 V c t (ix2 0 q) = barr9 V c (ix2 0 q) := by
  obtain ⟨-, -, -, -, -, -, -, -, e0, e1, -⟩ := idx9 t
  exact congrArg (barr9 V c) (ix_ext_of_val _ 0 q
    (by show win9_4.index t (0 : Fin 2) * 1 + 1 * 0 = 0; omega)
    (by show win9_4.index t (1 : Fin 2) * 128 + 1 * q.val = q.val; omega))

theorem flushed9_eq (c : Dev nD) (t : Fin cfg9.N) :
    (dat9 V c).flushed 5 t = ((cfg9.win 5).blk t).view.read (Elt Ideal) (G9 V c) := by
  show (cfg9.win 5).cut (grid9.coords t) ((dat9 V c).after 5 t) = _
  rw [after_out9]
  unfold out9
  rw [View.canon_unit_zero hz2]
  simp only [View.ld_unit_zero (S := S7168x128) hz2, View.ld_unit_zero (S := S1x1) hz2,
    View.ld_unit_zero (S := S128x128) hz2, View.ld_unit_zero (S := S1x128) hz2]
  obtain ⟨-, -, -, -, -, -, -, -, -, -, e0, e1⟩ := idx9 t
  funext y
  obtain ⟨p, q, rfl⟩ : ∃ (p : Fin 7168) (q : Fin 128), y = ix2 p q := ⟨y 0, y 1, eq_ix2 y⟩
  have ht : t.val < 14 := Nat.lt_of_lt_of_eq t.isLt N_9
  have hrow : ∃ r : Fin 100352, r.val = t.val * 7168 + p.val := ⟨⟨t.val * 7168 + p.val, by have := p.isLt; omega⟩, rfl⟩
  obtain ⟨r, hr⟩ := hrow
  have hemb : ((cfg9.win 5).blk t).view.emb (ix2 p q) = ix2 r q := ix_ext_of_val _ r q
    (by show win9_5.index t (0 : Fin 2) * 7168 + 1 * p.val = r.val; omega)
    (by show win9_5.index t (1 : Fin 2) * 128 + 1 * q.val = q.val; omega)
  show k9_pay1 (F := Ideal) (hblk9 V c t) (ablk9 V c t) (eblk9 V c t) (wblk9 V c t) (bblk9 V c t) (ix2 p q)
    = G9 V c (((cfg9.win 5).blk t).view.emb (ix2 p q))
  rw [hemb]
  refine (pay9_apply (hblk9 V c t) (ablk9 V c t) (eblk9 V c t) (wblk9 V c t) (bblk9 V c t) p q).trans ?_
  have hS : (∑ k : Fin 128, ((1 + eblk9 V c t (ix2 0 0)) * hblk9 V c t (ix2 p k) + ablk9 V c t (ix2 p k)) * wblk9 V c t (ix2 k q))
      = ∑ k : Fin 128, ((1 + earr9 V c (ix2 0 0)) * harr9 V c (ix2 r k) + aarr9 V c (ix2 r k)) * warr9 V c (ix2 k q) :=
    Finset.sum_congr rfl fun k _ => by
      rw [eblk9_apply V c t, hblk9_apply V c t p k r hr, ablk9_apply V c t p k r hr, wblk9_apply V c t k q]
  rw [hS, bblk9_apply V c t q, hblk9_apply V c t p q r hr]
  exact (G9_apply V c r q).symm

theorem cover9_arr (i : S100352x128.Idx) :
    ∃ t : Fin cfg9.N, (cfg9.win 5).flush t = true ∧ i ∈ ((cfg9.win 5).blk t).view.set := by
  have hi0 : (i 0).val < 100352 := (i 0).isLt
  have hi1 : (i 1).val < 128 := (i 1).isLt
  have hlt : (i 0).val / 7168 < cfg9.N := Nat.lt_of_lt_of_eq (show (i 0).val / 7168 < 14 by omega) N_9.symm
  obtain ⟨t, ht⟩ : ∃ t : Fin cfg9.N, t.val = (i 0).val / 7168 := ⟨⟨_, hlt⟩, rfl⟩
  refine ⟨t, flush9_5 t, ?_⟩
  obtain ⟨-, -, -, -, -, -, -, -, -, -, e0, e1⟩ := idx9 t
  have hemb : ((cfg9.win 5).blk t).view.emb (ix2 (⟨(i 0).val % 7168, Nat.mod_lt _ (by decide)⟩ : Fin 7168) (⟨(i 1).val, hi1⟩ : Fin 128)) = i :=
    funext fun a => Fin.ext (by
      match a with
      | ⟨0, _⟩ => show win9_5.index t (0 : Fin 2) * 7168 + 1 * ((i 0).val % 7168) = (i 0).val; omega
      | ⟨1, _⟩ => show win9_5.index t (1 : Fin 2) * 128 + 1 * (i 1).val = (i 1).val; omega)
  rw [← hemb]
  exact View.emb_mem_set _ _

theorem final9 (c : Dev nD) (n : Fin 100352) (j : Fin 128) :
    ((dat9 V c).arrAt 5 cfg9.N) (ix2 n j)
      = Spec.combine (R := 100352) (fun n k => harr9 V c (ix2 n k)) (fun n k => aarr9 V c (ix2 n k)) (earr9 V c (ix2 0 0))
          (fun k j => warr9 V c (ix2 k j)) (fun j => barr9 V c (ix2 0 j)) n j :=
  congrFun ((dat9 V c).arrAt_eq_of_cover 5 (G9 V c) (fun t _ => flushed9_eq V c t) (cover9_arr)) (ix2 n j)

end Cert.KernelIdeal.Hand
-- ==== Proof.KI.ChainLayers.lean ====
import proofs.«429186_j15229954031644_1_alg».proof.Proof.KI.Run
import proofs.«429186_j15229954031644_1_alg».proof.Proof.KI.ChainArgs
import proofs.«429186_j15229954031644_1_alg».proof.Proof.KI.ChainHost
import proofs.«429186_j15229954031644_1_alg».proof.Proof.KI.V0
import proofs.«429186_j15229954031644_1_alg».proof.Proof.KI.V1
import proofs.«429186_j15229954031644_1_alg».proof.Proof.KI.V2
import proofs.«429186_j15229954031644_1_alg».proof.Proof.KI.V3
import proofs.«429186_j15229954031644_1_alg».proof.Proof.KI.V4
import proofs.«429186_j15229954031644_1_alg».proof.Proof.KI.V5
import proofs.«429186_j15229954031644_1_alg».proof.Proof.KI.V6
import proofs.«429186_j15229954031644_1_alg».proof.Proof.KI.V7
import proofs.«429186_j15229954031644_1_alg».proof.Proof.KI.V8
import proofs.«429186_j15229954031644_1_alg».proof.Proof.KI.V9

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

theorem W9_v0 (c : Dev nD) (n : Fin 100352) (k : Fin 13) :
    (W9 m ρ c (Proc.devRef .tc main_v0) : S100352x13.Idx → EReal) (ix2 n k) = Spec.padX (kArgs m c).x n k :=
  Hs9_v0 (W0 m ρ c) n k

theorem W9_v6 (c : Dev nD) (e : Fin 1601536) (u : Fin 1) :
    (W9 m ρ c (Proc.devRef .tc main_v6) : S1601536x1.Idx → BitVec 32) (ix2 e u) = Spec.padW (kArgs m c).srcW e :=
  Hs9_v6 (W0 m ρ c) e u

theorem W9_v8 (c : Dev nD) (e : Fin 1601536) (u : Fin 1) :
    (W9 m ρ c (Proc.devRef .tc main_v8) : S1601536x1.Idx → BitVec 32) (ix2 e u) = Spec.padW (kArgs m c).dstW e :=
  Hs9_v8 (W0 m ρ c) e u

theorem W9_v10 (c : Dev nD) (e : Fin 1601536) (u : Fin 1) :
    (W9 m ρ c (Proc.devRef .tc main_v10) : S1601536x1.Idx → EReal) (ix2 e u) = Spec.padD (kArgs m c).ed e :=
  Hs9_v10 (W0 m ρ c) e u

theorem W9_v12 (c : Dev nD) (u : Fin 1) (j : Fin 128) :
    (W9 m ρ c (Proc.devRef .tc main_v12) : S1x128.Idx → EReal) (ix2 u j) = (kArgs m c).bn j :=
  Hs9_v12 (W0 m ρ c) u j

theorem W9_v13 (c : Dev nD) (u : Fin 1) (j : Fin 128) :
    (W9 m ρ c (Proc.devRef .tc main_v13) : S1x128.Idx → EReal) (ix2 u j) = (kArgs m c).be j :=
  Hs9_v13 (W0 m ρ c) u j

theorem W9_v14 (c : Dev nD) (l : Fin 3) (u u' : Fin 1) :
    (W9 m ρ c (Proc.devRef .tc main_v14) : S3x1x1.Idx → EReal) (ix3 l u u') = (kArgs m c).eps l :=
  Hs9_v14 (W0 m ρ c) l u u'

theorem W9_v15 (c : Dev nD) (l : Fin 3) (u : Fin 1) (j : Fin 128) :
    (W9 m ρ c (Proc.devRef .tc main_v15) : S3x1x128.Idx → EReal) (ix3 l u j) = (kArgs m c).convb l j :=
  Hs9_v15 (W0 m ρ c) l u j

theorem W9_arg4_keep (c : Dev nD) :
    W9 m ρ c (Proc.devRef .tc main_arg4) = W0 m ρ c (Proc.devRef .tc main_arg4) :=
  W9_arg m ρ c (by decide)
theorem W10_arg6_keep (c : Dev nD) :
    W10 m ρ c (Proc.devRef .tc main_arg6) = W0 m ρ c (Proc.devRef .tc main_arg6) :=
  W10_arg m ρ c (by decide)
theorem W14_arg6_keep (c : Dev nD) :
    W14 m ρ c (Proc.devRef .tc main_arg6) = W0 m ρ c (Proc.devRef .tc main_arg6) :=
  W14_arg m ρ c (by decide)
theorem W18_arg6_keep (c : Dev nD) :
    W18 m ρ c (Proc.devRef .tc main_arg6) = W0 m ρ c (Proc.devRef .tc main_arg6) :=
  W18_arg m ρ c (by decide)
theorem W12_arg8_keep (c : Dev nD) :
    W12 m ρ c (Proc.devRef .tc main_arg8) = W0 m ρ c (Proc.devRef .tc main_arg8) :=
  W12_arg m ρ c (by decide)
theorem W16_arg8_keep (c : Dev nD) :
    W16 m ρ c (Proc.devRef .tc main_arg8) = W0 m ρ c (Proc.devRef .tc main_arg8) :=
  W16_arg m ρ c (by decide)
theorem W20_arg8_keep (c : Dev nD) :
    W20 m ρ c (Proc.devRef .tc main_arg8) = W0 m ρ c (Proc.devRef .tc main_arg8) :=
  W20_arg m ρ c (by decide)
theorem W10_v6_keep (c : Dev nD) :
    W10 m ρ c (Proc.devRef .tc main_v6) = W9 m ρ c (Proc.devRef .tc main_v6) :=
  W10_keep m ρ c _ (by decide)
theorem W14_v6_keep (c : Dev nD) :
    W14 m ρ c (Proc.devRef .tc main_v6) = W9 m ρ c (Proc.devRef .tc main_v6) :=
  (W14_keep m ρ c _ (by decide)).trans <| (keep3 (W12 m ρ c) _ (by decide)).trans <| (W12_keep m ρ c _ (by decide)).trans <| (W11_keep m ρ c _ (by decide)).trans <| W10_v6_keep m ρ c
theorem W18_v6_keep (c : Dev nD) :
    W18 m ρ c (Proc.devRef .tc main_v6) = W9 m ρ c (Proc.devRef .tc main_v6) :=
  (W18_keep m ρ c _ (by decide)).trans <| (keep6 (W16 m ρ c) _ (by decide)).trans <| (W16_keep m ρ c _ (by decide)).trans <| (W15_keep m ρ c _ (by decide)).trans <| W14_v6_keep m ρ c
theorem W10_v10_keep (c : Dev nD) :
    W10 m ρ c (Proc.devRef .tc main_v10) = W9 m ρ c (Proc.devRef .tc main_v10) :=
  W10_keep m ρ c _ (by decide)
theorem W14_v10_keep (c : Dev nD) :
    W14 m ρ c (Proc.devRef .tc main_v10) = W9 m ρ c (Proc.devRef .tc main_v10) :=
  (W14_keep m ρ c _ (by decide)).trans <| (keep3 (W12 m ρ c) _ (by decide)).trans <| (W12_keep m ρ c _ (by decide)).trans <| (W11_keep m ρ c _ (by decide)).trans <| W10_v10_keep m ρ c
theorem W18_v10_keep (c : Dev nD) :
    W18 m ρ c (Proc.devRef .tc main_v10) = W9 m ρ c (Proc.devRef .tc main_v10) :=
  (W18_keep m ρ c _ (by decide)).trans <| (keep6 (W16 m ρ c) _ (by decide)).trans <| (W16_keep m ρ c _ (by decide)).trans <| (W15_keep m ρ c _ (by decide)).trans <| W14_v10_keep m ρ c
theorem W10_v13_keep (c : Dev nD) :
    W10 m ρ c (Proc.devRef .tc main_v13) = W9 m ρ c (Proc.devRef .tc main_v13) :=
  W10_keep m ρ c _ (by decide)
theorem W14_v13_keep (c : Dev nD) :
    W14 m ρ c (Proc.devRef .tc main_v13) = W9 m ρ c (Proc.devRef .tc main_v13) :=
  (W14_keep m ρ c _ (by decide)).trans <| (keep3 (W12 m ρ c) _ (by decide)).trans <| (W12_keep m ρ c _ (by decide)).trans <| (W11_keep m ρ c _ (by decide)).trans <| W10_v13_keep m ρ c
theorem W18_v13_keep (c : Dev nD) :
    W18 m ρ c (Proc.devRef .tc main_v13) = W9 m ρ c (Proc.devRef .tc main_v13) :=
  (W18_keep m ρ c _ (by decide)).trans <| (keep6 (W16 m ρ c) _ (by decide)).trans <| (W16_keep m ρ c _ (by decide)).trans <| (W15_keep m ρ c _ (by decide)).trans <| W14_v13_keep m ρ c
theorem W11_v8_keep (c : Dev nD) :
    W11 m ρ c (Proc.devRef .tc main_v8) = W9 m ρ c (Proc.devRef .tc main_v8) :=
  (W11_keep m ρ c _ (by decide)).trans <| W10_keep m ρ c _ (by decide)
theorem W15_v8_keep (c : Dev nD) :
    W15 m ρ c (Proc.devRef .tc main_v8) = W9 m ρ c (Proc.devRef .tc main_v8) :=
  (W15_keep m ρ c _ (by decide)).trans <| (W14_keep m ρ c _ (by decide)).trans <| (keep3 (W12 m ρ c) _ (by decide)).trans <| (W12_keep m ρ c _ (by decide)).trans <| W11_v8_keep m ρ c
theorem W19_v8_keep (c : Dev nD) :
    W19 m ρ c (Proc.devRef .tc main_v8) = W9 m ρ c (Proc.devRef .tc main_v8) :=
  (W19_keep m ρ c _ (by decide)).trans <| (W18_keep m ρ c _ (by decide)).trans <| (keep6 (W16 m ρ c) _ (by decide)).trans <| (W16_keep m ρ c _ (by decide)).trans <| W15_v8_keep m ρ c
theorem W12_v14_keep (c : Dev nD) :
    W12 m ρ c (Proc.devRef .tc main_v14) = W9 m ρ c (Proc.devRef .tc main_v14) :=
  (W12_keep m ρ c _ (by decide)).trans <| (W11_keep m ρ c _ (by decide)).trans <| W10_keep m ρ c _ (by decide)
theorem W16_v14_keep (c : Dev nD) :
    W16 m ρ c (Proc.devRef .tc main_v14) = W9 m ρ c (Proc.devRef .tc main_v14) :=
  (W16_keep m ρ c _ (by decide)).trans <| (W15_keep m ρ c _ (by decide)).trans <| (W14_keep m ρ c _ (by decide)).trans <| (keep3 (W12 m ρ c) _ (by decide)).trans <| W12_v14_keep m ρ c
theorem W20_v14_keep (c : Dev nD) :
    W20 m ρ c (Proc.devRef .tc main_v14) = W9 m ρ c (Proc.devRef .tc main_v14) :=
  (W20_keep m ρ c _ (by decide)).trans <| (W19_keep m ρ c _ (by decide)).trans <| (W18_keep m ρ c _ (by decide)).trans <| (keep6 (W16 m ρ c) _ (by decide)).trans <| W16_v14_keep m ρ c
theorem W12_v15_keep (c : Dev nD) :
    W12 m ρ c (Proc.devRef .tc main_v15) = W9 m ρ c (Proc.devRef .tc main_v15) :=
  (W12_keep m ρ c _ (by decide)).trans <| (W11_keep m ρ c _ (by decide)).trans <| W10_keep m ρ c _ (by decide)
theorem W16_v15_keep (c : Dev nD) :
    W16 m ρ c (Proc.devRef .tc main_v15) = W9 m ρ c (Proc.devRef .tc main_v15) :=
  (W16_keep m ρ c _ (by decide)).trans <| (W15_keep m ρ c _ (by decide)).trans <| (W14_keep m ρ c _ (by decide)).trans <| (keep3 (W12 m ρ c) _ (by decide)).trans <| W12_v15_keep m ρ c
theorem W20_v15_keep (c : Dev nD) :
    W20 m ρ c (Proc.devRef .tc main_v15) = W9 m ρ c (Proc.devRef .tc main_v15) :=
  (W20_keep m ρ c _ (by decide)).trans <| (W19_keep m ρ c _ (by decide)).trans <| (W18_keep m ρ c _ (by decide)).trans <| (keep6 (W16 m ρ c) _ (by decide)).trans <| W16_v15_keep m ρ c
theorem W13_v16_keep (c : Dev nD) :
    W13 m ρ c (Proc.devRef .tc main_v16) = W10 m ρ c (Proc.devRef .tc main_v16) :=
  (keep3 (W12 m ρ c) _ (by decide)).trans <| (W12_keep m ρ c _ (by decide)).trans <| W11_keep m ρ c _ (by decide)
theorem W13_v18_keep (c : Dev nD) :
    W13 m ρ c (Proc.devRef .tc main_v18) = W12 m ρ c (Proc.devRef .tc main_v18) :=
  keep3 (W12 m ρ c) _ (by decide)
theorem W17_v25_keep (c : Dev nD) :
    W17 m ρ c (Proc.devRef .tc main_v25) = W14 m ρ c (Proc.devRef .tc main_v25) :=
  (keep6 (W16 m ρ c) _ (by decide)).trans <| (W16_keep m ρ c _ (by decide)).trans <| W15_keep m ρ c _ (by decide)
theorem W17_v27_keep (c : Dev nD) :
    W17 m ρ c (Proc.devRef .tc main_v27) = W16 m ρ c (Proc.devRef .tc main_v27) :=
  keep6 (W16 m ρ c) _ (by decide)
theorem W21_v34_keep (c : Dev nD) :
    W21 m ρ c (Proc.devRef .tc main_v34) = W18 m ρ c (Proc.devRef .tc main_v34) :=
  (keep9 (W20 m ρ c) _ (by decide)).trans <| (W20_keep m ρ c _ (by decide)).trans <| W19_keep m ρ c _ (by decide)
theorem W21_v36_keep (c : Dev nD) :
    W21 m ρ c (Proc.devRef .tc main_v36) = W20 m ρ c (Proc.devRef .tc main_v36) :=
  keep9 (W20 m ρ c) _ (by decide)

theorem kInit_congr {R : Nat} {x x' : Fin R → Fin 13 → EReal} {W W' : Fin 13 → Fin 128 → EReal} {b b' : Fin 128 → EReal}
    (hx : x = x') (hW : W = W') (hb : b = b') : Spec.kInit x W b = Spec.kInit x' W' b' := by
  subst hx hW hb; rfl
theorem kGather_congr {s s' : Fin 1601536 → BitVec 32} {h h' : Fin 100352 → Fin 128 → EReal} {d d' : Fin 1601536 → EReal}
    {We We' be be' : Fin 128 → EReal} (hs : s = s') (hh : h = h') (hd : d = d') (hWe : We = We') (hbe : be = be') :
    Spec.kGather s h d We be = Spec.kGather s' h' d' We' be' := by
  subst hs hh hd hWe hbe; rfl
theorem kScatter_congr {s s' : Fin 1601536 → BitVec 32} {g g' : Fin 1601536 → Fin 128 → EReal} (hs : s = s') (hg : g = g') :
    Spec.kScatter s g = Spec.kScatter s' g' := by
  subst hs hg; rfl
theorem combine_congr {R : Nat} {h h' a a' : Fin R → Fin 128 → EReal} {e e' : EReal} {W W' : Fin 128 → Fin 128 → EReal}
    {b b' : Fin 128 → EReal} (hh : h = h') (ha : a = a') (he : e = e') (hW : W = W') (hb : b = b') :
    Spec.combine h a e W b = Spec.combine h' a' e' W' b' := by
  subst hh ha he hW hb; rfl

theorem kH0_def (a : Spec.Args) : Spec.kH0 a = Spec.kInit (Spec.padX a.x) a.Wn a.bn := rfl
theorem kH1_def (a : Spec.Args) : Spec.kH1 a = Spec.combine (Spec.kH0 a) (Spec.kScatter (Spec.padW a.dstW)
    (Spec.kGather (Spec.padW a.srcW) (Spec.kH0 a) (Spec.padD a.ed) a.We a.be)) (a.eps 0) (a.convW 0) (a.convb 0) := rfl
theorem kH2_def (a : Spec.Args) : Spec.kH2 a = Spec.combine (Spec.kH1 a) (Spec.kScatter (Spec.padW a.dstW)
    (Spec.kGather (Spec.padW a.srcW) (Spec.kH1 a) (Spec.padD a.ed) a.We a.be)) (a.eps 1) (a.convW 1) (a.convb 1) := rfl
theorem kH3_def (a : Spec.Args) : Spec.kH3 a = Spec.combine (Spec.kH2 a) (Spec.kScatter (Spec.padW a.dstW)
    (Spec.kGather (Spec.padW a.srcW) (Spec.kH2 a) (Spec.padD a.ed) a.We a.be)) (a.eps 2) (a.convW 2) (a.convb 2) := rfl

theorem h0_eq (c : Dev nD) (n : Fin 100352) (j : Fin 128) :
    (W10 m ρ c (Proc.devRef .tc main_v16) : S100352x128.Idx → EReal) (ix2 n j) = Spec.kH0 (kArgs m c) n j := by
  have e : (W10 m ρ c (Proc.devRef .tc main_v16) : S100352x128.Idx → EReal) = (dat0 (En9 m ρ) c).arrAt 3 cfg0.N :=
    W10_arr m ρ c 3
  have hx : (fun (n : Fin 100352) (k : Fin 13) => En9 m ρ c (Pipeline.arrRef spec0 0) (ix2 n k)) = Spec.padX (kArgs m c).x :=
    funext fun n => funext fun k => W9_v0 m ρ c n k
  have hW : (fun (k : Fin 13) (j : Fin 128) => En9 m ρ c (Pipeline.arrRef spec0 1) (ix2 k j)) = (kArgs m c).Wn :=
    funext fun k => funext fun j => congrFun (W9_arg4_keep m ρ c) (ix2 k j)
  have hb : (fun (j : Fin 128) => En9 m ρ c (Pipeline.arrRef spec0 2) (ix2 0 j)) = (kArgs m c).bn :=
    funext fun j => W9_v12 m ρ c 0 j
  have key := kInit_congr hx hW hb
  exact (congrFun e (ix2 n j)).trans ((final0 (En9 m ρ) c n j).trans
    ((congrFun (congrFun key n) j).trans (congrFun (congrFun (kH0_def (kArgs m c)).symm n) j)))

theorem msg0_eq (c : Dev nD) (e : Fin 1601536) (j : Fin 128) :
    (W11 m ρ c (Proc.devRef .tc main_v17) : S1601536x128.Idx → EReal) (ix2 e j)
      = Spec.kGather (Spec.padW (kArgs m c).srcW) (Spec.kH0 (kArgs m c)) (Spec.padD (kArgs m c).ed) (kArgs m c).We (kArgs m c).be e j := by
  have e0 : (W11 m ρ c (Proc.devRef .tc main_v17) : S1601536x128.Idx → EReal) = (dat1 (En10 m ρ) c).arrAt 5 cfg1.N :=
    W11_arr m ρ c 5
  have hs : (fun (e : Fin 1601536) => En10 m ρ c (Pipeline.arrRef spec1 0) (ix2 e 0)) = Spec.padW (kArgs m c).srcW :=
    funext fun e => (congrFun (W10_v6_keep m ρ c) (ix2 e 0)).trans (W9_v6 m ρ c e 0)
  have hd : (fun (e : Fin 1601536) => En10 m ρ c (Pipeline.arrRef spec1 1) (ix2 e 0)) = Spec.padD (kArgs m c).ed :=
    funext fun e => (congrFun (W10_v10_keep m ρ c) (ix2 e 0)).trans (W9_v10 m ρ c e 0)
  have hh : (fun (n : Fin 100352) (j : Fin 128) => En10 m ρ c (Pipeline.arrRef spec1 2) (ix2 n j)) = Spec.kH0 (kArgs m c) :=
    funext fun n => funext fun j => h0_eq m ρ c n j
  have hWe : (fun (j : Fin 128) => En10 m ρ c (Pipeline.arrRef spec1 3) (ix2 0 j)) = (kArgs m c).We :=
    funext fun j => congrFun (W10_arg6_keep m ρ c) (ix2 0 j)
  have hbe : (fun (j : Fin 128) => En10 m ρ c (Pipeline.arrRef spec1 4) (ix2 0 j)) = (kArgs m c).be :=
    funext fun j => (congrFun (W10_v13_keep m ρ c) (ix2 0 j)).trans (W9_v13 m ρ c 0 j)
  have key := kGather_congr hs hh hd hWe hbe
  exact (congrFun e0 (ix2 e j)).trans ((final1 (En10 m ρ) c e j).trans (congrFun (congrFun key e) j))

theorem agg0_eq (c : Dev nD) (n : Fin 100352) (j : Fin 128) :
    (W12 m ρ c (Proc.devRef .tc main_v18) : S100352x128.Idx → EReal) (ix2 n j)
      = Spec.kScatter (Spec.padW (kArgs m c).dstW)
          (Spec.kGather (Spec.padW (kArgs m c).srcW) (Spec.kH0 (kArgs m c)) (Spec.padD (kArgs m c).ed) (kArgs m c).We (kArgs m c).be) n j := by
  have e0 : (W12 m ρ c (Proc.devRef .tc main_v18) : S100352x128.Idx → EReal) = (dat2 (En11 m ρ) c).arrAt 2 cfg2.N :=
    W12_arr m ρ c 2
  have hd : (fun (e : Fin 1601536) => En11 m ρ c (Pipeline.arrRef spec2 0) (ix2 e 0)) = Spec.padW (kArgs m c).dstW :=
    funext fun e => (congrFun (W11_v8_keep m ρ c) (ix2 e 0)).trans (W9_v8 m ρ c e 0)
  have hm : (fun (e : Fin 1601536) (j : Fin 128) => En11 m ρ c (Pipeline.arrRef spec2 1) (ix2 e j))
      = Spec.kGather (Spec.padW (kArgs m c).srcW) (Spec.kH0 (kArgs m c)) (Spec.padD (kArgs m c).ed) (kArgs m c).We (kArgs m c).be :=
    funext fun e => funext fun j => msg0_eq m ρ c e j
  have key := kScatter_congr hd hm
  exact (congrFun e0 (ix2 n j)).trans ((final2 (En11 m ρ) c n j).trans (congrFun (congrFun key n) j))

theorem h1_eq (c : Dev nD) (n : Fin 100352) (j : Fin 128) :
    (W14 m ρ c (Proc.devRef .tc main_v25) : S100352x128.Idx → EReal) (ix2 n j) = Spec.kH1 (kArgs m c) n j := by
  have e0 : (W14 m ρ c (Proc.devRef .tc main_v25) : S100352x128.Idx → EReal) = (dat3 (En13 m ρ) c).arrAt 5 cfg3.N :=
    W14_arr m ρ c 5
  have hh : (fun (n : Fin 100352) (j : Fin 128) => En13 m ρ c (Pipeline.arrRef spec3 0) (ix2 n j)) = Spec.kH0 (kArgs m c) :=
    funext fun n => funext fun j => (congrFun (W13_v16_keep m ρ c) (ix2 n j)).trans (h0_eq m ρ c n j)
  have ha : (fun (n : Fin 100352) (j : Fin 128) => En13 m ρ c (Pipeline.arrRef spec3 1) (ix2 n j))
      = Spec.kScatter (Spec.padW (kArgs m c).dstW)
          (Spec.kGather (Spec.padW (kArgs m c).srcW) (Spec.kH0 (kArgs m c)) (Spec.padD (kArgs m c).ed) (kArgs m c).We (kArgs m c).be) :=
    funext fun n => funext fun j => (congrFun (W13_v18_keep m ρ c) (ix2 n j)).trans (agg0_eq m ρ c n j)
  have he : En13 m ρ c (Pipeline.arrRef spec3 2) (ix2 0 0) = (kArgs m c).eps 0 :=
    (after3_v20 (W12 m ρ c) 0 0).trans
      ((congrFun (W12_v14_keep m ρ c) (ix3 (0 : Fin 3) (0 : Fin 1) (0 : Fin 1))).trans (W9_v14 m ρ c 0 0 0))
  have hW : (fun (k j : Fin 128) => En13 m ρ c (Pipeline.arrRef spec3 3) (ix2 k j)) = (kArgs m c).convW 0 :=
    funext fun k => funext fun j => (after3_v22 (W12 m ρ c) k j).trans
      (congrFun (W12_arg8_keep m ρ c) (ix3 (0 : Fin 3) k j))
  have hb : (fun (j : Fin 128) => En13 m ρ c (Pipeline.arrRef spec3 4) (ix2 0 j)) = (kArgs m c).convb 0 :=
    funext fun j => (after3_v24 (W12 m ρ c) 0 j).trans
      ((congrFun (W12_v15_keep m ρ c) (ix3 (0 : Fin 3) (0 : Fin 1) j)).trans (W9_v15 m ρ c 0 0 j))
  have key := combine_congr hh ha he hW hb
  exact (congrFun e0 (ix2 n j)).trans ((final3 (En13 m ρ) c n j).trans
    ((congrFun (congrFun key n) j).trans (congrFun (congrFun (kH1_def (kArgs m c)).symm n) j)))

theorem msg1_eq (c : Dev nD) (e : Fin 1601536) (j : Fin 128) :
    (W15 m ρ c (Proc.devRef .tc main_v26) : S1601536x128.Idx → EReal) (ix2 e j)
      = Spec.kGather (Spec.padW (kArgs m c).srcW) (Spec.kH1 (kArgs m c)) (Spec.padD (kArgs m c).ed) (kArgs m c).We (kArgs m c).be e j := by
  have e0 : (W15 m ρ c (Proc.devRef .tc main_v26) : S1601536x128.Idx → EReal) = (dat4 (En14 m ρ) c).arrAt 5 cfg4.N :=
    W15_arr m ρ c 5
  have hs : (fun (e : Fin 1601536) => En14 m ρ c (Pipeline.arrRef spec4 0) (ix2 e 0)) = Spec.padW (kArgs m c).srcW :=
    funext fun e => (congrFun (W14_v6_keep m ρ c) (ix2 e 0)).trans (W9_v6 m ρ c e 0)
  have hd : (fun (e : Fin 1601536) => En14 m ρ c (Pipeline.arrRef spec4 1) (ix2 e 0)) = Spec.padD (kArgs m c).ed :=
    funext fun e => (congrFun (W14_v10_keep m ρ c) (ix2 e 0)).trans (W9_v10 m ρ c e 0)
  have hh : (fun (n : Fin 100352) (j : Fin 128) => En14 m ρ c (Pipeline.arrRef spec4 2) (ix2 n j)) = Spec.kH1 (kArgs m c) :=
    funext fun n => funext fun j => h1_eq m ρ c n j
  have hWe : (fun (j : Fin 128) => En14 m ρ c (Pipeline.arrRef spec4 3) (ix2 0 j)) = (kArgs m c).We :=
    funext fun j => congrFun (W14_arg6_keep m ρ c) (ix2 0 j)
  have hbe : (fun (j : Fin 128) => En14 m ρ c (Pipeline.arrRef spec4 4) (ix2 0 j)) = (kArgs m c).be :=
    funext fun j => (congrFun (W14_v13_keep m ρ c) (ix2 0 j)).trans (W9_v13 m ρ c 0 j)
  have key := kGather_congr hs hh hd hWe hbe
  exact (congrFun e0 (ix2 e j)).trans ((final4 (En14 m ρ) c e j).trans (congrFun (congrFun key e) j))

theorem agg1_eq (c : Dev nD) (n : Fin 100352) (j : Fin 128) :
    (W16 m ρ c (Proc.devRef .tc main_v27) : S100352x128.Idx → EReal) (ix2 n j)
      = Spec.kScatter (Spec.padW (kArgs m c).dstW)
          (Spec.kGather (Spec.padW (kArgs m c).srcW) (Spec.kH1 (kArgs m c)) (Spec.padD (kArgs m c).ed) (kArgs m c).We (kArgs m c).be) n j := by
  have e0 : (W16 m ρ c (Proc.devRef .tc main_v27) : S100352x128.Idx → EReal) = (dat5 (En15 m ρ) c).arrAt 2 cfg5.N :=
    W16_arr m ρ c 2
  have hd : (fun (e : Fin 1601536) => En15 m ρ c (Pipeline.arrRef spec5 0) (ix2 e 0)) = Spec.padW (kArgs m c).dstW :=
    funext fun e => (congrFun (W15_v8_keep m ρ c) (ix2 e 0)).trans (W9_v8 m ρ c e 0)
  have hm : (fun (e : Fin 1601536) (j : Fin 128) => En15 m ρ c (Pipeline.arrRef spec5 1) (ix2 e j))
      = Spec.kGather (Spec.padW (kArgs m c).srcW) (Spec.kH1 (kArgs m c)) (Spec.padD (kArgs m c).ed) (kArgs m c).We (kArgs m c).be :=
    funext fun e => funext fun j => msg1_eq m ρ c e j
  have key := kScatter_congr hd hm
  exact (congrFun e0 (ix2 n j)).trans ((final5 (En15 m ρ) c n j).trans (congrFun (congrFun key n) j))

theorem h2_eq (c : Dev nD) (n : Fin 100352) (j : Fin 128) :
    (W18 m ρ c (Proc.devRef .tc main_v34) : S100352x128.Idx → EReal) (ix2 n j) = Spec.kH2 (kArgs m c) n j := by
  have e0 : (W18 m ρ c (Proc.devRef .tc main_v34) : S100352x128.Idx → EReal) = (dat6 (En17 m ρ) c).arrAt 5 cfg6.N :=
    W18_arr m ρ c 5
  have hh : (fun (n : Fin 100352) (j : Fin 128) => En17 m ρ c (Pipeline.arrRef spec6 0) (ix2 n j)) = Spec.kH1 (kArgs m c) :=
    funext fun n => funext fun j => (congrFun (W17_v25_keep m ρ c) (ix2 n j)).trans (h1_eq m ρ c n j)
  have ha : (fun (n : Fin 100352) (j : Fin 128) => En17 m ρ c (Pipeline.arrRef spec6 1) (ix2 n j))
      = Spec.kScatter (Spec.padW (kArgs m c).dstW)
          (Spec.kGather (Spec.padW (kArgs m c).srcW) (Spec.kH1 (kArgs m c)) (Spec.padD (kArgs m c).ed) (kArgs m c).We (kArgs m c).be) :=
    funext fun n => funext fun j => (congrFun (W17_v27_keep m ρ c) (ix2 n j)).trans (agg1_eq m ρ c n j)
  have he : En17 m ρ c (Pipeline.arrRef spec6 2) (ix2 0 0) = (kArgs m c).eps 1 :=
    (after6_v29 (W16 m ρ c) 0 0).trans
      ((congrFun (W16_v14_keep m ρ c) (ix3 (1 : Fin 3) (0 : Fin 1) (0 : Fin 1))).trans (W9_v14 m ρ c 1 0 0))
  have hW : (fun (k j : Fin 128) => En17 m ρ c (Pipeline.arrRef spec6 3) (ix2 k j)) = (kArgs m c).convW 1 :=
    funext fun k => funext fun j => (after6_v31 (W16 m ρ c) k j).trans
      (congrFun (W16_arg8_keep m ρ c) (ix3 (1 : Fin 3) k j))
  have hb : (fun (j : Fin 128) => En17 m ρ c (Pipeline.arrRef spec6 4) (ix2 0 j)) = (kArgs m c).convb 1 :=
    funext fun j => (after6_v33 (W16 m ρ c) 0 j).trans
      ((congrFun (W16_v15_keep m ρ c) (ix3 (1 : Fin 3) (0 : Fin 1) j)).trans (W9_v15 m ρ c 1 0 j))
  have key := combine_congr hh ha he hW hb
  exact (congrFun e0 (ix2 n j)).trans ((final6 (En17 m ρ) c n j).trans
    ((congrFun (congrFun key n) j).trans (congrFun (congrFun (kH2_def (kArgs m c)).symm n) j)))

theorem msg2_eq (c : Dev nD) (e : Fin 1601536) (j : Fin 128) :
    (W19 m ρ c (Proc.devRef .tc main_v35) : S1601536x128.Idx → EReal) (ix2 e j)
      = Spec.kGather (Spec.padW (kArgs m c).srcW) (Spec.kH2 (kArgs m c)) (Spec.padD (kArgs m c).ed) (kArgs m c).We (kArgs m c).be e j := by
  have e0 : (W19 m ρ c (Proc.devRef .tc main_v35) : S1601536x128.Idx → EReal) = (dat7 (En18 m ρ) c).arrAt 5 cfg7.N :=
    W19_arr m ρ c 5
  have hs : (fun (e : Fin 1601536) => En18 m ρ c (Pipeline.arrRef spec7 0) (ix2 e 0)) = Spec.padW (kArgs m c).srcW :=
    funext fun e => (congrFun (W18_v6_keep m ρ c) (ix2 e 0)).trans (W9_v6 m ρ c e 0)
  have hd : (fun (e : Fin 1601536) => En18 m ρ c (Pipeline.arrRef spec7 1) (ix2 e 0)) = Spec.padD (kArgs m c).ed :=
    funext fun e => (congrFun (W18_v10_keep m ρ c) (ix2 e 0)).trans (W9_v10 m ρ c e 0)
  have hh : (fun (n : Fin 100352) (j : Fin 128) => En18 m ρ c (Pipeline.arrRef spec7 2) (ix2 n j)) = Spec.kH2 (kArgs m c) :=
    funext fun n => funext fun j => h2_eq m ρ c n j
  have hWe : (fun (j : Fin 128) => En18 m ρ c (Pipeline.arrRef spec7 3) (ix2 0 j)) = (kArgs m c).We :=
    funext fun j => congrFun (W18_arg6_keep m ρ c) (ix2 0 j)
  have hbe : (fun (j : Fin 128) => En18 m ρ c (Pipeline.arrRef spec7 4) (ix2 0 j)) = (kArgs m c).be :=
    funext fun j => (congrFun (W18_v13_keep m ρ c) (ix2 0 j)).trans (W9_v13 m ρ c 0 j)
  have key := kGather_congr hs hh hd hWe hbe
  exact (congrFun e0 (ix2 e j)).trans ((final7 (En18 m ρ) c e j).trans (congrFun (congrFun key e) j))

theorem agg2_eq (c : Dev nD) (n : Fin 100352) (j : Fin 128) :
    (W20 m ρ c (Proc.devRef .tc main_v36) : S100352x128.Idx → EReal) (ix2 n j)
      = Spec.kScatter (Spec.padW (kArgs m c).dstW)
          (Spec.kGather (Spec.padW (kArgs m c).srcW) (Spec.kH2 (kArgs m c)) (Spec.padD (kArgs m c).ed) (kArgs m c).We (kArgs m c).be) n j := by
  have e0 : (W20 m ρ c (Proc.devRef .tc main_v36) : S100352x128.Idx → EReal) = (dat8 (En19 m ρ) c).arrAt 2 cfg8.N :=
    W20_arr m ρ c 2
  have hd : (fun (e : Fin 1601536) => En19 m ρ c (Pipeline.arrRef spec8 0) (ix2 e 0)) = Spec.padW (kArgs m c).dstW :=
    funext fun e => (congrFun (W19_v8_keep m ρ c) (ix2 e 0)).trans (W9_v8 m ρ c e 0)
  have hm : (fun (e : Fin 1601536) (j : Fin 128) => En19 m ρ c (Pipeline.arrRef spec8 1) (ix2 e j))
      = Spec.kGather (Spec.padW (kArgs m c).srcW) (Spec.kH2 (kArgs m c)) (Spec.padD (kArgs m c).ed) (kArgs m c).We (kArgs m c).be :=
    funext fun e => funext fun j => msg2_eq m ρ c e j
  have key := kScatter_congr hd hm
  exact (congrFun e0 (ix2 n j)).trans ((final8 (En19 m ρ) c n j).trans (congrFun (congrFun key n) j))

theorem h3_eq (c : Dev nD) (n : Fin 100352) (j : Fin 128) :
    (W22 m ρ c (Proc.devRef .tc main_v43) : S100352x128.Idx → EReal) (ix2 n j) = Spec.kH3 (kArgs m c) n j := by
  have e0 : (W22 m ρ c (Proc.devRef .tc main_v43) : S100352x128.Idx → EReal) = (dat9 (En21 m ρ) c).arrAt 5 cfg9.N :=
    W22_arr m ρ c 5
  have hh : (fun (n : Fin 100352) (j : Fin 128) => En21 m ρ c (Pipeline.arrRef spec9 0) (ix2 n j)) = Spec.kH2 (kArgs m c) :=
    funext fun n => funext fun j => (congrFun (W21_v34_keep m ρ c) (ix2 n j)).trans (h2_eq m ρ c n j)
  have ha : (fun (n : Fin 100352) (j : Fin 128) => En21 m ρ c (Pipeline.arrRef spec9 1) (ix2 n j))
      = Spec.kScatter (Spec.padW (kArgs m c).dstW)
          (Spec.kGather (Spec.padW (kArgs m c).srcW) (Spec.kH2 (kArgs m c)) (Spec.padD (kArgs m c).ed) (kArgs m c).We (kArgs m c).be) :=
    funext fun n => funext fun j => (congrFun (W21_v36_keep m ρ c) (ix2 n j)).trans (agg2_eq m ρ c n j)
  have he : En21 m ρ c (Pipeline.arrRef spec9 2) (ix2 0 0) = (kArgs m c).eps 2 :=
    (after9_v38 (W20 m ρ c) 0 0).trans
      ((congrFun (W20_v14_keep m ρ c) (ix3 (2 : Fin 3) (0 : Fin 1) (0 : Fin 1))).trans (W9_v14 m ρ c 2 0 0))
  have hW : (fun (k j : Fin 128) => En21 m ρ c (Pipeline.arrRef spec9 3) (ix2 k j)) = (kArgs m c).convW 2 :=
    funext fun k => funext fun j => (after9_v40 (W20 m ρ c) k j).trans
      (congrFun (W20_arg8_keep m ρ c) (ix3 (2 : Fin 3) k j))
  have hb : (fun (j : Fin 128) => En21 m ρ c (Pipeline.arrRef spec9 4) (ix2 0 j)) = (kArgs m c).convb 2 :=
    funext fun j => (after9_v42 (W20 m ρ c) 0 j).trans
      ((congrFun (W20_v15_keep m ρ c) (ix3 (2 : Fin 3) (0 : Fin 1) j)).trans (W9_v15 m ρ c 2 0 j))
  have key := combine_congr hh ha he hW hb
  exact (congrFun e0 (ix2 n j)).trans ((final9 (En21 m ρ) c n j).trans
    ((congrFun (congrFun key n) j).trans (congrFun (congrFun (kH3_def (kArgs m c)).symm n) j)))

theorem layers (c : Dev nD) (n : Fin 100352) (j : Fin 128) :
    (W22 m ρ c (Proc.devRef .tc main_v43) : S100352x128.Idx → EReal) (ix2 n j) = Spec.kH3 (kArgs m c) n j :=
  h3_eq m ρ c n j

end Cert.KernelIdeal.Hand

end
-- ==== Proof.KI.V10.lean ====
import proofs.«429186_j15229954031644_1_alg».proof.Proof.KI.R10
import proofs.«429186_j15229954031644_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

namespace V10

theorem sitofp_eq_bit (x y : BitVec 32) :
    (FloatOps.sitofp (F := Ideal) .f32 ((IntOp.cmpi .eq x y).setWidth 32) : EReal) = if x = y then (1 : EReal) else 0 := by
  by_cases h : x = y
  · rw [if_pos h]; subst h
    have e : (IntOp.cmpi .eq x x).setWidth 32 = 1#32 := by simp [IntOp.cmpi]
    rw [e]; show (((1#32 : BitVec 32).toInt : ℝ) : EReal) = 1
    norm_num
  · rw [if_neg h]
    have hb : (x == y) = false := beq_eq_false_iff_ne.mpr h
    have e : (IntOp.cmpi .eq x y).setWidth 32 = 0#32 := by simp [IntOp.cmpi, hb]
    rw [e]; show (((0#32 : BitVec 32).toInt : ℝ) : EReal) = 0
    norm_num

theorem pay3_apply (v4 : Vec Ideal S2000x1 .i32) (n : Fin 2000) (g : Fin 1024) :
    k10_pay3 (F := Ideal) v4 (ix2 n g) = if v4 (ix2 n (0 : Fin 1)) = BitVec.ofNat 32 g.val then (1 : EReal) else 0 := by
  unfold k10_pay3
  dsimp only
  have eA : broadcastTo S2000x1024 (shapeCast S2000x1 v4 shapeCasts_S2000x1_S2000x1) broadcasts_S2000x1_S2000x1024 (ix2 n g)
      = v4 (ix2 n (0 : Fin 1)) := by
    refine (broadcastTo_apply _ broadcasts_S2000x1_S2000x1024 (ix2 n g) (ix2 n (0 : Fin 1)) ?_).trans ?_
    · intro a; match a with
      | ⟨0, _⟩ => rfl
      | ⟨1, _⟩ => rfl
    · rw [shapeCast_self]
  have eB : broadcastTo S2000x1024 (iota Kind.tc S1x1024 32 [1] iota_S1x1024_d1_w32) broadcasts_S1x1024_S2000x1024 (ix2 n g)
      = BitVec.ofNat 32 g.val := by
    refine (broadcastTo_apply _ broadcasts_S1x1024_S2000x1024 (ix2 n g) (ix2 (0 : Fin 1) g) ?_).trans ?_
    · intro a; match a with
      | ⟨0, _⟩ => rfl
      | ⟨1, _⟩ => rfl
    · exact iota_single_apply Kind.tc S1x1024 32 1 iota_S1x1024_d1_w32 (ix2 (0 : Fin 1) g)
  show FloatOps.sitofp (F := Ideal) .f32 ((IntOp.cmpi .eq
      (broadcastTo S2000x1024 (shapeCast S2000x1 v4 shapeCasts_S2000x1_S2000x1) broadcasts_S2000x1_S2000x1024 (ix2 n g))
      (broadcastTo S2000x1024 (iota Kind.tc S1x1024 32 [1] iota_S1x1024_d1_w32) broadcasts_S1x1024_S2000x1024 (ix2 n g))).setWidth 32) = _
  rw [eA, eB]
  exact sitofp_eq_bit _ _

theorem lift_rows (g : Fin 1024) (k : Fin 2000) :
    reduces_S2000x1024_S1024.lift (ix1 g) k = ix2 k g := by
  funext a; apply Fin.ext
  match a with
  | ⟨0, _⟩ => rfl
  | ⟨1, _⟩ => rfl

theorem pay5_apply (v4 : Vec Ideal S2000x1 .i32) (v20 : Vec Ideal S1x1024 .f32) (g : Fin 1024) :
    k10_pay5 (F := Ideal) v4 v20 (ix2 (0 : Fin 1) g)
      = v20 (ix2 (0 : Fin 1) g) + ∑ n : Fin 2000, (if v4 (ix2 n (0 : Fin 1)) = BitVec.ofNat 32 g.val then (1 : EReal) else 0) := by
  unfold k10_pay5
  dsimp only
  rw [shapeCast_self]
  show v20 (ix2 (0 : Fin 1) g) + shapeCast S1x1024 _ shapeCasts_S1024_S1x1024 (ix2 (0 : Fin 1) g) = _
  refine congrArg (v20 (ix2 (0 : Fin 1) g) + ·) ?_
  refine (shapeCast_apply _ shapeCasts_S1024_S1x1024 (ix2 (0 : Fin 1) g) (ix1 g) ?_).trans ?_
  · rw [Shape.rowMajor_val_one, Shape.rowMajor_val_two]; show g.val = 0 * 1024 + g.val; omega
  refine (Ideal.multiReduction_add_single (k10_pay3 (F := Ideal) v4) 0x00000000#32 reduces_S2000x1024_S1024 (.inl rfl) rfl (ix1 g)).trans ?_
  show ∑ k : Fin 2000, k10_pay3 (F := Ideal) v4 (reduces_S2000x1024_S1024.lift (ix1 g) k) = _
  refine Finset.sum_congr rfl fun k _ => ?_
  rw [lift_rows]; exact pay3_apply v4 k g

theorem lhs_rows_0 (j : S1024x128.Idx) (k : dot_S2000x1024_S2000x128_S1024x128_0_0_1_1_n_n.contr.Idx) :
    (dot_S2000x1024_S2000x128_S1024x128_0_0_1_1_n_n.lhsIdx j k (0 : Fin 2)).val = (k ⟨0, by decide⟩).val :=
  dot_S2000x1024_S2000x128_S1024x128_0_0_1_1_n_n.lhsIdx_val_of_single (cl := 0) rfl j k
theorem lhs_rows_1 (j : S1024x128.Idx) (k : dot_S2000x1024_S2000x128_S1024x128_0_0_1_1_n_n.contr.Idx) :
    (dot_S2000x1024_S2000x128_S1024x128_0_0_1_1_n_n.lhsIdx j k (1 : Fin 2)).val = (j 0).val := by
  unfold DotDims.lhsIdx
  rw [dif_neg (show ¬(1 : Fin S2000x1024.rank) ∈ dot_S2000x1024_S2000x128_S1024x128_0_0_1_1_n_n.lhsBatch by decide),
    dif_pos (show (1 : Fin S2000x1024.rank) ∈ dot_S2000x1024_S2000x128_S1024x128_0_0_1_1_n_n.lhsNonContracting by decide)]
  rfl
theorem rhs_rows_0 (j : S1024x128.Idx) (k : dot_S2000x1024_S2000x128_S1024x128_0_0_1_1_n_n.contr.Idx) :
    (dot_S2000x1024_S2000x128_S1024x128_0_0_1_1_n_n.rhsIdx j k (0 : Fin 2)).val = (k ⟨0, by decide⟩).val :=
  dot_S2000x1024_S2000x128_S1024x128_0_0_1_1_n_n.rhsIdx_val_of_single (cr := 0) rfl j k
theorem rhs_rows_1 (j : S1024x128.Idx) (k : dot_S2000x1024_S2000x128_S1024x128_0_0_1_1_n_n.contr.Idx) :
    (dot_S2000x1024_S2000x128_S1024x128_0_0_1_1_n_n.rhsIdx j k (1 : Fin 2)).val = (j 1).val := by
  unfold DotDims.rhsIdx
  rw [dif_neg (show ¬(1 : Fin S2000x128.rank) ∈ dot_S2000x1024_S2000x128_S1024x128_0_0_1_1_n_n.rhsBatch by decide),
    dif_pos (show (1 : Fin S2000x128.rank) ∈ dot_S2000x1024_S2000x128_S1024x128_0_0_1_1_n_n.rhsNonContracting by decide)]
  rfl

theorem pay4_apply (v4 : Vec Ideal S2000x1 .i32) (v12 : FVec Ideal S2000x128 .bf16) (v14 : FVec Ideal S1024x128 .f32)
    (g : Fin 1024) (j : Fin 128) :
    k10_pay4 (F := Ideal) v4 v12 v14 (ix2 g j)
      = v14 (ix2 g j) + ∑ n : Fin 2000,
          (if v4 (ix2 n (0 : Fin 1)) = BitVec.ofNat 32 g.val then (1 : EReal) else 0) * v12 (ix2 n j) := by
  unfold k10_pay4
  rw [shapeCast_self, shapeCast_self]
  show v14 (ix2 g j) + FloatOps.matmul dot_S2000x1024_S2000x128_S1024x128_0_0_1_1_n_n none _ v12 (constant (F := Ideal) S1024x128 .f32 0x00000000#32) (ix2 g j) = _
  refine congrArg (v14 (ix2 g j) + ·) ?_
  refine (Ideal.matmul_constant_zero_apply dot_S2000x1024_S2000x128_S1024x128_0_0_1_1_n_n none _ v12 (ix2 g j)).trans ?_
  rw [← Equiv.sum_comp (contrEquiv1 dot_S2000x1024_S2000x128_S1024x128_0_0_1_1_n_n 2000 rfl rfl).symm]
  refine Finset.sum_congr rfl fun n _ => ?_
  have c := contrEquiv1_symm_val dot_S2000x1024_S2000x128_S1024x128_0_0_1_1_n_n 2000 rfl rfl n
  have l : dot_S2000x1024_S2000x128_S1024x128_0_0_1_1_n_n.lhsIdx (ix2 g j)
      ((contrEquiv1 dot_S2000x1024_S2000x128_S1024x128_0_0_1_1_n_n 2000 rfl rfl).symm n) = ix2 n g := by
    funext a; apply Fin.ext
    match a with
    | ⟨0, _⟩ => exact (lhs_rows_0 _ _).trans c
    | ⟨1, _⟩ => exact lhs_rows_1 _ _
  have r : dot_S2000x1024_S2000x128_S1024x128_0_0_1_1_n_n.rhsIdx (ix2 g j)
      ((contrEquiv1 dot_S2000x1024_S2000x128_S1024x128_0_0_1_1_n_n 2000 rfl rfl).symm n) = ix2 n j := by
    funext a; apply Fin.ext
    match a with
    | ⟨0, _⟩ => exact (rhs_rows_0 _ _).trans c
    | ⟨1, _⟩ => exact rhs_rows_1 _ _
  rw [l, r]
  exact congrArg (· * v12 (ix2 n j)) (pay3_apply v4 n g)

theorem pay1_apply (i : S1024x128.Idx) : k10_pay1 (F := Ideal) i = 0 := by
  unfold k10_pay1
  rw [shapeCast_self]
  show Ideal.ofBits .f32 0x00000000#32 = 0
  exact Ideal.ofBits_zero_f32

theorem pay2_apply (i : S1x1024.Idx) : k10_pay2 (F := Ideal) i = 0 := by
  unfold k10_pay2
  rw [shapeCast_self]
  show Ideal.ofBits .f32 0x00000000#32 = 0
  exact Ideal.ofBits_zero_f32

theorem sum_rows_blocks {M : Type*} [AddCommMonoid M] (m n N : ℕ) (hN : m * n = N) (f : ℕ → M) :
    ∑ b : Fin m, ∑ r : Fin n, f (b.val * n + r.val) = ∑ k : Fin N, f k.val := by
  subst hN
  rw [← Equiv.sum_comp (finProdFinEquiv (m := m) (n := n)) (fun k : Fin (m * n) => f k.val), Fintype.sum_prod_type]
  refine Finset.sum_congr rfl fun b _ => Finset.sum_congr rfl fun r _ => congrArg f ?_
  show b.val * n + r.val = r.val + n * b.val
  rw [Nat.mul_comm, Nat.add_comm]

theorem sum_nodes {M : Type*} [AddCommMonoid M] (f : ℕ → M) :
    ∑ b : Fin 50, ∑ r : Fin 2000, f (b.val * 2000 + r.val) = ∑ k : Fin 100000, f k.val :=
  sum_rows_blocks 50 2000 100000 (by norm_num) f

def bWord (c : Dev nD) (m : ℕ) : BitVec 32 :=
  if h : m < 100000 then (V c (Pipeline.arrRef spec10 0) : Vec Ideal S100000x1 .i32) (ix2 (⟨m, h⟩ : Fin 100000) (0 : Fin 1)) else 0#32
def hVal (c : Dev nD) (m : ℕ) (j : Fin 128) : EReal :=
  if h : m < 100000 then (V c (Pipeline.arrRef spec10 1) : FVec Ideal S100000x128 .bf16) (ix2 (⟨m, h⟩ : Fin 100000) j) else 0

theorem rows10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0 :=
  (by decide +kernel : ∀ t : Fin grid10.N, _)

theorem lt50 (t : Fin cfg10.N) : t.val < 50 := by
  have h : cfg10.N = 50 := N_10
  have := t.isLt; omega

theorem iblk10_0_apply (c : Dev nD) (t : Fin cfg10.N) (r : Fin 2000) :
    (iblk10 V c 0 t : Vec Ideal S2000x1 .i32) (ix2 r (0 : Fin 1)) = bWord V c (t.val * 2000 + r.val) := by
  have ht := lt50 t
  have hm : t.val * 2000 + r.val < 100000 := by have := r.isLt; omega
  unfold bWord; rw [dif_pos hm]
  obtain ⟨e0, e1, -⟩ := rows10 t
  show (V c (Pipeline.arrRef spec10 0) : Vec Ideal S100000x1 .i32) (((cfg10.win 0).blk t).view.emb (ix2 r (0 : Fin 1))) = _
  refine congrArg _ (funext fun a => Fin.ext ?_)
  match a with
  | ⟨0, _⟩ => show win10_0.index t (0 : Fin 2) * 2000 + 1 * r.val = t.val * 2000 + r.val; rw [e0]; omega
  | ⟨1, _⟩ => show win10_0.index t (1 : Fin 2) * 1 + 1 * 0 = 0; rw [e1]

theorem iblk10_1_apply (c : Dev nD) (t : Fin cfg10.N) (r : Fin 2000) (j : Fin 128) :
    (iblk10 V c 1 t : FVec Ideal S2000x128 .bf16) (ix2 r j) = hVal V c (t.val * 2000 + r.val) j := by
  have ht := lt50 t
  have hm : t.val * 2000 + r.val < 100000 := by have := r.isLt; omega
  unfold hVal; rw [dif_pos hm]
  obtain ⟨-, -, e2, e3, -⟩ := rows10 t
  show (V c (Pipeline.arrRef spec10 1) : FVec Ideal S100000x128 .bf16) (((cfg10.win 1).blk t).view.emb (ix2 r j)) = _
  refine congrArg _ (funext fun a => Fin.ext ?_)
  match a with
  | ⟨0, _⟩ => show win10_1.index t (0 : Fin 2) * 2000 + 1 * r.val = t.val * 2000 + r.val; rw [e2]; omega
  | ⟨1, _⟩ => show win10_1.index t (1 : Fin 2) * 128 + 1 * j.val = j.val; rw [e3]; omega

theorem accS10_apply (c : Dev nD) : ∀ (n : ℕ) (hn : n < cfg10.N) (g : Fin 1024) (j : Fin 128),
    (accS10 V c n hn : FVec Ideal S1024x128 .f32) (ix2 g j)
      = ∑ b ∈ Finset.range (n + 1), ∑ r : Fin 2000,
          Spec.oh (bWord V c (b * 2000 + r.val)) g.val * hVal V c (b * 2000 + r.val) j
  | 0, hn, g, j => by
    show k10_pay4 (F := Ideal) (iblk10 V c 0 ⟨0, hn⟩) (iblk10 V c 1 ⟨0, hn⟩) (k10_pay1 (F := Ideal)) (ix2 g j) = _
    refine (pay4_apply (iblk10 V c 0 ⟨0, hn⟩) (iblk10 V c 1 ⟨0, hn⟩) (k10_pay1 (F := Ideal)) g j).trans ?_
    rw [pay1_apply, zero_add]
    refine Eq.trans ?_ (Finset.sum_range_one _).symm
    refine Finset.sum_congr rfl fun r _ => ?_
    rw [iblk10_0_apply V c ⟨0, hn⟩ r, iblk10_1_apply V c ⟨0, hn⟩ r j]
    rfl
  | n + 1, hn, g, j => by
    show k10_pay4 (F := Ideal) (iblk10 V c 0 ⟨n + 1, hn⟩) (iblk10 V c 1 ⟨n + 1, hn⟩)
        (accS10 V c n (Nat.lt_of_succ_lt hn)) (ix2 g j) = _
    refine (pay4_apply (iblk10 V c 0 ⟨n + 1, hn⟩) (iblk10 V c 1 ⟨n + 1, hn⟩) (accS10 V c n (Nat.lt_of_succ_lt hn)) g j).trans ?_
    rw [accS10_apply c n (Nat.lt_of_succ_lt hn) g j, Finset.sum_range_succ _ (n + 1)]
    refine congrArg (_ + ·) (Finset.sum_congr rfl fun r _ => ?_)
    rw [iblk10_0_apply V c ⟨n + 1, hn⟩ r, iblk10_1_apply V c ⟨n + 1, hn⟩ r j]
    rfl

theorem accC10_apply (c : Dev nD) : ∀ (n : ℕ) (hn : n < cfg10.N) (g : Fin 1024),
    (accC10 V c n hn : FVec Ideal S1x1024 .f32) (ix2 (0 : Fin 1) g)
      = ∑ b ∈ Finset.range (n + 1), ∑ r : Fin 2000, Spec.oh (bWord V c (b * 2000 + r.val)) g.val
  | 0, hn, g => by
    show k10_pay5 (F := Ideal) (iblk10 V c 0 ⟨0, hn⟩) (k10_pay2 (F := Ideal)) (ix2 (0 : Fin 1) g) = _
    refine (pay5_apply (iblk10 V c 0 ⟨0, hn⟩) (k10_pay2 (F := Ideal)) g).trans ?_
    rw [pay2_apply, zero_add]
    refine Eq.trans ?_ (Finset.sum_range_one _).symm
    refine Finset.sum_congr rfl fun r _ => ?_
    rw [iblk10_0_apply V c ⟨0, hn⟩ r]
    rfl
  | n + 1, hn, g => by
    show k10_pay5 (F := Ideal) (iblk10 V c 0 ⟨n + 1, hn⟩) (accC10 V c n (Nat.lt_of_succ_lt hn)) (ix2 (0 : Fin 1) g) = _
    refine (pay5_apply (iblk10 V c 0 ⟨n + 1, hn⟩) (accC10 V c n (Nat.lt_of_succ_lt hn)) g).trans ?_
    rw [accC10_apply c n (Nat.lt_of_succ_lt hn) g, Finset.sum_range_succ _ (n + 1)]
    refine congrArg (_ + ·) (Finset.sum_congr rfl fun r _ => ?_)
    rw [iblk10_0_apply V c ⟨n + 1, hn⟩ r]
    rfl

abbrev batch10 (c : Dev nD) : Fin Spec.NN → BitVec 32 :=
  fun n => (V c (Pipeline.arrRef spec10 0) : Vec Ideal S100000x1 .i32) (ix2 n (0 : Fin 1))
abbrev feat10 (c : Dev nD) : Fin Spec.NN → Fin Spec.NH → EReal :=
  fun n j => (V c (Pipeline.arrRef spec10 1) : FVec Ideal S100000x128 .bf16) (ix2 n j)

theorem bWord_val (c : Dev nD) (n : Fin 100000) : bWord V c n.val = batch10 V c n := by
  unfold bWord; rw [dif_pos n.isLt]
theorem hVal_val (c : Dev nD) (n : Fin 100000) (j : Fin 128) : hVal V c n.val j = feat10 V c n j := by
  unfold hVal; rw [dif_pos n.isLt]

theorem accS10_last (c : Dev nD) (n : ℕ) (hn : n < cfg10.N) (h : n = 49) (g : Fin 1024) (j : Fin 128) :
    (accS10 V c n hn : FVec Ideal S1024x128 .f32) (ix2 g j) = Spec.kPoolS (batch10 V c) (feat10 V c) g j := by
  subst h
  refine (accS10_apply V c 49 hn g j).trans ?_
  refine (Finset.sum_range (n := 50) fun b => ∑ r : Fin 2000,
    Spec.oh (bWord V c (b * 2000 + r.val)) g.val * hVal V c (b * 2000 + r.val) j).trans ?_
  refine (sum_nodes fun m => Spec.oh (bWord V c m) g.val * hVal V c m j).trans ?_
  show _ = ∑ n : Fin Spec.NN, Spec.oh (batch10 V c n) g.val * feat10 V c n j
  refine Finset.sum_congr rfl fun n _ => ?_
  show Spec.oh (bWord V c n.val) g.val * hVal V c n.val j = _
  rw [bWord_val, hVal_val]

theorem accC10_last (c : Dev nD) (n : ℕ) (hn : n < cfg10.N) (h : n = 49) (g : Fin 1024) :
    (accC10 V c n hn : FVec Ideal S1x1024 .f32) (ix2 (0 : Fin 1) g) = Spec.kPoolC (batch10 V c) g := by
  subst h
  refine (accC10_apply V c 49 hn g).trans ?_
  refine (Finset.sum_range (n := 50) fun b => ∑ r : Fin 2000, Spec.oh (bWord V c (b * 2000 + r.val)) g.val).trans ?_
  refine (sum_nodes fun m => Spec.oh (bWord V c m) g.val).trans ?_
  show _ = ∑ n : Fin Spec.NN, Spec.oh (batch10 V c n) g.val
  refine Finset.sum_congr rfl fun n _ => ?_
  show Spec.oh (bWord V c n.val) g.val = _
  rw [bWord_val]

def sums10 (c : Dev nD) : FVec Ideal S1024x128 .f32 :=
  fun i => Spec.kPoolS (batch10 V c) (feat10 V c) ⟨(i 0).val, idx2_lt0 i⟩ ⟨(i 1).val, idx2_lt1 i⟩
def cnts10 (c : Dev nD) : FVec Ideal S1x1024 .f32 :=
  fun i => Spec.kPoolC (batch10 V c) ⟨(i 1).val, idx2_lt1 i⟩

theorem sums10_apply (c : Dev nD) (g : Fin 1024) (j : Fin 128) :
    sums10 V c (ix2 g j) = Spec.kPoolS (batch10 V c) (feat10 V c) g j := rfl
theorem cnts10_apply (c : Dev nD) (g : Fin 1024) :
    cnts10 V c (ix2 (0 : Fin 1) g) = Spec.kPoolC (batch10 V c) g := rfl

theorem emb10_2 (t : Fin cfg10.N) (y : ((cfg10.win 2).xblock (grid10.coords t)).Idx) : ((cfg10.win 2).blk t).view.emb y = y := by
  obtain ⟨-, -, -, -, e4, e5, -⟩ := rows10 t
  funext a; apply Fin.ext
  match a with
  | ⟨0, _⟩ => show win10_2.index t (0 : Fin 2) * 1024 + 1 * (y 0).val = (y 0).val; rw [e4]; omega
  | ⟨1, _⟩ => show win10_2.index t (1 : Fin 2) * 128 + 1 * (y 1).val = (y 1).val; rw [e5]; omega
theorem emb10_3 (t : Fin cfg10.N) (y : ((cfg10.win 3).xblock (grid10.coords t)).Idx) : ((cfg10.win 3).blk t).view.emb y = y := by
  obtain ⟨-, -, -, -, -, -, e6, e7⟩ := rows10 t
  funext a; apply Fin.ext
  match a with
  | ⟨0, _⟩ => show win10_3.index t (0 : Fin 2) * 1 + 1 * (y 0).val = (y 0).val; rw [e6]; omega
  | ⟨1, _⟩ => show win10_3.index t (1 : Fin 2) * 1024 + 1 * (y 1).val = (y 1).val; rw [e7]; omega

theorem cut10_2 (X : FVec Ideal S1024x128 .f32) (t : Fin cfg10.N) (y : ((cfg10.win 2).xblock (grid10.coords t)).Idx) :
    (cfg10.win 2).cut (grid10.coords t) X y = X y := rfl
theorem read10_2 (G : FVec Ideal S1024x128 .f32) (t : Fin cfg10.N) (y : ((cfg10.win 2).xblock (grid10.coords t)).Idx) :
    ((cfg10.win 2).blk t).view.read (Elt Ideal) G y = G (((cfg10.win 2).blk t).view.emb y) := rfl
theorem cut10_3 (X : FVec Ideal S1x1024 .f32) (t : Fin cfg10.N) (y : ((cfg10.win 3).xblock (grid10.coords t)).Idx) :
    (cfg10.win 3).cut (grid10.coords t) X y = X y := rfl
theorem read10_3 (G : FVec Ideal S1x1024 .f32) (t : Fin cfg10.N) (y : ((cfg10.win 3).xblock (grid10.coords t)).Idx) :
    ((cfg10.win 3).blk t).view.read (Elt Ideal) G y = G (((cfg10.win 3).blk t).view.emb y) := rfl

theorem flushed10_2 (c : Dev nD) (t : Fin cfg10.N) (hf : (cfg10.win 2).flush t = true) :
    (dat10 V c).flushed 2 t = ((cfg10.win 2).blk t).view.read (Elt Ideal) (sums10 V c) := by
  have h49 : t.val = 49 := by have := (flush10_2 t).mp hf; have := lt50 t; omega
  show (cfg10.win 2).cut (grid10.coords t) ((dat10 V c).after 2 t) = _
  rw [after_out10_2]
  funext y
  refine (cut10_2 (accS10 V c t.val t.isLt) t y).trans ?_
  refine Eq.trans ?_ (read10_2 (sums10 V c) t y).symm
  rw [emb10_2]
  obtain ⟨g, j, rfl⟩ : ∃ (g : Fin 1024) (j : Fin 128), y = ix2 g j := ⟨y 0, y 1, eq_ix2 y⟩
  exact (accS10_last V c _ _ h49 g j).trans (sums10_apply V c g j).symm

theorem flushed10_3 (c : Dev nD) (t : Fin cfg10.N) (hf : (cfg10.win 3).flush t = true) :
    (dat10 V c).flushed 3 t = ((cfg10.win 3).blk t).view.read (Elt Ideal) (cnts10 V c) := by
  have h49 : t.val = 49 := by have := (flush10_3 t).mp hf; have := lt50 t; omega
  show (cfg10.win 3).cut (grid10.coords t) ((dat10 V c).after 3 t) = _
  rw [after_out10_3]
  funext y
  refine (cut10_3 (accC10 V c t.val t.isLt) t y).trans ?_
  refine Eq.trans ?_ (read10_3 (cnts10 V c) t y).symm
  rw [emb10_3]
  obtain ⟨z, g, rfl⟩ : ∃ (z : Fin 1) (g : Fin 1024), y = ix2 z g := ⟨y 0, y 1, eq_ix2 y⟩
  obtain rfl : z = 0 := Subsingleton.elim _ _
  exact (accC10_last V c _ _ h49 g).trans (cnts10_apply V c g).symm

theorem cover10_2 (i : S1024x128.Idx) :
    ∃ t : Fin cfg10.N, (cfg10.win 2).flush t = true ∧ i ∈ ((cfg10.win 2).blk t).view.set := by
  have hN : 49 < cfg10.N := by have : cfg10.N = 50 := N_10; omega
  refine ⟨⟨49, hN⟩, (flush10_2 _).mpr rfl, ?_⟩
  have h := ((cfg10.win 2).blk ⟨49, hN⟩).view.emb_mem_set i
  rwa [emb10_2] at h
theorem cover10_3 (i : S1x1024.Idx) :
    ∃ t : Fin cfg10.N, (cfg10.win 3).flush t = true ∧ i ∈ ((cfg10.win 3).blk t).view.set := by
  have hN : 49 < cfg10.N := by have : cfg10.N = 50 := N_10; omega
  refine ⟨⟨49, hN⟩, (flush10_3 _).mpr rfl, ?_⟩
  have h := ((cfg10.win 3).blk ⟨49, hN⟩).view.emb_mem_set i
  rwa [emb10_3] at h

theorem arr10_2 (c : Dev nD) : (dat10 V c).arrAt 2 cfg10.N = sums10 V c :=
  (dat10 V c).arrAt_eq_of_cover 2 (sums10 V c) (fun t hf => flushed10_2 V c t hf) cover10_2
theorem arr10_3 (c : Dev nD) : (dat10 V c).arrAt 3 cfg10.N = cnts10 V c :=
  (dat10 V c).arrAt_eq_of_cover 3 (cnts10 V c) (fun t hf => flushed10_3 V c t hf) cover10_3

end V10

open V10

theorem final10_sums (c : Dev nD) (g : Fin 1024) (j : Fin 128) :
    ((dat10 V c).arrAt 2 cfg10.N : FVec Ideal S1024x128 .f32) (ix2 g j)
      = Spec.kPoolS (fun n => (V c (Pipeline.arrRef spec10 0) : Vec Ideal S100000x1 .i32) (ix2 n (0 : Fin 1)))
          (fun n j => (V c (Pipeline.arrRef spec10 1) : FVec Ideal S100000x128 .bf16) (ix2 n j)) g j :=
  (congrFun (arr10_2 V c) (ix2 g j)).trans (sums10_apply V c g j)

theorem final10_cnts (c : Dev nD) (g : Fin 1024) :
    ((dat10 V c).arrAt 3 cfg10.N : FVec Ideal S1x1024 .f32) (ix2 (0 : Fin 1) g)
      = Spec.kPoolC (fun n => (V c (Pipeline.arrRef spec10 0) : Vec Ideal S100000x1 .i32) (ix2 n (0 : Fin 1))) g :=
  (congrFun (arr10_3 V c) (ix2 (0 : Fin 1) g)).trans (cnts10_apply V c g)

end Cert.KernelIdeal.Hand

end
-- ==== Proof.KI.ChainTail.lean ====
import proofs.«429186_j15229954031644_1_alg».proof.Proof.KI.Run
import proofs.«429186_j15229954031644_1_alg».proof.Proof.KI.ChainArgs
import proofs.«429186_j15229954031644_1_alg».proof.Proof.KI.TailRead
import proofs.«429186_j15229954031644_1_alg».proof.Proof.KI.ChainLayers
import proofs.«429186_j15229954031644_1_alg».proof.Proof.KI.V10

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.ShloMosaic.Pipeline (Dat Cfg Window)

variable (m : (ℓ : Loc nD τ sig) → Buf (Elt Ideal) ℓ) (ρ : Dev nD → PrngReg)

theorem W24_head11 (c : Dev nD) : W24 m ρ c (Proc.devRef .tc main_arg11) = m ((c : Thread nD τ).loc main_arg11) :=
  W24_arg m ρ c (by decide)
theorem W24_head12 (c : Dev nD) : W24 m ρ c (Proc.devRef .tc main_arg12) = m ((c : Thread nD τ).loc main_arg12) :=
  W24_arg m ρ c (by decide)
theorem W24_head13 (c : Dev nD) : W24 m ρ c (Proc.devRef .tc main_arg13) = m ((c : Thread nD τ).loc main_arg13) :=
  W24_arg m ρ c (by decide)
theorem W24_head14 (c : Dev nD) : W24 m ρ c (Proc.devRef .tc main_arg14) = m ((c : Thread nD τ).loc main_arg14) :=
  W24_arg m ρ c (by decide)

theorem W8_batch (c : Dev nD) : W8 m ρ c (Proc.devRef .tc main_arg3) = m ((c : Thread nD τ).loc main_arg3) :=
  W8_arg m ρ c (by decide)

theorem W23_v11 (c : Dev nD) :
    W23 m ρ c (Proc.devRef .tc main_v11)
      = shapeCast S100000x1 (m ((c : Thread nD τ).loc main_arg3)) shapeCasts_S100000_S100000x1 := by
  have h23 : W23 m ρ c (Proc.devRef .tc main_v11) = W22 m ρ c (Proc.devRef .tc main_v11) :=
    StableHlo.after_of_writes_sub hostOps10 _ hostOps10_writes (by decide : main_v11 ∉ hostOps10_W)
  have h22 := W22_of_ne m ρ c main_v11 (by decide)
  have h21 : W21 m ρ c (Proc.devRef .tc main_v11) = W20 m ρ c (Proc.devRef .tc main_v11) :=
    StableHlo.after_of_writes_sub hostOps9 _ hostOps9_writes (by decide : main_v11 ∉ hostOps9_W)
  have h20 := W20_of_ne m ρ c main_v11 (by decide)
  have h19 := W19_of_ne m ρ c main_v11 (by decide)
  have h18 := W18_of_ne m ρ c main_v11 (by decide)
  have h17 : W17 m ρ c (Proc.devRef .tc main_v11) = W16 m ρ c (Proc.devRef .tc main_v11) :=
    StableHlo.after_of_writes_sub hostOps6 _ hostOps6_writes (by decide : main_v11 ∉ hostOps6_W)
  have h16 := W16_of_ne m ρ c main_v11 (by decide)
  have h15 := W15_of_ne m ρ c main_v11 (by decide)
  have h14 := W14_of_ne m ρ c main_v11 (by decide)
  have h13 : W13 m ρ c (Proc.devRef .tc main_v11) = W12 m ρ c (Proc.devRef .tc main_v11) :=
    StableHlo.after_of_writes_sub hostOps3 _ hostOps3_writes (by decide : main_v11 ∉ hostOps3_W)
  have h12 := W12_of_ne m ρ c main_v11 (by decide)
  have h11 := W11_of_ne m ρ c main_v11 (by decide)
  have h10 := W10_of_ne m ρ c main_v11 (by decide)
  have h9 : W9 m ρ c (Proc.devRef .tc main_v11)
      = shapeCast S100000x1 (W8 m ρ c (Proc.devRef .tc main_arg3)) shapeCasts_S100000_S100000x1 :=
    batch_term (W8 m ρ c)
  have h8 : shapeCast S100000x1 (W8 m ρ c (Proc.devRef .tc main_arg3)) shapeCasts_S100000_S100000x1
      = shapeCast S100000x1 (m ((c : Thread nD τ).loc main_arg3)) shapeCasts_S100000_S100000x1 :=
    congrArg (fun x : S100000.Idx → BitVec 32 => shapeCast S100000x1 x shapeCasts_S100000_S100000x1) (W8_batch m ρ c)
  exact h23.trans <| h22.trans <| h21.trans <| h20.trans <| h19.trans <| h18.trans <| h17.trans <| h16.trans <|
    h15.trans <| h14.trans <| h13.trans <| h12.trans <| h11.trans <| h10.trans <| h9.trans h8

theorem W23_batch (c : Dev nD) (n : Fin 100000) :
    W23 m ρ c (Proc.devRef .tc main_v11) (ix2 n (0 : Fin 1)) = (kArgs m c).batchW n :=
  (congrFun (W23_v11 m ρ c) (ix2 n (0 : Fin 1))).trans
    (reshape_col_apply (m ((c : Thread nD τ).loc main_arg3)) n)

theorem topRows_apply {α : Type} (h : Fin Spec.NP → Fin Spec.NH → α) (n : Fin Spec.NN) (j : Fin Spec.NH)
    (p : n.val < Spec.NP) : Spec.topRows h n j = h ⟨n.val, p⟩ j := rfl

theorem W23_top (c : Dev nD)
    (hL : ∀ (n : Fin 100352) (j : Fin 128), W22 m ρ c (Proc.devRef .tc main_v43) (ix2 n j) = Spec.kH3 (kArgs m c) n j)
    (n : Fin 100000) (j : Fin 128) :
    W23 m ρ c (Proc.devRef .tc main_v44) (ix2 n j) = Spec.topRows (Spec.kH3 (kArgs m c)) n j :=
  have p : n.val < 100352 := Nat.lt_of_lt_of_le n.isLt (by decide)
  (congrFun (slice_term (W22 m ρ c)) (ix2 n j)).trans <|
    (slice_top_apply (W22 m ρ c (Proc.devRef .tc main_v43)) n j).trans <|
      (hL ⟨n.val, p⟩ j).trans (topRows_apply (Spec.kH3 (kArgs m c)) n j p).symm

theorem tail_congr {s s' : Fin Spec.NG → Fin Spec.NH → EReal} {n n' : Fin Spec.NG → EReal}
    {A A' : Fin Spec.NH → Fin 64 → EReal} {b b' : Fin 64 → EReal} {B B' : Fin 64 → EReal} {d d' : EReal}
    (hs : s = s') (hn : n = n') (hA : A = A') (hb : b = b') (hB : B = B') (hd : d = d') (g : Fin Spec.NG) :
    Spec.tail s n A b B d g = Spec.tail s' n' A' b' B' d' g := by
  subst hs hn hA hb hB hd
  rfl

theorem result_of (c : Dev nD)
    (hL : ∀ (n : Fin 100352) (j : Fin 128), W22 m ρ c (Proc.devRef .tc main_v43) (ix2 n j) = Spec.kH3 (kArgs m c) n j)
    (hS : ∀ (g : Fin 1024) (j : Fin 128), (dat10 (En23 m ρ) c).arrAt 2 cfg10.N (ix2 g j)
      = Spec.kPoolS (fun n => En23 m ρ c (Pipeline.arrRef spec10 0) (ix2 n (0 : Fin 1)))
          (fun n j => En23 m ρ c (Pipeline.arrRef spec10 1) (ix2 n j)) g j)
    (hC : ∀ g : Fin 1024, (dat10 (En23 m ρ) c).arrAt 3 cfg10.N (ix2 (0 : Fin 1) g)
      = Spec.kPoolC (fun n => En23 m ρ c (Pipeline.arrRef spec10 0) (ix2 n (0 : Fin 1))) g)
    (g : Fin 1024) :
    W27 m ρ c (Proc.devRef .tc main_v59) (ix2 g (0 : Fin 1)) = Spec.kNet (kArgs m c) g := by

  have eB : (fun n : Fin 100000 => En23 m ρ c (Pipeline.arrRef spec10 0) (ix2 n (0 : Fin 1))) = (kArgs m c).batchW :=
    funext fun n => W23_batch m ρ c n
  have eH : (fun (n : Fin 100000) (j : Fin 128) => En23 m ρ c (Pipeline.arrRef spec10 1) (ix2 n j))
      = Spec.topRows (Spec.kH3 (kArgs m c)) :=
    funext fun n => funext fun j => W23_top m ρ c hL n j

  have eS : (fun (g : Fin 1024) (j : Fin 128) => W24 m ρ c (Proc.devRef .tc main_v45_0) (ix2 g j))
      = Spec.kPoolS (kArgs m c).batchW (Spec.topRows (Spec.kH3 (kArgs m c))) :=
    funext fun g => funext fun j =>
      (congrFun (W24_arr m ρ c 2) (ix2 g j)).trans
        ((hS g j).trans (congrArg₂ (fun b h => Spec.kPoolS b h g j) eB eH))
  have eC : (fun g : Fin 1024 => W24 m ρ c (Proc.devRef .tc main_v45_1) (ix2 (0 : Fin 1) g))
      = Spec.kPoolC (kArgs m c).batchW :=
    funext fun g =>
      (congrFun (W24_arr m ρ c 3) (ix2 (0 : Fin 1) g)).trans ((hC g).trans (congrArg (fun b => Spec.kPoolC b g) eB))

  have e11 : (fun (j : Fin 128) (k : Fin 64) => W24 m ρ c (Proc.devRef .tc main_arg11) (ix2 j k)) = (kArgs m c).Wd1 :=
    congrArg (fun (x : S128x64.Idx → EReal) => fun (j : Fin 128) (k : Fin 64) => x (ix2 j k)) (W24_head11 m ρ c)
  have e12 : (fun k : Fin 64 => W24 m ρ c (Proc.devRef .tc main_arg12) (ix1 k)) = (kArgs m c).bd1 :=
    congrArg (fun (x : S64.Idx → EReal) => fun k : Fin 64 => x (ix1 k)) (W24_head12 m ρ c)
  have e13 : (fun k : Fin 64 => W24 m ρ c (Proc.devRef .tc main_arg13) (ix2 k (0 : Fin 1))) = (kArgs m c).Wd2 :=
    congrArg (fun (x : S64x1.Idx → EReal) => fun k : Fin 64 => x (ix2 k (0 : Fin 1))) (W24_head13 m ρ c)
  have e14 : W24 m ρ c (Proc.devRef .tc main_arg14) (ix1 (0 : Fin 1)) = (kArgs m c).bd2 :=
    congrFun (W24_head14 m ρ c) (ix1 (0 : Fin 1))

  have e0 : W27 m ρ c (Proc.devRef .tc main_v59) (ix2 g (0 : Fin 1))
      = headOut (W24 m ρ c (Proc.devRef .tc main_v45_0)) (W24 m ρ c (Proc.devRef .tc main_v45_1))
          (W24 m ρ c (Proc.devRef .tc main_arg11)) (W24 m ρ c (Proc.devRef .tc main_arg12))
          (W24 m ρ c (Proc.devRef .tc main_arg13)) (W24 m ρ c (Proc.devRef .tc main_arg14)) (ix2 g (0 : Fin 1)) :=
    congrFun (tail_term (W24 m ρ c)) (ix2 g (0 : Fin 1))
  have hk : Spec.kNet (kArgs m c) g
      = Spec.tail (Spec.kPoolS (kArgs m c).batchW (Spec.topRows (Spec.kH3 (kArgs m c)))) (Spec.kPoolC (kArgs m c).batchW)
          (kArgs m c).Wd1 (kArgs m c).bd1 (kArgs m c).Wd2 (kArgs m c).bd2 g := rfl
  exact e0.trans ((headOut_read _ _ _ _ _ _ g).trans ((tail_congr eS eC e11 e12 e13 e14 g).trans hk.symm))

theorem result (c : Dev nD) (g : Fin 1024) :
    W27 m ρ c (Proc.devRef .tc main_v59) (ix2 g (0 : Fin 1)) = Spec.kNet (kArgs m c) g :=
  result_of m ρ c (layers m ρ c) (final10_sums (En23 m ρ) c) (final10_cnts (En23 m ρ) c) g

end Cert.KernelIdeal.Hand

end
-- ==== Proof.LibGatherRows.lean ====
import Idealize.ShloMosaic.PureOps
import Idealize.ShloMosaic.Lib.ValueIdx

namespace Cert.Att.Lib

open Idealize.ShloMosaic Idealize.ShloMosaic.ValueIdx

theorem gather_rows2 {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by

  have hsl : d.sliceSizes 0 = 1 := d.slice_collapsed 0 (by rw [hcoll]; exact List.mem_singleton.mpr rfl)

  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>

    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]

    refine congrArg (fun z => min (idx z).toInt.toNat (N - 1)) ?_
    funext b
    refine Fin.ext ?_
    match b with
    | ⟨0, _⟩ => rfl
    | ⟨1, _⟩ => rfl
  | ⟨1, _⟩ =>

    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

theorem gather_rows2_of_eq {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C)
    (n : Fin N) (hn : (idx (ix2 e 0)).toInt = (n.val : Int)) :
    Host.gather d x idx (ix2 e c) = x (ix2 n c) := by
  have hN : 0 < N := Nat.lt_of_le_of_lt (Nat.zero_le _) n.isLt
  rw [gather_rows2 d hoff hcoll hob hsim hivd hN x idx e c]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

end Cert.Att.Lib
-- ==== Proof.LibScatterRows.lean ====
import Idealize.ShloMosaic.PureOps
import Idealize.ShloMosaic.PureOps.Ideal
import Idealize.ShloMosaic.Lib.ValueIdx

open scoped BigOperators
open Idealize.ShloMosaic Idealize.ShloMosaic.ValueIdx

namespace Cert.Att.Lib

theorem start_window_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (u : (⟨2, ![E, C]⟩ : Shape).Idx) :
    d.start u idx 0 = (idx (ix2 (u 0) 0)).toInt ∧ d.start u idx 1 = 0
    ∧ d.window u 0 = 0 ∧ d.window u 1 = (u 1).val := by
  obtain ⟨uw, iw, sd, ivd, wf⟩ := d
  dsimp only at huw hiw hsd hivd
  subst huw hiw hsd hivd
  refine ⟨?_, ?_, ?_, ?_⟩
  · unfold ScatterDims.start
    rw [dif_pos (show (0 : Fin 2) ∈ ([0] : List (Fin 2)) by decide)]
    congr 2
    funext b
    match b with
    | ⟨0, _⟩ => rfl
    | ⟨1, _⟩ => rfl
  · unfold ScatterDims.start
    rw [dif_neg (show (1 : Fin 2) ∉ ([0] : List (Fin 2)) by decide)]
  · unfold ScatterDims.window
    split
    · rename_i ha
      exact absurd ha (show (0 : Fin 2) ∉ (List.finRange 2).filter (fun a => a ∉ ([0] : List (Fin 2))) by decide)
    · rfl
  · unfold ScatterDims.window
    split
    · rfl
    · rename_i ha
      exact absurd (show (1 : Fin 2) ∈ (List.finRange 2).filter (fun a => a ∉ ([0] : List (Fin 2))) by decide) ha

theorem resultIdx?_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨2, ![E, C]⟩ : Shape).Idx) :
    d.resultIdx? u idx = some (ix2 (dst (u 0)) (u 1)) := by
  obtain ⟨h0, h1, hw0, hw1⟩ := start_window_rows2 d huw hiw hsd hivd idx u
  have hd : d.start u idx 0 = ((dst (u 0)).val : ℤ) := h0.trans (hdst (u 0))
  have hlt0 : (dst (u 0)).val < N := (dst (u 0)).isLt
  have hlt1 : (u 1).val < C := idx2_lt1 u
  have hcond : ∀ a, 0 ≤ d.start u idx a + d.window u a ∧
      d.start u idx a + d.window u a < (⟨2, ![N, C]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
    | ⟨1, _⟩ =>
      show 0 ≤ d.start u idx 1 + (d.window u 1 : ℤ) ∧ d.start u idx 1 + (d.window u 1 : ℤ) < (C : ℤ)
      rw [h1, hw1]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega
  | ⟨1, _⟩ =>
    apply Fin.ext
    show (d.start u idx 1 + (d.window u 1 : ℤ)).toNat = (u 1).val
    rw [h1, hw1]
    omega

theorem scatterAdd_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w)
    (upd : (⟨2, ![E, C]⟩ : Shape).Idx → EReal)
    (dst : Fin E → Fin N) (hdst : ∀ e, (idx (ix2 e 0)).toInt = ((dst e).val : ℤ))
    (n : Fin N) (c : Fin C) :
    Ideal.hostScatterAdd d x idx upd (ix2 n c) =
      x (ix2 n c) + ∑ e ∈ Finset.univ.filter (fun e => dst e = n), upd (ix2 e c) := by
  unfold Ideal.hostScatterAdd
  congr 1
  symm
  refine Finset.sum_bij (fun e _ => ix2 e c) ?_ ?_ ?_ ?_
  · intro e he
    rw [Finset.mem_filter] at he ⊢
    refine ⟨Finset.mem_univ _, ?_⟩
    rw [resultIdx?_rows2 d huw hiw hsd hivd idx dst hdst]
    show some (ix2 (dst e) c) = some (ix2 n c)
    rw [he.2]
  · intro a _ b _ h
    exact congrFun h 0
  · intro u hu
    rw [Finset.mem_filter, resultIdx?_rows2 d huw hiw hsd hivd idx dst hdst] at hu
    have hu' := Option.some.inj hu.2
    have e0 : dst (u 0) = n := congrFun hu' 0
    have e1 : u 1 = c := congrFun hu' 1
    refine ⟨u 0, Finset.mem_filter.2 ⟨Finset.mem_univ _, e0⟩, ?_⟩
    rw [← e1]
    exact (eq_ix2 u).symm
  · intro e _
    rfl

end Cert.Att.Lib
-- ==== Proof.LibScatterVec.lean ====
import Idealize.ShloMosaic.PureOps
import Idealize.ShloMosaic.PureOps.Ideal
import Idealize.ShloMosaic.Lib.ValueIdx

open scoped BigOperators
open Idealize.ShloMosaic Idealize.ShloMosaic.ValueIdx

namespace Cert.Gnn.Lib

theorem start_window_vec {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hivd : d.indexVectorDim = 1)
    (idx : IVec ⟨2, ![E, 1]⟩ w) (u : (⟨1, ![E]⟩ : Shape).Idx) :
    d.start u idx 0 = (idx (ix2 (u 0) 0)).toInt ∧ d.window u 0 = 0 := by
  obtain ⟨uw, iw, sd, ivd, wf⟩ := d
  dsimp only at huw hiw hsd hivd
  subst huw hiw hsd hivd
  refine ⟨?_, ?_⟩
  · unfold ScatterDims.start
    rw [dif_pos (show (0 : Fin 1) ∈ ([0] : List (Fin 1)) by decide)]
    congr 2
    funext b
    match b with
    | ⟨0, _⟩ => rfl
    | ⟨1, _⟩ => rfl
  · unfold ScatterDims.window
    split
    · rename_i ha
      exact absurd ha (show (0 : Fin 1) ∉ (List.finRange 1).filter (fun a => a ∉ ([0] : List (Fin 1))) by decide)
    · rfl

theorem resultIdx?_vec {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨1, ![E]⟩ : Shape).Idx) :
    d.resultIdx? u idx = some (ix1 (dst (u 0))) := by
  obtain ⟨h0, hw0⟩ := start_window_vec d huw hiw hsd hivd idx u
  have hd : d.start u idx 0 = ((dst (u 0)).val : ℤ) := h0.trans (hdst (u 0))
  have hlt0 : (dst (u 0)).val < N := (dst (u 0)).isLt
  have hcond : ∀ a, 0 ≤ d.start u idx a + d.window u a ∧
      d.start u idx a + d.window u a < (⟨1, ![N]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega

theorem scatterAdd_vec {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![E, 1]⟩ w)
    (upd : (⟨1, ![E]⟩ : Shape).Idx → EReal)
    (dst : Fin E → Fin N) (hdst : ∀ e, (idx (ix2 e 0)).toInt = ((dst e).val : ℤ))
    (n : Fin N) :
    Ideal.hostScatterAdd d x idx upd (ix1 n) =
      x (ix1 n) + ∑ e ∈ Finset.univ.filter (fun e => dst e = n), upd (ix1 e) := by
  unfold Ideal.hostScatterAdd
  congr 1
  symm
  refine Finset.sum_bij (fun e _ => ix1 e) ?_ ?_ ?_ ?_
  · intro e he
    rw [Finset.mem_filter] at he ⊢
    refine ⟨Finset.mem_univ _, ?_⟩
    rw [resultIdx?_vec d huw hiw hsd hivd idx dst hdst]
    show some (ix1 (dst e)) = some (ix1 n)
    rw [he.2]
  · intro a _ b _ h
    exact congrFun h 0
  · intro u hu
    rw [Finset.mem_filter, resultIdx?_vec d huw hiw hsd hivd idx dst hdst] at hu
    have hu' := Option.some.inj hu.2
    have e0 : dst (u 0) = n := congrFun hu' 0
    exact ⟨u 0, Finset.mem_filter.2 ⟨Finset.mem_univ _, e0⟩, (eq_ix1 u).symm⟩
  · intro e _
    rfl

end Cert.Gnn.Lib
-- ==== Proof.RefLib.lean ====
import proofs.«429186_j15229954031644_1_alg».proof.Proof.Gen.ReferenceIdeal
import proofs.«429186_j15229954031644_1_alg».proof.Proof.Spec
import proofs.«429186_j15229954031644_1_alg».proof.Proof.LibGatherRows
import proofs.«429186_j15229954031644_1_alg».proof.Proof.LibScatterRows
import proofs.«429186_j15229954031644_1_alg».proof.Proof.LibScatterVec
import Idealize.ShloMosaic.Lib.Pipeline.Value
import Idealize.ShloMosaic.Lib.ValueIdx
import Idealize.ShloMosaic.Lib.Affine
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

theorem toInt_word (k : Nat) (hk : k < 100000) : (BitVec.ofNat 32 k).toInt = (k : Int) := by
  rw [BitVec.toInt_eq_toNat_cond, BitVec.toNat_ofNat, Nat.mod_eq_of_lt (by omega : k < 2 ^ 32)]
  split <;> omega

theorem wrap_word (k : Nat) (hk : k < 100000) :
    Scalar.select (IntOp.cmpi .slt (BitVec.ofNat 32 k) 0#32) (IntOp.addi (BitVec.ofNat 32 k) 100000#32)
      (BitVec.ofNat 32 k) = BitVec.ofNat 32 k := by
  have h0 : (0#32 : BitVec 32).toInt = 0 := by decide
  have hc : ¬ IntOp.cmpi .slt (BitVec.ofNat 32 k) 0#32 = 1#1 := by
    rw [IntOp.cmpi_slt, toInt_word k hk, h0]
    omega
  rw [eq_zero_of_ne_one hc]
  exact select_zero _ _

theorem one_word : Ideal.ofBits .f32 0x3F800000#32 = 1 := by
  simp [Ideal.ofBits, Ideal.ieee, -EReal.coe_mul]; norm_num

theorem gather_row (H : FVec Ideal S100000x128 .f32) (I : IVec S1600000x1 32)
    (src : Fin 1600000 → Fin 100000) (hI : ∀ e, I (ix2 e 0) = BitVec.ofNat 32 (src e).val)
    (e : Fin 1600000) (j : Fin 128) :
    Host.gather gather_S100000x128_S1600000x1_S1600000x128_1_0_n_n_0_1_1128 H I (ix2 e j) = H (ix2 (src e) j) :=
  Cert.Att.Lib.gather_rows2_of_eq _ rfl rfl rfl rfl rfl H I e j (src e)
    (by rw [hI e]; exact toInt_word _ (src e).isLt)

theorem scatter_nodes (X : FVec Ideal S100000x128 .f32) (I : IVec S1600000x1 32) (U : FVec Ideal S1600000x128 .f32)
    (dst : Fin 1600000 → Fin 100000) (hI : ∀ e, I (ix2 e 0) = BitVec.ofNat 32 (dst e).val)
    (n : Fin 100000) (j : Fin 128) :
    Host.scatterAdd scatter_S100000x128_S1600000x1_S1600000x128_1_0_0_1 X I U (ix2 n j)
      = X (ix2 n j) + ∑ e : Fin 1600000, if dst e = n then U (ix2 e j) else 0 := by
  show Ideal.hostScatterAdd scatter_S100000x128_S1600000x1_S1600000x128_1_0_0_1 X I U (ix2 n j) = _
  rw [Cert.Att.Lib.scatterAdd_rows2 _ rfl rfl rfl rfl X I U dst
    (fun e => by rw [hI e]; exact toInt_word _ (dst e).isLt) n j, Finset.sum_filter]

theorem scatter_graphs (X : FVec Ideal S1024x128 .f32) (I : IVec S100000x1 32) (U : FVec Ideal S100000x128 .f32)
    (batch : Fin 100000 → Fin 1024) (hI : ∀ n, I (ix2 n 0) = BitVec.ofNat 32 (batch n).val)
    (g : Fin 1024) (j : Fin 128) :
    Host.scatterAdd scatter_S1024x128_S100000x1_S100000x128_1_0_0_1 X I U (ix2 g j)
      = X (ix2 g j) + ∑ n : Fin 100000, if batch n = g then U (ix2 n j) else 0 := by
  show Ideal.hostScatterAdd scatter_S1024x128_S100000x1_S100000x128_1_0_0_1 X I U (ix2 g j) = _
  rw [Cert.Att.Lib.scatterAdd_rows2 _ rfl rfl rfl rfl X I U batch
    (fun n => by rw [hI n]; exact toInt_word _ (by have := (batch n).isLt; omega)) g j, Finset.sum_filter]

theorem scatter_counts (X : FVec Ideal S1024 .f32) (I : IVec S100000x1 32) (U : FVec Ideal S100000 .f32)
    (batch : Fin 100000 → Fin 1024) (hI : ∀ n, I (ix2 n 0) = BitVec.ofNat 32 (batch n).val)
    (g : Fin 1024) :
    Host.scatterAdd scatter_S1024_S100000x1_S100000_n_0_0_1 X I U (ix1 g)
      = X (ix1 g) + ∑ n : Fin 100000, if batch n = g then U (ix1 n) else 0 := by
  show Ideal.hostScatterAdd scatter_S1024_S100000x1_S100000_n_0_0_1 X I U (ix1 g) = _
  rw [Cert.Gnn.Lib.scatterAdd_vec _ rfl rfl rfl rfl X I U batch
    (fun n => by rw [hI n]; exact toInt_word _ (by have := (batch n).isLt; omega)) g, Finset.sum_filter]

theorem lhs128_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs128_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs128_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs128_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

theorem dot128_apply (L : FVec Ideal S100000x128 .f32) (R : FVec Ideal S128x128 .f32) (n : Fin 100000) (j : Fin 128) :
    Host.dotGeneral dot_S100000x128_S128x128_S100000x128_1_0_0_1_n_n none L R (ix2 n j) = ∑ k : Fin 128, L (ix2 n k) * R (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 n j) ((ValueIdx.contrEquiv1 dot_S100000x128_S128x128_S100000x128_1_0_0_1_n_n 128 rfl rfl).symm k) = ix2 n k := funext fun a => Fin.ext (by
    match a with
    | ⟨0, _⟩ => exact lhs128_0 _ _
    | ⟨1, _⟩ => exact (lhs128_1 _ _).trans hk)
  have er : dot_S100000x128_S128x128_S100000x128_1_0_0_1_n_n.rhsIdx (ix2 n j) ((ValueIdx.contrEquiv1 dot_S100000x128_S128x128_S100000x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

theorem wrap_index (w : IVec S1600000 32) (src : Fin 1600000 → Fin 100000)
    (hw : ∀ e, w (ix1 e) = BitVec.ofNat 32 (src e).val) (e : Fin 1600000) :
    broadcastInDim S1600000x1 ![0] bcast_S1600000_S1600000x1_0
      (select (cmpi .slt w (broadcastInDim S1600000 ![] bcast_S_S1600000 (constantI S_ 32 0#32)))
        (addi w (broadcastInDim S1600000 ![] bcast_S_S1600000 (constantI S_ 32 100000#32))) w) (ix2 e 0)
      = BitVec.ofNat 32 (src e).val := by
  rw [broadcastInDim_apply _ bcast_S1600000_S1600000x1_0 _ (ix2 e 0) (ix1 e) (fun a => match a with
    | ⟨0, _⟩ => by show e.val = if (1600000 : Nat) = 1 then 0 else e.val; rw [if_neg (by decide)])]
  show Scalar.select (IntOp.cmpi .slt (w (ix1 e)) 0#32) (IntOp.addi (w (ix1 e)) 100000#32) (w (ix1 e)) = _
  rw [hw e]
  exact wrap_word _ (src e).isLt

theorem one_plus_bcast (y : FVec Ideal S1 .f32) (i : S100000x128.Idx) :
    broadcastInDim S100000x128 ![] bcast_S_S100000x128
        (addf (constant (F := Ideal) S_ .f32 0x3F800000#32) (shapeCast _ y shapeCasts_S1_S_)) i
      = 1 + y (ix1 (0 : Fin 1)) := by
  rw [broadcastInDim_apply _ bcast_S_S100000x128 _ i ix0 (fun a => a.elim0)]
  show Ideal.ofBits .f32 0x3F800000#32 + shapeCast S_ y shapeCasts_S1_S_ ix0 = _
  rw [one_word, shapeCast_apply y shapeCasts_S1_S_ ix0 (ix1 (0 : Fin 1)) (by
    have h1 := (S1.rowMajor (ix1 (0 : Fin 1))).isLt
    have h2 := (S_.rowMajor ix0).isLt
    have e1 : S1.numel = 1 := by decide
    have e2 : S_.numel = 1 := by decide
    omega)]

theorem eps_read (x10 : FVec Ideal S3 .f32) (l : Fin 3) (sl : S3.Slices ![l.val] S1) (i : S100000x128.Idx) :
    broadcastInDim S100000x128 ![] bcast_S_S100000x128
        (addf (constant (F := Ideal) S_ .f32 0x3F800000#32)
          (shapeCast _ (extractStridedSlice S1 ![l.val] x10 sl) shapeCasts_S1_S_)) i
      = 1 + x10 (ix1 l) := by
  rw [one_plus_bcast]
  exact congrArg (fun z => 1 + z) (extractStridedSlice_apply ![l.val] x10 sl (ix1 (0 : Fin 1)) (ix1 l) (fun a => match a with
    | ⟨0, _⟩ => by show l.val = l.val + 0; omega))

theorem w_read (x8 : FVec Ideal S3x128x128 .f32) (l : Fin 3) (sl : S3x128x128.Slices ![l.val, 0, 0] S1x128x128)
    (k j : Fin 128) :
    shapeCast S128x128 (extractStridedSlice S1x128x128 ![l.val, 0, 0] x8 sl) shapeCasts_S1x128x128_S128x128 (ix2 k j)
      = x8 (ix3 l k j) := by
  rw [shapeCast_apply _ shapeCasts_S1x128x128_S128x128 (ix2 k j) (ix3 (0 : Fin 1) k j) (by
    rewrite [Shape.rowMajor_val_three, Shape.rowMajor_val_two]
    show (0 * 128 + k.val) * 128 + j.val = k.val * 128 + j.val
    omega)]
  exact extractStridedSlice_apply ![l.val, 0, 0] x8 sl (ix3 (0 : Fin 1) k j) (ix3 l k j) (fun a => match a with
    | ⟨0, _⟩ => by show l.val = l.val + 0; omega
    | ⟨1, _⟩ => by show k.val = 0 + k.val; omega
    | ⟨2, _⟩ => by show j.val = 0 + j.val; omega)

theorem b_read (x9 : FVec Ideal S3x128 .f32) (l : Fin 3) (sl : S3x128.Slices ![l.val, 0] S1x128)
    (n : Fin 100000) (j : Fin 128) :
    broadcastInDim S100000x128 ![0, 1] bcast_S1x128_S100000x128_0_1
        (broadcastInDim S1x128 ![1] bcast_S128_S1x128_1
          (shapeCast S128 (extractStridedSlice S1x128 ![l.val, 0] x9 sl) shapeCasts_S1x128_S128)) (ix2 n j)
      = x9 (ix2 l j) := by
  rw [broadcastInDim_apply _ bcast_S1x128_S100000x128_0_1 _ (ix2 n j) (ix2 (0 : Fin 1) j) (fun a => match a with
      | ⟨0, _⟩ => by show 0 = if (1 : Nat) = 1 then 0 else n.val; rw [if_pos rfl]
      | ⟨1, _⟩ => by show j.val = if (128 : Nat) = 1 then 0 else j.val; rw [if_neg (by decide)]),
    broadcastInDim_apply _ bcast_S128_S1x128_1 _ (ix2 (0 : Fin 1) j) (ix1 j) (fun a => match a with
      | ⟨0, _⟩ => by show j.val = if (128 : Nat) = 1 then 0 else j.val; rw [if_neg (by decide)]),
    shapeCast_apply _ shapeCasts_S1x128_S128 (ix1 j) (ix2 (0 : Fin 1) j) (by
      rewrite [Shape.rowMajor_val_two, Shape.rowMajor_val_one]
      show 0 * 128 + j.val = j.val
      omega)]
  exact extractStridedSlice_apply ![l.val, 0] x9 sl (ix2 (0 : Fin 1) j) (ix2 l j) (fun a => match a with
    | ⟨0, _⟩ => by show l.val = l.val + 0; omega
    | ⟨1, _⟩ => by show j.val = 0 + j.val; omega)

theorem column_read (w : IVec S1600000 32) (e : Fin 1600000) :
    broadcastInDim S1600000x1 ![0] bcast_S1600000_S1600000x1_0 w (ix2 e 0) = w (ix1 e) :=
  broadcastInDim_apply _ bcast_S1600000_S1600000x1_0 w (ix2 e 0) (ix1 e) (fun a => match a with
    | ⟨0, _⟩ => by show e.val = if (1600000 : Nat) = 1 then 0 else e.val; rw [if_neg (by decide)])

theorem column_read' (w : IVec S100000 32) (n : Fin 100000) :
    broadcastInDim S100000x1 ![0] bcast_S100000_S100000x1_0 w (ix2 n 0) = w (ix1 n) :=
  broadcastInDim_apply _ bcast_S100000_S100000x1_0 w (ix2 n 0) (ix1 n) (fun a => match a with
    | ⟨0, _⟩ => by show n.val = if (100000 : Nat) = 1 then 0 else n.val; rw [if_neg (by decide)])

theorem layer_apply (a : Spec.Args) (src dst : Fin 1600000 → Fin 100000) (l : Fin 3)
    (h : Fin 100000 → Fin 128 → EReal)
    (H P B Z3 Z2 : FVec Ideal S100000x128 .f32) (E Z1 : FVec Ideal S1600000x128 .f32)
    (Is Id : IVec S1600000x1 32) (W : FVec Ideal S128x128 .f32)
    (hH : ∀ n j, H (ix2 n j) = h n j)
    (hE : ∀ e j, E (ix2 e j) = (∑ _k : Fin 1, a.ed e * a.We j) + a.be j)
    (hIs : ∀ e, Is (ix2 e 0) = BitVec.ofNat 32 (src e).val)
    (hId : ∀ e, Id (ix2 e 0) = BitVec.ofNat 32 (dst e).val)
    (hP : ∀ i, P i = 1 + a.eps l)
    (hW : ∀ k j, W (ix2 k j) = a.convW l k j)
    (hB : ∀ n j, B (ix2 n j) = a.convb l j)
    (hZ1 : ∀ i, Z1 i = 0) (hZ2 : ∀ i, Z2 i = 0) (hZ3 : ∀ i, Z3 i = 0)
    (n : Fin 100000) (j : Fin 128) :
    addf (maximumf (addf (Host.dotGeneral dot_S100000x128_S128x128_S100000x128_1_0_0_1_n_n none
        (addf (mulf P H) (Host.scatterAdd scatter_S100000x128_S1600000x1_S1600000x128_1_0_0_1 Z2 Id
          (maximumf (addf (Host.gather gather_S100000x128_S1600000x1_S1600000x128_1_0_n_n_0_1_1128 H Is) E) Z1))) W) B) Z3) H (ix2 n j)
      = Spec.rLayer a src dst l h n j := by
  have hmsg : ∀ e j, maximumf (addf (Host.gather gather_S100000x128_S1600000x1_S1600000x128_1_0_n_n_0_1_1128 H Is) E) Z1 (ix2 e j) = Spec.rMsg src h a e j := by
    intro e j
    show max (Host.gather gather_S100000x128_S1600000x1_S1600000x128_1_0_n_n_0_1_1128 H Is (ix2 e j) + E (ix2 e j)) (Z1 (ix2 e j)) = _
    rw [gather_row H Is src hIs e j, hH, hE, hZ1]
    rfl
  have haggr : ∀ n j, Host.scatterAdd scatter_S100000x128_S1600000x1_S1600000x128_1_0_0_1 Z2 Id (maximumf (addf (Host.gather gather_S100000x128_S1600000x1_S1600000x128_1_0_n_n_0_1_1128 H Is) E) Z1) (ix2 n j)
      = Spec.rAggr dst (Spec.rMsg src h a) n j := by
    intro n j
    rw [scatter_nodes Z2 Id _ dst hId n j, hZ2]
    simp only [hmsg]
    rfl
  have hterm : ∀ k : Fin 128,
      (addf (mulf P H) (Host.scatterAdd scatter_S100000x128_S1600000x1_S1600000x128_1_0_0_1 Z2 Id (maximumf (addf (Host.gather gather_S100000x128_S1600000x1_S1600000x128_1_0_n_n_0_1_1128 H Is) E) Z1))) (ix2 n k) * W (ix2 k j)
        = ((1 + a.eps l) * h n k + Spec.rAggr dst (Spec.rMsg src h a) n k) * a.convW l k j := by
    intro k
    show (P (ix2 n k) * H (ix2 n k) + Host.scatterAdd scatter_S100000x128_S1600000x1_S1600000x128_1_0_0_1 Z2 Id (maximumf (addf (Host.gather gather_S100000x128_S1600000x1_S1600000x128_1_0_n_n_0_1_1128 H Is) E) Z1) (ix2 n k)) * W (ix2 k j) = _
    rw [hP, hH, haggr, hW]
  show max (Host.dotGeneral dot_S100000x128_S128x128_S100000x128_1_0_0_1_n_n none _ W (ix2 n j) + B (ix2 n j)) (Z3 (ix2 n j)) + H (ix2 n j) = _
  rw [dot128_apply, hB, hZ3, hH]
  simp only [hterm]
  rfl

theorem pool_sums (X : FVec Ideal S1024x128 .f32) (I : IVec S100000x1 32) (U : FVec Ideal S100000x128 .f32)
    (batch : Fin 100000 → Fin 1024) (h : Fin 100000 → Fin 128 → EReal)
    (hI : ∀ n, I (ix2 n 0) = BitVec.ofNat 32 (batch n).val) (hX : ∀ i, X i = 0)
    (hU : ∀ n j, U (ix2 n j) = h n j) (g : Fin 1024) (j : Fin 128) :
    Host.scatterAdd scatter_S1024x128_S100000x1_S100000x128_1_0_0_1 X I U (ix2 g j) = Spec.rPoolS batch h g j := by
  rw [scatter_graphs X I U batch hI g j, hX]
  simp only [hU]
  rfl

theorem pool_counts (X : FVec Ideal S1024 .f32) (I : IVec S100000x1 32) (U : FVec Ideal S100000 .f32)
    (batch : Fin 100000 → Fin 1024)
    (hI : ∀ n, I (ix2 n 0) = BitVec.ofNat 32 (batch n).val) (hX : ∀ i, X i = 0) (hU : ∀ i, U i = 1)
    (g : Fin 1024) :
    Host.scatterAdd scatter_S1024_S100000x1_S100000_n_0_0_1 X I U (ix1 g) = Spec.rPoolC batch g := by
  rw [scatter_counts X I U batch hI g, hX]
  simp only [hU]
  rfl

end Cert.ReferenceIdeal.Hand

end
-- ==== Proof.Ref.lean ====
import proofs.«429186_j15229954031644_1_alg».proof.Proof.Gen.ReferenceIdeal
import proofs.«429186_j15229954031644_1_alg».proof.Proof.Gen.ReferenceIdeal.Run
import proofs.«429186_j15229954031644_1_alg».proof.Proof.Gen.ReferenceIdeal.Read
import proofs.«429186_j15229954031644_1_alg».proof.Proof.Spec
import proofs.«429186_j15229954031644_1_alg».proof.Proof.RefLib

set_option maxRecDepth 16384

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

def argsOf (x0 : (⟨S100000x13, .f32⟩ : BufTy).Contents (Elt Ideal)) (x1 : (⟨S1600000, .f32⟩ : BufTy).Contents (Elt Ideal)) (x2 : (⟨S2x1600000, .i32⟩ : BufTy).Contents (Elt Ideal)) (x3 : (⟨S100000, .i32⟩ : BufTy).Contents (Elt Ideal)) (x4 : (⟨S13x128, .f32⟩ : BufTy).Contents (Elt Ideal)) (x5 : (⟨S128, .f32⟩ : BufTy).Contents (Elt Ideal)) (x6 : (⟨S1x128, .f32⟩ : BufTy).Contents (Elt Ideal)) (x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3, .f32⟩ : BufTy).Contents (Elt Ideal)) (x11 : (⟨S128x64, .f32⟩ : BufTy).Contents (Elt Ideal)) (x12 : (⟨S64, .f32⟩ : BufTy).Contents (Elt Ideal)) (x13 : (⟨S64x1, .f32⟩ : BufTy).Contents (Elt Ideal)) (x14 : (⟨S1, .f32⟩ : BufTy).Contents (Elt Ideal)) : Spec.Args where
  x := fun n k => x0 (ix2 n k)
  ed := fun e => x1 (ix1 e)
  srcW := fun e => x2 (ix2 (0 : Fin 2) e)
  dstW := fun e => x2 (ix2 (1 : Fin 2) e)
  batchW := fun n => x3 (ix1 n)
  Wn := fun k j => x4 (ix2 k j)
  bn := fun j => x5 (ix1 j)
  We := fun j => x6 (ix2 (0 : Fin 1) j)
  be := fun j => x7 (ix1 j)
  convW := fun l k j => x8 (ix3 l k j)
  convb := fun l j => x9 (ix2 l j)
  eps := fun l => x10 (ix1 l)
  Wd1 := fun j k => x11 (ix2 j k)
  bd1 := fun k => x12 (ix1 k)
  Wd2 := fun k => x13 (ix2 k (0 : Fin 1))
  bd2 := x14 (ix1 (0 : Fin 1))

def refArgs (m' : (ℓ : Loc nD τ sig) → Buf (Elt Ideal) ℓ) (c : Dev nD) : Spec.Args :=
  argsOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14))

section Stages

variable (x0 : (⟨S100000x13, .f32⟩ : BufTy).Contents (Elt Ideal)) (x1 : (⟨S1600000, .f32⟩ : BufTy).Contents (Elt Ideal)) (x2 : (⟨S2x1600000, .i32⟩ : BufTy).Contents (Elt Ideal)) (x3 : (⟨S100000, .i32⟩ : BufTy).Contents (Elt Ideal)) (x4 : (⟨S13x128, .f32⟩ : BufTy).Contents (Elt Ideal)) (x5 : (⟨S128, .f32⟩ : BufTy).Contents (Elt Ideal)) (x6 : (⟨S1x128, .f32⟩ : BufTy).Contents (Elt Ideal)) (x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3, .f32⟩ : BufTy).Contents (Elt Ideal)) (x11 : (⟨S128x64, .f32⟩ : BufTy).Contents (Elt Ideal)) (x12 : (⟨S64, .f32⟩ : BufTy).Contents (Elt Ideal)) (x13 : (⟨S64x1, .f32⟩ : BufTy).Contents (Elt Ideal)) (x14 : (⟨S1, .f32⟩ : BufTy).Contents (Elt Ideal))
variable (src dst : Fin 1600000 → Fin 100000) (batch : Fin 100000 → Fin 1024)

local notation "𝔸" => argsOf x0 x1 x2 x3 x4 x5 x6 x7 x8 x9 x10 x11 x12 x13 x14

theorem h0_apply (n : Fin 100000) (j : Fin 128) :
    val_main_v7 (F := Ideal) x0 x4 x5 (ix2 n j) = (∑ k : Fin 13, x0 (ix2 n k) * x4 (ix2 k j)) + x5 (ix1 j) := by
  rw [val_main_v7_apply, val_main_v4_apply, val_main_v6_apply, val_main_v5_apply]
  have e1 : ∀ k, lidx_main_v4 (ix2 n j) k = ix2 n k := fun k => funext fun a => Fin.ext (by
    match a with
    | ⟨0, _⟩ => rfl
    | ⟨1, _⟩ => rfl)
  have e2 : ∀ k, ridx_main_v4 (ix2 n j) k = ix2 k j := fun k => funext fun a => Fin.ext (by
    match a with
    | ⟨0, _⟩ => rfl
    | ⟨1, _⟩ => rfl)
  have e3 : idx_main_v5 (idx_main_v6 (ix2 n j)) = ix1 j := funext fun a => Fin.ext (by
    match a with
    | ⟨0, _⟩ => rfl)
  simp only [e1, e2, e3]
  rfl

theorem edge_apply (e : Fin 1600000) (j : Fin 128) :
    val_main_v12 (F := Ideal) x1 x6 x7 (ix2 e j)
      = (∑ _k : Fin 1, x1 (ix1 e) * x6 (ix2 (0 : Fin 1) j)) + x7 (ix1 j) := by
  rw [val_main_v12_apply, val_main_v9_apply, val_main_v11_apply, val_main_v10_apply]
  simp only [val_main_v8_apply]
  have e1 : ∀ k, idx_main_v8 (lidx_main_v9 (ix2 e j) k) = ix1 e := fun k => funext fun a => Fin.ext (by
    match a with
    | ⟨0, _⟩ => rfl)
  have e2 : ∀ k : Fin 1, ridx_main_v9 (ix2 e j) k = ix2 (0 : Fin 1) j := fun k => funext fun a => Fin.ext (by
    match a with
    | ⟨0, _⟩ => have := k.isLt; show k.val = 0; omega
    | ⟨1, _⟩ => rfl)
  have e3 : idx_main_v10 (idx_main_v11 (ix2 e j)) = ix1 j := funext fun a => Fin.ext (by
    match a with
    | ⟨0, _⟩ => rfl)
  simp only [e1, e2, e3]
  rfl

theorem srcw_apply (e : Fin 1600000) : val_main_v1 (F := Ideal) x2 (ix1 e) = x2 (ix2 (0 : Fin 2) e) := by
  rw [val_main_v1_apply, val_main_v0_apply]
  refine congrArg x2 (funext fun a => Fin.ext ?_)
  match a with
  | ⟨0, _⟩ => rfl
  | ⟨1, _⟩ => exact Nat.mod_eq_of_lt e.isLt

theorem dstw_apply (e : Fin 1600000) : val_main_v3 (F := Ideal) x2 (ix1 e) = x2 (ix2 (1 : Fin 2) e) := by
  rw [val_main_v3_apply, val_main_v2_apply]
  refine congrArg x2 (funext fun a => Fin.ext ?_)
  match a with
  | ⟨0, _⟩ => rfl
  | ⟨1, _⟩ => exact Nat.mod_eq_of_lt e.isLt

theorem srccol (hs : ∀ e, x2 (ix2 (0 : Fin 2) e) = BitVec.ofNat 32 (src e).val) (e : Fin 1600000) :
    val_main_v18 (F := Ideal) x2 (ix2 e 0) = BitVec.ofNat 32 (src e).val :=
  wrap_index (val_main_v1 (F := Ideal) x2) src (fun e => (srcw_apply x2 e).trans (hs e)) e

theorem dstcol (hd : ∀ e, x2 (ix2 (1 : Fin 2) e) = BitVec.ofNat 32 (dst e).val) (e : Fin 1600000) :
    val_main_v23 (F := Ideal) x2 (ix2 e 0) = BitVec.ofNat 32 (dst e).val :=
  (column_read (val_main_v3 (F := Ideal) x2) e).trans ((dstw_apply x2 e).trans (hd e))

theorem layer0 (hs : ∀ e, x2 (ix2 (0 : Fin 2) e) = BitVec.ofNat 32 (src e).val)
    (hd : ∀ e, x2 (ix2 (1 : Fin 2) e) = BitVec.ofNat 32 (dst e).val) (n : Fin 100000) (j : Fin 128) :
    val_main_v40 (F := Ideal) x0 x1 x2 x4 x5 x6 x7 x8 x9 x10 (ix2 n j) = Spec.rH1 𝔸 src dst n j :=
  layer_apply 𝔸 src dst (0 : Fin 3) (Spec.rH0 𝔸)
    (val_main_v7 (F := Ideal) x0 x4 x5) (val_main_v28 (F := Ideal) x10) (val_main_v37 (F := Ideal) x9)
    (val_main_call1_v0 (F := Ideal)) (val_main_v22 (F := Ideal))
    (val_main_v12 (F := Ideal) x1 x6 x7) (val_main_call0_v0 (F := Ideal))
    (val_main_v18 (F := Ideal) x2) (val_main_v23 (F := Ideal) x2) (val_main_v32 (F := Ideal) x8)
    (h0_apply x0 x4 x5) (edge_apply x1 x6 x7) (srccol x2 src hs) (dstcol x2 dst hd)
    (eps_read x10 0 slices_S3_S1_0) (w_read x8 0 slices_S3x128x128_S1x128x128_0_0_0)
    (b_read x9 0 slices_S3x128_S1x128_0_0)
    (fun _ => Ideal.ofBits_zero_f32) (fun _ => Ideal.ofBits_zero_f32) (fun _ => Ideal.ofBits_zero_f32) n j

theorem layer1 (hs : ∀ e, x2 (ix2 (0 : Fin 2) e) = BitVec.ofNat 32 (src e).val)
    (hd : ∀ e, x2 (ix2 (1 : Fin 2) e) = BitVec.ofNat 32 (dst e).val) (n : Fin 100000) (j : Fin 128) :
    val_main_v68 (F := Ideal) x0 x1 x2 x4 x5 x6 x7 x8 x9 x10 (ix2 n j) = Spec.rH2 𝔸 src dst n j :=
  layer_apply 𝔸 src dst (1 : Fin 3) (Spec.rH1 𝔸 src dst)
    (val_main_v40 (F := Ideal) x0 x1 x2 x4 x5 x6 x7 x8 x9 x10) (val_main_v56 (F := Ideal) x10)
    (val_main_v65 (F := Ideal) x9) (val_main_call3_v0 (F := Ideal)) (val_main_v50 (F := Ideal))
    (val_main_v12 (F := Ideal) x1 x6 x7) (val_main_call2_v0 (F := Ideal))
    (val_main_v46 (F := Ideal) x2) (val_main_v51 (F := Ideal) x2) (val_main_v60 (F := Ideal) x8)
    (layer0 x0 x1 x2 x3 x4 x5 x6 x7 x8 x9 x10 x11 x12 x13 x14 src dst hs hd) (edge_apply x1 x6 x7)
    (srccol x2 src hs) (dstcol x2 dst hd)
    (eps_read x10 1 slices_S3_S1_1) (w_read x8 1 slices_S3x128x128_S1x128x128_1_0_0)
    (b_read x9 1 slices_S3x128_S1x128_1_0)
    (fun _ => Ideal.ofBits_zero_f32) (fun _ => Ideal.ofBits_zero_f32) (fun _ => Ideal.ofBits_zero_f32) n j

theorem layer2 (hs : ∀ e, x2 (ix2 (0 : Fin 2) e) = BitVec.ofNat 32 (src e).val)
    (hd : ∀ e, x2 (ix2 (1 : Fin 2) e) = BitVec.ofNat 32 (dst e).val) (n : Fin 100000) (j : Fin 128) :
    val_main_v96 (F := Ideal) x0 x1 x2 x4 x5 x6 x7 x8 x9 x10 (ix2 n j) = Spec.rH3 𝔸 src dst n j :=
  layer_apply 𝔸 src dst (2 : Fin 3) (Spec.rH2 𝔸 src dst)
    (val_main_v68 (F := Ideal) x0 x1 x2 x4 x5 x6 x7 x8 x9 x10) (val_main_v84 (F := Ideal) x10)
    (val_main_v93 (F := Ideal) x9) (val_main_call5_v0 (F := Ideal)) (val_main_v78 (F := Ideal))
    (val_main_v12 (F := Ideal) x1 x6 x7) (val_main_call4_v0 (F := Ideal))
    (val_main_v74 (F := Ideal) x2) (val_main_v79 (F := Ideal) x2) (val_main_v88 (F := Ideal) x8)
    (layer1 x0 x1 x2 x3 x4 x5 x6 x7 x8 x9 x10 x11 x12 x13 x14 src dst hs hd) (edge_apply x1 x6 x7)
    (srccol x2 src hs) (dstcol x2 dst hd)
    (eps_read x10 2 slices_S3_S1_2) (w_read x8 2 slices_S3x128x128_S1x128x128_2_0_0)
    (b_read x9 2 slices_S3x128_S1x128_2_0)
    (fun _ => Ideal.ofBits_zero_f32) (fun _ => Ideal.ofBits_zero_f32) (fun _ => Ideal.ofBits_zero_f32) n j

theorem sums_apply (hs : ∀ e, x2 (ix2 (0 : Fin 2) e) = BitVec.ofNat 32 (src e).val)
    (hd : ∀ e, x2 (ix2 (1 : Fin 2) e) = BitVec.ofNat 32 (dst e).val)
    (hb : ∀ n, x3 (ix1 n) = BitVec.ofNat 32 (batch n).val) (g : Fin 1024) (j : Fin 128) :
    val_main_v99 (F := Ideal) x0 x1 x2 x3 x4 x5 x6 x7 x8 x9 x10 (ix2 g j)
      = Spec.rPoolS batch (Spec.rH3 𝔸 src dst) g j :=
  pool_sums (val_main_v97 (F := Ideal)) (val_main_v98 (F := Ideal) x3)
    (val_main_v96 (F := Ideal) x0 x1 x2 x4 x5 x6 x7 x8 x9 x10) batch (Spec.rH3 𝔸 src dst)
    (fun n => (column_read' x3 n).trans (hb n)) (fun _ => Ideal.ofBits_zero_f32)
    (layer2 x0 x1 x2 x3 x4 x5 x6 x7 x8 x9 x10 x11 x12 x13 x14 src dst hs hd) g j

theorem cnts_apply (hb : ∀ n, x3 (ix1 n) = BitVec.ofNat 32 (batch n).val) (g : Fin 1024) :
    val_main_v103 (F := Ideal) x3 (ix1 g) = Spec.rPoolC batch g :=
  pool_counts (val_main_v101 (F := Ideal)) (val_main_v102 (F := Ideal) x3) (val_main_v100 (F := Ideal)) batch
    (fun n => (column_read' x3 n).trans (hb n)) (fun _ => Ideal.ofBits_zero_f32) (fun _ => one_word) g

theorem mean_apply (hs : ∀ e, x2 (ix2 (0 : Fin 2) e) = BitVec.ofNat 32 (src e).val)
    (hd : ∀ e, x2 (ix2 (1 : Fin 2) e) = BitVec.ofNat 32 (dst e).val)
    (hb : ∀ n, x3 (ix1 n) = BitVec.ofNat 32 (batch n).val) (g : Fin 1024) (j : Fin 128) :
    val_main_v108 (F := Ideal) x0 x1 x2 x3 x4 x5 x6 x7 x8 x9 x10 (ix2 g j)
      = Ideal.div (Spec.rPoolS batch (Spec.rH3 𝔸 src dst) g j) (max (Spec.rPoolC batch g) 1) := by
  rw [val_main_v108_apply, val_main_v107_apply, val_main_v106_apply, val_main_v105_apply, val_main_v104_apply,
    val_main_cst_13_apply, sums_apply x0 x1 x2 x3 x4 x5 x6 x7 x8 x9 x10 x11 x12 x13 x14 src dst batch hs hd hb g j,
    (show idx_main_v106 (idx_main_v107 (ix2 g j)) = ix1 g from funext fun a => Fin.ext (by
      match a with
      | ⟨0, _⟩ => rfl)),
    cnts_apply x3 batch hb g]
  show Ideal.div _ (max _ (Ideal.ofBits .f32 0x3F800000#32)) = _
  rw [one_word]

theorem hidden_apply (hs : ∀ e, x2 (ix2 (0 : Fin 2) e) = BitVec.ofNat 32 (src e).val)
    (hd : ∀ e, x2 (ix2 (1 : Fin 2) e) = BitVec.ofNat 32 (dst e).val)
    (hb : ∀ n, x3 (ix1 n) = BitVec.ofNat 32 (batch n).val) (g : Fin 1024) (k : Fin 64) :
    val_main_v113 (F := Ideal) x0 x1 x2 x3 x4 x5 x6 x7 x8 x9 x10 x11 x12 (ix2 g k)
      = max ((∑ j : Fin 128, Ideal.div (Spec.rPoolS batch (Spec.rH3 𝔸 src dst) g j) (max (Spec.rPoolC batch g) 1)
          * x11 (ix2 j k)) + x12 (ix1 k)) 0 := by
  rw [val_main_v113_apply, val_main_v112_apply, val_main_v109_apply, val_main_v111_apply, val_main_v110_apply,
    val_main_call6_v0_apply, val_main_call6_cst_apply]
  have e1 : ∀ j, lidx_main_v109 (ix2 g k) j = ix2 g j := fun j => funext fun a => Fin.ext (by
    match a with
    | ⟨0, _⟩ => rfl
    | ⟨1, _⟩ => rfl)
  have e2 : ∀ j, ridx_main_v109 (ix2 g k) j = ix2 j k := fun j => funext fun a => Fin.ext (by
    match a with
    | ⟨0, _⟩ => rfl
    | ⟨1, _⟩ => rfl)
  have e3 : idx_main_v110 (idx_main_v111 (ix2 g k)) = ix1 k := funext fun a => Fin.ext (by
    match a with
    | ⟨0, _⟩ => rfl)
  simp only [e1, e2, e3, mean_apply x0 x1 x2 x3 x4 x5 x6 x7 x8 x9 x10 x11 x12 x13 x14 src dst batch hs hd hb]
  show max _ (Ideal.ofBits .f32 0x00000000#32) = _
  rw [Ideal.ofBits_zero_f32]
  rfl

theorem ref_value (hs : ∀ e, x2 (ix2 (0 : Fin 2) e) = BitVec.ofNat 32 (src e).val)
    (hd : ∀ e, x2 (ix2 (1 : Fin 2) e) = BitVec.ofNat 32 (dst e).val)
    (hb : ∀ n, x3 (ix1 n) = BitVec.ofNat 32 (batch n).val) (g : Fin 1024) :
    val_main_v117 (F := Ideal) x0 x1 x2 x3 x4 x5 x6 x7 x8 x9 x10 x11 x12 x13 x14 (ix2 g (0 : Fin 1))
      = Spec.rNet 𝔸 src dst batch g := by
  rw [val_main_v117_apply, val_main_v114_apply, val_main_v116_apply, val_main_v115_apply]
  have e1 : ∀ k, lidx_main_v114 (ix2 g (0 : Fin 1)) k = ix2 g k := fun k => funext fun a => Fin.ext (by
    match a with
    | ⟨0, _⟩ => rfl
    | ⟨1, _⟩ => rfl)
  have e2 : ∀ k, ridx_main_v114 (ix2 g (0 : Fin 1)) k = ix2 k (0 : Fin 1) := fun k => funext fun a => Fin.ext (by
    match a with
    | ⟨0, _⟩ => rfl
    | ⟨1, _⟩ => rfl)
  have e3 : idx_main_v115 (idx_main_v116 (ix2 g (0 : Fin 1))) = ix1 (0 : Fin 1) := funext fun a => Fin.ext (by
    match a with
    | ⟨0, _⟩ => rfl)
  simp only [e1, e2, e3, hidden_apply x0 x1 x2 x3 x4 x5 x6 x7 x8 x9 x10 x11 x12 x13 x14 src dst batch hs hd hb]
  rfl

end Stages

theorem ref_result (m' : (ℓ : Loc nD τ sig) → Buf (Elt Ideal) ℓ) (c : Dev nD)
    (src dst : Fin 1600000 → Fin 100000) (batch : Fin 100000 → Fin 1024)
    (hs : ∀ e, (refArgs m' c).srcW e = BitVec.ofNat 32 (src e).val)
    (hd : ∀ e, (refArgs m' c).dstW e = BitVec.ofNat 32 (dst e).val)
    (hb : ∀ n, (refArgs m' c).batchW n = BitVec.ofNat 32 (batch n).val)
    (g : Fin 1024) :
    (Cert.ReferenceIdeal.Value.res_main_v117 (F := Ideal) m' c : (⟨S1024x1, .f32⟩ : BufTy).Contents (Elt Ideal)) (ix2 g (0 : Fin 1))
      = Spec.rNet (refArgs m' c) src dst batch g := by
  have h := val_main_v117_eq (F := Ideal) m' c
  rw [h]
  exact ref_value _ _ _ _ _ _ _ _ _ _ _ _ _ _ _ src dst batch hs hd hb g

end Cert.ReferenceIdeal.Hand

end
-- ==== Proof.Bridge.lean ====
import proofs.«429186_j15229954031644_1_alg».proof.Proof.Spec

open scoped BigOperators

namespace Cert.Spec

theorem ofNat32_inj {m n : Nat} (hm : m < 2 ^ 32) (hn : n < 2 ^ 32) :
    BitVec.ofNat 32 m = BitVec.ofNat 32 n ↔ m = n := by
  constructor
  · intro h
    have h' := congrArg BitVec.toNat h
    rw [BitVec.toNat_ofNat, BitVec.toNat_ofNat, Nat.mod_eq_of_lt hm, Nat.mod_eq_of_lt hn] at h'
    exact h'
  · rintro rfl; rfl

theorem oh_ofNat {m n : Nat} (hm : m < 2 ^ 32) (hn : n < 2 ^ 32) :
    oh (BitVec.ofNat 32 m) n = if m = n then 1 else 0 := by
  unfold oh
  simp only [ofNat32_inj hm hn]

theorem sum_fin_of_zero_tail {M N : Nat} (hMN : M ≤ N) (f : Fin N → EReal)
    (h0 : ∀ i : Fin N, M ≤ i.val → f i = 0) :
    ∑ i : Fin N, f i = ∑ i : Fin M, f (Fin.castLE hMN i) := by
  obtain ⟨k, rfl⟩ := Nat.exists_eq_add_of_le hMN
  rw [Fin.sum_univ_add]
  have hz : ∑ i : Fin k, f (Fin.natAdd M i) = 0 :=
    Finset.sum_eq_zero (fun i _ => h0 _ (by simp [Fin.natAdd]))
  rw [hz, add_zero]
  rfl

theorem NP_val : NP = 100352 := rfl
theorem NN_val : NN = 100000 := rfl
theorem NG_val : NG = 1024 := rfl

theorem sum_oh_row (h : Fin NP → Fin NH → EReal) (j : Fin NH) (m : Nat) (hm : m < NP) :
    ∑ n : Fin NP, oh (BitVec.ofNat 32 m) n.val * h n j = h ⟨m, hm⟩ j := by
  have hNP := NP_val
  rw [Finset.sum_eq_single (⟨m, hm⟩ : Fin NP)]
  · rw [oh_ofNat (by omega) (by show m < 2 ^ 32; omega)]; simp
  · intro n _ hne
    have hn := n.isLt
    rw [oh_ofNat (by omega) (by omega)]
    have : m ≠ n.val := fun h => hne (Fin.ext h.symm)
    simp [this]
  · intro h; exact absurd (Finset.mem_univ _) h

theorem EE_le_EP : EE ≤ EP := by decide

theorem topRows_kInit (x : Fin NN → Fin 13 → EReal) (W : Fin 13 → Fin NH → EReal) (b : Fin NH → EReal) :
    topRows (kInit (padX x) W b) = kInit x W b := by
  funext n j
  simp [topRows, kInit, padX, n.isLt]

theorem topRows_combine (h aggr : Fin NP → Fin NH → EReal) (eps : EReal) (W : Fin NH → Fin NH → EReal)
    (b : Fin NH → EReal) :
    topRows (combine h aggr eps W b) = combine (topRows h) (topRows aggr) eps W b := rfl

theorem kGather_real (a : Args) (src : Fin EE → Fin NN)
    (hs : ∀ e, a.srcW e = BitVec.ofNat 32 (src e).val)
    (h : Fin NP → Fin NH → EReal) (e : Fin EE) (j : Fin NH) :
    kGather (padW a.srcW) h (padD a.ed) a.We a.be (Fin.castLE EE_le_EP e) j = rMsg src (topRows h) a e j := by
  have he := e.isLt
  have hlt : (src e).val < NP := by
    have := (src e).isLt; have := NN_val; have := NP_val; omega
  simp only [kGather, rMsg, padW, padD, Fin.coe_castLE, dif_pos he, Fin.eta, hs]
  rw [sum_oh_row h j (src e).val hlt]
  simp [topRows]

theorem sum_oh_scatter {E E' N : Nat} (hN : N ≤ 2 ^ 32) (hEE : E ≤ E') (w : Fin E' → BitVec 32)
    (msg : Fin E' → EReal) (n : Fin N) (d : Fin E → Fin N)
    (hw : ∀ e : Fin E, w (Fin.castLE hEE e) = BitVec.ofNat 32 (d e).val)
    (hpad : ∀ e : Fin E', E ≤ e.val → oh (w e) n.val = 0) :
    ∑ e : Fin E', oh (w e) n.val * msg e
      = ∑ e : Fin E, if d e = n then msg (Fin.castLE hEE e) else 0 := by
  refine (sum_fin_of_zero_tail hEE (fun e => oh (w e) n.val * msg e) ?_).trans ?_
  · intro e he
    show oh (w e) n.val * msg e = 0
    rw [hpad e he, zero_mul]
  · apply Finset.sum_congr rfl
    intro e _
    show oh (w (Fin.castLE hEE e)) n.val * msg (Fin.castLE hEE e) = _
    rw [hw, oh_ofNat (lt_of_lt_of_le (d e).isLt hN) (lt_of_lt_of_le n.isLt hN)]
    by_cases hne : d e = n
    · rw [if_pos hne, if_pos (congrArg Fin.val hne), one_mul]
    · rw [if_neg hne, if_neg (fun h => hne (Fin.ext h)), zero_mul]

theorem NN_le_pow : NN ≤ 2 ^ 32 := by decide
theorem NN_le_NP : NN ≤ NP := by decide

theorem topRows_apply {α : Type} (h : Fin NP → Fin NH → α) (n : Fin NN) (j : Fin NH) :
    topRows h n j = h ⟨n.val, Nat.lt_of_lt_of_le n.isLt NN_le_NP⟩ j := rfl

theorem kScatter_apply_top (dst : Fin EP → BitVec 32) (msg : Fin EP → Fin NH → EReal) (n : Fin NN)
    (j : Fin NH) (hn : n.val < NP) :
    kScatter dst msg ⟨n.val, hn⟩ j = ∑ e : Fin EP, oh (dst e) n.val * msg e j := rfl

theorem rAggr_apply (dst : Fin EE → Fin NN) (msg : Fin EE → Fin NH → EReal) (n : Fin NN) (j : Fin NH) :
    rAggr dst msg n j = ∑ e : Fin EE, if dst e = n then msg e j else 0 :=
  zero_add (∑ e : Fin EE, if dst e = n then msg e j else 0)

theorem kScatter_top (a : Args) (dst : Fin EE → Fin NN)
    (hd : ∀ e, a.dstW e = BitVec.ofNat 32 (dst e).val)
    (msg : Fin EP → Fin NH → EReal) (n : Fin NN) (j : Fin NH) :
    topRows (kScatter (padW a.dstW) msg) n j
      = ∑ e : Fin EE, if dst e = n then msg (Fin.castLE EE_le_EP e) j else 0 := by
  have hn := n.isLt
  have hNN := NN_val
  have hw : ∀ e : Fin EE, padW a.dstW (Fin.castLE EE_le_EP e) = BitVec.ofNat 32 (dst e).val := by
    intro e
    simp only [padW, Fin.coe_castLE, dif_pos e.isLt, Fin.eta, hd]
  have hpad : ∀ e : Fin EP, EE ≤ e.val → oh (padW a.dstW e) n.val = 0 := by
    intro e he
    have hnot : ¬ e.val < EE := Nat.not_lt.mpr he
    simp only [padW, dif_neg hnot]
    rw [oh_ofNat (m := 100000) (by norm_num) (by omega)]
    have hne : (100000 : Nat) ≠ n.val := by omega
    rw [if_neg hne]
  rw [topRows_apply, kScatter_apply_top]
  exact sum_oh_scatter NN_le_pow EE_le_EP (padW a.dstW) (fun e => msg e j) n dst hw hpad

theorem topRows_kLayer (a : Args) (src dst : Fin EE → Fin NN)
    (hs : ∀ e, a.srcW e = BitVec.ofNat 32 (src e).val)
    (hd : ∀ e, a.dstW e = BitVec.ofNat 32 (dst e).val)
    (l : Fin 3) (h : Fin NP → Fin NH → EReal) :
    topRows (kLayer a l h) = rLayer a src dst l (topRows h) := by
  have hag : topRows (kScatter (padW a.dstW) (kGather (padW a.srcW) h (padD a.ed) a.We a.be))
      = rAggr dst (rMsg src (topRows h) a) := by
    funext n j
    rw [rAggr_apply]
    refine (kScatter_top a dst hd _ n j).trans ?_
    apply Finset.sum_congr rfl
    intro e _
    rw [kGather_real a src hs]
  unfold kLayer rLayer
  exact (topRows_combine h _ (a.eps l) (a.convW l) (a.convb l)).trans
    (congrArg (fun ag => combine (topRows h) ag (a.eps l) (a.convW l) (a.convb l)) hag)

theorem kPoolS_eq (a : Args) (batch : Fin NN → Fin NG)
    (hb : ∀ n, a.batchW n = BitVec.ofNat 32 (batch n).val) (h : Fin NN → Fin NH → EReal) :
    kPoolS a.batchW h = rPoolS batch h := by
  funext g j
  have hg := g.isLt
  have hNG := NG_val
  simp only [kPoolS, rPoolS, zero_add, hb]
  apply Finset.sum_congr rfl
  intro n _
  have hbn := (batch n).isLt
  rw [oh_ofNat (by omega) (by omega)]
  by_cases hne : batch n = g
  · simp [hne]
  · have : (batch n).val ≠ g.val := fun h => hne (Fin.ext h)
    simp [this, hne]

theorem kPoolC_eq (a : Args) (batch : Fin NN → Fin NG)
    (hb : ∀ n, a.batchW n = BitVec.ofNat 32 (batch n).val) :
    kPoolC a.batchW = rPoolC batch := by
  funext g
  have hg := g.isLt
  have hNG := NG_val
  simp only [kPoolC, rPoolC, zero_add, hb]
  apply Finset.sum_congr rfl
  intro n _
  have hbn := (batch n).isLt
  rw [oh_ofNat (by omega) (by omega)]
  by_cases hne : batch n = g
  · simp [hne]
  · have : (batch n).val ≠ g.val := fun h => hne (Fin.ext h)
    simp [this, hne]

/-- With both tables in range a selector sum is the selected row, and padded rows and edges contribute nothing. -/
theorem kNet_eq_rNet (a : Args) (src dst : Fin EE → Fin NN) (batch : Fin NN → Fin NG)
    (hs : ∀ e, a.srcW e = BitVec.ofNat 32 (src e).val)
    (hd : ∀ e, a.dstW e = BitVec.ofNat 32 (dst e).val)
    (hb : ∀ n, a.batchW n = BitVec.ofNat 32 (batch n).val) :
    kNet a = rNet a src dst batch := by
  have h0 : topRows (kH0 a) = rH0 a := topRows_kInit _ _ _
  have h1 : topRows (kH1 a) = rH1 a src dst := by
    unfold kH1 rH1; rw [topRows_kLayer a src dst hs hd, h0]
  have h2 : topRows (kH2 a) = rH2 a src dst := by
    unfold kH2 rH2; rw [topRows_kLayer a src dst hs hd, h1]
  have h3 : topRows (kH3 a) = rH3 a src dst := by
    unfold kH3 rH3; rw [topRows_kLayer a src dst hs hd, h2]
  unfold kNet rNet
  rw [h3, kPoolS_eq a batch hb, kPoolC_eq a batch hb]

end Cert.Spec
-- ==== Proof.PreDecode.lean ====
import proofs.«429186_j15229954031644_1_alg».proof.Pre_finite_inputs
import proofs.«429186_j15229954031644_1_alg».proof.Proof.Gen.Pre_finite_inputs
import Idealize.ShloMosaic.Lib.ReduceAll
import Idealize.ShloMosaic.Lib.ValueIdx

set_option maxRecDepth 16384

noncomputable section

namespace Cert.PreDecode

open Idealize.ShloMosaic Idealize.ShloMosaic.ValueIdx Cert.Pre_finite_inputs

variable {F : FTy → Type} [FloatOps F] [Cert.Pre_finite_inputs.Facts]

instance subsingleton_S_ : Subsingleton S_.Idx := ⟨fun a b => funext fun d => d.elim0⟩

theorem toNat_lt_of_toInt (w : BitVec 32) (n : Nat) (h0 : 0 ≤ w.toInt) (hn : w.toInt < (n : Int)) : w.toNat < n := by
  have hw := w.isLt
  rw [BitVec.toInt_eq_toNat_cond] at h0 hn
  split at h0 <;> omega

theorem eq_ofNat_toNat (w : BitVec 32) : w = BitVec.ofNat 32 w.toNat := by
  apply BitVec.eq_of_toNat_eq
  rw [BitVec.toNat_ofNat]
  exact (Nat.mod_eq_of_lt w.isLt).symm

theorem part4 (a3 : IVec S100000 32) (v63 : IVec S_ 1) (v65 v67 : IVec S2x1600000 1)
    (h : fn_part4 (F := F) a3 v63 v65 v67 ix0 = 1#1) :
    (∀ i, v65 i = 1#1 ∧ v67 i = 1#1) ∧ (∀ i, 0 ≤ (a3 i).toInt ∧ (a3 i).toInt < 1024) := by
  unfold fn_part4 at h
  dsimp only [andi] at h
  rw [IntOp.andi_eq_one, IntOp.andi_eq_one] at h
  obtain ⟨⟨-, h2⟩, h3⟩ := h
  refine ⟨fun i => ?_, fun i => ?_⟩
  · have e := Host.reduce_andi_all _ _ _ _ _ h2 i
    exact IntOp.andi_eq_one.1 e
  · have e := Host.reduce_andi_all _ _ _ _ _ h3 i
    obtain ⟨e0, e1⟩ := IntOp.andi_eq_one.1 e
    dsimp only [cmpi, broadcastInDim, constantI] at e0 e1
    rw [IntOp.cmpi_sge] at e0
    rw [IntOp.cmpi_slt] at e1
    exact ⟨by simpa using e0, by simpa using e1⟩

def InRange (a2 : IVec S2x1600000 32) (a3 : IVec S100000 32) : Prop :=
  (∀ i, 0 ≤ (a2 i).toInt ∧ (a2 i).toInt < 100000) ∧ (∀ i, 0 ≤ (a3 i).toInt ∧ (a3 i).toInt < 1024)

theorem part3 (a2 : IVec S2x1600000 32) (a3 : IVec S100000 32) (a13 : FVec F S64x1 .f32) (a14 : FVec F S1 .f32)
    (v48 : IVec S_ 1) (v49 v50 : FVec F S64 .f32)
    (h : fn_part3 (F := F) a2 a3 a13 a14 v48 v49 v50 ix0 = 1#1) : InRange a2 a3 := by
  unfold fn_part3 at h
  obtain ⟨h2, h3⟩ := part4 _ _ _ _ h
  refine ⟨fun i => ?_, h3⟩
  obtain ⟨e0, e1⟩ := h2 i
  dsimp only [cmpi, broadcastInDim, constantI] at e0 e1
  rw [IntOp.cmpi_sge] at e0
  rw [IntOp.cmpi_slt] at e1
  exact ⟨by simpa using e0, by simpa using e1⟩

theorem part2 (a2 : IVec S2x1600000 32) (a3 : IVec S100000 32) (a9 : FVec F S3x128 .f32) (a10 : FVec F S3 .f32)
    (a11 : FVec F S128x64 .f32) (a12 : FVec F S64 .f32) (a13 : FVec F S64x1 .f32) (a14 : FVec F S1 .f32) (v33 : IVec S_ 1)
    (h : fn_part2 (F := F) a2 a3 a9 a10 a11 a12 a13 a14 v33 ix0 = 1#1) : InRange a2 a3 := by
  unfold fn_part2 at h
  exact part3 _ _ _ _ _ _ _ h

theorem part1 (a2 : IVec S2x1600000 32) (a3 : IVec S100000 32) (a6 : FVec F S1x128 .f32) (a7 : FVec F S128 .f32)
    (a8 : FVec F S3x128x128 .f32) (a9 : FVec F S3x128 .f32) (a10 : FVec F S3 .f32) (a11 : FVec F S128x64 .f32)
    (a12 : FVec F S64 .f32) (a13 : FVec F S64x1 .f32) (a14 : FVec F S1 .f32) (v13 : IVec S_ 1) (v16 : IVec S128 1)
    (h : fn_part1 (F := F) a2 a3 a6 a7 a8 a9 a10 a11 a12 a13 a14 v13 v16 ix0 = 1#1) : InRange a2 a3 := by
  unfold fn_part1 at h
  exact part2 _ _ _ _ _ _ _ _ _ h

section Whole

variable (a0 : FVec F S100000x13 .f32) (a1 : FVec F S1600000 .f32) (a2 : IVec S2x1600000 32) (a3 : IVec S100000 32)
  (a4 : FVec F S13x128 .f32) (a5 : FVec F S128 .f32) (a6 : FVec F S1x128 .f32) (a7 : FVec F S128 .f32)
  (a8 : FVec F S3x128x128 .f32) (a9 : FVec F S3x128 .f32) (a10 : FVec F S3 .f32) (a11 : FVec F S128x64 .f32)
  (a12 : FVec F S64 .f32) (a13 : FVec F S64x1 .f32) (a14 : FVec F S1 .f32)

theorem inRange_of_pre (h : fn (F := F) a0 a1 a2 a3 a4 a5 a6 a7 a8 a9 a10 a11 a12 a13 a14 = fun _ => 1#1) : InRange a2 a3 := by
  have h0 := congrFun h ix0
  unfold fn at h0
  exact part1 _ _ _ _ _ _ _ _ _ _ _ _ _ h0

theorem exists_fn {M n : Nat} (t : Fin M → BitVec 32) (ht : ∀ i, 0 ≤ (t i).toInt ∧ (t i).toInt < (n : Int)) :
    ∃ f : Fin M → Fin n, ∀ i, t i = BitVec.ofNat 32 (f i).val :=
  ⟨fun i => ⟨(t i).toNat, toNat_lt_of_toInt _ n (ht i).1 (ht i).2⟩, fun i => eq_ofNat_toNat _⟩

/-- The precondition's integer conjuncts say that every word of the edge table and of the graph table is a number in range. -/
theorem decode (h : fn (F := F) a0 a1 a2 a3 a4 a5 a6 a7 a8 a9 a10 a11 a12 a13 a14 = fun _ => 1#1) :
    ∃ (src dst : Fin 1600000 → Fin 100000) (batch : Fin 100000 → Fin 1024),
      (∀ e, a2 (ix2 (0 : Fin 2) e) = BitVec.ofNat 32 (src e).val)
      ∧ (∀ e, a2 (ix2 (1 : Fin 2) e) = BitVec.ofNat 32 (dst e).val)
      ∧ (∀ n, a3 (ix1 n) = BitVec.ofNat 32 (batch n).val) := by
  obtain ⟨hE, hB⟩ := inRange_of_pre a0 a1 a2 a3 a4 a5 a6 a7 a8 a9 a10 a11 a12 a13 a14 h
  obtain ⟨src, hs⟩ := exists_fn (n := 100000) (fun e : Fin 1600000 => a2 (ix2 (0 : Fin 2) e)) (fun e => hE _)
  obtain ⟨dst, hd⟩ := exists_fn (n := 100000) (fun e : Fin 1600000 => a2 (ix2 (1 : Fin 2) e)) (fun e => hE _)
  obtain ⟨batch, hb⟩ := exists_fn (n := 1024) (fun n : Fin 100000 => a3 (ix1 n)) (fun n => hB _)
  exact ⟨src, dst, batch, hs, hd, hb⟩

end Whole

end Cert.PreDecode

end
-- ==== Proof.Algebraic.lean ====
import proofs.«429186_j15229954031644_1_alg».proof.Defs
import proofs.«429186_j15229954031644_1_alg».proof.Proof.Gen.KernelIdeal
import proofs.«429186_j15229954031644_1_alg».proof.Proof.Gen.ReferenceIdeal
import proofs.«429186_j15229954031644_1_alg».proof.Proof.Gen.Pre_finite_inputs
import proofs.«429186_j15229954031644_1_alg».proof.Proof.KI.Run
import proofs.«429186_j15229954031644_1_alg».proof.Proof.KI.ChainTail
import proofs.«429186_j15229954031644_1_alg».proof.Proof.Ref
import proofs.«429186_j15229954031644_1_alg».proof.Proof.Bridge
import proofs.«429186_j15229954031644_1_alg».proof.Proof.PreDecode

set_option maxRecDepth 16384

noncomputable section

namespace Cert.Proof

open Idealize.ShloMosaic Idealize.ShloMosaic.TcCoe Idealize.SL.Sem Idealize.ShloMosaic.ValueIdx

abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

/-- Under the precondition both index tables hold numbers in range, where the selection form and the direct form of the network agree. -/
theorem value_eq (m : KMem) (ρ : Dev Cert.KernelIdeal.nD → PrngReg) (m' : RMem)
    (c : Dev Cert.KernelIdeal.nD) (hp : Cert.Pre_KernelIdeal m)
    (hA : Cert.ReferenceIdeal.Hand.refArgs m' c = Cert.KernelIdeal.Hand.kArgs m c) :
    (Cert.ReferenceIdeal.Value.res_main_v117 (F := Ideal) m' c : Cert.ReferenceIdeal.S1024x1.Idx → EReal) = Cert.KernelIdeal.Hand.W27 (F := Ideal) m ρ c (Proc.devRef .tc Cert.KernelIdeal.main_v59) := by
  obtain ⟨src, dst, batch, hs, hd, hb⟩ := Cert.PreDecode.decode _ _ _ _ _ _ _ _ _ _ _ _ _ _ _ (hp c)
  have hs' : ∀ e, (Cert.ReferenceIdeal.Hand.refArgs m' c).srcW e = BitVec.ofNat 32 (src e).val :=
    fun e => (congrFun (congrArg Spec.Args.srcW hA) e).trans (hs e)
  have hd' : ∀ e, (Cert.ReferenceIdeal.Hand.refArgs m' c).dstW e = BitVec.ofNat 32 (dst e).val :=
    fun e => (congrFun (congrArg Spec.Args.dstW hA) e).trans (hd e)
  have hb' : ∀ n, (Cert.ReferenceIdeal.Hand.refArgs m' c).batchW n = BitVec.ofNat 32 (batch n).val :=
    fun n => (congrFun (congrArg Spec.Args.batchW hA) n).trans (hb n)
  funext i
  obtain ⟨g, z, rfl⟩ : ∃ (g : Fin 1024) (z : Fin 1), i = ix2 g z := ⟨i 0, i 1, eq_ix2 i⟩
  obtain rfl : z = 0 := Fin.eq_zero z
  exact (Cert.ReferenceIdeal.Hand.ref_result m' c src dst batch hs' hd' hb' g).trans <|
    (congrArg (fun a => Spec.rNet a src dst batch g) hA).trans <|
      (congrFun (Spec.kNet_eq_rNet (Cert.KernelIdeal.Hand.kArgs m c) src dst batch hs hd hb) g).symm.trans (Cert.KernelIdeal.Hand.result m ρ c g).symm

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W27 (F := Ideal) m ρ c (Proc.devRef .tc Cert.KernelIdeal.main_v59), ?_, ?_⟩
  · exact (θ_run Cert.KernelIdeal.defs _ _).mono (fun r h c => ⟨h c _ (Cert.KernelIdeal.Hand.mem_uc Cert.KernelIdeal.main_v59 (by decide)),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide),
      Cert.KernelIdeal.Hand.end_arg m ρ _ h c (by decide)⟩)
      (Cert.KernelIdeal.Hand.run_all m ρ)
  · exact (θ_run Cert.ReferenceIdeal.defs _ _).mono
      (fun r h c => ⟨(h c).1.trans (value_eq m ρ m' c hpre (by
        obtain ⟨h0, h1, h2, h3, h4, h5, h6, h7, h8, h9, h10, h11, h12, h13, h14⟩ := hagree c
        unfold Cert.ReferenceIdeal.Hand.refArgs
        rw [h0, h1, h2, h3, h4, h5, h6, h7, h8, h9, h10, h11, h12, h13, h14]
        rfl)), (h c).2⟩)
      (Cert.ReferenceIdeal.Value.run (F := Ideal) m' ρ')

end Cert.Proof

end
-- ==== Proof.lean ====
import proofs.«429186_j15229954031644_1_alg».proof.Defs
import proofs.«429186_j15229954031644_1_alg».proof.Proof.Gen.Kernel
import proofs.«429186_j15229954031644_1_alg».proof.Proof.Gen.KernelIdeal
import proofs.«429186_j15229954031644_1_alg».proof.Proof.Gen.ReferenceIdeal
import proofs.«429186_j15229954031644_1_alg».proof.Proof.Gen.ReferenceIdeal.Run
import proofs.«429186_j15229954031644_1_alg».proof.Proof.Gen.Pre_finite_inputs
import proofs.«429186_j15229954031644_1_alg».proof.Proof.KB.Run
import proofs.«429186_j15229954031644_1_alg».proof.Proof.KI.Run
import proofs.«429186_j15229954031644_1_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := IdealRules.truncf_extf.statement _ .f32 .bf16

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
